-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_arg1)) (v2 : (c : Dev Cert.KernelIdeal.nD) → Buf (Elt Ideal) ((c.tc : Thread Cert.KernelIdeal.nD Cert.KernelIdeal.τ).loc Cert.KernelIdeal.main_v649)) (v3 : (c : Dev Cert.KernelIdeal.nD) → Buf (Elt Ideal) ((c.tc : Thread Cert.KernelIdeal.nD Cert.KernelIdeal.τ).loc Cert.KernelIdeal.main_v648)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_v649) = v2 c
          ∧ r.2.mem ((c.tc : Thread Cert.KernelIdeal.nD Cert.KernelIdeal.τ).loc Cert.KernelIdeal.main_v648) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_v767) = v2 c
          ∧ r.2.mem ((c.tc : Thread Cert.ReferenceIdeal.nD Cert.ReferenceIdeal.τ).loc Cert.ReferenceIdeal.main_v766) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x3 : Shape := ⟨2, ![500000, 3]⟩
abbrev S500000x4 : Shape := ⟨2, ![500000, 4]⟩
abbrev S500000x16x3 : Shape := ⟨3, ![500000, 16, 3]⟩
abbrev S500000x1 : Shape := ⟨2, ![500000, 1]⟩
abbrev S500000x2 : Shape := ⟨2, ![500000, 2]⟩
abbrev S3x128x128x32 : Shape := ⟨4, ![3, 128, 128, 32]⟩
abbrev S32x256 : Shape := ⟨2, ![32, 256]⟩
abbrev S256 : Shape := ⟨1, ![256]⟩
abbrev S256x256 : Shape := ⟨2, ![256, 256]⟩
abbrev S256x48 : Shape := ⟨2, ![256, 48]⟩
abbrev S48 : Shape := ⟨1, ![48]⟩
abbrev S_ : Shape := ⟨0, ![]⟩

class Facts : Prop where
  bcast_S_S500000x3 : S_.BroadcastsInDim S500000x3 (![] : Fin 0 → Fin S500000x3.rank)
  reducesTo_S500000x3_S_d0_1 : S500000x3.ReducesTo [0, 1] S_
  h_S_ : 0 < S_.numel
  bcast_S_S500000x4 : S_.BroadcastsInDim S500000x4 (![] : Fin 0 → Fin S500000x4.rank)
  reducesTo_S500000x4_S_d0_1 : S500000x4.ReducesTo [0, 1] S_
  bcast_S_S500000x16x3 : S_.BroadcastsInDim S500000x16x3 (![] : Fin 0 → Fin S500000x16x3.rank)
  reducesTo_S500000x16x3_S_d0_1_2 : S500000x16x3.ReducesTo [0, 1, 2] S_
  bcast_S_S500000x1 : S_.BroadcastsInDim S500000x1 (![] : Fin 0 → Fin S500000x1.rank)
  reducesTo_S500000x1_S_d0_1 : S500000x1.ReducesTo [0, 1] S_
  bcast_S_S500000x2 : S_.BroadcastsInDim S500000x2 (![] : Fin 0 → Fin S500000x2.rank)
  reducesTo_S500000x2_S_d0_1 : S500000x2.ReducesTo [0, 1] S_
  bcast_S_S3x128x128x32 : S_.BroadcastsInDim S3x128x128x32 (![] : Fin 0 → Fin S3x128x128x32.rank)
  reducesTo_S3x128x128x32_S_d0_1_2_3 : S3x128x128x32.ReducesTo [0, 1, 2, 3] S_
  bcast_S_S32x256 : S_.BroadcastsInDim S32x256 (![] : Fin 0 → Fin S32x256.rank)
  reducesTo_S32x256_S_d0_1 : S32x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x48 : S_.BroadcastsInDim S256x48 (![] : Fin 0 → Fin S256x48.rank)
  reducesTo_S256x48_S_d0_1 : S256x48.ReducesTo [0, 1] S_
  bcast_S_S48 : S_.BroadcastsInDim S48 (![] : Fin 0 → Fin S48.rank)
  reducesTo_S48_S_d0 : S48.ReducesTo [0] S_

variable [Facts]

def fn_part4 {F : FTy → Type} [FloatOps F] (main_arg14 : FVec F S48 .f32) (main_v63 : IVec S_ 1) (main_v67 : IVec S_ 1) : IVec S_ 1 :=
  let main_v68 : IVec S_ 1 := andi main_v63 main_v67
  let main_v69 : FVec F S48 .f32 := Host.absf main_arg14
  let main_cst_26 : FVec F S_ .f32 := constant S_ .f32 0x7F800000#32
  let main_v70 : FVec F S48 .f32 := broadcastInDim S48 ![] bcast_S_S48 main_cst_26
  let main_v71 : IVec S48 1 := cmpf .olt main_v69 main_v70
  let main_c_27 : IVec S_ 1 := constantI S_ 1 1#1
  let main_v72 : IVec S_ 1 := (fun x v => Host.reduce IntOp.andi x v reducesTo_S48_S_d0 h_S_) main_v71 main_c_27
  let main_v73 : IVec S_ 1 := andi main_v68 main_v72
  main_v73

def fn_part3 {F : FTy → Type} [FloatOps F] (main_arg11 : FVec F S256x256 .f32) (main_arg12 : FVec F S256 .f32) (main_arg13 : FVec F S256x48 .f32) (main_arg14 : FVec F S48 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg11
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x48 .f32 := Host.absf main_arg13
  let main_cst_24 : FVec F S_ .f32 := constant S_ .f32 0x7F800000#32
  let main_v65 : FVec F S256x48 .f32 := broadcastInDim S256x48 ![] bcast_S_S256x48 main_cst_24
  let main_v66 : IVec S256x48 1 := cmpf .olt main_v64 main_v65
  let main_c_25 : IVec S_ 1 := constantI S_ 1 1#1
  let main_v67 : IVec S_ 1 := (fun x v => Host.reduce IntOp.andi x v reducesTo_S256x48_S_d0_1 h_S_) main_v66 main_c_25
  fn_part4 (F := F) main_arg14 main_v63 main_v67

def fn_part2 {F : FTy → Type} [FloatOps F] (main_arg7 : FVec F S3x128x128x32 .f32) (main_arg8 : FVec F S3x128x128x32 .f32) (main_arg9 : FVec F S32x256 .f32) (main_arg10 : FVec F S256 .f32) (main_arg11 : FVec F S256x256 .f32) (main_arg12 : FVec F S256 .f32) (main_arg13 : FVec F S256x48 .f32) (main_arg14 : FVec F S48 .f32) (main_v33 : IVec S_ 1) : IVec S_ 1 :=
  let main_v34 : FVec F S3x128x128x32 .f32 := Host.absf main_arg7
  let main_cst_12 : FVec F S_ .f32 := constant S_ .f32 0x7F800000#32
  let main_v35 : FVec F S3x128x128x32 .f32 := broadcastInDim S3x128x128x32 ![] bcast_S_S3x128x128x32 main_cst_12
  let main_v36 : IVec S3x128x128x32 1 := cmpf .olt main_v34 main_v35
  let main_c_13 : IVec S_ 1 := constantI S_ 1 1#1
  let main_v37 : IVec S_ 1 := (fun x v => Host.reduce IntOp.andi x v reducesTo_S3x128x128x32_S_d0_1_2_3 h_S_) main_v36 main_c_13
  let main_v38 : IVec S_ 1 := andi main_v33 main_v37
  let main_v39 : FVec F S3x128x128x32 .f32 := Host.absf main_arg8
  let main_cst_14 : FVec F S_ .f32 := constant S_ .f32 0x7F800000#32
  let main_v40 : FVec F S3x128x128x32 .f32 := broadcastInDim S3x128x128x32 ![] bcast_S_S3x128x128x32 main_cst_14
  let main_v41 : IVec S3x128x128x32 1 := cmpf .olt main_v39 main_v40
  let main_c_15 : IVec S_ 1 := constantI S_ 1 1#1
  let main_v42 : IVec S_ 1 := (fun x v => Host.reduce IntOp.andi x v reducesTo_S3x128x128x32_S_d0_1_2_3 h_S_) main_v41 main_c_15
  let main_v43 : IVec S_ 1 := andi main_v38 main_v42
  let main_v44 : FVec F S32x256 .f32 := Host.absf main_arg9
  let main_cst_16 : FVec F S_ .f32 := constant S_ .f32 0x7F800000#32
  let main_v45 : FVec F S32x256 .f32 := broadcastInDim S32x256 ![] bcast_S_S32x256 main_cst_16
  let main_v46 : IVec S32x256 1 := cmpf .olt main_v44 main_v45
  let main_c_17 : IVec S_ 1 := constantI S_ 1 1#1
  let main_v47 : IVec S_ 1 := (fun x v => Host.reduce IntOp.andi x v reducesTo_S32x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_arg14 main_v48 main_v49 main_v50

def fn_part1 {F : FTy → Type} [FloatOps F] (main_arg4 : FVec F S500000x3 .f32) (main_arg5 : FVec F S500000x1 .f32) (main_arg6 : FVec F S500000x2 .f32) (main_arg7 : FVec F S3x128x128x32 .f32) (main_arg8 : FVec F S3x128x128x32 .f32) (main_arg9 : FVec F S32x256 .f32) (main_arg10 : FVec F S256 .f32) (main_arg11 : FVec F S256x256 .f32) (main_arg12 : FVec F S256 .f32) (main_arg13 : FVec F S256x48 .f32) (main_arg14 : FVec F S48 .f32) (main_v13 : IVec S_ 1) (main_v16 : IVec S500000x16x3 1) : IVec S_ 1 :=
  let main_c_5 : IVec S_ 1 := constantI S_ 1 1#1
  let main_v17 : IVec S_ 1 := (fun x v => Host.reduce IntOp.andi x v reducesTo_S500000x16x3_S_d0_1_2 h_S_) main_v16 main_c_5
  let main_v18 : IVec S_ 1 := andi main_v13 main_v17
  let main_v19 : FVec F S500000x3 .f32 := Host.absf main_arg4
  let main_cst_6 : FVec F S_ .f32 := constant S_ .f32 0x7F800000#32
  let main_v20 : FVec F S500000x3 .f32 := broadcastInDim S500000x3 ![] bcast_S_S500000x3 main_cst_6
  let main_v21 : IVec S500000x3 1 := cmpf .olt main_v19 main_v20
  let main_c_7 : IVec S_ 1 := constantI S_ 1 1#1
  let main_v22 : IVec S_ 1 := (fun x v => Host.reduce IntOp.andi x v reducesTo_S500000x3_S_d0_1 h_S_) main_v21 main_c_7
  let main_v23 : IVec S_ 1 := andi main_v18 main_v22
  let main_v24 : FVec F S500000x1 .f32 := Host.absf main_arg5
  let main_cst_8 : FVec F S_ .f32 := constant S_ .f32 0x7F800000#32
  let main_v25 : FVec F S500000x1 .f32 := broadcastInDim S500000x1 ![] bcast_S_S500000x1 main_cst_8
  let main_v26 : IVec S500000x1 1 := cmpf .olt main_v24 main_v25
  let main_c_9 : IVec S_ 1 := constantI S_ 1 1#1
  let main_v27 : IVec S_ 1 := (fun x v => Host.reduce IntOp.andi x v reducesTo_S500000x1_S_d0_1 h_S_) main_v26 main_c_9
  let main_v28 : IVec S_ 1 := andi main_v23 main_v27
  let main_v29 : FVec F S500000x2 .f32 := Host.absf main_arg6
  let main_cst_10 : FVec F S_ .f32 := constant S_ .f32 0x7F800000#32
  let main_v30 : FVec F S500000x2 .f32 := broadcastInDim S500000x2 ![] bcast_S_S500000x2 main_cst_10
  let main_v31 : IVec S500000x2 1 := cmpf .olt main_v29 main_v30
  let main_c_11 : IVec S_ 1 := constantI S_ 1 1#1
  let main_v32 : IVec S_ 1 := (fun x v => Host.reduce IntOp.andi x v reducesTo_S500000x2_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S500000x3 .f32) (main_arg1 : FVec F S500000x4 .f32) (main_arg2 : FVec F S500000x3 .f32) (main_arg3 : FVec F S500000x16x3 .f32) (main_arg4 : FVec F S500000x3 .f32) (main_arg5 : FVec F S500000x1 .f32) (main_arg6 : FVec F S500000x2 .f32) (main_arg7 : FVec F S3x128x128x32 .f32) (main_arg8 : FVec F S3x128x128x32 .f32) (main_arg9 : FVec F S32x256 .f32) (main_arg10 : FVec F S256 .f32) (main_arg11 : FVec F S256x256 .f32) (main_arg12 : FVec F S256 .f32) (main_arg13 : FVec F S256x48 .f32) (main_arg14 : FVec F S48 .f32) : IVec S_ 1 :=
  let main_v0 : FVec F S500000x3 .f32 := Host.absf main_arg0
  let main_cst : FVec F S_ .f32 := constant S_ .f32 0x7F800000#32
  let main_v1 : FVec F S500000x3 .f32 := broadcastInDim S500000x3 ![] bcast_S_S500000x3 main_cst
  let main_v2 : IVec S500000x3 1 := cmpf .olt main_v0 main_v1
  let main_c : IVec S_ 1 := constantI S_ 1 1#1
  let main_v3 : IVec S_ 1 := (fun x v => Host.reduce IntOp.andi x v reducesTo_S500000x3_S_d0_1 h_S_) main_v2 main_c
  let main_v4 : FVec F S500000x4 .f32 := Host.absf main_arg1
  let main_cst_0 : FVec F S_ .f32 := constant S_ .f32 0x7F800000#32
  let main_v5 : FVec F S500000x4 .f32 := broadcastInDim S500000x4 ![] bcast_S_S500000x4 main_cst_0
  let main_v6 : IVec S500000x4 1 := cmpf .olt main_v4 main_v5
  let main_c_1 : IVec S_ 1 := constantI S_ 1 1#1
  let main_v7 : IVec S_ 1 := (fun x v => Host.reduce IntOp.andi x v reducesTo_S500000x4_S_d0_1 h_S_) main_v6 main_c_1
  let main_v8 : IVec S_ 1 := andi main_v3 main_v7
  let main_v9 : FVec F S500000x3 .f32 := Host.absf main_arg2
  let main_cst_2 : FVec F S_ .f32 := constant S_ .f32 0x7F800000#32
  let main_v10 : FVec F S500000x3 .f32 := broadcastInDim S500000x3 ![] bcast_S_S500000x3 main_cst_2
  let main_v11 : IVec S500000x3 1 := cmpf .olt main_v9 main_v10
  let main_c_3 : IVec S_ 1 := constantI S_ 1 1#1
  let main_v12 : IVec S_ 1 := (fun x v => Host.reduce IntOp.andi x v reducesTo_S500000x3_S_d0_1 h_S_) main_v11 main_c_3
  let main_v13 : IVec S_ 1 := andi main_v8 main_v12
  let main_v14 : FVec F S500000x16x3 .f32 := Host.absf main_arg3
  let main_cst_4 : FVec F S_ .f32 := constant S_ .f32 0x7F800000#32
  let main_v15 : FVec F S500000x16x3 .f32 := broadcastInDim S500000x16x3 ![] bcast_S_S500000x16x3 main_cst_4
  let main_v16 : IVec S500000x16x3 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S500000x3 : Shape := ⟨2, ![500000, 3]⟩
abbrev S500000x4 : Shape := ⟨2, ![500000, 4]⟩
abbrev S500000x16x3 : Shape := ⟨3, ![500000, 16, 3]⟩
abbrev S500000x1 : Shape := ⟨2, ![500000, 1]⟩
abbrev S500000x2 : Shape := ⟨2, ![500000, 2]⟩
abbrev S3x128x128x32 : Shape := ⟨4, ![3, 128, 128, 32]⟩
abbrev S32x256 : Shape := ⟨2, ![32, 256]⟩
abbrev S256 : Shape := ⟨1, ![256]⟩
abbrev S256x256 : Shape := ⟨2, ![256, 256]⟩
abbrev S256x48 : Shape := ⟨2, ![256, 48]⟩
abbrev S48 : Shape := ⟨1, ![48]⟩
abbrev S_ : Shape := ⟨0, ![]⟩
abbrev S500000 : Shape := ⟨1, ![500000]⟩
abbrev S1x128x128x32 : Shape := ⟨4, ![1, 128, 128, 32]⟩
abbrev S128x128x32 : Shape := ⟨3, ![128, 128, 32]⟩
abbrev S500000x32 : Shape := ⟨2, ![500000, 32]⟩
abbrev S500000x192 : Shape := ⟨2, ![500000, 192]⟩
abbrev S500000x48 : Shape := ⟨2, ![500000, 48]⟩
abbrev S2000x192 : Shape := ⟨2, ![2000, 192]⟩
abbrev S2000x48 : Shape := ⟨2, ![2000, 48]⟩
abbrev S2000x32 : Shape := ⟨2, ![2000, 32]⟩
abbrev S2000x256 : Shape := ⟨2, ![2000, 256]⟩
abbrev S1x256 : Shape := ⟨2, ![1, 256]⟩
abbrev S1x48 : Shape := ⟨2, ![1, 48]⟩

abbrev nBuf : Space → Nat
  | .hbm => 1000
  | .vmem => 12
  | .smem => 0
  | _ => 0

abbrev hbmTy0_0 (i : Nat) : BufTy := match i % 128 with
  | 0 => ⟨S500000x3, .f32⟩
  | 1 => ⟨S500000x4, .f32⟩
  | 2 => ⟨S500000x3, .f32⟩
  | 3 => ⟨S500000x16x3, .f32⟩
  | 4 => ⟨S500000x3, .f32⟩
  | 5 => ⟨S500000x1, .f32⟩
  | 6 => ⟨S500000x2, .f32⟩
  | 7 => ⟨S3x128x128x32, .f32⟩
  | 8 => ⟨S3x128x128x32, .f32⟩
  | 9 => ⟨S32x256, .f32⟩
  | 10 => ⟨S256, .f32⟩
  | 11 => ⟨S256x256, .f32⟩
  | 12 => ⟨S256, .f32⟩
  | 13 => ⟨S256x48, .f32⟩
  | 14 => ⟨S48, .f32⟩
  | 15 => ⟨S_, .f32⟩
  | 16 => ⟨S500000x3, .f32⟩
  | 17 => ⟨S500000x3, .f32⟩
  | 18 => ⟨S_, .f32⟩
  | 19 => ⟨S_, .f32⟩
  | 20 => ⟨S_, .f32⟩
  | 21 => ⟨S500000x3, .f32⟩
  | 22 => ⟨S500000x3, .f32⟩
  | 23 => ⟨S_, .f32⟩
  | 24 => ⟨S500000x3, .f32⟩
  | 25 => ⟨S500000x3, .f32⟩
  | 26 => ⟨S_, .f32⟩
  | 27 => ⟨S500000x3, .f32⟩
  | 28 => ⟨S500000x3, .f32⟩
  | 29 => ⟨S_, .f32⟩
  | 30 => ⟨S500000x3, .f32⟩
  | 31 => ⟨S500000x3, .f32⟩
  | 32 => ⟨S500000x1, .f32⟩
  | 33 => ⟨S500000, .f32⟩
  | 34 => ⟨S500000x1, .f32⟩
  | 35 => ⟨S500000, .f32⟩
  | 36 => ⟨S500000x1, .f32⟩
  | 37 => ⟨S500000, .f32⟩
  | 38 => ⟨S500000, .f32⟩
  | 39 => ⟨S_, .f32⟩
  | 40 => ⟨S_, .f32⟩
  | 41 => ⟨S_, .f32⟩
  | 42 => ⟨S500000, .f32⟩
  | 43 => ⟨S500000, .f32⟩
  | 44 => ⟨S_, .f32⟩
  | 45 => ⟨S500000, .f32⟩
  | 46 => ⟨S500000, .f32⟩
  | 47 => ⟨S1x128x128x32, .f32⟩
  | 48 => ⟨S128x128x32, .f32⟩
  | 49 => ⟨S_, .f32⟩
  | 50 => ⟨S_, .f32⟩
  | 51 => ⟨S_, .f32⟩
  | 52 => ⟨S500000, .f32⟩
  | 53 => ⟨S500000, .f32⟩
  | 54 => ⟨S_, .f32⟩
  | 55 => ⟨S500000, .f32⟩
  | 56 => ⟨S500000, .f32⟩
  | 57 => ⟨S_, .f32⟩
  | 58 => ⟨S500000, .f32⟩
  | 59 => ⟨S500000, .f32⟩
  | 60 => ⟨S_, .f32⟩
  | 61 => ⟨S_, .f32⟩
  | 62 => ⟨S_, .f32⟩
  | 63 => ⟨S500000, .f32⟩
  | 64 => ⟨S500000, .f32⟩
  | 65 => ⟨S_, .f32⟩
  | 66 => ⟨S500000, .f32⟩
  | 67 => ⟨S500000, .f32⟩
  | 68 => ⟨S_, .f32⟩
  | 69 => ⟨S500000, .f32⟩
  | 70 => ⟨S500000, .f32⟩
  | 71 => ⟨S500000, .f32⟩
  | 72 => ⟨S_, .i32⟩
  | 73 => ⟨S_, .i32⟩
  | 74 => ⟨S_, .f32⟩
  | 75 => ⟨S500000, .f32⟩
  | 76 => ⟨S500000, .f32⟩
  | 77 => ⟨S_, .f32⟩
  | 78 => ⟨S500000, .f32⟩
  | 79 => ⟨S500000, .f32⟩
  | 80 => ⟨S500000, .i32⟩
  | 81 => ⟨S500000, .f32⟩
  | 82 => ⟨S_, .i32⟩
  | 83 => ⟨S_, .i32⟩
  | 84 => ⟨S_, .f32⟩
  | 85 => ⟨S500000, .f32⟩
  | 86 => ⟨S500000, .f32⟩
  | 87 => ⟨S_, .f32⟩
  | 88 => ⟨S500000, .f32⟩
  | 89 => ⟨S500000, .f32⟩
  | 90 => ⟨S500000, .i32⟩
  | 91 => ⟨S500000, .f32⟩
  | 92 => ⟨S500000, .f32⟩
  | 93 => ⟨S500000x1, .f32⟩
  | 94 => ⟨S500000, .f32⟩
  | 95 => ⟨S500000, .f32⟩
  | 96 => ⟨S500000x1, .f32⟩
  | 97 => ⟨S_, .i32⟩
  | 98 => ⟨S500000, .i32⟩
  | 99 => ⟨S500000, .i1⟩
  | 100 => ⟨S_, .i32⟩
  | 101 => ⟨S500000, .i32⟩
  | 102 => ⟨S500000, .i32⟩
  | 103 => ⟨S500000, .i32⟩
  | 104 => ⟨S_, .i32⟩
  | 105 => ⟨S500000, .i32⟩
  | 106 => ⟨S500000, .i1⟩
  | 107 => ⟨S_, .i32⟩
  | 108 => ⟨S500000, .i32⟩
  | 109 => ⟨S500000, .i32⟩
  | 110 => ⟨S500000, .i32⟩
  | 111 => ⟨S500000x1, .i32⟩
  | 112 => ⟨S500000x1, .i32⟩
  | 113 => ⟨S500000x2, .i32⟩
  | 114 => ⟨S500000x32, .f32⟩
  | 115 => ⟨S_, .i32⟩
  | 116 => ⟨S500000, .i32⟩
  | 117 => ⟨S500000, .i32⟩
  | 118 => ⟨S_, .i32⟩
  | 119 => ⟨S500000, .i32⟩
  | 120 => ⟨S500000, .i1⟩
  | 121 => ⟨S_, .i32⟩
  | 122 => ⟨S500000, .i32⟩
  | 123 => ⟨S500000, .i32⟩
  | 124 => ⟨S500000, .i32⟩
  | 125 => ⟨S_, .i32⟩
  | 126 => ⟨S500000, .i32⟩
  | 127 => ⟨S500000, .i1⟩
  | _ => ⟨S500000x3, .f32⟩

abbrev hbmTy0_1 (i : Nat) : BufTy := match i % 128 with
  | 0 => ⟨S_, .i32⟩
  | 1 => ⟨S500000, .i32⟩
  | 2 => ⟨S500000, .i32⟩
  | 3 => ⟨S500000, .i32⟩
  | 4 => ⟨S500000x1, .i32⟩
  | 5 => ⟨S500000x1, .i32⟩
  | 6 => ⟨S500000x2, .i32⟩
  | 7 => ⟨S500000x32, .f32⟩
  | 8 => ⟨S_, .i32⟩
  | 9 => ⟨S500000, .i32⟩
  | 10 => ⟨S500000, .i32⟩
  | 11 => ⟨S_, .i32⟩
  | 12 => ⟨S500000, .i32⟩
  | 13 => ⟨S500000, .i1⟩
  | 14 => ⟨S_, .i32⟩
  | 15 => ⟨S500000, .i32⟩
  | 16 => ⟨S500000, .i32⟩
  | 17 => ⟨S500000, .i32⟩
  | 18 => ⟨S_, .i32⟩
  | 19 => ⟨S500000, .i32⟩
  | 20 => ⟨S500000, .i1⟩
  | 21 => ⟨S_, .i32⟩
  | 22 => ⟨S500000, .i32⟩
  | 23 => ⟨S500000, .i32⟩
  | 24 => ⟨S500000, .i32⟩
  | 25 => ⟨S500000x1, .i32⟩
  | 26 => ⟨S500000x1, .i32⟩
  | 27 => ⟨S500000x2, .i32⟩
  | 28 => ⟨S500000x32, .f32⟩
  | 29 => ⟨S_, .i32⟩
  | 30 => ⟨S500000, .i32⟩
  | 31 => ⟨S500000, .i32⟩
  | 32 => ⟨S_, .i32⟩
  | 33 => ⟨S500000, .i32⟩
  | 34 => ⟨S500000, .i32⟩
  | 35 => ⟨S_, .i32⟩
  | 36 => ⟨S500000, .i32⟩
  | 37 => ⟨S500000, .i1⟩
  | 38 => ⟨S_, .i32⟩
  | 39 => ⟨S500000, .i32⟩
  | 40 => ⟨S500000, .i32⟩
  | 41 => ⟨S500000, .i32⟩
  | 42 => ⟨S_, .i32⟩
  | 43 => ⟨S500000, .i32⟩
  | 44 => ⟨S500000, .i1⟩
  | 45 => ⟨S_, .i32⟩
  | 46 => ⟨S500000, .i32⟩
  | 47 => ⟨S500000, .i32⟩
  | 48 => ⟨S500000, .i32⟩
  | 49 => ⟨S500000x1, .i32⟩
  | 50 => ⟨S500000x1, .i32⟩
  | 51 => ⟨S500000x2, .i32⟩
  | 52 => ⟨S500000x32, .f32⟩
  | 53 => ⟨S_, .f32⟩
  | 54 => ⟨S500000x1, .f32⟩
  | 55 => ⟨S500000x1, .f32⟩
  | 56 => ⟨S500000x32, .f32⟩
  | 57 => ⟨S500000x32, .f32⟩
  | 58 => ⟨S500000x32, .f32⟩
  | 59 => ⟨S500000x32, .f32⟩
  | 60 => ⟨S500000x32, .f32⟩
  | 61 => ⟨S_, .f32⟩
  | 62 => ⟨S500000x1, .f32⟩
  | 63 => ⟨S500000x1, .f32⟩
  | 64 => ⟨S500000x32, .f32⟩
  | 65 => ⟨S500000x32, .f32⟩
  | 66 => ⟨S_, .f32⟩
  | 67 => ⟨S500000x1, .f32⟩
  | 68 => ⟨S500000x1, .f32⟩
  | 69 => ⟨S500000x32, .f32⟩
  | 70 => ⟨S500000x32, .f32⟩
  | 71 => ⟨S500000x32, .f32⟩
  | 72 => ⟨S500000x32, .f32⟩
  | 73 => ⟨S500000x32, .f32⟩
  | 74 => ⟨S500000x32, .f32⟩
  | 75 => ⟨S500000x32, .f32⟩
  | 76 => ⟨S500000x32, .f32⟩
  | 77 => ⟨S1x128x128x32, .f32⟩
  | 78 => ⟨S128x128x32, .f32⟩
  | 79 => ⟨S_, .f32⟩
  | 80 => ⟨S_, .f32⟩
  | 81 => ⟨S_, .f32⟩
  | 82 => ⟨S500000, .f32⟩
  | 83 => ⟨S500000, .f32⟩
  | 84 => ⟨S_, .f32⟩
  | 85 => ⟨S500000, .f32⟩
  | 86 => ⟨S500000, .f32⟩
  | 87 => ⟨S_, .f32⟩
  | 88 => ⟨S500000, .f32⟩
  | 89 => ⟨S500000, .f32⟩
  | 90 => ⟨S_, .f32⟩
  | 91 => ⟨S_, .f32⟩
  | 92 => ⟨S_, .f32⟩
  | 93 => ⟨S500000, .f32⟩
  | 94 => ⟨S500000, .f32⟩
  | 95 => ⟨S_, .f32⟩
  | 96 => ⟨S500000, .f32⟩
  | 97 => ⟨S500000, .f32⟩
  | 98 => ⟨S_, .f32⟩
  | 99 => ⟨S500000, .f32⟩
  | 100 => ⟨S500000, .f32⟩
  | 101 => ⟨S500000, .f32⟩
  | 102 => ⟨S_, .i32⟩
  | 103 => ⟨S_, .i32⟩
  | 104 => ⟨S_, .f32⟩
  | 105 => ⟨S500000, .f32⟩
  | 106 => ⟨S500000, .f32⟩
  | 107 => ⟨S_, .f32⟩
  | 108 => ⟨S500000, .f32⟩
  | 109 => ⟨S500000, .f32⟩
  | 110 => ⟨S500000, .i32⟩
  | 111 => ⟨S500000, .f32⟩
  | 112 => ⟨S_, .i32⟩
  | 113 => ⟨S_, .i32⟩
  | 114 => ⟨S_, .f32⟩
  | 115 => ⟨S500000, .f32⟩
  | 116 => ⟨S500000, .f32⟩
  | 117 => ⟨S_, .f32⟩
  | 118 => ⟨S500000, .f32⟩
  | 119 => ⟨S500000, .f32⟩
  | 120 => ⟨S500000, .i32⟩
  | 121 => ⟨S500000, .f32⟩
  | 122 => ⟨S500000, .f32⟩
  | 123 => ⟨S500000x1, .f32⟩
  | 124 => ⟨S500000, .f32⟩
  | 125 => ⟨S500000, .f32⟩
  | 126 => ⟨S500000x1, .f32⟩
  | 127 => ⟨S_, .i32⟩
  | _ => ⟨S500000x3, .f32⟩

abbrev hbmTy0_2 (i : Nat) : BufTy := match i % 128 with
  | 0 => ⟨S500000, .i32⟩
  | 1 => ⟨S500000, .i1⟩
  | 2 => ⟨S_, .i32⟩
  | 3 => ⟨S500000, .i32⟩
  | 4 => ⟨S500000, .i32⟩
  | 5 => ⟨S500000, .i32⟩
  | 6 => ⟨S_, .i32⟩
  | 7 => ⟨S500000, .i32⟩
  | 8 => ⟨S500000, .i1⟩
  | 9 => ⟨S_, .i32⟩
  | 10 => ⟨S500000, .i32⟩
  | 11 => ⟨S500000, .i32⟩
  | 12 => ⟨S500000, .i32⟩
  | 13 => ⟨S500000x1, .i32⟩
  | 14 => ⟨S500000x1, .i32⟩
  | 15 => ⟨S500000x2, .i32⟩
  | 16 => ⟨S500000x32, .f32⟩
  | 17 => ⟨S_, .i32⟩
  | 18 => ⟨S500000, .i32⟩
  | 19 => ⟨S500000, .i32⟩
  | 20 => ⟨S_, .i32⟩
  | 21 => ⟨S500000, .i32⟩
  | 22 => ⟨S500000, .i1⟩
  | 23 => ⟨S_, .i32⟩
  | 24 => ⟨S500000, .i32⟩
  | 25 => ⟨S500000, .i32⟩
  | 26 => ⟨S500000, .i32⟩
  | 27 => ⟨S_, .i32⟩
  | 28 => ⟨S500000, .i32⟩
  | 29 => ⟨S500000, .i1⟩
  | 30 => ⟨S_, .i32⟩
  | 31 => ⟨S500000, .i32⟩
  | 32 => ⟨S500000, .i32⟩
  | 33 => ⟨S500000, .i32⟩
  | 34 => ⟨S500000x1, .i32⟩
  | 35 => ⟨S500000x1, .i32⟩
  | 36 => ⟨S500000x2, .i32⟩
  | 37 => ⟨S500000x32, .f32⟩
  | 38 => ⟨S_, .i32⟩
  | 39 => ⟨S500000, .i32⟩
  | 40 => ⟨S500000, .i32⟩
  | 41 => ⟨S_, .i32⟩
  | 42 => ⟨S500000, .i32⟩
  | 43 => ⟨S500000, .i1⟩
  | 44 => ⟨S_, .i32⟩
  | 45 => ⟨S500000, .i32⟩
  | 46 => ⟨S500000, .i32⟩
  | 47 => ⟨S500000, .i32⟩
  | 48 => ⟨S_, .i32⟩
  | 49 => ⟨S500000, .i32⟩
  | 50 => ⟨S500000, .i1⟩
  | 51 => ⟨S_, .i32⟩
  | 52 => ⟨S500000, .i32⟩
  | 53 => ⟨S500000, .i32⟩
  | 54 => ⟨S500000, .i32⟩
  | 55 => ⟨S500000x1, .i32⟩
  | 56 => ⟨S500000x1, .i32⟩
  | 57 => ⟨S500000x2, .i32⟩
  | 58 => ⟨S500000x32, .f32⟩
  | 59 => ⟨S_, .i32⟩
  | 60 => ⟨S500000, .i32⟩
  | 61 => ⟨S500000, .i32⟩
  | 62 => ⟨S_, .i32⟩
  | 63 => ⟨S500000, .i32⟩
  | 64 => ⟨S500000, .i32⟩
  | 65 => ⟨S_, .i32⟩
  | 66 => ⟨S500000, .i32⟩
  | 67 => ⟨S500000, .i1⟩
  | 68 => ⟨S_, .i32⟩
  | 69 => ⟨S500000, .i32⟩
  | 70 => ⟨S500000, .i32⟩
  | 71 => ⟨S500000, .i32⟩
  | 72 => ⟨S_, .i32⟩
  | 73 => ⟨S500000, .i32⟩
  | 74 => ⟨S500000, .i1⟩
  | 75 => ⟨S_, .i32⟩
  | 76 => ⟨S500000, .i32⟩
  | 77 => ⟨S500000, .i32⟩
  | 78 => ⟨S500000, .i32⟩
  | 79 => ⟨S500000x1, .i32⟩
  | 80 => ⟨S500000x1, .i32⟩
  | 81 => ⟨S500000x2, .i32⟩
  | 82 => ⟨S500000x32, .f32⟩
  | 83 => ⟨S_, .f32⟩
  | 84 => ⟨S500000x1, .f32⟩
  | 85 => ⟨S500000x1, .f32⟩
  | 86 => ⟨S500000x32, .f32⟩
  | 87 => ⟨S500000x32, .f32⟩
  | 88 => ⟨S500000x32, .f32⟩
  | 89 => ⟨S500000x32, .f32⟩
  | 90 => ⟨S500000x32, .f32⟩
  | 91 => ⟨S_, .f32⟩
  | 92 => ⟨S500000x1, .f32⟩
  | 93 => ⟨S500000x1, .f32⟩
  | 94 => ⟨S500000x32, .f32⟩
  | 95 => ⟨S500000x32, .f32⟩
  | 96 => ⟨S_, .f32⟩
  | 97 => ⟨S500000x1, .f32⟩
  | 98 => ⟨S500000x1, .f32⟩
  | 99 => ⟨S500000x32, .f32⟩
  | 100 => ⟨S500000x32, .f32⟩
  | 101 => ⟨S500000x32, .f32⟩
  | 102 => ⟨S500000x32, .f32⟩
  | 103 => ⟨S500000x32, .f32⟩
  | 104 => ⟨S500000x32, .f32⟩
  | 105 => ⟨S500000x32, .f32⟩
  | 106 => ⟨S500000x32, .f32⟩
  | 107 => ⟨S1x128x128x32, .f32⟩
  | 108 => ⟨S128x128x32, .f32⟩
  | 109 => ⟨S_, .f32⟩
  | 110 => ⟨S_, .f32⟩
  | 111 => ⟨S_, .f32⟩
  | 112 => ⟨S500000, .f32⟩
  | 113 => ⟨S500000, .f32⟩
  | 114 => ⟨S_, .f32⟩
  | 115 => ⟨S500000, .f32⟩
  | 116 => ⟨S500000, .f32⟩
  | 117 => ⟨S_, .f32⟩
  | 118 => ⟨S500000, .f32⟩
  | 119 => ⟨S500000, .f32⟩
  | 120 => ⟨S_, .f32⟩
  | 121 => ⟨S_, .f32⟩
  | 122 => ⟨S_, .f32⟩
  | 123 => ⟨S500000, .f32⟩
  | 124 => ⟨S500000, .f32⟩
  | 125 => ⟨S_, .f32⟩
  | 126 => ⟨S500000, .f32⟩
  | 127 => ⟨S500000, .f32⟩
  | _ => ⟨S500000x3, .f32⟩

abbrev hbmTy0_3 (i : Nat) : BufTy := match i % 128 with
  | 0 => ⟨S_, .f32⟩
  | 1 => ⟨S500000, .f32⟩
  | 2 => ⟨S500000, .f32⟩
  | 3 => ⟨S500000, .f32⟩
  | 4 => ⟨S_, .i32⟩
  | 5 => ⟨S_, .i32⟩
  | 6 => ⟨S_, .f32⟩
  | 7 => ⟨S500000, .f32⟩
  | 8 => ⟨S500000, .f32⟩
  | 9 => ⟨S_, .f32⟩
  | 10 => ⟨S500000, .f32⟩
  | 11 => ⟨S500000, .f32⟩
  | 12 => ⟨S500000, .i32⟩
  | 13 => ⟨S500000, .f32⟩
  | 14 => ⟨S_, .i32⟩
  | 15 => ⟨S_, .i32⟩
  | 16 => ⟨S_, .f32⟩
  | 17 => ⟨S500000, .f32⟩
  | 18 => ⟨S500000, .f32⟩
  | 19 => ⟨S_, .f32⟩
  | 20 => ⟨S500000, .f32⟩
  | 21 => ⟨S500000, .f32⟩
  | 22 => ⟨S500000, .i32⟩
  | 23 => ⟨S500000, .f32⟩
  | 24 => ⟨S500000, .f32⟩
  | 25 => ⟨S500000x1, .f32⟩
  | 26 => ⟨S500000, .f32⟩
  | 27 => ⟨S500000, .f32⟩
  | 28 => ⟨S500000x1, .f32⟩
  | 29 => ⟨S_, .i32⟩
  | 30 => ⟨S500000, .i32⟩
  | 31 => ⟨S500000, .i1⟩
  | 32 => ⟨S_, .i32⟩
  | 33 => ⟨S500000, .i32⟩
  | 34 => ⟨S500000, .i32⟩
  | 35 => ⟨S500000, .i32⟩
  | 36 => ⟨S_, .i32⟩
  | 37 => ⟨S500000, .i32⟩
  | 38 => ⟨S500000, .i1⟩
  | 39 => ⟨S_, .i32⟩
  | 40 => ⟨S500000, .i32⟩
  | 41 => ⟨S500000, .i32⟩
  | 42 => ⟨S500000, .i32⟩
  | 43 => ⟨S500000x1, .i32⟩
  | 44 => ⟨S500000x1, .i32⟩
  | 45 => ⟨S500000x2, .i32⟩
  | 46 => ⟨S500000x32, .f32⟩
  | 47 => ⟨S_, .i32⟩
  | 48 => ⟨S500000, .i32⟩
  | 49 => ⟨S500000, .i32⟩
  | 50 => ⟨S_, .i32⟩
  | 51 => ⟨S500000, .i32⟩
  | 52 => ⟨S500000, .i1⟩
  | 53 => ⟨S_, .i32⟩
  | 54 => ⟨S500000, .i32⟩
  | 55 => ⟨S500000, .i32⟩
  | 56 => ⟨S500000, .i32⟩
  | 57 => ⟨S_, .i32⟩
  | 58 => ⟨S500000, .i32⟩
  | 59 => ⟨S500000, .i1⟩
  | 60 => ⟨S_, .i32⟩
  | 61 => ⟨S500000, .i32⟩
  | 62 => ⟨S500000, .i32⟩
  | 63 => ⟨S500000, .i32⟩
  | 64 => ⟨S500000x1, .i32⟩
  | 65 => ⟨S500000x1, .i32⟩
  | 66 => ⟨S500000x2, .i32⟩
  | 67 => ⟨S500000x32, .f32⟩
  | 68 => ⟨S_, .i32⟩
  | 69 => ⟨S500000, .i32⟩
  | 70 => ⟨S500000, .i32⟩
  | 71 => ⟨S_, .i32⟩
  | 72 => ⟨S500000, .i32⟩
  | 73 => ⟨S500000, .i1⟩
  | 74 => ⟨S_, .i32⟩
  | 75 => ⟨S500000, .i32⟩
  | 76 => ⟨S500000, .i32⟩
  | 77 => ⟨S500000, .i32⟩
  | 78 => ⟨S_, .i32⟩
  | 79 => ⟨S500000, .i32⟩
  | 80 => ⟨S500000, .i1⟩
  | 81 => ⟨S_, .i32⟩
  | 82 => ⟨S500000, .i32⟩
  | 83 => ⟨S500000, .i32⟩
  | 84 => ⟨S500000, .i32⟩
  | 85 => ⟨S500000x1, .i32⟩
  | 86 => ⟨S500000x1, .i32⟩
  | 87 => ⟨S500000x2, .i32⟩
  | 88 => ⟨S500000x32, .f32⟩
  | 89 => ⟨S_, .i32⟩
  | 90 => ⟨S500000, .i32⟩
  | 91 => ⟨S500000, .i32⟩
  | 92 => ⟨S_, .i32⟩
  | 93 => ⟨S500000, .i32⟩
  | 94 => ⟨S500000, .i32⟩
  | 95 => ⟨S_, .i32⟩
  | 96 => ⟨S500000, .i32⟩
  | 97 => ⟨S500000, .i1⟩
  | 98 => ⟨S_, .i32⟩
  | 99 => ⟨S500000, .i32⟩
  | 100 => ⟨S500000, .i32⟩
  | 101 => ⟨S500000, .i32⟩
  | 102 => ⟨S_, .i32⟩
  | 103 => ⟨S500000, .i32⟩
  | 104 => ⟨S500000, .i1⟩
  | 105 => ⟨S_, .i32⟩
  | 106 => ⟨S500000, .i32⟩
  | 107 => ⟨S500000, .i32⟩
  | 108 => ⟨S500000, .i32⟩
  | 109 => ⟨S500000x1, .i32⟩
  | 110 => ⟨S500000x1, .i32⟩
  | 111 => ⟨S500000x2, .i32⟩
  | 112 => ⟨S500000x32, .f32⟩
  | 113 => ⟨S_, .f32⟩
  | 114 => ⟨S500000x1, .f32⟩
  | 115 => ⟨S500000x1, .f32⟩
  | 116 => ⟨S500000x32, .f32⟩
  | 117 => ⟨S500000x32, .f32⟩
  | 118 => ⟨S500000x32, .f32⟩
  | 119 => ⟨S500000x32, .f32⟩
  | 120 => ⟨S500000x32, .f32⟩
  | 121 => ⟨S_, .f32⟩
  | 122 => ⟨S500000x1, .f32⟩
  | 123 => ⟨S500000x1, .f32⟩
  | 124 => ⟨S500000x32, .f32⟩
  | 125 => ⟨S500000x32, .f32⟩
  | 126 => ⟨S_, .f32⟩
  | 127 => ⟨S500000x1, .f32⟩
  | _ => ⟨S500000x3, .f32⟩

abbrev hbmTy0_4 (i : Nat) : BufTy := match i % 128 with
  | 0 => ⟨S500000x1, .f32⟩
  | 1 => ⟨S500000x32, .f32⟩
  | 2 => ⟨S500000x32, .f32⟩
  | 3 => ⟨S500000x32, .f32⟩
  | 4 => ⟨S500000x32, .f32⟩
  | 5 => ⟨S500000x32, .f32⟩
  | 6 => ⟨S500000x32, .f32⟩
  | 7 => ⟨S500000x32, .f32⟩
  | 8 => ⟨S500000x32, .f32⟩
  | 9 => ⟨S1x128x128x32, .f32⟩
  | 10 => ⟨S128x128x32, .f32⟩
  | 11 => ⟨S_, .f32⟩
  | 12 => ⟨S_, .f32⟩
  | 13 => ⟨S_, .f32⟩
  | 14 => ⟨S500000, .f32⟩
  | 15 => ⟨S500000, .f32⟩
  | 16 => ⟨S_, .f32⟩
  | 17 => ⟨S500000, .f32⟩
  | 18 => ⟨S500000, .f32⟩
  | 19 => ⟨S_, .f32⟩
  | 20 => ⟨S500000, .f32⟩
  | 21 => ⟨S500000, .f32⟩
  | 22 => ⟨S_, .f32⟩
  | 23 => ⟨S_, .f32⟩
  | 24 => ⟨S_, .f32⟩
  | 25 => ⟨S500000, .f32⟩
  | 26 => ⟨S500000, .f32⟩
  | 27 => ⟨S_, .f32⟩
  | 28 => ⟨S500000, .f32⟩
  | 29 => ⟨S500000, .f32⟩
  | 30 => ⟨S_, .f32⟩
  | 31 => ⟨S500000, .f32⟩
  | 32 => ⟨S500000, .f32⟩
  | 33 => ⟨S500000, .f32⟩
  | 34 => ⟨S_, .i32⟩
  | 35 => ⟨S_, .i32⟩
  | 36 => ⟨S_, .f32⟩
  | 37 => ⟨S500000, .f32⟩
  | 38 => ⟨S500000, .f32⟩
  | 39 => ⟨S_, .f32⟩
  | 40 => ⟨S500000, .f32⟩
  | 41 => ⟨S500000, .f32⟩
  | 42 => ⟨S500000, .i32⟩
  | 43 => ⟨S500000, .f32⟩
  | 44 => ⟨S_, .i32⟩
  | 45 => ⟨S_, .i32⟩
  | 46 => ⟨S_, .f32⟩
  | 47 => ⟨S500000, .f32⟩
  | 48 => ⟨S500000, .f32⟩
  | 49 => ⟨S_, .f32⟩
  | 50 => ⟨S500000, .f32⟩
  | 51 => ⟨S500000, .f32⟩
  | 52 => ⟨S500000, .i32⟩
  | 53 => ⟨S500000, .f32⟩
  | 54 => ⟨S500000, .f32⟩
  | 55 => ⟨S500000x1, .f32⟩
  | 56 => ⟨S500000, .f32⟩
  | 57 => ⟨S500000, .f32⟩
  | 58 => ⟨S500000x1, .f32⟩
  | 59 => ⟨S_, .i32⟩
  | 60 => ⟨S500000, .i32⟩
  | 61 => ⟨S500000, .i1⟩
  | 62 => ⟨S_, .i32⟩
  | 63 => ⟨S500000, .i32⟩
  | 64 => ⟨S500000, .i32⟩
  | 65 => ⟨S500000, .i32⟩
  | 66 => ⟨S_, .i32⟩
  | 67 => ⟨S500000, .i32⟩
  | 68 => ⟨S500000, .i1⟩
  | 69 => ⟨S_, .i32⟩
  | 70 => ⟨S500000, .i32⟩
  | 71 => ⟨S500000, .i32⟩
  | 72 => ⟨S500000, .i32⟩
  | 73 => ⟨S500000x1, .i32⟩
  | 74 => ⟨S500000x1, .i32⟩
  | 75 => ⟨S500000x2, .i32⟩
  | 76 => ⟨S500000x32, .f32⟩
  | 77 => ⟨S_, .i32⟩
  | 78 => ⟨S500000, .i32⟩
  | 79 => ⟨S500000, .i32⟩
  | 80 => ⟨S_, .i32⟩
  | 81 => ⟨S500000, .i32⟩
  | 82 => ⟨S500000, .i1⟩
  | 83 => ⟨S_, .i32⟩
  | 84 => ⟨S500000, .i32⟩
  | 85 => ⟨S500000, .i32⟩
  | 86 => ⟨S500000, .i32⟩
  | 87 => ⟨S_, .i32⟩
  | 88 => ⟨S500000, .i32⟩
  | 89 => ⟨S500000, .i1⟩
  | 90 => ⟨S_, .i32⟩
  | 91 => ⟨S500000, .i32⟩
  | 92 => ⟨S500000, .i32⟩
  | 93 => ⟨S500000, .i32⟩
  | 94 => ⟨S500000x1, .i32⟩
  | 95 => ⟨S500000x1, .i32⟩
  | 96 => ⟨S500000x2, .i32⟩
  | 97 => ⟨S500000x32, .f32⟩
  | 98 => ⟨S_, .i32⟩
  | 99 => ⟨S500000, .i32⟩
  | 100 => ⟨S500000, .i32⟩
  | 101 => ⟨S_, .i32⟩
  | 102 => ⟨S500000, .i32⟩
  | 103 => ⟨S500000, .i1⟩
  | 104 => ⟨S_, .i32⟩
  | 105 => ⟨S500000, .i32⟩
  | 106 => ⟨S500000, .i32⟩
  | 107 => ⟨S500000, .i32⟩
  | 108 => ⟨S_, .i32⟩
  | 109 => ⟨S500000, .i32⟩
  | 110 => ⟨S500000, .i1⟩
  | 111 => ⟨S_, .i32⟩
  | 112 => ⟨S500000, .i32⟩
  | 113 => ⟨S500000, .i32⟩
  | 114 => ⟨S500000, .i32⟩
  | 115 => ⟨S500000x1, .i32⟩
  | 116 => ⟨S500000x1, .i32⟩
  | 117 => ⟨S500000x2, .i32⟩
  | 118 => ⟨S500000x32, .f32⟩
  | 119 => ⟨S_, .i32⟩
  | 120 => ⟨S500000, .i32⟩
  | 121 => ⟨S500000, .i32⟩
  | 122 => ⟨S_, .i32⟩
  | 123 => ⟨S500000, .i32⟩
  | 124 => ⟨S500000, .i32⟩
  | 125 => ⟨S_, .i32⟩
  | 126 => ⟨S500000, .i32⟩
  | 127 => ⟨S500000, .i1⟩
  | _ => ⟨S500000x3, .f32⟩

abbrev hbmTy0_5 (i : Nat) : BufTy := match i % 128 with
  | 0 => ⟨S_, .i32⟩
  | 1 => ⟨S500000, .i32⟩
  | 2 => ⟨S500000, .i32⟩
  | 3 => ⟨S500000, .i32⟩
  | 4 => ⟨S_, .i32⟩
  | 5 => ⟨S500000, .i32⟩
  | 6 => ⟨S500000, .i1⟩
  | 7 => ⟨S_, .i32⟩
  | 8 => ⟨S500000, .i32⟩
  | 9 => ⟨S500000, .i32⟩
  | 10 => ⟨S500000, .i32⟩
  | 11 => ⟨S500000x1, .i32⟩
  | 12 => ⟨S500000x1, .i32⟩
  | 13 => ⟨S500000x2, .i32⟩
  | 14 => ⟨S500000x32, .f32⟩
  | 15 => ⟨S_, .f32⟩
  | 16 => ⟨S500000x1, .f32⟩
  | 17 => ⟨S500000x1, .f32⟩
  | 18 => ⟨S500000x32, .f32⟩
  | 19 => ⟨S500000x32, .f32⟩
  | 20 => ⟨S500000x32, .f32⟩
  | 21 => ⟨S500000x32, .f32⟩
  | 22 => ⟨S500000x32, .f32⟩
  | 23 => ⟨S_, .f32⟩
  | 24 => ⟨S500000x1, .f32⟩
  | 25 => ⟨S500000x1, .f32⟩
  | 26 => ⟨S500000x32, .f32⟩
  | 27 => ⟨S500000x32, .f32⟩
  | 28 => ⟨S_, .f32⟩
  | 29 => ⟨S500000x1, .f32⟩
  | 30 => ⟨S500000x1, .f32⟩
  | 31 => ⟨S500000x32, .f32⟩
  | 32 => ⟨S500000x32, .f32⟩
  | 33 => ⟨S500000x32, .f32⟩
  | 34 => ⟨S500000x32, .f32⟩
  | 35 => ⟨S500000x32, .f32⟩
  | 36 => ⟨S500000x32, .f32⟩
  | 37 => ⟨S500000x32, .f32⟩
  | 38 => ⟨S500000x32, .f32⟩
  | 39 => ⟨S1x128x128x32, .f32⟩
  | 40 => ⟨S128x128x32, .f32⟩
  | 41 => ⟨S_, .f32⟩
  | 42 => ⟨S_, .f32⟩
  | 43 => ⟨S_, .f32⟩
  | 44 => ⟨S500000, .f32⟩
  | 45 => ⟨S500000, .f32⟩
  | 46 => ⟨S_, .f32⟩
  | 47 => ⟨S500000, .f32⟩
  | 48 => ⟨S500000, .f32⟩
  | 49 => ⟨S_, .f32⟩
  | 50 => ⟨S500000, .f32⟩
  | 51 => ⟨S500000, .f32⟩
  | 52 => ⟨S_, .f32⟩
  | 53 => ⟨S_, .f32⟩
  | 54 => ⟨S_, .f32⟩
  | 55 => ⟨S500000, .f32⟩
  | 56 => ⟨S500000, .f32⟩
  | 57 => ⟨S_, .f32⟩
  | 58 => ⟨S500000, .f32⟩
  | 59 => ⟨S500000, .f32⟩
  | 60 => ⟨S_, .f32⟩
  | 61 => ⟨S500000, .f32⟩
  | 62 => ⟨S500000, .f32⟩
  | 63 => ⟨S500000, .f32⟩
  | 64 => ⟨S_, .i32⟩
  | 65 => ⟨S_, .i32⟩
  | 66 => ⟨S_, .f32⟩
  | 67 => ⟨S500000, .f32⟩
  | 68 => ⟨S500000, .f32⟩
  | 69 => ⟨S_, .f32⟩
  | 70 => ⟨S500000, .f32⟩
  | 71 => ⟨S500000, .f32⟩
  | 72 => ⟨S500000, .i32⟩
  | 73 => ⟨S500000, .f32⟩
  | 74 => ⟨S_, .i32⟩
  | 75 => ⟨S_, .i32⟩
  | 76 => ⟨S_, .f32⟩
  | 77 => ⟨S500000, .f32⟩
  | 78 => ⟨S500000, .f32⟩
  | 79 => ⟨S_, .f32⟩
  | 80 => ⟨S500000, .f32⟩
  | 81 => ⟨S500000, .f32⟩
  | 82 => ⟨S500000, .i32⟩
  | 83 => ⟨S500000, .f32⟩
  | 84 => ⟨S500000, .f32⟩
  | 85 => ⟨S500000x1, .f32⟩
  | 86 => ⟨S500000, .f32⟩
  | 87 => ⟨S500000, .f32⟩
  | 88 => ⟨S500000x1, .f32⟩
  | 89 => ⟨S_, .i32⟩
  | 90 => ⟨S500000, .i32⟩
  | 91 => ⟨S500000, .i1⟩
  | 92 => ⟨S_, .i32⟩
  | 93 => ⟨S500000, .i32⟩
  | 94 => ⟨S500000, .i32⟩
  | 95 => ⟨S500000, .i32⟩
  | 96 => ⟨S_, .i32⟩
  | 97 => ⟨S500000, .i32⟩
  | 98 => ⟨S500000, .i1⟩
  | 99 => ⟨S_, .i32⟩
  | 100 => ⟨S500000, .i32⟩
  | 101 => ⟨S500000, .i32⟩
  | 102 => ⟨S500000, .i32⟩
  | 103 => ⟨S500000x1, .i32⟩
  | 104 => ⟨S500000x1, .i32⟩
  | 105 => ⟨S500000x2, .i32⟩
  | 106 => ⟨S500000x32, .f32⟩
  | 107 => ⟨S_, .i32⟩
  | 108 => ⟨S500000, .i32⟩
  | 109 => ⟨S500000, .i32⟩
  | 110 => ⟨S_, .i32⟩
  | 111 => ⟨S500000, .i32⟩
  | 112 => ⟨S500000, .i1⟩
  | 113 => ⟨S_, .i32⟩
  | 114 => ⟨S500000, .i32⟩
  | 115 => ⟨S500000, .i32⟩
  | 116 => ⟨S500000, .i32⟩
  | 117 => ⟨S_, .i32⟩
  | 118 => ⟨S500000, .i32⟩
  | 119 => ⟨S500000, .i1⟩
  | 120 => ⟨S_, .i32⟩
  | 121 => ⟨S500000, .i32⟩
  | 122 => ⟨S500000, .i32⟩
  | 123 => ⟨S500000, .i32⟩
  | 124 => ⟨S500000x1, .i32⟩
  | 125 => ⟨S500000x1, .i32⟩
  | 126 => ⟨S500000x2, .i32⟩
  | 127 => ⟨S500000x32, .f32⟩
  | _ => ⟨S500000x3, .f32⟩

abbrev hbmTy0_6 (i : Nat) : BufTy := match i % 128 with
  | 0 => ⟨S_, .i32⟩
  | 1 => ⟨S500000, .i32⟩
  | 2 => ⟨S500000, .i32⟩
  | 3 => ⟨S_, .i32⟩
  | 4 => ⟨S500000, .i32⟩
  | 5 => ⟨S500000, .i1⟩
  | 6 => ⟨S_, .i32⟩
  | 7 => ⟨S500000, .i32⟩
  | 8 => ⟨S500000, .i32⟩
  | 9 => ⟨S500000, .i32⟩
  | 10 => ⟨S_, .i32⟩
  | 11 => ⟨S500000, .i32⟩
  | 12 => ⟨S500000, .i1⟩
  | 13 => ⟨S_, .i32⟩
  | 14 => ⟨S500000, .i32⟩
  | 15 => ⟨S500000, .i32⟩
  | 16 => ⟨S500000, .i32⟩
  | 17 => ⟨S500000x1, .i32⟩
  | 18 => ⟨S500000x1, .i32⟩
  | 19 => ⟨S500000x2, .i32⟩
  | 20 => ⟨S500000x32, .f32⟩
  | 21 => ⟨S_, .i32⟩
  | 22 => ⟨S500000, .i32⟩
  | 23 => ⟨S500000, .i32⟩
  | 24 => ⟨S_, .i32⟩
  | 25 => ⟨S500000, .i32⟩
  | 26 => ⟨S500000, .i32⟩
  | 27 => ⟨S_, .i32⟩
  | 28 => ⟨S500000, .i32⟩
  | 29 => ⟨S500000, .i1⟩
  | 30 => ⟨S_, .i32⟩
  | 31 => ⟨S500000, .i32⟩
  | 32 => ⟨S500000, .i32⟩
  | 33 => ⟨S500000, .i32⟩
  | 34 => ⟨S_, .i32⟩
  | 35 => ⟨S500000, .i32⟩
  | 36 => ⟨S500000, .i1⟩
  | 37 => ⟨S_, .i32⟩
  | 38 => ⟨S500000, .i32⟩
  | 39 => ⟨S500000, .i32⟩
  | 40 => ⟨S500000, .i32⟩
  | 41 => ⟨S500000x1, .i32⟩
  | 42 => ⟨S500000x1, .i32⟩
  | 43 => ⟨S500000x2, .i32⟩
  | 44 => ⟨S500000x32, .f32⟩
  | 45 => ⟨S_, .f32⟩
  | 46 => ⟨S500000x1, .f32⟩
  | 47 => ⟨S500000x1, .f32⟩
  | 48 => ⟨S500000x32, .f32⟩
  | 49 => ⟨S500000x32, .f32⟩
  | 50 => ⟨S500000x32, .f32⟩
  | 51 => ⟨S500000x32, .f32⟩
  | 52 => ⟨S500000x32, .f32⟩
  | 53 => ⟨S_, .f32⟩
  | 54 => ⟨S500000x1, .f32⟩
  | 55 => ⟨S500000x1, .f32⟩
  | 56 => ⟨S500000x32, .f32⟩
  | 57 => ⟨S500000x32, .f32⟩
  | 58 => ⟨S_, .f32⟩
  | 59 => ⟨S500000x1, .f32⟩
  | 60 => ⟨S500000x1, .f32⟩
  | 61 => ⟨S500000x32, .f32⟩
  | 62 => ⟨S500000x32, .f32⟩
  | 63 => ⟨S500000x32, .f32⟩
  | 64 => ⟨S500000x32, .f32⟩
  | 65 => ⟨S500000x32, .f32⟩
  | 66 => ⟨S500000x32, .f32⟩
  | 67 => ⟨S500000x32, .f32⟩
  | 68 => ⟨S500000x32, .f32⟩
  | 69 => ⟨S1x128x128x32, .f32⟩
  | 70 => ⟨S128x128x32, .f32⟩
  | 71 => ⟨S_, .f32⟩
  | 72 => ⟨S_, .f32⟩
  | 73 => ⟨S_, .f32⟩
  | 74 => ⟨S500000, .f32⟩
  | 75 => ⟨S500000, .f32⟩
  | 76 => ⟨S_, .f32⟩
  | 77 => ⟨S500000, .f32⟩
  | 78 => ⟨S500000, .f32⟩
  | 79 => ⟨S_, .f32⟩
  | 80 => ⟨S500000, .f32⟩
  | 81 => ⟨S500000, .f32⟩
  | 82 => ⟨S_, .f32⟩
  | 83 => ⟨S_, .f32⟩
  | 84 => ⟨S_, .f32⟩
  | 85 => ⟨S500000, .f32⟩
  | 86 => ⟨S500000, .f32⟩
  | 87 => ⟨S_, .f32⟩
  | 88 => ⟨S500000, .f32⟩
  | 89 => ⟨S500000, .f32⟩
  | 90 => ⟨S_, .f32⟩
  | 91 => ⟨S500000, .f32⟩
  | 92 => ⟨S500000, .f32⟩
  | 93 => ⟨S500000, .f32⟩
  | 94 => ⟨S_, .i32⟩
  | 95 => ⟨S_, .i32⟩
  | 96 => ⟨S_, .f32⟩
  | 97 => ⟨S500000, .f32⟩
  | 98 => ⟨S500000, .f32⟩
  | 99 => ⟨S_, .f32⟩
  | 100 => ⟨S500000, .f32⟩
  | 101 => ⟨S500000, .f32⟩
  | 102 => ⟨S500000, .i32⟩
  | 103 => ⟨S500000, .f32⟩
  | 104 => ⟨S_, .i32⟩
  | 105 => ⟨S_, .i32⟩
  | 106 => ⟨S_, .f32⟩
  | 107 => ⟨S500000, .f32⟩
  | 108 => ⟨S500000, .f32⟩
  | 109 => ⟨S_, .f32⟩
  | 110 => ⟨S500000, .f32⟩
  | 111 => ⟨S500000, .f32⟩
  | 112 => ⟨S500000, .i32⟩
  | 113 => ⟨S500000, .f32⟩
  | 114 => ⟨S500000, .f32⟩
  | 115 => ⟨S500000x1, .f32⟩
  | 116 => ⟨S500000, .f32⟩
  | 117 => ⟨S500000, .f32⟩
  | 118 => ⟨S500000x1, .f32⟩
  | 119 => ⟨S_, .i32⟩
  | 120 => ⟨S500000, .i32⟩
  | 121 => ⟨S500000, .i1⟩
  | 122 => ⟨S_, .i32⟩
  | 123 => ⟨S500000, .i32⟩
  | 124 => ⟨S500000, .i32⟩
  | 125 => ⟨S500000, .i32⟩
  | 126 => ⟨S_, .i32⟩
  | 127 => ⟨S500000, .i32⟩
  | _ => ⟨S500000x3, .f32⟩

abbrev hbmTy0_7 (i : Nat) : BufTy := match i % 128 with
  | 0 => ⟨S500000, .i1⟩
  | 1 => ⟨S_, .i32⟩
  | 2 => ⟨S500000, .i32⟩
  | 3 => ⟨S500000, .i32⟩
  | 4 => ⟨S500000, .i32⟩
  | 5 => ⟨S500000x1, .i32⟩
  | 6 => ⟨S500000x1, .i32⟩
  | 7 => ⟨S500000x2, .i32⟩
  | 8 => ⟨S500000x32, .f32⟩
  | 9 => ⟨S_, .i32⟩
  | 10 => ⟨S500000, .i32⟩
  | 11 => ⟨S500000, .i32⟩
  | 12 => ⟨S_, .i32⟩
  | 13 => ⟨S500000, .i32⟩
  | 14 => ⟨S500000, .i1⟩
  | 15 => ⟨S_, .i32⟩
  | 16 => ⟨S500000, .i32⟩
  | 17 => ⟨S500000, .i32⟩
  | 18 => ⟨S500000, .i32⟩
  | 19 => ⟨S_, .i32⟩
  | 20 => ⟨S500000, .i32⟩
  | 21 => ⟨S500000, .i1⟩
  | 22 => ⟨S_, .i32⟩
  | 23 => ⟨S500000, .i32⟩
  | 24 => ⟨S500000, .i32⟩
  | 25 => ⟨S500000, .i32⟩
  | 26 => ⟨S500000x1, .i32⟩
  | 27 => ⟨S500000x1, .i32⟩
  | 28 => ⟨S500000x2, .i32⟩
  | 29 => ⟨S500000x32, .f32⟩
  | 30 => ⟨S_, .i32⟩
  | 31 => ⟨S500000, .i32⟩
  | 32 => ⟨S500000, .i32⟩
  | 33 => ⟨S_, .i32⟩
  | 34 => ⟨S500000, .i32⟩
  | 35 => ⟨S500000, .i1⟩
  | 36 => ⟨S_, .i32⟩
  | 37 => ⟨S500000, .i32⟩
  | 38 => ⟨S500000, .i32⟩
  | 39 => ⟨S500000, .i32⟩
  | 40 => ⟨S_, .i32⟩
  | 41 => ⟨S500000, .i32⟩
  | 42 => ⟨S500000, .i1⟩
  | 43 => ⟨S_, .i32⟩
  | 44 => ⟨S500000, .i32⟩
  | 45 => ⟨S500000, .i32⟩
  | 46 => ⟨S500000, .i32⟩
  | 47 => ⟨S500000x1, .i32⟩
  | 48 => ⟨S500000x1, .i32⟩
  | 49 => ⟨S500000x2, .i32⟩
  | 50 => ⟨S500000x32, .f32⟩
  | 51 => ⟨S_, .i32⟩
  | 52 => ⟨S500000, .i32⟩
  | 53 => ⟨S500000, .i32⟩
  | 54 => ⟨S_, .i32⟩
  | 55 => ⟨S500000, .i32⟩
  | 56 => ⟨S500000, .i32⟩
  | 57 => ⟨S_, .i32⟩
  | 58 => ⟨S500000, .i32⟩
  | 59 => ⟨S500000, .i1⟩
  | 60 => ⟨S_, .i32⟩
  | 61 => ⟨S500000, .i32⟩
  | 62 => ⟨S500000, .i32⟩
  | 63 => ⟨S500000, .i32⟩
  | 64 => ⟨S_, .i32⟩
  | 65 => ⟨S500000, .i32⟩
  | 66 => ⟨S500000, .i1⟩
  | 67 => ⟨S_, .i32⟩
  | 68 => ⟨S500000, .i32⟩
  | 69 => ⟨S500000, .i32⟩
  | 70 => ⟨S500000, .i32⟩
  | 71 => ⟨S500000x1, .i32⟩
  | 72 => ⟨S500000x1, .i32⟩
  | 73 => ⟨S500000x2, .i32⟩
  | 74 => ⟨S500000x32, .f32⟩
  | 75 => ⟨S_, .f32⟩
  | 76 => ⟨S500000x1, .f32⟩
  | 77 => ⟨S500000x1, .f32⟩
  | 78 => ⟨S500000x32, .f32⟩
  | 79 => ⟨S500000x32, .f32⟩
  | 80 => ⟨S500000x32, .f32⟩
  | 81 => ⟨S500000x32, .f32⟩
  | 82 => ⟨S500000x32, .f32⟩
  | 83 => ⟨S_, .f32⟩
  | 84 => ⟨S500000x1, .f32⟩
  | 85 => ⟨S500000x1, .f32⟩
  | 86 => ⟨S500000x32, .f32⟩
  | 87 => ⟨S500000x32, .f32⟩
  | 88 => ⟨S_, .f32⟩
  | 89 => ⟨S500000x1, .f32⟩
  | 90 => ⟨S500000x1, .f32⟩
  | 91 => ⟨S500000x32, .f32⟩
  | 92 => ⟨S500000x32, .f32⟩
  | 93 => ⟨S500000x32, .f32⟩
  | 94 => ⟨S500000x32, .f32⟩
  | 95 => ⟨S500000x32, .f32⟩
  | 96 => ⟨S500000x32, .f32⟩
  | 97 => ⟨S500000x32, .f32⟩
  | 98 => ⟨S500000x32, .f32⟩
  | 99 => ⟨S500000x192, .f32⟩
  | 100 => ⟨S500000x48, .f32⟩
  | 101 => ⟨S500000x48, .f32⟩
  | 102 => ⟨S500000x16x3, .f32⟩
  | 103 => ⟨S500000x1, .f32⟩
  | _ => ⟨S500000x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S500000x3, .f32⟩

abbrev bufTy : (tb : Table) → Fin (tcTables nBuf tb) → BufTy
  | .hbm, ⟨i, _⟩ => hbmTy i
  | .local _ .vmem, ⟨0, _⟩ => ⟨S2000x192, .f32⟩
  | .local _ .vmem, ⟨1, _⟩ => ⟨S2000x192, .f32⟩
  | .local _ .vmem, ⟨2, _⟩ => ⟨S2000x48, .f32⟩
  | .local _ .vmem, ⟨3, _⟩ => ⟨S2000x48, .f32⟩
  | .local _ .vmem, ⟨4, _⟩ => ⟨S32x256, .f32⟩
  | .local _ .vmem, ⟨5, _⟩ => ⟨S256, .f32⟩
  | .local _ .vmem, ⟨6, _⟩ => ⟨S256x256, .f32⟩
  | .local _ .vmem, ⟨7, _⟩ => ⟨S256, .f32⟩
  | .local _ .vmem, ⟨8, _⟩ => ⟨S256x48, .f32⟩
  | .local _ .vmem, ⟨9, _⟩ => ⟨S48, .f32⟩
  | .local _ .vmem, ⟨10, _⟩ => ⟨S2000x48, .f32⟩
  | .local _ .vmem, ⟨11, _⟩ => ⟨S2000x48, .f32⟩
  | _, _ => ⟨S500000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_cst_0 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v2 : Ref sig .tc := ⟨.hbm, 25, rfl⟩
abbrev main_cst_2 : Ref sig .tc := ⟨.hbm, 26, rfl⟩
abbrev main_v3 : Ref sig .tc := ⟨.hbm, 27, rfl⟩
abbrev main_v4 : Ref sig .tc := ⟨.hbm, 28, rfl⟩
abbrev main_cst_3 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst_4 : Ref sig .tc := ⟨.hbm, 39, rfl⟩
abbrev main_cst_5 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_cst_6 : Ref sig .tc := ⟨.hbm, 49, rfl⟩
abbrev main_cst_7 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_v17 : Ref sig .tc := ⟨.hbm, 56, rfl⟩
abbrev main_cst_8 : Ref sig .tc := ⟨.hbm, 57, rfl⟩
abbrev main_v18 : Ref sig .tc := ⟨.hbm, 58, rfl⟩
abbrev main_v19 : Ref sig .tc := ⟨.hbm, 59, rfl⟩
abbrev main_cst_9 : Ref sig .tc := ⟨.hbm, 60, rfl⟩
abbrev main_cst_10 : Ref sig .tc := ⟨.hbm, 61, rfl⟩
abbrev main_call3_v0 : Ref sig .tc := ⟨.hbm, 62, rfl⟩
abbrev main_call3_v1 : Ref sig .tc := ⟨.hbm, 63, rfl⟩
abbrev main_call3_v2 : Ref sig .tc := ⟨.hbm, 64, rfl⟩
abbrev main_call3_v3 : Ref sig .tc := ⟨.hbm, 65, rfl⟩
abbrev main_call3_v4 : Ref sig .tc := ⟨.hbm, 66, rfl⟩
abbrev main_v20 : Ref sig .tc := ⟨.hbm, 67, rfl⟩
abbrev main_cst_11 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_c : Ref sig .tc := ⟨.hbm, 72, rfl⟩
abbrev main_c_12 : Ref sig .tc := ⟨.hbm, 73, rfl⟩
abbrev main_call4_v0 : Ref sig .tc := ⟨.hbm, 74, rfl⟩
abbrev main_call4_v1 : Ref sig .tc := ⟨.hbm, 75, rfl⟩
abbrev main_call4_v2 : Ref sig .tc := ⟨.hbm, 76, rfl⟩
abbrev main_call4_v3 : Ref sig .tc := ⟨.hbm, 77, rfl⟩
abbrev main_call4_v4 : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev main_c_13 : Ref sig .tc := ⟨.hbm, 82, rfl⟩
abbrev main_c_14 : Ref sig .tc := ⟨.hbm, 83, rfl⟩
abbrev main_call5_v0 : Ref sig .tc := ⟨.hbm, 84, rfl⟩
abbrev main_call5_v1 : Ref sig .tc := ⟨.hbm, 85, rfl⟩
abbrev main_call5_v2 : Ref sig .tc := ⟨.hbm, 86, rfl⟩
abbrev main_call5_v3 : Ref sig .tc := ⟨.hbm, 87, rfl⟩
abbrev main_call5_v4 : Ref sig .tc := ⟨.hbm, 88, rfl⟩
abbrev main_v27 : Ref sig .tc := ⟨.hbm, 89, rfl⟩
abbrev main_v28 : Ref sig .tc := ⟨.hbm, 90, rfl⟩
abbrev main_v29 : Ref sig .tc := ⟨.hbm, 91, rfl⟩
abbrev main_v30 : Ref sig .tc := ⟨.hbm, 92, rfl⟩
abbrev main_v31 : Ref sig .tc := ⟨.hbm, 93, rfl⟩
abbrev main_v32 : Ref sig .tc := ⟨.hbm, 94, rfl⟩
abbrev main_v33 : Ref sig .tc := ⟨.hbm, 95, rfl⟩
abbrev main_v34 : Ref sig .tc := ⟨.hbm, 96, rfl⟩
abbrev main_c_15 : Ref sig .tc := ⟨.hbm, 97, rfl⟩
abbrev main_v35 : Ref sig .tc := ⟨.hbm, 98, rfl⟩
abbrev main_v36 : Ref sig .tc := ⟨.hbm, 99, rfl⟩
abbrev main_c_16 : Ref sig .tc := ⟨.hbm, 100, rfl⟩
abbrev main_v37 : Ref sig .tc := ⟨.hbm, 101, rfl⟩
abbrev main_v38 : Ref sig .tc := ⟨.hbm, 102, rfl⟩
abbrev main_v39 : Ref sig .tc := ⟨.hbm, 103, rfl⟩
abbrev main_c_17 : Ref sig .tc := ⟨.hbm, 104, rfl⟩
abbrev main_v40 : Ref sig .tc := ⟨.hbm, 105, rfl⟩
abbrev main_v41 : Ref sig .tc := ⟨.hbm, 106, rfl⟩
abbrev main_c_18 : Ref sig .tc := ⟨.hbm, 107, rfl⟩
abbrev main_v42 : Ref sig .tc := ⟨.hbm, 108, rfl⟩
abbrev main_v43 : Ref sig .tc := ⟨.hbm, 109, rfl⟩
abbrev main_v44 : Ref sig .tc := ⟨.hbm, 110, rfl⟩
abbrev main_v45 : Ref sig .tc := ⟨.hbm, 111, rfl⟩
abbrev main_v46 : Ref sig .tc := ⟨.hbm, 112, rfl⟩
abbrev main_v47 : Ref sig .tc := ⟨.hbm, 113, rfl⟩
abbrev main_v48 : Ref sig .tc := ⟨.hbm, 114, rfl⟩
abbrev main_c_19 : Ref sig .tc := ⟨.hbm, 115, rfl⟩
abbrev main_v49 : Ref sig .tc := ⟨.hbm, 116, rfl⟩
abbrev main_v50 : Ref sig .tc := ⟨.hbm, 117, rfl⟩
abbrev main_c_20 : Ref sig .tc := ⟨.hbm, 118, rfl⟩
abbrev main_v51 : Ref sig .tc := ⟨.hbm, 119, rfl⟩
abbrev main_v52 : Ref sig .tc := ⟨.hbm, 120, rfl⟩
abbrev main_c_21 : Ref sig .tc := ⟨.hbm, 121, rfl⟩
abbrev main_v53 : Ref sig .tc := ⟨.hbm, 122, rfl⟩
abbrev main_v54 : Ref sig .tc := ⟨.hbm, 123, rfl⟩
abbrev main_v55 : Ref sig .tc := ⟨.hbm, 124, rfl⟩
abbrev main_c_22 : Ref sig .tc := ⟨.hbm, 125, rfl⟩
abbrev main_v56 : Ref sig .tc := ⟨.hbm, 126, rfl⟩
abbrev main_v57 : Ref sig .tc := ⟨.hbm, 127, rfl⟩
abbrev main_c_23 : Ref sig .tc := ⟨.hbm, 128, rfl⟩
abbrev main_v58 : Ref sig .tc := ⟨.hbm, 129, rfl⟩
abbrev main_v59 : Ref sig .tc := ⟨.hbm, 130, rfl⟩
abbrev main_v60 : Ref sig .tc := ⟨.hbm, 131, rfl⟩
abbrev main_v61 : Ref sig .tc := ⟨.hbm, 132, rfl⟩
abbrev main_v62 : Ref sig .tc := ⟨.hbm, 133, rfl⟩
abbrev main_v63 : Ref sig .tc := ⟨.hbm, 134, rfl⟩
abbrev main_v64 : Ref sig .tc := ⟨.hbm, 135, rfl⟩
abbrev main_c_24 : Ref sig .tc := ⟨.hbm, 136, rfl⟩
abbrev main_v65 : Ref sig .tc := ⟨.hbm, 137, rfl⟩
abbrev main_v66 : Ref sig .tc := ⟨.hbm, 138, rfl⟩
abbrev main_c_25 : Ref sig .tc := ⟨.hbm, 139, rfl⟩
abbrev main_v67 : Ref sig .tc := ⟨.hbm, 140, rfl⟩
abbrev main_v68 : Ref sig .tc := ⟨.hbm, 141, rfl⟩
abbrev main_c_26 : Ref sig .tc := ⟨.hbm, 142, rfl⟩
abbrev main_v69 : Ref sig .tc := ⟨.hbm, 143, rfl⟩
abbrev main_v70 : Ref sig .tc := ⟨.hbm, 144, rfl⟩
abbrev main_v71 : Ref sig .tc := ⟨.hbm, 145, rfl⟩
abbrev main_c_27 : Ref sig .tc := ⟨.hbm, 146, rfl⟩
abbrev main_v72 : Ref sig .tc := ⟨.hbm, 147, rfl⟩
abbrev main_v73 : Ref sig .tc := ⟨.hbm, 148, rfl⟩
abbrev main_c_28 : Ref sig .tc := ⟨.hbm, 149, rfl⟩
abbrev main_v74 : Ref sig .tc := ⟨.hbm, 150, rfl⟩
abbrev main_v75 : Ref sig .tc := ⟨.hbm, 151, rfl⟩
abbrev main_v76 : Ref sig .tc := ⟨.hbm, 152, rfl⟩
abbrev main_v77 : Ref sig .tc := ⟨.hbm, 153, rfl⟩
abbrev main_v78 : Ref sig .tc := ⟨.hbm, 154, rfl⟩
abbrev main_v79 : Ref sig .tc := ⟨.hbm, 155, rfl⟩
abbrev main_v80 : Ref sig .tc := ⟨.hbm, 156, rfl⟩
abbrev main_c_29 : Ref sig .tc := ⟨.hbm, 157, rfl⟩
abbrev main_v81 : Ref sig .tc := ⟨.hbm, 158, rfl⟩
abbrev main_v82 : Ref sig .tc := ⟨.hbm, 159, rfl⟩
abbrev main_c_30 : Ref sig .tc := ⟨.hbm, 160, rfl⟩
abbrev main_v83 : Ref sig .tc := ⟨.hbm, 161, rfl⟩
abbrev main_v84 : Ref sig .tc := ⟨.hbm, 162, rfl⟩
abbrev main_c_31 : Ref sig .tc := ⟨.hbm, 163, rfl⟩
abbrev main_v85 : Ref sig .tc := ⟨.hbm, 164, rfl⟩
abbrev main_v86 : Ref sig .tc := ⟨.hbm, 165, rfl⟩
abbrev main_c_32 : Ref sig .tc := ⟨.hbm, 166, rfl⟩
abbrev main_v87 : Ref sig .tc := ⟨.hbm, 167, rfl⟩
abbrev main_v88 : Ref sig .tc := ⟨.hbm, 168, rfl⟩
abbrev main_v89 : Ref sig .tc := ⟨.hbm, 169, rfl⟩
abbrev main_c_33 : Ref sig .tc := ⟨.hbm, 170, rfl⟩
abbrev main_v90 : Ref sig .tc := ⟨.hbm, 171, rfl⟩
abbrev main_v91 : Ref sig .tc := ⟨.hbm, 172, rfl⟩
abbrev main_c_34 : Ref sig .tc := ⟨.hbm, 173, rfl⟩
abbrev main_v92 : Ref sig .tc := ⟨.hbm, 174, rfl⟩
abbrev main_v93 : Ref sig .tc := ⟨.hbm, 175, rfl⟩
abbrev main_v94 : Ref sig .tc := ⟨.hbm, 176, rfl⟩
abbrev main_v95 : Ref sig .tc := ⟨.hbm, 177, rfl⟩
abbrev main_v96 : Ref sig .tc := ⟨.hbm, 178, rfl⟩
abbrev main_v97 : Ref sig .tc := ⟨.hbm, 179, rfl⟩
abbrev main_v98 : Ref sig .tc := ⟨.hbm, 180, rfl⟩
abbrev main_cst_35 : Ref sig .tc := ⟨.hbm, 181, rfl⟩
abbrev main_v99 : Ref sig .tc := ⟨.hbm, 182, rfl⟩
abbrev main_v100 : Ref sig .tc := ⟨.hbm, 183, rfl⟩
abbrev main_v101 : Ref sig .tc := ⟨.hbm, 184, rfl⟩
abbrev main_v102 : Ref sig .tc := ⟨.hbm, 185, rfl⟩
abbrev main_v103 : Ref sig .tc := ⟨.hbm, 186, rfl⟩
abbrev main_v104 : Ref sig .tc := ⟨.hbm, 187, rfl⟩
abbrev main_v105 : Ref sig .tc := ⟨.hbm, 188, rfl⟩
abbrev main_cst_36 : Ref sig .tc := ⟨.hbm, 189, rfl⟩
abbrev main_v106 : Ref sig .tc := ⟨.hbm, 190, rfl⟩
abbrev main_v107 : Ref sig .tc := ⟨.hbm, 191, rfl⟩
abbrev main_v108 : Ref sig .tc := ⟨.hbm, 192, rfl⟩
abbrev main_v109 : Ref sig .tc := ⟨.hbm, 193, rfl⟩
abbrev main_cst_37 : Ref sig .tc := ⟨.hbm, 194, rfl⟩
abbrev main_v110 : Ref sig .tc := ⟨.hbm, 195, rfl⟩
abbrev main_v111 : Ref sig .tc := ⟨.hbm, 196, rfl⟩
abbrev main_v112 : Ref sig .tc := ⟨.hbm, 197, rfl⟩
abbrev main_v113 : Ref sig .tc := ⟨.hbm, 198, rfl⟩
abbrev main_v114 : Ref sig .tc := ⟨.hbm, 199, rfl⟩
abbrev main_v115 : Ref sig .tc := ⟨.hbm, 200, rfl⟩
abbrev main_v116 : Ref sig .tc := ⟨.hbm, 201, rfl⟩
abbrev main_v117 : Ref sig .tc := ⟨.hbm, 202, rfl⟩
abbrev main_v118 : Ref sig .tc := ⟨.hbm, 203, rfl⟩
abbrev main_v119 : Ref sig .tc := ⟨.hbm, 204, rfl⟩
abbrev main_v120 : Ref sig .tc := ⟨.hbm, 205, rfl⟩
abbrev main_v121 : Ref sig .tc := ⟨.hbm, 206, rfl⟩
abbrev main_cst_38 : Ref sig .tc := ⟨.hbm, 207, rfl⟩
abbrev main_cst_39 : Ref sig .tc := ⟨.hbm, 208, rfl⟩
abbrev main_call6_v0 : Ref sig .tc := ⟨.hbm, 209, rfl⟩
abbrev main_call6_v1 : Ref sig .tc := ⟨.hbm, 210, rfl⟩
abbrev main_call6_v2 : Ref sig .tc := ⟨.hbm, 211, rfl⟩
abbrev main_call6_v3 : Ref sig .tc := ⟨.hbm, 212, rfl⟩
abbrev main_call6_v4 : Ref sig .tc := ⟨.hbm, 213, rfl⟩
abbrev main_v122 : Ref sig .tc := ⟨.hbm, 214, rfl⟩
abbrev main_cst_40 : Ref sig .tc := ⟨.hbm, 215, rfl⟩
abbrev main_v123 : Ref sig .tc := ⟨.hbm, 216, rfl⟩
abbrev main_v124 : Ref sig .tc := ⟨.hbm, 217, rfl⟩
abbrev main_cst_41 : Ref sig .tc := ⟨.hbm, 218, rfl⟩
abbrev main_cst_42 : Ref sig .tc := ⟨.hbm, 219, rfl⟩
abbrev main_call7_v0 : Ref sig .tc := ⟨.hbm, 220, rfl⟩
abbrev main_call7_v1 : Ref sig .tc := ⟨.hbm, 221, rfl⟩
abbrev main_call7_v2 : Ref sig .tc := ⟨.hbm, 222, rfl⟩
abbrev main_call7_v3 : Ref sig .tc := ⟨.hbm, 223, rfl⟩
abbrev main_call7_v4 : Ref sig .tc := ⟨.hbm, 224, rfl⟩
abbrev main_v125 : Ref sig .tc := ⟨.hbm, 225, rfl⟩
abbrev main_cst_43 : Ref sig .tc := ⟨.hbm, 226, rfl⟩
abbrev main_v126 : Ref sig .tc := ⟨.hbm, 227, rfl⟩
abbrev main_v127 : Ref sig .tc := ⟨.hbm, 228, rfl⟩
abbrev main_v128 : Ref sig .tc := ⟨.hbm, 229, rfl⟩
abbrev main_c_44 : Ref sig .tc := ⟨.hbm, 230, rfl⟩
abbrev main_c_45 : Ref sig .tc := ⟨.hbm, 231, rfl⟩
abbrev main_call8_v0 : Ref sig .tc := ⟨.hbm, 232, rfl⟩
abbrev main_call8_v1 : Ref sig .tc := ⟨.hbm, 233, rfl⟩
abbrev main_call8_v2 : Ref sig .tc := ⟨.hbm, 234, rfl⟩
abbrev main_call8_v3 : Ref sig .tc := ⟨.hbm, 235, rfl⟩
abbrev main_call8_v4 : Ref sig .tc := ⟨.hbm, 236, rfl⟩
abbrev main_v129 : Ref sig .tc := ⟨.hbm, 237, rfl⟩
abbrev main_v130 : Ref sig .tc := ⟨.hbm, 238, rfl⟩
abbrev main_v131 : Ref sig .tc := ⟨.hbm, 239, rfl⟩
abbrev main_c_46 : Ref sig .tc := ⟨.hbm, 240, rfl⟩
abbrev main_c_47 : Ref sig .tc := ⟨.hbm, 241, rfl⟩
abbrev main_call9_v0 : Ref sig .tc := ⟨.hbm, 242, rfl⟩
abbrev main_call9_v1 : Ref sig .tc := ⟨.hbm, 243, rfl⟩
abbrev main_call9_v2 : Ref sig .tc := ⟨.hbm, 244, rfl⟩
abbrev main_call9_v3 : Ref sig .tc := ⟨.hbm, 245, rfl⟩
abbrev main_call9_v4 : Ref sig .tc := ⟨.hbm, 246, rfl⟩
abbrev main_v132 : Ref sig .tc := ⟨.hbm, 247, rfl⟩
abbrev main_v133 : Ref sig .tc := ⟨.hbm, 248, rfl⟩
abbrev main_v134 : Ref sig .tc := ⟨.hbm, 249, rfl⟩
abbrev main_v135 : Ref sig .tc := ⟨.hbm, 250, rfl⟩
abbrev main_v136 : Ref sig .tc := ⟨.hbm, 251, rfl⟩
abbrev main_v137 : Ref sig .tc := ⟨.hbm, 252, rfl⟩
abbrev main_v138 : Ref sig .tc := ⟨.hbm, 253, rfl⟩
abbrev main_v139 : Ref sig .tc := ⟨.hbm, 254, rfl⟩
abbrev main_c_48 : Ref sig .tc := ⟨.hbm, 255, rfl⟩
abbrev main_v140 : Ref sig .tc := ⟨.hbm, 256, rfl⟩
abbrev main_v141 : Ref sig .tc := ⟨.hbm, 257, rfl⟩
abbrev main_c_49 : Ref sig .tc := ⟨.hbm, 258, rfl⟩
abbrev main_v142 : Ref sig .tc := ⟨.hbm, 259, rfl⟩
abbrev main_v143 : Ref sig .tc := ⟨.hbm, 260, rfl⟩
abbrev main_v144 : Ref sig .tc := ⟨.hbm, 261, rfl⟩
abbrev main_c_50 : Ref sig .tc := ⟨.hbm, 262, rfl⟩
abbrev main_v145 : Ref sig .tc := ⟨.hbm, 263, rfl⟩
abbrev main_v146 : Ref sig .tc := ⟨.hbm, 264, rfl⟩
abbrev main_c_51 : Ref sig .tc := ⟨.hbm, 265, rfl⟩
abbrev main_v147 : Ref sig .tc := ⟨.hbm, 266, rfl⟩
abbrev main_v148 : Ref sig .tc := ⟨.hbm, 267, rfl⟩
abbrev main_v149 : Ref sig .tc := ⟨.hbm, 268, rfl⟩
abbrev main_v150 : Ref sig .tc := ⟨.hbm, 269, rfl⟩
abbrev main_v151 : Ref sig .tc := ⟨.hbm, 270, rfl⟩
abbrev main_v152 : Ref sig .tc := ⟨.hbm, 271, rfl⟩
abbrev main_v153 : Ref sig .tc := ⟨.hbm, 272, rfl⟩
abbrev main_c_52 : Ref sig .tc := ⟨.hbm, 273, rfl⟩
abbrev main_v154 : Ref sig .tc := ⟨.hbm, 274, rfl⟩
abbrev main_v155 : Ref sig .tc := ⟨.hbm, 275, rfl⟩
abbrev main_c_53 : Ref sig .tc := ⟨.hbm, 276, rfl⟩
abbrev main_v156 : Ref sig .tc := ⟨.hbm, 277, rfl⟩
abbrev main_v157 : Ref sig .tc := ⟨.hbm, 278, rfl⟩
abbrev main_c_54 : Ref sig .tc := ⟨.hbm, 279, rfl⟩
abbrev main_v158 : Ref sig .tc := ⟨.hbm, 280, rfl⟩
abbrev main_v159 : Ref sig .tc := ⟨.hbm, 281, rfl⟩
abbrev main_v160 : Ref sig .tc := ⟨.hbm, 282, rfl⟩
abbrev main_c_55 : Ref sig .tc := ⟨.hbm, 283, rfl⟩
abbrev main_v161 : Ref sig .tc := ⟨.hbm, 284, rfl⟩
abbrev main_v162 : Ref sig .tc := ⟨.hbm, 285, rfl⟩
abbrev main_c_56 : Ref sig .tc := ⟨.hbm, 286, rfl⟩
abbrev main_v163 : Ref sig .tc := ⟨.hbm, 287, rfl⟩
abbrev main_v164 : Ref sig .tc := ⟨.hbm, 288, rfl⟩
abbrev main_v165 : Ref sig .tc := ⟨.hbm, 289, rfl⟩
abbrev main_v166 : Ref sig .tc := ⟨.hbm, 290, rfl⟩
abbrev main_v167 : Ref sig .tc := ⟨.hbm, 291, rfl⟩
abbrev main_v168 : Ref sig .tc := ⟨.hbm, 292, rfl⟩
abbrev main_v169 : Ref sig .tc := ⟨.hbm, 293, rfl⟩
abbrev main_c_57 : Ref sig .tc := ⟨.hbm, 294, rfl⟩
abbrev main_v170 : Ref sig .tc := ⟨.hbm, 295, rfl⟩
abbrev main_v171 : Ref sig .tc := ⟨.hbm, 296, rfl⟩
abbrev main_c_58 : Ref sig .tc := ⟨.hbm, 297, rfl⟩
abbrev main_v172 : Ref sig .tc := ⟨.hbm, 298, rfl⟩
abbrev main_v173 : Ref sig .tc := ⟨.hbm, 299, rfl⟩
abbrev main_c_59 : Ref sig .tc := ⟨.hbm, 300, rfl⟩
abbrev main_v174 : Ref sig .tc := ⟨.hbm, 301, rfl⟩
abbrev main_v175 : Ref sig .tc := ⟨.hbm, 302, rfl⟩
abbrev main_v176 : Ref sig .tc := ⟨.hbm, 303, rfl⟩
abbrev main_c_60 : Ref sig .tc := ⟨.hbm, 304, rfl⟩
abbrev main_v177 : Ref sig .tc := ⟨.hbm, 305, rfl⟩
abbrev main_v178 : Ref sig .tc := ⟨.hbm, 306, rfl⟩
abbrev main_c_61 : Ref sig .tc := ⟨.hbm, 307, rfl⟩
abbrev main_v179 : Ref sig .tc := ⟨.hbm, 308, rfl⟩
abbrev main_v180 : Ref sig .tc := ⟨.hbm, 309, rfl⟩
abbrev main_v181 : Ref sig .tc := ⟨.hbm, 310, rfl⟩
abbrev main_v182 : Ref sig .tc := ⟨.hbm, 311, rfl⟩
abbrev main_v183 : Ref sig .tc := ⟨.hbm, 312, rfl⟩
abbrev main_v184 : Ref sig .tc := ⟨.hbm, 313, rfl⟩
abbrev main_v185 : Ref sig .tc := ⟨.hbm, 314, rfl⟩
abbrev main_c_62 : Ref sig .tc := ⟨.hbm, 315, rfl⟩
abbrev main_v186 : Ref sig .tc := ⟨.hbm, 316, rfl⟩
abbrev main_v187 : Ref sig .tc := ⟨.hbm, 317, rfl⟩
abbrev main_c_63 : Ref sig .tc := ⟨.hbm, 318, rfl⟩
abbrev main_v188 : Ref sig .tc := ⟨.hbm, 319, rfl⟩
abbrev main_v189 : Ref sig .tc := ⟨.hbm, 320, rfl⟩
abbrev main_c_64 : Ref sig .tc := ⟨.hbm, 321, rfl⟩
abbrev main_v190 : Ref sig .tc := ⟨.hbm, 322, rfl⟩
abbrev main_v191 : Ref sig .tc := ⟨.hbm, 323, rfl⟩
abbrev main_c_65 : Ref sig .tc := ⟨.hbm, 324, rfl⟩
abbrev main_v192 : Ref sig .tc := ⟨.hbm, 325, rfl⟩
abbrev main_v193 : Ref sig .tc := ⟨.hbm, 326, rfl⟩
abbrev main_v194 : Ref sig .tc := ⟨.hbm, 327, rfl⟩
abbrev main_c_66 : Ref sig .tc := ⟨.hbm, 328, rfl⟩
abbrev main_v195 : Ref sig .tc := ⟨.hbm, 329, rfl⟩
abbrev main_v196 : Ref sig .tc := ⟨.hbm, 330, rfl⟩
abbrev main_c_67 : Ref sig .tc := ⟨.hbm, 331, rfl⟩
abbrev main_v197 : Ref sig .tc := ⟨.hbm, 332, rfl⟩
abbrev main_v198 : Ref sig .tc := ⟨.hbm, 333, rfl⟩
abbrev main_v199 : Ref sig .tc := ⟨.hbm, 334, rfl⟩
abbrev main_v200 : Ref sig .tc := ⟨.hbm, 335, rfl⟩
abbrev main_v201 : Ref sig .tc := ⟨.hbm, 336, rfl⟩
abbrev main_v202 : Ref sig .tc := ⟨.hbm, 337, rfl⟩
abbrev main_v203 : Ref sig .tc := ⟨.hbm, 338, rfl⟩
abbrev main_cst_68 : Ref sig .tc := ⟨.hbm, 339, rfl⟩
abbrev main_v204 : Ref sig .tc := ⟨.hbm, 340, rfl⟩
abbrev main_v205 : Ref sig .tc := ⟨.hbm, 341, rfl⟩
abbrev main_v206 : Ref sig .tc := ⟨.hbm, 342, rfl⟩
abbrev main_v207 : Ref sig .tc := ⟨.hbm, 343, rfl⟩
abbrev main_v208 : Ref sig .tc := ⟨.hbm, 344, rfl⟩
abbrev main_v209 : Ref sig .tc := ⟨.hbm, 345, rfl⟩
abbrev main_v210 : Ref sig .tc := ⟨.hbm, 346, rfl⟩
abbrev main_cst_69 : Ref sig .tc := ⟨.hbm, 347, rfl⟩
abbrev main_v211 : Ref sig .tc := ⟨.hbm, 348, rfl⟩
abbrev main_v212 : Ref sig .tc := ⟨.hbm, 349, rfl⟩
abbrev main_v213 : Ref sig .tc := ⟨.hbm, 350, rfl⟩
abbrev main_v214 : Ref sig .tc := ⟨.hbm, 351, rfl⟩
abbrev main_cst_70 : Ref sig .tc := ⟨.hbm, 352, rfl⟩
abbrev main_v215 : Ref sig .tc := ⟨.hbm, 353, rfl⟩
abbrev main_v216 : Ref sig .tc := ⟨.hbm, 354, rfl⟩
abbrev main_v217 : Ref sig .tc := ⟨.hbm, 355, rfl⟩
abbrev main_v218 : Ref sig .tc := ⟨.hbm, 356, rfl⟩
abbrev main_v219 : Ref sig .tc := ⟨.hbm, 357, rfl⟩
abbrev main_v220 : Ref sig .tc := ⟨.hbm, 358, rfl⟩
abbrev main_v221 : Ref sig .tc := ⟨.hbm, 359, rfl⟩
abbrev main_v222 : Ref sig .tc := ⟨.hbm, 360, rfl⟩
abbrev main_v223 : Ref sig .tc := ⟨.hbm, 361, rfl⟩
abbrev main_v224 : Ref sig .tc := ⟨.hbm, 362, rfl⟩
abbrev main_v225 : Ref sig .tc := ⟨.hbm, 363, rfl⟩
abbrev main_v226 : Ref sig .tc := ⟨.hbm, 364, rfl⟩
abbrev main_cst_71 : Ref sig .tc := ⟨.hbm, 365, rfl⟩
abbrev main_cst_72 : Ref sig .tc := ⟨.hbm, 366, rfl⟩
abbrev main_call10_v0 : Ref sig .tc := ⟨.hbm, 367, rfl⟩
abbrev main_call10_v1 : Ref sig .tc := ⟨.hbm, 368, rfl⟩
abbrev main_call10_v2 : Ref sig .tc := ⟨.hbm, 369, rfl⟩
abbrev main_call10_v3 : Ref sig .tc := ⟨.hbm, 370, rfl⟩
abbrev main_call10_v4 : Ref sig .tc := ⟨.hbm, 371, rfl⟩
abbrev main_v227 : Ref sig .tc := ⟨.hbm, 372, rfl⟩
abbrev main_cst_73 : Ref sig .tc := ⟨.hbm, 373, rfl⟩
abbrev main_v228 : Ref sig .tc := ⟨.hbm, 374, rfl⟩
abbrev main_v229 : Ref sig .tc := ⟨.hbm, 375, rfl⟩
abbrev main_cst_74 : Ref sig .tc := ⟨.hbm, 376, rfl⟩
abbrev main_cst_75 : Ref sig .tc := ⟨.hbm, 377, rfl⟩
abbrev main_call11_v0 : Ref sig .tc := ⟨.hbm, 378, rfl⟩
abbrev main_call11_v1 : Ref sig .tc := ⟨.hbm, 379, rfl⟩
abbrev main_call11_v2 : Ref sig .tc := ⟨.hbm, 380, rfl⟩
abbrev main_call11_v3 : Ref sig .tc := ⟨.hbm, 381, rfl⟩
abbrev main_call11_v4 : Ref sig .tc := ⟨.hbm, 382, rfl⟩
abbrev main_v230 : Ref sig .tc := ⟨.hbm, 383, rfl⟩
abbrev main_cst_76 : Ref sig .tc := ⟨.hbm, 384, rfl⟩
abbrev main_v231 : Ref sig .tc := ⟨.hbm, 385, rfl⟩
abbrev main_v232 : Ref sig .tc := ⟨.hbm, 386, rfl⟩
abbrev main_v233 : Ref sig .tc := ⟨.hbm, 387, rfl⟩
abbrev main_c_77 : Ref sig .tc := ⟨.hbm, 388, rfl⟩
abbrev main_c_78 : Ref sig .tc := ⟨.hbm, 389, rfl⟩
abbrev main_call12_v0 : Ref sig .tc := ⟨.hbm, 390, rfl⟩
abbrev main_call12_v1 : Ref sig .tc := ⟨.hbm, 391, rfl⟩
abbrev main_call12_v2 : Ref sig .tc := ⟨.hbm, 392, rfl⟩
abbrev main_call12_v3 : Ref sig .tc := ⟨.hbm, 393, rfl⟩
abbrev main_call12_v4 : Ref sig .tc := ⟨.hbm, 394, rfl⟩
abbrev main_v234 : Ref sig .tc := ⟨.hbm, 395, rfl⟩
abbrev main_v235 : Ref sig .tc := ⟨.hbm, 396, rfl⟩
abbrev main_v236 : Ref sig .tc := ⟨.hbm, 397, rfl⟩
abbrev main_c_79 : Ref sig .tc := ⟨.hbm, 398, rfl⟩
abbrev main_c_80 : Ref sig .tc := ⟨.hbm, 399, rfl⟩
abbrev main_call13_v0 : Ref sig .tc := ⟨.hbm, 400, rfl⟩
abbrev main_call13_v1 : Ref sig .tc := ⟨.hbm, 401, rfl⟩
abbrev main_call13_v2 : Ref sig .tc := ⟨.hbm, 402, rfl⟩
abbrev main_call13_v3 : Ref sig .tc := ⟨.hbm, 403, rfl⟩
abbrev main_call13_v4 : Ref sig .tc := ⟨.hbm, 404, rfl⟩
abbrev main_v237 : Ref sig .tc := ⟨.hbm, 405, rfl⟩
abbrev main_v238 : Ref sig .tc := ⟨.hbm, 406, rfl⟩
abbrev main_v239 : Ref sig .tc := ⟨.hbm, 407, rfl⟩
abbrev main_v240 : Ref sig .tc := ⟨.hbm, 408, rfl⟩
abbrev main_v241 : Ref sig .tc := ⟨.hbm, 409, rfl⟩
abbrev main_v242 : Ref sig .tc := ⟨.hbm, 410, rfl⟩
abbrev main_v243 : Ref sig .tc := ⟨.hbm, 411, rfl⟩
abbrev main_v244 : Ref sig .tc := ⟨.hbm, 412, rfl⟩
abbrev main_c_81 : Ref sig .tc := ⟨.hbm, 413, rfl⟩
abbrev main_v245 : Ref sig .tc := ⟨.hbm, 414, rfl⟩
abbrev main_v246 : Ref sig .tc := ⟨.hbm, 415, rfl⟩
abbrev main_c_82 : Ref sig .tc := ⟨.hbm, 416, rfl⟩
abbrev main_v247 : Ref sig .tc := ⟨.hbm, 417, rfl⟩
abbrev main_v248 : Ref sig .tc := ⟨.hbm, 418, rfl⟩
abbrev main_v249 : Ref sig .tc := ⟨.hbm, 419, rfl⟩
abbrev main_c_83 : Ref sig .tc := ⟨.hbm, 420, rfl⟩
abbrev main_v250 : Ref sig .tc := ⟨.hbm, 421, rfl⟩
abbrev main_v251 : Ref sig .tc := ⟨.hbm, 422, rfl⟩
abbrev main_c_84 : Ref sig .tc := ⟨.hbm, 423, rfl⟩
abbrev main_v252 : Ref sig .tc := ⟨.hbm, 424, rfl⟩
abbrev main_v253 : Ref sig .tc := ⟨.hbm, 425, rfl⟩
abbrev main_v254 : Ref sig .tc := ⟨.hbm, 426, rfl⟩
abbrev main_v255 : Ref sig .tc := ⟨.hbm, 427, rfl⟩
abbrev main_v256 : Ref sig .tc := ⟨.hbm, 428, rfl⟩
abbrev main_v257 : Ref sig .tc := ⟨.hbm, 429, rfl⟩
abbrev main_v258 : Ref sig .tc := ⟨.hbm, 430, rfl⟩
abbrev main_c_85 : Ref sig .tc := ⟨.hbm, 431, rfl⟩
abbrev main_v259 : Ref sig .tc := ⟨.hbm, 432, rfl⟩
abbrev main_v260 : Ref sig .tc := ⟨.hbm, 433, rfl⟩
abbrev main_c_86 : Ref sig .tc := ⟨.hbm, 434, rfl⟩
abbrev main_v261 : Ref sig .tc := ⟨.hbm, 435, rfl⟩
abbrev main_v262 : Ref sig .tc := ⟨.hbm, 436, rfl⟩
abbrev main_c_87 : Ref sig .tc := ⟨.hbm, 437, rfl⟩
abbrev main_v263 : Ref sig .tc := ⟨.hbm, 438, rfl⟩
abbrev main_v264 : Ref sig .tc := ⟨.hbm, 439, rfl⟩
abbrev main_v265 : Ref sig .tc := ⟨.hbm, 440, rfl⟩
abbrev main_c_88 : Ref sig .tc := ⟨.hbm, 441, rfl⟩
abbrev main_v266 : Ref sig .tc := ⟨.hbm, 442, rfl⟩
abbrev main_v267 : Ref sig .tc := ⟨.hbm, 443, rfl⟩
abbrev main_c_89 : Ref sig .tc := ⟨.hbm, 444, rfl⟩
abbrev main_v268 : Ref sig .tc := ⟨.hbm, 445, rfl⟩
abbrev main_v269 : Ref sig .tc := ⟨.hbm, 446, rfl⟩
abbrev main_v270 : Ref sig .tc := ⟨.hbm, 447, rfl⟩
abbrev main_v271 : Ref sig .tc := ⟨.hbm, 448, rfl⟩
abbrev main_v272 : Ref sig .tc := ⟨.hbm, 449, rfl⟩
abbrev main_v273 : Ref sig .tc := ⟨.hbm, 450, rfl⟩
abbrev main_v274 : Ref sig .tc := ⟨.hbm, 451, rfl⟩
abbrev main_c_90 : Ref sig .tc := ⟨.hbm, 452, rfl⟩
abbrev main_v275 : Ref sig .tc := ⟨.hbm, 453, rfl⟩
abbrev main_v276 : Ref sig .tc := ⟨.hbm, 454, rfl⟩
abbrev main_c_91 : Ref sig .tc := ⟨.hbm, 455, rfl⟩
abbrev main_v277 : Ref sig .tc := ⟨.hbm, 456, rfl⟩
abbrev main_v278 : Ref sig .tc := ⟨.hbm, 457, rfl⟩
abbrev main_c_92 : Ref sig .tc := ⟨.hbm, 458, rfl⟩
abbrev main_v279 : Ref sig .tc := ⟨.hbm, 459, rfl⟩
abbrev main_v280 : Ref sig .tc := ⟨.hbm, 460, rfl⟩
abbrev main_v281 : Ref sig .tc := ⟨.hbm, 461, rfl⟩
abbrev main_c_93 : Ref sig .tc := ⟨.hbm, 462, rfl⟩
abbrev main_v282 : Ref sig .tc := ⟨.hbm, 463, rfl⟩
abbrev main_v283 : Ref sig .tc := ⟨.hbm, 464, rfl⟩
abbrev main_c_94 : Ref sig .tc := ⟨.hbm, 465, rfl⟩
abbrev main_v284 : Ref sig .tc := ⟨.hbm, 466, rfl⟩
abbrev main_v285 : Ref sig .tc := ⟨.hbm, 467, rfl⟩
abbrev main_v286 : Ref sig .tc := ⟨.hbm, 468, rfl⟩
abbrev main_v287 : Ref sig .tc := ⟨.hbm, 469, rfl⟩
abbrev main_v288 : Ref sig .tc := ⟨.hbm, 470, rfl⟩
abbrev main_v289 : Ref sig .tc := ⟨.hbm, 471, rfl⟩
abbrev main_v290 : Ref sig .tc := ⟨.hbm, 472, rfl⟩
abbrev main_c_95 : Ref sig .tc := ⟨.hbm, 473, rfl⟩
abbrev main_v291 : Ref sig .tc := ⟨.hbm, 474, rfl⟩
abbrev main_v292 : Ref sig .tc := ⟨.hbm, 475, rfl⟩
abbrev main_c_96 : Ref sig .tc := ⟨.hbm, 476, rfl⟩
abbrev main_v293 : Ref sig .tc := ⟨.hbm, 477, rfl⟩
abbrev main_v294 : Ref sig .tc := ⟨.hbm, 478, rfl⟩
abbrev main_c_97 : Ref sig .tc := ⟨.hbm, 479, rfl⟩
abbrev main_v295 : Ref sig .tc := ⟨.hbm, 480, rfl⟩
abbrev main_v296 : Ref sig .tc := ⟨.hbm, 481, rfl⟩
abbrev main_c_98 : Ref sig .tc := ⟨.hbm, 482, rfl⟩
abbrev main_v297 : Ref sig .tc := ⟨.hbm, 483, rfl⟩
abbrev main_v298 : Ref sig .tc := ⟨.hbm, 484, rfl⟩
abbrev main_v299 : Ref sig .tc := ⟨.hbm, 485, rfl⟩
abbrev main_c_99 : Ref sig .tc := ⟨.hbm, 486, rfl⟩
abbrev main_v300 : Ref sig .tc := ⟨.hbm, 487, rfl⟩
abbrev main_v301 : Ref sig .tc := ⟨.hbm, 488, rfl⟩
abbrev main_c_100 : Ref sig .tc := ⟨.hbm, 489, rfl⟩
abbrev main_v302 : Ref sig .tc := ⟨.hbm, 490, rfl⟩
abbrev main_v303 : Ref sig .tc := ⟨.hbm, 491, rfl⟩
abbrev main_v304 : Ref sig .tc := ⟨.hbm, 492, rfl⟩
abbrev main_v305 : Ref sig .tc := ⟨.hbm, 493, rfl⟩
abbrev main_v306 : Ref sig .tc := ⟨.hbm, 494, rfl⟩
abbrev main_v307 : Ref sig .tc := ⟨.hbm, 495, rfl⟩
abbrev main_v308 : Ref sig .tc := ⟨.hbm, 496, rfl⟩
abbrev main_cst_101 : Ref sig .tc := ⟨.hbm, 497, rfl⟩
abbrev main_v309 : Ref sig .tc := ⟨.hbm, 498, rfl⟩
abbrev main_v310 : Ref sig .tc := ⟨.hbm, 499, rfl⟩
abbrev main_v311 : Ref sig .tc := ⟨.hbm, 500, rfl⟩
abbrev main_v312 : Ref sig .tc := ⟨.hbm, 501, rfl⟩
abbrev main_v313 : Ref sig .tc := ⟨.hbm, 502, rfl⟩
abbrev main_v314 : Ref sig .tc := ⟨.hbm, 503, rfl⟩
abbrev main_v315 : Ref sig .tc := ⟨.hbm, 504, rfl⟩
abbrev main_cst_102 : Ref sig .tc := ⟨.hbm, 505, rfl⟩
abbrev main_v316 : Ref sig .tc := ⟨.hbm, 506, rfl⟩
abbrev main_v317 : Ref sig .tc := ⟨.hbm, 507, rfl⟩
abbrev main_v318 : Ref sig .tc := ⟨.hbm, 508, rfl⟩
abbrev main_v319 : Ref sig .tc := ⟨.hbm, 509, rfl⟩
abbrev main_cst_103 : Ref sig .tc := ⟨.hbm, 510, rfl⟩
abbrev main_v320 : Ref sig .tc := ⟨.hbm, 511, rfl⟩
abbrev main_v321 : Ref sig .tc := ⟨.hbm, 512, rfl⟩
abbrev main_v322 : Ref sig .tc := ⟨.hbm, 513, rfl⟩
abbrev main_v323 : Ref sig .tc := ⟨.hbm, 514, rfl⟩
abbrev main_v324 : Ref sig .tc := ⟨.hbm, 515, rfl⟩
abbrev main_v325 : Ref sig .tc := ⟨.hbm, 516, rfl⟩
abbrev main_v326 : Ref sig .tc := ⟨.hbm, 517, rfl⟩
abbrev main_v327 : Ref sig .tc := ⟨.hbm, 518, rfl⟩
abbrev main_v328 : Ref sig .tc := ⟨.hbm, 519, rfl⟩
abbrev main_v329 : Ref sig .tc := ⟨.hbm, 520, rfl⟩
abbrev main_v330 : Ref sig .tc := ⟨.hbm, 521, rfl⟩
abbrev main_v331 : Ref sig .tc := ⟨.hbm, 522, rfl⟩
abbrev main_cst_104 : Ref sig .tc := ⟨.hbm, 523, rfl⟩
abbrev main_cst_105 : Ref sig .tc := ⟨.hbm, 524, rfl⟩
abbrev main_call14_v0 : Ref sig .tc := ⟨.hbm, 525, rfl⟩
abbrev main_call14_v1 : Ref sig .tc := ⟨.hbm, 526, rfl⟩
abbrev main_call14_v2 : Ref sig .tc := ⟨.hbm, 527, rfl⟩
abbrev main_call14_v3 : Ref sig .tc := ⟨.hbm, 528, rfl⟩
abbrev main_call14_v4 : Ref sig .tc := ⟨.hbm, 529, rfl⟩
abbrev main_v332 : Ref sig .tc := ⟨.hbm, 530, rfl⟩
abbrev main_cst_106 : Ref sig .tc := ⟨.hbm, 531, rfl⟩
abbrev main_v333 : Ref sig .tc := ⟨.hbm, 532, rfl⟩
abbrev main_v334 : Ref sig .tc := ⟨.hbm, 533, rfl⟩
abbrev main_cst_107 : Ref sig .tc := ⟨.hbm, 534, rfl⟩
abbrev main_cst_108 : Ref sig .tc := ⟨.hbm, 535, rfl⟩
abbrev main_call15_v0 : Ref sig .tc := ⟨.hbm, 536, rfl⟩
abbrev main_call15_v1 : Ref sig .tc := ⟨.hbm, 537, rfl⟩
abbrev main_call15_v2 : Ref sig .tc := ⟨.hbm, 538, rfl⟩
abbrev main_call15_v3 : Ref sig .tc := ⟨.hbm, 539, rfl⟩
abbrev main_call15_v4 : Ref sig .tc := ⟨.hbm, 540, rfl⟩
abbrev main_v335 : Ref sig .tc := ⟨.hbm, 541, rfl⟩
abbrev main_cst_109 : Ref sig .tc := ⟨.hbm, 542, rfl⟩
abbrev main_v336 : Ref sig .tc := ⟨.hbm, 543, rfl⟩
abbrev main_v337 : Ref sig .tc := ⟨.hbm, 544, rfl⟩
abbrev main_v338 : Ref sig .tc := ⟨.hbm, 545, rfl⟩
abbrev main_c_110 : Ref sig .tc := ⟨.hbm, 546, rfl⟩
abbrev main_c_111 : Ref sig .tc := ⟨.hbm, 547, rfl⟩
abbrev main_call16_v0 : Ref sig .tc := ⟨.hbm, 548, rfl⟩
abbrev main_call16_v1 : Ref sig .tc := ⟨.hbm, 549, rfl⟩
abbrev main_call16_v2 : Ref sig .tc := ⟨.hbm, 550, rfl⟩
abbrev main_call16_v3 : Ref sig .tc := ⟨.hbm, 551, rfl⟩
abbrev main_call16_v4 : Ref sig .tc := ⟨.hbm, 552, rfl⟩
abbrev main_v339 : Ref sig .tc := ⟨.hbm, 553, rfl⟩
abbrev main_v340 : Ref sig .tc := ⟨.hbm, 554, rfl⟩
abbrev main_v341 : Ref sig .tc := ⟨.hbm, 555, rfl⟩
abbrev main_c_112 : Ref sig .tc := ⟨.hbm, 556, rfl⟩
abbrev main_c_113 : Ref sig .tc := ⟨.hbm, 557, rfl⟩
abbrev main_call17_v0 : Ref sig .tc := ⟨.hbm, 558, rfl⟩
abbrev main_call17_v1 : Ref sig .tc := ⟨.hbm, 559, rfl⟩
abbrev main_call17_v2 : Ref sig .tc := ⟨.hbm, 560, rfl⟩
abbrev main_call17_v3 : Ref sig .tc := ⟨.hbm, 561, rfl⟩
abbrev main_call17_v4 : Ref sig .tc := ⟨.hbm, 562, rfl⟩
abbrev main_v342 : Ref sig .tc := ⟨.hbm, 563, rfl⟩
abbrev main_v343 : Ref sig .tc := ⟨.hbm, 564, rfl⟩
abbrev main_v344 : Ref sig .tc := ⟨.hbm, 565, rfl⟩
abbrev main_v345 : Ref sig .tc := ⟨.hbm, 566, rfl⟩
abbrev main_v346 : Ref sig .tc := ⟨.hbm, 567, rfl⟩
abbrev main_v347 : Ref sig .tc := ⟨.hbm, 568, rfl⟩
abbrev main_v348 : Ref sig .tc := ⟨.hbm, 569, rfl⟩
abbrev main_v349 : Ref sig .tc := ⟨.hbm, 570, rfl⟩
abbrev main_c_114 : Ref sig .tc := ⟨.hbm, 571, rfl⟩
abbrev main_v350 : Ref sig .tc := ⟨.hbm, 572, rfl⟩
abbrev main_v351 : Ref sig .tc := ⟨.hbm, 573, rfl⟩
abbrev main_c_115 : Ref sig .tc := ⟨.hbm, 574, rfl⟩
abbrev main_v352 : Ref sig .tc := ⟨.hbm, 575, rfl⟩
abbrev main_v353 : Ref sig .tc := ⟨.hbm, 576, rfl⟩
abbrev main_v354 : Ref sig .tc := ⟨.hbm, 577, rfl⟩
abbrev main_c_116 : Ref sig .tc := ⟨.hbm, 578, rfl⟩
abbrev main_v355 : Ref sig .tc := ⟨.hbm, 579, rfl⟩
abbrev main_v356 : Ref sig .tc := ⟨.hbm, 580, rfl⟩
abbrev main_c_117 : Ref sig .tc := ⟨.hbm, 581, rfl⟩
abbrev main_v357 : Ref sig .tc := ⟨.hbm, 582, rfl⟩
abbrev main_v358 : Ref sig .tc := ⟨.hbm, 583, rfl⟩
abbrev main_v359 : Ref sig .tc := ⟨.hbm, 584, rfl⟩
abbrev main_v360 : Ref sig .tc := ⟨.hbm, 585, rfl⟩
abbrev main_v361 : Ref sig .tc := ⟨.hbm, 586, rfl⟩
abbrev main_v362 : Ref sig .tc := ⟨.hbm, 587, rfl⟩
abbrev main_v363 : Ref sig .tc := ⟨.hbm, 588, rfl⟩
abbrev main_c_118 : Ref sig .tc := ⟨.hbm, 589, rfl⟩
abbrev main_v364 : Ref sig .tc := ⟨.hbm, 590, rfl⟩
abbrev main_v365 : Ref sig .tc := ⟨.hbm, 591, rfl⟩
abbrev main_c_119 : Ref sig .tc := ⟨.hbm, 592, rfl⟩
abbrev main_v366 : Ref sig .tc := ⟨.hbm, 593, rfl⟩
abbrev main_v367 : Ref sig .tc := ⟨.hbm, 594, rfl⟩
abbrev main_c_120 : Ref sig .tc := ⟨.hbm, 595, rfl⟩
abbrev main_v368 : Ref sig .tc := ⟨.hbm, 596, rfl⟩
abbrev main_v369 : Ref sig .tc := ⟨.hbm, 597, rfl⟩
abbrev main_v370 : Ref sig .tc := ⟨.hbm, 598, rfl⟩
abbrev main_c_121 : Ref sig .tc := ⟨.hbm, 599, rfl⟩
abbrev main_v371 : Ref sig .tc := ⟨.hbm, 600, rfl⟩
abbrev main_v372 : Ref sig .tc := ⟨.hbm, 601, rfl⟩
abbrev main_c_122 : Ref sig .tc := ⟨.hbm, 602, rfl⟩
abbrev main_v373 : Ref sig .tc := ⟨.hbm, 603, rfl⟩
abbrev main_v374 : Ref sig .tc := ⟨.hbm, 604, rfl⟩
abbrev main_v375 : Ref sig .tc := ⟨.hbm, 605, rfl⟩
abbrev main_v376 : Ref sig .tc := ⟨.hbm, 606, rfl⟩
abbrev main_v377 : Ref sig .tc := ⟨.hbm, 607, rfl⟩
abbrev main_v378 : Ref sig .tc := ⟨.hbm, 608, rfl⟩
abbrev main_v379 : Ref sig .tc := ⟨.hbm, 609, rfl⟩
abbrev main_c_123 : Ref sig .tc := ⟨.hbm, 610, rfl⟩
abbrev main_v380 : Ref sig .tc := ⟨.hbm, 611, rfl⟩
abbrev main_v381 : Ref sig .tc := ⟨.hbm, 612, rfl⟩
abbrev main_c_124 : Ref sig .tc := ⟨.hbm, 613, rfl⟩
abbrev main_v382 : Ref sig .tc := ⟨.hbm, 614, rfl⟩
abbrev main_v383 : Ref sig .tc := ⟨.hbm, 615, rfl⟩
abbrev main_c_125 : Ref sig .tc := ⟨.hbm, 616, rfl⟩
abbrev main_v384 : Ref sig .tc := ⟨.hbm, 617, rfl⟩
abbrev main_v385 : Ref sig .tc := ⟨.hbm, 618, rfl⟩
abbrev main_v386 : Ref sig .tc := ⟨.hbm, 619, rfl⟩
abbrev main_c_126 : Ref sig .tc := ⟨.hbm, 620, rfl⟩
abbrev main_v387 : Ref sig .tc := ⟨.hbm, 621, rfl⟩
abbrev main_v388 : Ref sig .tc := ⟨.hbm, 622, rfl⟩
abbrev main_c_127 : Ref sig .tc := ⟨.hbm, 623, rfl⟩
abbrev main_v389 : Ref sig .tc := ⟨.hbm, 624, rfl⟩
abbrev main_v390 : Ref sig .tc := ⟨.hbm, 625, rfl⟩
abbrev main_v391 : Ref sig .tc := ⟨.hbm, 626, rfl⟩
abbrev main_v392 : Ref sig .tc := ⟨.hbm, 627, rfl⟩
abbrev main_v393 : Ref sig .tc := ⟨.hbm, 628, rfl⟩
abbrev main_v394 : Ref sig .tc := ⟨.hbm, 629, rfl⟩
abbrev main_v395 : Ref sig .tc := ⟨.hbm, 630, rfl⟩
abbrev main_c_128 : Ref sig .tc := ⟨.hbm, 631, rfl⟩
abbrev main_v396 : Ref sig .tc := ⟨.hbm, 632, rfl⟩
abbrev main_v397 : Ref sig .tc := ⟨.hbm, 633, rfl⟩
abbrev main_c_129 : Ref sig .tc := ⟨.hbm, 634, rfl⟩
abbrev main_v398 : Ref sig .tc := ⟨.hbm, 635, rfl⟩
abbrev main_v399 : Ref sig .tc := ⟨.hbm, 636, rfl⟩
abbrev main_c_130 : Ref sig .tc := ⟨.hbm, 637, rfl⟩
abbrev main_v400 : Ref sig .tc := ⟨.hbm, 638, rfl⟩
abbrev main_v401 : Ref sig .tc := ⟨.hbm, 639, rfl⟩
abbrev main_c_131 : Ref sig .tc := ⟨.hbm, 640, rfl⟩
abbrev main_v402 : Ref sig .tc := ⟨.hbm, 641, rfl⟩
abbrev main_v403 : Ref sig .tc := ⟨.hbm, 642, rfl⟩
abbrev main_v404 : Ref sig .tc := ⟨.hbm, 643, rfl⟩
abbrev main_c_132 : Ref sig .tc := ⟨.hbm, 644, rfl⟩
abbrev main_v405 : Ref sig .tc := ⟨.hbm, 645, rfl⟩
abbrev main_v406 : Ref sig .tc := ⟨.hbm, 646, rfl⟩
abbrev main_c_133 : Ref sig .tc := ⟨.hbm, 647, rfl⟩
abbrev main_v407 : Ref sig .tc := ⟨.hbm, 648, rfl⟩
abbrev main_v408 : Ref sig .tc := ⟨.hbm, 649, rfl⟩
abbrev main_v409 : Ref sig .tc := ⟨.hbm, 650, rfl⟩
abbrev main_v410 : Ref sig .tc := ⟨.hbm, 651, rfl⟩
abbrev main_v411 : Ref sig .tc := ⟨.hbm, 652, rfl⟩
abbrev main_v412 : Ref sig .tc := ⟨.hbm, 653, rfl⟩
abbrev main_v413 : Ref sig .tc := ⟨.hbm, 654, rfl⟩
abbrev main_cst_134 : Ref sig .tc := ⟨.hbm, 655, rfl⟩
abbrev main_v414 : Ref sig .tc := ⟨.hbm, 656, rfl⟩
abbrev main_v415 : Ref sig .tc := ⟨.hbm, 657, rfl⟩
abbrev main_v416 : Ref sig .tc := ⟨.hbm, 658, rfl⟩
abbrev main_v417 : Ref sig .tc := ⟨.hbm, 659, rfl⟩
abbrev main_v418 : Ref sig .tc := ⟨.hbm, 660, rfl⟩
abbrev main_v419 : Ref sig .tc := ⟨.hbm, 661, rfl⟩
abbrev main_v420 : Ref sig .tc := ⟨.hbm, 662, rfl⟩
abbrev main_cst_135 : Ref sig .tc := ⟨.hbm, 663, rfl⟩
abbrev main_v421 : Ref sig .tc := ⟨.hbm, 664, rfl⟩
abbrev main_v422 : Ref sig .tc := ⟨.hbm, 665, rfl⟩
abbrev main_v423 : Ref sig .tc := ⟨.hbm, 666, rfl⟩
abbrev main_v424 : Ref sig .tc := ⟨.hbm, 667, rfl⟩
abbrev main_cst_136 : Ref sig .tc := ⟨.hbm, 668, rfl⟩
abbrev main_v425 : Ref sig .tc := ⟨.hbm, 669, rfl⟩
abbrev main_v426 : Ref sig .tc := ⟨.hbm, 670, rfl⟩
abbrev main_v427 : Ref sig .tc := ⟨.hbm, 671, rfl⟩
abbrev main_v428 : Ref sig .tc := ⟨.hbm, 672, rfl⟩
abbrev main_v429 : Ref sig .tc := ⟨.hbm, 673, rfl⟩
abbrev main_v430 : Ref sig .tc := ⟨.hbm, 674, rfl⟩
abbrev main_v431 : Ref sig .tc := ⟨.hbm, 675, rfl⟩
abbrev main_v432 : Ref sig .tc := ⟨.hbm, 676, rfl⟩
abbrev main_v433 : Ref sig .tc := ⟨.hbm, 677, rfl⟩
abbrev main_v434 : Ref sig .tc := ⟨.hbm, 678, rfl⟩
abbrev main_v435 : Ref sig .tc := ⟨.hbm, 679, rfl⟩
abbrev main_v436 : Ref sig .tc := ⟨.hbm, 680, rfl⟩
abbrev main_cst_137 : Ref sig .tc := ⟨.hbm, 681, rfl⟩
abbrev main_cst_138 : Ref sig .tc := ⟨.hbm, 682, rfl⟩
abbrev main_call18_v0 : Ref sig .tc := ⟨.hbm, 683, rfl⟩
abbrev main_call18_v1 : Ref sig .tc := ⟨.hbm, 684, rfl⟩
abbrev main_call18_v2 : Ref sig .tc := ⟨.hbm, 685, rfl⟩
abbrev main_call18_v3 : Ref sig .tc := ⟨.hbm, 686, rfl⟩
abbrev main_call18_v4 : Ref sig .tc := ⟨.hbm, 687, rfl⟩
abbrev main_v437 : Ref sig .tc := ⟨.hbm, 688, rfl⟩
abbrev main_cst_139 : Ref sig .tc := ⟨.hbm, 689, rfl⟩
abbrev main_v438 : Ref sig .tc := ⟨.hbm, 690, rfl⟩
abbrev main_v439 : Ref sig .tc := ⟨.hbm, 691, rfl⟩
abbrev main_cst_140 : Ref sig .tc := ⟨.hbm, 692, rfl⟩
abbrev main_cst_141 : Ref sig .tc := ⟨.hbm, 693, rfl⟩
abbrev main_call19_v0 : Ref sig .tc := ⟨.hbm, 694, rfl⟩
abbrev main_call19_v1 : Ref sig .tc := ⟨.hbm, 695, rfl⟩
abbrev main_call19_v2 : Ref sig .tc := ⟨.hbm, 696, rfl⟩
abbrev main_call19_v3 : Ref sig .tc := ⟨.hbm, 697, rfl⟩
abbrev main_call19_v4 : Ref sig .tc := ⟨.hbm, 698, rfl⟩
abbrev main_v440 : Ref sig .tc := ⟨.hbm, 699, rfl⟩
abbrev main_cst_142 : Ref sig .tc := ⟨.hbm, 700, rfl⟩
abbrev main_v441 : Ref sig .tc := ⟨.hbm, 701, rfl⟩
abbrev main_v442 : Ref sig .tc := ⟨.hbm, 702, rfl⟩
abbrev main_v443 : Ref sig .tc := ⟨.hbm, 703, rfl⟩
abbrev main_c_143 : Ref sig .tc := ⟨.hbm, 704, rfl⟩
abbrev main_c_144 : Ref sig .tc := ⟨.hbm, 705, rfl⟩
abbrev main_call20_v0 : Ref sig .tc := ⟨.hbm, 706, rfl⟩
abbrev main_call20_v1 : Ref sig .tc := ⟨.hbm, 707, rfl⟩
abbrev main_call20_v2 : Ref sig .tc := ⟨.hbm, 708, rfl⟩
abbrev main_call20_v3 : Ref sig .tc := ⟨.hbm, 709, rfl⟩
abbrev main_call20_v4 : Ref sig .tc := ⟨.hbm, 710, rfl⟩
abbrev main_v444 : Ref sig .tc := ⟨.hbm, 711, rfl⟩
abbrev main_v445 : Ref sig .tc := ⟨.hbm, 712, rfl⟩
abbrev main_v446 : Ref sig .tc := ⟨.hbm, 713, rfl⟩
abbrev main_c_145 : Ref sig .tc := ⟨.hbm, 714, rfl⟩
abbrev main_c_146 : Ref sig .tc := ⟨.hbm, 715, rfl⟩
abbrev main_call21_v0 : Ref sig .tc := ⟨.hbm, 716, rfl⟩
abbrev main_call21_v1 : Ref sig .tc := ⟨.hbm, 717, rfl⟩
abbrev main_call21_v2 : Ref sig .tc := ⟨.hbm, 718, rfl⟩
abbrev main_call21_v3 : Ref sig .tc := ⟨.hbm, 719, rfl⟩
abbrev main_call21_v4 : Ref sig .tc := ⟨.hbm, 720, rfl⟩
abbrev main_v447 : Ref sig .tc := ⟨.hbm, 721, rfl⟩
abbrev main_v448 : Ref sig .tc := ⟨.hbm, 722, rfl⟩
abbrev main_v449 : Ref sig .tc := ⟨.hbm, 723, rfl⟩
abbrev main_v450 : Ref sig .tc := ⟨.hbm, 724, rfl⟩
abbrev main_v451 : Ref sig .tc := ⟨.hbm, 725, rfl⟩
abbrev main_v452 : Ref sig .tc := ⟨.hbm, 726, rfl⟩
abbrev main_v453 : Ref sig .tc := ⟨.hbm, 727, rfl⟩
abbrev main_v454 : Ref sig .tc := ⟨.hbm, 728, rfl⟩
abbrev main_c_147 : Ref sig .tc := ⟨.hbm, 729, rfl⟩
abbrev main_v455 : Ref sig .tc := ⟨.hbm, 730, rfl⟩
abbrev main_v456 : Ref sig .tc := ⟨.hbm, 731, rfl⟩
abbrev main_c_148 : Ref sig .tc := ⟨.hbm, 732, rfl⟩
abbrev main_v457 : Ref sig .tc := ⟨.hbm, 733, rfl⟩
abbrev main_v458 : Ref sig .tc := ⟨.hbm, 734, rfl⟩
abbrev main_v459 : Ref sig .tc := ⟨.hbm, 735, rfl⟩
abbrev main_c_149 : Ref sig .tc := ⟨.hbm, 736, rfl⟩
abbrev main_v460 : Ref sig .tc := ⟨.hbm, 737, rfl⟩
abbrev main_v461 : Ref sig .tc := ⟨.hbm, 738, rfl⟩
abbrev main_c_150 : Ref sig .tc := ⟨.hbm, 739, rfl⟩
abbrev main_v462 : Ref sig .tc := ⟨.hbm, 740, rfl⟩
abbrev main_v463 : Ref sig .tc := ⟨.hbm, 741, rfl⟩
abbrev main_v464 : Ref sig .tc := ⟨.hbm, 742, rfl⟩
abbrev main_v465 : Ref sig .tc := ⟨.hbm, 743, rfl⟩
abbrev main_v466 : Ref sig .tc := ⟨.hbm, 744, rfl⟩
abbrev main_v467 : Ref sig .tc := ⟨.hbm, 745, rfl⟩
abbrev main_v468 : Ref sig .tc := ⟨.hbm, 746, rfl⟩
abbrev main_c_151 : Ref sig .tc := ⟨.hbm, 747, rfl⟩
abbrev main_v469 : Ref sig .tc := ⟨.hbm, 748, rfl⟩
abbrev main_v470 : Ref sig .tc := ⟨.hbm, 749, rfl⟩
abbrev main_c_152 : Ref sig .tc := ⟨.hbm, 750, rfl⟩
abbrev main_v471 : Ref sig .tc := ⟨.hbm, 751, rfl⟩
abbrev main_v472 : Ref sig .tc := ⟨.hbm, 752, rfl⟩
abbrev main_c_153 : Ref sig .tc := ⟨.hbm, 753, rfl⟩
abbrev main_v473 : Ref sig .tc := ⟨.hbm, 754, rfl⟩
abbrev main_v474 : Ref sig .tc := ⟨.hbm, 755, rfl⟩
abbrev main_v475 : Ref sig .tc := ⟨.hbm, 756, rfl⟩
abbrev main_c_154 : Ref sig .tc := ⟨.hbm, 757, rfl⟩
abbrev main_v476 : Ref sig .tc := ⟨.hbm, 758, rfl⟩
abbrev main_v477 : Ref sig .tc := ⟨.hbm, 759, rfl⟩
abbrev main_c_155 : Ref sig .tc := ⟨.hbm, 760, rfl⟩
abbrev main_v478 : Ref sig .tc := ⟨.hbm, 761, rfl⟩
abbrev main_v479 : Ref sig .tc := ⟨.hbm, 762, rfl⟩
abbrev main_v480 : Ref sig .tc := ⟨.hbm, 763, rfl⟩
abbrev main_v481 : Ref sig .tc := ⟨.hbm, 764, rfl⟩
abbrev main_v482 : Ref sig .tc := ⟨.hbm, 765, rfl⟩
abbrev main_v483 : Ref sig .tc := ⟨.hbm, 766, rfl⟩
abbrev main_v484 : Ref sig .tc := ⟨.hbm, 767, rfl⟩
abbrev main_c_156 : Ref sig .tc := ⟨.hbm, 768, rfl⟩
abbrev main_v485 : Ref sig .tc := ⟨.hbm, 769, rfl⟩
abbrev main_v486 : Ref sig .tc := ⟨.hbm, 770, rfl⟩
abbrev main_c_157 : Ref sig .tc := ⟨.hbm, 771, rfl⟩
abbrev main_v487 : Ref sig .tc := ⟨.hbm, 772, rfl⟩
abbrev main_v488 : Ref sig .tc := ⟨.hbm, 773, rfl⟩
abbrev main_c_158 : Ref sig .tc := ⟨.hbm, 774, rfl⟩
abbrev main_v489 : Ref sig .tc := ⟨.hbm, 775, rfl⟩
abbrev main_v490 : Ref sig .tc := ⟨.hbm, 776, rfl⟩
abbrev main_v491 : Ref sig .tc := ⟨.hbm, 777, rfl⟩
abbrev main_c_159 : Ref sig .tc := ⟨.hbm, 778, rfl⟩
abbrev main_v492 : Ref sig .tc := ⟨.hbm, 779, rfl⟩
abbrev main_v493 : Ref sig .tc := ⟨.hbm, 780, rfl⟩
abbrev main_c_160 : Ref sig .tc := ⟨.hbm, 781, rfl⟩
abbrev main_v494 : Ref sig .tc := ⟨.hbm, 782, rfl⟩
abbrev main_v495 : Ref sig .tc := ⟨.hbm, 783, rfl⟩
abbrev main_v496 : Ref sig .tc := ⟨.hbm, 784, rfl⟩
abbrev main_v497 : Ref sig .tc := ⟨.hbm, 785, rfl⟩
abbrev main_v498 : Ref sig .tc := ⟨.hbm, 786, rfl⟩
abbrev main_v499 : Ref sig .tc := ⟨.hbm, 787, rfl⟩
abbrev main_v500 : Ref sig .tc := ⟨.hbm, 788, rfl⟩
abbrev main_c_161 : Ref sig .tc := ⟨.hbm, 789, rfl⟩
abbrev main_v501 : Ref sig .tc := ⟨.hbm, 790, rfl⟩
abbrev main_v502 : Ref sig .tc := ⟨.hbm, 791, rfl⟩
abbrev main_c_162 : Ref sig .tc := ⟨.hbm, 792, rfl⟩
abbrev main_v503 : Ref sig .tc := ⟨.hbm, 793, rfl⟩
abbrev main_v504 : Ref sig .tc := ⟨.hbm, 794, rfl⟩
abbrev main_c_163 : Ref sig .tc := ⟨.hbm, 795, rfl⟩
abbrev main_v505 : Ref sig .tc := ⟨.hbm, 796, rfl⟩
abbrev main_v506 : Ref sig .tc := ⟨.hbm, 797, rfl⟩
abbrev main_c_164 : Ref sig .tc := ⟨.hbm, 798, rfl⟩
abbrev main_v507 : Ref sig .tc := ⟨.hbm, 799, rfl⟩
abbrev main_v508 : Ref sig .tc := ⟨.hbm, 800, rfl⟩
abbrev main_v509 : Ref sig .tc := ⟨.hbm, 801, rfl⟩
abbrev main_c_165 : Ref sig .tc := ⟨.hbm, 802, rfl⟩
abbrev main_v510 : Ref sig .tc := ⟨.hbm, 803, rfl⟩
abbrev main_v511 : Ref sig .tc := ⟨.hbm, 804, rfl⟩
abbrev main_c_166 : Ref sig .tc := ⟨.hbm, 805, rfl⟩
abbrev main_v512 : Ref sig .tc := ⟨.hbm, 806, rfl⟩
abbrev main_v513 : Ref sig .tc := ⟨.hbm, 807, rfl⟩
abbrev main_v514 : Ref sig .tc := ⟨.hbm, 808, rfl⟩
abbrev main_v515 : Ref sig .tc := ⟨.hbm, 809, rfl⟩
abbrev main_v516 : Ref sig .tc := ⟨.hbm, 810, rfl⟩
abbrev main_v517 : Ref sig .tc := ⟨.hbm, 811, rfl⟩
abbrev main_v518 : Ref sig .tc := ⟨.hbm, 812, rfl⟩
abbrev main_cst_167 : Ref sig .tc := ⟨.hbm, 813, rfl⟩
abbrev main_v519 : Ref sig .tc := ⟨.hbm, 814, rfl⟩
abbrev main_v520 : Ref sig .tc := ⟨.hbm, 815, rfl⟩
abbrev main_v521 : Ref sig .tc := ⟨.hbm, 816, rfl⟩
abbrev main_v522 : Ref sig .tc := ⟨.hbm, 817, rfl⟩
abbrev main_v523 : Ref sig .tc := ⟨.hbm, 818, rfl⟩
abbrev main_v524 : Ref sig .tc := ⟨.hbm, 819, rfl⟩
abbrev main_v525 : Ref sig .tc := ⟨.hbm, 820, rfl⟩
abbrev main_cst_168 : Ref sig .tc := ⟨.hbm, 821, rfl⟩
abbrev main_v526 : Ref sig .tc := ⟨.hbm, 822, rfl⟩
abbrev main_v527 : Ref sig .tc := ⟨.hbm, 823, rfl⟩
abbrev main_v528 : Ref sig .tc := ⟨.hbm, 824, rfl⟩
abbrev main_v529 : Ref sig .tc := ⟨.hbm, 825, rfl⟩
abbrev main_cst_169 : Ref sig .tc := ⟨.hbm, 826, rfl⟩
abbrev main_v530 : Ref sig .tc := ⟨.hbm, 827, rfl⟩
abbrev main_v531 : Ref sig .tc := ⟨.hbm, 828, rfl⟩
abbrev main_v532 : Ref sig .tc := ⟨.hbm, 829, rfl⟩
abbrev main_v533 : Ref sig .tc := ⟨.hbm, 830, rfl⟩
abbrev main_v534 : Ref sig .tc := ⟨.hbm, 831, rfl⟩
abbrev main_v535 : Ref sig .tc := ⟨.hbm, 832, rfl⟩
abbrev main_v536 : Ref sig .tc := ⟨.hbm, 833, rfl⟩
abbrev main_v537 : Ref sig .tc := ⟨.hbm, 834, rfl⟩
abbrev main_v538 : Ref sig .tc := ⟨.hbm, 835, rfl⟩
abbrev main_v539 : Ref sig .tc := ⟨.hbm, 836, rfl⟩
abbrev main_v540 : Ref sig .tc := ⟨.hbm, 837, rfl⟩
abbrev main_v541 : Ref sig .tc := ⟨.hbm, 838, rfl⟩
abbrev main_cst_170 : Ref sig .tc := ⟨.hbm, 839, rfl⟩
abbrev main_cst_171 : Ref sig .tc := ⟨.hbm, 840, rfl⟩
abbrev main_call22_v0 : Ref sig .tc := ⟨.hbm, 841, rfl⟩
abbrev main_call22_v1 : Ref sig .tc := ⟨.hbm, 842, rfl⟩
abbrev main_call22_v2 : Ref sig .tc := ⟨.hbm, 843, rfl⟩
abbrev main_call22_v3 : Ref sig .tc := ⟨.hbm, 844, rfl⟩
abbrev main_call22_v4 : Ref sig .tc := ⟨.hbm, 845, rfl⟩
abbrev main_v542 : Ref sig .tc := ⟨.hbm, 846, rfl⟩
abbrev main_cst_172 : Ref sig .tc := ⟨.hbm, 847, rfl⟩
abbrev main_v543 : Ref sig .tc := ⟨.hbm, 848, rfl⟩
abbrev main_v544 : Ref sig .tc := ⟨.hbm, 849, rfl⟩
abbrev main_cst_173 : Ref sig .tc := ⟨.hbm, 850, rfl⟩
abbrev main_cst_174 : Ref sig .tc := ⟨.hbm, 851, rfl⟩
abbrev main_call23_v0 : Ref sig .tc := ⟨.hbm, 852, rfl⟩
abbrev main_call23_v1 : Ref sig .tc := ⟨.hbm, 853, rfl⟩
abbrev main_call23_v2 : Ref sig .tc := ⟨.hbm, 854, rfl⟩
abbrev main_call23_v3 : Ref sig .tc := ⟨.hbm, 855, rfl⟩
abbrev main_call23_v4 : Ref sig .tc := ⟨.hbm, 856, rfl⟩
abbrev main_v545 : Ref sig .tc := ⟨.hbm, 857, rfl⟩
abbrev main_cst_175 : Ref sig .tc := ⟨.hbm, 858, rfl⟩
abbrev main_v546 : Ref sig .tc := ⟨.hbm, 859, rfl⟩
abbrev main_v547 : Ref sig .tc := ⟨.hbm, 860, rfl⟩
abbrev main_v548 : Ref sig .tc := ⟨.hbm, 861, rfl⟩
abbrev main_c_176 : Ref sig .tc := ⟨.hbm, 862, rfl⟩
abbrev main_c_177 : Ref sig .tc := ⟨.hbm, 863, rfl⟩
abbrev main_call24_v0 : Ref sig .tc := ⟨.hbm, 864, rfl⟩
abbrev main_call24_v1 : Ref sig .tc := ⟨.hbm, 865, rfl⟩
abbrev main_call24_v2 : Ref sig .tc := ⟨.hbm, 866, rfl⟩
abbrev main_call24_v3 : Ref sig .tc := ⟨.hbm, 867, rfl⟩
abbrev main_call24_v4 : Ref sig .tc := ⟨.hbm, 868, rfl⟩
abbrev main_v549 : Ref sig .tc := ⟨.hbm, 869, rfl⟩
abbrev main_v550 : Ref sig .tc := ⟨.hbm, 870, rfl⟩
abbrev main_v551 : Ref sig .tc := ⟨.hbm, 871, rfl⟩
abbrev main_c_178 : Ref sig .tc := ⟨.hbm, 872, rfl⟩
abbrev main_c_179 : Ref sig .tc := ⟨.hbm, 873, rfl⟩
abbrev main_call25_v0 : Ref sig .tc := ⟨.hbm, 874, rfl⟩
abbrev main_call25_v1 : Ref sig .tc := ⟨.hbm, 875, rfl⟩
abbrev main_call25_v2 : Ref sig .tc := ⟨.hbm, 876, rfl⟩
abbrev main_call25_v3 : Ref sig .tc := ⟨.hbm, 877, rfl⟩
abbrev main_call25_v4 : Ref sig .tc := ⟨.hbm, 878, rfl⟩
abbrev main_v552 : Ref sig .tc := ⟨.hbm, 879, rfl⟩
abbrev main_v553 : Ref sig .tc := ⟨.hbm, 880, rfl⟩
abbrev main_v554 : Ref sig .tc := ⟨.hbm, 881, rfl⟩
abbrev main_v555 : Ref sig .tc := ⟨.hbm, 882, rfl⟩
abbrev main_v556 : Ref sig .tc := ⟨.hbm, 883, rfl⟩
abbrev main_v557 : Ref sig .tc := ⟨.hbm, 884, rfl⟩
abbrev main_v558 : Ref sig .tc := ⟨.hbm, 885, rfl⟩
abbrev main_v559 : Ref sig .tc := ⟨.hbm, 886, rfl⟩
abbrev main_c_180 : Ref sig .tc := ⟨.hbm, 887, rfl⟩
abbrev main_v560 : Ref sig .tc := ⟨.hbm, 888, rfl⟩
abbrev main_v561 : Ref sig .tc := ⟨.hbm, 889, rfl⟩
abbrev main_c_181 : Ref sig .tc := ⟨.hbm, 890, rfl⟩
abbrev main_v562 : Ref sig .tc := ⟨.hbm, 891, rfl⟩
abbrev main_v563 : Ref sig .tc := ⟨.hbm, 892, rfl⟩
abbrev main_v564 : Ref sig .tc := ⟨.hbm, 893, rfl⟩
abbrev main_c_182 : Ref sig .tc := ⟨.hbm, 894, rfl⟩
abbrev main_v565 : Ref sig .tc := ⟨.hbm, 895, rfl⟩
abbrev main_v566 : Ref sig .tc := ⟨.hbm, 896, rfl⟩
abbrev main_c_183 : Ref sig .tc := ⟨.hbm, 897, rfl⟩
abbrev main_v567 : Ref sig .tc := ⟨.hbm, 898, rfl⟩
abbrev main_v568 : Ref sig .tc := ⟨.hbm, 899, rfl⟩
abbrev main_v569 : Ref sig .tc := ⟨.hbm, 900, rfl⟩
abbrev main_v570 : Ref sig .tc := ⟨.hbm, 901, rfl⟩
abbrev main_v571 : Ref sig .tc := ⟨.hbm, 902, rfl⟩
abbrev main_v572 : Ref sig .tc := ⟨.hbm, 903, rfl⟩
abbrev main_v573 : Ref sig .tc := ⟨.hbm, 904, rfl⟩
abbrev main_c_184 : Ref sig .tc := ⟨.hbm, 905, rfl⟩
abbrev main_v574 : Ref sig .tc := ⟨.hbm, 906, rfl⟩
abbrev main_v575 : Ref sig .tc := ⟨.hbm, 907, rfl⟩
abbrev main_c_185 : Ref sig .tc := ⟨.hbm, 908, rfl⟩
abbrev main_v576 : Ref sig .tc := ⟨.hbm, 909, rfl⟩
abbrev main_v577 : Ref sig .tc := ⟨.hbm, 910, rfl⟩
abbrev main_c_186 : Ref sig .tc := ⟨.hbm, 911, rfl⟩
abbrev main_v578 : Ref sig .tc := ⟨.hbm, 912, rfl⟩
abbrev main_v579 : Ref sig .tc := ⟨.hbm, 913, rfl⟩
abbrev main_v580 : Ref sig .tc := ⟨.hbm, 914, rfl⟩
abbrev main_c_187 : Ref sig .tc := ⟨.hbm, 915, rfl⟩
abbrev main_v581 : Ref sig .tc := ⟨.hbm, 916, rfl⟩
abbrev main_v582 : Ref sig .tc := ⟨.hbm, 917, rfl⟩
abbrev main_c_188 : Ref sig .tc := ⟨.hbm, 918, rfl⟩
abbrev main_v583 : Ref sig .tc := ⟨.hbm, 919, rfl⟩
abbrev main_v584 : Ref sig .tc := ⟨.hbm, 920, rfl⟩
abbrev main_v585 : Ref sig .tc := ⟨.hbm, 921, rfl⟩
abbrev main_v586 : Ref sig .tc := ⟨.hbm, 922, rfl⟩
abbrev main_v587 : Ref sig .tc := ⟨.hbm, 923, rfl⟩
abbrev main_v588 : Ref sig .tc := ⟨.hbm, 924, rfl⟩
abbrev main_v589 : Ref sig .tc := ⟨.hbm, 925, rfl⟩
abbrev main_c_189 : Ref sig .tc := ⟨.hbm, 926, rfl⟩
abbrev main_v590 : Ref sig .tc := ⟨.hbm, 927, rfl⟩
abbrev main_v591 : Ref sig .tc := ⟨.hbm, 928, rfl⟩
abbrev main_c_190 : Ref sig .tc := ⟨.hbm, 929, rfl⟩
abbrev main_v592 : Ref sig .tc := ⟨.hbm, 930, rfl⟩
abbrev main_v593 : Ref sig .tc := ⟨.hbm, 931, rfl⟩
abbrev main_c_191 : Ref sig .tc := ⟨.hbm, 932, rfl⟩
abbrev main_v594 : Ref sig .tc := ⟨.hbm, 933, rfl⟩
abbrev main_v595 : Ref sig .tc := ⟨.hbm, 934, rfl⟩
abbrev main_v596 : Ref sig .tc := ⟨.hbm, 935, rfl⟩
abbrev main_c_192 : Ref sig .tc := ⟨.hbm, 936, rfl⟩
abbrev main_v597 : Ref sig .tc := ⟨.hbm, 937, rfl⟩
abbrev main_v598 : Ref sig .tc := ⟨.hbm, 938, rfl⟩
abbrev main_c_193 : Ref sig .tc := ⟨.hbm, 939, rfl⟩
abbrev main_v599 : Ref sig .tc := ⟨.hbm, 940, rfl⟩
abbrev main_v600 : Ref sig .tc := ⟨.hbm, 941, rfl⟩
abbrev main_v601 : Ref sig .tc := ⟨.hbm, 942, rfl⟩
abbrev main_v602 : Ref sig .tc := ⟨.hbm, 943, rfl⟩
abbrev main_v603 : Ref sig .tc := ⟨.hbm, 944, rfl⟩
abbrev main_v604 : Ref sig .tc := ⟨.hbm, 945, rfl⟩
abbrev main_v605 : Ref sig .tc := ⟨.hbm, 946, rfl⟩
abbrev main_c_194 : Ref sig .tc := ⟨.hbm, 947, rfl⟩
abbrev main_v606 : Ref sig .tc := ⟨.hbm, 948, rfl⟩
abbrev main_v607 : Ref sig .tc := ⟨.hbm, 949, rfl⟩
abbrev main_c_195 : Ref sig .tc := ⟨.hbm, 950, rfl⟩
abbrev main_v608 : Ref sig .tc := ⟨.hbm, 951, rfl⟩
abbrev main_v609 : Ref sig .tc := ⟨.hbm, 952, rfl⟩
abbrev main_c_196 : Ref sig .tc := ⟨.hbm, 953, rfl⟩
abbrev main_v610 : Ref sig .tc := ⟨.hbm, 954, rfl⟩
abbrev main_v611 : Ref sig .tc := ⟨.hbm, 955, rfl⟩
abbrev main_c_197 : Ref sig .tc := ⟨.hbm, 956, rfl⟩
abbrev main_v612 : Ref sig .tc := ⟨.hbm, 957, rfl⟩
abbrev main_v613 : Ref sig .tc := ⟨.hbm, 958, rfl⟩
abbrev main_v614 : Ref sig .tc := ⟨.hbm, 959, rfl⟩
abbrev main_c_198 : Ref sig .tc := ⟨.hbm, 960, rfl⟩
abbrev main_v615 : Ref sig .tc := ⟨.hbm, 961, rfl⟩
abbrev main_v616 : Ref sig .tc := ⟨.hbm, 962, rfl⟩
abbrev main_c_199 : Ref sig .tc := ⟨.hbm, 963, rfl⟩
abbrev main_v617 : Ref sig .tc := ⟨.hbm, 964, rfl⟩
abbrev main_v618 : Ref sig .tc := ⟨.hbm, 965, rfl⟩
abbrev main_v619 : Ref sig .tc := ⟨.hbm, 966, rfl⟩
abbrev main_v620 : Ref sig .tc := ⟨.hbm, 967, rfl⟩
abbrev main_v621 : Ref sig .tc := ⟨.hbm, 968, rfl⟩
abbrev main_v622 : Ref sig .tc := ⟨.hbm, 969, rfl⟩
abbrev main_v623 : Ref sig .tc := ⟨.hbm, 970, rfl⟩
abbrev main_cst_200 : Ref sig .tc := ⟨.hbm, 971, rfl⟩
abbrev main_v624 : Ref sig .tc := ⟨.hbm, 972, rfl⟩
abbrev main_v625 : Ref sig .tc := ⟨.hbm, 973, rfl⟩
abbrev main_v626 : Ref sig .tc := ⟨.hbm, 974, rfl⟩
abbrev main_v627 : Ref sig .tc := ⟨.hbm, 975, rfl⟩
abbrev main_v628 : Ref sig .tc := ⟨.hbm, 976, rfl⟩
abbrev main_v629 : Ref sig .tc := ⟨.hbm, 977, rfl⟩
abbrev main_v630 : Ref sig .tc := ⟨.hbm, 978, rfl⟩
abbrev main_cst_201 : Ref sig .tc := ⟨.hbm, 979, rfl⟩
abbrev main_v631 : Ref sig .tc := ⟨.hbm, 980, rfl⟩
abbrev main_v632 : Ref sig .tc := ⟨.hbm, 981, rfl⟩
abbrev main_v633 : Ref sig .tc := ⟨.hbm, 982, rfl⟩
abbrev main_v634 : Ref sig .tc := ⟨.hbm, 983, rfl⟩
abbrev main_cst_202 : Ref sig .tc := ⟨.hbm, 984, rfl⟩
abbrev main_v635 : Ref sig .tc := ⟨.hbm, 985, rfl⟩
abbrev main_v636 : Ref sig .tc := ⟨.hbm, 986, rfl⟩
abbrev main_v637 : Ref sig .tc := ⟨.hbm, 987, rfl⟩
abbrev main_v638 : Ref sig .tc := ⟨.hbm, 988, rfl⟩
abbrev main_v639 : Ref sig .tc := ⟨.hbm, 989, rfl⟩
abbrev main_v640 : Ref sig .tc := ⟨.hbm, 990, rfl⟩
abbrev main_v641 : Ref sig .tc := ⟨.hbm, 991, rfl⟩
abbrev main_v642 : Ref sig .tc := ⟨.hbm, 992, rfl⟩
abbrev main_v643 : Ref sig .tc := ⟨.hbm, 993, rfl⟩
abbrev main_v644 : Ref sig .tc := ⟨.hbm, 994, rfl⟩
abbrev main_v645 : Ref sig .tc := ⟨.hbm, 995, rfl⟩
abbrev main_v646 : Ref sig .tc := ⟨.hbm, 996, rfl⟩
abbrev main_v647 : Ref sig .tc := ⟨.hbm, 997, rfl⟩
abbrev main_v648 : Ref sig .tc := ⟨.hbm, 998, rfl⟩
abbrev main_v649 : Ref sig .tc := ⟨.hbm, 999, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x48 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x48 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S48 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x48 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S500000x3 : S_.BroadcastsInDim S500000x3 (![] : Fin 0 → Fin S500000x3.rank)
  slices_S500000x3_S500000x1_0_0 : S500000x3.Slices ![0, 0] S500000x1
  shapeCasts_S500000x1_S500000 : S500000x1.ShapeCasts S500000
  slices_S500000x3_S500000x1_0_1 : S500000x3.Slices ![0, 1] S500000x1
  slices_S500000x3_S500000x1_0_2 : S500000x3.Slices ![0, 2] S500000x1
  bcast_S_S500000 : S_.BroadcastsInDim S500000 (![] : Fin 0 → Fin S500000.rank)
  slices_S3x128x128x32_S1x128x128x32_0_0_0_0 : S3x128x128x32.Slices ![0, 0, 0, 0] S1x128x128x32
  shapeCasts_S1x128x128x32_S128x128x32 : S1x128x128x32.ShapeCasts S128x128x32
  bcast_S500000_S500000x1_0 : S500000.BroadcastsInDim S500000x1 (![0] : Fin 1 → Fin S500000x1.rank)
  concatenates_S500000x1_S500000x1_S500000x2_d1 : Shape.Concatenates [S500000x1, S500000x1] S500000x2 1
  bcast_S_S500000x1 : S_.BroadcastsInDim S500000x1 (![] : Fin 0 → Fin S500000x1.rank)
  bcast_S500000x1_S500000x32_0_1 : S500000x1.BroadcastsInDim S500000x32 (![0, 1] : Fin 2 → Fin S500000x32.rank)
  slices_S3x128x128x32_S1x128x128x32_1_0_0_0 : S3x128x128x32.Slices ![1, 0, 0, 0] S1x128x128x32
  slices_S3x128x128x32_S1x128x128x32_2_0_0_0 : S3x128x128x32.Slices ![2, 0, 0, 0] S1x128x128x32
  concatenates_S500000x32_S500000x32_S500000x32_S500000x32_S500000x32_S500000x32_S500000x192_d1 : Shape.Concatenates [S500000x32, S500000x32, S500000x32, S500000x32, S500000x32, S500000x32] S500000x192 1
  shapeCasts_S500000x16x3_S500000x48 : S500000x16x3.ShapeCasts S500000x48
  inb_S2000x192_S2000x192_0_0 : ∀ a, (![0, 0] : Fin 2 → Nat) a + S2000x192.size a ≤ S2000x192.size a
  h_S2000x192 : 0 < S2000x192.numel
  shapeCasts_S2000x192_S2000x192 : S2000x192.ShapeCasts S2000x192
  slices_S2000x192_o0_0_S2000x32 : S2000x192.Slices ![0, 0] S2000x32
  slices_S2000x192_o0_32_S2000x32 : S2000x192.Slices ![0, 32] S2000x32
  slices_S2000x192_o0_64_S2000x32 : S2000x192.Slices ![0, 64] S2000x32
  slices_S2000x192_o0_96_S2000x32 : S2000x192.Slices ![0, 96] S2000x32
  slices_S2000x192_o0_128_S2000x32 : S2000x192.Slices ![0, 128] S2000x32
  slices_S2000x192_o0_160_S2000x32 : S2000x192.Slices ![0, 160] S2000x32
  inb_S32x256_S32x256_0_0 : ∀ a, (![0, 0] : Fin 2 → Nat) a + S32x256.size a ≤ S32x256.size a
  h_S32x256 : 0 < S32x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  inb_S256x48_S256x48_0_0 : ∀ a, (![0, 0] : Fin 2 → Nat) a + S256x48.size a ≤ S256x48.size a
  h_S256x48 : 0 < S256x48.numel
  inb_S48_S48_0 : ∀ a, (![0] : Fin 1 → Nat) a + S48.size a ≤ S48.size a
  h_S48 : 0 < S48.numel
  shapeCasts_S48_S1x48 : S48.ShapeCasts S1x48
  broadcasts_S1x48_S2000x48 : S1x48.Broadcasts S2000x48
  inb_S2000x48_S2000x48_0_0 : ∀ a, (![0, 0] : Fin 2 → Nat) a + S2000x48.size a ≤ S2000x48.size a
  h_S2000x48 : 0 < S2000x48.numel
  shapeCasts_S2000x48_S2000x48 : S2000x48.ShapeCasts S2000x48
  shapeCasts_S500000x48_S500000x16x3 : S500000x48.ShapeCasts S500000x16x3
  slices_S500000x2_S500000x1_0_0 : S500000x2.Slices ![0, 0] S500000x1
  gather_S128x128x32_S500000x2_S500000x32_1_01_n_n_01_1_1132_wf : GatherDims.WF S128x128x32 S500000x2 S500000x32 [1] [0, 1] [] [0, 1] [] 1 ![1, 1, 32]
  dot_S2000x32_S32x256_S2000x256_1_0_0_1_n_n_wf : DotDims.WF S2000x32 S32x256 S2000x256 [1] [0] [0] [1] [] []
  dot_S2000x256_S256x256_S2000x256_1_0_0_1_n_n_wf : DotDims.WF S2000x256 S256x256 S2000x256 [1] [0] [0] [1] [] []
  dot_S2000x256_S256x48_S2000x48_1_0_0_1_n_n_wf : DotDims.WF S2000x256 S256x48 S2000x48 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x192.size a ≤ S500000x192.size a
  hwx0_0 : ∀ i : grid0.Coords, EltTy.bits .f32 = 32 ∨ (Rect.block (s := S500000x192) S2000x192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x48.size a ≤ S500000x48.size a
  hwx0_1 : ∀ i : grid0.Coords, EltTy.bits .f32 = 32 ∨ (Rect.block (s := S500000x48) S2000x48.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x256.size a ≤ S32x256.size a
  hwx0_2 : ∀ i : grid0.Coords, EltTy.bits .f32 = 32 ∨ (Rect.block (s := S32x256) S32x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x48.size a ≤ S256x48.size a
  hwx0_6 : ∀ i : grid0.Coords, EltTy.bits .f32 = 32 ∨ (Rect.block (s := S256x48) S256x48.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S48.size a ≤ S48.size a
  hwx0_7 : ∀ i : grid0.Coords, EltTy.bits .f32 = 32 ∨ (Rect.block (s := S48) S48.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x48.size a ≤ S500000x48.size a
  hwx0_8 : ∀ i : grid0.Coords, EltTy.bits .f32 = 32 ∨ (Rect.block (s := S500000x48) S2000x48.size (cc0_transform_8 i) (hinb0_8 i)).WholeWords (EltTy.packing .f32)

variable [Facts₀]

def gather_S128x128x32_S500000x2_S500000x32_1_01_n_n_01_1_1132 : GatherDims S128x128x32 S500000x2 S500000x32 where
  offsetDims := [1]
  collapsedSliceDims := [0, 1]
  operandBatchingDims := []
  startIndicesBatchingDims := []
  startIndexMap := [0, 1]
  indexVectorDim := 1
  sliceSizes := ![1, 1, 32]
  wf := gather_S128x128x32_S500000x2_S500000x32_1_01_n_n_01_1_1132_wf
def dot_S2000x32_S32x256_S2000x256_1_0_0_1_n_n : DotDims S2000x32 S32x256 S2000x256 where
  lhsContracting := [1]
  rhsContracting := [0]
  lhsNonContracting := [0]
  rhsNonContracting := [1]
  lhsBatch := []
  rhsBatch := []
  wf := dot_S2000x32_S32x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x48_S2000x48_1_0_0_1_n_n : DotDims S2000x256 S256x48 S2000x48 where
  lhsContracting := [1]
  rhsContracting := [0]
  lhsNonContracting := [0]
  rhsNonContracting := [1]
  lhsBatch := []
  rhsBatch := []
  wf := dot_S2000x256_S256x48_S2000x48_1_0_0_1_n_n_wf

abbrev win0_0 : Pipeline.Window sig grid0 :=
  Pipeline.Window.ofSpec (Memref.whole main_v645) S2000x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v646) S2000x48.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg9) S32x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg10) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg11) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg12) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg13) S256x48.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg14) S48.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v647) S2000x48.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S500000x3 : Shape := ⟨2, ![500000, 3]⟩
abbrev S500000x4 : Shape := ⟨2, ![500000, 4]⟩
abbrev S500000x16x3 : Shape := ⟨3, ![500000, 16, 3]⟩
abbrev S500000x1 : Shape := ⟨2, ![500000, 1]⟩
abbrev S500000x2 : Shape := ⟨2, ![500000, 2]⟩
abbrev S3x128x128x32 : Shape := ⟨4, ![3, 128, 128, 32]⟩
abbrev S32x256 : Shape := ⟨2, ![32, 256]⟩
abbrev S256 : Shape := ⟨1, ![256]⟩
abbrev S256x256 : Shape := ⟨2, ![256, 256]⟩
abbrev S256x48 : Shape := ⟨2, ![256, 48]⟩
abbrev S48 : Shape := ⟨1, ![48]⟩
abbrev S_ : Shape := ⟨0, ![]⟩
abbrev S500000 : Shape := ⟨1, ![500000]⟩
abbrev S500000x1x3 : Shape := ⟨3, ![500000, 1, 3]⟩
abbrev S500000x3x3 : Shape := ⟨3, ![500000, 3, 3]⟩
abbrev S500000x1x1 : Shape := ⟨3, ![500000, 1, 1]⟩
abbrev S500000x6 : Shape := ⟨2, ![500000, 6]⟩
abbrev S1x128x128x32 : Shape := ⟨4, ![1, 128, 128, 32]⟩
abbrev S128x128x32 : Shape := ⟨3, ![128, 128, 32]⟩
abbrev S500000x32 : Shape := ⟨2, ![500000, 32]⟩
abbrev S500000x256 : Shape := ⟨2, ![500000, 256]⟩
abbrev S1x256 : Shape := ⟨2, ![1, 256]⟩
abbrev S500000x48 : Shape := ⟨2, ![500000, 48]⟩
abbrev S1x48 : Shape := ⟨2, ![1, 48]⟩

abbrev nBuf : Space → Nat
  | .hbm => 1138
  | .vmem => 0
  | .smem => 0
  | _ => 0

abbrev hbmTy0_0 (i : Nat) : BufTy := match i % 128 with
  | 0 => ⟨S500000x3, .f32⟩
  | 1 => ⟨S500000x4, .f32⟩
  | 2 => ⟨S500000x3, .f32⟩
  | 3 => ⟨S500000x16x3, .f32⟩
  | 4 => ⟨S500000x3, .f32⟩
  | 5 => ⟨S500000x1, .f32⟩
  | 6 => ⟨S500000x2, .f32⟩
  | 7 => ⟨S3x128x128x32, .f32⟩
  | 8 => ⟨S3x128x128x32, .f32⟩
  | 9 => ⟨S32x256, .f32⟩
  | 10 => ⟨S256, .f32⟩
  | 11 => ⟨S256x256, .f32⟩
  | 12 => ⟨S256, .f32⟩
  | 13 => ⟨S256x48, .f32⟩
  | 14 => ⟨S48, .f32⟩
  | 15 => ⟨S500000x4, .f32⟩
  | 16 => ⟨S_, .f32⟩
  | 17 => ⟨S500000, .f32⟩
  | 18 => ⟨S500000x1, .f32⟩
  | 19 => ⟨S500000x1, .f32⟩
  | 20 => ⟨S500000x4, .f32⟩
  | 21 => ⟨S500000x4, .f32⟩
  | 22 => ⟨S500000x1, .f32⟩
  | 23 => ⟨S500000, .f32⟩
  | 24 => ⟨S500000x1, .f32⟩
  | 25 => ⟨S500000, .f32⟩
  | 26 => ⟨S500000x1, .f32⟩
  | 27 => ⟨S500000, .f32⟩
  | 28 => ⟨S500000x1, .f32⟩
  | 29 => ⟨S500000, .f32⟩
  | 30 => ⟨S500000, .f32⟩
  | 31 => ⟨S500000, .f32⟩
  | 32 => ⟨S500000, .f32⟩
  | 33 => ⟨S_, .f32⟩
  | 34 => ⟨S500000, .f32⟩
  | 35 => ⟨S500000, .f32⟩
  | 36 => ⟨S_, .f32⟩
  | 37 => ⟨S500000, .f32⟩
  | 38 => ⟨S500000, .f32⟩
  | 39 => ⟨S500000, .f32⟩
  | 40 => ⟨S500000, .f32⟩
  | 41 => ⟨S500000, .f32⟩
  | 42 => ⟨S_, .f32⟩
  | 43 => ⟨S500000, .f32⟩
  | 44 => ⟨S500000, .f32⟩
  | 45 => ⟨S500000, .f32⟩
  | 46 => ⟨S500000, .f32⟩
  | 47 => ⟨S500000, .f32⟩
  | 48 => ⟨S_, .f32⟩
  | 49 => ⟨S500000, .f32⟩
  | 50 => ⟨S500000, .f32⟩
  | 51 => ⟨S500000x1, .f32⟩
  | 52 => ⟨S500000x1, .f32⟩
  | 53 => ⟨S500000x1, .f32⟩
  | 54 => ⟨S500000x3, .f32⟩
  | 55 => ⟨S500000, .f32⟩
  | 56 => ⟨S500000, .f32⟩
  | 57 => ⟨S500000, .f32⟩
  | 58 => ⟨S_, .f32⟩
  | 59 => ⟨S500000, .f32⟩
  | 60 => ⟨S500000, .f32⟩
  | 61 => ⟨S500000, .f32⟩
  | 62 => ⟨S500000, .f32⟩
  | 63 => ⟨S500000, .f32⟩
  | 64 => ⟨S_, .f32⟩
  | 65 => ⟨S500000, .f32⟩
  | 66 => ⟨S500000, .f32⟩
  | 67 => ⟨S_, .f32⟩
  | 68 => ⟨S500000, .f32⟩
  | 69 => ⟨S500000, .f32⟩
  | 70 => ⟨S500000, .f32⟩
  | 71 => ⟨S500000, .f32⟩
  | 72 => ⟨S500000, .f32⟩
  | 73 => ⟨S_, .f32⟩
  | 74 => ⟨S500000, .f32⟩
  | 75 => ⟨S500000, .f32⟩
  | 76 => ⟨S500000x1, .f32⟩
  | 77 => ⟨S500000x1, .f32⟩
  | 78 => ⟨S500000x1, .f32⟩
  | 79 => ⟨S500000x3, .f32⟩
  | 80 => ⟨S500000, .f32⟩
  | 81 => ⟨S500000, .f32⟩
  | 82 => ⟨S500000, .f32⟩
  | 83 => ⟨S_, .f32⟩
  | 84 => ⟨S500000, .f32⟩
  | 85 => ⟨S500000, .f32⟩
  | 86 => ⟨S500000, .f32⟩
  | 87 => ⟨S500000, .f32⟩
  | 88 => ⟨S500000, .f32⟩
  | 89 => ⟨S_, .f32⟩
  | 90 => ⟨S500000, .f32⟩
  | 91 => ⟨S500000, .f32⟩
  | 92 => ⟨S500000, .f32⟩
  | 93 => ⟨S500000, .f32⟩
  | 94 => ⟨S500000, .f32⟩
  | 95 => ⟨S_, .f32⟩
  | 96 => ⟨S500000, .f32⟩
  | 97 => ⟨S500000, .f32⟩
  | 98 => ⟨S_, .f32⟩
  | 99 => ⟨S500000, .f32⟩
  | 100 => ⟨S500000, .f32⟩
  | 101 => ⟨S500000x1, .f32⟩
  | 102 => ⟨S500000x1, .f32⟩
  | 103 => ⟨S500000x1, .f32⟩
  | 104 => ⟨S500000x3, .f32⟩
  | 105 => ⟨S500000x1x3, .f32⟩
  | 106 => ⟨S500000x1x3, .f32⟩
  | 107 => ⟨S500000x1x3, .f32⟩
  | 108 => ⟨S500000x3x3, .f32⟩
  | 109 => ⟨S500000x1x3, .f32⟩
  | 110 => ⟨S500000x3x3, .f32⟩
  | 111 => ⟨S500000x3x3, .f32⟩
  | 112 => ⟨S500000x3x3, .f32⟩
  | 113 => ⟨S500000x1x1, .f32⟩
  | 114 => ⟨S500000, .f32⟩
  | 115 => ⟨S500000x1x1, .f32⟩
  | 116 => ⟨S500000, .f32⟩
  | 117 => ⟨S500000x1x1, .f32⟩
  | 118 => ⟨S500000, .f32⟩
  | 119 => ⟨S500000x1x1, .f32⟩
  | 120 => ⟨S500000, .f32⟩
  | 121 => ⟨S500000x1x1, .f32⟩
  | 122 => ⟨S500000, .f32⟩
  | 123 => ⟨S500000x1x1, .f32⟩
  | 124 => ⟨S500000, .f32⟩
  | 125 => ⟨S500000x1, .f32⟩
  | 126 => ⟨S500000x1, .f32⟩
  | 127 => ⟨S500000x1, .f32⟩
  | _ => ⟨S500000x3, .f32⟩

abbrev hbmTy0_1 (i : Nat) : BufTy := match i % 128 with
  | 0 => ⟨S500000x1, .f32⟩
  | 1 => ⟨S500000x1, .f32⟩
  | 2 => ⟨S500000x1, .f32⟩
  | 3 => ⟨S500000x6, .f32⟩
  | 4 => ⟨S_, .f32⟩
  | 5 => ⟨S500000x3, .f32⟩
  | 6 => ⟨S500000x3, .f32⟩
  | 7 => ⟨S_, .f32⟩
  | 8 => ⟨S_, .f32⟩
  | 9 => ⟨S_, .f32⟩
  | 10 => ⟨S500000x3, .f32⟩
  | 11 => ⟨S500000x3, .f32⟩
  | 12 => ⟨S_, .f32⟩
  | 13 => ⟨S500000x3, .f32⟩
  | 14 => ⟨S500000x3, .f32⟩
  | 15 => ⟨S_, .f32⟩
  | 16 => ⟨S500000x3, .f32⟩
  | 17 => ⟨S500000x3, .f32⟩
  | 18 => ⟨S_, .f32⟩
  | 19 => ⟨S500000x3, .f32⟩
  | 20 => ⟨S500000x3, .f32⟩
  | 21 => ⟨S500000x1, .f32⟩
  | 22 => ⟨S500000, .f32⟩
  | 23 => ⟨S500000x1, .f32⟩
  | 24 => ⟨S500000, .f32⟩
  | 25 => ⟨S500000x1, .f32⟩
  | 26 => ⟨S500000, .f32⟩
  | 27 => ⟨S500000, .f32⟩
  | 28 => ⟨S_, .f32⟩
  | 29 => ⟨S_, .f32⟩
  | 30 => ⟨S_, .f32⟩
  | 31 => ⟨S500000, .f32⟩
  | 32 => ⟨S500000, .f32⟩
  | 33 => ⟨S_, .f32⟩
  | 34 => ⟨S500000, .f32⟩
  | 35 => ⟨S500000, .f32⟩
  | 36 => ⟨S1x128x128x32, .f32⟩
  | 37 => ⟨S128x128x32, .f32⟩
  | 38 => ⟨S_, .f32⟩
  | 39 => ⟨S_, .f32⟩
  | 40 => ⟨S_, .f32⟩
  | 41 => ⟨S500000, .f32⟩
  | 42 => ⟨S500000, .f32⟩
  | 43 => ⟨S_, .f32⟩
  | 44 => ⟨S500000, .f32⟩
  | 45 => ⟨S500000, .f32⟩
  | 46 => ⟨S_, .f32⟩
  | 47 => ⟨S500000, .f32⟩
  | 48 => ⟨S500000, .f32⟩
  | 49 => ⟨S_, .f32⟩
  | 50 => ⟨S_, .f32⟩
  | 51 => ⟨S_, .f32⟩
  | 52 => ⟨S500000, .f32⟩
  | 53 => ⟨S500000, .f32⟩
  | 54 => ⟨S_, .f32⟩
  | 55 => ⟨S500000, .f32⟩
  | 56 => ⟨S500000, .f32⟩
  | 57 => ⟨S_, .f32⟩
  | 58 => ⟨S500000, .f32⟩
  | 59 => ⟨S500000, .f32⟩
  | 60 => ⟨S500000, .f32⟩
  | 61 => ⟨S_, .i32⟩
  | 62 => ⟨S_, .i32⟩
  | 63 => ⟨S_, .f32⟩
  | 64 => ⟨S500000, .f32⟩
  | 65 => ⟨S500000, .f32⟩
  | 66 => ⟨S_, .f32⟩
  | 67 => ⟨S500000, .f32⟩
  | 68 => ⟨S500000, .f32⟩
  | 69 => ⟨S500000, .i32⟩
  | 70 => ⟨S500000, .f32⟩
  | 71 => ⟨S_, .i32⟩
  | 72 => ⟨S_, .i32⟩
  | 73 => ⟨S_, .f32⟩
  | 74 => ⟨S500000, .f32⟩
  | 75 => ⟨S500000, .f32⟩
  | 76 => ⟨S_, .f32⟩
  | 77 => ⟨S500000, .f32⟩
  | 78 => ⟨S500000, .f32⟩
  | 79 => ⟨S500000, .i32⟩
  | 80 => ⟨S500000, .f32⟩
  | 81 => ⟨S500000, .f32⟩
  | 82 => ⟨S500000x1, .f32⟩
  | 83 => ⟨S500000, .f32⟩
  | 84 => ⟨S500000, .f32⟩
  | 85 => ⟨S500000x1, .f32⟩
  | 86 => ⟨S_, .i32⟩
  | 87 => ⟨S500000, .i32⟩
  | 88 => ⟨S500000, .i1⟩
  | 89 => ⟨S_, .i32⟩
  | 90 => ⟨S500000, .i32⟩
  | 91 => ⟨S500000, .i32⟩
  | 92 => ⟨S500000, .i32⟩
  | 93 => ⟨S_, .i32⟩
  | 94 => ⟨S500000, .i32⟩
  | 95 => ⟨S500000, .i1⟩
  | 96 => ⟨S_, .i32⟩
  | 97 => ⟨S500000, .i32⟩
  | 98 => ⟨S500000, .i32⟩
  | 99 => ⟨S500000, .i32⟩
  | 100 => ⟨S500000x1, .i32⟩
  | 101 => ⟨S500000x1, .i32⟩
  | 102 => ⟨S500000x2, .i32⟩
  | 103 => ⟨S500000x32, .f32⟩
  | 104 => ⟨S_, .i32⟩
  | 105 => ⟨S500000, .i32⟩
  | 106 => ⟨S500000, .i32⟩
  | 107 => ⟨S_, .i32⟩
  | 108 => ⟨S500000, .i32⟩
  | 109 => ⟨S500000, .i1⟩
  | 110 => ⟨S_, .i32⟩
  | 111 => ⟨S500000, .i32⟩
  | 112 => ⟨S500000, .i32⟩
  | 113 => ⟨S500000, .i32⟩
  | 114 => ⟨S_, .i32⟩
  | 115 => ⟨S500000, .i32⟩
  | 116 => ⟨S500000, .i1⟩
  | 117 => ⟨S_, .i32⟩
  | 118 => ⟨S500000, .i32⟩
  | 119 => ⟨S500000, .i32⟩
  | 120 => ⟨S500000, .i32⟩
  | 121 => ⟨S500000x1, .i32⟩
  | 122 => ⟨S500000x1, .i32⟩
  | 123 => ⟨S500000x2, .i32⟩
  | 124 => ⟨S500000x32, .f32⟩
  | 125 => ⟨S_, .i32⟩
  | 126 => ⟨S500000, .i32⟩
  | 127 => ⟨S500000, .i32⟩
  | _ => ⟨S500000x3, .f32⟩

abbrev hbmTy0_2 (i : Nat) : BufTy := match i % 128 with
  | 0 => ⟨S_, .i32⟩
  | 1 => ⟨S500000, .i32⟩
  | 2 => ⟨S500000, .i1⟩
  | 3 => ⟨S_, .i32⟩
  | 4 => ⟨S500000, .i32⟩
  | 5 => ⟨S500000, .i32⟩
  | 6 => ⟨S500000, .i32⟩
  | 7 => ⟨S_, .i32⟩
  | 8 => ⟨S500000, .i32⟩
  | 9 => ⟨S500000, .i1⟩
  | 10 => ⟨S_, .i32⟩
  | 11 => ⟨S500000, .i32⟩
  | 12 => ⟨S500000, .i32⟩
  | 13 => ⟨S500000, .i32⟩
  | 14 => ⟨S500000x1, .i32⟩
  | 15 => ⟨S500000x1, .i32⟩
  | 16 => ⟨S500000x2, .i32⟩
  | 17 => ⟨S500000x32, .f32⟩
  | 18 => ⟨S_, .i32⟩
  | 19 => ⟨S500000, .i32⟩
  | 20 => ⟨S500000, .i32⟩
  | 21 => ⟨S_, .i32⟩
  | 22 => ⟨S500000, .i32⟩
  | 23 => ⟨S500000, .i32⟩
  | 24 => ⟨S_, .i32⟩
  | 25 => ⟨S500000, .i32⟩
  | 26 => ⟨S500000, .i1⟩
  | 27 => ⟨S_, .i32⟩
  | 28 => ⟨S500000, .i32⟩
  | 29 => ⟨S500000, .i32⟩
  | 30 => ⟨S500000, .i32⟩
  | 31 => ⟨S_, .i32⟩
  | 32 => ⟨S500000, .i32⟩
  | 33 => ⟨S500000, .i1⟩
  | 34 => ⟨S_, .i32⟩
  | 35 => ⟨S500000, .i32⟩
  | 36 => ⟨S500000, .i32⟩
  | 37 => ⟨S500000, .i32⟩
  | 38 => ⟨S500000x1, .i32⟩
  | 39 => ⟨S500000x1, .i32⟩
  | 40 => ⟨S500000x2, .i32⟩
  | 41 => ⟨S500000x32, .f32⟩
  | 42 => ⟨S_, .f32⟩
  | 43 => ⟨S500000x1, .f32⟩
  | 44 => ⟨S500000x1, .f32⟩
  | 45 => ⟨S500000x32, .f32⟩
  | 46 => ⟨S500000x32, .f32⟩
  | 47 => ⟨S500000x32, .f32⟩
  | 48 => ⟨S500000x32, .f32⟩
  | 49 => ⟨S500000x32, .f32⟩
  | 50 => ⟨S_, .f32⟩
  | 51 => ⟨S500000x1, .f32⟩
  | 52 => ⟨S500000x1, .f32⟩
  | 53 => ⟨S500000x32, .f32⟩
  | 54 => ⟨S500000x32, .f32⟩
  | 55 => ⟨S_, .f32⟩
  | 56 => ⟨S500000x1, .f32⟩
  | 57 => ⟨S500000x1, .f32⟩
  | 58 => ⟨S500000x32, .f32⟩
  | 59 => ⟨S500000x32, .f32⟩
  | 60 => ⟨S500000x32, .f32⟩
  | 61 => ⟨S500000x32, .f32⟩
  | 62 => ⟨S500000x32, .f32⟩
  | 63 => ⟨S500000x32, .f32⟩
  | 64 => ⟨S500000x32, .f32⟩
  | 65 => ⟨S500000x32, .f32⟩
  | 66 => ⟨S1x128x128x32, .f32⟩
  | 67 => ⟨S128x128x32, .f32⟩
  | 68 => ⟨S_, .f32⟩
  | 69 => ⟨S_, .f32⟩
  | 70 => ⟨S_, .f32⟩
  | 71 => ⟨S500000, .f32⟩
  | 72 => ⟨S500000, .f32⟩
  | 73 => ⟨S_, .f32⟩
  | 74 => ⟨S500000, .f32⟩
  | 75 => ⟨S500000, .f32⟩
  | 76 => ⟨S_, .f32⟩
  | 77 => ⟨S500000, .f32⟩
  | 78 => ⟨S500000, .f32⟩
  | 79 => ⟨S_, .f32⟩
  | 80 => ⟨S_, .f32⟩
  | 81 => ⟨S_, .f32⟩
  | 82 => ⟨S500000, .f32⟩
  | 83 => ⟨S500000, .f32⟩
  | 84 => ⟨S_, .f32⟩
  | 85 => ⟨S500000, .f32⟩
  | 86 => ⟨S500000, .f32⟩
  | 87 => ⟨S_, .f32⟩
  | 88 => ⟨S500000, .f32⟩
  | 89 => ⟨S500000, .f32⟩
  | 90 => ⟨S500000, .f32⟩
  | 91 => ⟨S_, .i32⟩
  | 92 => ⟨S_, .i32⟩
  | 93 => ⟨S_, .f32⟩
  | 94 => ⟨S500000, .f32⟩
  | 95 => ⟨S500000, .f32⟩
  | 96 => ⟨S_, .f32⟩
  | 97 => ⟨S500000, .f32⟩
  | 98 => ⟨S500000, .f32⟩
  | 99 => ⟨S500000, .i32⟩
  | 100 => ⟨S500000, .f32⟩
  | 101 => ⟨S_, .i32⟩
  | 102 => ⟨S_, .i32⟩
  | 103 => ⟨S_, .f32⟩
  | 104 => ⟨S500000, .f32⟩
  | 105 => ⟨S500000, .f32⟩
  | 106 => ⟨S_, .f32⟩
  | 107 => ⟨S500000, .f32⟩
  | 108 => ⟨S500000, .f32⟩
  | 109 => ⟨S500000, .i32⟩
  | 110 => ⟨S500000, .f32⟩
  | 111 => ⟨S500000, .f32⟩
  | 112 => ⟨S500000x1, .f32⟩
  | 113 => ⟨S500000, .f32⟩
  | 114 => ⟨S500000, .f32⟩
  | 115 => ⟨S500000x1, .f32⟩
  | 116 => ⟨S_, .i32⟩
  | 117 => ⟨S500000, .i32⟩
  | 118 => ⟨S500000, .i1⟩
  | 119 => ⟨S_, .i32⟩
  | 120 => ⟨S500000, .i32⟩
  | 121 => ⟨S500000, .i32⟩
  | 122 => ⟨S500000, .i32⟩
  | 123 => ⟨S_, .i32⟩
  | 124 => ⟨S500000, .i32⟩
  | 125 => ⟨S500000, .i1⟩
  | 126 => ⟨S_, .i32⟩
  | 127 => ⟨S500000, .i32⟩
  | _ => ⟨S500000x3, .f32⟩

abbrev hbmTy0_3 (i : Nat) : BufTy := match i % 128 with
  | 0 => ⟨S500000, .i32⟩
  | 1 => ⟨S500000, .i32⟩
  | 2 => ⟨S500000x1, .i32⟩
  | 3 => ⟨S500000x1, .i32⟩
  | 4 => ⟨S500000x2, .i32⟩
  | 5 => ⟨S500000x32, .f32⟩
  | 6 => ⟨S_, .i32⟩
  | 7 => ⟨S500000, .i32⟩
  | 8 => ⟨S500000, .i32⟩
  | 9 => ⟨S_, .i32⟩
  | 10 => ⟨S500000, .i32⟩
  | 11 => ⟨S500000, .i1⟩
  | 12 => ⟨S_, .i32⟩
  | 13 => ⟨S500000, .i32⟩
  | 14 => ⟨S500000, .i32⟩
  | 15 => ⟨S500000, .i32⟩
  | 16 => ⟨S_, .i32⟩
  | 17 => ⟨S500000, .i32⟩
  | 18 => ⟨S500000, .i1⟩
  | 19 => ⟨S_, .i32⟩
  | 20 => ⟨S500000, .i32⟩
  | 21 => ⟨S500000, .i32⟩
  | 22 => ⟨S500000, .i32⟩
  | 23 => ⟨S500000x1, .i32⟩
  | 24 => ⟨S500000x1, .i32⟩
  | 25 => ⟨S500000x2, .i32⟩
  | 26 => ⟨S500000x32, .f32⟩
  | 27 => ⟨S_, .i32⟩
  | 28 => ⟨S500000, .i32⟩
  | 29 => ⟨S500000, .i32⟩
  | 30 => ⟨S_, .i32⟩
  | 31 => ⟨S500000, .i32⟩
  | 32 => ⟨S500000, .i1⟩
  | 33 => ⟨S_, .i32⟩
  | 34 => ⟨S500000, .i32⟩
  | 35 => ⟨S500000, .i32⟩
  | 36 => ⟨S500000, .i32⟩
  | 37 => ⟨S_, .i32⟩
  | 38 => ⟨S500000, .i32⟩
  | 39 => ⟨S500000, .i1⟩
  | 40 => ⟨S_, .i32⟩
  | 41 => ⟨S500000, .i32⟩
  | 42 => ⟨S500000, .i32⟩
  | 43 => ⟨S500000, .i32⟩
  | 44 => ⟨S500000x1, .i32⟩
  | 45 => ⟨S500000x1, .i32⟩
  | 46 => ⟨S500000x2, .i32⟩
  | 47 => ⟨S500000x32, .f32⟩
  | 48 => ⟨S_, .i32⟩
  | 49 => ⟨S500000, .i32⟩
  | 50 => ⟨S500000, .i32⟩
  | 51 => ⟨S_, .i32⟩
  | 52 => ⟨S500000, .i32⟩
  | 53 => ⟨S500000, .i32⟩
  | 54 => ⟨S_, .i32⟩
  | 55 => ⟨S500000, .i32⟩
  | 56 => ⟨S500000, .i1⟩
  | 57 => ⟨S_, .i32⟩
  | 58 => ⟨S500000, .i32⟩
  | 59 => ⟨S500000, .i32⟩
  | 60 => ⟨S500000, .i32⟩
  | 61 => ⟨S_, .i32⟩
  | 62 => ⟨S500000, .i32⟩
  | 63 => ⟨S500000, .i1⟩
  | 64 => ⟨S_, .i32⟩
  | 65 => ⟨S500000, .i32⟩
  | 66 => ⟨S500000, .i32⟩
  | 67 => ⟨S500000, .i32⟩
  | 68 => ⟨S500000x1, .i32⟩
  | 69 => ⟨S500000x1, .i32⟩
  | 70 => ⟨S500000x2, .i32⟩
  | 71 => ⟨S500000x32, .f32⟩
  | 72 => ⟨S_, .f32⟩
  | 73 => ⟨S500000x1, .f32⟩
  | 74 => ⟨S500000x1, .f32⟩
  | 75 => ⟨S500000x32, .f32⟩
  | 76 => ⟨S500000x32, .f32⟩
  | 77 => ⟨S500000x32, .f32⟩
  | 78 => ⟨S500000x32, .f32⟩
  | 79 => ⟨S500000x32, .f32⟩
  | 80 => ⟨S_, .f32⟩
  | 81 => ⟨S500000x1, .f32⟩
  | 82 => ⟨S500000x1, .f32⟩
  | 83 => ⟨S500000x32, .f32⟩
  | 84 => ⟨S500000x32, .f32⟩
  | 85 => ⟨S_, .f32⟩
  | 86 => ⟨S500000x1, .f32⟩
  | 87 => ⟨S500000x1, .f32⟩
  | 88 => ⟨S500000x32, .f32⟩
  | 89 => ⟨S500000x32, .f32⟩
  | 90 => ⟨S500000x32, .f32⟩
  | 91 => ⟨S500000x32, .f32⟩
  | 92 => ⟨S500000x32, .f32⟩
  | 93 => ⟨S500000x32, .f32⟩
  | 94 => ⟨S500000x32, .f32⟩
  | 95 => ⟨S500000x32, .f32⟩
  | 96 => ⟨S500000x32, .f32⟩
  | 97 => ⟨S1x128x128x32, .f32⟩
  | 98 => ⟨S128x128x32, .f32⟩
  | 99 => ⟨S_, .f32⟩
  | 100 => ⟨S_, .f32⟩
  | 101 => ⟨S_, .f32⟩
  | 102 => ⟨S500000, .f32⟩
  | 103 => ⟨S500000, .f32⟩
  | 104 => ⟨S_, .f32⟩
  | 105 => ⟨S500000, .f32⟩
  | 106 => ⟨S500000, .f32⟩
  | 107 => ⟨S_, .f32⟩
  | 108 => ⟨S500000, .f32⟩
  | 109 => ⟨S500000, .f32⟩
  | 110 => ⟨S_, .f32⟩
  | 111 => ⟨S_, .f32⟩
  | 112 => ⟨S_, .f32⟩
  | 113 => ⟨S500000, .f32⟩
  | 114 => ⟨S500000, .f32⟩
  | 115 => ⟨S_, .f32⟩
  | 116 => ⟨S500000, .f32⟩
  | 117 => ⟨S500000, .f32⟩
  | 118 => ⟨S_, .f32⟩
  | 119 => ⟨S500000, .f32⟩
  | 120 => ⟨S500000, .f32⟩
  | 121 => ⟨S500000, .f32⟩
  | 122 => ⟨S_, .i32⟩
  | 123 => ⟨S_, .i32⟩
  | 124 => ⟨S_, .f32⟩
  | 125 => ⟨S500000, .f32⟩
  | 126 => ⟨S500000, .f32⟩
  | 127 => ⟨S_, .f32⟩
  | _ => ⟨S500000x3, .f32⟩

abbrev hbmTy0_4 (i : Nat) : BufTy := match i % 128 with
  | 0 => ⟨S500000, .f32⟩
  | 1 => ⟨S500000, .f32⟩
  | 2 => ⟨S500000, .i32⟩
  | 3 => ⟨S500000, .f32⟩
  | 4 => ⟨S_, .i32⟩
  | 5 => ⟨S_, .i32⟩
  | 6 => ⟨S_, .f32⟩
  | 7 => ⟨S500000, .f32⟩
  | 8 => ⟨S500000, .f32⟩
  | 9 => ⟨S_, .f32⟩
  | 10 => ⟨S500000, .f32⟩
  | 11 => ⟨S500000, .f32⟩
  | 12 => ⟨S500000, .i32⟩
  | 13 => ⟨S500000, .f32⟩
  | 14 => ⟨S500000, .f32⟩
  | 15 => ⟨S500000x1, .f32⟩
  | 16 => ⟨S500000, .f32⟩
  | 17 => ⟨S500000, .f32⟩
  | 18 => ⟨S500000x1, .f32⟩
  | 19 => ⟨S_, .i32⟩
  | 20 => ⟨S500000, .i32⟩
  | 21 => ⟨S500000, .i1⟩
  | 22 => ⟨S_, .i32⟩
  | 23 => ⟨S500000, .i32⟩
  | 24 => ⟨S500000, .i32⟩
  | 25 => ⟨S500000, .i32⟩
  | 26 => ⟨S_, .i32⟩
  | 27 => ⟨S500000, .i32⟩
  | 28 => ⟨S500000, .i1⟩
  | 29 => ⟨S_, .i32⟩
  | 30 => ⟨S500000, .i32⟩
  | 31 => ⟨S500000, .i32⟩
  | 32 => ⟨S500000, .i32⟩
  | 33 => ⟨S500000x1, .i32⟩
  | 34 => ⟨S500000x1, .i32⟩
  | 35 => ⟨S500000x2, .i32⟩
  | 36 => ⟨S500000x32, .f32⟩
  | 37 => ⟨S_, .i32⟩
  | 38 => ⟨S500000, .i32⟩
  | 39 => ⟨S500000, .i32⟩
  | 40 => ⟨S_, .i32⟩
  | 41 => ⟨S500000, .i32⟩
  | 42 => ⟨S500000, .i1⟩
  | 43 => ⟨S_, .i32⟩
  | 44 => ⟨S500000, .i32⟩
  | 45 => ⟨S500000, .i32⟩
  | 46 => ⟨S500000, .i32⟩
  | 47 => ⟨S_, .i32⟩
  | 48 => ⟨S500000, .i32⟩
  | 49 => ⟨S500000, .i1⟩
  | 50 => ⟨S_, .i32⟩
  | 51 => ⟨S500000, .i32⟩
  | 52 => ⟨S500000, .i32⟩
  | 53 => ⟨S500000, .i32⟩
  | 54 => ⟨S500000x1, .i32⟩
  | 55 => ⟨S500000x1, .i32⟩
  | 56 => ⟨S500000x2, .i32⟩
  | 57 => ⟨S500000x32, .f32⟩
  | 58 => ⟨S_, .i32⟩
  | 59 => ⟨S500000, .i32⟩
  | 60 => ⟨S500000, .i32⟩
  | 61 => ⟨S_, .i32⟩
  | 62 => ⟨S500000, .i32⟩
  | 63 => ⟨S500000, .i1⟩
  | 64 => ⟨S_, .i32⟩
  | 65 => ⟨S500000, .i32⟩
  | 66 => ⟨S500000, .i32⟩
  | 67 => ⟨S500000, .i32⟩
  | 68 => ⟨S_, .i32⟩
  | 69 => ⟨S500000, .i32⟩
  | 70 => ⟨S500000, .i1⟩
  | 71 => ⟨S_, .i32⟩
  | 72 => ⟨S500000, .i32⟩
  | 73 => ⟨S500000, .i32⟩
  | 74 => ⟨S500000, .i32⟩
  | 75 => ⟨S500000x1, .i32⟩
  | 76 => ⟨S500000x1, .i32⟩
  | 77 => ⟨S500000x2, .i32⟩
  | 78 => ⟨S500000x32, .f32⟩
  | 79 => ⟨S_, .i32⟩
  | 80 => ⟨S500000, .i32⟩
  | 81 => ⟨S500000, .i32⟩
  | 82 => ⟨S_, .i32⟩
  | 83 => ⟨S500000, .i32⟩
  | 84 => ⟨S500000, .i32⟩
  | 85 => ⟨S_, .i32⟩
  | 86 => ⟨S500000, .i32⟩
  | 87 => ⟨S500000, .i1⟩
  | 88 => ⟨S_, .i32⟩
  | 89 => ⟨S500000, .i32⟩
  | 90 => ⟨S500000, .i32⟩
  | 91 => ⟨S500000, .i32⟩
  | 92 => ⟨S_, .i32⟩
  | 93 => ⟨S500000, .i32⟩
  | 94 => ⟨S500000, .i1⟩
  | 95 => ⟨S_, .i32⟩
  | 96 => ⟨S500000, .i32⟩
  | 97 => ⟨S500000, .i32⟩
  | 98 => ⟨S500000, .i32⟩
  | 99 => ⟨S500000x1, .i32⟩
  | 100 => ⟨S500000x1, .i32⟩
  | 101 => ⟨S500000x2, .i32⟩
  | 102 => ⟨S500000x32, .f32⟩
  | 103 => ⟨S_, .f32⟩
  | 104 => ⟨S500000x1, .f32⟩
  | 105 => ⟨S500000x1, .f32⟩
  | 106 => ⟨S500000x32, .f32⟩
  | 107 => ⟨S500000x32, .f32⟩
  | 108 => ⟨S500000x32, .f32⟩
  | 109 => ⟨S500000x32, .f32⟩
  | 110 => ⟨S500000x32, .f32⟩
  | 111 => ⟨S_, .f32⟩
  | 112 => ⟨S500000x1, .f32⟩
  | 113 => ⟨S500000x1, .f32⟩
  | 114 => ⟨S500000x32, .f32⟩
  | 115 => ⟨S500000x32, .f32⟩
  | 116 => ⟨S_, .f32⟩
  | 117 => ⟨S500000x1, .f32⟩
  | 118 => ⟨S500000x1, .f32⟩
  | 119 => ⟨S500000x32, .f32⟩
  | 120 => ⟨S500000x32, .f32⟩
  | 121 => ⟨S500000x32, .f32⟩
  | 122 => ⟨S500000x32, .f32⟩
  | 123 => ⟨S500000x32, .f32⟩
  | 124 => ⟨S500000x32, .f32⟩
  | 125 => ⟨S500000x32, .f32⟩
  | 126 => ⟨S500000x32, .f32⟩
  | 127 => ⟨S500000x32, .f32⟩
  | _ => ⟨S500000x3, .f32⟩

abbrev hbmTy0_5 (i : Nat) : BufTy := match i % 128 with
  | 0 => ⟨S1x128x128x32, .f32⟩
  | 1 => ⟨S128x128x32, .f32⟩
  | 2 => ⟨S_, .f32⟩
  | 3 => ⟨S_, .f32⟩
  | 4 => ⟨S_, .f32⟩
  | 5 => ⟨S500000, .f32⟩
  | 6 => ⟨S500000, .f32⟩
  | 7 => ⟨S_, .f32⟩
  | 8 => ⟨S500000, .f32⟩
  | 9 => ⟨S500000, .f32⟩
  | 10 => ⟨S_, .f32⟩
  | 11 => ⟨S500000, .f32⟩
  | 12 => ⟨S500000, .f32⟩
  | 13 => ⟨S_, .f32⟩
  | 14 => ⟨S_, .f32⟩
  | 15 => ⟨S_, .f32⟩
  | 16 => ⟨S500000, .f32⟩
  | 17 => ⟨S500000, .f32⟩
  | 18 => ⟨S_, .f32⟩
  | 19 => ⟨S500000, .f32⟩
  | 20 => ⟨S500000, .f32⟩
  | 21 => ⟨S_, .f32⟩
  | 22 => ⟨S500000, .f32⟩
  | 23 => ⟨S500000, .f32⟩
  | 24 => ⟨S500000, .f32⟩
  | 25 => ⟨S_, .i32⟩
  | 26 => ⟨S_, .i32⟩
  | 27 => ⟨S_, .f32⟩
  | 28 => ⟨S500000, .f32⟩
  | 29 => ⟨S500000, .f32⟩
  | 30 => ⟨S_, .f32⟩
  | 31 => ⟨S500000, .f32⟩
  | 32 => ⟨S500000, .f32⟩
  | 33 => ⟨S500000, .i32⟩
  | 34 => ⟨S500000, .f32⟩
  | 35 => ⟨S_, .i32⟩
  | 36 => ⟨S_, .i32⟩
  | 37 => ⟨S_, .f32⟩
  | 38 => ⟨S500000, .f32⟩
  | 39 => ⟨S500000, .f32⟩
  | 40 => ⟨S_, .f32⟩
  | 41 => ⟨S500000, .f32⟩
  | 42 => ⟨S500000, .f32⟩
  | 43 => ⟨S500000, .i32⟩
  | 44 => ⟨S500000, .f32⟩
  | 45 => ⟨S500000, .f32⟩
  | 46 => ⟨S500000x1, .f32⟩
  | 47 => ⟨S500000, .f32⟩
  | 48 => ⟨S500000, .f32⟩
  | 49 => ⟨S500000x1, .f32⟩
  | 50 => ⟨S_, .i32⟩
  | 51 => ⟨S500000, .i32⟩
  | 52 => ⟨S500000, .i1⟩
  | 53 => ⟨S_, .i32⟩
  | 54 => ⟨S500000, .i32⟩
  | 55 => ⟨S500000, .i32⟩
  | 56 => ⟨S500000, .i32⟩
  | 57 => ⟨S_, .i32⟩
  | 58 => ⟨S500000, .i32⟩
  | 59 => ⟨S500000, .i1⟩
  | 60 => ⟨S_, .i32⟩
  | 61 => ⟨S500000, .i32⟩
  | 62 => ⟨S500000, .i32⟩
  | 63 => ⟨S500000, .i32⟩
  | 64 => ⟨S500000x1, .i32⟩
  | 65 => ⟨S500000x1, .i32⟩
  | 66 => ⟨S500000x2, .i32⟩
  | 67 => ⟨S500000x32, .f32⟩
  | 68 => ⟨S_, .i32⟩
  | 69 => ⟨S500000, .i32⟩
  | 70 => ⟨S500000, .i32⟩
  | 71 => ⟨S_, .i32⟩
  | 72 => ⟨S500000, .i32⟩
  | 73 => ⟨S500000, .i1⟩
  | 74 => ⟨S_, .i32⟩
  | 75 => ⟨S500000, .i32⟩
  | 76 => ⟨S500000, .i32⟩
  | 77 => ⟨S500000, .i32⟩
  | 78 => ⟨S_, .i32⟩
  | 79 => ⟨S500000, .i32⟩
  | 80 => ⟨S500000, .i1⟩
  | 81 => ⟨S_, .i32⟩
  | 82 => ⟨S500000, .i32⟩
  | 83 => ⟨S500000, .i32⟩
  | 84 => ⟨S500000, .i32⟩
  | 85 => ⟨S500000x1, .i32⟩
  | 86 => ⟨S500000x1, .i32⟩
  | 87 => ⟨S500000x2, .i32⟩
  | 88 => ⟨S500000x32, .f32⟩
  | 89 => ⟨S_, .i32⟩
  | 90 => ⟨S500000, .i32⟩
  | 91 => ⟨S500000, .i32⟩
  | 92 => ⟨S_, .i32⟩
  | 93 => ⟨S500000, .i32⟩
  | 94 => ⟨S500000, .i1⟩
  | 95 => ⟨S_, .i32⟩
  | 96 => ⟨S500000, .i32⟩
  | 97 => ⟨S500000, .i32⟩
  | 98 => ⟨S500000, .i32⟩
  | 99 => ⟨S_, .i32⟩
  | 100 => ⟨S500000, .i32⟩
  | 101 => ⟨S500000, .i1⟩
  | 102 => ⟨S_, .i32⟩
  | 103 => ⟨S500000, .i32⟩
  | 104 => ⟨S500000, .i32⟩
  | 105 => ⟨S500000, .i32⟩
  | 106 => ⟨S500000x1, .i32⟩
  | 107 => ⟨S500000x1, .i32⟩
  | 108 => ⟨S500000x2, .i32⟩
  | 109 => ⟨S500000x32, .f32⟩
  | 110 => ⟨S_, .i32⟩
  | 111 => ⟨S500000, .i32⟩
  | 112 => ⟨S500000, .i32⟩
  | 113 => ⟨S_, .i32⟩
  | 114 => ⟨S500000, .i32⟩
  | 115 => ⟨S500000, .i32⟩
  | 116 => ⟨S_, .i32⟩
  | 117 => ⟨S500000, .i32⟩
  | 118 => ⟨S500000, .i1⟩
  | 119 => ⟨S_, .i32⟩
  | 120 => ⟨S500000, .i32⟩
  | 121 => ⟨S500000, .i32⟩
  | 122 => ⟨S500000, .i32⟩
  | 123 => ⟨S_, .i32⟩
  | 124 => ⟨S500000, .i32⟩
  | 125 => ⟨S500000, .i1⟩
  | 126 => ⟨S_, .i32⟩
  | 127 => ⟨S500000, .i32⟩
  | _ => ⟨S500000x3, .f32⟩

abbrev hbmTy0_6 (i : Nat) : BufTy := match i % 128 with
  | 0 => ⟨S500000, .i32⟩
  | 1 => ⟨S500000, .i32⟩
  | 2 => ⟨S500000x1, .i32⟩
  | 3 => ⟨S500000x1, .i32⟩
  | 4 => ⟨S500000x2, .i32⟩
  | 5 => ⟨S500000x32, .f32⟩
  | 6 => ⟨S_, .f32⟩
  | 7 => ⟨S500000x1, .f32⟩
  | 8 => ⟨S500000x1, .f32⟩
  | 9 => ⟨S500000x32, .f32⟩
  | 10 => ⟨S500000x32, .f32⟩
  | 11 => ⟨S500000x32, .f32⟩
  | 12 => ⟨S500000x32, .f32⟩
  | 13 => ⟨S500000x32, .f32⟩
  | 14 => ⟨S_, .f32⟩
  | 15 => ⟨S500000x1, .f32⟩
  | 16 => ⟨S500000x1, .f32⟩
  | 17 => ⟨S500000x32, .f32⟩
  | 18 => ⟨S500000x32, .f32⟩
  | 19 => ⟨S_, .f32⟩
  | 20 => ⟨S500000x1, .f32⟩
  | 21 => ⟨S500000x1, .f32⟩
  | 22 => ⟨S500000x32, .f32⟩
  | 23 => ⟨S500000x32, .f32⟩
  | 24 => ⟨S500000x32, .f32⟩
  | 25 => ⟨S500000x32, .f32⟩
  | 26 => ⟨S500000x32, .f32⟩
  | 27 => ⟨S500000x32, .f32⟩
  | 28 => ⟨S500000x32, .f32⟩
  | 29 => ⟨S500000x32, .f32⟩
  | 30 => ⟨S1x128x128x32, .f32⟩
  | 31 => ⟨S128x128x32, .f32⟩
  | 32 => ⟨S_, .f32⟩
  | 33 => ⟨S_, .f32⟩
  | 34 => ⟨S_, .f32⟩
  | 35 => ⟨S500000, .f32⟩
  | 36 => ⟨S500000, .f32⟩
  | 37 => ⟨S_, .f32⟩
  | 38 => ⟨S500000, .f32⟩
  | 39 => ⟨S500000, .f32⟩
  | 40 => ⟨S_, .f32⟩
  | 41 => ⟨S500000, .f32⟩
  | 42 => ⟨S500000, .f32⟩
  | 43 => ⟨S_, .f32⟩
  | 44 => ⟨S_, .f32⟩
  | 45 => ⟨S_, .f32⟩
  | 46 => ⟨S500000, .f32⟩
  | 47 => ⟨S500000, .f32⟩
  | 48 => ⟨S_, .f32⟩
  | 49 => ⟨S500000, .f32⟩
  | 50 => ⟨S500000, .f32⟩
  | 51 => ⟨S_, .f32⟩
  | 52 => ⟨S500000, .f32⟩
  | 53 => ⟨S500000, .f32⟩
  | 54 => ⟨S500000, .f32⟩
  | 55 => ⟨S_, .i32⟩
  | 56 => ⟨S_, .i32⟩
  | 57 => ⟨S_, .f32⟩
  | 58 => ⟨S500000, .f32⟩
  | 59 => ⟨S500000, .f32⟩
  | 60 => ⟨S_, .f32⟩
  | 61 => ⟨S500000, .f32⟩
  | 62 => ⟨S500000, .f32⟩
  | 63 => ⟨S500000, .i32⟩
  | 64 => ⟨S500000, .f32⟩
  | 65 => ⟨S_, .i32⟩
  | 66 => ⟨S_, .i32⟩
  | 67 => ⟨S_, .f32⟩
  | 68 => ⟨S500000, .f32⟩
  | 69 => ⟨S500000, .f32⟩
  | 70 => ⟨S_, .f32⟩
  | 71 => ⟨S500000, .f32⟩
  | 72 => ⟨S500000, .f32⟩
  | 73 => ⟨S500000, .i32⟩
  | 74 => ⟨S500000, .f32⟩
  | 75 => ⟨S500000, .f32⟩
  | 76 => ⟨S500000x1, .f32⟩
  | 77 => ⟨S500000, .f32⟩
  | 78 => ⟨S500000, .f32⟩
  | 79 => ⟨S500000x1, .f32⟩
  | 80 => ⟨S_, .i32⟩
  | 81 => ⟨S500000, .i32⟩
  | 82 => ⟨S500000, .i1⟩
  | 83 => ⟨S_, .i32⟩
  | 84 => ⟨S500000, .i32⟩
  | 85 => ⟨S500000, .i32⟩
  | 86 => ⟨S500000, .i32⟩
  | 87 => ⟨S_, .i32⟩
  | 88 => ⟨S500000, .i32⟩
  | 89 => ⟨S500000, .i1⟩
  | 90 => ⟨S_, .i32⟩
  | 91 => ⟨S500000, .i32⟩
  | 92 => ⟨S500000, .i32⟩
  | 93 => ⟨S500000, .i32⟩
  | 94 => ⟨S500000x1, .i32⟩
  | 95 => ⟨S500000x1, .i32⟩
  | 96 => ⟨S500000x2, .i32⟩
  | 97 => ⟨S500000x32, .f32⟩
  | 98 => ⟨S_, .i32⟩
  | 99 => ⟨S500000, .i32⟩
  | 100 => ⟨S500000, .i32⟩
  | 101 => ⟨S_, .i32⟩
  | 102 => ⟨S500000, .i32⟩
  | 103 => ⟨S500000, .i1⟩
  | 104 => ⟨S_, .i32⟩
  | 105 => ⟨S500000, .i32⟩
  | 106 => ⟨S500000, .i32⟩
  | 107 => ⟨S500000, .i32⟩
  | 108 => ⟨S_, .i32⟩
  | 109 => ⟨S500000, .i32⟩
  | 110 => ⟨S500000, .i1⟩
  | 111 => ⟨S_, .i32⟩
  | 112 => ⟨S500000, .i32⟩
  | 113 => ⟨S500000, .i32⟩
  | 114 => ⟨S500000, .i32⟩
  | 115 => ⟨S500000x1, .i32⟩
  | 116 => ⟨S500000x1, .i32⟩
  | 117 => ⟨S500000x2, .i32⟩
  | 118 => ⟨S500000x32, .f32⟩
  | 119 => ⟨S_, .i32⟩
  | 120 => ⟨S500000, .i32⟩
  | 121 => ⟨S500000, .i32⟩
  | 122 => ⟨S_, .i32⟩
  | 123 => ⟨S500000, .i32⟩
  | 124 => ⟨S500000, .i1⟩
  | 125 => ⟨S_, .i32⟩
  | 126 => ⟨S500000, .i32⟩
  | 127 => ⟨S500000, .i32⟩
  | _ => ⟨S500000x3, .f32⟩

abbrev hbmTy0_7 (i : Nat) : BufTy := match i % 128 with
  | 0 => ⟨S500000, .i32⟩
  | 1 => ⟨S_, .i32⟩
  | 2 => ⟨S500000, .i32⟩
  | 3 => ⟨S500000, .i1⟩
  | 4 => ⟨S_, .i32⟩
  | 5 => ⟨S500000, .i32⟩
  | 6 => ⟨S500000, .i32⟩
  | 7 => ⟨S500000, .i32⟩
  | 8 => ⟨S500000x1, .i32⟩
  | 9 => ⟨S500000x1, .i32⟩
  | 10 => ⟨S500000x2, .i32⟩
  | 11 => ⟨S500000x32, .f32⟩
  | 12 => ⟨S_, .i32⟩
  | 13 => ⟨S500000, .i32⟩
  | 14 => ⟨S500000, .i32⟩
  | 15 => ⟨S_, .i32⟩
  | 16 => ⟨S500000, .i32⟩
  | 17 => ⟨S500000, .i32⟩
  | 18 => ⟨S_, .i32⟩
  | 19 => ⟨S500000, .i32⟩
  | 20 => ⟨S500000, .i1⟩
  | 21 => ⟨S_, .i32⟩
  | 22 => ⟨S500000, .i32⟩
  | 23 => ⟨S500000, .i32⟩
  | 24 => ⟨S500000, .i32⟩
  | 25 => ⟨S_, .i32⟩
  | 26 => ⟨S500000, .i32⟩
  | 27 => ⟨S500000, .i1⟩
  | 28 => ⟨S_, .i32⟩
  | 29 => ⟨S500000, .i32⟩
  | 30 => ⟨S500000, .i32⟩
  | 31 => ⟨S500000, .i32⟩
  | 32 => ⟨S500000x1, .i32⟩
  | 33 => ⟨S500000x1, .i32⟩
  | 34 => ⟨S500000x2, .i32⟩
  | 35 => ⟨S500000x32, .f32⟩
  | 36 => ⟨S_, .f32⟩
  | 37 => ⟨S500000x1, .f32⟩
  | 38 => ⟨S500000x1, .f32⟩
  | 39 => ⟨S500000x32, .f32⟩
  | 40 => ⟨S500000x32, .f32⟩
  | 41 => ⟨S500000x32, .f32⟩
  | 42 => ⟨S500000x32, .f32⟩
  | 43 => ⟨S500000x32, .f32⟩
  | 44 => ⟨S_, .f32⟩
  | 45 => ⟨S500000x1, .f32⟩
  | 46 => ⟨S500000x1, .f32⟩
  | 47 => ⟨S500000x32, .f32⟩
  | 48 => ⟨S500000x32, .f32⟩
  | 49 => ⟨S_, .f32⟩
  | 50 => ⟨S500000x1, .f32⟩
  | 51 => ⟨S500000x1, .f32⟩
  | 52 => ⟨S500000x32, .f32⟩
  | 53 => ⟨S500000x32, .f32⟩
  | 54 => ⟨S500000x32, .f32⟩
  | 55 => ⟨S500000x32, .f32⟩
  | 56 => ⟨S500000x32, .f32⟩
  | 57 => ⟨S500000x32, .f32⟩
  | 58 => ⟨S500000x32, .f32⟩
  | 59 => ⟨S500000x32, .f32⟩
  | 60 => ⟨S500000x32, .f32⟩
  | 61 => ⟨S1x128x128x32, .f32⟩
  | 62 => ⟨S128x128x32, .f32⟩
  | 63 => ⟨S_, .f32⟩
  | 64 => ⟨S_, .f32⟩
  | 65 => ⟨S_, .f32⟩
  | 66 => ⟨S500000, .f32⟩
  | 67 => ⟨S500000, .f32⟩
  | 68 => ⟨S_, .f32⟩
  | 69 => ⟨S500000, .f32⟩
  | 70 => ⟨S500000, .f32⟩
  | 71 => ⟨S_, .f32⟩
  | 72 => ⟨S500000, .f32⟩
  | 73 => ⟨S500000, .f32⟩
  | 74 => ⟨S_, .f32⟩
  | 75 => ⟨S_, .f32⟩
  | 76 => ⟨S_, .f32⟩
  | 77 => ⟨S500000, .f32⟩
  | 78 => ⟨S500000, .f32⟩
  | 79 => ⟨S_, .f32⟩
  | 80 => ⟨S500000, .f32⟩
  | 81 => ⟨S500000, .f32⟩
  | 82 => ⟨S_, .f32⟩
  | 83 => ⟨S500000, .f32⟩
  | 84 => ⟨S500000, .f32⟩
  | 85 => ⟨S500000, .f32⟩
  | 86 => ⟨S_, .i32⟩
  | 87 => ⟨S_, .i32⟩
  | 88 => ⟨S_, .f32⟩
  | 89 => ⟨S500000, .f32⟩
  | 90 => ⟨S500000, .f32⟩
  | 91 => ⟨S_, .f32⟩
  | 92 => ⟨S500000, .f32⟩
  | 93 => ⟨S500000, .f32⟩
  | 94 => ⟨S500000, .i32⟩
  | 95 => ⟨S500000, .f32⟩
  | 96 => ⟨S_, .i32⟩
  | 97 => ⟨S_, .i32⟩
  | 98 => ⟨S_, .f32⟩
  | 99 => ⟨S500000, .f32⟩
  | 100 => ⟨S500000, .f32⟩
  | 101 => ⟨S_, .f32⟩
  | 102 => ⟨S500000, .f32⟩
  | 103 => ⟨S500000, .f32⟩
  | 104 => ⟨S500000, .i32⟩
  | 105 => ⟨S500000, .f32⟩
  | 106 => ⟨S500000, .f32⟩
  | 107 => ⟨S500000x1, .f32⟩
  | 108 => ⟨S500000, .f32⟩
  | 109 => ⟨S500000, .f32⟩
  | 110 => ⟨S500000x1, .f32⟩
  | 111 => ⟨S_, .i32⟩
  | 112 => ⟨S500000, .i32⟩
  | 113 => ⟨S500000, .i1⟩
  | 114 => ⟨S_, .i32⟩
  | 115 => ⟨S500000, .i32⟩
  | 116 => ⟨S500000, .i32⟩
  | 117 => ⟨S500000, .i32⟩
  | 118 => ⟨S_, .i32⟩
  | 119 => ⟨S500000, .i32⟩
  | 120 => ⟨S500000, .i1⟩
  | 121 => ⟨S_, .i32⟩
  | 122 => ⟨S500000, .i32⟩
  | 123 => ⟨S500000, .i32⟩
  | 124 => ⟨S500000, .i32⟩
  | 125 => ⟨S500000x1, .i32⟩
  | 126 => ⟨S500000x1, .i32⟩
  | 127 => ⟨S500000x2, .i32⟩
  | _ => ⟨S500000x3, .f32⟩

abbrev hbmTy0_8 (i : Nat) : BufTy := match i % 128 with
  | 0 => ⟨S500000x32, .f32⟩
  | 1 => ⟨S_, .i32⟩
  | 2 => ⟨S500000, .i32⟩
  | 3 => ⟨S500000, .i32⟩
  | 4 => ⟨S_, .i32⟩
  | 5 => ⟨S500000, .i32⟩
  | 6 => ⟨S500000, .i1⟩
  | 7 => ⟨S_, .i32⟩
  | 8 => ⟨S500000, .i32⟩
  | 9 => ⟨S500000, .i32⟩
  | 10 => ⟨S500000, .i32⟩
  | 11 => ⟨S_, .i32⟩
  | 12 => ⟨S500000, .i32⟩
  | 13 => ⟨S500000, .i1⟩
  | 14 => ⟨S_, .i32⟩
  | 15 => ⟨S500000, .i32⟩
  | 16 => ⟨S500000, .i32⟩
  | 17 => ⟨S500000, .i32⟩
  | 18 => ⟨S500000x1, .i32⟩
  | 19 => ⟨S500000x1, .i32⟩
  | 20 => ⟨S500000x2, .i32⟩
  | 21 => ⟨S500000x32, .f32⟩
  | 22 => ⟨S_, .i32⟩
  | 23 => ⟨S500000, .i32⟩
  | 24 => ⟨S500000, .i32⟩
  | 25 => ⟨S_, .i32⟩
  | 26 => ⟨S500000, .i32⟩
  | 27 => ⟨S500000, .i1⟩
  | 28 => ⟨S_, .i32⟩
  | 29 => ⟨S500000, .i32⟩
  | 30 => ⟨S500000, .i32⟩
  | 31 => ⟨S500000, .i32⟩
  | 32 => ⟨S_, .i32⟩
  | 33 => ⟨S500000, .i32⟩
  | 34 => ⟨S500000, .i1⟩
  | 35 => ⟨S_, .i32⟩
  | 36 => ⟨S500000, .i32⟩
  | 37 => ⟨S500000, .i32⟩
  | 38 => ⟨S500000, .i32⟩
  | 39 => ⟨S500000x1, .i32⟩
  | 40 => ⟨S500000x1, .i32⟩
  | 41 => ⟨S500000x2, .i32⟩
  | 42 => ⟨S500000x32, .f32⟩
  | 43 => ⟨S_, .i32⟩
  | 44 => ⟨S500000, .i32⟩
  | 45 => ⟨S500000, .i32⟩
  | 46 => ⟨S_, .i32⟩
  | 47 => ⟨S500000, .i32⟩
  | 48 => ⟨S500000, .i32⟩
  | 49 => ⟨S_, .i32⟩
  | 50 => ⟨S500000, .i32⟩
  | 51 => ⟨S500000, .i1⟩
  | 52 => ⟨S_, .i32⟩
  | 53 => ⟨S500000, .i32⟩
  | 54 => ⟨S500000, .i32⟩
  | 55 => ⟨S500000, .i32⟩
  | 56 => ⟨S_, .i32⟩
  | 57 => ⟨S500000, .i32⟩
  | 58 => ⟨S500000, .i1⟩
  | 59 => ⟨S_, .i32⟩
  | 60 => ⟨S500000, .i32⟩
  | 61 => ⟨S500000, .i32⟩
  | 62 => ⟨S500000, .i32⟩
  | 63 => ⟨S500000x1, .i32⟩
  | 64 => ⟨S500000x1, .i32⟩
  | 65 => ⟨S500000x2, .i32⟩
  | 66 => ⟨S500000x32, .f32⟩
  | 67 => ⟨S_, .f32⟩
  | 68 => ⟨S500000x1, .f32⟩
  | 69 => ⟨S500000x1, .f32⟩
  | 70 => ⟨S500000x32, .f32⟩
  | 71 => ⟨S500000x32, .f32⟩
  | 72 => ⟨S500000x32, .f32⟩
  | 73 => ⟨S500000x32, .f32⟩
  | 74 => ⟨S500000x32, .f32⟩
  | 75 => ⟨S_, .f32⟩
  | 76 => ⟨S500000x1, .f32⟩
  | 77 => ⟨S500000x1, .f32⟩
  | 78 => ⟨S500000x32, .f32⟩
  | 79 => ⟨S500000x32, .f32⟩
  | 80 => ⟨S_, .f32⟩
  | 81 => ⟨S500000x1, .f32⟩
  | 82 => ⟨S500000x1, .f32⟩
  | 83 => ⟨S500000x32, .f32⟩
  | 84 => ⟨S500000x32, .f32⟩
  | 85 => ⟨S500000x32, .f32⟩
  | 86 => ⟨S500000x32, .f32⟩
  | 87 => ⟨S500000x32, .f32⟩
  | 88 => ⟨S500000x32, .f32⟩
  | 89 => ⟨S500000x32, .f32⟩
  | 90 => ⟨S500000x32, .f32⟩
  | 91 => ⟨S500000x32, .f32⟩
  | 92 => ⟨S500000x32, .f32⟩
  | 93 => ⟨S500000x256, .f32⟩
  | 94 => ⟨S1x256, .f32⟩
  | 95 => ⟨S500000x256, .f32⟩
  | 96 => ⟨S500000x256, .f32⟩
  | 97 => ⟨S_, .f32⟩
  | 98 => ⟨S500000x256, .f32⟩
  | 99 => ⟨S500000x256, .f32⟩
  | 100 => ⟨S500000x256, .f32⟩
  | 101 => ⟨S1x256, .f32⟩
  | 102 => ⟨S500000x256, .f32⟩
  | 103 => ⟨S500000x256, .f32⟩
  | 104 => ⟨S_, .f32⟩
  | 105 => ⟨S500000x256, .f32⟩
  | 106 => ⟨S500000x256, .f32⟩
  | 107 => ⟨S500000x48, .f32⟩
  | 108 => ⟨S1x48, .f32⟩
  | 109 => ⟨S500000x48, .f32⟩
  | 110 => ⟨S500000x48, .f32⟩
  | 111 => ⟨S500000x16x3, .f32⟩
  | 112 => ⟨S500000x16x3, .f32⟩
  | 113 => ⟨S500000x1, .f32⟩
  | _ => ⟨S500000x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S500000x3, .f32⟩

abbrev bufTy : (tb : Table) → Fin (tcTables nBuf tb) → BufTy
  | .hbm, ⟨i, _⟩ => hbmTy i
  | _, _ => ⟨S500000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_call0_v0 : Ref sig .tc := ⟨.hbm, 15, rfl⟩
abbrev main_call0_cst : Ref sig .tc := ⟨.hbm, 16, rfl⟩
abbrev main_call0_v1 : Ref sig .tc := ⟨.hbm, 17, rfl⟩
abbrev main_call0_v2 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst : Ref sig .tc := ⟨.hbm, 33, rfl⟩
abbrev main_v14 : Ref sig .tc := ⟨.hbm, 34, rfl⟩
abbrev main_v15 : Ref sig .tc := ⟨.hbm, 35, rfl⟩
abbrev main_cst_0 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_1 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_2 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_3 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_4 : Ref sig .tc := ⟨.hbm, 64, rfl⟩
abbrev main_v40 : Ref sig .tc := ⟨.hbm, 65, rfl⟩
abbrev main_v41 : Ref sig .tc := ⟨.hbm, 66, rfl⟩
abbrev main_cst_5 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_6 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_7 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_8 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_9 : Ref sig .tc := ⟨.hbm, 95, rfl⟩
abbrev main_v66 : Ref sig .tc := ⟨.hbm, 96, rfl⟩
abbrev main_v67 : Ref sig .tc := ⟨.hbm, 97, rfl⟩
abbrev main_cst_10 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_cst_11 : Ref sig .tc := ⟨.hbm, 132, rfl⟩
abbrev main_v101 : Ref sig .tc := ⟨.hbm, 133, rfl⟩
abbrev main_v102 : Ref sig .tc := ⟨.hbm, 134, rfl⟩
abbrev main_cst_12 : Ref sig .tc := ⟨.hbm, 135, rfl⟩
abbrev main_cst_13 : Ref sig .tc := ⟨.hbm, 136, rfl⟩
abbrev main_call1_v0 : Ref sig .tc := ⟨.hbm, 137, rfl⟩
abbrev main_call1_v1 : Ref sig .tc := ⟨.hbm, 138, rfl⟩
abbrev main_call1_v2 : Ref sig .tc := ⟨.hbm, 139, rfl⟩
abbrev main_call1_v3 : Ref sig .tc := ⟨.hbm, 140, rfl⟩
abbrev main_call1_v4 : Ref sig .tc := ⟨.hbm, 141, rfl⟩
abbrev main_v103 : Ref sig .tc := ⟨.hbm, 142, rfl⟩
abbrev main_cst_14 : Ref sig .tc := ⟨.hbm, 143, rfl⟩
abbrev main_v104 : Ref sig .tc := ⟨.hbm, 144, rfl⟩
abbrev main_v105 : Ref sig .tc := ⟨.hbm, 145, rfl⟩
abbrev main_cst_15 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_cst_16 : Ref sig .tc := ⟨.hbm, 156, rfl⟩
abbrev main_cst_17 : Ref sig .tc := ⟨.hbm, 157, rfl⟩
abbrev main_call2_v0 : Ref sig .tc := ⟨.hbm, 158, rfl⟩
abbrev main_call2_v1 : Ref sig .tc := ⟨.hbm, 159, rfl⟩
abbrev main_call2_v2 : Ref sig .tc := ⟨.hbm, 160, rfl⟩
abbrev main_call2_v3 : Ref sig .tc := ⟨.hbm, 161, rfl⟩
abbrev main_call2_v4 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_cst_18 : Ref sig .tc := ⟨.hbm, 166, rfl⟩
abbrev main_cst_19 : Ref sig .tc := ⟨.hbm, 167, rfl⟩
abbrev main_call3_v0 : Ref sig .tc := ⟨.hbm, 168, rfl⟩
abbrev main_call3_v1 : Ref sig .tc := ⟨.hbm, 169, rfl⟩
abbrev main_call3_v2 : Ref sig .tc := ⟨.hbm, 170, rfl⟩
abbrev main_call3_v3 : Ref sig .tc := ⟨.hbm, 171, rfl⟩
abbrev main_call3_v4 : Ref sig .tc := ⟨.hbm, 172, rfl⟩
abbrev main_v118 : Ref sig .tc := ⟨.hbm, 173, rfl⟩
abbrev main_cst_20 : Ref sig .tc := ⟨.hbm, 174, rfl⟩
abbrev main_v119 : Ref sig .tc := ⟨.hbm, 175, rfl⟩
abbrev main_v120 : Ref sig .tc := ⟨.hbm, 176, rfl⟩
abbrev main_cst_21 : Ref sig .tc := ⟨.hbm, 177, rfl⟩
abbrev main_cst_22 : Ref sig .tc := ⟨.hbm, 178, rfl⟩
abbrev main_call4_v0 : Ref sig .tc := ⟨.hbm, 179, rfl⟩
abbrev main_call4_v1 : Ref sig .tc := ⟨.hbm, 180, rfl⟩
abbrev main_call4_v2 : Ref sig .tc := ⟨.hbm, 181, rfl⟩
abbrev main_call4_v3 : Ref sig .tc := ⟨.hbm, 182, rfl⟩
abbrev main_call4_v4 : Ref sig .tc := ⟨.hbm, 183, rfl⟩
abbrev main_v121 : Ref sig .tc := ⟨.hbm, 184, rfl⟩
abbrev main_cst_23 : Ref sig .tc := ⟨.hbm, 185, rfl⟩
abbrev main_v122 : Ref sig .tc := ⟨.hbm, 186, rfl⟩
abbrev main_v123 : Ref sig .tc := ⟨.hbm, 187, rfl⟩
abbrev main_v124 : Ref sig .tc := ⟨.hbm, 188, rfl⟩
abbrev main_c : Ref sig .tc := ⟨.hbm, 189, rfl⟩
abbrev main_c_24 : Ref sig .tc := ⟨.hbm, 190, rfl⟩
abbrev main_call5_v0 : Ref sig .tc := ⟨.hbm, 191, rfl⟩
abbrev main_call5_v1 : Ref sig .tc := ⟨.hbm, 192, rfl⟩
abbrev main_call5_v2 : Ref sig .tc := ⟨.hbm, 193, rfl⟩
abbrev main_call5_v3 : Ref sig .tc := ⟨.hbm, 194, rfl⟩
abbrev main_call5_v4 : Ref sig .tc := ⟨.hbm, 195, rfl⟩
abbrev main_v125 : Ref sig .tc := ⟨.hbm, 196, rfl⟩
abbrev main_v126 : Ref sig .tc := ⟨.hbm, 197, rfl⟩
abbrev main_v127 : Ref sig .tc := ⟨.hbm, 198, rfl⟩
abbrev main_c_25 : Ref sig .tc := ⟨.hbm, 199, rfl⟩
abbrev main_c_26 : Ref sig .tc := ⟨.hbm, 200, rfl⟩
abbrev main_call6_v0 : Ref sig .tc := ⟨.hbm, 201, rfl⟩
abbrev main_call6_v1 : Ref sig .tc := ⟨.hbm, 202, rfl⟩
abbrev main_call6_v2 : Ref sig .tc := ⟨.hbm, 203, rfl⟩
abbrev main_call6_v3 : Ref sig .tc := ⟨.hbm, 204, rfl⟩
abbrev main_call6_v4 : Ref sig .tc := ⟨.hbm, 205, rfl⟩
abbrev main_v128 : Ref sig .tc := ⟨.hbm, 206, rfl⟩
abbrev main_v129 : Ref sig .tc := ⟨.hbm, 207, rfl⟩
abbrev main_v130 : Ref sig .tc := ⟨.hbm, 208, rfl⟩
abbrev main_v131 : Ref sig .tc := ⟨.hbm, 209, rfl⟩
abbrev main_v132 : Ref sig .tc := ⟨.hbm, 210, rfl⟩
abbrev main_v133 : Ref sig .tc := ⟨.hbm, 211, rfl⟩
abbrev main_v134 : Ref sig .tc := ⟨.hbm, 212, rfl⟩
abbrev main_v135 : Ref sig .tc := ⟨.hbm, 213, rfl⟩
abbrev main_c_27 : Ref sig .tc := ⟨.hbm, 214, rfl⟩
abbrev main_v136 : Ref sig .tc := ⟨.hbm, 215, rfl⟩
abbrev main_v137 : Ref sig .tc := ⟨.hbm, 216, rfl⟩
abbrev main_c_28 : Ref sig .tc := ⟨.hbm, 217, rfl⟩
abbrev main_v138 : Ref sig .tc := ⟨.hbm, 218, rfl⟩
abbrev main_v139 : Ref sig .tc := ⟨.hbm, 219, rfl⟩
abbrev main_v140 : Ref sig .tc := ⟨.hbm, 220, rfl⟩
abbrev main_c_29 : Ref sig .tc := ⟨.hbm, 221, rfl⟩
abbrev main_v141 : Ref sig .tc := ⟨.hbm, 222, rfl⟩
abbrev main_v142 : Ref sig .tc := ⟨.hbm, 223, rfl⟩
abbrev main_c_30 : Ref sig .tc := ⟨.hbm, 224, rfl⟩
abbrev main_v143 : Ref sig .tc := ⟨.hbm, 225, rfl⟩
abbrev main_v144 : Ref sig .tc := ⟨.hbm, 226, rfl⟩
abbrev main_v145 : Ref sig .tc := ⟨.hbm, 227, rfl⟩
abbrev main_v146 : Ref sig .tc := ⟨.hbm, 228, rfl⟩
abbrev main_v147 : Ref sig .tc := ⟨.hbm, 229, rfl⟩
abbrev main_v148 : Ref sig .tc := ⟨.hbm, 230, rfl⟩
abbrev main_v149 : Ref sig .tc := ⟨.hbm, 231, rfl⟩
abbrev main_c_31 : Ref sig .tc := ⟨.hbm, 232, rfl⟩
abbrev main_v150 : Ref sig .tc := ⟨.hbm, 233, rfl⟩
abbrev main_v151 : Ref sig .tc := ⟨.hbm, 234, rfl⟩
abbrev main_c_32 : Ref sig .tc := ⟨.hbm, 235, rfl⟩
abbrev main_v152 : Ref sig .tc := ⟨.hbm, 236, rfl⟩
abbrev main_v153 : Ref sig .tc := ⟨.hbm, 237, rfl⟩
abbrev main_c_33 : Ref sig .tc := ⟨.hbm, 238, rfl⟩
abbrev main_v154 : Ref sig .tc := ⟨.hbm, 239, rfl⟩
abbrev main_v155 : Ref sig .tc := ⟨.hbm, 240, rfl⟩
abbrev main_v156 : Ref sig .tc := ⟨.hbm, 241, rfl⟩
abbrev main_c_34 : Ref sig .tc := ⟨.hbm, 242, rfl⟩
abbrev main_v157 : Ref sig .tc := ⟨.hbm, 243, rfl⟩
abbrev main_v158 : Ref sig .tc := ⟨.hbm, 244, rfl⟩
abbrev main_c_35 : Ref sig .tc := ⟨.hbm, 245, rfl⟩
abbrev main_v159 : Ref sig .tc := ⟨.hbm, 246, rfl⟩
abbrev main_v160 : Ref sig .tc := ⟨.hbm, 247, rfl⟩
abbrev main_v161 : Ref sig .tc := ⟨.hbm, 248, rfl⟩
abbrev main_v162 : Ref sig .tc := ⟨.hbm, 249, rfl⟩
abbrev main_v163 : Ref sig .tc := ⟨.hbm, 250, rfl⟩
abbrev main_v164 : Ref sig .tc := ⟨.hbm, 251, rfl⟩
abbrev main_v165 : Ref sig .tc := ⟨.hbm, 252, rfl⟩
abbrev main_c_36 : Ref sig .tc := ⟨.hbm, 253, rfl⟩
abbrev main_v166 : Ref sig .tc := ⟨.hbm, 254, rfl⟩
abbrev main_v167 : Ref sig .tc := ⟨.hbm, 255, rfl⟩
abbrev main_c_37 : Ref sig .tc := ⟨.hbm, 256, rfl⟩
abbrev main_v168 : Ref sig .tc := ⟨.hbm, 257, rfl⟩
abbrev main_v169 : Ref sig .tc := ⟨.hbm, 258, rfl⟩
abbrev main_c_38 : Ref sig .tc := ⟨.hbm, 259, rfl⟩
abbrev main_v170 : Ref sig .tc := ⟨.hbm, 260, rfl⟩
abbrev main_v171 : Ref sig .tc := ⟨.hbm, 261, rfl⟩
abbrev main_v172 : Ref sig .tc := ⟨.hbm, 262, rfl⟩
abbrev main_c_39 : Ref sig .tc := ⟨.hbm, 263, rfl⟩
abbrev main_v173 : Ref sig .tc := ⟨.hbm, 264, rfl⟩
abbrev main_v174 : Ref sig .tc := ⟨.hbm, 265, rfl⟩
abbrev main_c_40 : Ref sig .tc := ⟨.hbm, 266, rfl⟩
abbrev main_v175 : Ref sig .tc := ⟨.hbm, 267, rfl⟩
abbrev main_v176 : Ref sig .tc := ⟨.hbm, 268, rfl⟩
abbrev main_v177 : Ref sig .tc := ⟨.hbm, 269, rfl⟩
abbrev main_v178 : Ref sig .tc := ⟨.hbm, 270, rfl⟩
abbrev main_v179 : Ref sig .tc := ⟨.hbm, 271, rfl⟩
abbrev main_v180 : Ref sig .tc := ⟨.hbm, 272, rfl⟩
abbrev main_v181 : Ref sig .tc := ⟨.hbm, 273, rfl⟩
abbrev main_c_41 : Ref sig .tc := ⟨.hbm, 274, rfl⟩
abbrev main_v182 : Ref sig .tc := ⟨.hbm, 275, rfl⟩
abbrev main_v183 : Ref sig .tc := ⟨.hbm, 276, rfl⟩
abbrev main_c_42 : Ref sig .tc := ⟨.hbm, 277, rfl⟩
abbrev main_v184 : Ref sig .tc := ⟨.hbm, 278, rfl⟩
abbrev main_v185 : Ref sig .tc := ⟨.hbm, 279, rfl⟩
abbrev main_c_43 : Ref sig .tc := ⟨.hbm, 280, rfl⟩
abbrev main_v186 : Ref sig .tc := ⟨.hbm, 281, rfl⟩
abbrev main_v187 : Ref sig .tc := ⟨.hbm, 282, rfl⟩
abbrev main_c_44 : Ref sig .tc := ⟨.hbm, 283, rfl⟩
abbrev main_v188 : Ref sig .tc := ⟨.hbm, 284, rfl⟩
abbrev main_v189 : Ref sig .tc := ⟨.hbm, 285, rfl⟩
abbrev main_v190 : Ref sig .tc := ⟨.hbm, 286, rfl⟩
abbrev main_c_45 : Ref sig .tc := ⟨.hbm, 287, rfl⟩
abbrev main_v191 : Ref sig .tc := ⟨.hbm, 288, rfl⟩
abbrev main_v192 : Ref sig .tc := ⟨.hbm, 289, rfl⟩
abbrev main_c_46 : Ref sig .tc := ⟨.hbm, 290, rfl⟩
abbrev main_v193 : Ref sig .tc := ⟨.hbm, 291, rfl⟩
abbrev main_v194 : Ref sig .tc := ⟨.hbm, 292, rfl⟩
abbrev main_v195 : Ref sig .tc := ⟨.hbm, 293, rfl⟩
abbrev main_v196 : Ref sig .tc := ⟨.hbm, 294, rfl⟩
abbrev main_v197 : Ref sig .tc := ⟨.hbm, 295, rfl⟩
abbrev main_v198 : Ref sig .tc := ⟨.hbm, 296, rfl⟩
abbrev main_v199 : Ref sig .tc := ⟨.hbm, 297, rfl⟩
abbrev main_cst_47 : Ref sig .tc := ⟨.hbm, 298, rfl⟩
abbrev main_v200 : Ref sig .tc := ⟨.hbm, 299, rfl⟩
abbrev main_v201 : Ref sig .tc := ⟨.hbm, 300, rfl⟩
abbrev main_v202 : Ref sig .tc := ⟨.hbm, 301, rfl⟩
abbrev main_v203 : Ref sig .tc := ⟨.hbm, 302, rfl⟩
abbrev main_v204 : Ref sig .tc := ⟨.hbm, 303, rfl⟩
abbrev main_v205 : Ref sig .tc := ⟨.hbm, 304, rfl⟩
abbrev main_v206 : Ref sig .tc := ⟨.hbm, 305, rfl⟩
abbrev main_cst_48 : Ref sig .tc := ⟨.hbm, 306, rfl⟩
abbrev main_v207 : Ref sig .tc := ⟨.hbm, 307, rfl⟩
abbrev main_v208 : Ref sig .tc := ⟨.hbm, 308, rfl⟩
abbrev main_v209 : Ref sig .tc := ⟨.hbm, 309, rfl⟩
abbrev main_v210 : Ref sig .tc := ⟨.hbm, 310, rfl⟩
abbrev main_cst_49 : Ref sig .tc := ⟨.hbm, 311, rfl⟩
abbrev main_v211 : Ref sig .tc := ⟨.hbm, 312, rfl⟩
abbrev main_v212 : Ref sig .tc := ⟨.hbm, 313, rfl⟩
abbrev main_v213 : Ref sig .tc := ⟨.hbm, 314, rfl⟩
abbrev main_v214 : Ref sig .tc := ⟨.hbm, 315, rfl⟩
abbrev main_v215 : Ref sig .tc := ⟨.hbm, 316, rfl⟩
abbrev main_v216 : Ref sig .tc := ⟨.hbm, 317, rfl⟩
abbrev main_v217 : Ref sig .tc := ⟨.hbm, 318, rfl⟩
abbrev main_v218 : Ref sig .tc := ⟨.hbm, 319, rfl⟩
abbrev main_v219 : Ref sig .tc := ⟨.hbm, 320, rfl⟩
abbrev main_v220 : Ref sig .tc := ⟨.hbm, 321, rfl⟩
abbrev main_v221 : Ref sig .tc := ⟨.hbm, 322, rfl⟩
abbrev main_v222 : Ref sig .tc := ⟨.hbm, 323, rfl⟩
abbrev main_cst_50 : Ref sig .tc := ⟨.hbm, 324, rfl⟩
abbrev main_cst_51 : Ref sig .tc := ⟨.hbm, 325, rfl⟩
abbrev main_call7_v0 : Ref sig .tc := ⟨.hbm, 326, rfl⟩
abbrev main_call7_v1 : Ref sig .tc := ⟨.hbm, 327, rfl⟩
abbrev main_call7_v2 : Ref sig .tc := ⟨.hbm, 328, rfl⟩
abbrev main_call7_v3 : Ref sig .tc := ⟨.hbm, 329, rfl⟩
abbrev main_call7_v4 : Ref sig .tc := ⟨.hbm, 330, rfl⟩
abbrev main_v223 : Ref sig .tc := ⟨.hbm, 331, rfl⟩
abbrev main_cst_52 : Ref sig .tc := ⟨.hbm, 332, rfl⟩
abbrev main_v224 : Ref sig .tc := ⟨.hbm, 333, rfl⟩
abbrev main_v225 : Ref sig .tc := ⟨.hbm, 334, rfl⟩
abbrev main_cst_53 : Ref sig .tc := ⟨.hbm, 335, rfl⟩
abbrev main_cst_54 : Ref sig .tc := ⟨.hbm, 336, rfl⟩
abbrev main_call8_v0 : Ref sig .tc := ⟨.hbm, 337, rfl⟩
abbrev main_call8_v1 : Ref sig .tc := ⟨.hbm, 338, rfl⟩
abbrev main_call8_v2 : Ref sig .tc := ⟨.hbm, 339, rfl⟩
abbrev main_call8_v3 : Ref sig .tc := ⟨.hbm, 340, rfl⟩
abbrev main_call8_v4 : Ref sig .tc := ⟨.hbm, 341, rfl⟩
abbrev main_v226 : Ref sig .tc := ⟨.hbm, 342, rfl⟩
abbrev main_cst_55 : Ref sig .tc := ⟨.hbm, 343, rfl⟩
abbrev main_v227 : Ref sig .tc := ⟨.hbm, 344, rfl⟩
abbrev main_v228 : Ref sig .tc := ⟨.hbm, 345, rfl⟩
abbrev main_v229 : Ref sig .tc := ⟨.hbm, 346, rfl⟩
abbrev main_c_56 : Ref sig .tc := ⟨.hbm, 347, rfl⟩
abbrev main_c_57 : Ref sig .tc := ⟨.hbm, 348, rfl⟩
abbrev main_call9_v0 : Ref sig .tc := ⟨.hbm, 349, rfl⟩
abbrev main_call9_v1 : Ref sig .tc := ⟨.hbm, 350, rfl⟩
abbrev main_call9_v2 : Ref sig .tc := ⟨.hbm, 351, rfl⟩
abbrev main_call9_v3 : Ref sig .tc := ⟨.hbm, 352, rfl⟩
abbrev main_call9_v4 : Ref sig .tc := ⟨.hbm, 353, rfl⟩
abbrev main_v230 : Ref sig .tc := ⟨.hbm, 354, rfl⟩
abbrev main_v231 : Ref sig .tc := ⟨.hbm, 355, rfl⟩
abbrev main_v232 : Ref sig .tc := ⟨.hbm, 356, rfl⟩
abbrev main_c_58 : Ref sig .tc := ⟨.hbm, 357, rfl⟩
abbrev main_c_59 : Ref sig .tc := ⟨.hbm, 358, rfl⟩
abbrev main_call10_v0 : Ref sig .tc := ⟨.hbm, 359, rfl⟩
abbrev main_call10_v1 : Ref sig .tc := ⟨.hbm, 360, rfl⟩
abbrev main_call10_v2 : Ref sig .tc := ⟨.hbm, 361, rfl⟩
abbrev main_call10_v3 : Ref sig .tc := ⟨.hbm, 362, rfl⟩
abbrev main_call10_v4 : Ref sig .tc := ⟨.hbm, 363, rfl⟩
abbrev main_v233 : Ref sig .tc := ⟨.hbm, 364, rfl⟩
abbrev main_v234 : Ref sig .tc := ⟨.hbm, 365, rfl⟩
abbrev main_v235 : Ref sig .tc := ⟨.hbm, 366, rfl⟩
abbrev main_v236 : Ref sig .tc := ⟨.hbm, 367, rfl⟩
abbrev main_v237 : Ref sig .tc := ⟨.hbm, 368, rfl⟩
abbrev main_v238 : Ref sig .tc := ⟨.hbm, 369, rfl⟩
abbrev main_v239 : Ref sig .tc := ⟨.hbm, 370, rfl⟩
abbrev main_v240 : Ref sig .tc := ⟨.hbm, 371, rfl⟩
abbrev main_c_60 : Ref sig .tc := ⟨.hbm, 372, rfl⟩
abbrev main_v241 : Ref sig .tc := ⟨.hbm, 373, rfl⟩
abbrev main_v242 : Ref sig .tc := ⟨.hbm, 374, rfl⟩
abbrev main_c_61 : Ref sig .tc := ⟨.hbm, 375, rfl⟩
abbrev main_v243 : Ref sig .tc := ⟨.hbm, 376, rfl⟩
abbrev main_v244 : Ref sig .tc := ⟨.hbm, 377, rfl⟩
abbrev main_v245 : Ref sig .tc := ⟨.hbm, 378, rfl⟩
abbrev main_c_62 : Ref sig .tc := ⟨.hbm, 379, rfl⟩
abbrev main_v246 : Ref sig .tc := ⟨.hbm, 380, rfl⟩
abbrev main_v247 : Ref sig .tc := ⟨.hbm, 381, rfl⟩
abbrev main_c_63 : Ref sig .tc := ⟨.hbm, 382, rfl⟩
abbrev main_v248 : Ref sig .tc := ⟨.hbm, 383, rfl⟩
abbrev main_v249 : Ref sig .tc := ⟨.hbm, 384, rfl⟩
abbrev main_v250 : Ref sig .tc := ⟨.hbm, 385, rfl⟩
abbrev main_v251 : Ref sig .tc := ⟨.hbm, 386, rfl⟩
abbrev main_v252 : Ref sig .tc := ⟨.hbm, 387, rfl⟩
abbrev main_v253 : Ref sig .tc := ⟨.hbm, 388, rfl⟩
abbrev main_v254 : Ref sig .tc := ⟨.hbm, 389, rfl⟩
abbrev main_c_64 : Ref sig .tc := ⟨.hbm, 390, rfl⟩
abbrev main_v255 : Ref sig .tc := ⟨.hbm, 391, rfl⟩
abbrev main_v256 : Ref sig .tc := ⟨.hbm, 392, rfl⟩
abbrev main_c_65 : Ref sig .tc := ⟨.hbm, 393, rfl⟩
abbrev main_v257 : Ref sig .tc := ⟨.hbm, 394, rfl⟩
abbrev main_v258 : Ref sig .tc := ⟨.hbm, 395, rfl⟩
abbrev main_c_66 : Ref sig .tc := ⟨.hbm, 396, rfl⟩
abbrev main_v259 : Ref sig .tc := ⟨.hbm, 397, rfl⟩
abbrev main_v260 : Ref sig .tc := ⟨.hbm, 398, rfl⟩
abbrev main_v261 : Ref sig .tc := ⟨.hbm, 399, rfl⟩
abbrev main_c_67 : Ref sig .tc := ⟨.hbm, 400, rfl⟩
abbrev main_v262 : Ref sig .tc := ⟨.hbm, 401, rfl⟩
abbrev main_v263 : Ref sig .tc := ⟨.hbm, 402, rfl⟩
abbrev main_c_68 : Ref sig .tc := ⟨.hbm, 403, rfl⟩
abbrev main_v264 : Ref sig .tc := ⟨.hbm, 404, rfl⟩
abbrev main_v265 : Ref sig .tc := ⟨.hbm, 405, rfl⟩
abbrev main_v266 : Ref sig .tc := ⟨.hbm, 406, rfl⟩
abbrev main_v267 : Ref sig .tc := ⟨.hbm, 407, rfl⟩
abbrev main_v268 : Ref sig .tc := ⟨.hbm, 408, rfl⟩
abbrev main_v269 : Ref sig .tc := ⟨.hbm, 409, rfl⟩
abbrev main_v270 : Ref sig .tc := ⟨.hbm, 410, rfl⟩
abbrev main_c_69 : Ref sig .tc := ⟨.hbm, 411, rfl⟩
abbrev main_v271 : Ref sig .tc := ⟨.hbm, 412, rfl⟩
abbrev main_v272 : Ref sig .tc := ⟨.hbm, 413, rfl⟩
abbrev main_c_70 : Ref sig .tc := ⟨.hbm, 414, rfl⟩
abbrev main_v273 : Ref sig .tc := ⟨.hbm, 415, rfl⟩
abbrev main_v274 : Ref sig .tc := ⟨.hbm, 416, rfl⟩
abbrev main_c_71 : Ref sig .tc := ⟨.hbm, 417, rfl⟩
abbrev main_v275 : Ref sig .tc := ⟨.hbm, 418, rfl⟩
abbrev main_v276 : Ref sig .tc := ⟨.hbm, 419, rfl⟩
abbrev main_v277 : Ref sig .tc := ⟨.hbm, 420, rfl⟩
abbrev main_c_72 : Ref sig .tc := ⟨.hbm, 421, rfl⟩
abbrev main_v278 : Ref sig .tc := ⟨.hbm, 422, rfl⟩
abbrev main_v279 : Ref sig .tc := ⟨.hbm, 423, rfl⟩
abbrev main_c_73 : Ref sig .tc := ⟨.hbm, 424, rfl⟩
abbrev main_v280 : Ref sig .tc := ⟨.hbm, 425, rfl⟩
abbrev main_v281 : Ref sig .tc := ⟨.hbm, 426, rfl⟩
abbrev main_v282 : Ref sig .tc := ⟨.hbm, 427, rfl⟩
abbrev main_v283 : Ref sig .tc := ⟨.hbm, 428, rfl⟩
abbrev main_v284 : Ref sig .tc := ⟨.hbm, 429, rfl⟩
abbrev main_v285 : Ref sig .tc := ⟨.hbm, 430, rfl⟩
abbrev main_v286 : Ref sig .tc := ⟨.hbm, 431, rfl⟩
abbrev main_c_74 : Ref sig .tc := ⟨.hbm, 432, rfl⟩
abbrev main_v287 : Ref sig .tc := ⟨.hbm, 433, rfl⟩
abbrev main_v288 : Ref sig .tc := ⟨.hbm, 434, rfl⟩
abbrev main_c_75 : Ref sig .tc := ⟨.hbm, 435, rfl⟩
abbrev main_v289 : Ref sig .tc := ⟨.hbm, 436, rfl⟩
abbrev main_v290 : Ref sig .tc := ⟨.hbm, 437, rfl⟩
abbrev main_c_76 : Ref sig .tc := ⟨.hbm, 438, rfl⟩
abbrev main_v291 : Ref sig .tc := ⟨.hbm, 439, rfl⟩
abbrev main_v292 : Ref sig .tc := ⟨.hbm, 440, rfl⟩
abbrev main_c_77 : Ref sig .tc := ⟨.hbm, 441, rfl⟩
abbrev main_v293 : Ref sig .tc := ⟨.hbm, 442, rfl⟩
abbrev main_v294 : Ref sig .tc := ⟨.hbm, 443, rfl⟩
abbrev main_v295 : Ref sig .tc := ⟨.hbm, 444, rfl⟩
abbrev main_c_78 : Ref sig .tc := ⟨.hbm, 445, rfl⟩
abbrev main_v296 : Ref sig .tc := ⟨.hbm, 446, rfl⟩
abbrev main_v297 : Ref sig .tc := ⟨.hbm, 447, rfl⟩
abbrev main_c_79 : Ref sig .tc := ⟨.hbm, 448, rfl⟩
abbrev main_v298 : Ref sig .tc := ⟨.hbm, 449, rfl⟩
abbrev main_v299 : Ref sig .tc := ⟨.hbm, 450, rfl⟩
abbrev main_v300 : Ref sig .tc := ⟨.hbm, 451, rfl⟩
abbrev main_v301 : Ref sig .tc := ⟨.hbm, 452, rfl⟩
abbrev main_v302 : Ref sig .tc := ⟨.hbm, 453, rfl⟩
abbrev main_v303 : Ref sig .tc := ⟨.hbm, 454, rfl⟩
abbrev main_v304 : Ref sig .tc := ⟨.hbm, 455, rfl⟩
abbrev main_cst_80 : Ref sig .tc := ⟨.hbm, 456, rfl⟩
abbrev main_v305 : Ref sig .tc := ⟨.hbm, 457, rfl⟩
abbrev main_v306 : Ref sig .tc := ⟨.hbm, 458, rfl⟩
abbrev main_v307 : Ref sig .tc := ⟨.hbm, 459, rfl⟩
abbrev main_v308 : Ref sig .tc := ⟨.hbm, 460, rfl⟩
abbrev main_v309 : Ref sig .tc := ⟨.hbm, 461, rfl⟩
abbrev main_v310 : Ref sig .tc := ⟨.hbm, 462, rfl⟩
abbrev main_v311 : Ref sig .tc := ⟨.hbm, 463, rfl⟩
abbrev main_cst_81 : Ref sig .tc := ⟨.hbm, 464, rfl⟩
abbrev main_v312 : Ref sig .tc := ⟨.hbm, 465, rfl⟩
abbrev main_v313 : Ref sig .tc := ⟨.hbm, 466, rfl⟩
abbrev main_v314 : Ref sig .tc := ⟨.hbm, 467, rfl⟩
abbrev main_v315 : Ref sig .tc := ⟨.hbm, 468, rfl⟩
abbrev main_cst_82 : Ref sig .tc := ⟨.hbm, 469, rfl⟩
abbrev main_v316 : Ref sig .tc := ⟨.hbm, 470, rfl⟩
abbrev main_v317 : Ref sig .tc := ⟨.hbm, 471, rfl⟩
abbrev main_v318 : Ref sig .tc := ⟨.hbm, 472, rfl⟩
abbrev main_v319 : Ref sig .tc := ⟨.hbm, 473, rfl⟩
abbrev main_v320 : Ref sig .tc := ⟨.hbm, 474, rfl⟩
abbrev main_v321 : Ref sig .tc := ⟨.hbm, 475, rfl⟩
abbrev main_v322 : Ref sig .tc := ⟨.hbm, 476, rfl⟩
abbrev main_v323 : Ref sig .tc := ⟨.hbm, 477, rfl⟩
abbrev main_v324 : Ref sig .tc := ⟨.hbm, 478, rfl⟩
abbrev main_v325 : Ref sig .tc := ⟨.hbm, 479, rfl⟩
abbrev main_v326 : Ref sig .tc := ⟨.hbm, 480, rfl⟩
abbrev main_v327 : Ref sig .tc := ⟨.hbm, 481, rfl⟩
abbrev main_v328 : Ref sig .tc := ⟨.hbm, 482, rfl⟩
abbrev main_cst_83 : Ref sig .tc := ⟨.hbm, 483, rfl⟩
abbrev main_cst_84 : Ref sig .tc := ⟨.hbm, 484, rfl⟩
abbrev main_call11_v0 : Ref sig .tc := ⟨.hbm, 485, rfl⟩
abbrev main_call11_v1 : Ref sig .tc := ⟨.hbm, 486, rfl⟩
abbrev main_call11_v2 : Ref sig .tc := ⟨.hbm, 487, rfl⟩
abbrev main_call11_v3 : Ref sig .tc := ⟨.hbm, 488, rfl⟩
abbrev main_call11_v4 : Ref sig .tc := ⟨.hbm, 489, rfl⟩
abbrev main_v329 : Ref sig .tc := ⟨.hbm, 490, rfl⟩
abbrev main_cst_85 : Ref sig .tc := ⟨.hbm, 491, rfl⟩
abbrev main_v330 : Ref sig .tc := ⟨.hbm, 492, rfl⟩
abbrev main_v331 : Ref sig .tc := ⟨.hbm, 493, rfl⟩
abbrev main_cst_86 : Ref sig .tc := ⟨.hbm, 494, rfl⟩
abbrev main_cst_87 : Ref sig .tc := ⟨.hbm, 495, rfl⟩
abbrev main_call12_v0 : Ref sig .tc := ⟨.hbm, 496, rfl⟩
abbrev main_call12_v1 : Ref sig .tc := ⟨.hbm, 497, rfl⟩
abbrev main_call12_v2 : Ref sig .tc := ⟨.hbm, 498, rfl⟩
abbrev main_call12_v3 : Ref sig .tc := ⟨.hbm, 499, rfl⟩
abbrev main_call12_v4 : Ref sig .tc := ⟨.hbm, 500, rfl⟩
abbrev main_v332 : Ref sig .tc := ⟨.hbm, 501, rfl⟩
abbrev main_cst_88 : Ref sig .tc := ⟨.hbm, 502, rfl⟩
abbrev main_v333 : Ref sig .tc := ⟨.hbm, 503, rfl⟩
abbrev main_v334 : Ref sig .tc := ⟨.hbm, 504, rfl⟩
abbrev main_v335 : Ref sig .tc := ⟨.hbm, 505, rfl⟩
abbrev main_c_89 : Ref sig .tc := ⟨.hbm, 506, rfl⟩
abbrev main_c_90 : Ref sig .tc := ⟨.hbm, 507, rfl⟩
abbrev main_call13_v0 : Ref sig .tc := ⟨.hbm, 508, rfl⟩
abbrev main_call13_v1 : Ref sig .tc := ⟨.hbm, 509, rfl⟩
abbrev main_call13_v2 : Ref sig .tc := ⟨.hbm, 510, rfl⟩
abbrev main_call13_v3 : Ref sig .tc := ⟨.hbm, 511, rfl⟩
abbrev main_call13_v4 : Ref sig .tc := ⟨.hbm, 512, rfl⟩
abbrev main_v336 : Ref sig .tc := ⟨.hbm, 513, rfl⟩
abbrev main_v337 : Ref sig .tc := ⟨.hbm, 514, rfl⟩
abbrev main_v338 : Ref sig .tc := ⟨.hbm, 515, rfl⟩
abbrev main_c_91 : Ref sig .tc := ⟨.hbm, 516, rfl⟩
abbrev main_c_92 : Ref sig .tc := ⟨.hbm, 517, rfl⟩
abbrev main_call14_v0 : Ref sig .tc := ⟨.hbm, 518, rfl⟩
abbrev main_call14_v1 : Ref sig .tc := ⟨.hbm, 519, rfl⟩
abbrev main_call14_v2 : Ref sig .tc := ⟨.hbm, 520, rfl⟩
abbrev main_call14_v3 : Ref sig .tc := ⟨.hbm, 521, rfl⟩
abbrev main_call14_v4 : Ref sig .tc := ⟨.hbm, 522, rfl⟩
abbrev main_v339 : Ref sig .tc := ⟨.hbm, 523, rfl⟩
abbrev main_v340 : Ref sig .tc := ⟨.hbm, 524, rfl⟩
abbrev main_v341 : Ref sig .tc := ⟨.hbm, 525, rfl⟩
abbrev main_v342 : Ref sig .tc := ⟨.hbm, 526, rfl⟩
abbrev main_v343 : Ref sig .tc := ⟨.hbm, 527, rfl⟩
abbrev main_v344 : Ref sig .tc := ⟨.hbm, 528, rfl⟩
abbrev main_v345 : Ref sig .tc := ⟨.hbm, 529, rfl⟩
abbrev main_v346 : Ref sig .tc := ⟨.hbm, 530, rfl⟩
abbrev main_c_93 : Ref sig .tc := ⟨.hbm, 531, rfl⟩
abbrev main_v347 : Ref sig .tc := ⟨.hbm, 532, rfl⟩
abbrev main_v348 : Ref sig .tc := ⟨.hbm, 533, rfl⟩
abbrev main_c_94 : Ref sig .tc := ⟨.hbm, 534, rfl⟩
abbrev main_v349 : Ref sig .tc := ⟨.hbm, 535, rfl⟩
abbrev main_v350 : Ref sig .tc := ⟨.hbm, 536, rfl⟩
abbrev main_v351 : Ref sig .tc := ⟨.hbm, 537, rfl⟩
abbrev main_c_95 : Ref sig .tc := ⟨.hbm, 538, rfl⟩
abbrev main_v352 : Ref sig .tc := ⟨.hbm, 539, rfl⟩
abbrev main_v353 : Ref sig .tc := ⟨.hbm, 540, rfl⟩
abbrev main_c_96 : Ref sig .tc := ⟨.hbm, 541, rfl⟩
abbrev main_v354 : Ref sig .tc := ⟨.hbm, 542, rfl⟩
abbrev main_v355 : Ref sig .tc := ⟨.hbm, 543, rfl⟩
abbrev main_v356 : Ref sig .tc := ⟨.hbm, 544, rfl⟩
abbrev main_v357 : Ref sig .tc := ⟨.hbm, 545, rfl⟩
abbrev main_v358 : Ref sig .tc := ⟨.hbm, 546, rfl⟩
abbrev main_v359 : Ref sig .tc := ⟨.hbm, 547, rfl⟩
abbrev main_v360 : Ref sig .tc := ⟨.hbm, 548, rfl⟩
abbrev main_c_97 : Ref sig .tc := ⟨.hbm, 549, rfl⟩
abbrev main_v361 : Ref sig .tc := ⟨.hbm, 550, rfl⟩
abbrev main_v362 : Ref sig .tc := ⟨.hbm, 551, rfl⟩
abbrev main_c_98 : Ref sig .tc := ⟨.hbm, 552, rfl⟩
abbrev main_v363 : Ref sig .tc := ⟨.hbm, 553, rfl⟩
abbrev main_v364 : Ref sig .tc := ⟨.hbm, 554, rfl⟩
abbrev main_c_99 : Ref sig .tc := ⟨.hbm, 555, rfl⟩
abbrev main_v365 : Ref sig .tc := ⟨.hbm, 556, rfl⟩
abbrev main_v366 : Ref sig .tc := ⟨.hbm, 557, rfl⟩
abbrev main_v367 : Ref sig .tc := ⟨.hbm, 558, rfl⟩
abbrev main_c_100 : Ref sig .tc := ⟨.hbm, 559, rfl⟩
abbrev main_v368 : Ref sig .tc := ⟨.hbm, 560, rfl⟩
abbrev main_v369 : Ref sig .tc := ⟨.hbm, 561, rfl⟩
abbrev main_c_101 : Ref sig .tc := ⟨.hbm, 562, rfl⟩
abbrev main_v370 : Ref sig .tc := ⟨.hbm, 563, rfl⟩
abbrev main_v371 : Ref sig .tc := ⟨.hbm, 564, rfl⟩
abbrev main_v372 : Ref sig .tc := ⟨.hbm, 565, rfl⟩
abbrev main_v373 : Ref sig .tc := ⟨.hbm, 566, rfl⟩
abbrev main_v374 : Ref sig .tc := ⟨.hbm, 567, rfl⟩
abbrev main_v375 : Ref sig .tc := ⟨.hbm, 568, rfl⟩
abbrev main_v376 : Ref sig .tc := ⟨.hbm, 569, rfl⟩
abbrev main_c_102 : Ref sig .tc := ⟨.hbm, 570, rfl⟩
abbrev main_v377 : Ref sig .tc := ⟨.hbm, 571, rfl⟩
abbrev main_v378 : Ref sig .tc := ⟨.hbm, 572, rfl⟩
abbrev main_c_103 : Ref sig .tc := ⟨.hbm, 573, rfl⟩
abbrev main_v379 : Ref sig .tc := ⟨.hbm, 574, rfl⟩
abbrev main_v380 : Ref sig .tc := ⟨.hbm, 575, rfl⟩
abbrev main_c_104 : Ref sig .tc := ⟨.hbm, 576, rfl⟩
abbrev main_v381 : Ref sig .tc := ⟨.hbm, 577, rfl⟩
abbrev main_v382 : Ref sig .tc := ⟨.hbm, 578, rfl⟩
abbrev main_v383 : Ref sig .tc := ⟨.hbm, 579, rfl⟩
abbrev main_c_105 : Ref sig .tc := ⟨.hbm, 580, rfl⟩
abbrev main_v384 : Ref sig .tc := ⟨.hbm, 581, rfl⟩
abbrev main_v385 : Ref sig .tc := ⟨.hbm, 582, rfl⟩
abbrev main_c_106 : Ref sig .tc := ⟨.hbm, 583, rfl⟩
abbrev main_v386 : Ref sig .tc := ⟨.hbm, 584, rfl⟩
abbrev main_v387 : Ref sig .tc := ⟨.hbm, 585, rfl⟩
abbrev main_v388 : Ref sig .tc := ⟨.hbm, 586, rfl⟩
abbrev main_v389 : Ref sig .tc := ⟨.hbm, 587, rfl⟩
abbrev main_v390 : Ref sig .tc := ⟨.hbm, 588, rfl⟩
abbrev main_v391 : Ref sig .tc := ⟨.hbm, 589, rfl⟩
abbrev main_v392 : Ref sig .tc := ⟨.hbm, 590, rfl⟩
abbrev main_c_107 : Ref sig .tc := ⟨.hbm, 591, rfl⟩
abbrev main_v393 : Ref sig .tc := ⟨.hbm, 592, rfl⟩
abbrev main_v394 : Ref sig .tc := ⟨.hbm, 593, rfl⟩
abbrev main_c_108 : Ref sig .tc := ⟨.hbm, 594, rfl⟩
abbrev main_v395 : Ref sig .tc := ⟨.hbm, 595, rfl⟩
abbrev main_v396 : Ref sig .tc := ⟨.hbm, 596, rfl⟩
abbrev main_c_109 : Ref sig .tc := ⟨.hbm, 597, rfl⟩
abbrev main_v397 : Ref sig .tc := ⟨.hbm, 598, rfl⟩
abbrev main_v398 : Ref sig .tc := ⟨.hbm, 599, rfl⟩
abbrev main_c_110 : Ref sig .tc := ⟨.hbm, 600, rfl⟩
abbrev main_v399 : Ref sig .tc := ⟨.hbm, 601, rfl⟩
abbrev main_v400 : Ref sig .tc := ⟨.hbm, 602, rfl⟩
abbrev main_v401 : Ref sig .tc := ⟨.hbm, 603, rfl⟩
abbrev main_c_111 : Ref sig .tc := ⟨.hbm, 604, rfl⟩
abbrev main_v402 : Ref sig .tc := ⟨.hbm, 605, rfl⟩
abbrev main_v403 : Ref sig .tc := ⟨.hbm, 606, rfl⟩
abbrev main_c_112 : Ref sig .tc := ⟨.hbm, 607, rfl⟩
abbrev main_v404 : Ref sig .tc := ⟨.hbm, 608, rfl⟩
abbrev main_v405 : Ref sig .tc := ⟨.hbm, 609, rfl⟩
abbrev main_v406 : Ref sig .tc := ⟨.hbm, 610, rfl⟩
abbrev main_v407 : Ref sig .tc := ⟨.hbm, 611, rfl⟩
abbrev main_v408 : Ref sig .tc := ⟨.hbm, 612, rfl⟩
abbrev main_v409 : Ref sig .tc := ⟨.hbm, 613, rfl⟩
abbrev main_v410 : Ref sig .tc := ⟨.hbm, 614, rfl⟩
abbrev main_cst_113 : Ref sig .tc := ⟨.hbm, 615, rfl⟩
abbrev main_v411 : Ref sig .tc := ⟨.hbm, 616, rfl⟩
abbrev main_v412 : Ref sig .tc := ⟨.hbm, 617, rfl⟩
abbrev main_v413 : Ref sig .tc := ⟨.hbm, 618, rfl⟩
abbrev main_v414 : Ref sig .tc := ⟨.hbm, 619, rfl⟩
abbrev main_v415 : Ref sig .tc := ⟨.hbm, 620, rfl⟩
abbrev main_v416 : Ref sig .tc := ⟨.hbm, 621, rfl⟩
abbrev main_v417 : Ref sig .tc := ⟨.hbm, 622, rfl⟩
abbrev main_cst_114 : Ref sig .tc := ⟨.hbm, 623, rfl⟩
abbrev main_v418 : Ref sig .tc := ⟨.hbm, 624, rfl⟩
abbrev main_v419 : Ref sig .tc := ⟨.hbm, 625, rfl⟩
abbrev main_v420 : Ref sig .tc := ⟨.hbm, 626, rfl⟩
abbrev main_v421 : Ref sig .tc := ⟨.hbm, 627, rfl⟩
abbrev main_cst_115 : Ref sig .tc := ⟨.hbm, 628, rfl⟩
abbrev main_v422 : Ref sig .tc := ⟨.hbm, 629, rfl⟩
abbrev main_v423 : Ref sig .tc := ⟨.hbm, 630, rfl⟩
abbrev main_v424 : Ref sig .tc := ⟨.hbm, 631, rfl⟩
abbrev main_v425 : Ref sig .tc := ⟨.hbm, 632, rfl⟩
abbrev main_v426 : Ref sig .tc := ⟨.hbm, 633, rfl⟩
abbrev main_v427 : Ref sig .tc := ⟨.hbm, 634, rfl⟩
abbrev main_v428 : Ref sig .tc := ⟨.hbm, 635, rfl⟩
abbrev main_v429 : Ref sig .tc := ⟨.hbm, 636, rfl⟩
abbrev main_v430 : Ref sig .tc := ⟨.hbm, 637, rfl⟩
abbrev main_v431 : Ref sig .tc := ⟨.hbm, 638, rfl⟩
abbrev main_v432 : Ref sig .tc := ⟨.hbm, 639, rfl⟩
abbrev main_v433 : Ref sig .tc := ⟨.hbm, 640, rfl⟩
abbrev main_v434 : Ref sig .tc := ⟨.hbm, 641, rfl⟩
abbrev main_cst_116 : Ref sig .tc := ⟨.hbm, 642, rfl⟩
abbrev main_cst_117 : Ref sig .tc := ⟨.hbm, 643, rfl⟩
abbrev main_call15_v0 : Ref sig .tc := ⟨.hbm, 644, rfl⟩
abbrev main_call15_v1 : Ref sig .tc := ⟨.hbm, 645, rfl⟩
abbrev main_call15_v2 : Ref sig .tc := ⟨.hbm, 646, rfl⟩
abbrev main_call15_v3 : Ref sig .tc := ⟨.hbm, 647, rfl⟩
abbrev main_call15_v4 : Ref sig .tc := ⟨.hbm, 648, rfl⟩
abbrev main_v435 : Ref sig .tc := ⟨.hbm, 649, rfl⟩
abbrev main_cst_118 : Ref sig .tc := ⟨.hbm, 650, rfl⟩
abbrev main_v436 : Ref sig .tc := ⟨.hbm, 651, rfl⟩
abbrev main_v437 : Ref sig .tc := ⟨.hbm, 652, rfl⟩
abbrev main_cst_119 : Ref sig .tc := ⟨.hbm, 653, rfl⟩
abbrev main_cst_120 : Ref sig .tc := ⟨.hbm, 654, rfl⟩
abbrev main_call16_v0 : Ref sig .tc := ⟨.hbm, 655, rfl⟩
abbrev main_call16_v1 : Ref sig .tc := ⟨.hbm, 656, rfl⟩
abbrev main_call16_v2 : Ref sig .tc := ⟨.hbm, 657, rfl⟩
abbrev main_call16_v3 : Ref sig .tc := ⟨.hbm, 658, rfl⟩
abbrev main_call16_v4 : Ref sig .tc := ⟨.hbm, 659, rfl⟩
abbrev main_v438 : Ref sig .tc := ⟨.hbm, 660, rfl⟩
abbrev main_cst_121 : Ref sig .tc := ⟨.hbm, 661, rfl⟩
abbrev main_v439 : Ref sig .tc := ⟨.hbm, 662, rfl⟩
abbrev main_v440 : Ref sig .tc := ⟨.hbm, 663, rfl⟩
abbrev main_v441 : Ref sig .tc := ⟨.hbm, 664, rfl⟩
abbrev main_c_122 : Ref sig .tc := ⟨.hbm, 665, rfl⟩
abbrev main_c_123 : Ref sig .tc := ⟨.hbm, 666, rfl⟩
abbrev main_call17_v0 : Ref sig .tc := ⟨.hbm, 667, rfl⟩
abbrev main_call17_v1 : Ref sig .tc := ⟨.hbm, 668, rfl⟩
abbrev main_call17_v2 : Ref sig .tc := ⟨.hbm, 669, rfl⟩
abbrev main_call17_v3 : Ref sig .tc := ⟨.hbm, 670, rfl⟩
abbrev main_call17_v4 : Ref sig .tc := ⟨.hbm, 671, rfl⟩
abbrev main_v442 : Ref sig .tc := ⟨.hbm, 672, rfl⟩
abbrev main_v443 : Ref sig .tc := ⟨.hbm, 673, rfl⟩
abbrev main_v444 : Ref sig .tc := ⟨.hbm, 674, rfl⟩
abbrev main_c_124 : Ref sig .tc := ⟨.hbm, 675, rfl⟩
abbrev main_c_125 : Ref sig .tc := ⟨.hbm, 676, rfl⟩
abbrev main_call18_v0 : Ref sig .tc := ⟨.hbm, 677, rfl⟩
abbrev main_call18_v1 : Ref sig .tc := ⟨.hbm, 678, rfl⟩
abbrev main_call18_v2 : Ref sig .tc := ⟨.hbm, 679, rfl⟩
abbrev main_call18_v3 : Ref sig .tc := ⟨.hbm, 680, rfl⟩
abbrev main_call18_v4 : Ref sig .tc := ⟨.hbm, 681, rfl⟩
abbrev main_v445 : Ref sig .tc := ⟨.hbm, 682, rfl⟩
abbrev main_v446 : Ref sig .tc := ⟨.hbm, 683, rfl⟩
abbrev main_v447 : Ref sig .tc := ⟨.hbm, 684, rfl⟩
abbrev main_v448 : Ref sig .tc := ⟨.hbm, 685, rfl⟩
abbrev main_v449 : Ref sig .tc := ⟨.hbm, 686, rfl⟩
abbrev main_v450 : Ref sig .tc := ⟨.hbm, 687, rfl⟩
abbrev main_v451 : Ref sig .tc := ⟨.hbm, 688, rfl⟩
abbrev main_v452 : Ref sig .tc := ⟨.hbm, 689, rfl⟩
abbrev main_c_126 : Ref sig .tc := ⟨.hbm, 690, rfl⟩
abbrev main_v453 : Ref sig .tc := ⟨.hbm, 691, rfl⟩
abbrev main_v454 : Ref sig .tc := ⟨.hbm, 692, rfl⟩
abbrev main_c_127 : Ref sig .tc := ⟨.hbm, 693, rfl⟩
abbrev main_v455 : Ref sig .tc := ⟨.hbm, 694, rfl⟩
abbrev main_v456 : Ref sig .tc := ⟨.hbm, 695, rfl⟩
abbrev main_v457 : Ref sig .tc := ⟨.hbm, 696, rfl⟩
abbrev main_c_128 : Ref sig .tc := ⟨.hbm, 697, rfl⟩
abbrev main_v458 : Ref sig .tc := ⟨.hbm, 698, rfl⟩
abbrev main_v459 : Ref sig .tc := ⟨.hbm, 699, rfl⟩
abbrev main_c_129 : Ref sig .tc := ⟨.hbm, 700, rfl⟩
abbrev main_v460 : Ref sig .tc := ⟨.hbm, 701, rfl⟩
abbrev main_v461 : Ref sig .tc := ⟨.hbm, 702, rfl⟩
abbrev main_v462 : Ref sig .tc := ⟨.hbm, 703, rfl⟩
abbrev main_v463 : Ref sig .tc := ⟨.hbm, 704, rfl⟩
abbrev main_v464 : Ref sig .tc := ⟨.hbm, 705, rfl⟩
abbrev main_v465 : Ref sig .tc := ⟨.hbm, 706, rfl⟩
abbrev main_v466 : Ref sig .tc := ⟨.hbm, 707, rfl⟩
abbrev main_c_130 : Ref sig .tc := ⟨.hbm, 708, rfl⟩
abbrev main_v467 : Ref sig .tc := ⟨.hbm, 709, rfl⟩
abbrev main_v468 : Ref sig .tc := ⟨.hbm, 710, rfl⟩
abbrev main_c_131 : Ref sig .tc := ⟨.hbm, 711, rfl⟩
abbrev main_v469 : Ref sig .tc := ⟨.hbm, 712, rfl⟩
abbrev main_v470 : Ref sig .tc := ⟨.hbm, 713, rfl⟩
abbrev main_c_132 : Ref sig .tc := ⟨.hbm, 714, rfl⟩
abbrev main_v471 : Ref sig .tc := ⟨.hbm, 715, rfl⟩
abbrev main_v472 : Ref sig .tc := ⟨.hbm, 716, rfl⟩
abbrev main_v473 : Ref sig .tc := ⟨.hbm, 717, rfl⟩
abbrev main_c_133 : Ref sig .tc := ⟨.hbm, 718, rfl⟩
abbrev main_v474 : Ref sig .tc := ⟨.hbm, 719, rfl⟩
abbrev main_v475 : Ref sig .tc := ⟨.hbm, 720, rfl⟩
abbrev main_c_134 : Ref sig .tc := ⟨.hbm, 721, rfl⟩
abbrev main_v476 : Ref sig .tc := ⟨.hbm, 722, rfl⟩
abbrev main_v477 : Ref sig .tc := ⟨.hbm, 723, rfl⟩
abbrev main_v478 : Ref sig .tc := ⟨.hbm, 724, rfl⟩
abbrev main_v479 : Ref sig .tc := ⟨.hbm, 725, rfl⟩
abbrev main_v480 : Ref sig .tc := ⟨.hbm, 726, rfl⟩
abbrev main_v481 : Ref sig .tc := ⟨.hbm, 727, rfl⟩
abbrev main_v482 : Ref sig .tc := ⟨.hbm, 728, rfl⟩
abbrev main_c_135 : Ref sig .tc := ⟨.hbm, 729, rfl⟩
abbrev main_v483 : Ref sig .tc := ⟨.hbm, 730, rfl⟩
abbrev main_v484 : Ref sig .tc := ⟨.hbm, 731, rfl⟩
abbrev main_c_136 : Ref sig .tc := ⟨.hbm, 732, rfl⟩
abbrev main_v485 : Ref sig .tc := ⟨.hbm, 733, rfl⟩
abbrev main_v486 : Ref sig .tc := ⟨.hbm, 734, rfl⟩
abbrev main_c_137 : Ref sig .tc := ⟨.hbm, 735, rfl⟩
abbrev main_v487 : Ref sig .tc := ⟨.hbm, 736, rfl⟩
abbrev main_v488 : Ref sig .tc := ⟨.hbm, 737, rfl⟩
abbrev main_v489 : Ref sig .tc := ⟨.hbm, 738, rfl⟩
abbrev main_c_138 : Ref sig .tc := ⟨.hbm, 739, rfl⟩
abbrev main_v490 : Ref sig .tc := ⟨.hbm, 740, rfl⟩
abbrev main_v491 : Ref sig .tc := ⟨.hbm, 741, rfl⟩
abbrev main_c_139 : Ref sig .tc := ⟨.hbm, 742, rfl⟩
abbrev main_v492 : Ref sig .tc := ⟨.hbm, 743, rfl⟩
abbrev main_v493 : Ref sig .tc := ⟨.hbm, 744, rfl⟩
abbrev main_v494 : Ref sig .tc := ⟨.hbm, 745, rfl⟩
abbrev main_v495 : Ref sig .tc := ⟨.hbm, 746, rfl⟩
abbrev main_v496 : Ref sig .tc := ⟨.hbm, 747, rfl⟩
abbrev main_v497 : Ref sig .tc := ⟨.hbm, 748, rfl⟩
abbrev main_v498 : Ref sig .tc := ⟨.hbm, 749, rfl⟩
abbrev main_c_140 : Ref sig .tc := ⟨.hbm, 750, rfl⟩
abbrev main_v499 : Ref sig .tc := ⟨.hbm, 751, rfl⟩
abbrev main_v500 : Ref sig .tc := ⟨.hbm, 752, rfl⟩
abbrev main_c_141 : Ref sig .tc := ⟨.hbm, 753, rfl⟩
abbrev main_v501 : Ref sig .tc := ⟨.hbm, 754, rfl⟩
abbrev main_v502 : Ref sig .tc := ⟨.hbm, 755, rfl⟩
abbrev main_c_142 : Ref sig .tc := ⟨.hbm, 756, rfl⟩
abbrev main_v503 : Ref sig .tc := ⟨.hbm, 757, rfl⟩
abbrev main_v504 : Ref sig .tc := ⟨.hbm, 758, rfl⟩
abbrev main_c_143 : Ref sig .tc := ⟨.hbm, 759, rfl⟩
abbrev main_v505 : Ref sig .tc := ⟨.hbm, 760, rfl⟩
abbrev main_v506 : Ref sig .tc := ⟨.hbm, 761, rfl⟩
abbrev main_v507 : Ref sig .tc := ⟨.hbm, 762, rfl⟩
abbrev main_c_144 : Ref sig .tc := ⟨.hbm, 763, rfl⟩
abbrev main_v508 : Ref sig .tc := ⟨.hbm, 764, rfl⟩
abbrev main_v509 : Ref sig .tc := ⟨.hbm, 765, rfl⟩
abbrev main_c_145 : Ref sig .tc := ⟨.hbm, 766, rfl⟩
abbrev main_v510 : Ref sig .tc := ⟨.hbm, 767, rfl⟩
abbrev main_v511 : Ref sig .tc := ⟨.hbm, 768, rfl⟩
abbrev main_v512 : Ref sig .tc := ⟨.hbm, 769, rfl⟩
abbrev main_v513 : Ref sig .tc := ⟨.hbm, 770, rfl⟩
abbrev main_v514 : Ref sig .tc := ⟨.hbm, 771, rfl⟩
abbrev main_v515 : Ref sig .tc := ⟨.hbm, 772, rfl⟩
abbrev main_v516 : Ref sig .tc := ⟨.hbm, 773, rfl⟩
abbrev main_cst_146 : Ref sig .tc := ⟨.hbm, 774, rfl⟩
abbrev main_v517 : Ref sig .tc := ⟨.hbm, 775, rfl⟩
abbrev main_v518 : Ref sig .tc := ⟨.hbm, 776, rfl⟩
abbrev main_v519 : Ref sig .tc := ⟨.hbm, 777, rfl⟩
abbrev main_v520 : Ref sig .tc := ⟨.hbm, 778, rfl⟩
abbrev main_v521 : Ref sig .tc := ⟨.hbm, 779, rfl⟩
abbrev main_v522 : Ref sig .tc := ⟨.hbm, 780, rfl⟩
abbrev main_v523 : Ref sig .tc := ⟨.hbm, 781, rfl⟩
abbrev main_cst_147 : Ref sig .tc := ⟨.hbm, 782, rfl⟩
abbrev main_v524 : Ref sig .tc := ⟨.hbm, 783, rfl⟩
abbrev main_v525 : Ref sig .tc := ⟨.hbm, 784, rfl⟩
abbrev main_v526 : Ref sig .tc := ⟨.hbm, 785, rfl⟩
abbrev main_v527 : Ref sig .tc := ⟨.hbm, 786, rfl⟩
abbrev main_cst_148 : Ref sig .tc := ⟨.hbm, 787, rfl⟩
abbrev main_v528 : Ref sig .tc := ⟨.hbm, 788, rfl⟩
abbrev main_v529 : Ref sig .tc := ⟨.hbm, 789, rfl⟩
abbrev main_v530 : Ref sig .tc := ⟨.hbm, 790, rfl⟩
abbrev main_v531 : Ref sig .tc := ⟨.hbm, 791, rfl⟩
abbrev main_v532 : Ref sig .tc := ⟨.hbm, 792, rfl⟩
abbrev main_v533 : Ref sig .tc := ⟨.hbm, 793, rfl⟩
abbrev main_v534 : Ref sig .tc := ⟨.hbm, 794, rfl⟩
abbrev main_v535 : Ref sig .tc := ⟨.hbm, 795, rfl⟩
abbrev main_v536 : Ref sig .tc := ⟨.hbm, 796, rfl⟩
abbrev main_v537 : Ref sig .tc := ⟨.hbm, 797, rfl⟩
abbrev main_v538 : Ref sig .tc := ⟨.hbm, 798, rfl⟩
abbrev main_v539 : Ref sig .tc := ⟨.hbm, 799, rfl⟩
abbrev main_cst_149 : Ref sig .tc := ⟨.hbm, 800, rfl⟩
abbrev main_cst_150 : Ref sig .tc := ⟨.hbm, 801, rfl⟩
abbrev main_call19_v0 : Ref sig .tc := ⟨.hbm, 802, rfl⟩
abbrev main_call19_v1 : Ref sig .tc := ⟨.hbm, 803, rfl⟩
abbrev main_call19_v2 : Ref sig .tc := ⟨.hbm, 804, rfl⟩
abbrev main_call19_v3 : Ref sig .tc := ⟨.hbm, 805, rfl⟩
abbrev main_call19_v4 : Ref sig .tc := ⟨.hbm, 806, rfl⟩
abbrev main_v540 : Ref sig .tc := ⟨.hbm, 807, rfl⟩
abbrev main_cst_151 : Ref sig .tc := ⟨.hbm, 808, rfl⟩
abbrev main_v541 : Ref sig .tc := ⟨.hbm, 809, rfl⟩
abbrev main_v542 : Ref sig .tc := ⟨.hbm, 810, rfl⟩
abbrev main_cst_152 : Ref sig .tc := ⟨.hbm, 811, rfl⟩
abbrev main_cst_153 : Ref sig .tc := ⟨.hbm, 812, rfl⟩
abbrev main_call20_v0 : Ref sig .tc := ⟨.hbm, 813, rfl⟩
abbrev main_call20_v1 : Ref sig .tc := ⟨.hbm, 814, rfl⟩
abbrev main_call20_v2 : Ref sig .tc := ⟨.hbm, 815, rfl⟩
abbrev main_call20_v3 : Ref sig .tc := ⟨.hbm, 816, rfl⟩
abbrev main_call20_v4 : Ref sig .tc := ⟨.hbm, 817, rfl⟩
abbrev main_v543 : Ref sig .tc := ⟨.hbm, 818, rfl⟩
abbrev main_cst_154 : Ref sig .tc := ⟨.hbm, 819, rfl⟩
abbrev main_v544 : Ref sig .tc := ⟨.hbm, 820, rfl⟩
abbrev main_v545 : Ref sig .tc := ⟨.hbm, 821, rfl⟩
abbrev main_v546 : Ref sig .tc := ⟨.hbm, 822, rfl⟩
abbrev main_c_155 : Ref sig .tc := ⟨.hbm, 823, rfl⟩
abbrev main_c_156 : Ref sig .tc := ⟨.hbm, 824, rfl⟩
abbrev main_call21_v0 : Ref sig .tc := ⟨.hbm, 825, rfl⟩
abbrev main_call21_v1 : Ref sig .tc := ⟨.hbm, 826, rfl⟩
abbrev main_call21_v2 : Ref sig .tc := ⟨.hbm, 827, rfl⟩
abbrev main_call21_v3 : Ref sig .tc := ⟨.hbm, 828, rfl⟩
abbrev main_call21_v4 : Ref sig .tc := ⟨.hbm, 829, rfl⟩
abbrev main_v547 : Ref sig .tc := ⟨.hbm, 830, rfl⟩
abbrev main_v548 : Ref sig .tc := ⟨.hbm, 831, rfl⟩
abbrev main_v549 : Ref sig .tc := ⟨.hbm, 832, rfl⟩
abbrev main_c_157 : Ref sig .tc := ⟨.hbm, 833, rfl⟩
abbrev main_c_158 : Ref sig .tc := ⟨.hbm, 834, rfl⟩
abbrev main_call22_v0 : Ref sig .tc := ⟨.hbm, 835, rfl⟩
abbrev main_call22_v1 : Ref sig .tc := ⟨.hbm, 836, rfl⟩
abbrev main_call22_v2 : Ref sig .tc := ⟨.hbm, 837, rfl⟩
abbrev main_call22_v3 : Ref sig .tc := ⟨.hbm, 838, rfl⟩
abbrev main_call22_v4 : Ref sig .tc := ⟨.hbm, 839, rfl⟩
abbrev main_v550 : Ref sig .tc := ⟨.hbm, 840, rfl⟩
abbrev main_v551 : Ref sig .tc := ⟨.hbm, 841, rfl⟩
abbrev main_v552 : Ref sig .tc := ⟨.hbm, 842, rfl⟩
abbrev main_v553 : Ref sig .tc := ⟨.hbm, 843, rfl⟩
abbrev main_v554 : Ref sig .tc := ⟨.hbm, 844, rfl⟩
abbrev main_v555 : Ref sig .tc := ⟨.hbm, 845, rfl⟩
abbrev main_v556 : Ref sig .tc := ⟨.hbm, 846, rfl⟩
abbrev main_v557 : Ref sig .tc := ⟨.hbm, 847, rfl⟩
abbrev main_c_159 : Ref sig .tc := ⟨.hbm, 848, rfl⟩
abbrev main_v558 : Ref sig .tc := ⟨.hbm, 849, rfl⟩
abbrev main_v559 : Ref sig .tc := ⟨.hbm, 850, rfl⟩
abbrev main_c_160 : Ref sig .tc := ⟨.hbm, 851, rfl⟩
abbrev main_v560 : Ref sig .tc := ⟨.hbm, 852, rfl⟩
abbrev main_v561 : Ref sig .tc := ⟨.hbm, 853, rfl⟩
abbrev main_v562 : Ref sig .tc := ⟨.hbm, 854, rfl⟩
abbrev main_c_161 : Ref sig .tc := ⟨.hbm, 855, rfl⟩
abbrev main_v563 : Ref sig .tc := ⟨.hbm, 856, rfl⟩
abbrev main_v564 : Ref sig .tc := ⟨.hbm, 857, rfl⟩
abbrev main_c_162 : Ref sig .tc := ⟨.hbm, 858, rfl⟩
abbrev main_v565 : Ref sig .tc := ⟨.hbm, 859, rfl⟩
abbrev main_v566 : Ref sig .tc := ⟨.hbm, 860, rfl⟩
abbrev main_v567 : Ref sig .tc := ⟨.hbm, 861, rfl⟩
abbrev main_v568 : Ref sig .tc := ⟨.hbm, 862, rfl⟩
abbrev main_v569 : Ref sig .tc := ⟨.hbm, 863, rfl⟩
abbrev main_v570 : Ref sig .tc := ⟨.hbm, 864, rfl⟩
abbrev main_v571 : Ref sig .tc := ⟨.hbm, 865, rfl⟩
abbrev main_c_163 : Ref sig .tc := ⟨.hbm, 866, rfl⟩
abbrev main_v572 : Ref sig .tc := ⟨.hbm, 867, rfl⟩
abbrev main_v573 : Ref sig .tc := ⟨.hbm, 868, rfl⟩
abbrev main_c_164 : Ref sig .tc := ⟨.hbm, 869, rfl⟩
abbrev main_v574 : Ref sig .tc := ⟨.hbm, 870, rfl⟩
abbrev main_v575 : Ref sig .tc := ⟨.hbm, 871, rfl⟩
abbrev main_c_165 : Ref sig .tc := ⟨.hbm, 872, rfl⟩
abbrev main_v576 : Ref sig .tc := ⟨.hbm, 873, rfl⟩
abbrev main_v577 : Ref sig .tc := ⟨.hbm, 874, rfl⟩
abbrev main_v578 : Ref sig .tc := ⟨.hbm, 875, rfl⟩
abbrev main_c_166 : Ref sig .tc := ⟨.hbm, 876, rfl⟩
abbrev main_v579 : Ref sig .tc := ⟨.hbm, 877, rfl⟩
abbrev main_v580 : Ref sig .tc := ⟨.hbm, 878, rfl⟩
abbrev main_c_167 : Ref sig .tc := ⟨.hbm, 879, rfl⟩
abbrev main_v581 : Ref sig .tc := ⟨.hbm, 880, rfl⟩
abbrev main_v582 : Ref sig .tc := ⟨.hbm, 881, rfl⟩
abbrev main_v583 : Ref sig .tc := ⟨.hbm, 882, rfl⟩
abbrev main_v584 : Ref sig .tc := ⟨.hbm, 883, rfl⟩
abbrev main_v585 : Ref sig .tc := ⟨.hbm, 884, rfl⟩
abbrev main_v586 : Ref sig .tc := ⟨.hbm, 885, rfl⟩
abbrev main_v587 : Ref sig .tc := ⟨.hbm, 886, rfl⟩
abbrev main_c_168 : Ref sig .tc := ⟨.hbm, 887, rfl⟩
abbrev main_v588 : Ref sig .tc := ⟨.hbm, 888, rfl⟩
abbrev main_v589 : Ref sig .tc := ⟨.hbm, 889, rfl⟩
abbrev main_c_169 : Ref sig .tc := ⟨.hbm, 890, rfl⟩
abbrev main_v590 : Ref sig .tc := ⟨.hbm, 891, rfl⟩
abbrev main_v591 : Ref sig .tc := ⟨.hbm, 892, rfl⟩
abbrev main_c_170 : Ref sig .tc := ⟨.hbm, 893, rfl⟩
abbrev main_v592 : Ref sig .tc := ⟨.hbm, 894, rfl⟩
abbrev main_v593 : Ref sig .tc := ⟨.hbm, 895, rfl⟩
abbrev main_v594 : Ref sig .tc := ⟨.hbm, 896, rfl⟩
abbrev main_c_171 : Ref sig .tc := ⟨.hbm, 897, rfl⟩
abbrev main_v595 : Ref sig .tc := ⟨.hbm, 898, rfl⟩
abbrev main_v596 : Ref sig .tc := ⟨.hbm, 899, rfl⟩
abbrev main_c_172 : Ref sig .tc := ⟨.hbm, 900, rfl⟩
abbrev main_v597 : Ref sig .tc := ⟨.hbm, 901, rfl⟩
abbrev main_v598 : Ref sig .tc := ⟨.hbm, 902, rfl⟩
abbrev main_v599 : Ref sig .tc := ⟨.hbm, 903, rfl⟩
abbrev main_v600 : Ref sig .tc := ⟨.hbm, 904, rfl⟩
abbrev main_v601 : Ref sig .tc := ⟨.hbm, 905, rfl⟩
abbrev main_v602 : Ref sig .tc := ⟨.hbm, 906, rfl⟩
abbrev main_v603 : Ref sig .tc := ⟨.hbm, 907, rfl⟩
abbrev main_c_173 : Ref sig .tc := ⟨.hbm, 908, rfl⟩
abbrev main_v604 : Ref sig .tc := ⟨.hbm, 909, rfl⟩
abbrev main_v605 : Ref sig .tc := ⟨.hbm, 910, rfl⟩
abbrev main_c_174 : Ref sig .tc := ⟨.hbm, 911, rfl⟩
abbrev main_v606 : Ref sig .tc := ⟨.hbm, 912, rfl⟩
abbrev main_v607 : Ref sig .tc := ⟨.hbm, 913, rfl⟩
abbrev main_c_175 : Ref sig .tc := ⟨.hbm, 914, rfl⟩
abbrev main_v608 : Ref sig .tc := ⟨.hbm, 915, rfl⟩
abbrev main_v609 : Ref sig .tc := ⟨.hbm, 916, rfl⟩
abbrev main_c_176 : Ref sig .tc := ⟨.hbm, 917, rfl⟩
abbrev main_v610 : Ref sig .tc := ⟨.hbm, 918, rfl⟩
abbrev main_v611 : Ref sig .tc := ⟨.hbm, 919, rfl⟩
abbrev main_v612 : Ref sig .tc := ⟨.hbm, 920, rfl⟩
abbrev main_c_177 : Ref sig .tc := ⟨.hbm, 921, rfl⟩
abbrev main_v613 : Ref sig .tc := ⟨.hbm, 922, rfl⟩
abbrev main_v614 : Ref sig .tc := ⟨.hbm, 923, rfl⟩
abbrev main_c_178 : Ref sig .tc := ⟨.hbm, 924, rfl⟩
abbrev main_v615 : Ref sig .tc := ⟨.hbm, 925, rfl⟩
abbrev main_v616 : Ref sig .tc := ⟨.hbm, 926, rfl⟩
abbrev main_v617 : Ref sig .tc := ⟨.hbm, 927, rfl⟩
abbrev main_v618 : Ref sig .tc := ⟨.hbm, 928, rfl⟩
abbrev main_v619 : Ref sig .tc := ⟨.hbm, 929, rfl⟩
abbrev main_v620 : Ref sig .tc := ⟨.hbm, 930, rfl⟩
abbrev main_v621 : Ref sig .tc := ⟨.hbm, 931, rfl⟩
abbrev main_cst_179 : Ref sig .tc := ⟨.hbm, 932, rfl⟩
abbrev main_v622 : Ref sig .tc := ⟨.hbm, 933, rfl⟩
abbrev main_v623 : Ref sig .tc := ⟨.hbm, 934, rfl⟩
abbrev main_v624 : Ref sig .tc := ⟨.hbm, 935, rfl⟩
abbrev main_v625 : Ref sig .tc := ⟨.hbm, 936, rfl⟩
abbrev main_v626 : Ref sig .tc := ⟨.hbm, 937, rfl⟩
abbrev main_v627 : Ref sig .tc := ⟨.hbm, 938, rfl⟩
abbrev main_v628 : Ref sig .tc := ⟨.hbm, 939, rfl⟩
abbrev main_cst_180 : Ref sig .tc := ⟨.hbm, 940, rfl⟩
abbrev main_v629 : Ref sig .tc := ⟨.hbm, 941, rfl⟩
abbrev main_v630 : Ref sig .tc := ⟨.hbm, 942, rfl⟩
abbrev main_v631 : Ref sig .tc := ⟨.hbm, 943, rfl⟩
abbrev main_v632 : Ref sig .tc := ⟨.hbm, 944, rfl⟩
abbrev main_cst_181 : Ref sig .tc := ⟨.hbm, 945, rfl⟩
abbrev main_v633 : Ref sig .tc := ⟨.hbm, 946, rfl⟩
abbrev main_v634 : Ref sig .tc := ⟨.hbm, 947, rfl⟩
abbrev main_v635 : Ref sig .tc := ⟨.hbm, 948, rfl⟩
abbrev main_v636 : Ref sig .tc := ⟨.hbm, 949, rfl⟩
abbrev main_v637 : Ref sig .tc := ⟨.hbm, 950, rfl⟩
abbrev main_v638 : Ref sig .tc := ⟨.hbm, 951, rfl⟩
abbrev main_v639 : Ref sig .tc := ⟨.hbm, 952, rfl⟩
abbrev main_v640 : Ref sig .tc := ⟨.hbm, 953, rfl⟩
abbrev main_v641 : Ref sig .tc := ⟨.hbm, 954, rfl⟩
abbrev main_v642 : Ref sig .tc := ⟨.hbm, 955, rfl⟩
abbrev main_v643 : Ref sig .tc := ⟨.hbm, 956, rfl⟩
abbrev main_v644 : Ref sig .tc := ⟨.hbm, 957, rfl⟩
abbrev main_v645 : Ref sig .tc := ⟨.hbm, 958, rfl⟩
abbrev main_cst_182 : Ref sig .tc := ⟨.hbm, 959, rfl⟩
abbrev main_cst_183 : Ref sig .tc := ⟨.hbm, 960, rfl⟩
abbrev main_call23_v0 : Ref sig .tc := ⟨.hbm, 961, rfl⟩
abbrev main_call23_v1 : Ref sig .tc := ⟨.hbm, 962, rfl⟩
abbrev main_call23_v2 : Ref sig .tc := ⟨.hbm, 963, rfl⟩
abbrev main_call23_v3 : Ref sig .tc := ⟨.hbm, 964, rfl⟩
abbrev main_call23_v4 : Ref sig .tc := ⟨.hbm, 965, rfl⟩
abbrev main_v646 : Ref sig .tc := ⟨.hbm, 966, rfl⟩
abbrev main_cst_184 : Ref sig .tc := ⟨.hbm, 967, rfl⟩
abbrev main_v647 : Ref sig .tc := ⟨.hbm, 968, rfl⟩
abbrev main_v648 : Ref sig .tc := ⟨.hbm, 969, rfl⟩
abbrev main_cst_185 : Ref sig .tc := ⟨.hbm, 970, rfl⟩
abbrev main_cst_186 : Ref sig .tc := ⟨.hbm, 971, rfl⟩
abbrev main_call24_v0 : Ref sig .tc := ⟨.hbm, 972, rfl⟩
abbrev main_call24_v1 : Ref sig .tc := ⟨.hbm, 973, rfl⟩
abbrev main_call24_v2 : Ref sig .tc := ⟨.hbm, 974, rfl⟩
abbrev main_call24_v3 : Ref sig .tc := ⟨.hbm, 975, rfl⟩
abbrev main_call24_v4 : Ref sig .tc := ⟨.hbm, 976, rfl⟩
abbrev main_v649 : Ref sig .tc := ⟨.hbm, 977, rfl⟩
abbrev main_cst_187 : Ref sig .tc := ⟨.hbm, 978, rfl⟩
abbrev main_v650 : Ref sig .tc := ⟨.hbm, 979, rfl⟩
abbrev main_v651 : Ref sig .tc := ⟨.hbm, 980, rfl⟩
abbrev main_v652 : Ref sig .tc := ⟨.hbm, 981, rfl⟩
abbrev main_c_188 : Ref sig .tc := ⟨.hbm, 982, rfl⟩
abbrev main_c_189 : Ref sig .tc := ⟨.hbm, 983, rfl⟩
abbrev main_call25_v0 : Ref sig .tc := ⟨.hbm, 984, rfl⟩
abbrev main_call25_v1 : Ref sig .tc := ⟨.hbm, 985, rfl⟩
abbrev main_call25_v2 : Ref sig .tc := ⟨.hbm, 986, rfl⟩
abbrev main_call25_v3 : Ref sig .tc := ⟨.hbm, 987, rfl⟩
abbrev main_call25_v4 : Ref sig .tc := ⟨.hbm, 988, rfl⟩
abbrev main_v653 : Ref sig .tc := ⟨.hbm, 989, rfl⟩
abbrev main_v654 : Ref sig .tc := ⟨.hbm, 990, rfl⟩
abbrev main_v655 : Ref sig .tc := ⟨.hbm, 991, rfl⟩
abbrev main_c_190 : Ref sig .tc := ⟨.hbm, 992, rfl⟩
abbrev main_c_191 : Ref sig .tc := ⟨.hbm, 993, rfl⟩
abbrev main_call26_v0 : Ref sig .tc := ⟨.hbm, 994, rfl⟩
abbrev main_call26_v1 : Ref sig .tc := ⟨.hbm, 995, rfl⟩
abbrev main_call26_v2 : Ref sig .tc := ⟨.hbm, 996, rfl⟩
abbrev main_call26_v3 : Ref sig .tc := ⟨.hbm, 997, rfl⟩
abbrev main_call26_v4 : Ref sig .tc := ⟨.hbm, 998, rfl⟩
abbrev main_v656 : Ref sig .tc := ⟨.hbm, 999, rfl⟩
abbrev main_v657 : Ref sig .tc := ⟨.hbm, 1000, rfl⟩
abbrev main_v658 : Ref sig .tc := ⟨.hbm, 1001, rfl⟩
abbrev main_v659 : Ref sig .tc := ⟨.hbm, 1002, rfl⟩
abbrev main_v660 : Ref sig .tc := ⟨.hbm, 1003, rfl⟩
abbrev main_v661 : Ref sig .tc := ⟨.hbm, 1004, rfl⟩
abbrev main_v662 : Ref sig .tc := ⟨.hbm, 1005, rfl⟩
abbrev main_v663 : Ref sig .tc := ⟨.hbm, 1006, rfl⟩
abbrev main_c_192 : Ref sig .tc := ⟨.hbm, 1007, rfl⟩
abbrev main_v664 : Ref sig .tc := ⟨.hbm, 1008, rfl⟩
abbrev main_v665 : Ref sig .tc := ⟨.hbm, 1009, rfl⟩
abbrev main_c_193 : Ref sig .tc := ⟨.hbm, 1010, rfl⟩
abbrev main_v666 : Ref sig .tc := ⟨.hbm, 1011, rfl⟩
abbrev main_v667 : Ref sig .tc := ⟨.hbm, 1012, rfl⟩
abbrev main_v668 : Ref sig .tc := ⟨.hbm, 1013, rfl⟩
abbrev main_c_194 : Ref sig .tc := ⟨.hbm, 1014, rfl⟩
abbrev main_v669 : Ref sig .tc := ⟨.hbm, 1015, rfl⟩
abbrev main_v670 : Ref sig .tc := ⟨.hbm, 1016, rfl⟩
abbrev main_c_195 : Ref sig .tc := ⟨.hbm, 1017, rfl⟩
abbrev main_v671 : Ref sig .tc := ⟨.hbm, 1018, rfl⟩
abbrev main_v672 : Ref sig .tc := ⟨.hbm, 1019, rfl⟩
abbrev main_v673 : Ref sig .tc := ⟨.hbm, 1020, rfl⟩
abbrev main_v674 : Ref sig .tc := ⟨.hbm, 1021, rfl⟩
abbrev main_v675 : Ref sig .tc := ⟨.hbm, 1022, rfl⟩
abbrev main_v676 : Ref sig .tc := ⟨.hbm, 1023, rfl⟩
abbrev main_v677 : Ref sig .tc := ⟨.hbm, 1024, rfl⟩
abbrev main_c_196 : Ref sig .tc := ⟨.hbm, 1025, rfl⟩
abbrev main_v678 : Ref sig .tc := ⟨.hbm, 1026, rfl⟩
abbrev main_v679 : Ref sig .tc := ⟨.hbm, 1027, rfl⟩
abbrev main_c_197 : Ref sig .tc := ⟨.hbm, 1028, rfl⟩
abbrev main_v680 : Ref sig .tc := ⟨.hbm, 1029, rfl⟩
abbrev main_v681 : Ref sig .tc := ⟨.hbm, 1030, rfl⟩
abbrev main_c_198 : Ref sig .tc := ⟨.hbm, 1031, rfl⟩
abbrev main_v682 : Ref sig .tc := ⟨.hbm, 1032, rfl⟩
abbrev main_v683 : Ref sig .tc := ⟨.hbm, 1033, rfl⟩
abbrev main_v684 : Ref sig .tc := ⟨.hbm, 1034, rfl⟩
abbrev main_c_199 : Ref sig .tc := ⟨.hbm, 1035, rfl⟩
abbrev main_v685 : Ref sig .tc := ⟨.hbm, 1036, rfl⟩
abbrev main_v686 : Ref sig .tc := ⟨.hbm, 1037, rfl⟩
abbrev main_c_200 : Ref sig .tc := ⟨.hbm, 1038, rfl⟩
abbrev main_v687 : Ref sig .tc := ⟨.hbm, 1039, rfl⟩
abbrev main_v688 : Ref sig .tc := ⟨.hbm, 1040, rfl⟩
abbrev main_v689 : Ref sig .tc := ⟨.hbm, 1041, rfl⟩
abbrev main_v690 : Ref sig .tc := ⟨.hbm, 1042, rfl⟩
abbrev main_v691 : Ref sig .tc := ⟨.hbm, 1043, rfl⟩
abbrev main_v692 : Ref sig .tc := ⟨.hbm, 1044, rfl⟩
abbrev main_v693 : Ref sig .tc := ⟨.hbm, 1045, rfl⟩
abbrev main_c_201 : Ref sig .tc := ⟨.hbm, 1046, rfl⟩
abbrev main_v694 : Ref sig .tc := ⟨.hbm, 1047, rfl⟩
abbrev main_v695 : Ref sig .tc := ⟨.hbm, 1048, rfl⟩
abbrev main_c_202 : Ref sig .tc := ⟨.hbm, 1049, rfl⟩
abbrev main_v696 : Ref sig .tc := ⟨.hbm, 1050, rfl⟩
abbrev main_v697 : Ref sig .tc := ⟨.hbm, 1051, rfl⟩
abbrev main_c_203 : Ref sig .tc := ⟨.hbm, 1052, rfl⟩
abbrev main_v698 : Ref sig .tc := ⟨.hbm, 1053, rfl⟩
abbrev main_v699 : Ref sig .tc := ⟨.hbm, 1054, rfl⟩
abbrev main_v700 : Ref sig .tc := ⟨.hbm, 1055, rfl⟩
abbrev main_c_204 : Ref sig .tc := ⟨.hbm, 1056, rfl⟩
abbrev main_v701 : Ref sig .tc := ⟨.hbm, 1057, rfl⟩
abbrev main_v702 : Ref sig .tc := ⟨.hbm, 1058, rfl⟩
abbrev main_c_205 : Ref sig .tc := ⟨.hbm, 1059, rfl⟩
abbrev main_v703 : Ref sig .tc := ⟨.hbm, 1060, rfl⟩
abbrev main_v704 : Ref sig .tc := ⟨.hbm, 1061, rfl⟩
abbrev main_v705 : Ref sig .tc := ⟨.hbm, 1062, rfl⟩
abbrev main_v706 : Ref sig .tc := ⟨.hbm, 1063, rfl⟩
abbrev main_v707 : Ref sig .tc := ⟨.hbm, 1064, rfl⟩
abbrev main_v708 : Ref sig .tc := ⟨.hbm, 1065, rfl⟩
abbrev main_v709 : Ref sig .tc := ⟨.hbm, 1066, rfl⟩
abbrev main_c_206 : Ref sig .tc := ⟨.hbm, 1067, rfl⟩
abbrev main_v710 : Ref sig .tc := ⟨.hbm, 1068, rfl⟩
abbrev main_v711 : Ref sig .tc := ⟨.hbm, 1069, rfl⟩
abbrev main_c_207 : Ref sig .tc := ⟨.hbm, 1070, rfl⟩
abbrev main_v712 : Ref sig .tc := ⟨.hbm, 1071, rfl⟩
abbrev main_v713 : Ref sig .tc := ⟨.hbm, 1072, rfl⟩
abbrev main_c_208 : Ref sig .tc := ⟨.hbm, 1073, rfl⟩
abbrev main_v714 : Ref sig .tc := ⟨.hbm, 1074, rfl⟩
abbrev main_v715 : Ref sig .tc := ⟨.hbm, 1075, rfl⟩
abbrev main_c_209 : Ref sig .tc := ⟨.hbm, 1076, rfl⟩
abbrev main_v716 : Ref sig .tc := ⟨.hbm, 1077, rfl⟩
abbrev main_v717 : Ref sig .tc := ⟨.hbm, 1078, rfl⟩
abbrev main_v718 : Ref sig .tc := ⟨.hbm, 1079, rfl⟩
abbrev main_c_210 : Ref sig .tc := ⟨.hbm, 1080, rfl⟩
abbrev main_v719 : Ref sig .tc := ⟨.hbm, 1081, rfl⟩
abbrev main_v720 : Ref sig .tc := ⟨.hbm, 1082, rfl⟩
abbrev main_c_211 : Ref sig .tc := ⟨.hbm, 1083, rfl⟩
abbrev main_v721 : Ref sig .tc := ⟨.hbm, 1084, rfl⟩
abbrev main_v722 : Ref sig .tc := ⟨.hbm, 1085, rfl⟩
abbrev main_v723 : Ref sig .tc := ⟨.hbm, 1086, rfl⟩
abbrev main_v724 : Ref sig .tc := ⟨.hbm, 1087, rfl⟩
abbrev main_v725 : Ref sig .tc := ⟨.hbm, 1088, rfl⟩
abbrev main_v726 : Ref sig .tc := ⟨.hbm, 1089, rfl⟩
abbrev main_v727 : Ref sig .tc := ⟨.hbm, 1090, rfl⟩
abbrev main_cst_212 : Ref sig .tc := ⟨.hbm, 1091, rfl⟩
abbrev main_v728 : Ref sig .tc := ⟨.hbm, 1092, rfl⟩
abbrev main_v729 : Ref sig .tc := ⟨.hbm, 1093, rfl⟩
abbrev main_v730 : Ref sig .tc := ⟨.hbm, 1094, rfl⟩
abbrev main_v731 : Ref sig .tc := ⟨.hbm, 1095, rfl⟩
abbrev main_v732 : Ref sig .tc := ⟨.hbm, 1096, rfl⟩
abbrev main_v733 : Ref sig .tc := ⟨.hbm, 1097, rfl⟩
abbrev main_v734 : Ref sig .tc := ⟨.hbm, 1098, rfl⟩
abbrev main_cst_213 : Ref sig .tc := ⟨.hbm, 1099, rfl⟩
abbrev main_v735 : Ref sig .tc := ⟨.hbm, 1100, rfl⟩
abbrev main_v736 : Ref sig .tc := ⟨.hbm, 1101, rfl⟩
abbrev main_v737 : Ref sig .tc := ⟨.hbm, 1102, rfl⟩
abbrev main_v738 : Ref sig .tc := ⟨.hbm, 1103, rfl⟩
abbrev main_cst_214 : Ref sig .tc := ⟨.hbm, 1104, rfl⟩
abbrev main_v739 : Ref sig .tc := ⟨.hbm, 1105, rfl⟩
abbrev main_v740 : Ref sig .tc := ⟨.hbm, 1106, rfl⟩
abbrev main_v741 : Ref sig .tc := ⟨.hbm, 1107, rfl⟩
abbrev main_v742 : Ref sig .tc := ⟨.hbm, 1108, rfl⟩
abbrev main_v743 : Ref sig .tc := ⟨.hbm, 1109, rfl⟩
abbrev main_v744 : Ref sig .tc := ⟨.hbm, 1110, rfl⟩
abbrev main_v745 : Ref sig .tc := ⟨.hbm, 1111, rfl⟩
abbrev main_v746 : Ref sig .tc := ⟨.hbm, 1112, rfl⟩
abbrev main_v747 : Ref sig .tc := ⟨.hbm, 1113, rfl⟩
abbrev main_v748 : Ref sig .tc := ⟨.hbm, 1114, rfl⟩
abbrev main_v749 : Ref sig .tc := ⟨.hbm, 1115, rfl⟩
abbrev main_v750 : Ref sig .tc := ⟨.hbm, 1116, rfl⟩
abbrev main_v751 : Ref sig .tc := ⟨.hbm, 1117, rfl⟩
abbrev main_v752 : Ref sig .tc := ⟨.hbm, 1118, rfl⟩
abbrev main_v753 : Ref sig .tc := ⟨.hbm, 1119, rfl⟩
abbrev main_v754 : Ref sig .tc := ⟨.hbm, 1120, rfl⟩
abbrev main_call27_cst : Ref sig .tc := ⟨.hbm, 1121, rfl⟩
abbrev main_call27_v0 : Ref sig .tc := ⟨.hbm, 1122, rfl⟩
abbrev main_v755 : Ref sig .tc := ⟨.hbm, 1123, rfl⟩
abbrev main_v756 : Ref sig .tc := ⟨.hbm, 1124, rfl⟩
abbrev main_v757 : Ref sig .tc := ⟨.hbm, 1125, rfl⟩
abbrev main_v758 : Ref sig .tc := ⟨.hbm, 1126, rfl⟩
abbrev main_v759 : Ref sig .tc := ⟨.hbm, 1127, rfl⟩
abbrev main_call28_cst : Ref sig .tc := ⟨.hbm, 1128, rfl⟩
abbrev main_call28_v0 : Ref sig .tc := ⟨.hbm, 1129, rfl⟩
abbrev main_v760 : Ref sig .tc := ⟨.hbm, 1130, rfl⟩
abbrev main_v761 : Ref sig .tc := ⟨.hbm, 1131, rfl⟩
abbrev main_v762 : Ref sig .tc := ⟨.hbm, 1132, rfl⟩
abbrev main_v763 : Ref sig .tc := ⟨.hbm, 1133, rfl⟩
abbrev main_v764 : Ref sig .tc := ⟨.hbm, 1134, rfl⟩
abbrev main_v765 : Ref sig .tc := ⟨.hbm, 1135, rfl⟩
abbrev main_v766 : Ref sig .tc := ⟨.hbm, 1136, rfl⟩
abbrev main_v767 : Ref sig .tc := ⟨.hbm, 1137, rfl⟩

abbrev nD : Nat := 1
abbrev τ : Topo := Topo.v7x

variable {F : FTy → Type} [FloatOps F]

class Facts₀ : Prop where
  reducesTo_S500000x4_S500000_d1 : S500000x4.ReducesTo [1] S500000
  h_S_ : 0 < S_.numel
  bcast_S500000_S500000x1_0 : S500000.BroadcastsInDim S500000x1 (![0] : Fin 1 → Fin S500000x1.rank)
  bcast_S500000x1_S500000x4_0_1 : S500000x1.BroadcastsInDim S500000x4 (![0, 1] : Fin 2 → Fin S500000x4.rank)
  slices_S500000x4_S500000x1_0_0 : S500000x4.Slices ![0, 0] S500000x1
  shapeCasts_S500000x1_S500000 : S500000x1.ShapeCasts S500000
  slices_S500000x4_S500000x1_0_1 : S500000x4.Slices ![0, 1] S500000x1
  slices_S500000x4_S500000x1_0_2 : S500000x4.Slices ![0, 2] S500000x1
  slices_S500000x4_S500000x1_0_3 : S500000x4.Slices ![0, 3] S500000x1
  bcast_S_S500000 : S_.BroadcastsInDim S500000 (![] : Fin 0 → Fin S500000.rank)
  concatenates_S500000x1_S500000x1_S500000x1_S500000x3_d1 : Shape.Concatenates [S500000x1, S500000x1, S500000x1] S500000x3 1
  bcast_S500000x3_S500000x1x3_0_2 : S500000x3.BroadcastsInDim S500000x1x3 (![0, 2] : Fin 2 → Fin S500000x1x3.rank)
  concatenates_S500000x1x3_S500000x1x3_S500000x1x3_S500000x3x3_d1 : Shape.Concatenates [S500000x1x3, S500000x1x3, S500000x1x3] S500000x3x3 1
  bcast_S500000x1x3_S500000x3x3_0_1_2 : S500000x1x3.BroadcastsInDim S500000x3x3 (![0, 1, 2] : Fin 3 → Fin S500000x3x3.rank)
  slices_S500000x3x3_S500000x1x1_0_0_0 : S500000x3x3.Slices ![0, 0, 0] S500000x1x1
  shapeCasts_S500000x1x1_S500000 : S500000x1x1.ShapeCasts S500000
  slices_S500000x3x3_S500000x1x1_0_0_1 : S500000x3x3.Slices ![0, 0, 1] S500000x1x1
  slices_S500000x3x3_S500000x1x1_0_0_2 : S500000x3x3.Slices ![0, 0, 2] S500000x1x1
  slices_S500000x3x3_S500000x1x1_0_1_1 : S500000x3x3.Slices ![0, 1, 1] S500000x1x1
  slices_S500000x3x3_S500000x1x1_0_1_2 : S500000x3x3.Slices ![0, 1, 2] S500000x1x1
  slices_S500000x3x3_S500000x1x1_0_2_2 : S500000x3x3.Slices ![0, 2, 2] S500000x1x1
  concatenates_S500000x1_S500000x1_S500000x1_S500000x1_S500000x1_S500000x1_S500000x6_d1 : Shape.Concatenates [S500000x1, S500000x1, S500000x1, S500000x1, S500000x1, S500000x1] S500000x6 1
  bcast_S_S500000x3 : S_.BroadcastsInDim S500000x3 (![] : Fin 0 → Fin S500000x3.rank)
  slices_S500000x3_S500000x1_0_0 : S500000x3.Slices ![0, 0] S500000x1
  slices_S500000x3_S500000x1_0_1 : S500000x3.Slices ![0, 1] S500000x1
  slices_S500000x3_S500000x1_0_2 : S500000x3.Slices ![0, 2] S500000x1
  slices_S3x128x128x32_S1x128x128x32_0_0_0_0 : S3x128x128x32.Slices ![0, 0, 0, 0] S1x128x128x32
  shapeCasts_S1x128x128x32_S128x128x32 : S1x128x128x32.ShapeCasts S128x128x32
  concatenates_S500000x1_S500000x1_S500000x2_d1 : Shape.Concatenates [S500000x1, S500000x1] S500000x2 1
  bcast_S_S500000x1 : S_.BroadcastsInDim S500000x1 (![] : Fin 0 → Fin S500000x1.rank)
  bcast_S500000x1_S500000x32_0_1 : S500000x1.BroadcastsInDim S500000x32 (![0, 1] : Fin 2 → Fin S500000x32.rank)
  slices_S3x128x128x32_S1x128x128x32_1_0_0_0 : S3x128x128x32.Slices ![1, 0, 0, 0] S1x128x128x32
  slices_S3x128x128x32_S1x128x128x32_2_0_0_0 : S3x128x128x32.Slices ![2, 0, 0, 0] S1x128x128x32
  bcast_S256_S1x256_1 : S256.BroadcastsInDim S1x256 (![1] : Fin 1 → Fin S1x256.rank)
  bcast_S1x256_S500000x256_0_1 : S1x256.BroadcastsInDim S500000x256 (![0, 1] : Fin 2 → Fin S500000x256.rank)
  bcast_S_S500000x256 : S_.BroadcastsInDim S500000x256 (![] : Fin 0 → Fin S500000x256.rank)
  bcast_S48_S1x48_1 : S48.BroadcastsInDim S1x48 (![1] : Fin 1 → Fin S1x48.rank)
  bcast_S1x48_S500000x48_0_1 : S1x48.BroadcastsInDim S500000x48 (![0, 1] : Fin 2 → Fin S500000x48.rank)
  shapeCasts_S500000x48_S500000x16x3 : S500000x48.ShapeCasts S500000x16x3
  slices_S500000x2_S500000x1_0_0 : S500000x2.Slices ![0, 0] S500000x1
  dot_S500000x3x3_S500000x3x3_S500000x3x3_2_2_1_1_0_0_wf : DotDims.WF S500000x3x3 S500000x3x3 S500000x3x3 [2] [2] [1] [1] [0] [0]
  gather_S128x128x32_S500000x2_S500000x32_1_01_n_n_01_1_1132_wf : GatherDims.WF S128x128x32 S500000x2 S500000x32 [1] [0, 1] [] [0, 1] [] 1 ![1, 1, 32]
  dot_S500000x32_S32x256_S500000x256_1_0_0_1_n_n_wf : DotDims.WF S500000x32 S32x256 S500000x256 [1] [0] [0] [1] [] []
  dot_S500000x256_S256x256_S500000x256_1_0_0_1_n_n_wf : DotDims.WF S500000x256 S256x256 S500000x256 [1] [0] [0] [1] [] []
  dot_S500000x256_S256x48_S500000x48_1_0_0_1_n_n_wf : DotDims.WF S500000x256 S256x48 S500000x48 [1] [0] [0] [1] [] []

variable [Facts₀]

def dot_S500000x3x3_S500000x3x3_S500000x3x3_2_2_1_1_0_0 : DotDims S500000x3x3 S500000x3x3 S500000x3x3 where
  lhsContracting := [2]
  rhsContracting := [2]
  lhsNonContracting := [1]
  rhsNonContracting := [1]
  lhsBatch := [0]
  rhsBatch := [0]
  wf := dot_S500000x3x3_S500000x3x3_S500000x3x3_2_2_1_1_0_0_wf
def gather_S128x128x32_S500000x2_S500000x32_1_01_n_n_01_1_1132 : GatherDims S128x128x32 S500000x2 S500000x32 where
  offsetDims := [1]
  collapsedSliceDims := [0, 1]
  operandBatchingDims := []
  startIndicesBatchingDims := []
  startIndexMap := [0, 1]
  indexVectorDim := 1
  sliceSizes := ![1, 1, 32]
  wf := gather_S128x128x32_S500000x2_S500000x32_1_01_n_n_01_1_1132_wf
def dot_S500000x32_S32x256_S500000x256_1_0_0_1_n_n : DotDims S500000x32 S32x256 S500000x256 where
  lhsContracting := [1]
  rhsContracting := [0]
  lhsNonContracting := [0]
  rhsNonContracting := [1]
  lhsBatch := []
  rhsBatch := []
  wf := dot_S500000x32_S32x256_S500000x256_1_0_0_1_n_n_wf
def dot_S500000x256_S256x256_S500000x256_1_0_0_1_n_n : DotDims S500000x256 S256x256 S500000x256 where
  lhsContracting := [1]
  rhsContracting := [0]
  lhsNonContracting := [0]
  rhsNonContracting := [1]
  lhsBatch := []
  rhsBatch := []
  wf := dot_S500000x256_S256x256_S500000x256_1_0_0_1_n_n_wf
def dot_S500000x256_S256x48_S500000x48_1_0_0_1_n_n : DotDims S500000x256 S256x48 S500000x48 where
  lhsContracting := [1]
  rhsContracting := [0]
  lhsNonContracting := [0]
  rhsNonContracting := [1]
  lhsBatch := []
  rhsBatch := []
  wf := dot_S500000x256_S256x48_S500000x48_1_0_0_1_n_n_wf

class Facts : Prop extends Facts₀ where

variable [Facts]
-- ==== Proof.FrHostAK.lean ====
/-
  The kernel's program around its region: the contents the region reads (the launch contents after the host operations
  before it, stretch by stretch), and the program as those stretches, the region and the two operations after it, which
  write none of the region's arrays.
-/
import proofs.«414985_j5068061409687_4_alg».proof.Proof.Gen.Kernel.Launch
import proofs.«414985_j5068061409687_4_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The host operations before the region, stretch by stretch. -/
abbrev prefixOps : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52]

/-- The contents the region reads: the launch contents after those operations. -/
abbrev V0 (c : Dev nD) : Valuation τ sig (Elt F) := StableHlo.after (List.flatten prefixOps) (fun b => m (c, b))

abbrev V (c : Dev nD) (b : Ref sig .tc) : Buf (Elt F) ((c : Thread nD τ).loc b) := V0 m c (Proc.devRef .tc b)

/-- No operation of a stretch leaves a result's contents undetermined. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps0_21_fresh : (hostOps0_21 : List (HloOp τ sig (Elt F))).Forall fun op => op.fresh = ∅ := by
  simp only [List.Forall]; repeat' constructor
theorem hostOps0_22_fresh : (hostOps0_22 : List (HloOp τ sig (Elt F))).Forall fun op => op.fresh = ∅ := by
  simp only [List.Forall]; repeat' constructor
theorem hostOps0_23_fresh : (hostOps0_23 : List (HloOp τ sig (Elt F))).Forall fun op => op.fresh = ∅ := by
  simp only [List.Forall]; repeat' constructor
theorem hostOps0_24_fresh : (hostOps0_24 : List (HloOp τ sig (Elt F))).Forall fun op => op.fresh = ∅ := by
  simp only [List.Forall]; repeat' constructor
theorem hostOps0_25_fresh : (hostOps0_25 : List (HloOp τ sig (Elt F))).Forall fun op => op.fresh = ∅ := by
  simp only [List.Forall]; repeat' constructor
theorem hostOps0_26_fresh : (hostOps0_26 : List (HloOp τ sig (Elt F))).Forall fun op => op.fresh = ∅ := by
  simp only [List.Forall]; repeat' constructor
theorem hostOps0_27_fresh : (hostOps0_27 : List (HloOp τ sig (Elt F))).Forall fun op => op.fresh = ∅ := by
  simp only [List.Forall]; repeat' constructor
theorem hostOps0_28_fresh : (hostOps0_28 : List (HloOp τ sig (Elt F))).Forall fun op => op.fresh = ∅ := by
  simp only [List.Forall]; repeat' constructor
theorem hostOps0_29_fresh : (hostOps0_29 : List (HloOp τ sig (Elt F))).Forall fun op => op.fresh = ∅ := by
  simp only [List.Forall]; repeat' constructor
theorem hostOps0_30_fresh : (hostOps0_30 : List (HloOp τ sig (Elt F))).Forall fun op => op.fresh = ∅ := by
  simp only [List.Forall]; repeat' constructor
theorem hostOps0_31_fresh : (hostOps0_31 : List (HloOp τ sig (Elt F))).Forall fun op => op.fresh = ∅ := by
  simp only [List.Forall]; repeat' constructor
theorem hostOps0_32_fresh : (hostOps0_32 : List (HloOp τ sig (Elt F))).Forall fun op => op.fresh = ∅ := by
  simp only [List.Forall]; repeat' constructor
theorem hostOps0_33_fresh : (hostOps0_33 : List (HloOp τ sig (Elt F))).Forall fun op => op.fresh = ∅ := by
  simp only [List.Forall]; repeat' constructor
theorem hostOps0_34_fresh : (hostOps0_34 : List (HloOp τ sig (Elt F))).Forall fun op => op.fresh = ∅ := by
  simp only [List.Forall]; repeat' constructor
theorem hostOps0_35_fresh : (hostOps0_35 : List (HloOp τ sig (Elt F))).Forall fun op => op.fresh = ∅ := by
  simp only [List.Forall]; repeat' constructor
theorem hostOps0_36_fresh : (hostOps0_36 : List (HloOp τ sig (Elt F))).Forall fun op => op.fresh = ∅ := by
  simp only [List.Forall]; repeat' constructor
theorem hostOps0_37_fresh : (hostOps0_37 : List (HloOp τ sig (Elt F))).Forall fun op => op.fresh = ∅ := by
  simp only [List.Forall]; repeat' constructor
theorem hostOps0_38_fresh : (hostOps0_38 : List (HloOp τ sig (Elt F))).Forall fun op => op.fresh = ∅ := by
  simp only [List.Forall]; repeat' constructor
theorem hostOps0_39_fresh : (hostOps0_39 : List (HloOp τ sig (Elt F))).Forall fun op => op.fresh = ∅ := by
  simp only [List.Forall]; repeat' constructor
theorem hostOps0_40_fresh : (hostOps0_40 : List (HloOp τ sig (Elt F))).Forall fun op => op.fresh = ∅ := by
  simp only [List.Forall]; repeat' constructor
theorem hostOps0_41_fresh : (hostOps0_41 : List (HloOp τ sig (Elt F))).Forall fun op => op.fresh = ∅ := by
  simp only [List.Forall]; repeat' constructor
theorem hostOps0_42_fresh : (hostOps0_42 : List (HloOp τ sig (Elt F))).Forall fun op => op.fresh = ∅ := by
  simp only [List.Forall]; repeat' constructor
theorem hostOps0_43_fresh : (hostOps0_43 : List (HloOp τ sig (Elt F))).Forall fun op => op.fresh = ∅ := by
  simp only [List.Forall]; repeat' constructor
theorem hostOps0_44_fresh : (hostOps0_44 : List (HloOp τ sig (Elt F))).Forall fun op => op.fresh = ∅ := by
  simp only [List.Forall]; repeat' constructor
theorem hostOps0_45_fresh : (hostOps0_45 : List (HloOp τ sig (Elt F))).Forall fun op => op.fresh = ∅ := by
  simp only [List.Forall]; repeat' constructor
theorem hostOps0_46_fresh : (hostOps0_46 : List (HloOp τ sig (Elt F))).Forall fun op => op.fresh = ∅ := by
  simp only [List.Forall]; repeat' constructor
theorem hostOps0_47_fresh : (hostOps0_47 : List (HloOp τ sig (Elt F))).Forall fun op => op.fresh = ∅ := by
  simp only [List.Forall]; repeat' constructor
theorem hostOps0_48_fresh : (hostOps0_48 : List (HloOp τ sig (Elt F))).Forall fun op => op.fresh = ∅ := by
  simp only [List.Forall]; repeat' constructor
theorem hostOps0_49_fresh : (hostOps0_49 : List (HloOp τ sig (Elt F))).Forall fun op => op.fresh = ∅ := by
  simp only [List.Forall]; repeat' constructor
theorem hostOps0_50_fresh : (hostOps0_50 : List (HloOp τ sig (Elt F))).Forall fun op => op.fresh = ∅ := by
  simp only [List.Forall]; repeat' constructor
theorem hostOps0_51_fresh : (hostOps0_51 : List (HloOp τ sig (Elt F))).Forall fun op => op.fresh = ∅ := by
  simp only [List.Forall]; repeat' constructor
theorem hostOps0_52_fresh : (hostOps0_52 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem prefix_sub : (prefixOps (F := F)).Forall fun ops => ops.Forall fun op => op.bufs ⊆ StableHlo.tcRefs τ sig := by
  simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub, hostOps0_33_sub, hostOps0_34_sub, hostOps0_35_sub, hostOps0_36_sub, hostOps0_37_sub, hostOps0_38_sub, hostOps0_39_sub, hostOps0_40_sub, hostOps0_41_sub, hostOps0_42_sub, hostOps0_43_sub, hostOps0_44_sub, hostOps0_45_sub, hostOps0_46_sub, hostOps0_47_sub, hostOps0_48_sub, hostOps0_49_sub, hostOps0_50_sub, hostOps0_51_sub, hostOps0_52_sub⟩

theorem prefix_fresh : (prefixOps (F := F)).Forall fun ops => ops.Forall fun op => op.fresh = ∅ := by
  simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh, hostOps0_22_fresh, hostOps0_23_fresh, hostOps0_24_fresh, hostOps0_25_fresh, hostOps0_26_fresh, hostOps0_27_fresh, hostOps0_28_fresh, hostOps0_29_fresh, hostOps0_30_fresh, hostOps0_31_fresh, hostOps0_32_fresh, hostOps0_33_fresh, hostOps0_34_fresh, hostOps0_35_fresh, hostOps0_36_fresh, hostOps0_37_fresh, hostOps0_38_fresh, hostOps0_39_fresh, hostOps0_40_fresh, hostOps0_41_fresh, hostOps0_42_fresh, hostOps0_43_fresh, hostOps0_44_fresh, hostOps0_45_fresh, hostOps0_46_fresh, hostOps0_47_fresh, hostOps0_48_fresh, hostOps0_49_fresh, hostOps0_50_fresh, hostOps0_51_fresh, hostOps0_52_fresh⟩

set_option maxHeartbeats 4000000 in

/-- The program is the stretches, the region, then the two operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main prefixOps [hostOps1] prefix_sub prefix_fresh main_chain

/-- The two operations after the region touch only the region's arrays and buffers outside it, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

/-- and write none of the region's arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

end Cert.Kernel.Fr

end
-- ==== Proof.LibAfter.lean ====
/-
  A line of host operations run from given buffer contents: which buffers it can change.
-/
import Idealize.ShloMosaic.Lib.StableHlo.Run
import Mathlib.Data.List.Forall2

noncomputable section

namespace Cert.LibAfter

open Idealize.ShloMosaic Idealize.ShloMosaic.StableHlo

variable {τ : Topo} {sig : RefSig} {Val : EltTy → Type}

/-- Every operation of the line writes only buffers of the list `W`. -/
abbrev WritesIn (ops : List (HloOp τ sig Val)) (W : List (Ref sig .tc)) : Prop :=
  ops.Forall fun op => op.writes ⊆ (W.map (Proc.devRef (τ := τ) .tc)).toFinset

/-- A buffer outside the list is not written, so it keeps its contents through the line. -/
theorem keep_of_wr {ops : List (HloOp τ sig Val)} {W : List (Ref sig .tc)} (hW : WritesIn ops W) {r : Ref sig .tc} (hr : r ∉ W)
    (V : Valuation τ sig Val) : after ops V (Proc.devRef .tc r) = V (Proc.devRef .tc r) :=
  after_of_writes_sub ops V hW hr

/-- Operation by operation, the line writes only the buffer listed at the same place. Any consecutive part of the line then
    writes the same part of the list. -/
abbrev WritesEach (ops : List (HloOp τ sig Val)) (W : List (Ref sig .tc)) : Prop :=
  List.Forall₂ (fun op r => op.writes ⊆ {Proc.devRef (τ := τ) .tc r}) ops W

theorem WritesEach.append {l₁ l₂ : List (HloOp τ sig Val)} {W₁ W₂ : List (Ref sig .tc)} (h₁ : WritesEach l₁ W₁) (h₂ : WritesEach l₂ W₂) :
    WritesEach (l₁ ++ l₂) (W₁ ++ W₂) := List.rel_append h₁ h₂

theorem WritesEach.take {l : List (HloOp τ sig Val)} {W : List (Ref sig .tc)} (h : WritesEach l W) (n : Nat) :
    WritesEach (l.take n) (W.take n) := List.forall₂_take n h

theorem WritesEach.drop {l : List (HloOp τ sig Val)} {W : List (Ref sig .tc)} (h : WritesEach l W) (n : Nat) :
    WritesEach (l.drop n) (W.drop n) := List.forall₂_drop n h

/-- Lines that each write place by place do so when joined. -/
theorem WritesEach.flatten {ls : List (List (HloOp τ sig Val))} {Ws : List (List (Ref sig .tc))}
    (h : List.Forall₂ (WritesEach (τ := τ) (sig := sig) (Val := Val)) ls Ws) : WritesEach ls.flatten Ws.flatten := by
  induction h with
  | nil => exact .nil
  | cons h _ ih => exact h.append ih

/-- What is written place by place is written within the whole list. -/
theorem WritesEach.writesIn {l : List (HloOp τ sig Val)} {W : List (Ref sig .tc)} (h : WritesEach l W) : WritesIn l W := by
  rw [WritesIn, List.forall_iff_forall_mem]
  induction h with
  | nil => intro op hop; cases hop
  | cons hab _ ih =>
    intro op hop x hx
    rw [List.map_cons, List.toFinset_cons, Finset.mem_insert]
    rcases List.mem_cons.mp hop with rfl | hop
    · exact Or.inl (Finset.mem_singleton.mp (hab hx))
    · exact Or.inr (ih op hop hx)

end Cert.LibAfter

end
-- ==== Proof.FrHostBK.lean ====
/-
  No host operation of the kernel's program writes an argument array. Each operation writes only its own result buffer;
  the result buffers are listed stretch by stretch, and a buffer in none of the lists is found as launched when the
  region is entered, and is left so by the two operations after it.
-/
import proofs.«414985_j5068061409687_4_alg».proof.Proof.Gen.Kernel.Launch
import proofs.«414985_j5068061409687_4_alg».proof.Proof.Gen.Kernel.Points
import proofs.«414985_j5068061409687_4_alg».proof.Proof.FrHostAK
import proofs.«414985_j5068061409687_4_alg».proof.Proof.LibAfter
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen Cert.LibAfter
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

local macro "wr_one" : tactic =>
  `(tactic| (simp only [StableHlo.nullary_writes, StableHlo.unary_writes, StableHlo.binary_writes, StableHlo.ternary_writes, StableHlo.quaternary_writes, StableHlo.reshape_writes, StableHlo.binaryIndexed_writes, StableHlo.nary_writes]; exact Finset.Subset.refl _))

abbrev hostOps0_W : List (Ref sig .tc) := [main_cst, main_v0, main_v1, main_cst_0, main_cst_1]
set_option maxHeartbeats 4000000 in
theorem hostOps0_we : WritesEach (hostOps0 : List (HloOp τ sig (Elt F))) hostOps0_W := by
  repeat' constructor
  all_goals wr_one
abbrev hostOps0_1_W : List (Ref sig .tc) := [main_call0_v0, main_call0_v1, main_call0_v2, main_call0_v3, main_call0_v4, main_v2]
set_option maxHeartbeats 4000000 in
theorem hostOps0_1_we : WritesEach (hostOps0_1 : List (HloOp τ sig (Elt F))) hostOps0_1_W := by
  repeat' constructor
  all_goals wr_one
abbrev hostOps0_2_W : List (Ref sig .tc) := [main_cst_2, main_v3, main_v4, main_cst_3, main_v5, main_v6, main_v7, main_v8, main_v9, main_v10, main_v11, main_v12, main_v13, main_cst_4, main_cst_5]
set_option maxHeartbeats 4000000 in
theorem hostOps0_2_we : WritesEach (hostOps0_2 : List (HloOp τ sig (Elt F))) hostOps0_2_W := by
  repeat' constructor
  all_goals wr_one
abbrev hostOps0_3_W : List (Ref sig .tc) := [main_call1_v0, main_call1_v1, main_call1_v2, main_call1_v3, main_call1_v4, main_v14]
set_option maxHeartbeats 4000000 in
theorem hostOps0_3_we : WritesEach (hostOps0_3 : List (HloOp τ sig (Elt F))) hostOps0_3_W := by
  repeat' constructor
  all_goals wr_one
abbrev hostOps0_4_W : List (Ref sig .tc) := [main_v15, main_v16, main_cst_6, main_cst_7]
set_option maxHeartbeats 4000000 in
theorem hostOps0_4_we : WritesEach (hostOps0_4 : List (HloOp τ sig (Elt F))) hostOps0_4_W := by
  repeat' constructor
  all_goals wr_one
abbrev hostOps0_5_W : List (Ref sig .tc) := [main_call2_v0, main_call2_v1, main_call2_v2, main_call2_v3, main_call2_v4, main_v17]
set_option maxHeartbeats 4000000 in
theorem hostOps0_5_we : WritesEach (hostOps0_5 : List (HloOp τ sig (Elt F))) hostOps0_5_W := by
  repeat' constructor
  all_goals wr_one
abbrev hostOps0_6_W : List (Ref sig .tc) := [main_cst_8, main_v18, main_v19, main_cst_9, main_cst_10]
set_option maxHeartbeats 4000000 in
theorem hostOps0_6_we : WritesEach (hostOps0_6 : List (HloOp τ sig (Elt F))) hostOps0_6_W := by
  repeat' constructor
  all_goals wr_one
abbrev hostOps0_7_W : List (Ref sig .tc) := [main_call3_v0, main_call3_v1, main_call3_v2, main_call3_v3, main_call3_v4, main_v20]
set_option maxHeartbeats 4000000 in
theorem hostOps0_7_we : WritesEach (hostOps0_7 : List (HloOp τ sig (Elt F))) hostOps0_7_W := by
  repeat' constructor
  all_goals wr_one
abbrev hostOps0_8_W : List (Ref sig .tc) := [main_cst_11, main_v21, main_v22, main_v23, main_c, main_c_12]
set_option maxHeartbeats 4000000 in
theorem hostOps0_8_we : WritesEach (hostOps0_8 : List (HloOp τ sig (Elt F))) hostOps0_8_W := by
  repeat' constructor
  all_goals wr_one
abbrev hostOps0_9_W : List (Ref sig .tc) := [main_call4_v0, main_call4_v1, main_call4_v2, main_call4_v3, main_call4_v4, main_v24]
set_option maxHeartbeats 4000000 in
theorem hostOps0_9_we : WritesEach (hostOps0_9 : List (HloOp τ sig (Elt F))) hostOps0_9_W := by
  repeat' constructor
  all_goals wr_one
abbrev hostOps0_10_W : List (Ref sig .tc) := [main_v25, main_v26, main_c_13, main_c_14]
set_option maxHeartbeats 4000000 in
theorem hostOps0_10_we : WritesEach (hostOps0_10 : List (HloOp τ sig (Elt F))) hostOps0_10_W := by
  repeat' constructor
  all_goals wr_one
abbrev hostOps0_11_W : List (Ref sig .tc) := [main_call5_v0, main_call5_v1, main_call5_v2, main_call5_v3, main_call5_v4, main_v27]
set_option maxHeartbeats 4000000 in
theorem hostOps0_11_we : WritesEach (hostOps0_11 : List (HloOp τ sig (Elt F))) hostOps0_11_W := by
  repeat' constructor
  all_goals wr_one
abbrev hostOps0_12_W : List (Ref sig .tc) := [main_v28, main_v29, main_v30, main_v31, main_v32, main_v33, main_v34, main_c_15, main_v35, main_v36, main_c_16, main_v37, main_v38, main_v39, main_c_17, main_v40, main_v41, main_c_18, main_v42, main_v43, main_v44, main_v45, main_v46, main_v47, main_v48, main_c_19, main_v49, main_v50, main_c_20, main_v51, main_v52, main_c_21, main_v53, main_v54, main_v55, main_c_22, main_v56, main_v57, main_c_23, main_v58, main_v59, main_v60, main_v61, main_v62, main_v63, main_v64, main_c_24, main_v65, main_v66, main_c_25, main_v67, main_v68, main_c_26, main_v69, main_v70, main_v71, main_c_27, main_v72, main_v73, main_c_28, main_v74, main_v75, main_v76, main_v77, main_v78, main_v79, main_v80, main_c_29, main_v81, main_v82, main_c_30, main_v83, main_v84, main_c_31, main_v85, main_v86, main_c_32, main_v87, main_v88, main_v89, main_c_33, main_v90, main_v91, main_c_34, main_v92, main_v93, main_v94, main_v95, main_v96, main_v97, main_v98, main_cst_35, main_v99, main_v100, main_v101, main_v102, main_v103, main_v104, main_v105, main_cst_36, main_v106, main_v107, main_v108, main_v109, main_cst_37, main_v110, main_v111, main_v112, main_v113, main_v114, main_v115, main_v116, main_v117, main_v118, main_v119, main_v120, main_v121, main_cst_38, main_cst_39]
set_option maxHeartbeats 4000000 in
theorem hostOps0_12_we : WritesEach (hostOps0_12 : List (HloOp τ sig (Elt F))) hostOps0_12_W := by
  repeat' constructor
  all_goals wr_one
abbrev hostOps0_13_W : List (Ref sig .tc) := [main_call6_v0, main_call6_v1, main_call6_v2, main_call6_v3, main_call6_v4, main_v122]
set_option maxHeartbeats 4000000 in
theorem hostOps0_13_we : WritesEach (hostOps0_13 : List (HloOp τ sig (Elt F))) hostOps0_13_W := by
  repeat' constructor
  all_goals wr_one
abbrev hostOps0_14_W : List (Ref sig .tc) := [main_cst_40, main_v123, main_v124, main_cst_41, main_cst_42]
set_option maxHeartbeats 4000000 in
theorem hostOps0_14_we : WritesEach (hostOps0_14 : List (HloOp τ sig (Elt F))) hostOps0_14_W := by
  repeat' constructor
  all_goals wr_one
abbrev hostOps0_15_W : List (Ref sig .tc) := [main_call7_v0, main_call7_v1, main_call7_v2, main_call7_v3, main_call7_v4, main_v125]
set_option maxHeartbeats 4000000 in
theorem hostOps0_15_we : WritesEach (hostOps0_15 : List (HloOp τ sig (Elt F))) hostOps0_15_W := by
  repeat' constructor
  all_goals wr_one
abbrev hostOps0_16_W : List (Ref sig .tc) := [main_cst_43, main_v126, main_v127, main_v128, main_c_44, main_c_45]
set_option maxHeartbeats 4000000 in
theorem hostOps0_16_we : WritesEach (hostOps0_16 : List (HloOp τ sig (Elt F))) hostOps0_16_W := by
  repeat' constructor
  all_goals wr_one
abbrev hostOps0_17_W : List (Ref sig .tc) := [main_call8_v0, main_call8_v1, main_call8_v2, main_call8_v3, main_call8_v4, main_v129]
set_option maxHeartbeats 4000000 in
theorem hostOps0_17_we : WritesEach (hostOps0_17 : List (HloOp τ sig (Elt F))) hostOps0_17_W := by
  repeat' constructor
  all_goals wr_one
abbrev hostOps0_18_W : List (Ref sig .tc) := [main_v130, main_v131, main_c_46, main_c_47]
set_option maxHeartbeats 4000000 in
theorem hostOps0_18_we : WritesEach (hostOps0_18 : List (HloOp τ sig (Elt F))) hostOps0_18_W := by
  repeat' constructor
  all_goals wr_one
abbrev hostOps0_19_W : List (Ref sig .tc) := [main_call9_v0, main_call9_v1, main_call9_v2, main_call9_v3, main_call9_v4, main_v132]
set_option maxHeartbeats 4000000 in
theorem hostOps0_19_we : WritesEach (hostOps0_19 : List (HloOp τ sig (Elt F))) hostOps0_19_W := by
  repeat' constructor
  all_goals wr_one
abbrev hostOps0_20_W : List (Ref sig .tc) := [main_v133, main_v134, main_v135, main_v136, main_v137, main_v138, main_v139, main_c_48, main_v140, main_v141, main_c_49, main_v142, main_v143, main_v144, main_c_50, main_v145, main_v146, main_c_51, main_v147, main_v148, main_v149, main_v150, main_v151, main_v152, main_v153, main_c_52, main_v154, main_v155, main_c_53, main_v156, main_v157, main_c_54, main_v158, main_v159, main_v160, main_c_55, main_v161, main_v162, main_c_56, main_v163, main_v164, main_v165, main_v166, main_v167, main_v168, main_v169, main_c_57, main_v170, main_v171, main_c_58, main_v172, main_v173, main_c_59, main_v174, main_v175, main_v176, main_c_60, main_v177, main_v178, main_c_61, main_v179, main_v180, main_v181, main_v182, main_v183, main_v184, main_v185, main_c_62, main_v186, main_v187, main_c_63, main_v188, main_v189, main_c_64, main_v190, main_v191, main_c_65, main_v192, main_v193, main_v194, main_c_66, main_v195, main_v196, main_c_67, main_v197, main_v198, main_v199, main_v200, main_v201, main_v202, main_v203, main_cst_68, main_v204, main_v205, main_v206, main_v207, main_v208, main_v209, main_v210, main_cst_69, main_v211, main_v212, main_v213, main_v214, main_cst_70, main_v215, main_v216, main_v217, main_v218, main_v219, main_v220, main_v221, main_v222, main_v223, main_v224, main_v225, main_v226, main_cst_71, main_cst_72]
set_option maxHeartbeats 4000000 in
theorem hostOps0_20_we : WritesEach (hostOps0_20 : List (HloOp τ sig (Elt F))) hostOps0_20_W := by
  repeat' constructor
  all_goals wr_one
abbrev hostOps0_21_W : List (Ref sig .tc) := [main_call10_v0, main_call10_v1, main_call10_v2, main_call10_v3, main_call10_v4, main_v227]
set_option maxHeartbeats 4000000 in
theorem hostOps0_21_we : WritesEach (hostOps0_21 : List (HloOp τ sig (Elt F))) hostOps0_21_W := by
  repeat' constructor
  all_goals wr_one
abbrev hostOps0_22_W : List (Ref sig .tc) := [main_cst_73, main_v228, main_v229, main_cst_74, main_cst_75]
set_option maxHeartbeats 4000000 in
theorem hostOps0_22_we : WritesEach (hostOps0_22 : List (HloOp τ sig (Elt F))) hostOps0_22_W := by
  repeat' constructor
  all_goals wr_one
abbrev hostOps0_23_W : List (Ref sig .tc) := [main_call11_v0, main_call11_v1, main_call11_v2, main_call11_v3, main_call11_v4, main_v230]
set_option maxHeartbeats 4000000 in
theorem hostOps0_23_we : WritesEach (hostOps0_23 : List (HloOp τ sig (Elt F))) hostOps0_23_W := by
  repeat' constructor
  all_goals wr_one
abbrev hostOps0_24_W : List (Ref sig .tc) := [main_cst_76, main_v231, main_v232, main_v233, main_c_77, main_c_78]
set_option maxHeartbeats 4000000 in
theorem hostOps0_24_we : WritesEach (hostOps0_24 : List (HloOp τ sig (Elt F))) hostOps0_24_W := by
  repeat' constructor
  all_goals wr_one
abbrev hostOps0_25_W : List (Ref sig .tc) := [main_call12_v0, main_call12_v1, main_call12_v2, main_call12_v3, main_call12_v4, main_v234]
set_option maxHeartbeats 4000000 in
theorem hostOps0_25_we : WritesEach (hostOps0_25 : List (HloOp τ sig (Elt F))) hostOps0_25_W := by
  repeat' constructor
  all_goals wr_one
abbrev hostOps0_26_W : List (Ref sig .tc) := [main_v235, main_v236, main_c_79, main_c_80]
set_option maxHeartbeats 4000000 in
theorem hostOps0_26_we : WritesEach (hostOps0_26 : List (HloOp τ sig (Elt F))) hostOps0_26_W := by
  repeat' constructor
  all_goals wr_one
abbrev hostOps0_27_W : List (Ref sig .tc) := [main_call13_v0, main_call13_v1, main_call13_v2, main_call13_v3, main_call13_v4, main_v237]
set_option maxHeartbeats 4000000 in
theorem hostOps0_27_we : WritesEach (hostOps0_27 : List (HloOp τ sig (Elt F))) hostOps0_27_W := by
  repeat' constructor
  all_goals wr_one
abbrev hostOps0_28_W : List (Ref sig .tc) := [main_v238, main_v239, main_v240, main_v241, main_v242, main_v243, main_v244, main_c_81, main_v245, main_v246, main_c_82, main_v247, main_v248, main_v249, main_c_83, main_v250, main_v251, main_c_84, main_v252, main_v253, main_v254, main_v255, main_v256, main_v257, main_v258, main_c_85, main_v259, main_v260, main_c_86, main_v261, main_v262, main_c_87, main_v263, main_v264, main_v265, main_c_88, main_v266, main_v267, main_c_89, main_v268, main_v269, main_v270, main_v271, main_v272, main_v273, main_v274, main_c_90, main_v275, main_v276, main_c_91, main_v277, main_v278, main_c_92, main_v279, main_v280, main_v281, main_c_93, main_v282, main_v283, main_c_94, main_v284, main_v285, main_v286, main_v287, main_v288, main_v289, main_v290, main_c_95, main_v291, main_v292, main_c_96, main_v293, main_v294, main_c_97, main_v295, main_v296, main_c_98, main_v297, main_v298, main_v299, main_c_99, main_v300, main_v301, main_c_100, main_v302, main_v303, main_v304, main_v305, main_v306, main_v307, main_v308, main_cst_101, main_v309, main_v310, main_v311, main_v312, main_v313, main_v314, main_v315, main_cst_102, main_v316, main_v317, main_v318, main_v319, main_cst_103, main_v320, main_v321, main_v322, main_v323, main_v324, main_v325, main_v326, main_v327, main_v328, main_v329, main_v330, main_v331, main_cst_104, main_cst_105]
set_option maxHeartbeats 4000000 in
theorem hostOps0_28_we : WritesEach (hostOps0_28 : List (HloOp τ sig (Elt F))) hostOps0_28_W := by
  repeat' constructor
  all_goals wr_one
abbrev hostOps0_29_W : List (Ref sig .tc) := [main_call14_v0, main_call14_v1, main_call14_v2, main_call14_v3, main_call14_v4, main_v332]
set_option maxHeartbeats 4000000 in
theorem hostOps0_29_we : WritesEach (hostOps0_29 : List (HloOp τ sig (Elt F))) hostOps0_29_W := by
  repeat' constructor
  all_goals wr_one
abbrev hostOps0_30_W : List (Ref sig .tc) := [main_cst_106, main_v333, main_v334, main_cst_107, main_cst_108]
set_option maxHeartbeats 4000000 in
theorem hostOps0_30_we : WritesEach (hostOps0_30 : List (HloOp τ sig (Elt F))) hostOps0_30_W := by
  repeat' constructor
  all_goals wr_one
abbrev hostOps0_31_W : List (Ref sig .tc) := [main_call15_v0, main_call15_v1, main_call15_v2, main_call15_v3, main_call15_v4, main_v335]
set_option maxHeartbeats 4000000 in
theorem hostOps0_31_we : WritesEach (hostOps0_31 : List (HloOp τ sig (Elt F))) hostOps0_31_W := by
  repeat' constructor
  all_goals wr_one
abbrev hostOps0_32_W : List (Ref sig .tc) := [main_cst_109, main_v336, main_v337, main_v338, main_c_110, main_c_111]
set_option maxHeartbeats 4000000 in
theorem hostOps0_32_we : WritesEach (hostOps0_32 : List (HloOp τ sig (Elt F))) hostOps0_32_W := by
  repeat' constructor
  all_goals wr_one
abbrev hostOps0_33_W : List (Ref sig .tc) := [main_call16_v0, main_call16_v1, main_call16_v2, main_call16_v3, main_call16_v4, main_v339]
set_option maxHeartbeats 4000000 in
theorem hostOps0_33_we : WritesEach (hostOps0_33 : List (HloOp τ sig (Elt F))) hostOps0_33_W := by
  repeat' constructor
  all_goals wr_one
abbrev hostOps0_34_W : List (Ref sig .tc) := [main_v340, main_v341, main_c_112, main_c_113]
set_option maxHeartbeats 4000000 in
theorem hostOps0_34_we : WritesEach (hostOps0_34 : List (HloOp τ sig (Elt F))) hostOps0_34_W := by
  repeat' constructor
  all_goals wr_one
abbrev hostOps0_35_W : List (Ref sig .tc) := [main_call17_v0, main_call17_v1, main_call17_v2, main_call17_v3, main_call17_v4, main_v342]
set_option maxHeartbeats 4000000 in
theorem hostOps0_35_we : WritesEach (hostOps0_35 : List (HloOp τ sig (Elt F))) hostOps0_35_W := by
  repeat' constructor
  all_goals wr_one
abbrev hostOps0_36_W : List (Ref sig .tc) := [main_v343, main_v344, main_v345, main_v346, main_v347, main_v348, main_v349, main_c_114, main_v350, main_v351, main_c_115, main_v352, main_v353, main_v354, main_c_116, main_v355, main_v356, main_c_117, main_v357, main_v358, main_v359, main_v360, main_v361, main_v362, main_v363, main_c_118, main_v364, main_v365, main_c_119, main_v366, main_v367, main_c_120, main_v368, main_v369, main_v370, main_c_121, main_v371, main_v372, main_c_122, main_v373, main_v374, main_v375, main_v376, main_v377, main_v378, main_v379, main_c_123, main_v380, main_v381, main_c_124, main_v382, main_v383, main_c_125, main_v384, main_v385, main_v386, main_c_126, main_v387, main_v388, main_c_127, main_v389, main_v390, main_v391, main_v392, main_v393, main_v394, main_v395, main_c_128, main_v396, main_v397, main_c_129, main_v398, main_v399, main_c_130, main_v400, main_v401, main_c_131, main_v402, main_v403, main_v404, main_c_132, main_v405, main_v406, main_c_133, main_v407, main_v408, main_v409, main_v410, main_v411, main_v412, main_v413, main_cst_134, main_v414, main_v415, main_v416, main_v417, main_v418, main_v419, main_v420, main_cst_135, main_v421, main_v422, main_v423, main_v424, main_cst_136, main_v425, main_v426, main_v427, main_v428, main_v429, main_v430, main_v431, main_v432, main_v433, main_v434, main_v435, main_v436, main_cst_137, main_cst_138]
set_option maxHeartbeats 4000000 in
theorem hostOps0_36_we : WritesEach (hostOps0_36 : List (HloOp τ sig (Elt F))) hostOps0_36_W := by
  repeat' constructor
  all_goals wr_one
abbrev hostOps0_37_W : List (Ref sig .tc) := [main_call18_v0, main_call18_v1, main_call18_v2, main_call18_v3, main_call18_v4, main_v437]
set_option maxHeartbeats 4000000 in
theorem hostOps0_37_we : WritesEach (hostOps0_37 : List (HloOp τ sig (Elt F))) hostOps0_37_W := by
  repeat' constructor
  all_goals wr_one
abbrev hostOps0_38_W : List (Ref sig .tc) := [main_cst_139, main_v438, main_v439, main_cst_140, main_cst_141]
set_option maxHeartbeats 4000000 in
theorem hostOps0_38_we : WritesEach (hostOps0_38 : List (HloOp τ sig (Elt F))) hostOps0_38_W := by
  repeat' constructor
  all_goals wr_one
abbrev hostOps0_39_W : List (Ref sig .tc) := [main_call19_v0, main_call19_v1, main_call19_v2, main_call19_v3, main_call19_v4, main_v440]
set_option maxHeartbeats 4000000 in
theorem hostOps0_39_we : WritesEach (hostOps0_39 : List (HloOp τ sig (Elt F))) hostOps0_39_W := by
  repeat' constructor
  all_goals wr_one
abbrev hostOps0_40_W : List (Ref sig .tc) := [main_cst_142, main_v441, main_v442, main_v443, main_c_143, main_c_144]
set_option maxHeartbeats 4000000 in
theorem hostOps0_40_we : WritesEach (hostOps0_40 : List (HloOp τ sig (Elt F))) hostOps0_40_W := by
  repeat' constructor
  all_goals wr_one
abbrev hostOps0_41_W : List (Ref sig .tc) := [main_call20_v0, main_call20_v1, main_call20_v2, main_call20_v3, main_call20_v4, main_v444]
set_option maxHeartbeats 4000000 in
theorem hostOps0_41_we : WritesEach (hostOps0_41 : List (HloOp τ sig (Elt F))) hostOps0_41_W := by
  repeat' constructor
  all_goals wr_one
abbrev hostOps0_42_W : List (Ref sig .tc) := [main_v445, main_v446, main_c_145, main_c_146]
set_option maxHeartbeats 4000000 in
theorem hostOps0_42_we : WritesEach (hostOps0_42 : List (HloOp τ sig (Elt F))) hostOps0_42_W := by
  repeat' constructor
  all_goals wr_one
abbrev hostOps0_43_W : List (Ref sig .tc) := [main_call21_v0, main_call21_v1, main_call21_v2, main_call21_v3, main_call21_v4, main_v447]
set_option maxHeartbeats 4000000 in
theorem hostOps0_43_we : WritesEach (hostOps0_43 : List (HloOp τ sig (Elt F))) hostOps0_43_W := by
  repeat' constructor
  all_goals wr_one
abbrev hostOps0_44_W : List (Ref sig .tc) := [main_v448, main_v449, main_v450, main_v451, main_v452, main_v453, main_v454, main_c_147, main_v455, main_v456, main_c_148, main_v457, main_v458, main_v459, main_c_149, main_v460, main_v461, main_c_150, main_v462, main_v463, main_v464, main_v465, main_v466, main_v467, main_v468, main_c_151, main_v469, main_v470, main_c_152, main_v471, main_v472, main_c_153, main_v473, main_v474, main_v475, main_c_154, main_v476, main_v477, main_c_155, main_v478, main_v479, main_v480, main_v481, main_v482, main_v483, main_v484, main_c_156, main_v485, main_v486, main_c_157, main_v487, main_v488, main_c_158, main_v489, main_v490, main_v491, main_c_159, main_v492, main_v493, main_c_160, main_v494, main_v495, main_v496, main_v497, main_v498, main_v499, main_v500, main_c_161, main_v501, main_v502, main_c_162, main_v503, main_v504, main_c_163, main_v505, main_v506, main_c_164, main_v507, main_v508, main_v509, main_c_165, main_v510, main_v511, main_c_166, main_v512, main_v513, main_v514, main_v515, main_v516, main_v517, main_v518, main_cst_167, main_v519, main_v520, main_v521, main_v522, main_v523, main_v524, main_v525, main_cst_168, main_v526, main_v527, main_v528, main_v529, main_cst_169, main_v530, main_v531, main_v532, main_v533, main_v534, main_v535, main_v536, main_v537, main_v538, main_v539, main_v540, main_v541, main_cst_170, main_cst_171]
set_option maxHeartbeats 4000000 in
theorem hostOps0_44_we : WritesEach (hostOps0_44 : List (HloOp τ sig (Elt F))) hostOps0_44_W := by
  repeat' constructor
  all_goals wr_one
abbrev hostOps0_45_W : List (Ref sig .tc) := [main_call22_v0, main_call22_v1, main_call22_v2, main_call22_v3, main_call22_v4, main_v542]
set_option maxHeartbeats 4000000 in
theorem hostOps0_45_we : WritesEach (hostOps0_45 : List (HloOp τ sig (Elt F))) hostOps0_45_W := by
  repeat' constructor
  all_goals wr_one
abbrev hostOps0_46_W : List (Ref sig .tc) := [main_cst_172, main_v543, main_v544, main_cst_173, main_cst_174]
set_option maxHeartbeats 4000000 in
theorem hostOps0_46_we : WritesEach (hostOps0_46 : List (HloOp τ sig (Elt F))) hostOps0_46_W := by
  repeat' constructor
  all_goals wr_one
abbrev hostOps0_47_W : List (Ref sig .tc) := [main_call23_v0, main_call23_v1, main_call23_v2, main_call23_v3, main_call23_v4, main_v545]
set_option maxHeartbeats 4000000 in
theorem hostOps0_47_we : WritesEach (hostOps0_47 : List (HloOp τ sig (Elt F))) hostOps0_47_W := by
  repeat' constructor
  all_goals wr_one
abbrev hostOps0_48_W : List (Ref sig .tc) := [main_cst_175, main_v546, main_v547, main_v548, main_c_176, main_c_177]
set_option maxHeartbeats 4000000 in
theorem hostOps0_48_we : WritesEach (hostOps0_48 : List (HloOp τ sig (Elt F))) hostOps0_48_W := by
  repeat' constructor
  all_goals wr_one
abbrev hostOps0_49_W : List (Ref sig .tc) := [main_call24_v0, main_call24_v1, main_call24_v2, main_call24_v3, main_call24_v4, main_v549]
set_option maxHeartbeats 4000000 in
theorem hostOps0_49_we : WritesEach (hostOps0_49 : List (HloOp τ sig (Elt F))) hostOps0_49_W := by
  repeat' constructor
  all_goals wr_one
abbrev hostOps0_50_W : List (Ref sig .tc) := [main_v550, main_v551, main_c_178, main_c_179]
set_option maxHeartbeats 4000000 in
theorem hostOps0_50_we : WritesEach (hostOps0_50 : List (HloOp τ sig (Elt F))) hostOps0_50_W := by
  repeat' constructor
  all_goals wr_one
abbrev hostOps0_51_W : List (Ref sig .tc) := [main_call25_v0, main_call25_v1, main_call25_v2, main_call25_v3, main_call25_v4, main_v552]
set_option maxHeartbeats 4000000 in
theorem hostOps0_51_we : WritesEach (hostOps0_51 : List (HloOp τ sig (Elt F))) hostOps0_51_W := by
  repeat' constructor
  all_goals wr_one
abbrev hostOps0_52_W : List (Ref sig .tc) := [main_v553, main_v554, main_v555, main_v556, main_v557, main_v558, main_v559, main_c_180, main_v560, main_v561, main_c_181, main_v562, main_v563, main_v564, main_c_182, main_v565, main_v566, main_c_183, main_v567, main_v568, main_v569, main_v570, main_v571, main_v572, main_v573, main_c_184, main_v574, main_v575, main_c_185, main_v576, main_v577, main_c_186, main_v578, main_v579, main_v580, main_c_187, main_v581, main_v582, main_c_188, main_v583, main_v584, main_v585, main_v586, main_v587, main_v588, main_v589, main_c_189, main_v590, main_v591, main_c_190, main_v592, main_v593, main_c_191, main_v594, main_v595, main_v596, main_c_192, main_v597, main_v598, main_c_193, main_v599, main_v600, main_v601, main_v602, main_v603, main_v604, main_v605, main_c_194, main_v606, main_v607, main_c_195, main_v608, main_v609, main_c_196, main_v610, main_v611, main_c_197, main_v612, main_v613, main_v614, main_c_198, main_v615, main_v616, main_c_199, main_v617, main_v618, main_v619, main_v620, main_v621, main_v622, main_v623, main_cst_200, main_v624, main_v625, main_v626, main_v627, main_v628, main_v629, main_v630, main_cst_201, main_v631, main_v632, main_v633, main_v634, main_cst_202, main_v635, main_v636, main_v637, main_v638, main_v639, main_v640, main_v641, main_v642, main_v643, main_v644, main_v645, main_v646]
set_option maxHeartbeats 4000000 in
theorem hostOps0_52_we : WritesEach (hostOps0_52 : List (HloOp τ sig (Elt F))) hostOps0_52_W := by
  repeat' constructor
  all_goals wr_one

/-- The stretches' lists, in the stretches' order. -/
abbrev prefixWs : List (List (Ref sig .tc)) := [hostOps0_W, hostOps0_1_W, hostOps0_2_W, hostOps0_3_W, hostOps0_4_W, hostOps0_5_W, hostOps0_6_W, hostOps0_7_W, hostOps0_8_W, hostOps0_9_W, hostOps0_10_W, hostOps0_11_W, hostOps0_12_W, hostOps0_13_W, hostOps0_14_W, hostOps0_15_W, hostOps0_16_W, hostOps0_17_W, hostOps0_18_W, hostOps0_19_W, hostOps0_20_W, hostOps0_21_W, hostOps0_22_W, hostOps0_23_W, hostOps0_24_W, hostOps0_25_W, hostOps0_26_W, hostOps0_27_W, hostOps0_28_W, hostOps0_29_W, hostOps0_30_W, hostOps0_31_W, hostOps0_32_W, hostOps0_33_W, hostOps0_34_W, hostOps0_35_W, hostOps0_36_W, hostOps0_37_W, hostOps0_38_W, hostOps0_39_W, hostOps0_40_W, hostOps0_41_W, hostOps0_42_W, hostOps0_43_W, hostOps0_44_W, hostOps0_45_W, hostOps0_46_W, hostOps0_47_W, hostOps0_48_W, hostOps0_49_W, hostOps0_50_W, hostOps0_51_W, hostOps0_52_W]

/-- All the operations before the region, place by place: the stretches' facts, joined. -/
theorem prefix_we : WritesEach (List.flatten (prefixOps (F := F))) (List.flatten prefixWs) :=
  WritesEach.flatten (.cons hostOps0_we (.cons hostOps0_1_we (.cons hostOps0_2_we (.cons hostOps0_3_we (.cons hostOps0_4_we (.cons hostOps0_5_we (.cons hostOps0_6_we (.cons hostOps0_7_we (.cons hostOps0_8_we (.cons hostOps0_9_we (.cons hostOps0_10_we (.cons hostOps0_11_we (.cons hostOps0_12_we (.cons hostOps0_13_we (.cons hostOps0_14_we (.cons hostOps0_15_we (.cons hostOps0_16_we (.cons hostOps0_17_we (.cons hostOps0_18_we (.cons hostOps0_19_we (.cons hostOps0_20_we (.cons hostOps0_21_we (.cons hostOps0_22_we (.cons hostOps0_23_we (.cons hostOps0_24_we (.cons hostOps0_25_we (.cons hostOps0_26_we (.cons hostOps0_27_we (.cons hostOps0_28_we (.cons hostOps0_29_we (.cons hostOps0_30_we (.cons hostOps0_31_we (.cons hostOps0_32_we (.cons hostOps0_33_we (.cons hostOps0_34_we (.cons hostOps0_35_we (.cons hostOps0_36_we (.cons hostOps0_37_we (.cons hostOps0_38_we (.cons hostOps0_39_we (.cons hostOps0_40_we (.cons hostOps0_41_we (.cons hostOps0_42_we (.cons hostOps0_43_we (.cons hostOps0_44_we (.cons hostOps0_45_we (.cons hostOps0_46_we (.cons hostOps0_47_we (.cons hostOps0_48_we (.cons hostOps0_49_we (.cons hostOps0_50_we (.cons hostOps0_51_we (.cons hostOps0_52_we (.nil))))))))))))))))))))))))))))))))))))))))))))))))))))))

/-- A buffer in none of the lists is found as launched when the region is entered. -/
theorem V_keep {r : Ref sig .tc} (h : ∀ W ∈ prefixWs, r ∉ W) (c : Dev nD) : V m c r = m ((c : Thread nD τ).loc r) :=
  keep_of_wr prefix_we.writesIn (fun hm => let ⟨W, hW, hr⟩ := List.mem_flatten.mp hm; h W hW hr) _

abbrev hostOps1_W : List (Ref sig .tc) := [main_v648, main_v649]
theorem hostOps1_we : WritesEach (hostOps1 : List (HloOp τ sig (Elt F))) hostOps1_W := by
  repeat' constructor
  all_goals wr_one

/-- Nor do the two operations after the region, nor the region's write-back, touch such a buffer when it is no window's array. -/
theorem W_keep {r : Ref sig .tc} (h : ∀ W ∈ prefixWs, r ∉ W) (h1 : r ∉ hostOps1_W) (hw : ∀ w, Pipeline.arrRef spec0 w ≠ r)
    (dats : (p : Fin _) → (c : Dev nD) → Dat τ (Elt F) Unit ℕ (UR sig nD τ) ℕ (cfgs p) c) (c : Dev nD) :
    Pipeline.afterTail₀ cfgs dats 0 (V0 m) [hostOps1] c r = m ((c : Thread nD τ).loc r) := by
  unfold Pipeline.afterTail₀
  exact (StableHlo.after_of_writes_sub (W := hostOps1_W) _ _ (hostOps1_we.append .nil).writesIn h1).trans
    ((Pipeline.withArrays_of_ne _ c (V0 m c) _ r hw).trans (V_keep m h c))

theorem V_main_arg6 (c : Dev nD) : V m c main_arg6 = m ((c : Thread nD τ).loc main_arg6) := V_keep m (by decide) c
theorem V_main_arg9 (c : Dev nD) : V m c main_arg9 = m ((c : Thread nD τ).loc main_arg9) := V_keep m (by decide) c
theorem V_main_arg10 (c : Dev nD) : V m c main_arg10 = m ((c : Thread nD τ).loc main_arg10) := V_keep m (by decide) c
theorem V_main_arg11 (c : Dev nD) : V m c main_arg11 = m ((c : Thread nD τ).loc main_arg11) := V_keep m (by decide) c
theorem V_main_arg12 (c : Dev nD) : V m c main_arg12 = m ((c : Thread nD τ).loc main_arg12) := V_keep m (by decide) c
theorem V_main_arg13 (c : Dev nD) : V m c main_arg13 = m ((c : Thread nD τ).loc main_arg13) := V_keep m (by decide) c
theorem V_main_arg14 (c : Dev nD) : V m c main_arg14 = m ((c : Thread nD τ).loc main_arg14) := V_keep m (by decide) c
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) :=
  W_keep m (by decide) (by decide) (by decide) dats c
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) :=
  W_keep m (by decide) (by decide) (by decide) dats c
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) :=
  W_keep m (by decide) (by decide) (by decide) dats c
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) :=
  W_keep m (by decide) (by decide) (by decide) dats c
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) :=
  W_keep m (by decide) (by decide) (by decide) dats c
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) :=
  W_keep m (by decide) (by decide) (by decide) dats c
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) :=
  W_keep m (by decide) (by decide) (by decide) dats c
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) :=
  W_keep m (by decide) (by decide) (by decide) dats c
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) :=
  W_keep m (by decide) (by decide) (by decide) dats c

end Cert.Kernel.Fr

end
-- ==== Proof.FrBodyK.lean ====
/-
  The region's body on whole blocks: it reads the feature block, the residual block and the six weight and bias arrays, and
  stores the residual plus the perceptron of the product of the six slices over the whole output block.
-/
import proofs.«414985_j5068061409687_4_alg».proof.Proof.Gen.Kernel.Launch
import proofs.«414985_j5068061409687_4_alg».proof.Proof.Gen.Kernel.Skeleton
import proofs.«414985_j5068061409687_4_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev rFeat : Rect S2000x192 := Rect.unit (s := S2000x192) ![0, 0] S2000x192.size inb_S2000x192_S2000x192_0_0
abbrev rRes : Rect S2000x48 := Rect.unit (s := S2000x48) ![0, 0] S2000x48.size inb_S2000x48_S2000x48_0_0
abbrev rWenc : Rect S32x256 := Rect.unit (s := S32x256) ![0, 0] S32x256.size inb_S32x256_S32x256_0_0
abbrev rB256 : Rect S256 := Rect.unit (s := S256) ![0] S256.size inb_S256_S256_0
abbrev rW1 : Rect S256x256 := Rect.unit (s := S256x256) ![0, 0] S256x256.size inb_S256x256_S256x256_0_0
abbrev rW2 : Rect S256x48 := Rect.unit (s := S256x48) ![0, 0] S256x48.size inb_S256x48_S256x48_0_0
abbrev rB48 : Rect S48 := Rect.unit (s := S48) ![0] S48.size inb_S48_S48_0

/-- The output block after the body: the one store of the value at what was read. -/
def out0_8 (x0 : Vec F S2000x192 .f32) (x1 : Vec F S2000x48 .f32) (x2 : Vec F S32x256 .f32) (x3 : Vec F S256 .f32)
    (x4 : Vec F S256x256 .f32) (x5 : Vec F S256 .f32) (x6 : Vec F S256x48 .f32) (x7 : Vec F S48 .f32) : Vec F S2000x48 .f32 :=
  View.canon [⟨rRes, k0_pay1 (View.ld x0 rFeat) (View.ld x2 rWenc) (View.ld x3 rB256) (View.ld x4 rW1) (View.ld x5 rB256)
    (View.ld x6 rW2) (View.ld x7 rB48) (View.ld x1 rRes)⟩]

/-- The one store covers the output block. -/
theorem cover0_8 (p0 : Vec F S2000x48 .f32) (y : S2000x48.Idx) :
    ∃ pc ∈ ([⟨rRes, p0⟩] : List (View.Piece (Elt F) S2000x48 .f32)), y ∈ pc.1.set :=
  View.cover_of_tiled [⟨rRes, p0⟩] S2000x48.size (by rfl) y

set_option maxHeartbeats 4000000 in

/-- The body leaves its inputs as they were and the output at `out0_8` of them. -/
theorem sound_kernel (c : Dev nD) (E : Set ℕ) (i : grid0.Coords)
    (arg1 : Memref sig .tc .vmem S2000x192 .f32) (harg1 : arg1.IsWhole) (arg2 : Memref sig .tc .vmem S2000x48 .f32) (harg2 : arg2.IsWhole)
    (arg3 : Memref sig .tc .vmem S32x256 .f32) (harg3 : arg3.IsWhole) (arg4 : Memref sig .tc .vmem S256 .f32) (harg4 : arg4.IsWhole)
    (arg5 : Memref sig .tc .vmem S256x256 .f32) (harg5 : arg5.IsWhole) (arg6 : Memref sig .tc .vmem S256 .f32) (harg6 : arg6.IsWhole)
    (arg7 : Memref sig .tc .vmem S256x48 .f32) (harg7 : arg7.IsWhole) (arg8 : Memref sig .tc .vmem S48 .f32) (harg8 : arg8.IsWhole)
    (arg9 : Memref sig .tc .vmem S2000x48 .f32) (harg9 : arg9.IsWhole)
    (x0 : Vec F S2000x192 .f32) (x1 : Vec F S2000x48 .f32) (x2 : Vec F S32x256 .f32) (x3 : Vec F S256 .f32)
    (x4 : Vec F S256x256 .f32) (x5 : Vec F S256 .f32) (x6 : Vec F S256x48 .f32) (x7 : Vec F S48 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (out0_8 x0 x1 x2 x3 x4 x5 x6 x7)) -∗ K ⟨⟩))
      ⊢ wp frame (wpE (defs₀ (F := F)) Variants.none c none) E
          (cc0__deform_kernel i arg1 harg1 arg2 harg2 arg3 harg3 arg4 harg4 arg5 harg5 arg6 harg6 arg7 harg7 arg8 harg8 arg9 harg9) K := by
  simp only [cc0__deform_kernel_eq_skeleton]; unfold cc0__deform_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover0_8 _)

end Cert.Kernel.Fr

end
-- ==== Proof.FrRunK.lean ====
/-
  The frame of the kernel's program: what the body does at every grid point gives the run of the whole program, and the
  argument arrays, which nothing writes, end as launched.
-/
import proofs.«414985_j5068061409687_4_alg».proof.Proof.Gen.Kernel.Launch
import proofs.«414985_j5068061409687_4_alg».proof.Proof.Gen.Kernel.Points
import proofs.«414985_j5068061409687_4_alg».proof.Proof.FrHostAK
import proofs.«414985_j5068061409687_4_alg».proof.Proof.FrHostBK
import proofs.«414985_j5068061409687_4_alg».proof.Proof.FrBodyK
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

local notation "𝕄" => MT nD τ sig Unit (Elt F) ℕ (UR sig nD τ) ℕ

/-- Block `t` of window `w` of the array as the region reads it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- A final state of the run has every argument as launched. -/
theorem frame_post (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (Pipeline.afterTail₀ cfgs dats 0 (V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c),
      ((h c).1 2).trans (((dats 0 c).arrAt_in 2 rfl _).trans ((hA c 2).trans (V_main_arg9 m c))),
      ((h c).1 3).trans (((dats 0 c).arrAt_in 3 rfl _).trans ((hA c 3).trans (V_main_arg10 m c))),
      ((h c).1 4).trans (((dats 0 c).arrAt_in 4 rfl _).trans ((hA c 4).trans (V_main_arg11 m c))),
      ((h c).1 5).trans (((dats 0 c).arrAt_in 5 rfl _).trans ((hA c 5).trans (V_main_arg12 m c))),
      ((h c).1 6).trans (((dats 0 c).arrAt_in 6 rfl _).trans ((hA c 6).trans (V_main_arg13 m c))),
      ((h c).1 7).trans (((dats 0 c).arrAt_in 7 rfl _).trans ((hA c 7).trans (V_main_arg14 m c)))⟩

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => frame_post m dats hA r h c) h

/-- What each block holds around the body at a point: an input its block of the array, before and after; the output the body's result. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = out0_8 (iblk m c 0 t) (iblk m c 1 t) (iblk m c 2 t) (iblk m c 3 t) (iblk m c 4 t) (iblk m c 5 t) (iblk m c 6 t) (iblk m c 7 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 4000000 in

/-- The body at any point, from its triple on whole blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dats (F := F) m 0 c) (defs₀ (F := F)) Variants.none () Set.univ := fun t => by
  rw [bigSep_W0, bigSep_W0]
  exact sound_body m c t

set_option backward.isDefEq.respectTransparency.types false in
set_option maxHeartbeats 4000000 in

/-- Every weakly fair execution of the program ends, the arrays at what the points wrote back. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim, at any float family. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.Kernel.Fr

end
-- ==== Proof.FrHostAKI.lean ====
/-
  The kernel's program around its region: the contents the region reads (the launch contents after the host operations
  before it, stretch by stretch), and the program as those stretches, the region and the two operations after it, which
  write none of the region's arrays.
-/
import proofs.«414985_j5068061409687_4_alg».proof.Proof.Gen.KernelIdeal.Launch
import proofs.«414985_j5068061409687_4_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The host operations before the region, stretch by stretch. -/
abbrev prefixOps : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52]

/-- The contents the region reads: the launch contents after those operations. -/
abbrev V0 (c : Dev nD) : Valuation τ sig (Elt F) := StableHlo.after (List.flatten prefixOps) (fun b => m (c, b))

abbrev V (c : Dev nD) (b : Ref sig .tc) : Buf (Elt F) ((c : Thread nD τ).loc b) := V0 m c (Proc.devRef .tc b)

/-- No operation of a stretch leaves a result's contents undetermined. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps0_21_fresh : (hostOps0_21 : List (HloOp τ sig (Elt F))).Forall fun op => op.fresh = ∅ := by
  simp only [List.Forall]; repeat' constructor
theorem hostOps0_22_fresh : (hostOps0_22 : List (HloOp τ sig (Elt F))).Forall fun op => op.fresh = ∅ := by
  simp only [List.Forall]; repeat' constructor
theorem hostOps0_23_fresh : (hostOps0_23 : List (HloOp τ sig (Elt F))).Forall fun op => op.fresh = ∅ := by
  simp only [List.Forall]; repeat' constructor
theorem hostOps0_24_fresh : (hostOps0_24 : List (HloOp τ sig (Elt F))).Forall fun op => op.fresh = ∅ := by
  simp only [List.Forall]; repeat' constructor
theorem hostOps0_25_fresh : (hostOps0_25 : List (HloOp τ sig (Elt F))).Forall fun op => op.fresh = ∅ := by
  simp only [List.Forall]; repeat' constructor
theorem hostOps0_26_fresh : (hostOps0_26 : List (HloOp τ sig (Elt F))).Forall fun op => op.fresh = ∅ := by
  simp only [List.Forall]; repeat' constructor
theorem hostOps0_27_fresh : (hostOps0_27 : List (HloOp τ sig (Elt F))).Forall fun op => op.fresh = ∅ := by
  simp only [List.Forall]; repeat' constructor
theorem hostOps0_28_fresh : (hostOps0_28 : List (HloOp τ sig (Elt F))).Forall fun op => op.fresh = ∅ := by
  simp only [List.Forall]; repeat' constructor
theorem hostOps0_29_fresh : (hostOps0_29 : List (HloOp τ sig (Elt F))).Forall fun op => op.fresh = ∅ := by
  simp only [List.Forall]; repeat' constructor
theorem hostOps0_30_fresh : (hostOps0_30 : List (HloOp τ sig (Elt F))).Forall fun op => op.fresh = ∅ := by
  simp only [List.Forall]; repeat' constructor
theorem hostOps0_31_fresh : (hostOps0_31 : List (HloOp τ sig (Elt F))).Forall fun op => op.fresh = ∅ := by
  simp only [List.Forall]; repeat' constructor
theorem hostOps0_32_fresh : (hostOps0_32 : List (HloOp τ sig (Elt F))).Forall fun op => op.fresh = ∅ := by
  simp only [List.Forall]; repeat' constructor
theorem hostOps0_33_fresh : (hostOps0_33 : List (HloOp τ sig (Elt F))).Forall fun op => op.fresh = ∅ := by
  simp only [List.Forall]; repeat' constructor
theorem hostOps0_34_fresh : (hostOps0_34 : List (HloOp τ sig (Elt F))).Forall fun op => op.fresh = ∅ := by
  simp only [List.Forall]; repeat' constructor
theorem hostOps0_35_fresh : (hostOps0_35 : List (HloOp τ sig (Elt F))).Forall fun op => op.fresh = ∅ := by
  simp only [List.Forall]; repeat' constructor
theorem hostOps0_36_fresh : (hostOps0_36 : List (HloOp τ sig (Elt F))).Forall fun op => op.fresh = ∅ := by
  simp only [List.Forall]; repeat' constructor
theorem hostOps0_37_fresh : (hostOps0_37 : List (HloOp τ sig (Elt F))).Forall fun op => op.fresh = ∅ := by
  simp only [List.Forall]; repeat' constructor
theorem hostOps0_38_fresh : (hostOps0_38 : List (HloOp τ sig (Elt F))).Forall fun op => op.fresh = ∅ := by
  simp only [List.Forall]; repeat' constructor
theorem hostOps0_39_fresh : (hostOps0_39 : List (HloOp τ sig (Elt F))).Forall fun op => op.fresh = ∅ := by
  simp only [List.Forall]; repeat' constructor
theorem hostOps0_40_fresh : (hostOps0_40 : List (HloOp τ sig (Elt F))).Forall fun op => op.fresh = ∅ := by
  simp only [List.Forall]; repeat' constructor
theorem hostOps0_41_fresh : (hostOps0_41 : List (HloOp τ sig (Elt F))).Forall fun op => op.fresh = ∅ := by
  simp only [List.Forall]; repeat' constructor
theorem hostOps0_42_fresh : (hostOps0_42 : List (HloOp τ sig (Elt F))).Forall fun op => op.fresh = ∅ := by
  simp only [List.Forall]; repeat' constructor
theorem hostOps0_43_fresh : (hostOps0_43 : List (HloOp τ sig (Elt F))).Forall fun op => op.fresh = ∅ := by
  simp only [List.Forall]; repeat' constructor
theorem hostOps0_44_fresh : (hostOps0_44 : List (HloOp τ sig (Elt F))).Forall fun op => op.fresh = ∅ := by
  simp only [List.Forall]; repeat' constructor
theorem hostOps0_45_fresh : (hostOps0_45 : List (HloOp τ sig (Elt F))).Forall fun op => op.fresh = ∅ := by
  simp only [List.Forall]; repeat' constructor
theorem hostOps0_46_fresh : (hostOps0_46 : List (HloOp τ sig (Elt F))).Forall fun op => op.fresh = ∅ := by
  simp only [List.Forall]; repeat' constructor
theorem hostOps0_47_fresh : (hostOps0_47 : List (HloOp τ sig (Elt F))).Forall fun op => op.fresh = ∅ := by
  simp only [List.Forall]; repeat' constructor
theorem hostOps0_48_fresh : (hostOps0_48 : List (HloOp τ sig (Elt F))).Forall fun op => op.fresh = ∅ := by
  simp only [List.Forall]; repeat' constructor
theorem hostOps0_49_fresh : (hostOps0_49 : List (HloOp τ sig (Elt F))).Forall fun op => op.fresh = ∅ := by
  simp only [List.Forall]; repeat' constructor
theorem hostOps0_50_fresh : (hostOps0_50 : List (HloOp τ sig (Elt F))).Forall fun op => op.fresh = ∅ := by
  simp only [List.Forall]; repeat' constructor
theorem hostOps0_51_fresh : (hostOps0_51 : List (HloOp τ sig (Elt F))).Forall fun op => op.fresh = ∅ := by
  simp only [List.Forall]; repeat' constructor
theorem hostOps0_52_fresh : (hostOps0_52 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem prefix_sub : (prefixOps (F := F)).Forall fun ops => ops.Forall fun op => op.bufs ⊆ StableHlo.tcRefs τ sig := by
  simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub, hostOps0_33_sub, hostOps0_34_sub, hostOps0_35_sub, hostOps0_36_sub, hostOps0_37_sub, hostOps0_38_sub, hostOps0_39_sub, hostOps0_40_sub, hostOps0_41_sub, hostOps0_42_sub, hostOps0_43_sub, hostOps0_44_sub, hostOps0_45_sub, hostOps0_46_sub, hostOps0_47_sub, hostOps0_48_sub, hostOps0_49_sub, hostOps0_50_sub, hostOps0_51_sub, hostOps0_52_sub⟩

theorem prefix_fresh : (prefixOps (F := F)).Forall fun ops => ops.Forall fun op => op.fresh = ∅ := by
  simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh, hostOps0_22_fresh, hostOps0_23_fresh, hostOps0_24_fresh, hostOps0_25_fresh, hostOps0_26_fresh, hostOps0_27_fresh, hostOps0_28_fresh, hostOps0_29_fresh, hostOps0_30_fresh, hostOps0_31_fresh, hostOps0_32_fresh, hostOps0_33_fresh, hostOps0_34_fresh, hostOps0_35_fresh, hostOps0_36_fresh, hostOps0_37_fresh, hostOps0_38_fresh, hostOps0_39_fresh, hostOps0_40_fresh, hostOps0_41_fresh, hostOps0_42_fresh, hostOps0_43_fresh, hostOps0_44_fresh, hostOps0_45_fresh, hostOps0_46_fresh, hostOps0_47_fresh, hostOps0_48_fresh, hostOps0_49_fresh, hostOps0_50_fresh, hostOps0_51_fresh, hostOps0_52_fresh⟩

set_option maxHeartbeats 4000000 in

/-- The program is the stretches, the region, then the two operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main prefixOps [hostOps1] prefix_sub prefix_fresh main_chain

/-- The two operations after the region touch only the region's arrays and buffers outside it, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

/-- and write none of the region's arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

end Cert.KernelIdeal.Fr

end
-- ==== Proof.FrHostBKI.lean ====
/-
  No host operation of the kernel's program writes an argument array. Each operation writes only its own result buffer;
  the result buffers are listed stretch by stretch, and a buffer in none of the lists is found as launched when the
  region is entered, and is left so by the two operations after it.
-/
import proofs.«414985_j5068061409687_4_alg».proof.Proof.Gen.KernelIdeal.Launch
import proofs.«414985_j5068061409687_4_alg».proof.Proof.Gen.KernelIdeal.Points
import proofs.«414985_j5068061409687_4_alg».proof.Proof.FrHostAKI
import proofs.«414985_j5068061409687_4_alg».proof.Proof.LibAfter
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen Cert.LibAfter
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

local macro "wr_one" : tactic =>
  `(tactic| (simp only [StableHlo.nullary_writes, StableHlo.unary_writes, StableHlo.binary_writes, StableHlo.ternary_writes, StableHlo.quaternary_writes, StableHlo.reshape_writes, StableHlo.binaryIndexed_writes, StableHlo.nary_writes]; exact Finset.Subset.refl _))

abbrev hostOps0_W : List (Ref sig .tc) := [main_cst, main_v0, main_v1, main_cst_0, main_cst_1]
set_option maxHeartbeats 4000000 in
theorem hostOps0_we : WritesEach (hostOps0 : List (HloOp τ sig (Elt F))) hostOps0_W := by
  repeat' constructor
  all_goals wr_one
abbrev hostOps0_1_W : List (Ref sig .tc) := [main_call0_v0, main_call0_v1, main_call0_v2, main_call0_v3, main_call0_v4, main_v2]
set_option maxHeartbeats 4000000 in
theorem hostOps0_1_we : WritesEach (hostOps0_1 : List (HloOp τ sig (Elt F))) hostOps0_1_W := by
  repeat' constructor
  all_goals wr_one
abbrev hostOps0_2_W : List (Ref sig .tc) := [main_cst_2, main_v3, main_v4, main_cst_3, main_v5, main_v6, main_v7, main_v8, main_v9, main_v10, main_v11, main_v12, main_v13, main_cst_4, main_cst_5]
set_option maxHeartbeats 4000000 in
theorem hostOps0_2_we : WritesEach (hostOps0_2 : List (HloOp τ sig (Elt F))) hostOps0_2_W := by
  repeat' constructor
  all_goals wr_one
abbrev hostOps0_3_W : List (Ref sig .tc) := [main_call1_v0, main_call1_v1, main_call1_v2, main_call1_v3, main_call1_v4, main_v14]
set_option maxHeartbeats 4000000 in
theorem hostOps0_3_we : WritesEach (hostOps0_3 : List (HloOp τ sig (Elt F))) hostOps0_3_W := by
  repeat' constructor
  all_goals wr_one
abbrev hostOps0_4_W : List (Ref sig .tc) := [main_v15, main_v16, main_cst_6, main_cst_7]
set_option maxHeartbeats 4000000 in
theorem hostOps0_4_we : WritesEach (hostOps0_4 : List (HloOp τ sig (Elt F))) hostOps0_4_W := by
  repeat' constructor
  all_goals wr_one
abbrev hostOps0_5_W : List (Ref sig .tc) := [main_call2_v0, main_call2_v1, main_call2_v2, main_call2_v3, main_call2_v4, main_v17]
set_option maxHeartbeats 4000000 in
theorem hostOps0_5_we : WritesEach (hostOps0_5 : List (HloOp τ sig (Elt F))) hostOps0_5_W := by
  repeat' constructor
  all_goals wr_one
abbrev hostOps0_6_W : List (Ref sig .tc) := [main_cst_8, main_v18, main_v19, main_cst_9, main_cst_10]
set_option maxHeartbeats 4000000 in
theorem hostOps0_6_we : WritesEach (hostOps0_6 : List (HloOp τ sig (Elt F))) hostOps0_6_W := by
  repeat' constructor
  all_goals wr_one
abbrev hostOps0_7_W : List (Ref sig .tc) := [main_call3_v0, main_call3_v1, main_call3_v2, main_call3_v3, main_call3_v4, main_v20]
set_option maxHeartbeats 4000000 in
theorem hostOps0_7_we : WritesEach (hostOps0_7 : List (HloOp τ sig (Elt F))) hostOps0_7_W := by
  repeat' constructor
  all_goals wr_one
abbrev hostOps0_8_W : List (Ref sig .tc) := [main_cst_11, main_v21, main_v22, main_v23, main_c, main_c_12]
set_option maxHeartbeats 4000000 in
theorem hostOps0_8_we : WritesEach (hostOps0_8 : List (HloOp τ sig (Elt F))) hostOps0_8_W := by
  repeat' constructor
  all_goals wr_one
abbrev hostOps0_9_W : List (Ref sig .tc) := [main_call4_v0, main_call4_v1, main_call4_v2, main_call4_v3, main_call4_v4, main_v24]
set_option maxHeartbeats 4000000 in
theorem hostOps0_9_we : WritesEach (hostOps0_9 : List (HloOp τ sig (Elt F))) hostOps0_9_W := by
  repeat' constructor
  all_goals wr_one
abbrev hostOps0_10_W : List (Ref sig .tc) := [main_v25, main_v26, main_c_13, main_c_14]
set_option maxHeartbeats 4000000 in
theorem hostOps0_10_we : WritesEach (hostOps0_10 : List (HloOp τ sig (Elt F))) hostOps0_10_W := by
  repeat' constructor
  all_goals wr_one
abbrev hostOps0_11_W : List (Ref sig .tc) := [main_call5_v0, main_call5_v1, main_call5_v2, main_call5_v3, main_call5_v4, main_v27]
set_option maxHeartbeats 4000000 in
theorem hostOps0_11_we : WritesEach (hostOps0_11 : List (HloOp τ sig (Elt F))) hostOps0_11_W := by
  repeat' constructor
  all_goals wr_one
abbrev hostOps0_12_W : List (Ref sig .tc) := [main_v28, main_v29, main_v30, main_v31, main_v32, main_v33, main_v34, main_c_15, main_v35, main_v36, main_c_16, main_v37, main_v38, main_v39, main_c_17, main_v40, main_v41, main_c_18, main_v42, main_v43, main_v44, main_v45, main_v46, main_v47, main_v48, main_c_19, main_v49, main_v50, main_c_20, main_v51, main_v52, main_c_21, main_v53, main_v54, main_v55, main_c_22, main_v56, main_v57, main_c_23, main_v58, main_v59, main_v60, main_v61, main_v62, main_v63, main_v64, main_c_24, main_v65, main_v66, main_c_25, main_v67, main_v68, main_c_26, main_v69, main_v70, main_v71, main_c_27, main_v72, main_v73, main_c_28, main_v74, main_v75, main_v76, main_v77, main_v78, main_v79, main_v80, main_c_29, main_v81, main_v82, main_c_30, main_v83, main_v84, main_c_31, main_v85, main_v86, main_c_32, main_v87, main_v88, main_v89, main_c_33, main_v90, main_v91, main_c_34, main_v92, main_v93, main_v94, main_v95, main_v96, main_v97, main_v98, main_cst_35, main_v99, main_v100, main_v101, main_v102, main_v103, main_v104, main_v105, main_cst_36, main_v106, main_v107, main_v108, main_v109, main_cst_37, main_v110, main_v111, main_v112, main_v113, main_v114, main_v115, main_v116, main_v117, main_v118, main_v119, main_v120, main_v121, main_cst_38, main_cst_39]
set_option maxHeartbeats 4000000 in
theorem hostOps0_12_we : WritesEach (hostOps0_12 : List (HloOp τ sig (Elt F))) hostOps0_12_W := by
  repeat' constructor
  all_goals wr_one
abbrev hostOps0_13_W : List (Ref sig .tc) := [main_call6_v0, main_call6_v1, main_call6_v2, main_call6_v3, main_call6_v4, main_v122]
set_option maxHeartbeats 4000000 in
theorem hostOps0_13_we : WritesEach (hostOps0_13 : List (HloOp τ sig (Elt F))) hostOps0_13_W := by
  repeat' constructor
  all_goals wr_one
abbrev hostOps0_14_W : List (Ref sig .tc) := [main_cst_40, main_v123, main_v124, main_cst_41, main_cst_42]
set_option maxHeartbeats 4000000 in
theorem hostOps0_14_we : WritesEach (hostOps0_14 : List (HloOp τ sig (Elt F))) hostOps0_14_W := by
  repeat' constructor
  all_goals wr_one
abbrev hostOps0_15_W : List (Ref sig .tc) := [main_call7_v0, main_call7_v1, main_call7_v2, main_call7_v3, main_call7_v4, main_v125]
set_option maxHeartbeats 4000000 in
theorem hostOps0_15_we : WritesEach (hostOps0_15 : List (HloOp τ sig (Elt F))) hostOps0_15_W := by
  repeat' constructor
  all_goals wr_one
abbrev hostOps0_16_W : List (Ref sig .tc) := [main_cst_43, main_v126, main_v127, main_v128, main_c_44, main_c_45]
set_option maxHeartbeats 4000000 in
theorem hostOps0_16_we : WritesEach (hostOps0_16 : List (HloOp τ sig (Elt F))) hostOps0_16_W := by
  repeat' constructor
  all_goals wr_one
abbrev hostOps0_17_W : List (Ref sig .tc) := [main_call8_v0, main_call8_v1, main_call8_v2, main_call8_v3, main_call8_v4, main_v129]
set_option maxHeartbeats 4000000 in
theorem hostOps0_17_we : WritesEach (hostOps0_17 : List (HloOp τ sig (Elt F))) hostOps0_17_W := by
  repeat' constructor
  all_goals wr_one
abbrev hostOps0_18_W : List (Ref sig .tc) := [main_v130, main_v131, main_c_46, main_c_47]
set_option maxHeartbeats 4000000 in
theorem hostOps0_18_we : WritesEach (hostOps0_18 : List (HloOp τ sig (Elt F))) hostOps0_18_W := by
  repeat' constructor
  all_goals wr_one
abbrev hostOps0_19_W : List (Ref sig .tc) := [main_call9_v0, main_call9_v1, main_call9_v2, main_call9_v3, main_call9_v4, main_v132]
set_option maxHeartbeats 4000000 in
theorem hostOps0_19_we : WritesEach (hostOps0_19 : List (HloOp τ sig (Elt F))) hostOps0_19_W := by
  repeat' constructor
  all_goals wr_one
abbrev hostOps0_20_W : List (Ref sig .tc) := [main_v133, main_v134, main_v135, main_v136, main_v137, main_v138, main_v139, main_c_48, main_v140, main_v141, main_c_49, main_v142, main_v143, main_v144, main_c_50, main_v145, main_v146, main_c_51, main_v147, main_v148, main_v149, main_v150, main_v151, main_v152, main_v153, main_c_52, main_v154, main_v155, main_c_53, main_v156, main_v157, main_c_54, main_v158, main_v159, main_v160, main_c_55, main_v161, main_v162, main_c_56, main_v163, main_v164, main_v165, main_v166, main_v167, main_v168, main_v169, main_c_57, main_v170, main_v171, main_c_58, main_v172, main_v173, main_c_59, main_v174, main_v175, main_v176, main_c_60, main_v177, main_v178, main_c_61, main_v179, main_v180, main_v181, main_v182, main_v183, main_v184, main_v185, main_c_62, main_v186, main_v187, main_c_63, main_v188, main_v189, main_c_64, main_v190, main_v191, main_c_65, main_v192, main_v193, main_v194, main_c_66, main_v195, main_v196, main_c_67, main_v197, main_v198, main_v199, main_v200, main_v201, main_v202, main_v203, main_cst_68, main_v204, main_v205, main_v206, main_v207, main_v208, main_v209, main_v210, main_cst_69, main_v211, main_v212, main_v213, main_v214, main_cst_70, main_v215, main_v216, main_v217, main_v218, main_v219, main_v220, main_v221, main_v222, main_v223, main_v224, main_v225, main_v226, main_cst_71, main_cst_72]
set_option maxHeartbeats 4000000 in
theorem hostOps0_20_we : WritesEach (hostOps0_20 : List (HloOp τ sig (Elt F))) hostOps0_20_W := by
  repeat' constructor
  all_goals wr_one
abbrev hostOps0_21_W : List (Ref sig .tc) := [main_call10_v0, main_call10_v1, main_call10_v2, main_call10_v3, main_call10_v4, main_v227]
set_option maxHeartbeats 4000000 in
theorem hostOps0_21_we : WritesEach (hostOps0_21 : List (HloOp τ sig (Elt F))) hostOps0_21_W := by
  repeat' constructor
  all_goals wr_one
abbrev hostOps0_22_W : List (Ref sig .tc) := [main_cst_73, main_v228, main_v229, main_cst_74, main_cst_75]
set_option maxHeartbeats 4000000 in
theorem hostOps0_22_we : WritesEach (hostOps0_22 : List (HloOp τ sig (Elt F))) hostOps0_22_W := by
  repeat' constructor
  all_goals wr_one
abbrev hostOps0_23_W : List (Ref sig .tc) := [main_call11_v0, main_call11_v1, main_call11_v2, main_call11_v3, main_call11_v4, main_v230]
set_option maxHeartbeats 4000000 in
theorem hostOps0_23_we : WritesEach (hostOps0_23 : List (HloOp τ sig (Elt F))) hostOps0_23_W := by
  repeat' constructor
  all_goals wr_one
abbrev hostOps0_24_W : List (Ref sig .tc) := [main_cst_76, main_v231, main_v232, main_v233, main_c_77, main_c_78]
set_option maxHeartbeats 4000000 in
theorem hostOps0_24_we : WritesEach (hostOps0_24 : List (HloOp τ sig (Elt F))) hostOps0_24_W := by
  repeat' constructor
  all_goals wr_one
abbrev hostOps0_25_W : List (Ref sig .tc) := [main_call12_v0, main_call12_v1, main_call12_v2, main_call12_v3, main_call12_v4, main_v234]
set_option maxHeartbeats 4000000 in
theorem hostOps0_25_we : WritesEach (hostOps0_25 : List (HloOp τ sig (Elt F))) hostOps0_25_W := by
  repeat' constructor
  all_goals wr_one
abbrev hostOps0_26_W : List (Ref sig .tc) := [main_v235, main_v236, main_c_79, main_c_80]
set_option maxHeartbeats 4000000 in
theorem hostOps0_26_we : WritesEach (hostOps0_26 : List (HloOp τ sig (Elt F))) hostOps0_26_W := by
  repeat' constructor
  all_goals wr_one
abbrev hostOps0_27_W : List (Ref sig .tc) := [main_call13_v0, main_call13_v1, main_call13_v2, main_call13_v3, main_call13_v4, main_v237]
set_option maxHeartbeats 4000000 in
theorem hostOps0_27_we : WritesEach (hostOps0_27 : List (HloOp τ sig (Elt F))) hostOps0_27_W := by
  repeat' constructor
  all_goals wr_one
abbrev hostOps0_28_W : List (Ref sig .tc) := [main_v238, main_v239, main_v240, main_v241, main_v242, main_v243, main_v244, main_c_81, main_v245, main_v246, main_c_82, main_v247, main_v248, main_v249, main_c_83, main_v250, main_v251, main_c_84, main_v252, main_v253, main_v254, main_v255, main_v256, main_v257, main_v258, main_c_85, main_v259, main_v260, main_c_86, main_v261, main_v262, main_c_87, main_v263, main_v264, main_v265, main_c_88, main_v266, main_v267, main_c_89, main_v268, main_v269, main_v270, main_v271, main_v272, main_v273, main_v274, main_c_90, main_v275, main_v276, main_c_91, main_v277, main_v278, main_c_92, main_v279, main_v280, main_v281, main_c_93, main_v282, main_v283, main_c_94, main_v284, main_v285, main_v286, main_v287, main_v288, main_v289, main_v290, main_c_95, main_v291, main_v292, main_c_96, main_v293, main_v294, main_c_97, main_v295, main_v296, main_c_98, main_v297, main_v298, main_v299, main_c_99, main_v300, main_v301, main_c_100, main_v302, main_v303, main_v304, main_v305, main_v306, main_v307, main_v308, main_cst_101, main_v309, main_v310, main_v311, main_v312, main_v313, main_v314, main_v315, main_cst_102, main_v316, main_v317, main_v318, main_v319, main_cst_103, main_v320, main_v321, main_v322, main_v323, main_v324, main_v325, main_v326, main_v327, main_v328, main_v329, main_v330, main_v331, main_cst_104, main_cst_105]
set_option maxHeartbeats 4000000 in
theorem hostOps0_28_we : WritesEach (hostOps0_28 : List (HloOp τ sig (Elt F))) hostOps0_28_W := by
  repeat' constructor
  all_goals wr_one
abbrev hostOps0_29_W : List (Ref sig .tc) := [main_call14_v0, main_call14_v1, main_call14_v2, main_call14_v3, main_call14_v4, main_v332]
set_option maxHeartbeats 4000000 in
theorem hostOps0_29_we : WritesEach (hostOps0_29 : List (HloOp τ sig (Elt F))) hostOps0_29_W := by
  repeat' constructor
  all_goals wr_one
abbrev hostOps0_30_W : List (Ref sig .tc) := [main_cst_106, main_v333, main_v334, main_cst_107, main_cst_108]
set_option maxHeartbeats 4000000 in
theorem hostOps0_30_we : WritesEach (hostOps0_30 : List (HloOp τ sig (Elt F))) hostOps0_30_W := by
  repeat' constructor
  all_goals wr_one
abbrev hostOps0_31_W : List (Ref sig .tc) := [main_call15_v0, main_call15_v1, main_call15_v2, main_call15_v3, main_call15_v4, main_v335]
set_option maxHeartbeats 4000000 in
theorem hostOps0_31_we : WritesEach (hostOps0_31 : List (HloOp τ sig (Elt F))) hostOps0_31_W := by
  repeat' constructor
  all_goals wr_one
abbrev hostOps0_32_W : List (Ref sig .tc) := [main_cst_109, main_v336, main_v337, main_v338, main_c_110, main_c_111]
set_option maxHeartbeats 4000000 in
theorem hostOps0_32_we : WritesEach (hostOps0_32 : List (HloOp τ sig (Elt F))) hostOps0_32_W := by
  repeat' constructor
  all_goals wr_one
abbrev hostOps0_33_W : List (Ref sig .tc) := [main_call16_v0, main_call16_v1, main_call16_v2, main_call16_v3, main_call16_v4, main_v339]
set_option maxHeartbeats 4000000 in
theorem hostOps0_33_we : WritesEach (hostOps0_33 : List (HloOp τ sig (Elt F))) hostOps0_33_W := by
  repeat' constructor
  all_goals wr_one
abbrev hostOps0_34_W : List (Ref sig .tc) := [main_v340, main_v341, main_c_112, main_c_113]
set_option maxHeartbeats 4000000 in
theorem hostOps0_34_we : WritesEach (hostOps0_34 : List (HloOp τ sig (Elt F))) hostOps0_34_W := by
  repeat' constructor
  all_goals wr_one
abbrev hostOps0_35_W : List (Ref sig .tc) := [main_call17_v0, main_call17_v1, main_call17_v2, main_call17_v3, main_call17_v4, main_v342]
set_option maxHeartbeats 4000000 in
theorem hostOps0_35_we : WritesEach (hostOps0_35 : List (HloOp τ sig (Elt F))) hostOps0_35_W := by
  repeat' constructor
  all_goals wr_one
abbrev hostOps0_36_W : List (Ref sig .tc) := [main_v343, main_v344, main_v345, main_v346, main_v347, main_v348, main_v349, main_c_114, main_v350, main_v351, main_c_115, main_v352, main_v353, main_v354, main_c_116, main_v355, main_v356, main_c_117, main_v357, main_v358, main_v359, main_v360, main_v361, main_v362, main_v363, main_c_118, main_v364, main_v365, main_c_119, main_v366, main_v367, main_c_120, main_v368, main_v369, main_v370, main_c_121, main_v371, main_v372, main_c_122, main_v373, main_v374, main_v375, main_v376, main_v377, main_v378, main_v379, main_c_123, main_v380, main_v381, main_c_124, main_v382, main_v383, main_c_125, main_v384, main_v385, main_v386, main_c_126, main_v387, main_v388, main_c_127, main_v389, main_v390, main_v391, main_v392, main_v393, main_v394, main_v395, main_c_128, main_v396, main_v397, main_c_129, main_v398, main_v399, main_c_130, main_v400, main_v401, main_c_131, main_v402, main_v403, main_v404, main_c_132, main_v405, main_v406, main_c_133, main_v407, main_v408, main_v409, main_v410, main_v411, main_v412, main_v413, main_cst_134, main_v414, main_v415, main_v416, main_v417, main_v418, main_v419, main_v420, main_cst_135, main_v421, main_v422, main_v423, main_v424, main_cst_136, main_v425, main_v426, main_v427, main_v428, main_v429, main_v430, main_v431, main_v432, main_v433, main_v434, main_v435, main_v436, main_cst_137, main_cst_138]
set_option maxHeartbeats 4000000 in
theorem hostOps0_36_we : WritesEach (hostOps0_36 : List (HloOp τ sig (Elt F))) hostOps0_36_W := by
  repeat' constructor
  all_goals wr_one
abbrev hostOps0_37_W : List (Ref sig .tc) := [main_call18_v0, main_call18_v1, main_call18_v2, main_call18_v3, main_call18_v4, main_v437]
set_option maxHeartbeats 4000000 in
theorem hostOps0_37_we : WritesEach (hostOps0_37 : List (HloOp τ sig (Elt F))) hostOps0_37_W := by
  repeat' constructor
  all_goals wr_one
abbrev hostOps0_38_W : List (Ref sig .tc) := [main_cst_139, main_v438, main_v439, main_cst_140, main_cst_141]
set_option maxHeartbeats 4000000 in
theorem hostOps0_38_we : WritesEach (hostOps0_38 : List (HloOp τ sig (Elt F))) hostOps0_38_W := by
  repeat' constructor
  all_goals wr_one
abbrev hostOps0_39_W : List (Ref sig .tc) := [main_call19_v0, main_call19_v1, main_call19_v2, main_call19_v3, main_call19_v4, main_v440]
set_option maxHeartbeats 4000000 in
theorem hostOps0_39_we : WritesEach (hostOps0_39 : List (HloOp τ sig (Elt F))) hostOps0_39_W := by
  repeat' constructor
  all_goals wr_one
abbrev hostOps0_40_W : List (Ref sig .tc) := [main_cst_142, main_v441, main_v442, main_v443, main_c_143, main_c_144]
set_option maxHeartbeats 4000000 in
theorem hostOps0_40_we : WritesEach (hostOps0_40 : List (HloOp τ sig (Elt F))) hostOps0_40_W := by
  repeat' constructor
  all_goals wr_one
abbrev hostOps0_41_W : List (Ref sig .tc) := [main_call20_v0, main_call20_v1, main_call20_v2, main_call20_v3, main_call20_v4, main_v444]
set_option maxHeartbeats 4000000 in
theorem hostOps0_41_we : WritesEach (hostOps0_41 : List (HloOp τ sig (Elt F))) hostOps0_41_W := by
  repeat' constructor
  all_goals wr_one
abbrev hostOps0_42_W : List (Ref sig .tc) := [main_v445, main_v446, main_c_145, main_c_146]
set_option maxHeartbeats 4000000 in
theorem hostOps0_42_we : WritesEach (hostOps0_42 : List (HloOp τ sig (Elt F))) hostOps0_42_W := by
  repeat' constructor
  all_goals wr_one
abbrev hostOps0_43_W : List (Ref sig .tc) := [main_call21_v0, main_call21_v1, main_call21_v2, main_call21_v3, main_call21_v4, main_v447]
set_option maxHeartbeats 4000000 in
theorem hostOps0_43_we : WritesEach (hostOps0_43 : List (HloOp τ sig (Elt F))) hostOps0_43_W := by
  repeat' constructor
  all_goals wr_one
abbrev hostOps0_44_W : List (Ref sig .tc) := [main_v448, main_v449, main_v450, main_v451, main_v452, main_v453, main_v454, main_c_147, main_v455, main_v456, main_c_148, main_v457, main_v458, main_v459, main_c_149, main_v460, main_v461, main_c_150, main_v462, main_v463, main_v464, main_v465, main_v466, main_v467, main_v468, main_c_151, main_v469, main_v470, main_c_152, main_v471, main_v472, main_c_153, main_v473, main_v474, main_v475, main_c_154, main_v476, main_v477, main_c_155, main_v478, main_v479, main_v480, main_v481, main_v482, main_v483, main_v484, main_c_156, main_v485, main_v486, main_c_157, main_v487, main_v488, main_c_158, main_v489, main_v490, main_v491, main_c_159, main_v492, main_v493, main_c_160, main_v494, main_v495, main_v496, main_v497, main_v498, main_v499, main_v500, main_c_161, main_v501, main_v502, main_c_162, main_v503, main_v504, main_c_163, main_v505, main_v506, main_c_164, main_v507, main_v508, main_v509, main_c_165, main_v510, main_v511, main_c_166, main_v512, main_v513, main_v514, main_v515, main_v516, main_v517, main_v518, main_cst_167, main_v519, main_v520, main_v521, main_v522, main_v523, main_v524, main_v525, main_cst_168, main_v526, main_v527, main_v528, main_v529, main_cst_169, main_v530, main_v531, main_v532, main_v533, main_v534, main_v535, main_v536, main_v537, main_v538, main_v539, main_v540, main_v541, main_cst_170, main_cst_171]
set_option maxHeartbeats 4000000 in
theorem hostOps0_44_we : WritesEach (hostOps0_44 : List (HloOp τ sig (Elt F))) hostOps0_44_W := by
  repeat' constructor
  all_goals wr_one
abbrev hostOps0_45_W : List (Ref sig .tc) := [main_call22_v0, main_call22_v1, main_call22_v2, main_call22_v3, main_call22_v4, main_v542]
set_option maxHeartbeats 4000000 in
theorem hostOps0_45_we : WritesEach (hostOps0_45 : List (HloOp τ sig (Elt F))) hostOps0_45_W := by
  repeat' constructor
  all_goals wr_one
abbrev hostOps0_46_W : List (Ref sig .tc) := [main_cst_172, main_v543, main_v544, main_cst_173, main_cst_174]
set_option maxHeartbeats 4000000 in
theorem hostOps0_46_we : WritesEach (hostOps0_46 : List (HloOp τ sig (Elt F))) hostOps0_46_W := by
  repeat' constructor
  all_goals wr_one
abbrev hostOps0_47_W : List (Ref sig .tc) := [main_call23_v0, main_call23_v1, main_call23_v2, main_call23_v3, main_call23_v4, main_v545]
set_option maxHeartbeats 4000000 in
theorem hostOps0_47_we : WritesEach (hostOps0_47 : List (HloOp τ sig (Elt F))) hostOps0_47_W := by
  repeat' constructor
  all_goals wr_one
abbrev hostOps0_48_W : List (Ref sig .tc) := [main_cst_175, main_v546, main_v547, main_v548, main_c_176, main_c_177]
set_option maxHeartbeats 4000000 in
theorem hostOps0_48_we : WritesEach (hostOps0_48 : List (HloOp τ sig (Elt F))) hostOps0_48_W := by
  repeat' constructor
  all_goals wr_one
abbrev hostOps0_49_W : List (Ref sig .tc) := [main_call24_v0, main_call24_v1, main_call24_v2, main_call24_v3, main_call24_v4, main_v549]
set_option maxHeartbeats 4000000 in
theorem hostOps0_49_we : WritesEach (hostOps0_49 : List (HloOp τ sig (Elt F))) hostOps0_49_W := by
  repeat' constructor
  all_goals wr_one
abbrev hostOps0_50_W : List (Ref sig .tc) := [main_v550, main_v551, main_c_178, main_c_179]
set_option maxHeartbeats 4000000 in
theorem hostOps0_50_we : WritesEach (hostOps0_50 : List (HloOp τ sig (Elt F))) hostOps0_50_W := by
  repeat' constructor
  all_goals wr_one
abbrev hostOps0_51_W : List (Ref sig .tc) := [main_call25_v0, main_call25_v1, main_call25_v2, main_call25_v3, main_call25_v4, main_v552]
set_option maxHeartbeats 4000000 in
theorem hostOps0_51_we : WritesEach (hostOps0_51 : List (HloOp τ sig (Elt F))) hostOps0_51_W := by
  repeat' constructor
  all_goals wr_one
abbrev hostOps0_52_W : List (Ref sig .tc) := [main_v553, main_v554, main_v555, main_v556, main_v557, main_v558, main_v559, main_c_180, main_v560, main_v561, main_c_181, main_v562, main_v563, main_v564, main_c_182, main_v565, main_v566, main_c_183, main_v567, main_v568, main_v569, main_v570, main_v571, main_v572, main_v573, main_c_184, main_v574, main_v575, main_c_185, main_v576, main_v577, main_c_186, main_v578, main_v579, main_v580, main_c_187, main_v581, main_v582, main_c_188, main_v583, main_v584, main_v585, main_v586, main_v587, main_v588, main_v589, main_c_189, main_v590, main_v591, main_c_190, main_v592, main_v593, main_c_191, main_v594, main_v595, main_v596, main_c_192, main_v597, main_v598, main_c_193, main_v599, main_v600, main_v601, main_v602, main_v603, main_v604, main_v605, main_c_194, main_v606, main_v607, main_c_195, main_v608, main_v609, main_c_196, main_v610, main_v611, main_c_197, main_v612, main_v613, main_v614, main_c_198, main_v615, main_v616, main_c_199, main_v617, main_v618, main_v619, main_v620, main_v621, main_v622, main_v623, main_cst_200, main_v624, main_v625, main_v626, main_v627, main_v628, main_v629, main_v630, main_cst_201, main_v631, main_v632, main_v633, main_v634, main_cst_202, main_v635, main_v636, main_v637, main_v638, main_v639, main_v640, main_v641, main_v642, main_v643, main_v644, main_v645, main_v646]
set_option maxHeartbeats 4000000 in
theorem hostOps0_52_we : WritesEach (hostOps0_52 : List (HloOp τ sig (Elt F))) hostOps0_52_W := by
  repeat' constructor
  all_goals wr_one

/-- The stretches' lists, in the stretches' order. -/
abbrev prefixWs : List (List (Ref sig .tc)) := [hostOps0_W, hostOps0_1_W, hostOps0_2_W, hostOps0_3_W, hostOps0_4_W, hostOps0_5_W, hostOps0_6_W, hostOps0_7_W, hostOps0_8_W, hostOps0_9_W, hostOps0_10_W, hostOps0_11_W, hostOps0_12_W, hostOps0_13_W, hostOps0_14_W, hostOps0_15_W, hostOps0_16_W, hostOps0_17_W, hostOps0_18_W, hostOps0_19_W, hostOps0_20_W, hostOps0_21_W, hostOps0_22_W, hostOps0_23_W, hostOps0_24_W, hostOps0_25_W, hostOps0_26_W, hostOps0_27_W, hostOps0_28_W, hostOps0_29_W, hostOps0_30_W, hostOps0_31_W, hostOps0_32_W, hostOps0_33_W, hostOps0_34_W, hostOps0_35_W, hostOps0_36_W, hostOps0_37_W, hostOps0_38_W, hostOps0_39_W, hostOps0_40_W, hostOps0_41_W, hostOps0_42_W, hostOps0_43_W, hostOps0_44_W, hostOps0_45_W, hostOps0_46_W, hostOps0_47_W, hostOps0_48_W, hostOps0_49_W, hostOps0_50_W, hostOps0_51_W, hostOps0_52_W]

/-- All the operations before the region, place by place: the stretches' facts, joined. -/
theorem prefix_we : WritesEach (List.flatten (prefixOps (F := F))) (List.flatten prefixWs) :=
  WritesEach.flatten (.cons hostOps0_we (.cons hostOps0_1_we (.cons hostOps0_2_we (.cons hostOps0_3_we (.cons hostOps0_4_we (.cons hostOps0_5_we (.cons hostOps0_6_we (.cons hostOps0_7_we (.cons hostOps0_8_we (.cons hostOps0_9_we (.cons hostOps0_10_we (.cons hostOps0_11_we (.cons hostOps0_12_we (.cons hostOps0_13_we (.cons hostOps0_14_we (.cons hostOps0_15_we (.cons hostOps0_16_we (.cons hostOps0_17_we (.cons hostOps0_18_we (.cons hostOps0_19_we (.cons hostOps0_20_we (.cons hostOps0_21_we (.cons hostOps0_22_we (.cons hostOps0_23_we (.cons hostOps0_24_we (.cons hostOps0_25_we (.cons hostOps0_26_we (.cons hostOps0_27_we (.cons hostOps0_28_we (.cons hostOps0_29_we (.cons hostOps0_30_we (.cons hostOps0_31_we (.cons hostOps0_32_we (.cons hostOps0_33_we (.cons hostOps0_34_we (.cons hostOps0_35_we (.cons hostOps0_36_we (.cons hostOps0_37_we (.cons hostOps0_38_we (.cons hostOps0_39_we (.cons hostOps0_40_we (.cons hostOps0_41_we (.cons hostOps0_42_we (.cons hostOps0_43_we (.cons hostOps0_44_we (.cons hostOps0_45_we (.cons hostOps0_46_we (.cons hostOps0_47_we (.cons hostOps0_48_we (.cons hostOps0_49_we (.cons hostOps0_50_we (.cons hostOps0_51_we (.cons hostOps0_52_we (.nil))))))))))))))))))))))))))))))))))))))))))))))))))))))

/-- A buffer in none of the lists is found as launched when the region is entered. -/
theorem V_keep {r : Ref sig .tc} (h : ∀ W ∈ prefixWs, r ∉ W) (c : Dev nD) : V m c r = m ((c : Thread nD τ).loc r) :=
  keep_of_wr prefix_we.writesIn (fun hm => let ⟨W, hW, hr⟩ := List.mem_flatten.mp hm; h W hW hr) _

abbrev hostOps1_W : List (Ref sig .tc) := [main_v648, main_v649]
theorem hostOps1_we : WritesEach (hostOps1 : List (HloOp τ sig (Elt F))) hostOps1_W := by
  repeat' constructor
  all_goals wr_one

/-- Nor do the two operations after the region, nor the region's write-back, touch such a buffer when it is no window's array. -/
theorem W_keep {r : Ref sig .tc} (h : ∀ W ∈ prefixWs, r ∉ W) (h1 : r ∉ hostOps1_W) (hw : ∀ w, Pipeline.arrRef spec0 w ≠ r)
    (dats : (p : Fin _) → (c : Dev nD) → Dat τ (Elt F) Unit ℕ (UR sig nD τ) ℕ (cfgs p) c) (c : Dev nD) :
    Pipeline.afterTail₀ cfgs dats 0 (V0 m) [hostOps1] c r = m ((c : Thread nD τ).loc r) := by
  unfold Pipeline.afterTail₀
  exact (StableHlo.after_of_writes_sub (W := hostOps1_W) _ _ (hostOps1_we.append .nil).writesIn h1).trans
    ((Pipeline.withArrays_of_ne _ c (V0 m c) _ r hw).trans (V_keep m h c))

theorem V_main_arg6 (c : Dev nD) : V m c main_arg6 = m ((c : Thread nD τ).loc main_arg6) := V_keep m (by decide) c
theorem V_main_arg9 (c : Dev nD) : V m c main_arg9 = m ((c : Thread nD τ).loc main_arg9) := V_keep m (by decide) c
theorem V_main_arg10 (c : Dev nD) : V m c main_arg10 = m ((c : Thread nD τ).loc main_arg10) := V_keep m (by decide) c
theorem V_main_arg11 (c : Dev nD) : V m c main_arg11 = m ((c : Thread nD τ).loc main_arg11) := V_keep m (by decide) c
theorem V_main_arg12 (c : Dev nD) : V m c main_arg12 = m ((c : Thread nD τ).loc main_arg12) := V_keep m (by decide) c
theorem V_main_arg13 (c : Dev nD) : V m c main_arg13 = m ((c : Thread nD τ).loc main_arg13) := V_keep m (by decide) c
theorem V_main_arg14 (c : Dev nD) : V m c main_arg14 = m ((c : Thread nD τ).loc main_arg14) := V_keep m (by decide) c
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) :=
  W_keep m (by decide) (by decide) (by decide) dats c
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) :=
  W_keep m (by decide) (by decide) (by decide) dats c
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) :=
  W_keep m (by decide) (by decide) (by decide) dats c
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) :=
  W_keep m (by decide) (by decide) (by decide) dats c
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) :=
  W_keep m (by decide) (by decide) (by decide) dats c
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) :=
  W_keep m (by decide) (by decide) (by decide) dats c
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) :=
  W_keep m (by decide) (by decide) (by decide) dats c
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) :=
  W_keep m (by decide) (by decide) (by decide) dats c
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) :=
  W_keep m (by decide) (by decide) (by decide) dats c

end Cert.KernelIdeal.Fr

end
-- ==== Proof.FrBodyKI.lean ====
/-
  The region's body on whole blocks: it reads the feature block, the residual block and the six weight and bias arrays, and
  stores the residual plus the perceptron of the product of the six slices over the whole output block.
-/
import proofs.«414985_j5068061409687_4_alg».proof.Proof.Gen.KernelIdeal.Launch
import proofs.«414985_j5068061409687_4_alg».proof.Proof.Gen.KernelIdeal.Skeleton
import proofs.«414985_j5068061409687_4_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev rFeat : Rect S2000x192 := Rect.unit (s := S2000x192) ![0, 0] S2000x192.size inb_S2000x192_S2000x192_0_0
abbrev rRes : Rect S2000x48 := Rect.unit (s := S2000x48) ![0, 0] S2000x48.size inb_S2000x48_S2000x48_0_0
abbrev rWenc : Rect S32x256 := Rect.unit (s := S32x256) ![0, 0] S32x256.size inb_S32x256_S32x256_0_0
abbrev rB256 : Rect S256 := Rect.unit (s := S256) ![0] S256.size inb_S256_S256_0
abbrev rW1 : Rect S256x256 := Rect.unit (s := S256x256) ![0, 0] S256x256.size inb_S256x256_S256x256_0_0
abbrev rW2 : Rect S256x48 := Rect.unit (s := S256x48) ![0, 0] S256x48.size inb_S256x48_S256x48_0_0
abbrev rB48 : Rect S48 := Rect.unit (s := S48) ![0] S48.size inb_S48_S48_0

/-- The output block after the body: the one store of the value at what was read. -/
def out0_8 (x0 : Vec F S2000x192 .f32) (x1 : Vec F S2000x48 .f32) (x2 : Vec F S32x256 .f32) (x3 : Vec F S256 .f32)
    (x4 : Vec F S256x256 .f32) (x5 : Vec F S256 .f32) (x6 : Vec F S256x48 .f32) (x7 : Vec F S48 .f32) : Vec F S2000x48 .f32 :=
  View.canon [⟨rRes, k0_pay1 (View.ld x0 rFeat) (View.ld x2 rWenc) (View.ld x3 rB256) (View.ld x4 rW1) (View.ld x5 rB256)
    (View.ld x6 rW2) (View.ld x7 rB48) (View.ld x1 rRes)⟩]

/-- The one store covers the output block. -/
theorem cover0_8 (p0 : Vec F S2000x48 .f32) (y : S2000x48.Idx) :
    ∃ pc ∈ ([⟨rRes, p0⟩] : List (View.Piece (Elt F) S2000x48 .f32)), y ∈ pc.1.set :=
  View.cover_of_tiled [⟨rRes, p0⟩] S2000x48.size (by rfl) y

set_option maxHeartbeats 4000000 in

/-- The body leaves its inputs as they were and the output at `out0_8` of them. -/
theorem sound_kernel (c : Dev nD) (E : Set ℕ) (i : grid0.Coords)
    (arg1 : Memref sig .tc .vmem S2000x192 .f32) (harg1 : arg1.IsWhole) (arg2 : Memref sig .tc .vmem S2000x48 .f32) (harg2 : arg2.IsWhole)
    (arg3 : Memref sig .tc .vmem S32x256 .f32) (harg3 : arg3.IsWhole) (arg4 : Memref sig .tc .vmem S256 .f32) (harg4 : arg4.IsWhole)
    (arg5 : Memref sig .tc .vmem S256x256 .f32) (harg5 : arg5.IsWhole) (arg6 : Memref sig .tc .vmem S256 .f32) (harg6 : arg6.IsWhole)
    (arg7 : Memref sig .tc .vmem S256x48 .f32) (harg7 : arg7.IsWhole) (arg8 : Memref sig .tc .vmem S48 .f32) (harg8 : arg8.IsWhole)
    (arg9 : Memref sig .tc .vmem S2000x48 .f32) (harg9 : arg9.IsWhole)
    (x0 : Vec F S2000x192 .f32) (x1 : Vec F S2000x48 .f32) (x2 : Vec F S32x256 .f32) (x3 : Vec F S256 .f32)
    (x4 : Vec F S256x256 .f32) (x5 : Vec F S256 .f32) (x6 : Vec F S256x48 .f32) (x7 : Vec F S48 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (out0_8 x0 x1 x2 x3 x4 x5 x6 x7)) -∗ K ⟨⟩))
      ⊢ wp frame (wpE (defs₀ (F := F)) Variants.none c none) E
          (cc0__deform_kernel i arg1 harg1 arg2 harg2 arg3 harg3 arg4 harg4 arg5 harg5 arg6 harg6 arg7 harg7 arg8 harg8 arg9 harg9) K := by
  simp only [cc0__deform_kernel_eq_skeleton]; unfold cc0__deform_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover0_8 _)

end Cert.KernelIdeal.Fr

end
-- ==== Proof.FrRunKI.lean ====
/-
  The frame of the kernel's program: what the body does at every grid point gives the run of the whole program, and the
  argument arrays, which nothing writes, end as launched.
-/
import proofs.«414985_j5068061409687_4_alg».proof.Proof.Gen.KernelIdeal.Launch
import proofs.«414985_j5068061409687_4_alg».proof.Proof.Gen.KernelIdeal.Points
import proofs.«414985_j5068061409687_4_alg».proof.Proof.FrHostAKI
import proofs.«414985_j5068061409687_4_alg».proof.Proof.FrHostBKI
import proofs.«414985_j5068061409687_4_alg».proof.Proof.FrBodyKI
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

local notation "𝕄" => MT nD τ sig Unit (Elt F) ℕ (UR sig nD τ) ℕ

/-- Block `t` of window `w` of the array as the region reads it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- A final state of the run has every argument as launched. -/
theorem frame_post (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (Pipeline.afterTail₀ cfgs dats 0 (V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c),
      ((h c).1 2).trans (((dats 0 c).arrAt_in 2 rfl _).trans ((hA c 2).trans (V_main_arg9 m c))),
      ((h c).1 3).trans (((dats 0 c).arrAt_in 3 rfl _).trans ((hA c 3).trans (V_main_arg10 m c))),
      ((h c).1 4).trans (((dats 0 c).arrAt_in 4 rfl _).trans ((hA c 4).trans (V_main_arg11 m c))),
      ((h c).1 5).trans (((dats 0 c).arrAt_in 5 rfl _).trans ((hA c 5).trans (V_main_arg12 m c))),
      ((h c).1 6).trans (((dats 0 c).arrAt_in 6 rfl _).trans ((hA c 6).trans (V_main_arg13 m c))),
      ((h c).1 7).trans (((dats 0 c).arrAt_in 7 rfl _).trans ((hA c 7).trans (V_main_arg14 m c)))⟩

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => frame_post m dats hA r h c) h

/-- What each block holds around the body at a point: an input its block of the array, before and after; the output the body's result. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = out0_8 (iblk m c 0 t) (iblk m c 1 t) (iblk m c 2 t) (iblk m c 3 t) (iblk m c 4 t) (iblk m c 5 t) (iblk m c 6 t) (iblk m c 7 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 4000000 in

/-- The body at any point, from its triple on whole blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dats (F := F) m 0 c) (defs₀ (F := F)) Variants.none () Set.univ := fun t => by
  rw [bigSep_W0, bigSep_W0]
  exact sound_body m c t

set_option backward.isDefEq.respectTransparency.types false in
set_option maxHeartbeats 4000000 in

/-- Every weakly fair execution of the program ends, the arrays at what the points wrote back. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim, at any float family. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.KernelIdeal.Fr

end
-- ==== Proof.Spec.lean ====
/-
  The result's mathematics over the extended reals, one row at a time: an affine layer, the rectifier, the three-layer
  perceptron, and the six-fold product of feature entries it is applied to.
-/
import Idealize.ShloMosaic.PureOps.Ideal
import Mathlib.Algebra.BigOperators.Group.Finset.Basic

noncomputable section

namespace Cert.Spec

open Idealize.ShloMosaic

/-- An affine layer: the row through the weight matrix, plus the bias. -/
def lin {n k : Nat} (x : Fin n → EReal) (w : Fin n → Fin k → EReal) (b : Fin k → EReal) : Fin k → EReal :=
  fun j => (∑ i : Fin n, x i * w i j) + b j

def relu (x : EReal) : EReal := max x 0

/-- Three affine layers, 32 → 256 → 256 → 48, with the rectifier after the first two. -/
def mlp (p : Fin 32 → EReal) (we : Fin 32 → Fin 256 → EReal) (be : Fin 256 → EReal)
    (w1 : Fin 256 → Fin 256 → EReal) (b1 : Fin 256 → EReal) (w2 : Fin 256 → Fin 48 → EReal) (b2 : Fin 48 → EReal) : Fin 48 → EReal :=
  lin (fun k => relu (lin (fun k' => relu (lin p we be k')) w1 b1 k)) w2 b2

/-- Six factors grouped as both programs group them: each triple from the left, then the two triples. -/
def prod6 (a b c d e f : EReal) : EReal := ((a * b) * c) * ((d * e) * f)

/-- Column `32 k + f` of a 192-column row: entry `f` of its `k`-th 32-column slice. -/
def col (k : Fin 6) (f : Fin 32) : Fin 192 := ⟨32 * k.val + f.val, by omega⟩

end Cert.Spec

end
-- ==== Proof.KG.lean ====
/-
  The kernel's output array as one function of the arrays it reads.
-/
import proofs.«414985_j5068061409687_4_alg».proof.KernelIdeal
import proofs.«414985_j5068061409687_4_alg».proof.Proof.Spec
import Idealize.ShloMosaic.Lib.ValueIdx

noncomputable section

namespace Cert.KernelIdeal.Val

open Cert.KernelIdeal Cert.Spec Idealize.ShloMosaic Idealize.ShloMosaic.ValueIdx

/-- Entry `(n, j)`: the residual entry plus output `j` of the perceptron of the product of row `n`'s six slices. -/
def Grow (feats : Vec Ideal S500000x192 .f32) (res : Vec Ideal S500000x48 .f32) (we : Vec Ideal S32x256 .f32) (be : Vec Ideal S256 .f32)
    (w1 : Vec Ideal S256x256 .f32) (b1 : Vec Ideal S256 .f32) (w2 : Vec Ideal S256x48 .f32) (b2 : Vec Ideal S48 .f32)
    (n : Fin 500000) (j : Fin 48) : EReal :=
  res (ix2 n j) + mlp (fun f => prod6 (feats (ix2 n (col 0 f))) (feats (ix2 n (col 1 f))) (feats (ix2 n (col 2 f)))
      (feats (ix2 n (col 3 f))) (feats (ix2 n (col 4 f))) (feats (ix2 n (col 5 f))))
    (fun i k => we (ix2 i k)) (fun k => be (ix1 k)) (fun i k => w1 (ix2 i k)) (fun k => b1 (ix1 k)) (fun i k => w2 (ix2 i k)) (fun k => b2 (ix1 k)) j

def G (feats : Vec Ideal S500000x192 .f32) (res : Vec Ideal S500000x48 .f32) (we : Vec Ideal S32x256 .f32) (be : Vec Ideal S256 .f32)
    (w1 : Vec Ideal S256x256 .f32) (b1 : Vec Ideal S256 .f32) (w2 : Vec Ideal S256x48 .f32) (b2 : Vec Ideal S48 .f32) : Vec Ideal S500000x48 .f32 :=
  fun i => Grow feats res we be w1 b1 w2 b2 (i 0) (i 1)

end Cert.KernelIdeal.Val

end
-- ==== Proof.LibDot.lean ====
/-
  A product of two matrices with one contracted axis: how the operands' coordinates follow the result's.
-/
import Idealize.ShloMosaic.Lib.ValueIdx
import Idealize.ShloMosaic.PureOps.Ideal.Laws

noncomputable section

namespace Cert.LibDot

open Idealize.ShloMosaic Idealize.ShloMosaic.ValueIdx

variable {m k n : Nat} (d : DotDims ⟨2, ![m, k]⟩ ⟨2, ![k, n]⟩ ⟨2, ![m, n]⟩)

/-- The left operand's row index is the result's row index. -/
theorem lhs_axis0 (hln : d.lhsNonContracting = [0]) (hlb : d.lhsBatch = [])
    (j : (⟨2, ![m, n]⟩ : Shape).Idx) (q : d.contr.Idx) : (d.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [hlb, hln])

/-- The right operand's column index is the result's column index. -/
theorem rhs_axis1 (hln : d.lhsNonContracting = [0]) (hlb : d.lhsBatch = []) (hrn : d.rhsNonContracting = [1])
    (hrb : d.rhsBatch = []) (j : (⟨2, ![m, n]⟩ : Shape).Idx) (q : d.contr.Idx) : (d.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [hlb, hln, hrn])

/-- Exactly one axis is contracted, -/
theorem contr_rank (hlc : d.lhsContracting = [1]) : d.contr.rank = 1 := by
  rw [d.rank_contr, hlc]; rfl

/-- and its extent is the inner dimension. -/
theorem contr_size (hlc : d.lhsContracting = [1]) : d.contr.size ⟨0, by rw [contr_rank d hlc]; exact Nat.one_pos⟩ = k := by
  rw [d.size_contr 0 (by rw [hlc]; exact Nat.one_pos)]
  simp [hlc]

end Cert.LibDot

end
-- ==== Proof.KPay.lean ====
/-
  The value the kernel's body stores, read at one row and one column: the residual entry plus the perceptron of the row's
  six-fold product.
-/
import proofs.«414985_j5068061409687_4_alg».proof.Proof.Gen.KernelIdeal.Skeleton
import proofs.«414985_j5068061409687_4_alg».proof.Proof.Spec
import proofs.«414985_j5068061409687_4_alg».proof.Proof.LibDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Cert.Spec Cert.LibDot Idealize.ShloMosaic Idealize.ShloMosaic.ValueIdx

section Dot2
variable {m k n : Nat} (d : DotDims ⟨2, ![m, k]⟩ ⟨2, ![k, n]⟩ ⟨2, ![m, n]⟩)

/-- A matrix product added to zero, at `(r, c)`: the sum over the inner index of the products. -/
theorem matmul_zero_ix2 (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (x : FVec Ideal ⟨2, ![m, k]⟩ .f32) (w : FVec Ideal ⟨2, ![k, n]⟩ .f32) (r : Fin m) (c : Fin n) :
    matmul d prec x w (constant (F := Ideal) ⟨2, ![m, n]⟩ .f32 0x00000000#32) (ix2 r c) = ∑ i : Fin k, x (ix2 r i) * w (ix2 i c) := by
  show FloatOps.matmul d prec x w (constant (F := Ideal) ⟨2, ![m, n]⟩ .f32 0x00000000#32) (ix2 r c) = _
  rw [Ideal.matmul_constant_zero_apply]
  rw [← Equiv.sum_comp (contrEquiv1 d k (contr_rank d hlc) (contr_size d hlc)).symm]
  refine Finset.sum_congr rfl fun i _ => ?_
  have hq := contrEquiv1_symm_val d k (contr_rank d hlc) (contr_size d hlc) i
  congr 2
  · refine Shape.idx_ext₂ ?_ ?_
    · exact lhs_axis0 d hln hlb _ _
    · exact (d.lhsIdx_val_of_single hlc _ _).trans hq
  · refine Shape.idx_ext₂ ?_ ?_
    · exact (d.rhsIdx_val_of_single hrc _ _).trans hq
    · exact rhs_axis1 d hln hlb hrn hrb _ _

/-- A bias vector spread over the rows reads its own entry at every row. -/
theorem bias_row {α : Type} {a b : Nat} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) := by
  rw [broadcastTo_1b_ab_apply, shapeCast_a_1a_apply]

/-- One layer of the body at an entry is `lin` of the row. -/
theorem layer_ix2 (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (x : FVec Ideal ⟨2, ![m, k]⟩ .f32) (w : FVec Ideal ⟨2, ![k, n]⟩ .f32)
    (b : FVec Ideal ⟨1, ![n]⟩ .f32) (h1 : (⟨1, ![n]⟩ : Shape).ShapeCasts ⟨2, ![1, n]⟩)
    (h2 : (⟨2, ![1, n]⟩ : Shape).Broadcasts ⟨2, ![m, n]⟩) (r : Fin m) (c : Fin n) :
    addf (matmul d prec x w (constant (F := Ideal) ⟨2, ![m, n]⟩ .f32 0x00000000#32))
        (broadcastTo ⟨2, ![m, n]⟩ (shapeCast ⟨2, ![1, n]⟩ b h1) h2) (ix2 r c)
      = lin (fun i => x (ix2 r i)) (fun i c => w (ix2 i c)) (fun c => b (ix1 c)) c := by
  rw [addf_apply, matmul_zero_ix2 d hlc hrc hln hrn hlb hrb, bias_row]
  rfl

end Dot2

/-- A maximum against the zero array is the rectifier of the entry. -/
theorem relu_ix {s : Shape} (v : FVec Ideal s .f32) (i : s.Idx) :
    maximumf v (broadcast s (Scalar.ofBits (F := Ideal) .f32 0x00000000#32)) i = relu (v i) := by
  rw [maximumf_apply, broadcast_apply]
  show max (v i) (Ideal.ofBits .f32 0x00000000#32) = _
  rw [Ideal.ofBits_zero_f32]
  rfl

/-- The `k`-th 32-column slice at column `f` reads the block's column `col k f`. -/
theorem slice_col (x0 : Vec Ideal S2000x192 .f32) (o : Nat) (h : S2000x192.Slices ![0, o] S2000x32) (kk : Fin 6)
    (ho : o = 32 * kk.val) (r : Fin 2000) (f : Fin 32) :
    extractStridedSlice S2000x32 ![0, o] x0 h (ix2 r f) = x0 (ix2 r (col kk f)) :=
  slice2_axis1_apply o x0 h r f (col kk f) (by show 32 * kk.val + f.val = o + f.val; omega)

theorem pay_apply (x0 : Vec Ideal S2000x192 .f32) (we : Vec Ideal S32x256 .f32) (be : Vec Ideal S256 .f32) (w1 : Vec Ideal S256x256 .f32) (b1 : Vec Ideal S256 .f32) (w2 : Vec Ideal S256x48 .f32) (b2 : Vec Ideal S48 .f32) (res : Vec Ideal S2000x48 .f32) (r : Fin 2000) (j : Fin 48) :
    k0_pay1 (F := Ideal) x0 we be w1 b1 w2 b2 res (ix2 r j)
      = res (ix2 r j) + mlp (fun f => prod6 (x0 (ix2 r (col 0 f))) (x0 (ix2 r (col 1 f))) (x0 (ix2 r (col 2 f))) (x0 (ix2 r (col 3 f))) (x0 (ix2 r (col 4 f))) (x0 (ix2 r (col 5 f))))
          (fun i k => we (ix2 i k)) (fun k => be (ix1 k)) (fun i k => w1 (ix2 i k)) (fun k => b1 (ix1 k)) (fun i k => w2 (ix2 i k)) (fun k => b2 (ix1 k)) j := by
  have L3 := layer_ix2 dot_S2000x256_S256x48_S2000x48_1_0_0_1_n_n rfl rfl rfl rfl rfl rfl (some .fp32)
  have L2 := layer_ix2 dot_S2000x256_S256x256_S2000x256_1_0_0_1_n_n rfl rfl rfl rfl rfl rfl (some .fp32)
  have L1 := layer_ix2 dot_S2000x32_S32x256_S2000x256_1_0_0_1_n_n rfl rfl rfl rfl rfl rfl (some .fp32)
  unfold k0_pay1
  simp only [shapeCast_self]
  rw [addf_apply, L3]
  simp only [relu_ix, L2, L1, mulf_apply,
    slice_col x0 0 slices_S2000x192_o0_0_S2000x32 0 rfl, slice_col x0 32 slices_S2000x192_o0_32_S2000x32 1 rfl,
    slice_col x0 64 slices_S2000x192_o0_64_S2000x32 2 rfl, slice_col x0 96 slices_S2000x192_o0_96_S2000x32 3 rfl,
    slice_col x0 128 slices_S2000x192_o0_128_S2000x32 4 rfl, slice_col x0 160 slices_S2000x192_o0_160_S2000x32 5 rfl]
  rfl

end Cert.KernelIdeal.Pay
end
-- ==== Proof.KValue.lean ====
/-
  What the kernel's output array holds after the run. Grid point t handles rows 2000 t … 2000 t + 1999: its feature and
  residual blocks are those rows, the weight and bias blocks are the whole arrays, and the block it writes back is those rows
  of G. The 250 blocks cover the array, so it ends as G.
-/
import proofs.«414985_j5068061409687_4_alg».proof.Proof.FrRunKI
import proofs.«414985_j5068061409687_4_alg».proof.Proof.KG
import proofs.«414985_j5068061409687_4_alg».proof.Proof.KPay
import Idealize.ShloMosaic.Lib.Pipeline.Value
import Idealize.ShloMosaic.Lib.ValueIdx

set_option maxRecDepth 16384
set_option maxHeartbeats 1000000

noncomputable section

namespace Cert.KernelIdeal.Val

open Cert.KernelIdeal Cert.KernelIdeal.Gen Cert.KernelIdeal.Fr Cert.Spec
open Idealize.ShloMosaic Idealize.ShloMosaic.TcCoe Idealize.SL.Sem Idealize.ShloMosaic.ValueIdx
open Idealize.ShloMosaic.Pipeline (Dat)

theorem hz2 : (![0, 0] : Fin 2 → Nat) = fun _ => 0 := funext fun a => by fin_cases a <;> rfl
theorem hz1 : (![0] : Fin 1 → Nat) = fun _ => 0 := funext fun a => by fin_cases a <;> rfl

/-- At point `t` the feature, residual and output blocks are block-row `t`; the weight and bias blocks do not move. -/
structure IdxFacts (t : Fin cfg0.N) : Prop where
  w0_0 : win0_0.index t (0 : Fin 2) = t.val
  w0_1 : win0_0.index t (1 : Fin 2) = 0
  w1_0 : win0_1.index t (0 : Fin 2) = t.val
  w1_1 : win0_1.index t (1 : Fin 2) = 0
  w2_0 : win0_2.index t (0 : Fin 2) = 0
  w2_1 : win0_2.index t (1 : Fin 2) = 0
  w3_0 : win0_3.index t (0 : Fin 1) = 0
  w4_0 : win0_4.index t (0 : Fin 2) = 0
  w4_1 : win0_4.index t (1 : Fin 2) = 0
  w5_0 : win0_5.index t (0 : Fin 1) = 0
  w6_0 : win0_6.index t (0 : Fin 2) = 0
  w6_1 : win0_6.index t (1 : Fin 2) = 0
  w7_0 : win0_7.index t (0 : Fin 1) = 0
  w8_0 : win0_8.index t (0 : Fin 2) = t.val
  w8_1 : win0_8.index t (1 : Fin 2) = 0

theorem idx_all : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = t.val ∧ win0_8.index t (1 : Fin 2) = 0 :=
  (by decide +kernel : ∀ t : Fin grid0.N, _)

theorem idx_facts (t : Fin cfg0.N) : IdxFacts t := by
  obtain ⟨a, b, c, d, e, f, g, h, i, j, k, l, n, o, p⟩ := idx_all t
  exact ⟨a, b, c, d, e, f, g, h, i, j, k, l, n, o, p⟩

theorem t_lt (t : Fin cfg0.N) : t.val < 250 := by
  have h := t.isLt
  have hN : cfg0.N = 250 := N_0
  omega

/-- Row `2000 t + r`. -/
def rowOf (t : Fin cfg0.N) (r : Fin 2000) : Fin 500000 := ⟨2000 * t.val + r.val, by have := t_lt t; omega⟩

/-- Block `t` of window `w` of an array. -/
def blkOf (c : Dev nD) (w : Fin cfg0.W) (t : Fin cfg0.N) (A : Buf (Elt Ideal) ((c : Thread nD τ).loc (Pipeline.arrRef spec0 w))) :
    ((cfg0.win w).xblock (cfg0.grid.coords t)).Idx → Elt Ideal (cfg0.win w).elt :=
  ((cfg0.win w).blk t).view.read (Elt Ideal) A

/-- Entry `(r, q)` of block `t` is entry `(2000 t + r, q)` of the array. -/
theorem blk0_apply (c : Dev nD) (t : Fin cfg0.N) (A : Buf (Elt Ideal) ((c : Thread nD τ).loc (Pipeline.arrRef spec0 0))) (r : Fin 2000) (q : Fin 192) :
    (blkOf c 0 t A : Vec Ideal S2000x192 .f32) (ix2 r q) = (A : Vec Ideal S500000x192 .f32) (ix2 (rowOf t r) q) := by
  have e0 : win0_0.index t (0 : Fin 2) = t.val := (idx_facts t).w0_0
  have e1 : win0_0.index t (1 : Fin 2) = 0 := (idx_facts t).w0_1
  unfold blkOf
  rw [View.read_apply]
  refine congrArg A ?_
  funext a
  apply Fin.ext
  match a with
  | ⟨0, _⟩ => show win0_0.index t 0 * 2000 + 1 * r.val = 2000 * t.val + r.val; rw [e0]; omega
  | ⟨1, _⟩ => show win0_0.index t 1 * 192 + 1 * q.val = q.val; rw [e1]; omega
theorem blk1_apply (c : Dev nD) (t : Fin cfg0.N) (A : Buf (Elt Ideal) ((c : Thread nD τ).loc (Pipeline.arrRef spec0 1))) (r : Fin 2000) (q : Fin 48) :
    (blkOf c 1 t A : Vec Ideal S2000x48 .f32) (ix2 r q) = (A : Vec Ideal S500000x48 .f32) (ix2 (rowOf t r) q) := by
  have e0 : win0_1.index t (0 : Fin 2) = t.val := (idx_facts t).w1_0
  have e1 : win0_1.index t (1 : Fin 2) = 0 := (idx_facts t).w1_1
  unfold blkOf
  rw [View.read_apply]
  refine congrArg A ?_
  funext a
  apply Fin.ext
  match a with
  | ⟨0, _⟩ => show win0_1.index t 0 * 2000 + 1 * r.val = 2000 * t.val + r.val; rw [e0]; omega
  | ⟨1, _⟩ => show win0_1.index t 1 * 48 + 1 * q.val = q.val; rw [e1]; omega
/-- A weight or bias block is the whole array. -/
theorem blk2_eq (c : Dev nD) (t : Fin cfg0.N) (A : Buf (Elt Ideal) ((c : Thread nD τ).loc (Pipeline.arrRef spec0 2))) :
    (blkOf c 2 t A : Vec Ideal S32x256 .f32) = (A : Vec Ideal S32x256 .f32) := by
  have e0 : win0_2.index t (0 : Fin 2) = 0 := (idx_facts t).w2_0
  have e1 : win0_2.index t (1 : Fin 2) = 0 := (idx_facts t).w2_1
  funext y
  unfold blkOf
  rw [View.read_apply]
  refine congrArg A ?_
  funext a
  apply Fin.ext
  match a with
  | ⟨0, _⟩ => show win0_2.index t 0 * 32 + 1 * (y 0).val = (y 0).val; rw [e0]; omega
  | ⟨1, _⟩ => show win0_2.index t 1 * 256 + 1 * (y 1).val = (y 1).val; rw [e1]; omega
theorem blk3_eq (c : Dev nD) (t : Fin cfg0.N) (A : Buf (Elt Ideal) ((c : Thread nD τ).loc (Pipeline.arrRef spec0 3))) :
    (blkOf c 3 t A : Vec Ideal S256 .f32) = (A : Vec Ideal S256 .f32) := by
  have e0 : win0_3.index t (0 : Fin 1) = 0 := (idx_facts t).w3_0
  funext y
  unfold blkOf
  rw [View.read_apply]
  refine congrArg A ?_
  funext a
  apply Fin.ext
  match a with
  | ⟨0, _⟩ => show win0_3.index t 0 * 256 + 1 * (y 0).val = (y 0).val; rw [e0]; omega
theorem blk4_eq (c : Dev nD) (t : Fin cfg0.N) (A : Buf (Elt Ideal) ((c : Thread nD τ).loc (Pipeline.arrRef spec0 4))) :
    (blkOf c 4 t A : Vec Ideal S256x256 .f32) = (A : Vec Ideal S256x256 .f32) := by
  have e0 : win0_4.index t (0 : Fin 2) = 0 := (idx_facts t).w4_0
  have e1 : win0_4.index t (1 : Fin 2) = 0 := (idx_facts t).w4_1
  funext y
  unfold blkOf
  rw [View.read_apply]
  refine congrArg A ?_
  funext a
  apply Fin.ext
  match a with
  | ⟨0, _⟩ => show win0_4.index t 0 * 256 + 1 * (y 0).val = (y 0).val; rw [e0]; omega
  | ⟨1, _⟩ => show win0_4.index t 1 * 256 + 1 * (y 1).val = (y 1).val; rw [e1]; omega
theorem blk5_eq (c : Dev nD) (t : Fin cfg0.N) (A : Buf (Elt Ideal) ((c : Thread nD τ).loc (Pipeline.arrRef spec0 5))) :
    (blkOf c 5 t A : Vec Ideal S256 .f32) = (A : Vec Ideal S256 .f32) := by
  have e0 : win0_5.index t (0 : Fin 1) = 0 := (idx_facts t).w5_0
  funext y
  unfold blkOf
  rw [View.read_apply]
  refine congrArg A ?_
  funext a
  apply Fin.ext
  match a with
  | ⟨0, _⟩ => show win0_5.index t 0 * 256 + 1 * (y 0).val = (y 0).val; rw [e0]; omega
theorem blk6_eq (c : Dev nD) (t : Fin cfg0.N) (A : Buf (Elt Ideal) ((c : Thread nD τ).loc (Pipeline.arrRef spec0 6))) :
    (blkOf c 6 t A : Vec Ideal S256x48 .f32) = (A : Vec Ideal S256x48 .f32) := by
  have e0 : win0_6.index t (0 : Fin 2) = 0 := (idx_facts t).w6_0
  have e1 : win0_6.index t (1 : Fin 2) = 0 := (idx_facts t).w6_1
  funext y
  unfold blkOf
  rw [View.read_apply]
  refine congrArg A ?_
  funext a
  apply Fin.ext
  match a with
  | ⟨0, _⟩ => show win0_6.index t 0 * 256 + 1 * (y 0).val = (y 0).val; rw [e0]; omega
  | ⟨1, _⟩ => show win0_6.index t 1 * 48 + 1 * (y 1).val = (y 1).val; rw [e1]; omega
theorem blk7_eq (c : Dev nD) (t : Fin cfg0.N) (A : Buf (Elt Ideal) ((c : Thread nD τ).loc (Pipeline.arrRef spec0 7))) :
    (blkOf c 7 t A : Vec Ideal S48 .f32) = (A : Vec Ideal S48 .f32) := by
  have e0 : win0_7.index t (0 : Fin 1) = 0 := (idx_facts t).w7_0
  funext y
  unfold blkOf
  rw [View.read_apply]
  refine congrArg A ?_
  funext a
  apply Fin.ext
  match a with
  | ⟨0, _⟩ => show win0_7.index t 0 * 48 + 1 * (y 0).val = (y 0).val; rw [e0]; omega

/-- Entry `(r, q)` of output block `t` sits at row `2000 t + r`. -/
theorem emb8 (t : Fin cfg0.N) (r : Fin 2000) (q : Fin 48) :
    ((cfg0.win 8).blk t).view.emb (ix2 r q) = (ix2 (rowOf t r) q : S500000x48.Idx) := by
  have e0 : win0_8.index t (0 : Fin 2) = t.val := (idx_facts t).w8_0
  have e1 : win0_8.index t (1 : Fin 2) = 0 := (idx_facts t).w8_1
  funext a
  apply Fin.ext
  match a with
  | ⟨0, _⟩ => show win0_8.index t 0 * 2000 + 1 * r.val = 2000 * t.val + r.val; rw [e0]; omega
  | ⟨1, _⟩ => show win0_8.index t 1 * 48 + 1 * q.val = q.val; rw [e1]; omega

/-- The body's value on point `t`'s blocks of any arrays is rows `2000 t …` of `G` of those arrays. -/
theorem flush_pure (c : Dev nD) (t : Fin cfg0.N)
    (A0 : Buf (Elt Ideal) ((c : Thread nD τ).loc (Pipeline.arrRef spec0 0))) (A1 : Buf (Elt Ideal) ((c : Thread nD τ).loc (Pipeline.arrRef spec0 1))) (A2 : Buf (Elt Ideal) ((c : Thread nD τ).loc (Pipeline.arrRef spec0 2))) (A3 : Buf (Elt Ideal) ((c : Thread nD τ).loc (Pipeline.arrRef spec0 3)))
    (A4 : Buf (Elt Ideal) ((c : Thread nD τ).loc (Pipeline.arrRef spec0 4))) (A5 : Buf (Elt Ideal) ((c : Thread nD τ).loc (Pipeline.arrRef spec0 5))) (A6 : Buf (Elt Ideal) ((c : Thread nD τ).loc (Pipeline.arrRef spec0 6))) (A7 : Buf (Elt Ideal) ((c : Thread nD τ).loc (Pipeline.arrRef spec0 7))) (j : S2000x48.Idx) :
    k0_pay1 (F := Ideal) (blkOf c 0 t A0) (blkOf c 2 t A2) (blkOf c 3 t A3) (blkOf c 4 t A4) (blkOf c 5 t A5) (blkOf c 6 t A6) (blkOf c 7 t A7) (blkOf c 1 t A1) j
      = G A0 A1 A2 A3 A4 A5 A6 A7 (((cfg0.win 8).blk t).view.emb j) := by
  obtain ⟨r, q, rfl⟩ : ∃ (r : Fin 2000) (q : Fin 48), j = ix2 r q := ⟨j 0, j 1, eq_ix2 j⟩
  rw [emb8]
  refine (Cert.KernelIdeal.Pay.pay_apply (blkOf c 0 t A0) (blkOf c 2 t A2) (blkOf c 3 t A3) (blkOf c 4 t A4) (blkOf c 5 t A5) (blkOf c 6 t A6) (blkOf c 7 t A7) (blkOf c 1 t A1) r q).trans ?_
  rw [blk2_eq, blk3_eq, blk4_eq, blk5_eq, blk6_eq, blk7_eq, blk1_apply]
  simp only [blk0_apply]
  rfl

variable (m : (ℓ : Loc nD τ sig) → Buf (Elt Ideal) ℓ) (ρ : Dev nD → PrngReg)

theorem iblk_eq (c : Dev nD) (w : Fin cfg0.W) (t : Fin cfg0.N) : iblk m c w t = blkOf c w t (V m c (Pipeline.arrRef spec0 w)) := rfl

/-- `G` of the arrays as the region reads them. -/
abbrev Gm (c : Dev nD) : Vec Ideal S500000x48 .f32 :=
  G (V m c (Pipeline.arrRef spec0 0)) (V m c (Pipeline.arrRef spec0 1)) (V m c (Pipeline.arrRef spec0 2)) (V m c (Pipeline.arrRef spec0 3))
    (V m c (Pipeline.arrRef spec0 4)) (V m c (Pipeline.arrRef spec0 5)) (V m c (Pipeline.arrRef spec0 6)) (V m c (Pipeline.arrRef spec0 7))

/-- What point `t` writes back is block `t` of `G`. -/
theorem flushed_eq (c : Dev nD) (t : Fin cfg0.N) :
    (dats m 0 c).flushed 8 t = ((cfg0.win 8).blk t).view.read (Elt Ideal) (Gm m c) := by
  show (cfg0.win 8).cut (grid0.coords t) ((dats m 0 c).after 8 t) = _
  rw [after0_8]
  unfold out0_8
  rw [View.canon_unit_zero hz2]
  simp only [View.ld_unit_zero (S := S2000x192) hz2, View.ld_unit_zero (S := S2000x48) hz2, View.ld_unit_zero (S := S32x256) hz2,
    View.ld_unit_zero (S := S256) hz1, View.ld_unit_zero (S := S256x256) hz2, View.ld_unit_zero (S := S256x48) hz2, View.ld_unit_zero (S := S48) hz1]
  simp only [iblk_eq]
  unfold Gm
  generalize V m c (Pipeline.arrRef spec0 0) = A0
  generalize V m c (Pipeline.arrRef spec0 1) = A1
  generalize V m c (Pipeline.arrRef spec0 2) = A2
  generalize V m c (Pipeline.arrRef spec0 3) = A3
  generalize V m c (Pipeline.arrRef spec0 4) = A4
  generalize V m c (Pipeline.arrRef spec0 5) = A5
  generalize V m c (Pipeline.arrRef spec0 6) = A6
  generalize V m c (Pipeline.arrRef spec0 7) = A7
  funext j
  rw [View.read_apply]
  exact flush_pure c t A0 A1 A2 A3 A4 A5 A6 A7 j

/-- Every index lies in the block of the point that handles its row. -/
theorem cover (i : S500000x48.Idx) : ∃ t : Fin cfg0.N, (cfg0.win 8).flush t = true ∧ i ∈ ((cfg0.win 8).blk t).view.set := by
  have h0 : (i 0).val < 500000 := (i 0).isLt
  have h1 : (i 1).val < 48 := (i 1).isLt
  have hN : cfg0.N = 250 := N_0
  let t : Fin cfg0.N := ⟨(i 0).val / 2000, by omega⟩
  have e0 : win0_8.index t (0 : Fin 2) = t.val := (idx_facts t).w8_0
  have e1 : win0_8.index t (1 : Fin 2) = 0 := (idx_facts t).w8_1
  refine ⟨t, flush0_8 t, ?_⟩
  show i ∈ ((View.whole main_v647).slice (win0_8.rect t)).set
  rw [View.set_slice_whole, Rect.mem_set_unit]
  intro a
  match a with
  | ⟨0, _⟩ => show win0_8.index t 0 * 2000 ≤ (i 0).val ∧ (i 0).val < win0_8.index t 0 * 2000 + 2000; rw [e0]; show (i 0).val / 2000 * 2000 ≤ (i 0).val ∧ (i 0).val < (i 0).val / 2000 * 2000 + 2000; omega
  | ⟨1, _⟩ => show win0_8.index t 1 * 48 ≤ (i 1).val ∧ (i 1).val < win0_8.index t 1 * 48 + 48; rw [e1]; omega

/-- So the output array ends as `G`. -/
theorem final8 (c : Dev nD) : (dats m 0 c).arrAt 8 cfg0.N = Gm m c :=
  (dats m 0 c).arrAt_eq_of_cover 8 (Gm m c) (fun t _ => flushed_eq m c t) cover

end Cert.KernelIdeal.Val

end
-- ==== Proof.KTail.lean ====
/-
  The kernel's program after its region: the output array regrouped to 16 x 3, and column 0 of the seventh argument.
-/
import proofs.«414985_j5068061409687_4_alg».proof.Proof.KValue
import proofs.«414985_j5068061409687_4_alg».proof.Proof.KPay

set_option maxRecDepth 16384
set_option maxHeartbeats 4000000

noncomputable section

namespace Cert.KernelIdeal.Val

open Cert.KernelIdeal Cert.KernelIdeal.Gen Cert.KernelIdeal.Fr Cert.Spec
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

theorem final (c : Dev nD) : (dats m 0 c).arrAt 8 cfg0.N = Gm m c := final8 m c

/-- The regrouped output array. -/
theorem tail_v648 (c : Dev nD) :
    Pipeline.afterTail₀ cfgs (dats m) 0 (V0 m) [hostOps1] c main_v648
      = (fun i => shapeCast S500000x16x3 (Gm m c) shapeCasts_S500000x48_S500000x16x3 i) := by
  have h8 : Pipeline.withArrays spec0 c (V0 m c) (fun w => (dats m 0 c).arrAt w cfg0.N) (Proc.devRef .tc (Pipeline.arrRef spec0 8)) = Gm m c :=
    (Pipeline.withArrays_arr spec0 launch0.win.arr_inj c (V0 m c) (fun w => (dats m 0 c).arrAt w cfg0.N) 8).trans (final m c)
  unfold Pipeline.afterTail₀
  simp only [List.flatten_cons, List.flatten_nil, List.append_nil, hostOps1]
  after_results
  rw [show Pipeline.withArrays (cfgs 0).spec c (V0 m c) (fun w => (dats m 0 c).arrAt w (cfgs 0).N) (Proc.devRef .tc main_v647) = Gm m c from h8]
  generalize Gm m c = g
  rfl

/-- Column 0 of the seventh argument. -/
theorem tail_v649 (c : Dev nD) :
    Pipeline.afterTail₀ cfgs (dats m) 0 (V0 m) [hostOps1] c main_v649
      = extractStridedSlice S500000x1 ![0, 0] (m ((c.tc : Thread nD τ).loc main_arg6)) slices_S500000x2_S500000x1_0_0 := by
  have h6 : Pipeline.withArrays spec0 c (V0 m c) (fun w => (dats m 0 c).arrAt w cfg0.N) (Proc.devRef .tc main_arg6) = m ((c.tc : Thread nD τ).loc main_arg6) :=
    (Pipeline.withArrays_of_ne spec0 c (V0 m c) (fun w => (dats m 0 c).arrAt w cfg0.N) main_arg6 (by exact (by decide : ∀ w, Pipeline.arrRef spec0 w ≠ main_arg6))).trans (V_main_arg6 m c)
  unfold Pipeline.afterTail₀
  simp only [List.flatten_cons, List.flatten_nil, List.append_nil, hostOps1]
  after_results
  rw [show Pipeline.withArrays (cfgs 0).spec c (V0 m c) (fun w => (dats m 0 c).arrAt w (cfgs 0).N) (Proc.devRef .tc main_arg6) = m ((c.tc : Thread nD τ).loc main_arg6) from h6]

/-- Every weakly fair execution ends with the four results at these functions of the arguments, and the arguments unchanged. -/
theorem run_all : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v649) = extractStridedSlice S500000x1 ![0, 0] (m ((c.tc : Thread nD τ).loc main_arg6)) slices_S500000x2_S500000x1_0_0
      ∧ r.2.mem ((c.tc : Thread nD τ).loc main_v648) = (fun i => shapeCast S500000x16x3 (Gm m c) shapeCasts_S500000x48_S500000x16x3 i)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    have hf := Fr.frame_post m (dats m) (A_eq m) r h c
    ⟨hf.1, hf.2.1,
      ((h c).2 main_v649 (Pipeline.mem_restRefs_of main_v649 (by decide) (by decide))).trans (tail_v649 m c),
      ((h c).2 main_v648 (Pipeline.mem_restRefs_of main_v648 (by decide) (by decide))).trans (tail_v648 m c),
      hf⟩) (run_main m ρ)

end Cert.KernelIdeal.Val

end
-- ==== Proof.RefW.lean ====
/-
  The result buffers of the reference's operations, chunk by chunk: every operation writes only its own result buffer, the
  one listed at its place.
-/
import proofs.«414985_j5068061409687_4_alg».proof.Proof.RefOps
import proofs.«414985_j5068061409687_4_alg».proof.Proof.LibAfter
import Idealize.ShloMosaic.Lib.StableHlo.Run

set_option maxRecDepth 16384

noncomputable section

namespace Cert.ReferenceIdeal.Chunks

open Cert.ReferenceIdeal Cert.ReferenceIdeal.Gen Cert.LibAfter Idealize.ShloMosaic Idealize.ShloMosaic.TcCoe Idealize.SL.Sem Idealize.ShloMosaic.StableHlo

variable {F : FTy → Type} [FloatOps F]

/-- A buffer outside a list that holds everything a line writes is written by no operation of the line. -/
theorem not_writes_of_sub {W : List (Ref sig .tc)} {ops : List (HloOp τ sig (Elt F))}
    (hW : ops.Forall fun op => op.writes ⊆ (W.map (Proc.devRef (τ := τ) .tc)).toFinset) {r : Ref sig .tc} (hr : r ∉ W) :
    ∀ op ∈ ops, Proc.devRef (τ := τ) .tc r ∉ op.writes := fun op hop hb => by
  obtain ⟨y, hy, he⟩ := List.mem_map.mp (List.mem_toFinset.mp ((List.forall_iff_forall_mem.mp hW) op hop hb))
  exact hr (Proc.devRef_injective _ he ▸ hy)

local macro "wr_one" : tactic =>
  `(tactic| (simp only [nullary_writes, unary_writes, binary_writes, ternary_writes, quaternary_writes, reshape_writes, binaryIndexed_writes, nary_writes]; exact Finset.Subset.refl _))

abbrev opsC0_W : List (Ref sig .tc) := [main_call0_v0, main_call0_cst, main_call0_v1, main_call0_v2, main_v0, main_v1, main_v2, main_v3, main_v4, main_v5, main_v6, main_v7, main_v8, main_v9, main_v10, main_v11, main_v12, main_v13, main_cst, main_v14, main_v15, main_cst_0, main_v16, main_v17, main_v18, main_v19, main_v20, main_cst_1, main_v21, main_v22, main_v23, main_v24, main_v25, main_cst_2, main_v26, main_v27, main_v28, main_v29, main_v30, main_v31, main_v32, main_v33, main_v34, main_cst_3, main_v35, main_v36, main_v37, main_v38, main_v39, main_cst_4, main_v40, main_v41, main_cst_5, main_v42, main_v43, main_v44, main_v45, main_v46, main_cst_6, main_v47]
set_option maxHeartbeats 4000000 in
theorem opsC0_we : WritesEach (opsC0 : List (HloOp τ sig (Elt F))) opsC0_W := by
  repeat' constructor
  all_goals wr_one

abbrev opsC1_W : List (Ref sig .tc) := [main_v48, main_v49, main_v50, main_v51, main_v52, main_v53, main_v54, main_v55, main_cst_7, main_v56, main_v57, main_v58, main_v59, main_v60, main_cst_8, main_v61, main_v62, main_v63, main_v64, main_v65, main_cst_9, main_v66, main_v67, main_cst_10, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95, main_v96, main_v97, main_v98, main_v99, main_v100]
set_option maxHeartbeats 4000000 in
theorem opsC1_we : WritesEach (opsC1 : List (HloOp τ sig (Elt F))) opsC1_W := by
  repeat' constructor
  all_goals wr_one

abbrev opsC2_W : List (Ref sig .tc) := [main_cst_11, main_v101, main_v102, main_cst_12, main_cst_13, main_call1_v0, main_call1_v1, main_call1_v2, main_call1_v3, main_call1_v4, main_v103, main_cst_14, main_v104, main_v105, main_cst_15, main_v106, main_v107, main_v108, main_v109, main_v110, main_v111, main_v112, main_v113, main_v114, main_cst_16, main_cst_17, main_call2_v0, main_call2_v1, main_call2_v2, main_call2_v3, main_call2_v4, main_v115]
set_option maxHeartbeats 4000000 in
theorem opsC2_we : WritesEach (opsC2 : List (HloOp τ sig (Elt F))) opsC2_W := by
  repeat' constructor
  all_goals wr_one

abbrev opsC3_W : List (Ref sig .tc) := [main_v116, main_v117, main_cst_18, main_cst_19, main_call3_v0, main_call3_v1, main_call3_v2, main_call3_v3, main_call3_v4, main_v118, main_cst_20, main_v119, main_v120, main_cst_21, main_cst_22, main_call4_v0, main_call4_v1, main_call4_v2, main_call4_v3, main_call4_v4, main_v121, main_cst_23, main_v122, main_v123, main_v124, main_c, main_c_24, main_call5_v0, main_call5_v1, main_call5_v2, main_call5_v3, main_call5_v4, main_v125, main_v126, main_v127, main_c_25, main_c_26, main_call6_v0, main_call6_v1, main_call6_v2, main_call6_v3, main_call6_v4, main_v128, main_v129, main_v130, main_v131, main_v132, main_v133, main_v134, main_v135, main_c_27, main_v136, main_v137, main_c_28]
set_option maxHeartbeats 4000000 in
theorem opsC3_we : WritesEach (opsC3 : List (HloOp τ sig (Elt F))) opsC3_W := by
  repeat' constructor
  all_goals wr_one

abbrev opsC4_W : List (Ref sig .tc) := [main_v138, main_v139, main_v140, main_c_29, main_v141, main_v142, main_c_30, main_v143, main_v144, main_v145, main_v146, main_v147, main_v148, main_v149, main_c_31, main_v150, main_v151, main_c_32, main_v152, main_v153, main_c_33, main_v154, main_v155, main_v156, main_c_34, main_v157, main_v158, main_c_35, main_v159, main_v160, main_v161, main_v162, main_v163, main_v164, main_v165, main_c_36, main_v166, main_v167, main_c_37, main_v168, main_v169, main_c_38, main_v170, main_v171, main_v172, main_c_39, main_v173, main_v174, main_c_40, main_v175, main_v176, main_v177, main_v178, main_v179]
set_option maxHeartbeats 4000000 in
theorem opsC4_we : WritesEach (opsC4 : List (HloOp τ sig (Elt F))) opsC4_W := by
  repeat' constructor
  all_goals wr_one

abbrev opsC5_W : List (Ref sig .tc) := [main_v180, main_v181, main_c_41, main_v182, main_v183, main_c_42, main_v184, main_v185, main_c_43, main_v186, main_v187, main_c_44, main_v188, main_v189, main_v190, main_c_45, main_v191, main_v192, main_c_46, main_v193, main_v194, main_v195, main_v196, main_v197, main_v198, main_v199, main_cst_47, main_v200, main_v201, main_v202, main_v203, main_v204, main_v205, main_v206, main_cst_48, main_v207, main_v208, main_v209, main_v210, main_cst_49, main_v211, main_v212, main_v213, main_v214, main_v215, main_v216, main_v217, main_v218, main_v219, main_v220, main_v221, main_v222, main_cst_50, main_cst_51]
set_option maxHeartbeats 4000000 in
theorem opsC5_we : WritesEach (opsC5 : List (HloOp τ sig (Elt F))) opsC5_W := by
  repeat' constructor
  all_goals wr_one

abbrev opsC6_W : List (Ref sig .tc) := [main_call7_v0, main_call7_v1, main_call7_v2, main_call7_v3, main_call7_v4, main_v223, main_cst_52, main_v224, main_v225, main_cst_53, main_cst_54, main_call8_v0, main_call8_v1, main_call8_v2, main_call8_v3, main_call8_v4, main_v226, main_cst_55, main_v227, main_v228, main_v229, main_c_56, main_c_57, main_call9_v0, main_call9_v1, main_call9_v2, main_call9_v3, main_call9_v4, main_v230, main_v231, main_v232, main_c_58, main_c_59, main_call10_v0, main_call10_v1, main_call10_v2, main_call10_v3, main_call10_v4, main_v233, main_v234, main_v235, main_v236, main_v237, main_v238, main_v239, main_v240, main_c_60, main_v241, main_v242, main_c_61, main_v243, main_v244, main_v245]
set_option maxHeartbeats 4000000 in
theorem opsC6_we : WritesEach (opsC6 : List (HloOp τ sig (Elt F))) opsC6_W := by
  repeat' constructor
  all_goals wr_one

abbrev opsC7_W : List (Ref sig .tc) := [main_c_62, main_v246, main_v247, main_c_63, main_v248, main_v249, main_v250, main_v251, main_v252, main_v253, main_v254, main_c_64, main_v255, main_v256, main_c_65, main_v257, main_v258, main_c_66, main_v259, main_v260, main_v261, main_c_67, main_v262, main_v263, main_c_68, main_v264, main_v265, main_v266, main_v267, main_v268, main_v269, main_v270, main_c_69, main_v271, main_v272, main_c_70, main_v273, main_v274, main_c_71, main_v275, main_v276, main_v277, main_c_72, main_v278, main_v279, main_c_73, main_v280, main_v281, main_v282, main_v283, main_v284, main_v285, main_v286]
set_option maxHeartbeats 4000000 in
theorem opsC7_we : WritesEach (opsC7 : List (HloOp τ sig (Elt F))) opsC7_W := by
  repeat' constructor
  all_goals wr_one

abbrev opsC8_W : List (Ref sig .tc) := [main_c_74, main_v287, main_v288, main_c_75, main_v289, main_v290, main_c_76, main_v291, main_v292, main_c_77, main_v293, main_v294, main_v295, main_c_78, main_v296, main_v297, main_c_79, main_v298, main_v299, main_v300, main_v301, main_v302, main_v303, main_v304, main_cst_80, main_v305, main_v306, main_v307, main_v308, main_v309, main_v310, main_v311, main_cst_81, main_v312, main_v313, main_v314, main_v315, main_cst_82, main_v316, main_v317, main_v318, main_v319, main_v320, main_v321, main_v322, main_v323, main_v324, main_v325, main_v326, main_v327, main_v328, main_cst_83, main_cst_84]
set_option maxHeartbeats 4000000 in
theorem opsC8_we : WritesEach (opsC8 : List (HloOp τ sig (Elt F))) opsC8_W := by
  repeat' constructor
  all_goals wr_one

abbrev opsC9_W : List (Ref sig .tc) := [main_call11_v0, main_call11_v1, main_call11_v2, main_call11_v3, main_call11_v4, main_v329, main_cst_85, main_v330, main_v331, main_cst_86, main_cst_87, main_call12_v0, main_call12_v1, main_call12_v2, main_call12_v3, main_call12_v4, main_v332, main_cst_88, main_v333, main_v334, main_v335, main_c_89, main_c_90, main_call13_v0, main_call13_v1, main_call13_v2, main_call13_v3, main_call13_v4, main_v336, main_v337, main_v338, main_c_91, main_c_92, main_call14_v0, main_call14_v1, main_call14_v2, main_call14_v3, main_call14_v4, main_v339, main_v340, main_v341, main_v342, main_v343, main_v344, main_v345, main_v346, main_c_93, main_v347, main_v348, main_c_94, main_v349, main_v350, main_v351]
set_option maxHeartbeats 4000000 in
theorem opsC9_we : WritesEach (opsC9 : List (HloOp τ sig (Elt F))) opsC9_W := by
  repeat' constructor
  all_goals wr_one

abbrev opsC10_W : List (Ref sig .tc) := [main_c_95, main_v352, main_v353, main_c_96, main_v354, main_v355, main_v356, main_v357, main_v358, main_v359, main_v360, main_c_97, main_v361, main_v362, main_c_98, main_v363, main_v364, main_c_99, main_v365, main_v366, main_v367, main_c_100, main_v368, main_v369, main_c_101, main_v370, main_v371, main_v372, main_v373, main_v374, main_v375, main_v376, main_c_102, main_v377, main_v378, main_c_103, main_v379, main_v380, main_c_104, main_v381, main_v382, main_v383, main_c_105, main_v384, main_v385, main_c_106, main_v386, main_v387, main_v388, main_v389, main_v390, main_v391, main_v392]
set_option maxHeartbeats 4000000 in
theorem opsC10_we : WritesEach (opsC10 : List (HloOp τ sig (Elt F))) opsC10_W := by
  repeat' constructor
  all_goals wr_one

abbrev opsC11_W : List (Ref sig .tc) := [main_c_107, main_v393, main_v394, main_c_108, main_v395, main_v396, main_c_109, main_v397, main_v398, main_c_110, main_v399, main_v400, main_v401, main_c_111, main_v402, main_v403, main_c_112, main_v404, main_v405, main_v406, main_v407, main_v408, main_v409, main_v410, main_cst_113, main_v411, main_v412, main_v413, main_v414, main_v415, main_v416, main_v417, main_cst_114, main_v418, main_v419, main_v420, main_v421, main_cst_115, main_v422, main_v423, main_v424, main_v425, main_v426, main_v427, main_v428, main_v429, main_v430, main_v431, main_v432, main_v433, main_v434, main_cst_116, main_cst_117]
set_option maxHeartbeats 4000000 in
theorem opsC11_we : WritesEach (opsC11 : List (HloOp τ sig (Elt F))) opsC11_W := by
  repeat' constructor
  all_goals wr_one

abbrev opsC12_W : List (Ref sig .tc) := [main_call15_v0, main_call15_v1, main_call15_v2, main_call15_v3, main_call15_v4, main_v435, main_cst_118, main_v436, main_v437, main_cst_119, main_cst_120, main_call16_v0, main_call16_v1, main_call16_v2, main_call16_v3, main_call16_v4, main_v438, main_cst_121, main_v439, main_v440, main_v441, main_c_122, main_c_123, main_call17_v0, main_call17_v1, main_call17_v2, main_call17_v3, main_call17_v4, main_v442, main_v443, main_v444, main_c_124, main_c_125, main_call18_v0, main_call18_v1, main_call18_v2, main_call18_v3, main_call18_v4, main_v445, main_v446, main_v447, main_v448, main_v449, main_v450, main_v451, main_v452, main_c_126, main_v453, main_v454, main_c_127, main_v455, main_v456, main_v457]
set_option maxHeartbeats 4000000 in
theorem opsC12_we : WritesEach (opsC12 : List (HloOp τ sig (Elt F))) opsC12_W := by
  repeat' constructor
  all_goals wr_one

abbrev opsC13_W : List (Ref sig .tc) := [main_c_128, main_v458, main_v459, main_c_129, main_v460, main_v461, main_v462, main_v463, main_v464, main_v465, main_v466, main_c_130, main_v467, main_v468, main_c_131, main_v469, main_v470, main_c_132, main_v471, main_v472, main_v473, main_c_133, main_v474, main_v475, main_c_134, main_v476, main_v477, main_v478, main_v479, main_v480, main_v481, main_v482, main_c_135, main_v483, main_v484, main_c_136, main_v485, main_v486, main_c_137, main_v487, main_v488, main_v489, main_c_138, main_v490, main_v491, main_c_139, main_v492, main_v493, main_v494, main_v495, main_v496, main_v497, main_v498]
set_option maxHeartbeats 4000000 in
theorem opsC13_we : WritesEach (opsC13 : List (HloOp τ sig (Elt F))) opsC13_W := by
  repeat' constructor
  all_goals wr_one

abbrev opsC14_W : List (Ref sig .tc) := [main_c_140, main_v499, main_v500, main_c_141, main_v501, main_v502, main_c_142, main_v503, main_v504, main_c_143, main_v505, main_v506, main_v507, main_c_144, main_v508, main_v509, main_c_145, main_v510, main_v511, main_v512, main_v513, main_v514, main_v515, main_v516, main_cst_146, main_v517, main_v518, main_v519, main_v520, main_v521, main_v522, main_v523, main_cst_147, main_v524, main_v525, main_v526, main_v527, main_cst_148, main_v528, main_v529, main_v530, main_v531, main_v532, main_v533, main_v534, main_v535, main_v536, main_v537, main_v538, main_v539, main_cst_149, main_cst_150]
set_option maxHeartbeats 4000000 in
theorem opsC14_we : WritesEach (opsC14 : List (HloOp τ sig (Elt F))) opsC14_W := by
  repeat' constructor
  all_goals wr_one

abbrev opsC15_W : List (Ref sig .tc) := [main_call19_v0, main_call19_v1, main_call19_v2, main_call19_v3, main_call19_v4, main_v540, main_cst_151, main_v541, main_v542, main_cst_152, main_cst_153, main_call20_v0, main_call20_v1, main_call20_v2, main_call20_v3, main_call20_v4, main_v543, main_cst_154, main_v544, main_v545, main_v546, main_c_155, main_c_156, main_call21_v0, main_call21_v1, main_call21_v2, main_call21_v3, main_call21_v4, main_v547, main_v548, main_v549, main_c_157, main_c_158, main_call22_v0, main_call22_v1, main_call22_v2, main_call22_v3, main_call22_v4, main_v550, main_v551, main_v552, main_v553, main_v554, main_v555, main_v556, main_v557, main_c_159, main_v558, main_v559, main_c_160, main_v560, main_v561, main_v562]
set_option maxHeartbeats 4000000 in
theorem opsC15_we : WritesEach (opsC15 : List (HloOp τ sig (Elt F))) opsC15_W := by
  repeat' constructor
  all_goals wr_one

abbrev opsC16_W : List (Ref sig .tc) := [main_c_161, main_v563, main_v564, main_c_162, main_v565, main_v566, main_v567, main_v568, main_v569, main_v570, main_v571, main_c_163, main_v572, main_v573, main_c_164, main_v574, main_v575, main_c_165, main_v576, main_v577, main_v578, main_c_166, main_v579, main_v580, main_c_167, main_v581, main_v582, main_v583, main_v584, main_v585, main_v586, main_v587, main_c_168, main_v588, main_v589, main_c_169, main_v590, main_v591, main_c_170, main_v592, main_v593, main_v594, main_c_171, main_v595, main_v596, main_c_172, main_v597, main_v598, main_v599, main_v600, main_v601, main_v602, main_v603]
set_option maxHeartbeats 4000000 in
theorem opsC16_we : WritesEach (opsC16 : List (HloOp τ sig (Elt F))) opsC16_W := by
  repeat' constructor
  all_goals wr_one

abbrev opsC17_W : List (Ref sig .tc) := [main_c_173, main_v604, main_v605, main_c_174, main_v606, main_v607, main_c_175, main_v608, main_v609, main_c_176, main_v610, main_v611, main_v612, main_c_177, main_v613, main_v614, main_c_178, main_v615, main_v616, main_v617, main_v618, main_v619, main_v620, main_v621, main_cst_179, main_v622, main_v623, main_v624, main_v625, main_v626, main_v627, main_v628, main_cst_180, main_v629, main_v630, main_v631, main_v632, main_cst_181, main_v633, main_v634, main_v635, main_v636, main_v637, main_v638, main_v639, main_v640, main_v641, main_v642, main_v643, main_v644, main_v645, main_cst_182, main_cst_183]
set_option maxHeartbeats 4000000 in
theorem opsC17_we : WritesEach (opsC17 : List (HloOp τ sig (Elt F))) opsC17_W := by
  repeat' constructor
  all_goals wr_one

abbrev opsC18_W : List (Ref sig .tc) := [main_call23_v0, main_call23_v1, main_call23_v2, main_call23_v3, main_call23_v4, main_v646, main_cst_184, main_v647, main_v648, main_cst_185, main_cst_186, main_call24_v0, main_call24_v1, main_call24_v2, main_call24_v3, main_call24_v4, main_v649, main_cst_187, main_v650, main_v651, main_v652, main_c_188, main_c_189, main_call25_v0, main_call25_v1, main_call25_v2, main_call25_v3, main_call25_v4, main_v653, main_v654, main_v655, main_c_190, main_c_191, main_call26_v0, main_call26_v1, main_call26_v2, main_call26_v3, main_call26_v4, main_v656, main_v657, main_v658, main_v659, main_v660, main_v661, main_v662, main_v663, main_c_192, main_v664, main_v665, main_c_193, main_v666, main_v667]
set_option maxHeartbeats 4000000 in
theorem opsC18_we : WritesEach (opsC18 : List (HloOp τ sig (Elt F))) opsC18_W := by
  repeat' constructor
  all_goals wr_one

abbrev opsC19_W : List (Ref sig .tc) := [main_v668, main_c_194, main_v669, main_v670, main_c_195, main_v671, main_v672, main_v673, main_v674, main_v675, main_v676, main_v677, main_c_196, main_v678, main_v679, main_c_197, main_v680, main_v681, main_c_198, main_v682, main_v683, main_v684, main_c_199, main_v685, main_v686, main_c_200, main_v687, main_v688, main_v689, main_v690, main_v691, main_v692, main_v693, main_c_201, main_v694, main_v695, main_c_202, main_v696, main_v697, main_c_203, main_v698, main_v699, main_v700, main_c_204, main_v701, main_v702, main_c_205, main_v703, main_v704, main_v705, main_v706, main_v707]
set_option maxHeartbeats 4000000 in
theorem opsC19_we : WritesEach (opsC19 : List (HloOp τ sig (Elt F))) opsC19_W := by
  repeat' constructor
  all_goals wr_one

abbrev opsC20_W : List (Ref sig .tc) := [main_v708, main_v709, main_c_206, main_v710, main_v711, main_c_207, main_v712, main_v713, main_c_208, main_v714, main_v715, main_c_209, main_v716, main_v717, main_v718, main_c_210, main_v719, main_v720, main_c_211, main_v721, main_v722, main_v723, main_v724, main_v725, main_v726, main_v727, main_cst_212, main_v728, main_v729, main_v730, main_v731, main_v732, main_v733, main_v734, main_cst_213, main_v735, main_v736, main_v737, main_v738, main_cst_214, main_v739, main_v740, main_v741, main_v742, main_v743, main_v744, main_v745, main_v746, main_v747, main_v748]
set_option maxHeartbeats 4000000 in
theorem opsC20_we : WritesEach (opsC20 : List (HloOp τ sig (Elt F))) opsC20_W := by
  repeat' constructor
  all_goals wr_one

abbrev opsC21_W : List (Ref sig .tc) := [main_v749, main_v750, main_v751, main_v752, main_v753, main_v754, main_call27_cst, main_call27_v0, main_v755, main_v756, main_v757, main_v758, main_v759, main_call28_cst, main_call28_v0, main_v760, main_v761, main_v762, main_v763, main_v764, main_v765, main_v766, main_v767]
set_option maxHeartbeats 4000000 in
theorem opsC21_we : WritesEach (opsC21 : List (HloOp τ sig (Elt F))) opsC21_W := by
  repeat' constructor
  all_goals wr_one

end Cert.ReferenceIdeal.Chunks

end
-- ==== Proof.RefRun.lean ====
/-
  The reference's run. Its program is the straight line of its operations, so every weakly fair execution ends with each
  buffer at the fold of the operations' results over the launch contents; and no operation writes an argument.
-/
import proofs.«414985_j5068061409687_4_alg».proof.Proof.RefOps
import proofs.«414985_j5068061409687_4_alg».proof.Proof.RefW
import Idealize.ShloMosaic.Lib.StableHlo.Run

noncomputable section

namespace Cert.ReferenceIdeal.RunC

open Cert.ReferenceIdeal Cert.ReferenceIdeal.Gen Cert.ReferenceIdeal.Chunks Idealize.ShloMosaic Idealize.ShloMosaic.TcCoe Idealize.SL.Sem Idealize.ShloMosaic.StableHlo

variable {F : FTy → Type} [FloatOps F]

abbrev chunks : List (List (HloOp τ sig (Elt F))) := [opsC0, opsC1, opsC2, opsC3, opsC4, opsC5, opsC6, opsC7, opsC8, opsC9, opsC10, opsC11, opsC12, opsC13, opsC14, opsC15, opsC16, opsC17, opsC18, opsC19, opsC20, opsC21]

abbrev opsAll : List (HloOp τ sig (Elt F)) := List.flatten chunks

set_option maxRecDepth 100000 in
set_option maxHeartbeats 4000000 in

/-- The program is the straight line of all its operations. -/
theorem main_eq (c : Dev nD) : main (F := F) c = seq opsAll := rfl

theorem scopedRefs_eq : (Finset.univ.filter fun b : Ref sig .tc => b.isScoped) = ∅ := by decide
theorem scopedSems_eq : (Finset.univ.filter fun sm : SemLoc sig => sm.isScoped .tc) = ∅ := by decide

theorem forall_mem_flatten {α : Type} {P : α → Prop} {ls : List (List α)} (h : ∀ l ∈ ls, ∀ a ∈ l, P a) :
    ∀ a ∈ ls.flatten, P a := by
  intro a ha
  obtain ⟨l, hl, hal⟩ := List.mem_flatten.mp ha
  exact h l hl a hal

/-- A property of every operation of each chunk holds of every operation of the program. -/
theorem forall_chunks {P : HloOp τ sig (Elt F) → Prop}
    (h0 : ∀ op ∈ (opsC0 : List (HloOp τ sig (Elt F))), P op) (h1 : ∀ op ∈ (opsC1 : List (HloOp τ sig (Elt F))), P op)
    (h2 : ∀ op ∈ (opsC2 : List (HloOp τ sig (Elt F))), P op) (h3 : ∀ op ∈ (opsC3 : List (HloOp τ sig (Elt F))), P op)
    (h4 : ∀ op ∈ (opsC4 : List (HloOp τ sig (Elt F))), P op) (h5 : ∀ op ∈ (opsC5 : List (HloOp τ sig (Elt F))), P op)
    (h6 : ∀ op ∈ (opsC6 : List (HloOp τ sig (Elt F))), P op) (h7 : ∀ op ∈ (opsC7 : List (HloOp τ sig (Elt F))), P op)
    (h8 : ∀ op ∈ (opsC8 : List (HloOp τ sig (Elt F))), P op) (h9 : ∀ op ∈ (opsC9 : List (HloOp τ sig (Elt F))), P op)
    (h10 : ∀ op ∈ (opsC10 : List (HloOp τ sig (Elt F))), P op) (h11 : ∀ op ∈ (opsC11 : List (HloOp τ sig (Elt F))), P op)
    (h12 : ∀ op ∈ (opsC12 : List (HloOp τ sig (Elt F))), P op) (h13 : ∀ op ∈ (opsC13 : List (HloOp τ sig (Elt F))), P op)
    (h14 : ∀ op ∈ (opsC14 : List (HloOp τ sig (Elt F))), P op) (h15 : ∀ op ∈ (opsC15 : List (HloOp τ sig (Elt F))), P op)
    (h16 : ∀ op ∈ (opsC16 : List (HloOp τ sig (Elt F))), P op) (h17 : ∀ op ∈ (opsC17 : List (HloOp τ sig (Elt F))), P op)
    (h18 : ∀ op ∈ (opsC18 : List (HloOp τ sig (Elt F))), P op) (h19 : ∀ op ∈ (opsC19 : List (HloOp τ sig (Elt F))), P op)
    (h20 : ∀ op ∈ (opsC20 : List (HloOp τ sig (Elt F))), P op) (h21 : ∀ op ∈ (opsC21 : List (HloOp τ sig (Elt F))), P op) :
    ∀ op ∈ (opsAll : List (HloOp τ sig (Elt F))), P op := by
  refine forall_mem_flatten fun l hl => ?_
  simp only [chunks, List.mem_cons, List.not_mem_nil, or_false] at hl
  rcases hl with rfl | rfl | rfl | rfl | rfl | rfl | rfl | rfl | rfl | rfl | rfl | rfl | rfl | rfl | rfl | rfl | rfl | rfl | rfl | rfl | rfl | rfl
  exacts [h0, h1, h2, h3, h4, h5, h6, h7, h8, h9, h10, h11, h12, h13, h14, h15, h16, h17, h18, h19, h20, h21]

theorem opsAll_sub : (opsAll : List (HloOp τ sig (Elt F))).Forall fun op => op.bufs ⊆ tcRefs τ sig :=
  List.forall_iff_forall_mem.mpr <| forall_chunks
    (List.forall_iff_forall_mem.mp opsC0_sub) (List.forall_iff_forall_mem.mp opsC1_sub)
    (List.forall_iff_forall_mem.mp opsC2_sub) (List.forall_iff_forall_mem.mp opsC3_sub)
    (List.forall_iff_forall_mem.mp opsC4_sub) (List.forall_iff_forall_mem.mp opsC5_sub)
    (List.forall_iff_forall_mem.mp opsC6_sub) (List.forall_iff_forall_mem.mp opsC7_sub)
    (List.forall_iff_forall_mem.mp opsC8_sub) (List.forall_iff_forall_mem.mp opsC9_sub)
    (List.forall_iff_forall_mem.mp opsC10_sub) (List.forall_iff_forall_mem.mp opsC11_sub)
    (List.forall_iff_forall_mem.mp opsC12_sub) (List.forall_iff_forall_mem.mp opsC13_sub)
    (List.forall_iff_forall_mem.mp opsC14_sub) (List.forall_iff_forall_mem.mp opsC15_sub)
    (List.forall_iff_forall_mem.mp opsC16_sub) (List.forall_iff_forall_mem.mp opsC17_sub)
    (List.forall_iff_forall_mem.mp opsC18_sub) (List.forall_iff_forall_mem.mp opsC19_sub)
    (List.forall_iff_forall_mem.mp opsC20_sub) (List.forall_iff_forall_mem.mp opsC21_sub)

theorem opsC0_fresh : (opsC0 : List (HloOp τ sig (Elt F))).Forall fun op => op.fresh = ∅ := by
  simp only [List.Forall]; repeat' constructor
theorem opsC1_fresh : (opsC1 : List (HloOp τ sig (Elt F))).Forall fun op => op.fresh = ∅ := by
  simp only [List.Forall]; repeat' constructor
theorem opsC2_fresh : (opsC2 : List (HloOp τ sig (Elt F))).Forall fun op => op.fresh = ∅ := by
  simp only [List.Forall]; repeat' constructor
theorem opsC3_fresh : (opsC3 : List (HloOp τ sig (Elt F))).Forall fun op => op.fresh = ∅ := by
  simp only [List.Forall]; repeat' constructor
theorem opsC4_fresh : (opsC4 : List (HloOp τ sig (Elt F))).Forall fun op => op.fresh = ∅ := by
  simp only [List.Forall]; repeat' constructor
theorem opsC5_fresh : (opsC5 : List (HloOp τ sig (Elt F))).Forall fun op => op.fresh = ∅ := by
  simp only [List.Forall]; repeat' constructor
theorem opsC6_fresh : (opsC6 : List (HloOp τ sig (Elt F))).Forall fun op => op.fresh = ∅ := by
  simp only [List.Forall]; repeat' constructor
theorem opsC7_fresh : (opsC7 : List (HloOp τ sig (Elt F))).Forall fun op => op.fresh = ∅ := by
  simp only [List.Forall]; repeat' constructor
theorem opsC8_fresh : (opsC8 : List (HloOp τ sig (Elt F))).Forall fun op => op.fresh = ∅ := by
  simp only [List.Forall]; repeat' constructor
theorem opsC9_fresh : (opsC9 : List (HloOp τ sig (Elt F))).Forall fun op => op.fresh = ∅ := by
  simp only [List.Forall]; repeat' constructor
theorem opsC10_fresh : (opsC10 : List (HloOp τ sig (Elt F))).Forall fun op => op.fresh = ∅ := by
  simp only [List.Forall]; repeat' constructor
theorem opsC11_fresh : (opsC11 : List (HloOp τ sig (Elt F))).Forall fun op => op.fresh = ∅ := by
  simp only [List.Forall]; repeat' constructor
theorem opsC12_fresh : (opsC12 : List (HloOp τ sig (Elt F))).Forall fun op => op.fresh = ∅ := by
  simp only [List.Forall]; repeat' constructor
theorem opsC13_fresh : (opsC13 : List (HloOp τ sig (Elt F))).Forall fun op => op.fresh = ∅ := by
  simp only [List.Forall]; repeat' constructor
theorem opsC14_fresh : (opsC14 : List (HloOp τ sig (Elt F))).Forall fun op => op.fresh = ∅ := by
  simp only [List.Forall]; repeat' constructor
theorem opsC15_fresh : (opsC15 : List (HloOp τ sig (Elt F))).Forall fun op => op.fresh = ∅ := by
  simp only [List.Forall]; repeat' constructor
theorem opsC16_fresh : (opsC16 : List (HloOp τ sig (Elt F))).Forall fun op => op.fresh = ∅ := by
  simp only [List.Forall]; repeat' constructor
theorem opsC17_fresh : (opsC17 : List (HloOp τ sig (Elt F))).Forall fun op => op.fresh = ∅ := by
  simp only [List.Forall]; repeat' constructor
theorem opsC18_fresh : (opsC18 : List (HloOp τ sig (Elt F))).Forall fun op => op.fresh = ∅ := by
  simp only [List.Forall]; repeat' constructor
theorem opsC19_fresh : (opsC19 : List (HloOp τ sig (Elt F))).Forall fun op => op.fresh = ∅ := by
  simp only [List.Forall]; repeat' constructor
theorem opsC20_fresh : (opsC20 : List (HloOp τ sig (Elt F))).Forall fun op => op.fresh = ∅ := by
  simp only [List.Forall]; repeat' constructor
theorem opsC21_fresh : (opsC21 : List (HloOp τ sig (Elt F))).Forall fun op => op.fresh = ∅ := by
  simp only [List.Forall]; repeat' constructor

theorem opsAll_fresh : ∀ op ∈ (opsAll : List (HloOp τ sig (Elt F))), op.fresh = ∅ :=
  forall_chunks
    (List.forall_iff_forall_mem.mp opsC0_fresh) (List.forall_iff_forall_mem.mp opsC1_fresh)
    (List.forall_iff_forall_mem.mp opsC2_fresh) (List.forall_iff_forall_mem.mp opsC3_fresh)
    (List.forall_iff_forall_mem.mp opsC4_fresh) (List.forall_iff_forall_mem.mp opsC5_fresh)
    (List.forall_iff_forall_mem.mp opsC6_fresh) (List.forall_iff_forall_mem.mp opsC7_fresh)
    (List.forall_iff_forall_mem.mp opsC8_fresh) (List.forall_iff_forall_mem.mp opsC9_fresh)
    (List.forall_iff_forall_mem.mp opsC10_fresh) (List.forall_iff_forall_mem.mp opsC11_fresh)
    (List.forall_iff_forall_mem.mp opsC12_fresh) (List.forall_iff_forall_mem.mp opsC13_fresh)
    (List.forall_iff_forall_mem.mp opsC14_fresh) (List.forall_iff_forall_mem.mp opsC15_fresh)
    (List.forall_iff_forall_mem.mp opsC16_fresh) (List.forall_iff_forall_mem.mp opsC17_fresh)
    (List.forall_iff_forall_mem.mp opsC18_fresh) (List.forall_iff_forall_mem.mp opsC19_fresh)
    (List.forall_iff_forall_mem.mp opsC20_fresh) (List.forall_iff_forall_mem.mp opsC21_fresh)

/-- Every weakly fair execution ends, each buffer at the fold of the operations' results. -/
theorem run_after (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b) = after opsAll (launchContents m d) (Proc.devRef .tc b) :=
  run_seq scopedRefs_eq scopedSems_eq defs main (fun _ => opsAll) main_eq (fun _ => opsAll_sub) m ρ (fun _ => opsAll_fresh)

theorem after_append (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-- The fold over all chunks is the chunks' folds in order. -/
theorem after_all (V : Valuation τ sig (Elt F)) : after opsAll V = after opsC21 (after opsC20 (after opsC19 (after opsC18 (after opsC17 (after opsC16 (after opsC15 (after opsC14 (after opsC13 (after opsC12 (after opsC11 (after opsC10 (after opsC9 (after opsC8 (after opsC7 (after opsC6 (after opsC5 (after opsC4 (after opsC3 (after opsC2 (after opsC1 (after opsC0 V))))))))))))))))))))) := by
  simp only [opsAll, chunks, List.flatten_cons, List.flatten_nil, List.append_nil, after_append]

/-- A reference below the index of every member of a list is not in the list. -/
theorem not_mem_of_idx_lt {W : List (Ref sig .tc)} (hW : (W.all fun y => decide (15 ≤ y.idx.val)) = true) {r : Ref sig .tc}
    (hr : r.idx.val < 15) : r ∉ W := fun h => Nat.not_le.mpr hr (of_decide_eq_true (List.all_eq_true.mp hW r h))

theorem opsC0_W_ge : (opsC0_W.all fun y => decide (15 ≤ y.idx.val)) = true := by decide
theorem opsC1_W_ge : (opsC1_W.all fun y => decide (15 ≤ y.idx.val)) = true := by decide
theorem opsC2_W_ge : (opsC2_W.all fun y => decide (15 ≤ y.idx.val)) = true := by decide
theorem opsC3_W_ge : (opsC3_W.all fun y => decide (15 ≤ y.idx.val)) = true := by decide
theorem opsC4_W_ge : (opsC4_W.all fun y => decide (15 ≤ y.idx.val)) = true := by decide
theorem opsC5_W_ge : (opsC5_W.all fun y => decide (15 ≤ y.idx.val)) = true := by decide
theorem opsC6_W_ge : (opsC6_W.all fun y => decide (15 ≤ y.idx.val)) = true := by decide
theorem opsC7_W_ge : (opsC7_W.all fun y => decide (15 ≤ y.idx.val)) = true := by decide
theorem opsC8_W_ge : (opsC8_W.all fun y => decide (15 ≤ y.idx.val)) = true := by decide
theorem opsC9_W_ge : (opsC9_W.all fun y => decide (15 ≤ y.idx.val)) = true := by decide
theorem opsC10_W_ge : (opsC10_W.all fun y => decide (15 ≤ y.idx.val)) = true := by decide
theorem opsC11_W_ge : (opsC11_W.all fun y => decide (15 ≤ y.idx.val)) = true := by decide
theorem opsC12_W_ge : (opsC12_W.all fun y => decide (15 ≤ y.idx.val)) = true := by decide
theorem opsC13_W_ge : (opsC13_W.all fun y => decide (15 ≤ y.idx.val)) = true := by decide
theorem opsC14_W_ge : (opsC14_W.all fun y => decide (15 ≤ y.idx.val)) = true := by decide
theorem opsC15_W_ge : (opsC15_W.all fun y => decide (15 ≤ y.idx.val)) = true := by decide
theorem opsC16_W_ge : (opsC16_W.all fun y => decide (15 ≤ y.idx.val)) = true := by decide
theorem opsC17_W_ge : (opsC17_W.all fun y => decide (15 ≤ y.idx.val)) = true := by decide
theorem opsC18_W_ge : (opsC18_W.all fun y => decide (15 ≤ y.idx.val)) = true := by decide
theorem opsC19_W_ge : (opsC19_W.all fun y => decide (15 ≤ y.idx.val)) = true := by decide
theorem opsC20_W_ge : (opsC20_W.all fun y => decide (15 ≤ y.idx.val)) = true := by decide
theorem opsC21_W_ge : (opsC21_W.all fun y => decide (15 ≤ y.idx.val)) = true := by decide

/-- The arguments are the first fifteen buffers and every result buffer comes after them: the fold keeps an argument. -/
theorem kept_of_idx_lt {r : Ref sig .tc} (hr : r.idx.val < 15) (V : Valuation τ sig (Elt F)) :
    after opsAll V (Proc.devRef .tc r) = V (Proc.devRef .tc r) :=
  after_of_forall_not_mem opsAll V <| forall_chunks
    (not_writes_of_sub opsC0_we.writesIn (not_mem_of_idx_lt opsC0_W_ge hr)) (not_writes_of_sub opsC1_we.writesIn (not_mem_of_idx_lt opsC1_W_ge hr))
    (not_writes_of_sub opsC2_we.writesIn (not_mem_of_idx_lt opsC2_W_ge hr)) (not_writes_of_sub opsC3_we.writesIn (not_mem_of_idx_lt opsC3_W_ge hr))
    (not_writes_of_sub opsC4_we.writesIn (not_mem_of_idx_lt opsC4_W_ge hr)) (not_writes_of_sub opsC5_we.writesIn (not_mem_of_idx_lt opsC5_W_ge hr))
    (not_writes_of_sub opsC6_we.writesIn (not_mem_of_idx_lt opsC6_W_ge hr)) (not_writes_of_sub opsC7_we.writesIn (not_mem_of_idx_lt opsC7_W_ge hr))
    (not_writes_of_sub opsC8_we.writesIn (not_mem_of_idx_lt opsC8_W_ge hr)) (not_writes_of_sub opsC9_we.writesIn (not_mem_of_idx_lt opsC9_W_ge hr))
    (not_writes_of_sub opsC10_we.writesIn (not_mem_of_idx_lt opsC10_W_ge hr)) (not_writes_of_sub opsC11_we.writesIn (not_mem_of_idx_lt opsC11_W_ge hr))
    (not_writes_of_sub opsC12_we.writesIn (not_mem_of_idx_lt opsC12_W_ge hr)) (not_writes_of_sub opsC13_we.writesIn (not_mem_of_idx_lt opsC13_W_ge hr))
    (not_writes_of_sub opsC14_we.writesIn (not_mem_of_idx_lt opsC14_W_ge hr)) (not_writes_of_sub opsC15_we.writesIn (not_mem_of_idx_lt opsC15_W_ge hr))
    (not_writes_of_sub opsC16_we.writesIn (not_mem_of_idx_lt opsC16_W_ge hr)) (not_writes_of_sub opsC17_we.writesIn (not_mem_of_idx_lt opsC17_W_ge hr))
    (not_writes_of_sub opsC18_we.writesIn (not_mem_of_idx_lt opsC18_W_ge hr)) (not_writes_of_sub opsC19_we.writesIn (not_mem_of_idx_lt opsC19_W_ge hr))
    (not_writes_of_sub opsC20_we.writesIn (not_mem_of_idx_lt opsC20_W_ge hr)) (not_writes_of_sub opsC21_we.writesIn (not_mem_of_idx_lt opsC21_W_ge hr))

theorem kept_arg0 (V : Valuation τ sig (Elt F)) : after opsAll V (Proc.devRef .tc main_arg0) = V (Proc.devRef .tc main_arg0) :=
  kept_of_idx_lt (by decide) V
theorem kept_arg1 (V : Valuation τ sig (Elt F)) : after opsAll V (Proc.devRef .tc main_arg1) = V (Proc.devRef .tc main_arg1) :=
  kept_of_idx_lt (by decide) V
theorem kept_arg2 (V : Valuation τ sig (Elt F)) : after opsAll V (Proc.devRef .tc main_arg2) = V (Proc.devRef .tc main_arg2) :=
  kept_of_idx_lt (by decide) V
theorem kept_arg3 (V : Valuation τ sig (Elt F)) : after opsAll V (Proc.devRef .tc main_arg3) = V (Proc.devRef .tc main_arg3) :=
  kept_of_idx_lt (by decide) V
theorem kept_arg4 (V : Valuation τ sig (Elt F)) : after opsAll V (Proc.devRef .tc main_arg4) = V (Proc.devRef .tc main_arg4) :=
  kept_of_idx_lt (by decide) V
theorem kept_arg5 (V : Valuation τ sig (Elt F)) : after opsAll V (Proc.devRef .tc main_arg5) = V (Proc.devRef .tc main_arg5) :=
  kept_of_idx_lt (by decide) V
theorem kept_arg6 (V : Valuation τ sig (Elt F)) : after opsAll V (Proc.devRef .tc main_arg6) = V (Proc.devRef .tc main_arg6) :=
  kept_of_idx_lt (by decide) V
theorem kept_arg7 (V : Valuation τ sig (Elt F)) : after opsAll V (Proc.devRef .tc main_arg7) = V (Proc.devRef .tc main_arg7) :=
  kept_of_idx_lt (by decide) V
theorem kept_arg8 (V : Valuation τ sig (Elt F)) : after opsAll V (Proc.devRef .tc main_arg8) = V (Proc.devRef .tc main_arg8) :=
  kept_of_idx_lt (by decide) V
theorem kept_arg9 (V : Valuation τ sig (Elt F)) : after opsAll V (Proc.devRef .tc main_arg9) = V (Proc.devRef .tc main_arg9) :=
  kept_of_idx_lt (by decide) V
theorem kept_arg10 (V : Valuation τ sig (Elt F)) : after opsAll V (Proc.devRef .tc main_arg10) = V (Proc.devRef .tc main_arg10) :=
  kept_of_idx_lt (by decide) V
theorem kept_arg11 (V : Valuation τ sig (Elt F)) : after opsAll V (Proc.devRef .tc main_arg11) = V (Proc.devRef .tc main_arg11) :=
  kept_of_idx_lt (by decide) V
theorem kept_arg12 (V : Valuation τ sig (Elt F)) : after opsAll V (Proc.devRef .tc main_arg12) = V (Proc.devRef .tc main_arg12) :=
  kept_of_idx_lt (by decide) V
theorem kept_arg13 (V : Valuation τ sig (Elt F)) : after opsAll V (Proc.devRef .tc main_arg13) = V (Proc.devRef .tc main_arg13) :=
  kept_of_idx_lt (by decide) V
theorem kept_arg14 (V : Valuation τ sig (Elt F)) : after opsAll V (Proc.devRef .tc main_arg14) = V (Proc.devRef .tc main_arg14) :=
  kept_of_idx_lt (by decide) V

end Cert.ReferenceIdeal.RunC

end
-- ==== Proof.RefTail.lean ====
/-
  The reference's last operations as one term of the contents before them, and that term read at an index.
-/
import proofs.«414985_j5068061409687_4_alg».proof.Proof.RefOps
import proofs.«414985_j5068061409687_4_alg».proof.Proof.Spec
import proofs.«414985_j5068061409687_4_alg».proof.Proof.LibDot
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Tail

open Cert.ReferenceIdeal Cert.ReferenceIdeal.Gen Cert.ReferenceIdeal.Chunks Cert.Spec Cert.LibDot Idealize.ShloMosaic
  Idealize.ShloMosaic.ValueIdx Idealize.ShloMosaic.StableHlo

variable {F : FTy → Type} [FloatOps F]

/-- The residual plus the regrouped perceptron of `s * (u * v)`. -/
def RTerm (s u v : FVec F S500000x32 .f32) (shs : FVec F S500000x16x3 .f32) (we : FVec F S32x256 .f32)
    (be : FVec F S256 .f32) (w1 : FVec F S256x256 .f32) (b1 : FVec F S256 .f32) (w2 : FVec F S256x48 .f32)
    (b2 : FVec F S48 .f32) : FVec F S500000x16x3 .f32 :=
  addf shs
    (shapeCast S500000x16x3
      (addf
        (Host.dotGeneral dot_S500000x256_S256x48_S500000x48_1_0_0_1_n_n none
          (maximumf
            (addf
              (Host.dotGeneral dot_S500000x256_S256x256_S500000x256_1_0_0_1_n_n none
                (maximumf
                  (addf
                    (Host.dotGeneral dot_S500000x32_S32x256_S500000x256_1_0_0_1_n_n none (mulf s (mulf u v)) we)
                    (broadcastInDim S500000x256 ![0, 1] bcast_S1x256_S500000x256_0_1
                      (broadcastInDim S1x256 ![1] bcast_S256_S1x256_1 be)))
                  (broadcastInDim S500000x256 ![] bcast_S_S500000x256 (constant (F := F) S_ .f32 0x00000000#32)))
                w1)
              (broadcastInDim S500000x256 ![0, 1] bcast_S1x256_S500000x256_0_1
                (broadcastInDim S1x256 ![1] bcast_S256_S1x256_1 b1)))
            (broadcastInDim S500000x256 ![] bcast_S_S500000x256 (constant (F := F) S_ .f32 0x00000000#32)))
          w2)
        (broadcastInDim S500000x48 ![0, 1] bcast_S1x48_S500000x48_0_1
          (broadcastInDim S1x48 ![1] bcast_S48_S1x48_1 b2)))
      shapeCasts_S500000x48_S500000x16x3)

/-- The last result after these operations is `RTerm` of the contents before them. -/
theorem tail_v766 (X : Valuation τ sig (Elt F)) :
    after opsC21 X (Proc.devRef .tc main_v766)
      = RTerm (X (Proc.devRef .tc main_v432)) (X (Proc.devRef .tc main_v643)) (X (Proc.devRef .tc main_v748))
          (X (Proc.devRef .tc main_arg3)) (X (Proc.devRef .tc main_arg9)) (X (Proc.devRef .tc main_arg10))
          (X (Proc.devRef .tc main_arg11)) (X (Proc.devRef .tc main_arg12)) (X (Proc.devRef .tc main_arg13))
          (X (Proc.devRef .tc main_arg14)) := by
  simp only [opsC21]
  after_results_simp
  rfl

/-- The other result is column 0 of the two-column argument. -/
theorem tail_v767 (X : Valuation τ sig (Elt F)) :
    after opsC21 X (Proc.devRef .tc main_v767)
      = extractStridedSlice S500000x1 ![0, 0] (X (Proc.devRef .tc main_arg6)) slices_S500000x2_S500000x1_0_0 := by
  simp only [opsC21]
  after_results_simp

section Dot2
variable {m k n : Nat} (d : DotDims ⟨2, ![m, k]⟩ ⟨2, ![k, n]⟩ ⟨2, ![m, n]⟩)

/-- A matrix product at `(r, c)`: the sum over the inner index of the products. -/
theorem dot_ix2 (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (x : FVec Ideal ⟨2, ![m, k]⟩ .f32) (w : FVec Ideal ⟨2, ![k, n]⟩ .f32) (r : Fin m) (c : Fin n) :
    Host.dotGeneral d prec x w (ix2 r c) = ∑ i : Fin k, x (ix2 r i) * w (ix2 i c) := by
  show FloatOps.dotGeneral d prec .single x w (ix2 r c) = _
  rw [Ideal.dotGeneral_apply]
  rw [← Equiv.sum_comp (contrEquiv1 d k (contr_rank d hlc) (contr_size d hlc)).symm]
  refine Finset.sum_congr rfl fun i _ => ?_
  have hq := contrEquiv1_symm_val d k (contr_rank d hlc) (contr_size d hlc) i
  congr 2
  · refine Shape.idx_ext₂ ?_ ?_
    · exact lhs_axis0 d hln hlb _ _
    · exact (d.lhsIdx_val_of_single hlc _ _).trans hq
  · refine Shape.idx_ext₂ ?_ ?_
    · exact (d.rhsIdx_val_of_single hrc _ _).trans hq
    · exact rhs_axis1 d hln hlb hrn hrb _ _

/-- A bias vector spread over the rows reads its own entry at every row. -/
theorem bias_row {α : Type} {a b : Nat} (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (c : Fin b) :
    broadcastInDim ⟨2, ![a, b]⟩ ![0, 1] h2 (broadcastInDim ⟨2, ![1, b]⟩ ![1] h1 v) (ix2 p c) = v (ix1 c) := by
  refine (broadcastInDim_apply _ h2 _ (ix2 p c) (ix2 (0 : Fin 1) c) fun ax => ?_).trans
    (broadcastInDim_apply _ h1 v (ix2 (0 : Fin 1) c) (ix1 c) fun ax => ?_)
  · match ax with
    | ⟨0, _⟩ => rfl
    | ⟨1, _⟩ =>
      show c.val = if b = 1 then 0 else c.val
      split
      · have := c.isLt; omega
      · rfl
  · match ax with
    | ⟨0, _⟩ =>
      show c.val = if b = 1 then 0 else c.val
      split
      · have := c.isLt; omega
      · rfl

/-- One layer of the reference at an entry is `lin` of the row. -/
theorem layer_ix2 (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (x : FVec Ideal ⟨2, ![m, k]⟩ .f32) (w : FVec Ideal ⟨2, ![k, n]⟩ .f32)
    (b : FVec Ideal ⟨1, ![n]⟩ .f32) (h1 : (⟨1, ![n]⟩ : Shape).BroadcastsInDim ⟨2, ![1, n]⟩ ![1])
    (h2 : (⟨2, ![1, n]⟩ : Shape).BroadcastsInDim ⟨2, ![m, n]⟩ ![0, 1]) (r : Fin m) (c : Fin n) :
    addf (Host.dotGeneral d prec x w)
        (broadcastInDim ⟨2, ![m, n]⟩ ![0, 1] h2 (broadcastInDim ⟨2, ![1, n]⟩ ![1] h1 b)) (ix2 r c)
      = lin (fun i => x (ix2 r i)) (fun i c => w (ix2 i c)) (fun c => b (ix1 c)) c := by
  rw [addf_apply, dot_ix2 d hlc hrc hln hrn hlb hrb, bias_row]
  rfl

end Dot2

/-- A maximum against the spread zero is the rectifier of the entry. -/
theorem relu_ix {t : Shape} (dims : Fin (⟨0, ![]⟩ : Shape).rank → Fin t.rank) (h : (⟨0, ![]⟩ : Shape).BroadcastsInDim t dims)
    (v : FVec Ideal t .f32) (i : t.Idx) :
    maximumf v (broadcastInDim t dims h (constant (F := Ideal) ⟨0, ![]⟩ .f32 0x00000000#32)) i = relu (v i) := by
  rw [maximumf_apply]
  show max (v i) (Ideal.ofBits .f32 0x00000000#32) = _
  rw [Ideal.ofBits_zero_f32]
  rfl

/-- A row of `a * b` entries viewed as an `a x b` block, row-major: entry `(p, q)` is entry `b * p + q` of the row. -/
theorem regroup_ix3 {α : Type} {N a b : Nat} (x : (⟨2, ![N, a * b]⟩ : Shape).Idx → α)
    (h : (⟨2, ![N, a * b]⟩ : Shape).ShapeCasts ⟨3, ![N, a, b]⟩) (n : Fin N) (p : Fin a) (q : Fin b)
    (c : Fin (a * b)) (hc : c.val = b * p.val + q.val) :
    shapeCast ⟨3, ![N, a, b]⟩ x h (ix3 n p q) = x (ix2 n c) :=
  shapeCast_apply x h _ _ (by
    rw [Shape.rowMajor_val_two, Shape.rowMajor_val_three]
    show n.val * (a * b) + c.val = (n.val * a + p.val) * b + q.val
    rw [hc, Nat.add_mul, Nat.mul_assoc, Nat.mul_comm b p.val, Nat.add_assoc])

/-- `RTerm` at `(n, a, b)`: the residual entry plus output `3 a + b` of the perceptron of row `n`'s product. -/
theorem RTerm_apply (s u v : FVec Ideal S500000x32 .f32) (shs : FVec Ideal S500000x16x3 .f32) (we : FVec Ideal S32x256 .f32)
    (be : FVec Ideal S256 .f32) (w1 : FVec Ideal S256x256 .f32) (b1 : FVec Ideal S256 .f32) (w2 : FVec Ideal S256x48 .f32)
    (b2 : FVec Ideal S48 .f32) (n : Fin 500000) (a : Fin 16) (b : Fin 3) :
    RTerm (F := Ideal) s u v shs we be w1 b1 w2 b2 (ix3 n a b)
      = shs (ix3 n a b) + mlp (fun f => s (ix2 n f) * (u (ix2 n f) * v (ix2 n f))) (fun i k => we (ix2 i k))
          (fun k => be (ix1 k)) (fun i k => w1 (ix2 i k)) (fun k => b1 (ix1 k)) (fun i k => w2 (ix2 i k))
          (fun k => b2 (ix1 k)) ⟨3 * a.val + b.val, by omega⟩ := by
  have L3 := layer_ix2 dot_S500000x256_S256x48_S500000x48_1_0_0_1_n_n rfl rfl rfl rfl rfl rfl none
  have L2 := layer_ix2 dot_S500000x256_S256x256_S500000x256_1_0_0_1_n_n rfl rfl rfl rfl rfl rfl none
  have L1 := layer_ix2 dot_S500000x32_S32x256_S500000x256_1_0_0_1_n_n rfl rfl rfl rfl rfl rfl none
  unfold RTerm
  rw [addf_apply, regroup_ix3 (a := 16) (b := 3) _ _ n a b ⟨3 * a.val + b.val, by omega⟩ rfl, L3]
  simp only [relu_ix, L2, L1, mulf_apply]
  rfl

end Cert.ReferenceIdeal.Tail
end
-- ==== Proof.CorrDefs.lean ====
/-
  The two programs' host operations cut at the same places: a preamble, then one group per bilinear plane lookup. The kernel's
  operations before its region and the reference's from its 117th on are the same operations up to the buffers' names, except
  that the reference multiplies interpolated features together as it goes. Each side's buffer contents are named level by
  level, and each group comes with the list of the buffers it writes, place by place.
-/
import proofs.«414985_j5068061409687_4_alg».proof.Proof.FrHostAKI
import proofs.«414985_j5068061409687_4_alg».proof.Proof.FrHostBKI
import proofs.«414985_j5068061409687_4_alg».proof.Proof.RefOps
import proofs.«414985_j5068061409687_4_alg».proof.Proof.RefW
import proofs.«414985_j5068061409687_4_alg».proof.Proof.LibAfter

set_option maxRecDepth 16384

noncomputable section

namespace Cert.Corr

open Idealize.ShloMosaic Idealize.ShloMosaic.TcCoe Idealize.SL.Sem Idealize.ShloMosaic.StableHlo Cert.LibAfter

variable {F : FTy → Type} [FloatOps F]

abbrev gK0 : List (HloOp Cert.KernelIdeal.τ Cert.KernelIdeal.sig (Elt F)) := Cert.KernelIdeal.Gen.hostOps0 ++ Cert.KernelIdeal.Gen.hostOps0_1 ++ Cert.KernelIdeal.Gen.hostOps0_2 ++ Cert.KernelIdeal.Gen.hostOps0_3
abbrev gK0_W : List (Ref Cert.KernelIdeal.sig .tc) := Cert.KernelIdeal.Fr.hostOps0_W ++ Cert.KernelIdeal.Fr.hostOps0_1_W ++ Cert.KernelIdeal.Fr.hostOps0_2_W ++ Cert.KernelIdeal.Fr.hostOps0_3_W
theorem gK0_we : WritesEach (gK0 (F := F)) gK0_W := WritesEach.append (WritesEach.append (WritesEach.append (Cert.KernelIdeal.Fr.hostOps0_we) Cert.KernelIdeal.Fr.hostOps0_1_we) Cert.KernelIdeal.Fr.hostOps0_2_we) Cert.KernelIdeal.Fr.hostOps0_3_we
abbrev gK1 : List (HloOp Cert.KernelIdeal.τ Cert.KernelIdeal.sig (Elt F)) := Cert.KernelIdeal.Gen.hostOps0_4 ++ Cert.KernelIdeal.Gen.hostOps0_5 ++ Cert.KernelIdeal.Gen.hostOps0_6 ++ Cert.KernelIdeal.Gen.hostOps0_7 ++ Cert.KernelIdeal.Gen.hostOps0_8 ++ Cert.KernelIdeal.Gen.hostOps0_9 ++ Cert.KernelIdeal.Gen.hostOps0_10 ++ Cert.KernelIdeal.Gen.hostOps0_11 ++ Cert.KernelIdeal.Gen.hostOps0_12
abbrev gK1_W : List (Ref Cert.KernelIdeal.sig .tc) := Cert.KernelIdeal.Fr.hostOps0_4_W ++ Cert.KernelIdeal.Fr.hostOps0_5_W ++ Cert.KernelIdeal.Fr.hostOps0_6_W ++ Cert.KernelIdeal.Fr.hostOps0_7_W ++ Cert.KernelIdeal.Fr.hostOps0_8_W ++ Cert.KernelIdeal.Fr.hostOps0_9_W ++ Cert.KernelIdeal.Fr.hostOps0_10_W ++ Cert.KernelIdeal.Fr.hostOps0_11_W ++ Cert.KernelIdeal.Fr.hostOps0_12_W
theorem gK1_we : WritesEach (gK1 (F := F)) gK1_W := WritesEach.append (WritesEach.append (WritesEach.append (WritesEach.append (WritesEach.append (WritesEach.append (WritesEach.append (WritesEach.append (Cert.KernelIdeal.Fr.hostOps0_4_we) Cert.KernelIdeal.Fr.hostOps0_5_we) Cert.KernelIdeal.Fr.hostOps0_6_we) Cert.KernelIdeal.Fr.hostOps0_7_we) Cert.KernelIdeal.Fr.hostOps0_8_we) Cert.KernelIdeal.Fr.hostOps0_9_we) Cert.KernelIdeal.Fr.hostOps0_10_we) Cert.KernelIdeal.Fr.hostOps0_11_we) Cert.KernelIdeal.Fr.hostOps0_12_we
abbrev gK2 : List (HloOp Cert.KernelIdeal.τ Cert.KernelIdeal.sig (Elt F)) := Cert.KernelIdeal.Gen.hostOps0_13 ++ Cert.KernelIdeal.Gen.hostOps0_14 ++ Cert.KernelIdeal.Gen.hostOps0_15 ++ Cert.KernelIdeal.Gen.hostOps0_16 ++ Cert.KernelIdeal.Gen.hostOps0_17 ++ Cert.KernelIdeal.Gen.hostOps0_18 ++ Cert.KernelIdeal.Gen.hostOps0_19 ++ Cert.KernelIdeal.Gen.hostOps0_20
abbrev gK2_W : List (Ref Cert.KernelIdeal.sig .tc) := Cert.KernelIdeal.Fr.hostOps0_13_W ++ Cert.KernelIdeal.Fr.hostOps0_14_W ++ Cert.KernelIdeal.Fr.hostOps0_15_W ++ Cert.KernelIdeal.Fr.hostOps0_16_W ++ Cert.KernelIdeal.Fr.hostOps0_17_W ++ Cert.KernelIdeal.Fr.hostOps0_18_W ++ Cert.KernelIdeal.Fr.hostOps0_19_W ++ Cert.KernelIdeal.Fr.hostOps0_20_W
theorem gK2_we : WritesEach (gK2 (F := F)) gK2_W := WritesEach.append (WritesEach.append (WritesEach.append (WritesEach.append (WritesEach.append (WritesEach.append (WritesEach.append (Cert.KernelIdeal.Fr.hostOps0_13_we) Cert.KernelIdeal.Fr.hostOps0_14_we) Cert.KernelIdeal.Fr.hostOps0_15_we) Cert.KernelIdeal.Fr.hostOps0_16_we) Cert.KernelIdeal.Fr.hostOps0_17_we) Cert.KernelIdeal.Fr.hostOps0_18_we) Cert.KernelIdeal.Fr.hostOps0_19_we) Cert.KernelIdeal.Fr.hostOps0_20_we
abbrev gK3 : List (HloOp Cert.KernelIdeal.τ Cert.KernelIdeal.sig (Elt F)) := Cert.KernelIdeal.Gen.hostOps0_21 ++ Cert.KernelIdeal.Gen.hostOps0_22 ++ Cert.KernelIdeal.Gen.hostOps0_23 ++ Cert.KernelIdeal.Gen.hostOps0_24 ++ Cert.KernelIdeal.Gen.hostOps0_25 ++ Cert.KernelIdeal.Gen.hostOps0_26 ++ Cert.KernelIdeal.Gen.hostOps0_27 ++ Cert.KernelIdeal.Gen.hostOps0_28
abbrev gK3_W : List (Ref Cert.KernelIdeal.sig .tc) := Cert.KernelIdeal.Fr.hostOps0_21_W ++ Cert.KernelIdeal.Fr.hostOps0_22_W ++ Cert.KernelIdeal.Fr.hostOps0_23_W ++ Cert.KernelIdeal.Fr.hostOps0_24_W ++ Cert.KernelIdeal.Fr.hostOps0_25_W ++ Cert.KernelIdeal.Fr.hostOps0_26_W ++ Cert.KernelIdeal.Fr.hostOps0_27_W ++ Cert.KernelIdeal.Fr.hostOps0_28_W
theorem gK3_we : WritesEach (gK3 (F := F)) gK3_W := WritesEach.append (WritesEach.append (WritesEach.append (WritesEach.append (WritesEach.append (WritesEach.append (WritesEach.append (Cert.KernelIdeal.Fr.hostOps0_21_we) Cert.KernelIdeal.Fr.hostOps0_22_we) Cert.KernelIdeal.Fr.hostOps0_23_we) Cert.KernelIdeal.Fr.hostOps0_24_we) Cert.KernelIdeal.Fr.hostOps0_25_we) Cert.KernelIdeal.Fr.hostOps0_26_we) Cert.KernelIdeal.Fr.hostOps0_27_we) Cert.KernelIdeal.Fr.hostOps0_28_we
abbrev gK4 : List (HloOp Cert.KernelIdeal.τ Cert.KernelIdeal.sig (Elt F)) := Cert.KernelIdeal.Gen.hostOps0_29 ++ Cert.KernelIdeal.Gen.hostOps0_30 ++ Cert.KernelIdeal.Gen.hostOps0_31 ++ Cert.KernelIdeal.Gen.hostOps0_32 ++ Cert.KernelIdeal.Gen.hostOps0_33 ++ Cert.KernelIdeal.Gen.hostOps0_34 ++ Cert.KernelIdeal.Gen.hostOps0_35 ++ Cert.KernelIdeal.Gen.hostOps0_36
abbrev gK4_W : List (Ref Cert.KernelIdeal.sig .tc) := Cert.KernelIdeal.Fr.hostOps0_29_W ++ Cert.KernelIdeal.Fr.hostOps0_30_W ++ Cert.KernelIdeal.Fr.hostOps0_31_W ++ Cert.KernelIdeal.Fr.hostOps0_32_W ++ Cert.KernelIdeal.Fr.hostOps0_33_W ++ Cert.KernelIdeal.Fr.hostOps0_34_W ++ Cert.KernelIdeal.Fr.hostOps0_35_W ++ Cert.KernelIdeal.Fr.hostOps0_36_W
theorem gK4_we : WritesEach (gK4 (F := F)) gK4_W := WritesEach.append (WritesEach.append (WritesEach.append (WritesEach.append (WritesEach.append (WritesEach.append (WritesEach.append (Cert.KernelIdeal.Fr.hostOps0_29_we) Cert.KernelIdeal.Fr.hostOps0_30_we) Cert.KernelIdeal.Fr.hostOps0_31_we) Cert.KernelIdeal.Fr.hostOps0_32_we) Cert.KernelIdeal.Fr.hostOps0_33_we) Cert.KernelIdeal.Fr.hostOps0_34_we) Cert.KernelIdeal.Fr.hostOps0_35_we) Cert.KernelIdeal.Fr.hostOps0_36_we
abbrev gK5 : List (HloOp Cert.KernelIdeal.τ Cert.KernelIdeal.sig (Elt F)) := Cert.KernelIdeal.Gen.hostOps0_37 ++ Cert.KernelIdeal.Gen.hostOps0_38 ++ Cert.KernelIdeal.Gen.hostOps0_39 ++ Cert.KernelIdeal.Gen.hostOps0_40 ++ Cert.KernelIdeal.Gen.hostOps0_41 ++ Cert.KernelIdeal.Gen.hostOps0_42 ++ Cert.KernelIdeal.Gen.hostOps0_43 ++ Cert.KernelIdeal.Gen.hostOps0_44
abbrev gK5_W : List (Ref Cert.KernelIdeal.sig .tc) := Cert.KernelIdeal.Fr.hostOps0_37_W ++ Cert.KernelIdeal.Fr.hostOps0_38_W ++ Cert.KernelIdeal.Fr.hostOps0_39_W ++ Cert.KernelIdeal.Fr.hostOps0_40_W ++ Cert.KernelIdeal.Fr.hostOps0_41_W ++ Cert.KernelIdeal.Fr.hostOps0_42_W ++ Cert.KernelIdeal.Fr.hostOps0_43_W ++ Cert.KernelIdeal.Fr.hostOps0_44_W
theorem gK5_we : WritesEach (gK5 (F := F)) gK5_W := WritesEach.append (WritesEach.append (WritesEach.append (WritesEach.append (WritesEach.append (WritesEach.append (WritesEach.append (Cert.KernelIdeal.Fr.hostOps0_37_we) Cert.KernelIdeal.Fr.hostOps0_38_we) Cert.KernelIdeal.Fr.hostOps0_39_we) Cert.KernelIdeal.Fr.hostOps0_40_we) Cert.KernelIdeal.Fr.hostOps0_41_we) Cert.KernelIdeal.Fr.hostOps0_42_we) Cert.KernelIdeal.Fr.hostOps0_43_we) Cert.KernelIdeal.Fr.hostOps0_44_we
abbrev gK6 : List (HloOp Cert.KernelIdeal.τ Cert.KernelIdeal.sig (Elt F)) := Cert.KernelIdeal.Gen.hostOps0_45 ++ Cert.KernelIdeal.Gen.hostOps0_46 ++ Cert.KernelIdeal.Gen.hostOps0_47 ++ Cert.KernelIdeal.Gen.hostOps0_48 ++ Cert.KernelIdeal.Gen.hostOps0_49 ++ Cert.KernelIdeal.Gen.hostOps0_50 ++ Cert.KernelIdeal.Gen.hostOps0_51 ++ Cert.KernelIdeal.Gen.hostOps0_52
abbrev gK6_W : List (Ref Cert.KernelIdeal.sig .tc) := Cert.KernelIdeal.Fr.hostOps0_45_W ++ Cert.KernelIdeal.Fr.hostOps0_46_W ++ Cert.KernelIdeal.Fr.hostOps0_47_W ++ Cert.KernelIdeal.Fr.hostOps0_48_W ++ Cert.KernelIdeal.Fr.hostOps0_49_W ++ Cert.KernelIdeal.Fr.hostOps0_50_W ++ Cert.KernelIdeal.Fr.hostOps0_51_W ++ Cert.KernelIdeal.Fr.hostOps0_52_W
theorem gK6_we : WritesEach (gK6 (F := F)) gK6_W := WritesEach.append (WritesEach.append (WritesEach.append (WritesEach.append (WritesEach.append (WritesEach.append (WritesEach.append (Cert.KernelIdeal.Fr.hostOps0_45_we) Cert.KernelIdeal.Fr.hostOps0_46_we) Cert.KernelIdeal.Fr.hostOps0_47_we) Cert.KernelIdeal.Fr.hostOps0_48_we) Cert.KernelIdeal.Fr.hostOps0_49_we) Cert.KernelIdeal.Fr.hostOps0_50_we) Cert.KernelIdeal.Fr.hostOps0_51_we) Cert.KernelIdeal.Fr.hostOps0_52_we

theorem prefix_eq : List.flatten (Cert.KernelIdeal.Fr.prefixOps (F := F)) = gK0 ++ (gK1 ++ (gK2 ++ (gK3 ++ (gK4 ++ (gK5 ++ gK6))))) := by
  simp only [Cert.KernelIdeal.Fr.prefixOps, gK0, gK1, gK2, gK3, gK4, gK5, gK6, List.flatten_cons, List.flatten_nil, List.append_nil, List.append_assoc]

abbrev lvK1 (M : Valuation Cert.KernelIdeal.τ Cert.KernelIdeal.sig (Elt F)) : Valuation Cert.KernelIdeal.τ Cert.KernelIdeal.sig (Elt F) := after gK0 M
abbrev lvK2 (M : Valuation Cert.KernelIdeal.τ Cert.KernelIdeal.sig (Elt F)) : Valuation Cert.KernelIdeal.τ Cert.KernelIdeal.sig (Elt F) := after gK1 (lvK1 M)
abbrev lvK3 (M : Valuation Cert.KernelIdeal.τ Cert.KernelIdeal.sig (Elt F)) : Valuation Cert.KernelIdeal.τ Cert.KernelIdeal.sig (Elt F) := after gK2 (lvK2 M)
abbrev lvK4 (M : Valuation Cert.KernelIdeal.τ Cert.KernelIdeal.sig (Elt F)) : Valuation Cert.KernelIdeal.τ Cert.KernelIdeal.sig (Elt F) := after gK3 (lvK3 M)
abbrev lvK5 (M : Valuation Cert.KernelIdeal.τ Cert.KernelIdeal.sig (Elt F)) : Valuation Cert.KernelIdeal.τ Cert.KernelIdeal.sig (Elt F) := after gK4 (lvK4 M)
abbrev lvK6 (M : Valuation Cert.KernelIdeal.τ Cert.KernelIdeal.sig (Elt F)) : Valuation Cert.KernelIdeal.τ Cert.KernelIdeal.sig (Elt F) := after gK5 (lvK5 M)
abbrev lvK7 (M : Valuation Cert.KernelIdeal.τ Cert.KernelIdeal.sig (Elt F)) : Valuation Cert.KernelIdeal.τ Cert.KernelIdeal.sig (Elt F) := after gK6 (lvK6 M)

/-- The contents the region reads are the last level. -/
theorem V0_eq (m : (ℓ : Loc Cert.KernelIdeal.nD Cert.KernelIdeal.τ Cert.KernelIdeal.sig) → Buf (Elt F) ℓ) (c : Dev Cert.KernelIdeal.nD) :
    Cert.KernelIdeal.Fr.V0 m c = lvK7 (fun b => m (c, b)) := by
  show after (List.flatten Cert.KernelIdeal.Fr.prefixOps) _ = _
  rw [prefix_eq]
  simp only [StableHlo.after_append]

abbrev gRc : List (HloOp Cert.ReferenceIdeal.τ Cert.ReferenceIdeal.sig (Elt F)) := Cert.ReferenceIdeal.Chunks.opsC0 ++ Cert.ReferenceIdeal.Chunks.opsC1
abbrev gRc_W : List (Ref Cert.ReferenceIdeal.sig .tc) := Cert.ReferenceIdeal.Chunks.opsC0_W ++ Cert.ReferenceIdeal.Chunks.opsC1_W
theorem gRc_we : WritesEach (gRc (F := F)) gRc_W := WritesEach.append (Cert.ReferenceIdeal.Chunks.opsC0_we) Cert.ReferenceIdeal.Chunks.opsC1_we
abbrev gR0 : List (HloOp Cert.ReferenceIdeal.τ Cert.ReferenceIdeal.sig (Elt F)) := Cert.ReferenceIdeal.Chunks.opsC2
abbrev gR0_W : List (Ref Cert.ReferenceIdeal.sig .tc) := Cert.ReferenceIdeal.Chunks.opsC2_W
theorem gR0_we : WritesEach (gR0 (F := F)) gR0_W := Cert.ReferenceIdeal.Chunks.opsC2_we
abbrev gR1 : List (HloOp Cert.ReferenceIdeal.τ Cert.ReferenceIdeal.sig (Elt F)) := Cert.ReferenceIdeal.Chunks.opsC3 ++ Cert.ReferenceIdeal.Chunks.opsC4 ++ Cert.ReferenceIdeal.Chunks.opsC5
abbrev gR1_W : List (Ref Cert.ReferenceIdeal.sig .tc) := Cert.ReferenceIdeal.Chunks.opsC3_W ++ Cert.ReferenceIdeal.Chunks.opsC4_W ++ Cert.ReferenceIdeal.Chunks.opsC5_W
theorem gR1_we : WritesEach (gR1 (F := F)) gR1_W := WritesEach.append (WritesEach.append (Cert.ReferenceIdeal.Chunks.opsC3_we) Cert.ReferenceIdeal.Chunks.opsC4_we) Cert.ReferenceIdeal.Chunks.opsC5_we
abbrev gR2 : List (HloOp Cert.ReferenceIdeal.τ Cert.ReferenceIdeal.sig (Elt F)) := Cert.ReferenceIdeal.Chunks.opsC6 ++ Cert.ReferenceIdeal.Chunks.opsC7 ++ Cert.ReferenceIdeal.Chunks.opsC8
abbrev gR2_W : List (Ref Cert.ReferenceIdeal.sig .tc) := Cert.ReferenceIdeal.Chunks.opsC6_W ++ Cert.ReferenceIdeal.Chunks.opsC7_W ++ Cert.ReferenceIdeal.Chunks.opsC8_W
theorem gR2_we : WritesEach (gR2 (F := F)) gR2_W := WritesEach.append (WritesEach.append (Cert.ReferenceIdeal.Chunks.opsC6_we) Cert.ReferenceIdeal.Chunks.opsC7_we) Cert.ReferenceIdeal.Chunks.opsC8_we
abbrev gR3 : List (HloOp Cert.ReferenceIdeal.τ Cert.ReferenceIdeal.sig (Elt F)) := Cert.ReferenceIdeal.Chunks.opsC9 ++ Cert.ReferenceIdeal.Chunks.opsC10 ++ Cert.ReferenceIdeal.Chunks.opsC11
abbrev gR3_W : List (Ref Cert.ReferenceIdeal.sig .tc) := Cert.ReferenceIdeal.Chunks.opsC9_W ++ Cert.ReferenceIdeal.Chunks.opsC10_W ++ Cert.ReferenceIdeal.Chunks.opsC11_W
theorem gR3_we : WritesEach (gR3 (F := F)) gR3_W := WritesEach.append (WritesEach.append (Cert.ReferenceIdeal.Chunks.opsC9_we) Cert.ReferenceIdeal.Chunks.opsC10_we) Cert.ReferenceIdeal.Chunks.opsC11_we
abbrev gR4 : List (HloOp Cert.ReferenceIdeal.τ Cert.ReferenceIdeal.sig (Elt F)) := Cert.ReferenceIdeal.Chunks.opsC12 ++ Cert.ReferenceIdeal.Chunks.opsC13 ++ Cert.ReferenceIdeal.Chunks.opsC14
abbrev gR4_W : List (Ref Cert.ReferenceIdeal.sig .tc) := Cert.ReferenceIdeal.Chunks.opsC12_W ++ Cert.ReferenceIdeal.Chunks.opsC13_W ++ Cert.ReferenceIdeal.Chunks.opsC14_W
theorem gR4_we : WritesEach (gR4 (F := F)) gR4_W := WritesEach.append (WritesEach.append (Cert.ReferenceIdeal.Chunks.opsC12_we) Cert.ReferenceIdeal.Chunks.opsC13_we) Cert.ReferenceIdeal.Chunks.opsC14_we
abbrev gR5 : List (HloOp Cert.ReferenceIdeal.τ Cert.ReferenceIdeal.sig (Elt F)) := Cert.ReferenceIdeal.Chunks.opsC15 ++ Cert.ReferenceIdeal.Chunks.opsC16 ++ Cert.ReferenceIdeal.Chunks.opsC17
abbrev gR5_W : List (Ref Cert.ReferenceIdeal.sig .tc) := Cert.ReferenceIdeal.Chunks.opsC15_W ++ Cert.ReferenceIdeal.Chunks.opsC16_W ++ Cert.ReferenceIdeal.Chunks.opsC17_W
theorem gR5_we : WritesEach (gR5 (F := F)) gR5_W := WritesEach.append (WritesEach.append (Cert.ReferenceIdeal.Chunks.opsC15_we) Cert.ReferenceIdeal.Chunks.opsC16_we) Cert.ReferenceIdeal.Chunks.opsC17_we
abbrev gR6 : List (HloOp Cert.ReferenceIdeal.τ Cert.ReferenceIdeal.sig (Elt F)) := Cert.ReferenceIdeal.Chunks.opsC18 ++ Cert.ReferenceIdeal.Chunks.opsC19 ++ Cert.ReferenceIdeal.Chunks.opsC20
abbrev gR6_W : List (Ref Cert.ReferenceIdeal.sig .tc) := Cert.ReferenceIdeal.Chunks.opsC18_W ++ Cert.ReferenceIdeal.Chunks.opsC19_W ++ Cert.ReferenceIdeal.Chunks.opsC20_W
theorem gR6_we : WritesEach (gR6 (F := F)) gR6_W := WritesEach.append (WritesEach.append (Cert.ReferenceIdeal.Chunks.opsC18_we) Cert.ReferenceIdeal.Chunks.opsC19_we) Cert.ReferenceIdeal.Chunks.opsC20_we
abbrev gRt : List (HloOp Cert.ReferenceIdeal.τ Cert.ReferenceIdeal.sig (Elt F)) := Cert.ReferenceIdeal.Chunks.opsC21
abbrev gRt_W : List (Ref Cert.ReferenceIdeal.sig .tc) := Cert.ReferenceIdeal.Chunks.opsC21_W
theorem gRt_we : WritesEach (gRt (F := F)) gRt_W := Cert.ReferenceIdeal.Chunks.opsC21_we

abbrev opsR : List (HloOp Cert.ReferenceIdeal.τ Cert.ReferenceIdeal.sig (Elt F)) :=
  List.flatten [Cert.ReferenceIdeal.Chunks.opsC0, Cert.ReferenceIdeal.Chunks.opsC1, Cert.ReferenceIdeal.Chunks.opsC2, Cert.ReferenceIdeal.Chunks.opsC3, Cert.ReferenceIdeal.Chunks.opsC4, Cert.ReferenceIdeal.Chunks.opsC5, Cert.ReferenceIdeal.Chunks.opsC6, Cert.ReferenceIdeal.Chunks.opsC7, Cert.ReferenceIdeal.Chunks.opsC8, Cert.ReferenceIdeal.Chunks.opsC9, Cert.ReferenceIdeal.Chunks.opsC10, Cert.ReferenceIdeal.Chunks.opsC11, Cert.ReferenceIdeal.Chunks.opsC12, Cert.ReferenceIdeal.Chunks.opsC13, Cert.ReferenceIdeal.Chunks.opsC14, Cert.ReferenceIdeal.Chunks.opsC15, Cert.ReferenceIdeal.Chunks.opsC16, Cert.ReferenceIdeal.Chunks.opsC17, Cert.ReferenceIdeal.Chunks.opsC18, Cert.ReferenceIdeal.Chunks.opsC19, Cert.ReferenceIdeal.Chunks.opsC20, Cert.ReferenceIdeal.Chunks.opsC21]

theorem opsR_eq : (opsR (F := F)) = gRc ++ (gR0 ++ (gR1 ++ (gR2 ++ (gR3 ++ (gR4 ++ (gR5 ++ (gR6 ++ gRt))))))) := by
  simp only [opsR, gRc, gR0, gR1, gR2, gR3, gR4, gR5, gR6, gRt, List.flatten_cons, List.flatten_nil, List.append_nil, List.append_assoc]

abbrev lvR0 (M : Valuation Cert.ReferenceIdeal.τ Cert.ReferenceIdeal.sig (Elt F)) : Valuation Cert.ReferenceIdeal.τ Cert.ReferenceIdeal.sig (Elt F) := after gRc M
abbrev lvR1 (M : Valuation Cert.ReferenceIdeal.τ Cert.ReferenceIdeal.sig (Elt F)) : Valuation Cert.ReferenceIdeal.τ Cert.ReferenceIdeal.sig (Elt F) := after gR0 (lvR0 M)
abbrev lvR2 (M : Valuation Cert.ReferenceIdeal.τ Cert.ReferenceIdeal.sig (Elt F)) : Valuation Cert.ReferenceIdeal.τ Cert.ReferenceIdeal.sig (Elt F) := after gR1 (lvR1 M)
abbrev lvR3 (M : Valuation Cert.ReferenceIdeal.τ Cert.ReferenceIdeal.sig (Elt F)) : Valuation Cert.ReferenceIdeal.τ Cert.ReferenceIdeal.sig (Elt F) := after gR2 (lvR2 M)
abbrev lvR4 (M : Valuation Cert.ReferenceIdeal.τ Cert.ReferenceIdeal.sig (Elt F)) : Valuation Cert.ReferenceIdeal.τ Cert.ReferenceIdeal.sig (Elt F) := after gR3 (lvR3 M)
abbrev lvR5 (M : Valuation Cert.ReferenceIdeal.τ Cert.ReferenceIdeal.sig (Elt F)) : Valuation Cert.ReferenceIdeal.τ Cert.ReferenceIdeal.sig (Elt F) := after gR4 (lvR4 M)
abbrev lvR6 (M : Valuation Cert.ReferenceIdeal.τ Cert.ReferenceIdeal.sig (Elt F)) : Valuation Cert.ReferenceIdeal.τ Cert.ReferenceIdeal.sig (Elt F) := after gR5 (lvR5 M)
abbrev lvR7 (M : Valuation Cert.ReferenceIdeal.τ Cert.ReferenceIdeal.sig (Elt F)) : Valuation Cert.ReferenceIdeal.τ Cert.ReferenceIdeal.sig (Elt F) := after gR6 (lvR6 M)

/-- The reference's final contents are its last operations run from the last level. -/
theorem afterR_eq (M : Valuation Cert.ReferenceIdeal.τ Cert.ReferenceIdeal.sig (Elt F)) : after opsR M = after gRt (lvR7 M) := by
  rw [opsR_eq]
  simp only [StableHlo.after_append]
  rfl

/-- A buffer a group does not write keeps its contents through it. -/
theorem kK0 {r : Ref Cert.KernelIdeal.sig .tc} (h : r ∉ gK0_W) (X : Valuation Cert.KernelIdeal.τ Cert.KernelIdeal.sig (Elt F)) : after gK0 X (Proc.devRef .tc r) = X (Proc.devRef .tc r) := keep_of_wr gK0_we.writesIn h X
theorem kK1 {r : Ref Cert.KernelIdeal.sig .tc} (h : r ∉ gK1_W) (X : Valuation Cert.KernelIdeal.τ Cert.KernelIdeal.sig (Elt F)) : after gK1 X (Proc.devRef .tc r) = X (Proc.devRef .tc r) := keep_of_wr gK1_we.writesIn h X
theorem kK2 {r : Ref Cert.KernelIdeal.sig .tc} (h : r ∉ gK2_W) (X : Valuation Cert.KernelIdeal.τ Cert.KernelIdeal.sig (Elt F)) : after gK2 X (Proc.devRef .tc r) = X (Proc.devRef .tc r) := keep_of_wr gK2_we.writesIn h X
theorem kK3 {r : Ref Cert.KernelIdeal.sig .tc} (h : r ∉ gK3_W) (X : Valuation Cert.KernelIdeal.τ Cert.KernelIdeal.sig (Elt F)) : after gK3 X (Proc.devRef .tc r) = X (Proc.devRef .tc r) := keep_of_wr gK3_we.writesIn h X
theorem kK4 {r : Ref Cert.KernelIdeal.sig .tc} (h : r ∉ gK4_W) (X : Valuation Cert.KernelIdeal.τ Cert.KernelIdeal.sig (Elt F)) : after gK4 X (Proc.devRef .tc r) = X (Proc.devRef .tc r) := keep_of_wr gK4_we.writesIn h X
theorem kK5 {r : Ref Cert.KernelIdeal.sig .tc} (h : r ∉ gK5_W) (X : Valuation Cert.KernelIdeal.τ Cert.KernelIdeal.sig (Elt F)) : after gK5 X (Proc.devRef .tc r) = X (Proc.devRef .tc r) := keep_of_wr gK5_we.writesIn h X
theorem kK6 {r : Ref Cert.KernelIdeal.sig .tc} (h : r ∉ gK6_W) (X : Valuation Cert.KernelIdeal.τ Cert.KernelIdeal.sig (Elt F)) : after gK6 X (Proc.devRef .tc r) = X (Proc.devRef .tc r) := keep_of_wr gK6_we.writesIn h X
theorem kRc {r : Ref Cert.ReferenceIdeal.sig .tc} (h : r ∉ gRc_W) (Y : Valuation Cert.ReferenceIdeal.τ Cert.ReferenceIdeal.sig (Elt F)) : after gRc Y (Proc.devRef .tc r) = Y (Proc.devRef .tc r) := keep_of_wr gRc_we.writesIn h Y
theorem kR0 {r : Ref Cert.ReferenceIdeal.sig .tc} (h : r ∉ gR0_W) (Y : Valuation Cert.ReferenceIdeal.τ Cert.ReferenceIdeal.sig (Elt F)) : after gR0 Y (Proc.devRef .tc r) = Y (Proc.devRef .tc r) := keep_of_wr gR0_we.writesIn h Y
theorem kR1 {r : Ref Cert.ReferenceIdeal.sig .tc} (h : r ∉ gR1_W) (Y : Valuation Cert.ReferenceIdeal.τ Cert.ReferenceIdeal.sig (Elt F)) : after gR1 Y (Proc.devRef .tc r) = Y (Proc.devRef .tc r) := keep_of_wr gR1_we.writesIn h Y
theorem kR2 {r : Ref Cert.ReferenceIdeal.sig .tc} (h : r ∉ gR2_W) (Y : Valuation Cert.ReferenceIdeal.τ Cert.ReferenceIdeal.sig (Elt F)) : after gR2 Y (Proc.devRef .tc r) = Y (Proc.devRef .tc r) := keep_of_wr gR2_we.writesIn h Y
theorem kR3 {r : Ref Cert.ReferenceIdeal.sig .tc} (h : r ∉ gR3_W) (Y : Valuation Cert.ReferenceIdeal.τ Cert.ReferenceIdeal.sig (Elt F)) : after gR3 Y (Proc.devRef .tc r) = Y (Proc.devRef .tc r) := keep_of_wr gR3_we.writesIn h Y
theorem kR4 {r : Ref Cert.ReferenceIdeal.sig .tc} (h : r ∉ gR4_W) (Y : Valuation Cert.ReferenceIdeal.τ Cert.ReferenceIdeal.sig (Elt F)) : after gR4 Y (Proc.devRef .tc r) = Y (Proc.devRef .tc r) := keep_of_wr gR4_we.writesIn h Y
theorem kR5 {r : Ref Cert.ReferenceIdeal.sig .tc} (h : r ∉ gR5_W) (Y : Valuation Cert.ReferenceIdeal.τ Cert.ReferenceIdeal.sig (Elt F)) : after gR5 Y (Proc.devRef .tc r) = Y (Proc.devRef .tc r) := keep_of_wr gR5_we.writesIn h Y
theorem kR6 {r : Ref Cert.ReferenceIdeal.sig .tc} (h : r ∉ gR6_W) (Y : Valuation Cert.ReferenceIdeal.τ Cert.ReferenceIdeal.sig (Elt F)) : after gR6 Y (Proc.devRef .tc r) = Y (Proc.devRef .tc r) := keep_of_wr gR6_we.writesIn h Y
theorem kRt {r : Ref Cert.ReferenceIdeal.sig .tc} (h : r ∉ gRt_W) (Y : Valuation Cert.ReferenceIdeal.τ Cert.ReferenceIdeal.sig (Elt F)) : after gRt Y (Proc.devRef .tc r) = Y (Proc.devRef .tc r) := keep_of_wr gRt_we.writesIn h Y

end Cert.Corr

end
-- ==== Proof.CorrG0.lean ====
/-
  Group 0 of the host operations, on both sides: from buffer contents that agree on what the group reads, the
  buffers later operations read end equal — both sides apply the same operations, each buffer's value being its
  operation's function of its operands' values.
-/
import proofs.«414985_j5068061409687_4_alg».proof.Proof.CorrDefs

set_option maxRecDepth 65536

noncomputable section

namespace Cert.Corr

open Idealize.ShloMosaic Idealize.ShloMosaic.TcCoe Idealize.SL.Sem Idealize.ShloMosaic.StableHlo Cert.LibAfter

variable {F : FTy → Type} [FloatOps F]

set_option maxHeartbeats 1000000000 in
/-- Buffer `v8` after the group, on both sides: the same operations of inputs that agree. -/
theorem g0_v8 (X : Valuation Cert.KernelIdeal.τ Cert.KernelIdeal.sig (Elt F)) (Y : Valuation Cert.ReferenceIdeal.τ Cert.ReferenceIdeal.sig (Elt F))
    (h_arg0 : X (Proc.devRef .tc Cert.KernelIdeal.main_arg0) = Y (Proc.devRef .tc Cert.ReferenceIdeal.main_arg0))
    (h_arg5 : X (Proc.devRef .tc Cert.KernelIdeal.main_arg5) = Y (Proc.devRef .tc Cert.ReferenceIdeal.main_arg5)) :
    after gK0 X (Proc.devRef .tc Cert.KernelIdeal.main_v8) = after gR0 Y (Proc.devRef .tc Cert.ReferenceIdeal.main_v109) := by
  simp only [gK0, gR0, Cert.KernelIdeal.Gen.hostOps0, Cert.KernelIdeal.Gen.hostOps0_1, Cert.KernelIdeal.Gen.hostOps0_2, Cert.KernelIdeal.Gen.hostOps0_3, Cert.ReferenceIdeal.Chunks.opsC2, List.cons_append, List.nil_append, List.append_assoc]
  after_results_simp
  simp only [h_arg0, h_arg5]
  try rfl

set_option maxHeartbeats 1000000000 in
/-- Buffer `v10` after the group, on both sides: the same operations of inputs that agree. -/
theorem g0_v10 (X : Valuation Cert.KernelIdeal.τ Cert.KernelIdeal.sig (Elt F)) (Y : Valuation Cert.ReferenceIdeal.τ Cert.ReferenceIdeal.sig (Elt F))
    (h_arg0 : X (Proc.devRef .tc Cert.KernelIdeal.main_arg0) = Y (Proc.devRef .tc Cert.ReferenceIdeal.main_arg0))
    (h_arg5 : X (Proc.devRef .tc Cert.KernelIdeal.main_arg5) = Y (Proc.devRef .tc Cert.ReferenceIdeal.main_arg5)) :
    after gK0 X (Proc.devRef .tc Cert.KernelIdeal.main_v10) = after gR0 Y (Proc.devRef .tc Cert.ReferenceIdeal.main_v111) := by
  simp only [gK0, gR0, Cert.KernelIdeal.Gen.hostOps0, Cert.KernelIdeal.Gen.hostOps0_1, Cert.KernelIdeal.Gen.hostOps0_2, Cert.KernelIdeal.Gen.hostOps0_3, Cert.ReferenceIdeal.Chunks.opsC2, List.cons_append, List.nil_append, List.append_assoc]
  after_results_simp
  simp only [h_arg0, h_arg5]
  try rfl

set_option maxHeartbeats 1000000000 in
/-- Buffer `v12` after the group, on both sides: the same operations of inputs that agree. -/
theorem g0_v12 (X : Valuation Cert.KernelIdeal.τ Cert.KernelIdeal.sig (Elt F)) (Y : Valuation Cert.ReferenceIdeal.τ Cert.ReferenceIdeal.sig (Elt F))
    (h_arg0 : X (Proc.devRef .tc Cert.KernelIdeal.main_arg0) = Y (Proc.devRef .tc Cert.ReferenceIdeal.main_arg0))
    (h_arg5 : X (Proc.devRef .tc Cert.KernelIdeal.main_arg5) = Y (Proc.devRef .tc Cert.ReferenceIdeal.main_arg5)) :
    after gK0 X (Proc.devRef .tc Cert.KernelIdeal.main_v12) = after gR0 Y (Proc.devRef .tc Cert.ReferenceIdeal.main_v113) := by
  simp only [gK0, gR0, Cert.KernelIdeal.Gen.hostOps0, Cert.KernelIdeal.Gen.hostOps0_1, Cert.KernelIdeal.Gen.hostOps0_2, Cert.KernelIdeal.Gen.hostOps0_3, Cert.ReferenceIdeal.Chunks.opsC2, List.cons_append, List.nil_append, List.append_assoc]
  after_results_simp
  simp only [h_arg0, h_arg5]
  try rfl

set_option maxHeartbeats 1000000000 in
/-- Buffer `v14` after the group, on both sides: the same operations of inputs that agree. -/
theorem g0_v14 (X : Valuation Cert.KernelIdeal.τ Cert.KernelIdeal.sig (Elt F)) (Y : Valuation Cert.ReferenceIdeal.τ Cert.ReferenceIdeal.sig (Elt F))
    (h_arg0 : X (Proc.devRef .tc Cert.KernelIdeal.main_arg0) = Y (Proc.devRef .tc Cert.ReferenceIdeal.main_arg0))
    (h_arg5 : X (Proc.devRef .tc Cert.KernelIdeal.main_arg5) = Y (Proc.devRef .tc Cert.ReferenceIdeal.main_arg5)) :
    after gK0 X (Proc.devRef .tc Cert.KernelIdeal.main_v14) = after gR0 Y (Proc.devRef .tc Cert.ReferenceIdeal.main_v115) := by
  simp only [gK0, gR0, Cert.KernelIdeal.Gen.hostOps0, Cert.KernelIdeal.Gen.hostOps0_1, Cert.KernelIdeal.Gen.hostOps0_2, Cert.KernelIdeal.Gen.hostOps0_3, Cert.ReferenceIdeal.Chunks.opsC2, List.cons_append, List.nil_append, List.append_assoc]
  after_results_simp
  simp only [h_arg0, h_arg5]
  try rfl

end Cert.Corr

end
-- ==== Proof.CorrG1.lean ====
/-
  One bilinear plane lookup (group 1 of the host operations) computes the same on both sides. Both lines are cut at the same
  places; a piece applies the same operations on both sides, so buffers that agree going in agree coming out, and a buffer
  a piece does not write is carried through it.
-/
import proofs.«414985_j5068061409687_4_alg».proof.Proof.CorrDefs

set_option maxRecDepth 65536

noncomputable section

namespace Cert.Corr

open Idealize.ShloMosaic Idealize.ShloMosaic.TcCoe Idealize.SL.Sem Idealize.ShloMosaic.StableHlo Cert.LibAfter

variable {F : FTy → Type} [FloatOps F]

local macro "eval_both" : tactic =>
  `(tactic| simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne'])

abbrev gK1q1 : List (HloOp Cert.KernelIdeal.τ Cert.KernelIdeal.sig (Elt F)) := List.drop 43 gK1
abbrev gK1q2 : List (HloOp Cert.KernelIdeal.τ Cert.KernelIdeal.sig (Elt F)) := List.drop 23 gK1q1
abbrev gK1q3 : List (HloOp Cert.KernelIdeal.τ Cert.KernelIdeal.sig (Elt F)) := List.drop 2 gK1q2
abbrev gK1q4 : List (HloOp Cert.KernelIdeal.τ Cert.KernelIdeal.sig (Elt F)) := List.drop 19 gK1q3
abbrev gK1q5 : List (HloOp Cert.KernelIdeal.τ Cert.KernelIdeal.sig (Elt F)) := List.drop 2 gK1q4
abbrev gK1q6 : List (HloOp Cert.KernelIdeal.τ Cert.KernelIdeal.sig (Elt F)) := List.drop 19 gK1q5
abbrev gK1q7 : List (HloOp Cert.KernelIdeal.τ Cert.KernelIdeal.sig (Elt F)) := List.drop 2 gK1q6
abbrev gK1q8 : List (HloOp Cert.KernelIdeal.τ Cert.KernelIdeal.sig (Elt F)) := List.drop 22 gK1q7
abbrev gK1q9 : List (HloOp Cert.KernelIdeal.τ Cert.KernelIdeal.sig (Elt F)) := List.drop 2 gK1q8
abbrev gK1q10 : List (HloOp Cert.KernelIdeal.τ Cert.KernelIdeal.sig (Elt F)) := List.drop 24 gK1q9
abbrev gK1p0 : List (HloOp Cert.KernelIdeal.τ Cert.KernelIdeal.sig (Elt F)) := List.take 43 gK1
abbrev gK1p1 : List (HloOp Cert.KernelIdeal.τ Cert.KernelIdeal.sig (Elt F)) := List.take 23 gK1q1
abbrev gK1p2 : List (HloOp Cert.KernelIdeal.τ Cert.KernelIdeal.sig (Elt F)) := List.take 2 gK1q2
abbrev gK1p3 : List (HloOp Cert.KernelIdeal.τ Cert.KernelIdeal.sig (Elt F)) := List.take 19 gK1q3
abbrev gK1p4 : List (HloOp Cert.KernelIdeal.τ Cert.KernelIdeal.sig (Elt F)) := List.take 2 gK1q4
abbrev gK1p5 : List (HloOp Cert.KernelIdeal.τ Cert.KernelIdeal.sig (Elt F)) := List.take 19 gK1q5
abbrev gK1p6 : List (HloOp Cert.KernelIdeal.τ Cert.KernelIdeal.sig (Elt F)) := List.take 2 gK1q6
abbrev gK1p7 : List (HloOp Cert.KernelIdeal.τ Cert.KernelIdeal.sig (Elt F)) := List.take 22 gK1q7
abbrev gK1p8 : List (HloOp Cert.KernelIdeal.τ Cert.KernelIdeal.sig (Elt F)) := List.take 2 gK1q8
abbrev gK1p9 : List (HloOp Cert.KernelIdeal.τ Cert.KernelIdeal.sig (Elt F)) := List.take 24 gK1q9
abbrev gK1p10 : List (HloOp Cert.KernelIdeal.τ Cert.KernelIdeal.sig (Elt F)) := gK1q10
theorem gK1_split : (gK1 (F := F)) = gK1p0 ++ (gK1p1 ++ (gK1p2 ++ (gK1p3 ++ (gK1p4 ++ (gK1p5 ++ (gK1p6 ++ (gK1p7 ++ (gK1p8 ++ (gK1p9 ++ (gK1p10)))))))))) := by
  simp only [gK1p0, gK1p1, gK1p2, gK1p3, gK1p4, gK1p5, gK1p6, gK1p7, gK1p8, gK1p9, gK1p10, gK1q1, gK1q2, gK1q3, gK1q4, gK1q5, gK1q6, gK1q7, gK1q8, gK1q9, gK1q10, List.take_append_drop]
abbrev gR1q1 : List (HloOp Cert.ReferenceIdeal.τ Cert.ReferenceIdeal.sig (Elt F)) := List.drop 43 gR1
abbrev gR1q2 : List (HloOp Cert.ReferenceIdeal.τ Cert.ReferenceIdeal.sig (Elt F)) := List.drop 23 gR1q1
abbrev gR1q3 : List (HloOp Cert.ReferenceIdeal.τ Cert.ReferenceIdeal.sig (Elt F)) := List.drop 2 gR1q2
abbrev gR1q4 : List (HloOp Cert.ReferenceIdeal.τ Cert.ReferenceIdeal.sig (Elt F)) := List.drop 19 gR1q3
abbrev gR1q5 : List (HloOp Cert.ReferenceIdeal.τ Cert.ReferenceIdeal.sig (Elt F)) := List.drop 2 gR1q4
abbrev gR1q6 : List (HloOp Cert.ReferenceIdeal.τ Cert.ReferenceIdeal.sig (Elt F)) := List.drop 19 gR1q5
abbrev gR1q7 : List (HloOp Cert.ReferenceIdeal.τ Cert.ReferenceIdeal.sig (Elt F)) := List.drop 2 gR1q6
abbrev gR1q8 : List (HloOp Cert.ReferenceIdeal.τ Cert.ReferenceIdeal.sig (Elt F)) := List.drop 22 gR1q7
abbrev gR1q9 : List (HloOp Cert.ReferenceIdeal.τ Cert.ReferenceIdeal.sig (Elt F)) := List.drop 2 gR1q8
abbrev gR1q10 : List (HloOp Cert.ReferenceIdeal.τ Cert.ReferenceIdeal.sig (Elt F)) := List.drop 24 gR1q9
abbrev gR1p0 : List (HloOp Cert.ReferenceIdeal.τ Cert.ReferenceIdeal.sig (Elt F)) := List.take 43 gR1
abbrev gR1p1 : List (HloOp Cert.ReferenceIdeal.τ Cert.ReferenceIdeal.sig (Elt F)) := List.take 23 gR1q1
abbrev gR1p2 : List (HloOp Cert.ReferenceIdeal.τ Cert.ReferenceIdeal.sig (Elt F)) := List.take 2 gR1q2
abbrev gR1p3 : List (HloOp Cert.ReferenceIdeal.τ Cert.ReferenceIdeal.sig (Elt F)) := List.take 19 gR1q3
abbrev gR1p4 : List (HloOp Cert.ReferenceIdeal.τ Cert.ReferenceIdeal.sig (Elt F)) := List.take 2 gR1q4
abbrev gR1p5 : List (HloOp Cert.ReferenceIdeal.τ Cert.ReferenceIdeal.sig (Elt F)) := List.take 19 gR1q5
abbrev gR1p6 : List (HloOp Cert.ReferenceIdeal.τ Cert.ReferenceIdeal.sig (Elt F)) := List.take 2 gR1q6
abbrev gR1p7 : List (HloOp Cert.ReferenceIdeal.τ Cert.ReferenceIdeal.sig (Elt F)) := List.take 22 gR1q7
abbrev gR1p8 : List (HloOp Cert.ReferenceIdeal.τ Cert.ReferenceIdeal.sig (Elt F)) := List.take 2 gR1q8
abbrev gR1p9 : List (HloOp Cert.ReferenceIdeal.τ Cert.ReferenceIdeal.sig (Elt F)) := List.take 24 gR1q9
abbrev gR1p10 : List (HloOp Cert.ReferenceIdeal.τ Cert.ReferenceIdeal.sig (Elt F)) := gR1q10
theorem gR1_split : (gR1 (F := F)) = gR1p0 ++ (gR1p1 ++ (gR1p2 ++ (gR1p3 ++ (gR1p4 ++ (gR1p5 ++ (gR1p6 ++ (gR1p7 ++ (gR1p8 ++ (gR1p9 ++ (gR1p10)))))))))) := by
  simp only [gR1p0, gR1p1, gR1p2, gR1p3, gR1p4, gR1p5, gR1p6, gR1p7, gR1p8, gR1p9, gR1p10, gR1q1, gR1q2, gR1q3, gR1q4, gR1q5, gR1q6, gR1q7, gR1q8, gR1q9, gR1q10, List.take_append_drop]

theorem gK1p0_wr : WritesIn (gK1p0 (F := F)) (gK1_W.take 43) := (gK1_we.take 43).writesIn
theorem gK1p1_wr : WritesIn (gK1p1 (F := F)) (gK1_W.drop 43 |>.take 23) := (gK1_we.drop 43 |>.take 23).writesIn
theorem gK1p2_wr : WritesIn (gK1p2 (F := F)) (gK1_W.drop 43 |>.drop 23 |>.take 2) := (gK1_we.drop 43 |>.drop 23 |>.take 2).writesIn
theorem gK1p3_wr : WritesIn (gK1p3 (F := F)) (gK1_W.drop 43 |>.drop 23 |>.drop 2 |>.take 19) := (gK1_we.drop 43 |>.drop 23 |>.drop 2 |>.take 19).writesIn
theorem gK1p4_wr : WritesIn (gK1p4 (F := F)) (gK1_W.drop 43 |>.drop 23 |>.drop 2 |>.drop 19 |>.take 2) := (gK1_we.drop 43 |>.drop 23 |>.drop 2 |>.drop 19 |>.take 2).writesIn
theorem gK1p5_wr : WritesIn (gK1p5 (F := F)) (gK1_W.drop 43 |>.drop 23 |>.drop 2 |>.drop 19 |>.drop 2 |>.take 19) := (gK1_we.drop 43 |>.drop 23 |>.drop 2 |>.drop 19 |>.drop 2 |>.take 19).writesIn
theorem gK1p6_wr : WritesIn (gK1p6 (F := F)) (gK1_W.drop 43 |>.drop 23 |>.drop 2 |>.drop 19 |>.drop 2 |>.drop 19 |>.take 2) := (gK1_we.drop 43 |>.drop 23 |>.drop 2 |>.drop 19 |>.drop 2 |>.drop 19 |>.take 2).writesIn
theorem gK1p7_wr : WritesIn (gK1p7 (F := F)) (gK1_W.drop 43 |>.drop 23 |>.drop 2 |>.drop 19 |>.drop 2 |>.drop 19 |>.drop 2 |>.take 22) := (gK1_we.drop 43 |>.drop 23 |>.drop 2 |>.drop 19 |>.drop 2 |>.drop 19 |>.drop 2 |>.take 22).writesIn
theorem gK1p8_wr : WritesIn (gK1p8 (F := F)) (gK1_W.drop 43 |>.drop 23 |>.drop 2 |>.drop 19 |>.drop 2 |>.drop 19 |>.drop 2 |>.drop 22 |>.take 2) := (gK1_we.drop 43 |>.drop 23 |>.drop 2 |>.drop 19 |>.drop 2 |>.drop 19 |>.drop 2 |>.drop 22 |>.take 2).writesIn
theorem gK1p9_wr : WritesIn (gK1p9 (F := F)) (gK1_W.drop 43 |>.drop 23 |>.drop 2 |>.drop 19 |>.drop 2 |>.drop 19 |>.drop 2 |>.drop 22 |>.drop 2 |>.take 24) := (gK1_we.drop 43 |>.drop 23 |>.drop 2 |>.drop 19 |>.drop 2 |>.drop 19 |>.drop 2 |>.drop 22 |>.drop 2 |>.take 24).writesIn
theorem gK1p10_wr : WritesIn (gK1p10 (F := F)) (gK1_W.drop 43 |>.drop 23 |>.drop 2 |>.drop 19 |>.drop 2 |>.drop 19 |>.drop 2 |>.drop 22 |>.drop 2 |>.drop 24) := (gK1_we.drop 43 |>.drop 23 |>.drop 2 |>.drop 19 |>.drop 2 |>.drop 19 |>.drop 2 |>.drop 22 |>.drop 2 |>.drop 24).writesIn
theorem gR1p0_wr : WritesIn (gR1p0 (F := F)) (gR1_W.take 43) := (gR1_we.take 43).writesIn
theorem gR1p1_wr : WritesIn (gR1p1 (F := F)) (gR1_W.drop 43 |>.take 23) := (gR1_we.drop 43 |>.take 23).writesIn
theorem gR1p2_wr : WritesIn (gR1p2 (F := F)) (gR1_W.drop 43 |>.drop 23 |>.take 2) := (gR1_we.drop 43 |>.drop 23 |>.take 2).writesIn
theorem gR1p3_wr : WritesIn (gR1p3 (F := F)) (gR1_W.drop 43 |>.drop 23 |>.drop 2 |>.take 19) := (gR1_we.drop 43 |>.drop 23 |>.drop 2 |>.take 19).writesIn
theorem gR1p4_wr : WritesIn (gR1p4 (F := F)) (gR1_W.drop 43 |>.drop 23 |>.drop 2 |>.drop 19 |>.take 2) := (gR1_we.drop 43 |>.drop 23 |>.drop 2 |>.drop 19 |>.take 2).writesIn
theorem gR1p5_wr : WritesIn (gR1p5 (F := F)) (gR1_W.drop 43 |>.drop 23 |>.drop 2 |>.drop 19 |>.drop 2 |>.take 19) := (gR1_we.drop 43 |>.drop 23 |>.drop 2 |>.drop 19 |>.drop 2 |>.take 19).writesIn
theorem gR1p6_wr : WritesIn (gR1p6 (F := F)) (gR1_W.drop 43 |>.drop 23 |>.drop 2 |>.drop 19 |>.drop 2 |>.drop 19 |>.take 2) := (gR1_we.drop 43 |>.drop 23 |>.drop 2 |>.drop 19 |>.drop 2 |>.drop 19 |>.take 2).writesIn
theorem gR1p7_wr : WritesIn (gR1p7 (F := F)) (gR1_W.drop 43 |>.drop 23 |>.drop 2 |>.drop 19 |>.drop 2 |>.drop 19 |>.drop 2 |>.take 22) := (gR1_we.drop 43 |>.drop 23 |>.drop 2 |>.drop 19 |>.drop 2 |>.drop 19 |>.drop 2 |>.take 22).writesIn
theorem gR1p8_wr : WritesIn (gR1p8 (F := F)) (gR1_W.drop 43 |>.drop 23 |>.drop 2 |>.drop 19 |>.drop 2 |>.drop 19 |>.drop 2 |>.drop 22 |>.take 2) := (gR1_we.drop 43 |>.drop 23 |>.drop 2 |>.drop 19 |>.drop 2 |>.drop 19 |>.drop 2 |>.drop 22 |>.take 2).writesIn
theorem gR1p9_wr : WritesIn (gR1p9 (F := F)) (gR1_W.drop 43 |>.drop 23 |>.drop 2 |>.drop 19 |>.drop 2 |>.drop 19 |>.drop 2 |>.drop 22 |>.drop 2 |>.take 24) := (gR1_we.drop 43 |>.drop 23 |>.drop 2 |>.drop 19 |>.drop 2 |>.drop 19 |>.drop 2 |>.drop 22 |>.drop 2 |>.take 24).writesIn
theorem gR1p10_wr : WritesIn (gR1p10 (F := F)) (gR1_W.drop 43 |>.drop 23 |>.drop 2 |>.drop 19 |>.drop 2 |>.drop 19 |>.drop 2 |>.drop 22 |>.drop 2 |>.drop 24) := (gR1_we.drop 43 |>.drop 23 |>.drop 2 |>.drop 19 |>.drop 2 |>.drop 19 |>.drop 2 |>.drop 22 |>.drop 2 |>.drop 24).writesIn

set_option maxHeartbeats 1000000000 in
theorem g1p0 (X : Valuation Cert.KernelIdeal.τ Cert.KernelIdeal.sig (Elt F)) (Y : Valuation Cert.ReferenceIdeal.τ Cert.ReferenceIdeal.sig (Elt F))
    (h_arg7 : X (Proc.devRef .tc Cert.KernelIdeal.main_arg7) = Y (Proc.devRef .tc Cert.ReferenceIdeal.main_arg7))
    (h_v8 : X (Proc.devRef .tc Cert.KernelIdeal.main_v8) = Y (Proc.devRef .tc Cert.ReferenceIdeal.main_v109))
    (h_v10 : X (Proc.devRef .tc Cert.KernelIdeal.main_v10) = Y (Proc.devRef .tc Cert.ReferenceIdeal.main_v111)) :
    after gK1p0 X (Proc.devRef .tc Cert.KernelIdeal.main_v16) = after gR1p0 Y (Proc.devRef .tc Cert.ReferenceIdeal.main_v117)
    ∧ after gK1p0 X (Proc.devRef .tc Cert.KernelIdeal.main_v19) = after gR1p0 Y (Proc.devRef .tc Cert.ReferenceIdeal.main_v120)
    ∧ after gK1p0 X (Proc.devRef .tc Cert.KernelIdeal.main_v22) = after gR1p0 Y (Proc.devRef .tc Cert.ReferenceIdeal.main_v123)
    ∧ after gK1p0 X (Proc.devRef .tc Cert.KernelIdeal.main_v25) = after gR1p0 Y (Proc.devRef .tc Cert.ReferenceIdeal.main_v126)
    ∧ after gK1p0 X (Proc.devRef .tc Cert.KernelIdeal.main_v27) = after gR1p0 Y (Proc.devRef .tc Cert.ReferenceIdeal.main_v128) := by
  refine ⟨?_, ?_, ?_, ?_, ?_⟩
  all_goals simp only [gK1p0, gK1, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, gR1p0, gR1, Cert.ReferenceIdeal.Chunks.opsC3, Cert.ReferenceIdeal.Chunks.opsC4, Cert.ReferenceIdeal.Chunks.opsC5, List.cons_append, List.nil_append, List.append_assoc, List.drop_succ_cons, List.drop_zero, List.take_succ_cons, List.take_zero]
  all_goals eval_both
  all_goals try simp only [h_arg7, h_v8, h_v10]
  all_goals try rw [h_arg7]
  all_goals try rw [h_v8]
  all_goals try rw [h_v10]
  all_goals try rfl

set_option maxHeartbeats 1000000000 in
theorem g1p1 (X : Valuation Cert.KernelIdeal.τ Cert.KernelIdeal.sig (Elt F)) (Y : Valuation Cert.ReferenceIdeal.τ Cert.ReferenceIdeal.sig (Elt F))
    (h_v27 : X (Proc.devRef .tc Cert.KernelIdeal.main_v27) = Y (Proc.devRef .tc Cert.ReferenceIdeal.main_v128))
    (h_v25 : X (Proc.devRef .tc Cert.KernelIdeal.main_v25) = Y (Proc.devRef .tc Cert.ReferenceIdeal.main_v126))
    (h_v19 : X (Proc.devRef .tc Cert.KernelIdeal.main_v19) = Y (Proc.devRef .tc Cert.ReferenceIdeal.main_v120))
    (h_v22 : X (Proc.devRef .tc Cert.KernelIdeal.main_v22) = Y (Proc.devRef .tc Cert.ReferenceIdeal.main_v123)) :
    after gK1p1 X (Proc.devRef .tc Cert.KernelIdeal.main_v28) = after gR1p1 Y (Proc.devRef .tc Cert.ReferenceIdeal.main_v129)
    ∧ after gK1p1 X (Proc.devRef .tc Cert.KernelIdeal.main_v31) = after gR1p1 Y (Proc.devRef .tc Cert.ReferenceIdeal.main_v132)
    ∧ after gK1p1 X (Proc.devRef .tc Cert.KernelIdeal.main_v34) = after gR1p1 Y (Proc.devRef .tc Cert.ReferenceIdeal.main_v135)
    ∧ after gK1p1 X (Proc.devRef .tc Cert.KernelIdeal.main_v45) = after gR1p1 Y (Proc.devRef .tc Cert.ReferenceIdeal.main_v146)
    ∧ after gK1p1 X (Proc.devRef .tc Cert.KernelIdeal.main_v46) = after gR1p1 Y (Proc.devRef .tc Cert.ReferenceIdeal.main_v147) := by
  refine ⟨?_, ?_, ?_, ?_, ?_⟩
  all_goals simp only [gK1p1, gK1q1, gK1, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, gR1p1, gR1q1, gR1, Cert.ReferenceIdeal.Chunks.opsC3, Cert.ReferenceIdeal.Chunks.opsC4, Cert.ReferenceIdeal.Chunks.opsC5, List.cons_append, List.nil_append, List.append_assoc, List.drop_succ_cons, List.drop_zero, List.take_succ_cons, List.take_zero]
  all_goals eval_both
  all_goals try simp only [h_v27, h_v25, h_v19, h_v22]
  all_goals try rw [h_v27]
  all_goals try rw [h_v25]
  all_goals try rw [h_v19]
  all_goals try rw [h_v22]
  all_goals try rfl

set_option maxHeartbeats 1000000000 in
theorem g1p2 (X : Valuation Cert.KernelIdeal.τ Cert.KernelIdeal.sig (Elt F)) (Y : Valuation Cert.ReferenceIdeal.τ Cert.ReferenceIdeal.sig (Elt F))
    (h_v45 : X (Proc.devRef .tc Cert.KernelIdeal.main_v45) = Y (Proc.devRef .tc Cert.ReferenceIdeal.main_v146))
    (h_v46 : X (Proc.devRef .tc Cert.KernelIdeal.main_v46) = Y (Proc.devRef .tc Cert.ReferenceIdeal.main_v147))
    (h_v16 : X (Proc.devRef .tc Cert.KernelIdeal.main_v16) = Y (Proc.devRef .tc Cert.ReferenceIdeal.main_v117)) :
    after gK1p2 X (Proc.devRef .tc Cert.KernelIdeal.main_v48) = after gR1p2 Y (Proc.devRef .tc Cert.ReferenceIdeal.main_v149) := by
  simp only [gK1p2, gK1q1, gK1q2, gK1, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, gR1p2, gR1q1, gR1q2, gR1, Cert.ReferenceIdeal.Chunks.opsC3, Cert.ReferenceIdeal.Chunks.opsC4, Cert.ReferenceIdeal.Chunks.opsC5, List.cons_append, List.nil_append, List.append_assoc, List.drop_succ_cons, List.drop_zero, List.take_succ_cons, List.take_zero]
  eval_both
  all_goals try simp only [h_v45, h_v46, h_v16]
  all_goals try rw [h_v45]
  all_goals try rw [h_v46]
  all_goals try rw [h_v16]
  all_goals try rfl

set_option maxHeartbeats 1000000000 in
theorem g1p3 (X : Valuation Cert.KernelIdeal.τ Cert.KernelIdeal.sig (Elt F)) (Y : Valuation Cert.ReferenceIdeal.τ Cert.ReferenceIdeal.sig (Elt F))
    (h_v25 : X (Proc.devRef .tc Cert.KernelIdeal.main_v25) = Y (Proc.devRef .tc Cert.ReferenceIdeal.main_v126))
    (h_v28 : X (Proc.devRef .tc Cert.KernelIdeal.main_v28) = Y (Proc.devRef .tc Cert.ReferenceIdeal.main_v129)) :
    after gK1p3 X (Proc.devRef .tc Cert.KernelIdeal.main_v61) = after gR1p3 Y (Proc.devRef .tc Cert.ReferenceIdeal.main_v162)
    ∧ after gK1p3 X (Proc.devRef .tc Cert.KernelIdeal.main_v62) = after gR1p3 Y (Proc.devRef .tc Cert.ReferenceIdeal.main_v163) := by
  refine ⟨?_, ?_⟩
  all_goals simp only [gK1p3, gK1q1, gK1q2, gK1q3, gK1, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, gR1p3, gR1q1, gR1q2, gR1q3, gR1, Cert.ReferenceIdeal.Chunks.opsC3, Cert.ReferenceIdeal.Chunks.opsC4, Cert.ReferenceIdeal.Chunks.opsC5, List.cons_append, List.nil_append, List.append_assoc, List.drop_succ_cons, List.drop_zero, List.take_succ_cons, List.take_zero]
  all_goals eval_both
  all_goals try simp only [h_v25, h_v28]
  all_goals try rw [h_v25]
  all_goals try rw [h_v28]
  all_goals try rfl

set_option maxHeartbeats 1000000000 in
theorem g1p4 (X : Valuation Cert.KernelIdeal.τ Cert.KernelIdeal.sig (Elt F)) (Y : Valuation Cert.ReferenceIdeal.τ Cert.ReferenceIdeal.sig (Elt F))
    (h_v61 : X (Proc.devRef .tc Cert.KernelIdeal.main_v61) = Y (Proc.devRef .tc Cert.ReferenceIdeal.main_v162))
    (h_v62 : X (Proc.devRef .tc Cert.KernelIdeal.main_v62) = Y (Proc.devRef .tc Cert.ReferenceIdeal.main_v163))
    (h_v16 : X (Proc.devRef .tc Cert.KernelIdeal.main_v16) = Y (Proc.devRef .tc Cert.ReferenceIdeal.main_v117)) :
    after gK1p4 X (Proc.devRef .tc Cert.KernelIdeal.main_v64) = after gR1p4 Y (Proc.devRef .tc Cert.ReferenceIdeal.main_v165) := by
  simp only [gK1p4, gK1q1, gK1q2, gK1q3, gK1q4, gK1, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, gR1p4, gR1q1, gR1q2, gR1q3, gR1q4, gR1, Cert.ReferenceIdeal.Chunks.opsC3, Cert.ReferenceIdeal.Chunks.opsC4, Cert.ReferenceIdeal.Chunks.opsC5, List.cons_append, List.nil_append, List.append_assoc, List.drop_succ_cons, List.drop_zero, List.take_succ_cons, List.take_zero]
  eval_both
  all_goals try simp only [h_v61, h_v62, h_v16]
  all_goals try rw [h_v61]
  all_goals try rw [h_v62]
  all_goals try rw [h_v16]
  all_goals try rfl

set_option maxHeartbeats 1000000000 in
theorem g1p5 (X : Valuation Cert.KernelIdeal.τ Cert.KernelIdeal.sig (Elt F)) (Y : Valuation Cert.ReferenceIdeal.τ Cert.ReferenceIdeal.sig (Elt F))
    (h_v28 : X (Proc.devRef .tc Cert.KernelIdeal.main_v28) = Y (Proc.devRef .tc Cert.ReferenceIdeal.main_v129))
    (h_v25 : X (Proc.devRef .tc Cert.KernelIdeal.main_v25) = Y (Proc.devRef .tc Cert.ReferenceIdeal.main_v126)) :
    after gK1p5 X (Proc.devRef .tc Cert.KernelIdeal.main_v77) = after gR1p5 Y (Proc.devRef .tc Cert.ReferenceIdeal.main_v178)
    ∧ after gK1p5 X (Proc.devRef .tc Cert.KernelIdeal.main_v78) = after gR1p5 Y (Proc.devRef .tc Cert.ReferenceIdeal.main_v179) := by
  refine ⟨?_, ?_⟩
  all_goals simp only [gK1p5, gK1q1, gK1q2, gK1q3, gK1q4, gK1q5, gK1, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, gR1p5, gR1q1, gR1q2, gR1q3, gR1q4, gR1q5, gR1, Cert.ReferenceIdeal.Chunks.opsC3, Cert.ReferenceIdeal.Chunks.opsC4, Cert.ReferenceIdeal.Chunks.opsC5, List.cons_append, List.nil_append, List.append_assoc, List.drop_succ_cons, List.drop_zero, List.take_succ_cons, List.take_zero]
  all_goals eval_both
  all_goals try simp only [h_v28, h_v25]
  all_goals try rw [h_v28]
  all_goals try rw [h_v25]
  all_goals try rfl

set_option maxHeartbeats 1000000000 in
theorem g1p6 (X : Valuation Cert.KernelIdeal.τ Cert.KernelIdeal.sig (Elt F)) (Y : Valuation Cert.ReferenceIdeal.τ Cert.ReferenceIdeal.sig (Elt F))
    (h_v77 : X (Proc.devRef .tc Cert.KernelIdeal.main_v77) = Y (Proc.devRef .tc Cert.ReferenceIdeal.main_v178))
    (h_v78 : X (Proc.devRef .tc Cert.KernelIdeal.main_v78) = Y (Proc.devRef .tc Cert.ReferenceIdeal.main_v179))
    (h_v16 : X (Proc.devRef .tc Cert.KernelIdeal.main_v16) = Y (Proc.devRef .tc Cert.ReferenceIdeal.main_v117)) :
    after gK1p6 X (Proc.devRef .tc Cert.KernelIdeal.main_v80) = after gR1p6 Y (Proc.devRef .tc Cert.ReferenceIdeal.main_v181) := by
  simp only [gK1p6, gK1q1, gK1q2, gK1q3, gK1q4, gK1q5, gK1q6, gK1, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, gR1p6, gR1q1, gR1q2, gR1q3, gR1q4, gR1q5, gR1q6, gR1, Cert.ReferenceIdeal.Chunks.opsC3, Cert.ReferenceIdeal.Chunks.opsC4, Cert.ReferenceIdeal.Chunks.opsC5, List.cons_append, List.nil_append, List.append_assoc, List.drop_succ_cons, List.drop_zero, List.take_succ_cons, List.take_zero]
  eval_both
  all_goals try simp only [h_v77, h_v78, h_v16]
  all_goals try rw [h_v77]
  all_goals try rw [h_v78]
  all_goals try rw [h_v16]
  all_goals try rfl

set_option maxHeartbeats 1000000000 in
theorem g1p7 (X : Valuation Cert.KernelIdeal.τ Cert.KernelIdeal.sig (Elt F)) (Y : Valuation Cert.ReferenceIdeal.τ Cert.ReferenceIdeal.sig (Elt F))
    (h_v28 : X (Proc.devRef .tc Cert.KernelIdeal.main_v28) = Y (Proc.devRef .tc Cert.ReferenceIdeal.main_v129))
    (h_v25 : X (Proc.devRef .tc Cert.KernelIdeal.main_v25) = Y (Proc.devRef .tc Cert.ReferenceIdeal.main_v126)) :
    after gK1p7 X (Proc.devRef .tc Cert.KernelIdeal.main_v95) = after gR1p7 Y (Proc.devRef .tc Cert.ReferenceIdeal.main_v196)
    ∧ after gK1p7 X (Proc.devRef .tc Cert.KernelIdeal.main_v96) = after gR1p7 Y (Proc.devRef .tc Cert.ReferenceIdeal.main_v197) := by
  refine ⟨?_, ?_⟩
  all_goals simp only [gK1p7, gK1q1, gK1q2, gK1q3, gK1q4, gK1q5, gK1q6, gK1q7, gK1, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, gR1p7, gR1q1, gR1q2, gR1q3, gR1q4, gR1q5, gR1q6, gR1q7, gR1, Cert.ReferenceIdeal.Chunks.opsC3, Cert.ReferenceIdeal.Chunks.opsC4, Cert.ReferenceIdeal.Chunks.opsC5, List.cons_append, List.nil_append, List.append_assoc, List.drop_succ_cons, List.drop_zero, List.take_succ_cons, List.take_zero]
  all_goals eval_both
  all_goals try simp only [h_v28, h_v25]
  all_goals try rw [h_v28]
  all_goals try rw [h_v25]
  all_goals try rfl

set_option maxHeartbeats 1000000000 in
theorem g1p8 (X : Valuation Cert.KernelIdeal.τ Cert.KernelIdeal.sig (Elt F)) (Y : Valuation Cert.ReferenceIdeal.τ Cert.ReferenceIdeal.sig (Elt F))
    (h_v95 : X (Proc.devRef .tc Cert.KernelIdeal.main_v95) = Y (Proc.devRef .tc Cert.ReferenceIdeal.main_v196))
    (h_v96 : X (Proc.devRef .tc Cert.KernelIdeal.main_v96) = Y (Proc.devRef .tc Cert.ReferenceIdeal.main_v197))
    (h_v16 : X (Proc.devRef .tc Cert.KernelIdeal.main_v16) = Y (Proc.devRef .tc Cert.ReferenceIdeal.main_v117)) :
    after gK1p8 X (Proc.devRef .tc Cert.KernelIdeal.main_v98) = after gR1p8 Y (Proc.devRef .tc Cert.ReferenceIdeal.main_v199) := by
  simp only [gK1p8, gK1q1, gK1q2, gK1q3, gK1q4, gK1q5, gK1q6, gK1q7, gK1q8, gK1, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, gR1p8, gR1q1, gR1q2, gR1q3, gR1q4, gR1q5, gR1q6, gR1q7, gR1q8, gR1, Cert.ReferenceIdeal.Chunks.opsC3, Cert.ReferenceIdeal.Chunks.opsC4, Cert.ReferenceIdeal.Chunks.opsC5, List.cons_append, List.nil_append, List.append_assoc, List.drop_succ_cons, List.drop_zero, List.take_succ_cons, List.take_zero]
  eval_both
  all_goals try simp only [h_v95, h_v96, h_v16]
  all_goals try rw [h_v95]
  all_goals try rw [h_v96]
  all_goals try rw [h_v16]
  all_goals try rfl

set_option maxHeartbeats 1000000000 in
theorem g1p9 (X : Valuation Cert.KernelIdeal.τ Cert.KernelIdeal.sig (Elt F)) (Y : Valuation Cert.ReferenceIdeal.τ Cert.ReferenceIdeal.sig (Elt F))
    (h_v31 : X (Proc.devRef .tc Cert.KernelIdeal.main_v31) = Y (Proc.devRef .tc Cert.ReferenceIdeal.main_v132))
    (h_v48 : X (Proc.devRef .tc Cert.KernelIdeal.main_v48) = Y (Proc.devRef .tc Cert.ReferenceIdeal.main_v149))
    (h_v64 : X (Proc.devRef .tc Cert.KernelIdeal.main_v64) = Y (Proc.devRef .tc Cert.ReferenceIdeal.main_v165))
    (h_v34 : X (Proc.devRef .tc Cert.KernelIdeal.main_v34) = Y (Proc.devRef .tc Cert.ReferenceIdeal.main_v135))
    (h_v80 : X (Proc.devRef .tc Cert.KernelIdeal.main_v80) = Y (Proc.devRef .tc Cert.ReferenceIdeal.main_v181))
    (h_v98 : X (Proc.devRef .tc Cert.KernelIdeal.main_v98) = Y (Proc.devRef .tc Cert.ReferenceIdeal.main_v199)) :
    after gK1p9 X (Proc.devRef .tc Cert.KernelIdeal.main_v119) = after gR1p9 Y (Proc.devRef .tc Cert.ReferenceIdeal.main_v220) := by
  simp only [gK1p9, gK1q1, gK1q2, gK1q3, gK1q4, gK1q5, gK1q6, gK1q7, gK1q8, gK1q9, gK1, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, gR1p9, gR1q1, gR1q2, gR1q3, gR1q4, gR1q5, gR1q6, gR1q7, gR1q8, gR1q9, gR1, Cert.ReferenceIdeal.Chunks.opsC3, Cert.ReferenceIdeal.Chunks.opsC4, Cert.ReferenceIdeal.Chunks.opsC5, List.cons_append, List.nil_append, List.append_assoc, List.drop_succ_cons, List.drop_zero, List.take_succ_cons, List.take_zero]
  eval_both
  all_goals try simp only [h_v31, h_v48, h_v64, h_v34, h_v80, h_v98]
  all_goals try rw [h_v31]
  all_goals try rw [h_v48]
  all_goals try rw [h_v64]
  all_goals try rw [h_v34]
  all_goals try rw [h_v80]
  all_goals try rw [h_v98]
  all_goals try rfl

set_option maxHeartbeats 1000000000 in
theorem g1p10 (X : Valuation Cert.KernelIdeal.τ Cert.KernelIdeal.sig (Elt F)) (Y : Valuation Cert.ReferenceIdeal.τ Cert.ReferenceIdeal.sig (Elt F))
    (h_arg7 : X (Proc.devRef .tc Cert.KernelIdeal.main_arg7) = Y (Proc.devRef .tc Cert.ReferenceIdeal.main_arg7)) :
    after gK1p10 X (Proc.devRef .tc Cert.KernelIdeal.main_v121) = after gR1p10 Y (Proc.devRef .tc Cert.ReferenceIdeal.main_v222)
    ∧ after gK1p10 X (Proc.devRef .tc Cert.KernelIdeal.main_cst_38) = after gR1p10 Y (Proc.devRef .tc Cert.ReferenceIdeal.main_cst_50)
    ∧ after gK1p10 X (Proc.devRef .tc Cert.KernelIdeal.main_cst_39) = after gR1p10 Y (Proc.devRef .tc Cert.ReferenceIdeal.main_cst_51) := by
  refine ⟨?_, ?_, ?_⟩
  all_goals simp only [gK1p10, gK1q1, gK1q2, gK1q3, gK1q4, gK1q5, gK1q6, gK1q7, gK1q8, gK1q9, gK1q10, gK1, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, gR1p10, gR1q1, gR1q2, gR1q3, gR1q4, gR1q5, gR1q6, gR1q7, gR1q8, gR1q9, gR1q10, gR1, Cert.ReferenceIdeal.Chunks.opsC3, Cert.ReferenceIdeal.Chunks.opsC4, Cert.ReferenceIdeal.Chunks.opsC5, List.cons_append, List.nil_append, List.append_assoc, List.drop_succ_cons, List.drop_zero, List.take_succ_cons, List.take_zero]
  all_goals eval_both
  all_goals try simp only [h_arg7]
  all_goals try rw [h_arg7]
  all_goals try rfl

set_option maxHeartbeats 400000000 in
theorem g1_all (X : Valuation Cert.KernelIdeal.τ Cert.KernelIdeal.sig (Elt F)) (Y : Valuation Cert.ReferenceIdeal.τ Cert.ReferenceIdeal.sig (Elt F))
    (h_arg7 : X (Proc.devRef .tc Cert.KernelIdeal.main_arg7) = Y (Proc.devRef .tc Cert.ReferenceIdeal.main_arg7))
    (h_v8 : X (Proc.devRef .tc Cert.KernelIdeal.main_v8) = Y (Proc.devRef .tc Cert.ReferenceIdeal.main_v109))
    (h_v10 : X (Proc.devRef .tc Cert.KernelIdeal.main_v10) = Y (Proc.devRef .tc Cert.ReferenceIdeal.main_v111)) :
    after gK1 X (Proc.devRef .tc Cert.KernelIdeal.main_cst_38) = after gR1 Y (Proc.devRef .tc Cert.ReferenceIdeal.main_cst_50)
    ∧ after gK1 X (Proc.devRef .tc Cert.KernelIdeal.main_cst_39) = after gR1 Y (Proc.devRef .tc Cert.ReferenceIdeal.main_cst_51)
    ∧ after gK1 X (Proc.devRef .tc Cert.KernelIdeal.main_v121) = after gR1 Y (Proc.devRef .tc Cert.ReferenceIdeal.main_v222)
    ∧ after gK1 X (Proc.devRef .tc Cert.KernelIdeal.main_v119) = after gR1 Y (Proc.devRef .tc Cert.ReferenceIdeal.main_v220) := by
  rw [gK1_split, gR1_split]
  simp only [StableHlo.after_append]
  have c1 := g1p0 _ _ h_arg7 h_v8 h_v10
  have a1_v16 := c1.1
  have a1_v19 := c1.2.1
  have a1_v22 := c1.2.2.1
  have a1_v25 := c1.2.2.2.1
  have a1_v27 := c1.2.2.2.2
  have a1_arg7 := (keep_of_wr gK1p0_wr (by decide) _).trans (h_arg7.trans (keep_of_wr gR1p0_wr (by decide) _).symm)
  have c2 := g1p1 _ _ a1_v27 a1_v25 a1_v19 a1_v22
  have a2_v28 := c2.1
  have a2_v31 := c2.2.1
  have a2_v34 := c2.2.2.1
  have a2_v45 := c2.2.2.2.1
  have a2_v46 := c2.2.2.2.2
  have a2_arg7 := (keep_of_wr gK1p1_wr (by decide) _).trans (a1_arg7.trans (keep_of_wr gR1p1_wr (by decide) _).symm)
  have a2_v16 := (keep_of_wr gK1p1_wr (by decide) _).trans (a1_v16.trans (keep_of_wr gR1p1_wr (by decide) _).symm)
  have a2_v25 := (keep_of_wr gK1p1_wr (by decide) _).trans (a1_v25.trans (keep_of_wr gR1p1_wr (by decide) _).symm)
  have a3_v48 := g1p2 _ _ a2_v45 a2_v46 a2_v16
  have a3_arg7 := (keep_of_wr gK1p2_wr (by decide) _).trans (a2_arg7.trans (keep_of_wr gR1p2_wr (by decide) _).symm)
  have a3_v16 := (keep_of_wr gK1p2_wr (by decide) _).trans (a2_v16.trans (keep_of_wr gR1p2_wr (by decide) _).symm)
  have a3_v25 := (keep_of_wr gK1p2_wr (by decide) _).trans (a2_v25.trans (keep_of_wr gR1p2_wr (by decide) _).symm)
  have a3_v28 := (keep_of_wr gK1p2_wr (by decide) _).trans (a2_v28.trans (keep_of_wr gR1p2_wr (by decide) _).symm)
  have a3_v31 := (keep_of_wr gK1p2_wr (by decide) _).trans (a2_v31.trans (keep_of_wr gR1p2_wr (by decide) _).symm)
  have a3_v34 := (keep_of_wr gK1p2_wr (by decide) _).trans (a2_v34.trans (keep_of_wr gR1p2_wr (by decide) _).symm)
  have c4 := g1p3 _ _ a3_v25 a3_v28
  have a4_v61 := c4.1
  have a4_v62 := c4.2
  have a4_arg7 := (keep_of_wr gK1p3_wr (by decide) _).trans (a3_arg7.trans (keep_of_wr gR1p3_wr (by decide) _).symm)
  have a4_v16 := (keep_of_wr gK1p3_wr (by decide) _).trans (a3_v16.trans (keep_of_wr gR1p3_wr (by decide) _).symm)
  have a4_v25 := (keep_of_wr gK1p3_wr (by decide) _).trans (a3_v25.trans (keep_of_wr gR1p3_wr (by decide) _).symm)
  have a4_v28 := (keep_of_wr gK1p3_wr (by decide) _).trans (a3_v28.trans (keep_of_wr gR1p3_wr (by decide) _).symm)
  have a4_v31 := (keep_of_wr gK1p3_wr (by decide) _).trans (a3_v31.trans (keep_of_wr gR1p3_wr (by decide) _).symm)
  have a4_v34 := (keep_of_wr gK1p3_wr (by decide) _).trans (a3_v34.trans (keep_of_wr gR1p3_wr (by decide) _).symm)
  have a4_v48 := (keep_of_wr gK1p3_wr (by decide) _).trans (a3_v48.trans (keep_of_wr gR1p3_wr (by decide) _).symm)
  have a5_v64 := g1p4 _ _ a4_v61 a4_v62 a4_v16
  have a5_arg7 := (keep_of_wr gK1p4_wr (by decide) _).trans (a4_arg7.trans (keep_of_wr gR1p4_wr (by decide) _).symm)
  have a5_v16 := (keep_of_wr gK1p4_wr (by decide) _).trans (a4_v16.trans (keep_of_wr gR1p4_wr (by decide) _).symm)
  have a5_v25 := (keep_of_wr gK1p4_wr (by decide) _).trans (a4_v25.trans (keep_of_wr gR1p4_wr (by decide) _).symm)
  have a5_v28 := (keep_of_wr gK1p4_wr (by decide) _).trans (a4_v28.trans (keep_of_wr gR1p4_wr (by decide) _).symm)
  have a5_v31 := (keep_of_wr gK1p4_wr (by decide) _).trans (a4_v31.trans (keep_of_wr gR1p4_wr (by decide) _).symm)
  have a5_v34 := (keep_of_wr gK1p4_wr (by decide) _).trans (a4_v34.trans (keep_of_wr gR1p4_wr (by decide) _).symm)
  have a5_v48 := (keep_of_wr gK1p4_wr (by decide) _).trans (a4_v48.trans (keep_of_wr gR1p4_wr (by decide) _).symm)
  have c6 := g1p5 _ _ a5_v28 a5_v25
  have a6_v77 := c6.1
  have a6_v78 := c6.2
  have a6_arg7 := (keep_of_wr gK1p5_wr (by decide) _).trans (a5_arg7.trans (keep_of_wr gR1p5_wr (by decide) _).symm)
  have a6_v16 := (keep_of_wr gK1p5_wr (by decide) _).trans (a5_v16.trans (keep_of_wr gR1p5_wr (by decide) _).symm)
  have a6_v25 := (keep_of_wr gK1p5_wr (by decide) _).trans (a5_v25.trans (keep_of_wr gR1p5_wr (by decide) _).symm)
  have a6_v28 := (keep_of_wr gK1p5_wr (by decide) _).trans (a5_v28.trans (keep_of_wr gR1p5_wr (by decide) _).symm)
  have a6_v31 := (keep_of_wr gK1p5_wr (by decide) _).trans (a5_v31.trans (keep_of_wr gR1p5_wr (by decide) _).symm)
  have a6_v34 := (keep_of_wr gK1p5_wr (by decide) _).trans (a5_v34.trans (keep_of_wr gR1p5_wr (by decide) _).symm)
  have a6_v48 := (keep_of_wr gK1p5_wr (by decide) _).trans (a5_v48.trans (keep_of_wr gR1p5_wr (by decide) _).symm)
  have a6_v64 := (keep_of_wr gK1p5_wr (by decide) _).trans (a5_v64.trans (keep_of_wr gR1p5_wr (by decide) _).symm)
  have a7_v80 := g1p6 _ _ a6_v77 a6_v78 a6_v16
  have a7_arg7 := (keep_of_wr gK1p6_wr (by decide) _).trans (a6_arg7.trans (keep_of_wr gR1p6_wr (by decide) _).symm)
  have a7_v16 := (keep_of_wr gK1p6_wr (by decide) _).trans (a6_v16.trans (keep_of_wr gR1p6_wr (by decide) _).symm)
  have a7_v25 := (keep_of_wr gK1p6_wr (by decide) _).trans (a6_v25.trans (keep_of_wr gR1p6_wr (by decide) _).symm)
  have a7_v28 := (keep_of_wr gK1p6_wr (by decide) _).trans (a6_v28.trans (keep_of_wr gR1p6_wr (by decide) _).symm)
  have a7_v31 := (keep_of_wr gK1p6_wr (by decide) _).trans (a6_v31.trans (keep_of_wr gR1p6_wr (by decide) _).symm)
  have a7_v34 := (keep_of_wr gK1p6_wr (by decide) _).trans (a6_v34.trans (keep_of_wr gR1p6_wr (by decide) _).symm)
  have a7_v48 := (keep_of_wr gK1p6_wr (by decide) _).trans (a6_v48.trans (keep_of_wr gR1p6_wr (by decide) _).symm)
  have a7_v64 := (keep_of_wr gK1p6_wr (by decide) _).trans (a6_v64.trans (keep_of_wr gR1p6_wr (by decide) _).symm)
  have c8 := g1p7 _ _ a7_v28 a7_v25
  have a8_v95 := c8.1
  have a8_v96 := c8.2
  have a8_arg7 := (keep_of_wr gK1p7_wr (by decide) _).trans (a7_arg7.trans (keep_of_wr gR1p7_wr (by decide) _).symm)
  have a8_v16 := (keep_of_wr gK1p7_wr (by decide) _).trans (a7_v16.trans (keep_of_wr gR1p7_wr (by decide) _).symm)
  have a8_v31 := (keep_of_wr gK1p7_wr (by decide) _).trans (a7_v31.trans (keep_of_wr gR1p7_wr (by decide) _).symm)
  have a8_v34 := (keep_of_wr gK1p7_wr (by decide) _).trans (a7_v34.trans (keep_of_wr gR1p7_wr (by decide) _).symm)
  have a8_v48 := (keep_of_wr gK1p7_wr (by decide) _).trans (a7_v48.trans (keep_of_wr gR1p7_wr (by decide) _).symm)
  have a8_v64 := (keep_of_wr gK1p7_wr (by decide) _).trans (a7_v64.trans (keep_of_wr gR1p7_wr (by decide) _).symm)
  have a8_v80 := (keep_of_wr gK1p7_wr (by decide) _).trans (a7_v80.trans (keep_of_wr gR1p7_wr (by decide) _).symm)
  have a9_v98 := g1p8 _ _ a8_v95 a8_v96 a8_v16
  have a9_arg7 := (keep_of_wr gK1p8_wr (by decide) _).trans (a8_arg7.trans (keep_of_wr gR1p8_wr (by decide) _).symm)
  have a9_v31 := (keep_of_wr gK1p8_wr (by decide) _).trans (a8_v31.trans (keep_of_wr gR1p8_wr (by decide) _).symm)
  have a9_v34 := (keep_of_wr gK1p8_wr (by decide) _).trans (a8_v34.trans (keep_of_wr gR1p8_wr (by decide) _).symm)
  have a9_v48 := (keep_of_wr gK1p8_wr (by decide) _).trans (a8_v48.trans (keep_of_wr gR1p8_wr (by decide) _).symm)
  have a9_v64 := (keep_of_wr gK1p8_wr (by decide) _).trans (a8_v64.trans (keep_of_wr gR1p8_wr (by decide) _).symm)
  have a9_v80 := (keep_of_wr gK1p8_wr (by decide) _).trans (a8_v80.trans (keep_of_wr gR1p8_wr (by decide) _).symm)
  have a10_v119 := g1p9 _ _ a9_v31 a9_v48 a9_v64 a9_v34 a9_v80 a9_v98
  have a10_arg7 := (keep_of_wr gK1p9_wr (by decide) _).trans (a9_arg7.trans (keep_of_wr gR1p9_wr (by decide) _).symm)
  have c11 := g1p10 _ _ a10_arg7
  have a11_v121 := c11.1
  have a11_cst_38 := c11.2.1
  have a11_cst_39 := c11.2.2
  have a11_v119 := (keep_of_wr gK1p10_wr (by decide) _).trans (a10_v119.trans (keep_of_wr gR1p10_wr (by decide) _).symm)
  exact ⟨a11_cst_38, a11_cst_39, a11_v121, a11_v119⟩

end Cert.Corr

end
-- ==== Proof.CorrG2.lean ====
/-
  One bilinear plane lookup (group 2 of the host operations) computes the same on both sides. Both lines are cut at the same
  places; a piece applies the same operations on both sides, so buffers that agree going in agree coming out, and a buffer
  a piece does not write is carried through it.
-/
import proofs.«414985_j5068061409687_4_alg».proof.Proof.CorrDefs

set_option maxRecDepth 65536

noncomputable section

namespace Cert.Corr

open Idealize.ShloMosaic Idealize.ShloMosaic.TcCoe Idealize.SL.Sem Idealize.ShloMosaic.StableHlo Cert.LibAfter

variable {F : FTy → Type} [FloatOps F]

local macro "eval_both" : tactic =>
  `(tactic| simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne'])

abbrev gK2q1 : List (HloOp Cert.KernelIdeal.τ Cert.KernelIdeal.sig (Elt F)) := List.drop 39 gK2
abbrev gK2q2 : List (HloOp Cert.KernelIdeal.τ Cert.KernelIdeal.sig (Elt F)) := List.drop 23 gK2q1
abbrev gK2q3 : List (HloOp Cert.KernelIdeal.τ Cert.KernelIdeal.sig (Elt F)) := List.drop 2 gK2q2
abbrev gK2q4 : List (HloOp Cert.KernelIdeal.τ Cert.KernelIdeal.sig (Elt F)) := List.drop 19 gK2q3
abbrev gK2q5 : List (HloOp Cert.KernelIdeal.τ Cert.KernelIdeal.sig (Elt F)) := List.drop 2 gK2q4
abbrev gK2q6 : List (HloOp Cert.KernelIdeal.τ Cert.KernelIdeal.sig (Elt F)) := List.drop 19 gK2q5
abbrev gK2q7 : List (HloOp Cert.KernelIdeal.τ Cert.KernelIdeal.sig (Elt F)) := List.drop 2 gK2q6
abbrev gK2q8 : List (HloOp Cert.KernelIdeal.τ Cert.KernelIdeal.sig (Elt F)) := List.drop 22 gK2q7
abbrev gK2q9 : List (HloOp Cert.KernelIdeal.τ Cert.KernelIdeal.sig (Elt F)) := List.drop 2 gK2q8
abbrev gK2q10 : List (HloOp Cert.KernelIdeal.τ Cert.KernelIdeal.sig (Elt F)) := List.drop 24 gK2q9
abbrev gK2p0 : List (HloOp Cert.KernelIdeal.τ Cert.KernelIdeal.sig (Elt F)) := List.take 39 gK2
abbrev gK2p1 : List (HloOp Cert.KernelIdeal.τ Cert.KernelIdeal.sig (Elt F)) := List.take 23 gK2q1
abbrev gK2p2 : List (HloOp Cert.KernelIdeal.τ Cert.KernelIdeal.sig (Elt F)) := List.take 2 gK2q2
abbrev gK2p3 : List (HloOp Cert.KernelIdeal.τ Cert.KernelIdeal.sig (Elt F)) := List.take 19 gK2q3
abbrev gK2p4 : List (HloOp Cert.KernelIdeal.τ Cert.KernelIdeal.sig (Elt F)) := List.take 2 gK2q4
abbrev gK2p5 : List (HloOp Cert.KernelIdeal.τ Cert.KernelIdeal.sig (Elt F)) := List.take 19 gK2q5
abbrev gK2p6 : List (HloOp Cert.KernelIdeal.τ Cert.KernelIdeal.sig (Elt F)) := List.take 2 gK2q6
abbrev gK2p7 : List (HloOp Cert.KernelIdeal.τ Cert.KernelIdeal.sig (Elt F)) := List.take 22 gK2q7
abbrev gK2p8 : List (HloOp Cert.KernelIdeal.τ Cert.KernelIdeal.sig (Elt F)) := List.take 2 gK2q8
abbrev gK2p9 : List (HloOp Cert.KernelIdeal.τ Cert.KernelIdeal.sig (Elt F)) := List.take 24 gK2q9
abbrev gK2p10 : List (HloOp Cert.KernelIdeal.τ Cert.KernelIdeal.sig (Elt F)) := gK2q10
theorem gK2_split : (gK2 (F := F)) = gK2p0 ++ (gK2p1 ++ (gK2p2 ++ (gK2p3 ++ (gK2p4 ++ (gK2p5 ++ (gK2p6 ++ (gK2p7 ++ (gK2p8 ++ (gK2p9 ++ (gK2p10)))))))))) := by
  simp only [gK2p0, gK2p1, gK2p2, gK2p3, gK2p4, gK2p5, gK2p6, gK2p7, gK2p8, gK2p9, gK2p10, gK2q1, gK2q2, gK2q3, gK2q4, gK2q5, gK2q6, gK2q7, gK2q8, gK2q9, gK2q10, List.take_append_drop]
abbrev gR2q1 : List (HloOp Cert.ReferenceIdeal.τ Cert.ReferenceIdeal.sig (Elt F)) := List.drop 39 gR2
abbrev gR2q2 : List (HloOp Cert.ReferenceIdeal.τ Cert.ReferenceIdeal.sig (Elt F)) := List.drop 23 gR2q1
abbrev gR2q3 : List (HloOp Cert.ReferenceIdeal.τ Cert.ReferenceIdeal.sig (Elt F)) := List.drop 2 gR2q2
abbrev gR2q4 : List (HloOp Cert.ReferenceIdeal.τ Cert.ReferenceIdeal.sig (Elt F)) := List.drop 19 gR2q3
abbrev gR2q5 : List (HloOp Cert.ReferenceIdeal.τ Cert.ReferenceIdeal.sig (Elt F)) := List.drop 2 gR2q4
abbrev gR2q6 : List (HloOp Cert.ReferenceIdeal.τ Cert.ReferenceIdeal.sig (Elt F)) := List.drop 19 gR2q5
abbrev gR2q7 : List (HloOp Cert.ReferenceIdeal.τ Cert.ReferenceIdeal.sig (Elt F)) := List.drop 2 gR2q6
abbrev gR2q8 : List (HloOp Cert.ReferenceIdeal.τ Cert.ReferenceIdeal.sig (Elt F)) := List.drop 22 gR2q7
abbrev gR2q9 : List (HloOp Cert.ReferenceIdeal.τ Cert.ReferenceIdeal.sig (Elt F)) := List.drop 2 gR2q8
abbrev gR2q10 : List (HloOp Cert.ReferenceIdeal.τ Cert.ReferenceIdeal.sig (Elt F)) := List.drop 24 gR2q9
abbrev gR2p0 : List (HloOp Cert.ReferenceIdeal.τ Cert.ReferenceIdeal.sig (Elt F)) := List.take 39 gR2
abbrev gR2p1 : List (HloOp Cert.ReferenceIdeal.τ Cert.ReferenceIdeal.sig (Elt F)) := List.take 23 gR2q1
abbrev gR2p2 : List (HloOp Cert.ReferenceIdeal.τ Cert.ReferenceIdeal.sig (Elt F)) := List.take 2 gR2q2
abbrev gR2p3 : List (HloOp Cert.ReferenceIdeal.τ Cert.ReferenceIdeal.sig (Elt F)) := List.take 19 gR2q3
abbrev gR2p4 : List (HloOp Cert.ReferenceIdeal.τ Cert.ReferenceIdeal.sig (Elt F)) := List.take 2 gR2q4
abbrev gR2p5 : List (HloOp Cert.ReferenceIdeal.τ Cert.ReferenceIdeal.sig (Elt F)) := List.take 19 gR2q5
abbrev gR2p6 : List (HloOp Cert.ReferenceIdeal.τ Cert.ReferenceIdeal.sig (Elt F)) := List.take 2 gR2q6
abbrev gR2p7 : List (HloOp Cert.ReferenceIdeal.τ Cert.ReferenceIdeal.sig (Elt F)) := List.take 22 gR2q7
abbrev gR2p8 : List (HloOp Cert.ReferenceIdeal.τ Cert.ReferenceIdeal.sig (Elt F)) := List.take 2 gR2q8
abbrev gR2p9 : List (HloOp Cert.ReferenceIdeal.τ Cert.ReferenceIdeal.sig (Elt F)) := List.take 24 gR2q9
abbrev gR2p10 : List (HloOp Cert.ReferenceIdeal.τ Cert.ReferenceIdeal.sig (Elt F)) := gR2q10
theorem gR2_split : (gR2 (F := F)) = gR2p0 ++ (gR2p1 ++ (gR2p2 ++ (gR2p3 ++ (gR2p4 ++ (gR2p5 ++ (gR2p6 ++ (gR2p7 ++ (gR2p8 ++ (gR2p9 ++ (gR2p10)))))))))) := by
  simp only [gR2p0, gR2p1, gR2p2, gR2p3, gR2p4, gR2p5, gR2p6, gR2p7, gR2p8, gR2p9, gR2p10, gR2q1, gR2q2, gR2q3, gR2q4, gR2q5, gR2q6, gR2q7, gR2q8, gR2q9, gR2q10, List.take_append_drop]

theorem gK2p0_wr : WritesIn (gK2p0 (F := F)) (gK2_W.take 39) := (gK2_we.take 39).writesIn
theorem gK2p1_wr : WritesIn (gK2p1 (F := F)) (gK2_W.drop 39 |>.take 23) := (gK2_we.drop 39 |>.take 23).writesIn
theorem gK2p2_wr : WritesIn (gK2p2 (F := F)) (gK2_W.drop 39 |>.drop 23 |>.take 2) := (gK2_we.drop 39 |>.drop 23 |>.take 2).writesIn
theorem gK2p3_wr : WritesIn (gK2p3 (F := F)) (gK2_W.drop 39 |>.drop 23 |>.drop 2 |>.take 19) := (gK2_we.drop 39 |>.drop 23 |>.drop 2 |>.take 19).writesIn
theorem gK2p4_wr : WritesIn (gK2p4 (F := F)) (gK2_W.drop 39 |>.drop 23 |>.drop 2 |>.drop 19 |>.take 2) := (gK2_we.drop 39 |>.drop 23 |>.drop 2 |>.drop 19 |>.take 2).writesIn
theorem gK2p5_wr : WritesIn (gK2p5 (F := F)) (gK2_W.drop 39 |>.drop 23 |>.drop 2 |>.drop 19 |>.drop 2 |>.take 19) := (gK2_we.drop 39 |>.drop 23 |>.drop 2 |>.drop 19 |>.drop 2 |>.take 19).writesIn
theorem gK2p6_wr : WritesIn (gK2p6 (F := F)) (gK2_W.drop 39 |>.drop 23 |>.drop 2 |>.drop 19 |>.drop 2 |>.drop 19 |>.take 2) := (gK2_we.drop 39 |>.drop 23 |>.drop 2 |>.drop 19 |>.drop 2 |>.drop 19 |>.take 2).writesIn
theorem gK2p7_wr : WritesIn (gK2p7 (F := F)) (gK2_W.drop 39 |>.drop 23 |>.drop 2 |>.drop 19 |>.drop 2 |>.drop 19 |>.drop 2 |>.take 22) := (gK2_we.drop 39 |>.drop 23 |>.drop 2 |>.drop 19 |>.drop 2 |>.drop 19 |>.drop 2 |>.take 22).writesIn
theorem gK2p8_wr : WritesIn (gK2p8 (F := F)) (gK2_W.drop 39 |>.drop 23 |>.drop 2 |>.drop 19 |>.drop 2 |>.drop 19 |>.drop 2 |>.drop 22 |>.take 2) := (gK2_we.drop 39 |>.drop 23 |>.drop 2 |>.drop 19 |>.drop 2 |>.drop 19 |>.drop 2 |>.drop 22 |>.take 2).writesIn
theorem gK2p9_wr : WritesIn (gK2p9 (F := F)) (gK2_W.drop 39 |>.drop 23 |>.drop 2 |>.drop 19 |>.drop 2 |>.drop 19 |>.drop 2 |>.drop 22 |>.drop 2 |>.take 24) := (gK2_we.drop 39 |>.drop 23 |>.drop 2 |>.drop 19 |>.drop 2 |>.drop 19 |>.drop 2 |>.drop 22 |>.drop 2 |>.take 24).writesIn
theorem gK2p10_wr : WritesIn (gK2p10 (F := F)) (gK2_W.drop 39 |>.drop 23 |>.drop 2 |>.drop 19 |>.drop 2 |>.drop 19 |>.drop 2 |>.drop 22 |>.drop 2 |>.drop 24) := (gK2_we.drop 39 |>.drop 23 |>.drop 2 |>.drop 19 |>.drop 2 |>.drop 19 |>.drop 2 |>.drop 22 |>.drop 2 |>.drop 24).writesIn
theorem gR2p0_wr : WritesIn (gR2p0 (F := F)) (gR2_W.take 39) := (gR2_we.take 39).writesIn
theorem gR2p1_wr : WritesIn (gR2p1 (F := F)) (gR2_W.drop 39 |>.take 23) := (gR2_we.drop 39 |>.take 23).writesIn
theorem gR2p2_wr : WritesIn (gR2p2 (F := F)) (gR2_W.drop 39 |>.drop 23 |>.take 2) := (gR2_we.drop 39 |>.drop 23 |>.take 2).writesIn
theorem gR2p3_wr : WritesIn (gR2p3 (F := F)) (gR2_W.drop 39 |>.drop 23 |>.drop 2 |>.take 19) := (gR2_we.drop 39 |>.drop 23 |>.drop 2 |>.take 19).writesIn
theorem gR2p4_wr : WritesIn (gR2p4 (F := F)) (gR2_W.drop 39 |>.drop 23 |>.drop 2 |>.drop 19 |>.take 2) := (gR2_we.drop 39 |>.drop 23 |>.drop 2 |>.drop 19 |>.take 2).writesIn
theorem gR2p5_wr : WritesIn (gR2p5 (F := F)) (gR2_W.drop 39 |>.drop 23 |>.drop 2 |>.drop 19 |>.drop 2 |>.take 19) := (gR2_we.drop 39 |>.drop 23 |>.drop 2 |>.drop 19 |>.drop 2 |>.take 19).writesIn
theorem gR2p6_wr : WritesIn (gR2p6 (F := F)) (gR2_W.drop 39 |>.drop 23 |>.drop 2 |>.drop 19 |>.drop 2 |>.drop 19 |>.take 2) := (gR2_we.drop 39 |>.drop 23 |>.drop 2 |>.drop 19 |>.drop 2 |>.drop 19 |>.take 2).writesIn
theorem gR2p7_wr : WritesIn (gR2p7 (F := F)) (gR2_W.drop 39 |>.drop 23 |>.drop 2 |>.drop 19 |>.drop 2 |>.drop 19 |>.drop 2 |>.take 22) := (gR2_we.drop 39 |>.drop 23 |>.drop 2 |>.drop 19 |>.drop 2 |>.drop 19 |>.drop 2 |>.take 22).writesIn
theorem gR2p8_wr : WritesIn (gR2p8 (F := F)) (gR2_W.drop 39 |>.drop 23 |>.drop 2 |>.drop 19 |>.drop 2 |>.drop 19 |>.drop 2 |>.drop 22 |>.take 2) := (gR2_we.drop 39 |>.drop 23 |>.drop 2 |>.drop 19 |>.drop 2 |>.drop 19 |>.drop 2 |>.drop 22 |>.take 2).writesIn
theorem gR2p9_wr : WritesIn (gR2p9 (F := F)) (gR2_W.drop 39 |>.drop 23 |>.drop 2 |>.drop 19 |>.drop 2 |>.drop 19 |>.drop 2 |>.drop 22 |>.drop 2 |>.take 24) := (gR2_we.drop 39 |>.drop 23 |>.drop 2 |>.drop 19 |>.drop 2 |>.drop 19 |>.drop 2 |>.drop 22 |>.drop 2 |>.take 24).writesIn
theorem gR2p10_wr : WritesIn (gR2p10 (F := F)) (gR2_W.drop 39 |>.drop 23 |>.drop 2 |>.drop 19 |>.drop 2 |>.drop 19 |>.drop 2 |>.drop 22 |>.drop 2 |>.drop 24) := (gR2_we.drop 39 |>.drop 23 |>.drop 2 |>.drop 19 |>.drop 2 |>.drop 19 |>.drop 2 |>.drop 22 |>.drop 2 |>.drop 24).writesIn

set_option maxHeartbeats 1000000000 in
theorem g2p0 (X : Valuation Cert.KernelIdeal.τ Cert.KernelIdeal.sig (Elt F)) (Y : Valuation Cert.ReferenceIdeal.τ Cert.ReferenceIdeal.sig (Elt F))
    (h_cst_38 : X (Proc.devRef .tc Cert.KernelIdeal.main_cst_38) = Y (Proc.devRef .tc Cert.ReferenceIdeal.main_cst_50))
    (h_v8 : X (Proc.devRef .tc Cert.KernelIdeal.main_v8) = Y (Proc.devRef .tc Cert.ReferenceIdeal.main_v109))
    (h_cst_39 : X (Proc.devRef .tc Cert.KernelIdeal.main_cst_39) = Y (Proc.devRef .tc Cert.ReferenceIdeal.main_cst_51))
    (h_v12 : X (Proc.devRef .tc Cert.KernelIdeal.main_v12) = Y (Proc.devRef .tc Cert.ReferenceIdeal.main_v113)) :
    after gK2p0 X (Proc.devRef .tc Cert.KernelIdeal.main_v124) = after gR2p0 Y (Proc.devRef .tc Cert.ReferenceIdeal.main_v225)
    ∧ after gK2p0 X (Proc.devRef .tc Cert.KernelIdeal.main_v127) = after gR2p0 Y (Proc.devRef .tc Cert.ReferenceIdeal.main_v228)
    ∧ after gK2p0 X (Proc.devRef .tc Cert.KernelIdeal.main_v130) = after gR2p0 Y (Proc.devRef .tc Cert.ReferenceIdeal.main_v231)
    ∧ after gK2p0 X (Proc.devRef .tc Cert.KernelIdeal.main_v132) = after gR2p0 Y (Proc.devRef .tc Cert.ReferenceIdeal.main_v233) := by
  refine ⟨?_, ?_, ?_, ?_⟩
  all_goals simp only [gK2p0, gK2, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, gR2p0, gR2, Cert.ReferenceIdeal.Chunks.opsC6, Cert.ReferenceIdeal.Chunks.opsC7, Cert.ReferenceIdeal.Chunks.opsC8, List.cons_append, List.nil_append, List.append_assoc, List.drop_succ_cons, List.drop_zero, List.take_succ_cons, List.take_zero]
  all_goals eval_both
  all_goals try simp only [h_cst_38, h_v8, h_cst_39, h_v12]
  all_goals try rw [h_cst_38]
  all_goals try rw [h_v8]
  all_goals try rw [h_cst_39]
  all_goals try rw [h_v12]
  all_goals try rfl

set_option maxHeartbeats 1000000000 in
theorem g2p1 (X : Valuation Cert.KernelIdeal.τ Cert.KernelIdeal.sig (Elt F)) (Y : Valuation Cert.ReferenceIdeal.τ Cert.ReferenceIdeal.sig (Elt F))
    (h_v132 : X (Proc.devRef .tc Cert.KernelIdeal.main_v132) = Y (Proc.devRef .tc Cert.ReferenceIdeal.main_v233))
    (h_v130 : X (Proc.devRef .tc Cert.KernelIdeal.main_v130) = Y (Proc.devRef .tc Cert.ReferenceIdeal.main_v231))
    (h_v124 : X (Proc.devRef .tc Cert.KernelIdeal.main_v124) = Y (Proc.devRef .tc Cert.ReferenceIdeal.main_v225))
    (h_v127 : X (Proc.devRef .tc Cert.KernelIdeal.main_v127) = Y (Proc.devRef .tc Cert.ReferenceIdeal.main_v228)) :
    after gK2p1 X (Proc.devRef .tc Cert.KernelIdeal.main_v133) = after gR2p1 Y (Proc.devRef .tc Cert.ReferenceIdeal.main_v234)
    ∧ after gK2p1 X (Proc.devRef .tc Cert.KernelIdeal.main_v136) = after gR2p1 Y (Proc.devRef .tc Cert.ReferenceIdeal.main_v237)
    ∧ after gK2p1 X (Proc.devRef .tc Cert.KernelIdeal.main_v139) = after gR2p1 Y (Proc.devRef .tc Cert.ReferenceIdeal.main_v240)
    ∧ after gK2p1 X (Proc.devRef .tc Cert.KernelIdeal.main_v150) = after gR2p1 Y (Proc.devRef .tc Cert.ReferenceIdeal.main_v251)
    ∧ after gK2p1 X (Proc.devRef .tc Cert.KernelIdeal.main_v151) = after gR2p1 Y (Proc.devRef .tc Cert.ReferenceIdeal.main_v252) := by
  refine ⟨?_, ?_, ?_, ?_, ?_⟩
  all_goals simp only [gK2p1, gK2q1, gK2, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, gR2p1, gR2q1, gR2, Cert.ReferenceIdeal.Chunks.opsC6, Cert.ReferenceIdeal.Chunks.opsC7, Cert.ReferenceIdeal.Chunks.opsC8, List.cons_append, List.nil_append, List.append_assoc, List.drop_succ_cons, List.drop_zero, List.take_succ_cons, List.take_zero]
  all_goals eval_both
  all_goals try simp only [h_v132, h_v130, h_v124, h_v127]
  all_goals try rw [h_v132]
  all_goals try rw [h_v130]
  all_goals try rw [h_v124]
  all_goals try rw [h_v127]
  all_goals try rfl

set_option maxHeartbeats 1000000000 in
theorem g2p2 (X : Valuation Cert.KernelIdeal.τ Cert.KernelIdeal.sig (Elt F)) (Y : Valuation Cert.ReferenceIdeal.τ Cert.ReferenceIdeal.sig (Elt F))
    (h_v150 : X (Proc.devRef .tc Cert.KernelIdeal.main_v150) = Y (Proc.devRef .tc Cert.ReferenceIdeal.main_v251))
    (h_v151 : X (Proc.devRef .tc Cert.KernelIdeal.main_v151) = Y (Proc.devRef .tc Cert.ReferenceIdeal.main_v252))
    (h_v121 : X (Proc.devRef .tc Cert.KernelIdeal.main_v121) = Y (Proc.devRef .tc Cert.ReferenceIdeal.main_v222)) :
    after gK2p2 X (Proc.devRef .tc Cert.KernelIdeal.main_v153) = after gR2p2 Y (Proc.devRef .tc Cert.ReferenceIdeal.main_v254) := by
  simp only [gK2p2, gK2q1, gK2q2, gK2, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, gR2p2, gR2q1, gR2q2, gR2, Cert.ReferenceIdeal.Chunks.opsC6, Cert.ReferenceIdeal.Chunks.opsC7, Cert.ReferenceIdeal.Chunks.opsC8, List.cons_append, List.nil_append, List.append_assoc, List.drop_succ_cons, List.drop_zero, List.take_succ_cons, List.take_zero]
  eval_both
  all_goals try simp only [h_v150, h_v151, h_v121]
  all_goals try rw [h_v150]
  all_goals try rw [h_v151]
  all_goals try rw [h_v121]
  all_goals try rfl

set_option maxHeartbeats 1000000000 in
theorem g2p3 (X : Valuation Cert.KernelIdeal.τ Cert.KernelIdeal.sig (Elt F)) (Y : Valuation Cert.ReferenceIdeal.τ Cert.ReferenceIdeal.sig (Elt F))
    (h_v130 : X (Proc.devRef .tc Cert.KernelIdeal.main_v130) = Y (Proc.devRef .tc Cert.ReferenceIdeal.main_v231))
    (h_v133 : X (Proc.devRef .tc Cert.KernelIdeal.main_v133) = Y (Proc.devRef .tc Cert.ReferenceIdeal.main_v234)) :
    after gK2p3 X (Proc.devRef .tc Cert.KernelIdeal.main_v166) = after gR2p3 Y (Proc.devRef .tc Cert.ReferenceIdeal.main_v267)
    ∧ after gK2p3 X (Proc.devRef .tc Cert.KernelIdeal.main_v167) = after gR2p3 Y (Proc.devRef .tc Cert.ReferenceIdeal.main_v268) := by
  refine ⟨?_, ?_⟩
  all_goals simp only [gK2p3, gK2q1, gK2q2, gK2q3, gK2, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, gR2p3, gR2q1, gR2q2, gR2q3, gR2, Cert.ReferenceIdeal.Chunks.opsC6, Cert.ReferenceIdeal.Chunks.opsC7, Cert.ReferenceIdeal.Chunks.opsC8, List.cons_append, List.nil_append, List.append_assoc, List.drop_succ_cons, List.drop_zero, List.take_succ_cons, List.take_zero]
  all_goals eval_both
  all_goals try simp only [h_v130, h_v133]
  all_goals try rw [h_v130]
  all_goals try rw [h_v133]
  all_goals try rfl

set_option maxHeartbeats 1000000000 in
theorem g2p4 (X : Valuation Cert.KernelIdeal.τ Cert.KernelIdeal.sig (Elt F)) (Y : Valuation Cert.ReferenceIdeal.τ Cert.ReferenceIdeal.sig (Elt F))
    (h_v166 : X (Proc.devRef .tc Cert.KernelIdeal.main_v166) = Y (Proc.devRef .tc Cert.ReferenceIdeal.main_v267))
    (h_v167 : X (Proc.devRef .tc Cert.KernelIdeal.main_v167) = Y (Proc.devRef .tc Cert.ReferenceIdeal.main_v268))
    (h_v121 : X (Proc.devRef .tc Cert.KernelIdeal.main_v121) = Y (Proc.devRef .tc Cert.ReferenceIdeal.main_v222)) :
    after gK2p4 X (Proc.devRef .tc Cert.KernelIdeal.main_v169) = after gR2p4 Y (Proc.devRef .tc Cert.ReferenceIdeal.main_v270) := by
  simp only [gK2p4, gK2q1, gK2q2, gK2q3, gK2q4, gK2, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, gR2p4, gR2q1, gR2q2, gR2q3, gR2q4, gR2, Cert.ReferenceIdeal.Chunks.opsC6, Cert.ReferenceIdeal.Chunks.opsC7, Cert.ReferenceIdeal.Chunks.opsC8, List.cons_append, List.nil_append, List.append_assoc, List.drop_succ_cons, List.drop_zero, List.take_succ_cons, List.take_zero]
  eval_both
  all_goals try simp only [h_v166, h_v167, h_v121]
  all_goals try rw [h_v166]
  all_goals try rw [h_v167]
  all_goals try rw [h_v121]
  all_goals try rfl

set_option maxHeartbeats 1000000000 in
theorem g2p5 (X : Valuation Cert.KernelIdeal.τ Cert.KernelIdeal.sig (Elt F)) (Y : Valuation Cert.ReferenceIdeal.τ Cert.ReferenceIdeal.sig (Elt F))
    (h_v133 : X (Proc.devRef .tc Cert.KernelIdeal.main_v133) = Y (Proc.devRef .tc Cert.ReferenceIdeal.main_v234))
    (h_v130 : X (Proc.devRef .tc Cert.KernelIdeal.main_v130) = Y (Proc.devRef .tc Cert.ReferenceIdeal.main_v231)) :
    after gK2p5 X (Proc.devRef .tc Cert.KernelIdeal.main_v182) = after gR2p5 Y (Proc.devRef .tc Cert.ReferenceIdeal.main_v283)
    ∧ after gK2p5 X (Proc.devRef .tc Cert.KernelIdeal.main_v183) = after gR2p5 Y (Proc.devRef .tc Cert.ReferenceIdeal.main_v284) := by
  refine ⟨?_, ?_⟩
  all_goals simp only [gK2p5, gK2q1, gK2q2, gK2q3, gK2q4, gK2q5, gK2, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, gR2p5, gR2q1, gR2q2, gR2q3, gR2q4, gR2q5, gR2, Cert.ReferenceIdeal.Chunks.opsC6, Cert.ReferenceIdeal.Chunks.opsC7, Cert.ReferenceIdeal.Chunks.opsC8, List.cons_append, List.nil_append, List.append_assoc, List.drop_succ_cons, List.drop_zero, List.take_succ_cons, List.take_zero]
  all_goals eval_both
  all_goals try simp only [h_v133, h_v130]
  all_goals try rw [h_v133]
  all_goals try rw [h_v130]
  all_goals try rfl

set_option maxHeartbeats 1000000000 in
theorem g2p6 (X : Valuation Cert.KernelIdeal.τ Cert.KernelIdeal.sig (Elt F)) (Y : Valuation Cert.ReferenceIdeal.τ Cert.ReferenceIdeal.sig (Elt F))
    (h_v182 : X (Proc.devRef .tc Cert.KernelIdeal.main_v182) = Y (Proc.devRef .tc Cert.ReferenceIdeal.main_v283))
    (h_v183 : X (Proc.devRef .tc Cert.KernelIdeal.main_v183) = Y (Proc.devRef .tc Cert.ReferenceIdeal.main_v284))
    (h_v121 : X (Proc.devRef .tc Cert.KernelIdeal.main_v121) = Y (Proc.devRef .tc Cert.ReferenceIdeal.main_v222)) :
    after gK2p6 X (Proc.devRef .tc Cert.KernelIdeal.main_v185) = after gR2p6 Y (Proc.devRef .tc Cert.ReferenceIdeal.main_v286) := by
  simp only [gK2p6, gK2q1, gK2q2, gK2q3, gK2q4, gK2q5, gK2q6, gK2, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, gR2p6, gR2q1, gR2q2, gR2q3, gR2q4, gR2q5, gR2q6, gR2, Cert.ReferenceIdeal.Chunks.opsC6, Cert.ReferenceIdeal.Chunks.opsC7, Cert.ReferenceIdeal.Chunks.opsC8, List.cons_append, List.nil_append, List.append_assoc, List.drop_succ_cons, List.drop_zero, List.take_succ_cons, List.take_zero]
  eval_both
  all_goals try simp only [h_v182, h_v183, h_v121]
  all_goals try rw [h_v182]
  all_goals try rw [h_v183]
  all_goals try rw [h_v121]
  all_goals try rfl

set_option maxHeartbeats 1000000000 in
theorem g2p7 (X : Valuation Cert.KernelIdeal.τ Cert.KernelIdeal.sig (Elt F)) (Y : Valuation Cert.ReferenceIdeal.τ Cert.ReferenceIdeal.sig (Elt F))
    (h_v133 : X (Proc.devRef .tc Cert.KernelIdeal.main_v133) = Y (Proc.devRef .tc Cert.ReferenceIdeal.main_v234))
    (h_v130 : X (Proc.devRef .tc Cert.KernelIdeal.main_v130) = Y (Proc.devRef .tc Cert.ReferenceIdeal.main_v231)) :
    after gK2p7 X (Proc.devRef .tc Cert.KernelIdeal.main_v200) = after gR2p7 Y (Proc.devRef .tc Cert.ReferenceIdeal.main_v301)
    ∧ after gK2p7 X (Proc.devRef .tc Cert.KernelIdeal.main_v201) = after gR2p7 Y (Proc.devRef .tc Cert.ReferenceIdeal.main_v302) := by
  refine ⟨?_, ?_⟩
  all_goals simp only [gK2p7, gK2q1, gK2q2, gK2q3, gK2q4, gK2q5, gK2q6, gK2q7, gK2, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, gR2p7, gR2q1, gR2q2, gR2q3, gR2q4, gR2q5, gR2q6, gR2q7, gR2, Cert.ReferenceIdeal.Chunks.opsC6, Cert.ReferenceIdeal.Chunks.opsC7, Cert.ReferenceIdeal.Chunks.opsC8, List.cons_append, List.nil_append, List.append_assoc, List.drop_succ_cons, List.drop_zero, List.take_succ_cons, List.take_zero]
  all_goals eval_both
  all_goals try simp only [h_v133, h_v130]
  all_goals try rw [h_v133]
  all_goals try rw [h_v130]
  all_goals try rfl

set_option maxHeartbeats 1000000000 in
theorem g2p8 (X : Valuation Cert.KernelIdeal.τ Cert.KernelIdeal.sig (Elt F)) (Y : Valuation Cert.ReferenceIdeal.τ Cert.ReferenceIdeal.sig (Elt F))
    (h_v200 : X (Proc.devRef .tc Cert.KernelIdeal.main_v200) = Y (Proc.devRef .tc Cert.ReferenceIdeal.main_v301))
    (h_v201 : X (Proc.devRef .tc Cert.KernelIdeal.main_v201) = Y (Proc.devRef .tc Cert.ReferenceIdeal.main_v302))
    (h_v121 : X (Proc.devRef .tc Cert.KernelIdeal.main_v121) = Y (Proc.devRef .tc Cert.ReferenceIdeal.main_v222)) :
    after gK2p8 X (Proc.devRef .tc Cert.KernelIdeal.main_v203) = after gR2p8 Y (Proc.devRef .tc Cert.ReferenceIdeal.main_v304) := by
  simp only [gK2p8, gK2q1, gK2q2, gK2q3, gK2q4, gK2q5, gK2q6, gK2q7, gK2q8, gK2, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, gR2p8, gR2q1, gR2q2, gR2q3, gR2q4, gR2q5, gR2q6, gR2q7, gR2q8, gR2, Cert.ReferenceIdeal.Chunks.opsC6, Cert.ReferenceIdeal.Chunks.opsC7, Cert.ReferenceIdeal.Chunks.opsC8, List.cons_append, List.nil_append, List.append_assoc, List.drop_succ_cons, List.drop_zero, List.take_succ_cons, List.take_zero]
  eval_both
  all_goals try simp only [h_v200, h_v201, h_v121]
  all_goals try rw [h_v200]
  all_goals try rw [h_v201]
  all_goals try rw [h_v121]
  all_goals try rfl

set_option maxHeartbeats 1000000000 in
theorem g2p9 (X : Valuation Cert.KernelIdeal.τ Cert.KernelIdeal.sig (Elt F)) (Y : Valuation Cert.ReferenceIdeal.τ Cert.ReferenceIdeal.sig (Elt F))
    (h_v136 : X (Proc.devRef .tc Cert.KernelIdeal.main_v136) = Y (Proc.devRef .tc Cert.ReferenceIdeal.main_v237))
    (h_v153 : X (Proc.devRef .tc Cert.KernelIdeal.main_v153) = Y (Proc.devRef .tc Cert.ReferenceIdeal.main_v254))
    (h_v169 : X (Proc.devRef .tc Cert.KernelIdeal.main_v169) = Y (Proc.devRef .tc Cert.ReferenceIdeal.main_v270))
    (h_v139 : X (Proc.devRef .tc Cert.KernelIdeal.main_v139) = Y (Proc.devRef .tc Cert.ReferenceIdeal.main_v240))
    (h_v185 : X (Proc.devRef .tc Cert.KernelIdeal.main_v185) = Y (Proc.devRef .tc Cert.ReferenceIdeal.main_v286))
    (h_v203 : X (Proc.devRef .tc Cert.KernelIdeal.main_v203) = Y (Proc.devRef .tc Cert.ReferenceIdeal.main_v304)) :
    after gK2p9 X (Proc.devRef .tc Cert.KernelIdeal.main_v224) = after gR2p9 Y (Proc.devRef .tc Cert.ReferenceIdeal.main_v325) := by
  simp only [gK2p9, gK2q1, gK2q2, gK2q3, gK2q4, gK2q5, gK2q6, gK2q7, gK2q8, gK2q9, gK2, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, gR2p9, gR2q1, gR2q2, gR2q3, gR2q4, gR2q5, gR2q6, gR2q7, gR2q8, gR2q9, gR2, Cert.ReferenceIdeal.Chunks.opsC6, Cert.ReferenceIdeal.Chunks.opsC7, Cert.ReferenceIdeal.Chunks.opsC8, List.cons_append, List.nil_append, List.append_assoc, List.drop_succ_cons, List.drop_zero, List.take_succ_cons, List.take_zero]
  eval_both
  all_goals try simp only [h_v136, h_v153, h_v169, h_v139, h_v185, h_v203]
  all_goals try rw [h_v136]
  all_goals try rw [h_v153]
  all_goals try rw [h_v169]
  all_goals try rw [h_v139]
  all_goals try rw [h_v185]
  all_goals try rw [h_v203]
  all_goals try rfl

set_option maxHeartbeats 1000000000 in
theorem g2p10 (X : Valuation Cert.KernelIdeal.τ Cert.KernelIdeal.sig (Elt F)) (Y : Valuation Cert.ReferenceIdeal.τ Cert.ReferenceIdeal.sig (Elt F))
    (h_arg7 : X (Proc.devRef .tc Cert.KernelIdeal.main_arg7) = Y (Proc.devRef .tc Cert.ReferenceIdeal.main_arg7)) :
    after gK2p10 X (Proc.devRef .tc Cert.KernelIdeal.main_v226) = after gR2p10 Y (Proc.devRef .tc Cert.ReferenceIdeal.main_v328)
    ∧ after gK2p10 X (Proc.devRef .tc Cert.KernelIdeal.main_cst_71) = after gR2p10 Y (Proc.devRef .tc Cert.ReferenceIdeal.main_cst_83)
    ∧ after gK2p10 X (Proc.devRef .tc Cert.KernelIdeal.main_cst_72) = after gR2p10 Y (Proc.devRef .tc Cert.ReferenceIdeal.main_cst_84) := by
  refine ⟨?_, ?_, ?_⟩
  all_goals simp only [gK2p10, gK2q1, gK2q2, gK2q3, gK2q4, gK2q5, gK2q6, gK2q7, gK2q8, gK2q9, gK2q10, gK2, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, gR2p10, gR2q1, gR2q2, gR2q3, gR2q4, gR2q5, gR2q6, gR2q7, gR2q8, gR2q9, gR2q10, gR2, Cert.ReferenceIdeal.Chunks.opsC6, Cert.ReferenceIdeal.Chunks.opsC7, Cert.ReferenceIdeal.Chunks.opsC8, List.cons_append, List.nil_append, List.append_assoc, List.drop_succ_cons, List.drop_zero, List.take_succ_cons, List.take_zero]
  all_goals eval_both
  all_goals try simp only [h_arg7]
  all_goals try rw [h_arg7]
  all_goals try rfl

set_option maxHeartbeats 400000000 in
theorem g2_all (X : Valuation Cert.KernelIdeal.τ Cert.KernelIdeal.sig (Elt F)) (Y : Valuation Cert.ReferenceIdeal.τ Cert.ReferenceIdeal.sig (Elt F))
    (h_cst_38 : X (Proc.devRef .tc Cert.KernelIdeal.main_cst_38) = Y (Proc.devRef .tc Cert.ReferenceIdeal.main_cst_50))
    (h_v8 : X (Proc.devRef .tc Cert.KernelIdeal.main_v8) = Y (Proc.devRef .tc Cert.ReferenceIdeal.main_v109))
    (h_cst_39 : X (Proc.devRef .tc Cert.KernelIdeal.main_cst_39) = Y (Proc.devRef .tc Cert.ReferenceIdeal.main_cst_51))
    (h_v12 : X (Proc.devRef .tc Cert.KernelIdeal.main_v12) = Y (Proc.devRef .tc Cert.ReferenceIdeal.main_v113))
    (h_v121 : X (Proc.devRef .tc Cert.KernelIdeal.main_v121) = Y (Proc.devRef .tc Cert.ReferenceIdeal.main_v222))
    (h_arg7 : X (Proc.devRef .tc Cert.KernelIdeal.main_arg7) = Y (Proc.devRef .tc Cert.ReferenceIdeal.main_arg7)) :
    after gK2 X (Proc.devRef .tc Cert.KernelIdeal.main_cst_71) = after gR2 Y (Proc.devRef .tc Cert.ReferenceIdeal.main_cst_83)
    ∧ after gK2 X (Proc.devRef .tc Cert.KernelIdeal.main_cst_72) = after gR2 Y (Proc.devRef .tc Cert.ReferenceIdeal.main_cst_84)
    ∧ after gK2 X (Proc.devRef .tc Cert.KernelIdeal.main_v226) = after gR2 Y (Proc.devRef .tc Cert.ReferenceIdeal.main_v328)
    ∧ after gK2 X (Proc.devRef .tc Cert.KernelIdeal.main_v224) = after gR2 Y (Proc.devRef .tc Cert.ReferenceIdeal.main_v325) := by
  rw [gK2_split, gR2_split]
  simp only [StableHlo.after_append]
  have c1 := g2p0 _ _ h_cst_38 h_v8 h_cst_39 h_v12
  have a1_v124 := c1.1
  have a1_v127 := c1.2.1
  have a1_v130 := c1.2.2.1
  have a1_v132 := c1.2.2.2
  have a1_v121 := (keep_of_wr gK2p0_wr (by decide) _).trans (h_v121.trans (keep_of_wr gR2p0_wr (by decide) _).symm)
  have a1_arg7 := (keep_of_wr gK2p0_wr (by decide) _).trans (h_arg7.trans (keep_of_wr gR2p0_wr (by decide) _).symm)
  have c2 := g2p1 _ _ a1_v132 a1_v130 a1_v124 a1_v127
  have a2_v133 := c2.1
  have a2_v136 := c2.2.1
  have a2_v139 := c2.2.2.1
  have a2_v150 := c2.2.2.2.1
  have a2_v151 := c2.2.2.2.2
  have a2_v121 := (keep_of_wr gK2p1_wr (by decide) _).trans (a1_v121.trans (keep_of_wr gR2p1_wr (by decide) _).symm)
  have a2_arg7 := (keep_of_wr gK2p1_wr (by decide) _).trans (a1_arg7.trans (keep_of_wr gR2p1_wr (by decide) _).symm)
  have a2_v130 := (keep_of_wr gK2p1_wr (by decide) _).trans (a1_v130.trans (keep_of_wr gR2p1_wr (by decide) _).symm)
  have a3_v153 := g2p2 _ _ a2_v150 a2_v151 a2_v121
  have a3_v121 := (keep_of_wr gK2p2_wr (by decide) _).trans (a2_v121.trans (keep_of_wr gR2p2_wr (by decide) _).symm)
  have a3_arg7 := (keep_of_wr gK2p2_wr (by decide) _).trans (a2_arg7.trans (keep_of_wr gR2p2_wr (by decide) _).symm)
  have a3_v130 := (keep_of_wr gK2p2_wr (by decide) _).trans (a2_v130.trans (keep_of_wr gR2p2_wr (by decide) _).symm)
  have a3_v133 := (keep_of_wr gK2p2_wr (by decide) _).trans (a2_v133.trans (keep_of_wr gR2p2_wr (by decide) _).symm)
  have a3_v136 := (keep_of_wr gK2p2_wr (by decide) _).trans (a2_v136.trans (keep_of_wr gR2p2_wr (by decide) _).symm)
  have a3_v139 := (keep_of_wr gK2p2_wr (by decide) _).trans (a2_v139.trans (keep_of_wr gR2p2_wr (by decide) _).symm)
  have c4 := g2p3 _ _ a3_v130 a3_v133
  have a4_v166 := c4.1
  have a4_v167 := c4.2
  have a4_v121 := (keep_of_wr gK2p3_wr (by decide) _).trans (a3_v121.trans (keep_of_wr gR2p3_wr (by decide) _).symm)
  have a4_arg7 := (keep_of_wr gK2p3_wr (by decide) _).trans (a3_arg7.trans (keep_of_wr gR2p3_wr (by decide) _).symm)
  have a4_v130 := (keep_of_wr gK2p3_wr (by decide) _).trans (a3_v130.trans (keep_of_wr gR2p3_wr (by decide) _).symm)
  have a4_v133 := (keep_of_wr gK2p3_wr (by decide) _).trans (a3_v133.trans (keep_of_wr gR2p3_wr (by decide) _).symm)
  have a4_v136 := (keep_of_wr gK2p3_wr (by decide) _).trans (a3_v136.trans (keep_of_wr gR2p3_wr (by decide) _).symm)
  have a4_v139 := (keep_of_wr gK2p3_wr (by decide) _).trans (a3_v139.trans (keep_of_wr gR2p3_wr (by decide) _).symm)
  have a4_v153 := (keep_of_wr gK2p3_wr (by decide) _).trans (a3_v153.trans (keep_of_wr gR2p3_wr (by decide) _).symm)
  have a5_v169 := g2p4 _ _ a4_v166 a4_v167 a4_v121
  have a5_v121 := (keep_of_wr gK2p4_wr (by decide) _).trans (a4_v121.trans (keep_of_wr gR2p4_wr (by decide) _).symm)
  have a5_arg7 := (keep_of_wr gK2p4_wr (by decide) _).trans (a4_arg7.trans (keep_of_wr gR2p4_wr (by decide) _).symm)
  have a5_v130 := (keep_of_wr gK2p4_wr (by decide) _).trans (a4_v130.trans (keep_of_wr gR2p4_wr (by decide) _).symm)
  have a5_v133 := (keep_of_wr gK2p4_wr (by decide) _).trans (a4_v133.trans (keep_of_wr gR2p4_wr (by decide) _).symm)
  have a5_v136 := (keep_of_wr gK2p4_wr (by decide) _).trans (a4_v136.trans (keep_of_wr gR2p4_wr (by decide) _).symm)
  have a5_v139 := (keep_of_wr gK2p4_wr (by decide) _).trans (a4_v139.trans (keep_of_wr gR2p4_wr (by decide) _).symm)
  have a5_v153 := (keep_of_wr gK2p4_wr (by decide) _).trans (a4_v153.trans (keep_of_wr gR2p4_wr (by decide) _).symm)
  have c6 := g2p5 _ _ a5_v133 a5_v130
  have a6_v182 := c6.1
  have a6_v183 := c6.2
  have a6_v121 := (keep_of_wr gK2p5_wr (by decide) _).trans (a5_v121.trans (keep_of_wr gR2p5_wr (by decide) _).symm)
  have a6_arg7 := (keep_of_wr gK2p5_wr (by decide) _).trans (a5_arg7.trans (keep_of_wr gR2p5_wr (by decide) _).symm)
  have a6_v130 := (keep_of_wr gK2p5_wr (by decide) _).trans (a5_v130.trans (keep_of_wr gR2p5_wr (by decide) _).symm)
  have a6_v133 := (keep_of_wr gK2p5_wr (by decide) _).trans (a5_v133.trans (keep_of_wr gR2p5_wr (by decide) _).symm)
  have a6_v136 := (keep_of_wr gK2p5_wr (by decide) _).trans (a5_v136.trans (keep_of_wr gR2p5_wr (by decide) _).symm)
  have a6_v139 := (keep_of_wr gK2p5_wr (by decide) _).trans (a5_v139.trans (keep_of_wr gR2p5_wr (by decide) _).symm)
  have a6_v153 := (keep_of_wr gK2p5_wr (by decide) _).trans (a5_v153.trans (keep_of_wr gR2p5_wr (by decide) _).symm)
  have a6_v169 := (keep_of_wr gK2p5_wr (by decide) _).trans (a5_v169.trans (keep_of_wr gR2p5_wr (by decide) _).symm)
  have a7_v185 := g2p6 _ _ a6_v182 a6_v183 a6_v121
  have a7_v121 := (keep_of_wr gK2p6_wr (by decide) _).trans (a6_v121.trans (keep_of_wr gR2p6_wr (by decide) _).symm)
  have a7_arg7 := (keep_of_wr gK2p6_wr (by decide) _).trans (a6_arg7.trans (keep_of_wr gR2p6_wr (by decide) _).symm)
  have a7_v130 := (keep_of_wr gK2p6_wr (by decide) _).trans (a6_v130.trans (keep_of_wr gR2p6_wr (by decide) _).symm)
  have a7_v133 := (keep_of_wr gK2p6_wr (by decide) _).trans (a6_v133.trans (keep_of_wr gR2p6_wr (by decide) _).symm)
  have a7_v136 := (keep_of_wr gK2p6_wr (by decide) _).trans (a6_v136.trans (keep_of_wr gR2p6_wr (by decide) _).symm)
  have a7_v139 := (keep_of_wr gK2p6_wr (by decide) _).trans (a6_v139.trans (keep_of_wr gR2p6_wr (by decide) _).symm)
  have a7_v153 := (keep_of_wr gK2p6_wr (by decide) _).trans (a6_v153.trans (keep_of_wr gR2p6_wr (by decide) _).symm)
  have a7_v169 := (keep_of_wr gK2p6_wr (by decide) _).trans (a6_v169.trans (keep_of_wr gR2p6_wr (by decide) _).symm)
  have c8 := g2p7 _ _ a7_v133 a7_v130
  have a8_v200 := c8.1
  have a8_v201 := c8.2
  have a8_v121 := (keep_of_wr gK2p7_wr (by decide) _).trans (a7_v121.trans (keep_of_wr gR2p7_wr (by decide) _).symm)
  have a8_arg7 := (keep_of_wr gK2p7_wr (by decide) _).trans (a7_arg7.trans (keep_of_wr gR2p7_wr (by decide) _).symm)
  have a8_v136 := (keep_of_wr gK2p7_wr (by decide) _).trans (a7_v136.trans (keep_of_wr gR2p7_wr (by decide) _).symm)
  have a8_v139 := (keep_of_wr gK2p7_wr (by decide) _).trans (a7_v139.trans (keep_of_wr gR2p7_wr (by decide) _).symm)
  have a8_v153 := (keep_of_wr gK2p7_wr (by decide) _).trans (a7_v153.trans (keep_of_wr gR2p7_wr (by decide) _).symm)
  have a8_v169 := (keep_of_wr gK2p7_wr (by decide) _).trans (a7_v169.trans (keep_of_wr gR2p7_wr (by decide) _).symm)
  have a8_v185 := (keep_of_wr gK2p7_wr (by decide) _).trans (a7_v185.trans (keep_of_wr gR2p7_wr (by decide) _).symm)
  have a9_v203 := g2p8 _ _ a8_v200 a8_v201 a8_v121
  have a9_arg7 := (keep_of_wr gK2p8_wr (by decide) _).trans (a8_arg7.trans (keep_of_wr gR2p8_wr (by decide) _).symm)
  have a9_v136 := (keep_of_wr gK2p8_wr (by decide) _).trans (a8_v136.trans (keep_of_wr gR2p8_wr (by decide) _).symm)
  have a9_v139 := (keep_of_wr gK2p8_wr (by decide) _).trans (a8_v139.trans (keep_of_wr gR2p8_wr (by decide) _).symm)
  have a9_v153 := (keep_of_wr gK2p8_wr (by decide) _).trans (a8_v153.trans (keep_of_wr gR2p8_wr (by decide) _).symm)
  have a9_v169 := (keep_of_wr gK2p8_wr (by decide) _).trans (a8_v169.trans (keep_of_wr gR2p8_wr (by decide) _).symm)
  have a9_v185 := (keep_of_wr gK2p8_wr (by decide) _).trans (a8_v185.trans (keep_of_wr gR2p8_wr (by decide) _).symm)
  have a10_v224 := g2p9 _ _ a9_v136 a9_v153 a9_v169 a9_v139 a9_v185 a9_v203
  have a10_arg7 := (keep_of_wr gK2p9_wr (by decide) _).trans (a9_arg7.trans (keep_of_wr gR2p9_wr (by decide) _).symm)
  have c11 := g2p10 _ _ a10_arg7
  have a11_v226 := c11.1
  have a11_cst_71 := c11.2.1
  have a11_cst_72 := c11.2.2
  have a11_v224 := (keep_of_wr gK2p10_wr (by decide) _).trans (a10_v224.trans (keep_of_wr gR2p10_wr (by decide) _).symm)
  exact ⟨a11_cst_71, a11_cst_72, a11_v226, a11_v224⟩

end Cert.Corr

end
-- ==== Proof.CorrG3.lean ====
/-
  One bilinear plane lookup (group 3 of the host operations) computes the same on both sides. Both lines are cut at the same
  places; a piece applies the same operations on both sides, so buffers that agree going in agree coming out, and a buffer
  a piece does not write is carried through it.
-/
import proofs.«414985_j5068061409687_4_alg».proof.Proof.CorrDefs

set_option maxRecDepth 65536

noncomputable section

namespace Cert.Corr

open Idealize.ShloMosaic Idealize.ShloMosaic.TcCoe Idealize.SL.Sem Idealize.ShloMosaic.StableHlo Cert.LibAfter

variable {F : FTy → Type} [FloatOps F]

local macro "eval_both" : tactic =>
  `(tactic| simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne'])

abbrev gK3q1 : List (HloOp Cert.KernelIdeal.τ Cert.KernelIdeal.sig (Elt F)) := List.drop 39 gK3
abbrev gK3q2 : List (HloOp Cert.KernelIdeal.τ Cert.KernelIdeal.sig (Elt F)) := List.drop 23 gK3q1
abbrev gK3q3 : List (HloOp Cert.KernelIdeal.τ Cert.KernelIdeal.sig (Elt F)) := List.drop 2 gK3q2
abbrev gK3q4 : List (HloOp Cert.KernelIdeal.τ Cert.KernelIdeal.sig (Elt F)) := List.drop 19 gK3q3
abbrev gK3q5 : List (HloOp Cert.KernelIdeal.τ Cert.KernelIdeal.sig (Elt F)) := List.drop 2 gK3q4
abbrev gK3q6 : List (HloOp Cert.KernelIdeal.τ Cert.KernelIdeal.sig (Elt F)) := List.drop 19 gK3q5
abbrev gK3q7 : List (HloOp Cert.KernelIdeal.τ Cert.KernelIdeal.sig (Elt F)) := List.drop 2 gK3q6
abbrev gK3q8 : List (HloOp Cert.KernelIdeal.τ Cert.KernelIdeal.sig (Elt F)) := List.drop 22 gK3q7
abbrev gK3q9 : List (HloOp Cert.KernelIdeal.τ Cert.KernelIdeal.sig (Elt F)) := List.drop 2 gK3q8
abbrev gK3q10 : List (HloOp Cert.KernelIdeal.τ Cert.KernelIdeal.sig (Elt F)) := List.drop 24 gK3q9
abbrev gK3p0 : List (HloOp Cert.KernelIdeal.τ Cert.KernelIdeal.sig (Elt F)) := List.take 39 gK3
abbrev gK3p1 : List (HloOp Cert.KernelIdeal.τ Cert.KernelIdeal.sig (Elt F)) := List.take 23 gK3q1
abbrev gK3p2 : List (HloOp Cert.KernelIdeal.τ Cert.KernelIdeal.sig (Elt F)) := List.take 2 gK3q2
abbrev gK3p3 : List (HloOp Cert.KernelIdeal.τ Cert.KernelIdeal.sig (Elt F)) := List.take 19 gK3q3
abbrev gK3p4 : List (HloOp Cert.KernelIdeal.τ Cert.KernelIdeal.sig (Elt F)) := List.take 2 gK3q4
abbrev gK3p5 : List (HloOp Cert.KernelIdeal.τ Cert.KernelIdeal.sig (Elt F)) := List.take 19 gK3q5
abbrev gK3p6 : List (HloOp Cert.KernelIdeal.τ Cert.KernelIdeal.sig (Elt F)) := List.take 2 gK3q6
abbrev gK3p7 : List (HloOp Cert.KernelIdeal.τ Cert.KernelIdeal.sig (Elt F)) := List.take 22 gK3q7
abbrev gK3p8 : List (HloOp Cert.KernelIdeal.τ Cert.KernelIdeal.sig (Elt F)) := List.take 2 gK3q8
abbrev gK3p9 : List (HloOp Cert.KernelIdeal.τ Cert.KernelIdeal.sig (Elt F)) := List.take 24 gK3q9
abbrev gK3p10 : List (HloOp Cert.KernelIdeal.τ Cert.KernelIdeal.sig (Elt F)) := gK3q10
theorem gK3_split : (gK3 (F := F)) = gK3p0 ++ (gK3p1 ++ (gK3p2 ++ (gK3p3 ++ (gK3p4 ++ (gK3p5 ++ (gK3p6 ++ (gK3p7 ++ (gK3p8 ++ (gK3p9 ++ (gK3p10)))))))))) := by
  simp only [gK3p0, gK3p1, gK3p2, gK3p3, gK3p4, gK3p5, gK3p6, gK3p7, gK3p8, gK3p9, gK3p10, gK3q1, gK3q2, gK3q3, gK3q4, gK3q5, gK3q6, gK3q7, gK3q8, gK3q9, gK3q10, List.take_append_drop]
abbrev gR3q1 : List (HloOp Cert.ReferenceIdeal.τ Cert.ReferenceIdeal.sig (Elt F)) := List.drop 39 gR3
abbrev gR3q2 : List (HloOp Cert.ReferenceIdeal.τ Cert.ReferenceIdeal.sig (Elt F)) := List.drop 23 gR3q1
abbrev gR3q3 : List (HloOp Cert.ReferenceIdeal.τ Cert.ReferenceIdeal.sig (Elt F)) := List.drop 2 gR3q2
abbrev gR3q4 : List (HloOp Cert.ReferenceIdeal.τ Cert.ReferenceIdeal.sig (Elt F)) := List.drop 19 gR3q3
abbrev gR3q5 : List (HloOp Cert.ReferenceIdeal.τ Cert.ReferenceIdeal.sig (Elt F)) := List.drop 2 gR3q4
abbrev gR3q6 : List (HloOp Cert.ReferenceIdeal.τ Cert.ReferenceIdeal.sig (Elt F)) := List.drop 19 gR3q5
abbrev gR3q7 : List (HloOp Cert.ReferenceIdeal.τ Cert.ReferenceIdeal.sig (Elt F)) := List.drop 2 gR3q6
abbrev gR3q8 : List (HloOp Cert.ReferenceIdeal.τ Cert.ReferenceIdeal.sig (Elt F)) := List.drop 22 gR3q7
abbrev gR3q9 : List (HloOp Cert.ReferenceIdeal.τ Cert.ReferenceIdeal.sig (Elt F)) := List.drop 2 gR3q8
abbrev gR3q10 : List (HloOp Cert.ReferenceIdeal.τ Cert.ReferenceIdeal.sig (Elt F)) := List.drop 24 gR3q9
abbrev gR3p0 : List (HloOp Cert.ReferenceIdeal.τ Cert.ReferenceIdeal.sig (Elt F)) := List.take 39 gR3
abbrev gR3p1 : List (HloOp Cert.ReferenceIdeal.τ Cert.ReferenceIdeal.sig (Elt F)) := List.take 23 gR3q1
abbrev gR3p2 : List (HloOp Cert.ReferenceIdeal.τ Cert.ReferenceIdeal.sig (Elt F)) := List.take 2 gR3q2
abbrev gR3p3 : List (HloOp Cert.ReferenceIdeal.τ Cert.ReferenceIdeal.sig (Elt F)) := List.take 19 gR3q3
abbrev gR3p4 : List (HloOp Cert.ReferenceIdeal.τ Cert.ReferenceIdeal.sig (Elt F)) := List.take 2 gR3q4
abbrev gR3p5 : List (HloOp Cert.ReferenceIdeal.τ Cert.ReferenceIdeal.sig (Elt F)) := List.take 19 gR3q5
abbrev gR3p6 : List (HloOp Cert.ReferenceIdeal.τ Cert.ReferenceIdeal.sig (Elt F)) := List.take 2 gR3q6
abbrev gR3p7 : List (HloOp Cert.ReferenceIdeal.τ Cert.ReferenceIdeal.sig (Elt F)) := List.take 22 gR3q7
abbrev gR3p8 : List (HloOp Cert.ReferenceIdeal.τ Cert.ReferenceIdeal.sig (Elt F)) := List.take 2 gR3q8
abbrev gR3p9 : List (HloOp Cert.ReferenceIdeal.τ Cert.ReferenceIdeal.sig (Elt F)) := List.take 24 gR3q9
abbrev gR3p10 : List (HloOp Cert.ReferenceIdeal.τ Cert.ReferenceIdeal.sig (Elt F)) := gR3q10
theorem gR3_split : (gR3 (F := F)) = gR3p0 ++ (gR3p1 ++ (gR3p2 ++ (gR3p3 ++ (gR3p4 ++ (gR3p5 ++ (gR3p6 ++ (gR3p7 ++ (gR3p8 ++ (gR3p9 ++ (gR3p10)))))))))) := by
  simp only [gR3p0, gR3p1, gR3p2, gR3p3, gR3p4, gR3p5, gR3p6, gR3p7, gR3p8, gR3p9, gR3p10, gR3q1, gR3q2, gR3q3, gR3q4, gR3q5, gR3q6, gR3q7, gR3q8, gR3q9, gR3q10, List.take_append_drop]

theorem gK3p0_wr : WritesIn (gK3p0 (F := F)) (gK3_W.take 39) := (gK3_we.take 39).writesIn
theorem gK3p1_wr : WritesIn (gK3p1 (F := F)) (gK3_W.drop 39 |>.take 23) := (gK3_we.drop 39 |>.take 23).writesIn
theorem gK3p2_wr : WritesIn (gK3p2 (F := F)) (gK3_W.drop 39 |>.drop 23 |>.take 2) := (gK3_we.drop 39 |>.drop 23 |>.take 2).writesIn
theorem gK3p3_wr : WritesIn (gK3p3 (F := F)) (gK3_W.drop 39 |>.drop 23 |>.drop 2 |>.take 19) := (gK3_we.drop 39 |>.drop 23 |>.drop 2 |>.take 19).writesIn
theorem gK3p4_wr : WritesIn (gK3p4 (F := F)) (gK3_W.drop 39 |>.drop 23 |>.drop 2 |>.drop 19 |>.take 2) := (gK3_we.drop 39 |>.drop 23 |>.drop 2 |>.drop 19 |>.take 2).writesIn
theorem gK3p5_wr : WritesIn (gK3p5 (F := F)) (gK3_W.drop 39 |>.drop 23 |>.drop 2 |>.drop 19 |>.drop 2 |>.take 19) := (gK3_we.drop 39 |>.drop 23 |>.drop 2 |>.drop 19 |>.drop 2 |>.take 19).writesIn
theorem gK3p6_wr : WritesIn (gK3p6 (F := F)) (gK3_W.drop 39 |>.drop 23 |>.drop 2 |>.drop 19 |>.drop 2 |>.drop 19 |>.take 2) := (gK3_we.drop 39 |>.drop 23 |>.drop 2 |>.drop 19 |>.drop 2 |>.drop 19 |>.take 2).writesIn
theorem gK3p7_wr : WritesIn (gK3p7 (F := F)) (gK3_W.drop 39 |>.drop 23 |>.drop 2 |>.drop 19 |>.drop 2 |>.drop 19 |>.drop 2 |>.take 22) := (gK3_we.drop 39 |>.drop 23 |>.drop 2 |>.drop 19 |>.drop 2 |>.drop 19 |>.drop 2 |>.take 22).writesIn
theorem gK3p8_wr : WritesIn (gK3p8 (F := F)) (gK3_W.drop 39 |>.drop 23 |>.drop 2 |>.drop 19 |>.drop 2 |>.drop 19 |>.drop 2 |>.drop 22 |>.take 2) := (gK3_we.drop 39 |>.drop 23 |>.drop 2 |>.drop 19 |>.drop 2 |>.drop 19 |>.drop 2 |>.drop 22 |>.take 2).writesIn
theorem gK3p9_wr : WritesIn (gK3p9 (F := F)) (gK3_W.drop 39 |>.drop 23 |>.drop 2 |>.drop 19 |>.drop 2 |>.drop 19 |>.drop 2 |>.drop 22 |>.drop 2 |>.take 24) := (gK3_we.drop 39 |>.drop 23 |>.drop 2 |>.drop 19 |>.drop 2 |>.drop 19 |>.drop 2 |>.drop 22 |>.drop 2 |>.take 24).writesIn
theorem gK3p10_wr : WritesIn (gK3p10 (F := F)) (gK3_W.drop 39 |>.drop 23 |>.drop 2 |>.drop 19 |>.drop 2 |>.drop 19 |>.drop 2 |>.drop 22 |>.drop 2 |>.drop 24) := (gK3_we.drop 39 |>.drop 23 |>.drop 2 |>.drop 19 |>.drop 2 |>.drop 19 |>.drop 2 |>.drop 22 |>.drop 2 |>.drop 24).writesIn
theorem gR3p0_wr : WritesIn (gR3p0 (F := F)) (gR3_W.take 39) := (gR3_we.take 39).writesIn
theorem gR3p1_wr : WritesIn (gR3p1 (F := F)) (gR3_W.drop 39 |>.take 23) := (gR3_we.drop 39 |>.take 23).writesIn
theorem gR3p2_wr : WritesIn (gR3p2 (F := F)) (gR3_W.drop 39 |>.drop 23 |>.take 2) := (gR3_we.drop 39 |>.drop 23 |>.take 2).writesIn
theorem gR3p3_wr : WritesIn (gR3p3 (F := F)) (gR3_W.drop 39 |>.drop 23 |>.drop 2 |>.take 19) := (gR3_we.drop 39 |>.drop 23 |>.drop 2 |>.take 19).writesIn
theorem gR3p4_wr : WritesIn (gR3p4 (F := F)) (gR3_W.drop 39 |>.drop 23 |>.drop 2 |>.drop 19 |>.take 2) := (gR3_we.drop 39 |>.drop 23 |>.drop 2 |>.drop 19 |>.take 2).writesIn
theorem gR3p5_wr : WritesIn (gR3p5 (F := F)) (gR3_W.drop 39 |>.drop 23 |>.drop 2 |>.drop 19 |>.drop 2 |>.take 19) := (gR3_we.drop 39 |>.drop 23 |>.drop 2 |>.drop 19 |>.drop 2 |>.take 19).writesIn
theorem gR3p6_wr : WritesIn (gR3p6 (F := F)) (gR3_W.drop 39 |>.drop 23 |>.drop 2 |>.drop 19 |>.drop 2 |>.drop 19 |>.take 2) := (gR3_we.drop 39 |>.drop 23 |>.drop 2 |>.drop 19 |>.drop 2 |>.drop 19 |>.take 2).writesIn
theorem gR3p7_wr : WritesIn (gR3p7 (F := F)) (gR3_W.drop 39 |>.drop 23 |>.drop 2 |>.drop 19 |>.drop 2 |>.drop 19 |>.drop 2 |>.take 22) := (gR3_we.drop 39 |>.drop 23 |>.drop 2 |>.drop 19 |>.drop 2 |>.drop 19 |>.drop 2 |>.take 22).writesIn
theorem gR3p8_wr : WritesIn (gR3p8 (F := F)) (gR3_W.drop 39 |>.drop 23 |>.drop 2 |>.drop 19 |>.drop 2 |>.drop 19 |>.drop 2 |>.drop 22 |>.take 2) := (gR3_we.drop 39 |>.drop 23 |>.drop 2 |>.drop 19 |>.drop 2 |>.drop 19 |>.drop 2 |>.drop 22 |>.take 2).writesIn
theorem gR3p9_wr : WritesIn (gR3p9 (F := F)) (gR3_W.drop 39 |>.drop 23 |>.drop 2 |>.drop 19 |>.drop 2 |>.drop 19 |>.drop 2 |>.drop 22 |>.drop 2 |>.take 24) := (gR3_we.drop 39 |>.drop 23 |>.drop 2 |>.drop 19 |>.drop 2 |>.drop 19 |>.drop 2 |>.drop 22 |>.drop 2 |>.take 24).writesIn
theorem gR3p10_wr : WritesIn (gR3p10 (F := F)) (gR3_W.drop 39 |>.drop 23 |>.drop 2 |>.drop 19 |>.drop 2 |>.drop 19 |>.drop 2 |>.drop 22 |>.drop 2 |>.drop 24) := (gR3_we.drop 39 |>.drop 23 |>.drop 2 |>.drop 19 |>.drop 2 |>.drop 19 |>.drop 2 |>.drop 22 |>.drop 2 |>.drop 24).writesIn

set_option maxHeartbeats 1000000000 in
theorem g3p0 (X : Valuation Cert.KernelIdeal.τ Cert.KernelIdeal.sig (Elt F)) (Y : Valuation Cert.ReferenceIdeal.τ Cert.ReferenceIdeal.sig (Elt F))
    (h_cst_71 : X (Proc.devRef .tc Cert.KernelIdeal.main_cst_71) = Y (Proc.devRef .tc Cert.ReferenceIdeal.main_cst_83))
    (h_v10 : X (Proc.devRef .tc Cert.KernelIdeal.main_v10) = Y (Proc.devRef .tc Cert.ReferenceIdeal.main_v111))
    (h_cst_72 : X (Proc.devRef .tc Cert.KernelIdeal.main_cst_72) = Y (Proc.devRef .tc Cert.ReferenceIdeal.main_cst_84))
    (h_v12 : X (Proc.devRef .tc Cert.KernelIdeal.main_v12) = Y (Proc.devRef .tc Cert.ReferenceIdeal.main_v113)) :
    after gK3p0 X (Proc.devRef .tc Cert.KernelIdeal.main_v229) = after gR3p0 Y (Proc.devRef .tc Cert.ReferenceIdeal.main_v331)
    ∧ after gK3p0 X (Proc.devRef .tc Cert.KernelIdeal.main_v232) = after gR3p0 Y (Proc.devRef .tc Cert.ReferenceIdeal.main_v334)
    ∧ after gK3p0 X (Proc.devRef .tc Cert.KernelIdeal.main_v235) = after gR3p0 Y (Proc.devRef .tc Cert.ReferenceIdeal.main_v337)
    ∧ after gK3p0 X (Proc.devRef .tc Cert.KernelIdeal.main_v237) = after gR3p0 Y (Proc.devRef .tc Cert.ReferenceIdeal.main_v339) := by
  refine ⟨?_, ?_, ?_, ?_⟩
  all_goals simp only [gK3p0, gK3, Cert.KernelIdeal.Gen.hostOps0_21, Cert.KernelIdeal.Gen.hostOps0_22, Cert.KernelIdeal.Gen.hostOps0_23, Cert.KernelIdeal.Gen.hostOps0_24, Cert.KernelIdeal.Gen.hostOps0_25, Cert.KernelIdeal.Gen.hostOps0_26, Cert.KernelIdeal.Gen.hostOps0_27, Cert.KernelIdeal.Gen.hostOps0_28, gR3p0, gR3, Cert.ReferenceIdeal.Chunks.opsC9, Cert.ReferenceIdeal.Chunks.opsC10, Cert.ReferenceIdeal.Chunks.opsC11, List.cons_append, List.nil_append, List.append_assoc, List.drop_succ_cons, List.drop_zero, List.take_succ_cons, List.take_zero]
  all_goals eval_both
  all_goals try simp only [h_cst_71, h_v10, h_cst_72, h_v12]
  all_goals try rw [h_cst_71]
  all_goals try rw [h_v10]
  all_goals try rw [h_cst_72]
  all_goals try rw [h_v12]
  all_goals try rfl

set_option maxHeartbeats 1000000000 in
theorem g3p1 (X : Valuation Cert.KernelIdeal.τ Cert.KernelIdeal.sig (Elt F)) (Y : Valuation Cert.ReferenceIdeal.τ Cert.ReferenceIdeal.sig (Elt F))
    (h_v237 : X (Proc.devRef .tc Cert.KernelIdeal.main_v237) = Y (Proc.devRef .tc Cert.ReferenceIdeal.main_v339))
    (h_v235 : X (Proc.devRef .tc Cert.KernelIdeal.main_v235) = Y (Proc.devRef .tc Cert.ReferenceIdeal.main_v337))
    (h_v229 : X (Proc.devRef .tc Cert.KernelIdeal.main_v229) = Y (Proc.devRef .tc Cert.ReferenceIdeal.main_v331))
    (h_v232 : X (Proc.devRef .tc Cert.KernelIdeal.main_v232) = Y (Proc.devRef .tc Cert.ReferenceIdeal.main_v334)) :
    after gK3p1 X (Proc.devRef .tc Cert.KernelIdeal.main_v238) = after gR3p1 Y (Proc.devRef .tc Cert.ReferenceIdeal.main_v340)
    ∧ after gK3p1 X (Proc.devRef .tc Cert.KernelIdeal.main_v241) = after gR3p1 Y (Proc.devRef .tc Cert.ReferenceIdeal.main_v343)
    ∧ after gK3p1 X (Proc.devRef .tc Cert.KernelIdeal.main_v244) = after gR3p1 Y (Proc.devRef .tc Cert.ReferenceIdeal.main_v346)
    ∧ after gK3p1 X (Proc.devRef .tc Cert.KernelIdeal.main_v255) = after gR3p1 Y (Proc.devRef .tc Cert.ReferenceIdeal.main_v357)
    ∧ after gK3p1 X (Proc.devRef .tc Cert.KernelIdeal.main_v256) = after gR3p1 Y (Proc.devRef .tc Cert.ReferenceIdeal.main_v358) := by
  refine ⟨?_, ?_, ?_, ?_, ?_⟩
  all_goals simp only [gK3p1, gK3q1, gK3, Cert.KernelIdeal.Gen.hostOps0_21, Cert.KernelIdeal.Gen.hostOps0_22, Cert.KernelIdeal.Gen.hostOps0_23, Cert.KernelIdeal.Gen.hostOps0_24, Cert.KernelIdeal.Gen.hostOps0_25, Cert.KernelIdeal.Gen.hostOps0_26, Cert.KernelIdeal.Gen.hostOps0_27, Cert.KernelIdeal.Gen.hostOps0_28, gR3p1, gR3q1, gR3, Cert.ReferenceIdeal.Chunks.opsC9, Cert.ReferenceIdeal.Chunks.opsC10, Cert.ReferenceIdeal.Chunks.opsC11, List.cons_append, List.nil_append, List.append_assoc, List.drop_succ_cons, List.drop_zero, List.take_succ_cons, List.take_zero]
  all_goals eval_both
  all_goals try simp only [h_v237, h_v235, h_v229, h_v232]
  all_goals try rw [h_v237]
  all_goals try rw [h_v235]
  all_goals try rw [h_v229]
  all_goals try rw [h_v232]
  all_goals try rfl

set_option maxHeartbeats 1000000000 in
theorem g3p2 (X : Valuation Cert.KernelIdeal.τ Cert.KernelIdeal.sig (Elt F)) (Y : Valuation Cert.ReferenceIdeal.τ Cert.ReferenceIdeal.sig (Elt F))
    (h_v255 : X (Proc.devRef .tc Cert.KernelIdeal.main_v255) = Y (Proc.devRef .tc Cert.ReferenceIdeal.main_v357))
    (h_v256 : X (Proc.devRef .tc Cert.KernelIdeal.main_v256) = Y (Proc.devRef .tc Cert.ReferenceIdeal.main_v358))
    (h_v226 : X (Proc.devRef .tc Cert.KernelIdeal.main_v226) = Y (Proc.devRef .tc Cert.ReferenceIdeal.main_v328)) :
    after gK3p2 X (Proc.devRef .tc Cert.KernelIdeal.main_v258) = after gR3p2 Y (Proc.devRef .tc Cert.ReferenceIdeal.main_v360) := by
  simp only [gK3p2, gK3q1, gK3q2, gK3, Cert.KernelIdeal.Gen.hostOps0_21, Cert.KernelIdeal.Gen.hostOps0_22, Cert.KernelIdeal.Gen.hostOps0_23, Cert.KernelIdeal.Gen.hostOps0_24, Cert.KernelIdeal.Gen.hostOps0_25, Cert.KernelIdeal.Gen.hostOps0_26, Cert.KernelIdeal.Gen.hostOps0_27, Cert.KernelIdeal.Gen.hostOps0_28, gR3p2, gR3q1, gR3q2, gR3, Cert.ReferenceIdeal.Chunks.opsC9, Cert.ReferenceIdeal.Chunks.opsC10, Cert.ReferenceIdeal.Chunks.opsC11, List.cons_append, List.nil_append, List.append_assoc, List.drop_succ_cons, List.drop_zero, List.take_succ_cons, List.take_zero]
  eval_both
  all_goals try simp only [h_v255, h_v256, h_v226]
  all_goals try rw [h_v255]
  all_goals try rw [h_v256]
  all_goals try rw [h_v226]
  all_goals try rfl

set_option maxHeartbeats 1000000000 in
theorem g3p3 (X : Valuation Cert.KernelIdeal.τ Cert.KernelIdeal.sig (Elt F)) (Y : Valuation Cert.ReferenceIdeal.τ Cert.ReferenceIdeal.sig (Elt F))
    (h_v235 : X (Proc.devRef .tc Cert.KernelIdeal.main_v235) = Y (Proc.devRef .tc Cert.ReferenceIdeal.main_v337))
    (h_v238 : X (Proc.devRef .tc Cert.KernelIdeal.main_v238) = Y (Proc.devRef .tc Cert.ReferenceIdeal.main_v340)) :
    after gK3p3 X (Proc.devRef .tc Cert.KernelIdeal.main_v271) = after gR3p3 Y (Proc.devRef .tc Cert.ReferenceIdeal.main_v373)
    ∧ after gK3p3 X (Proc.devRef .tc Cert.KernelIdeal.main_v272) = after gR3p3 Y (Proc.devRef .tc Cert.ReferenceIdeal.main_v374) := by
  refine ⟨?_, ?_⟩
  all_goals simp only [gK3p3, gK3q1, gK3q2, gK3q3, gK3, Cert.KernelIdeal.Gen.hostOps0_21, Cert.KernelIdeal.Gen.hostOps0_22, Cert.KernelIdeal.Gen.hostOps0_23, Cert.KernelIdeal.Gen.hostOps0_24, Cert.KernelIdeal.Gen.hostOps0_25, Cert.KernelIdeal.Gen.hostOps0_26, Cert.KernelIdeal.Gen.hostOps0_27, Cert.KernelIdeal.Gen.hostOps0_28, gR3p3, gR3q1, gR3q2, gR3q3, gR3, Cert.ReferenceIdeal.Chunks.opsC9, Cert.ReferenceIdeal.Chunks.opsC10, Cert.ReferenceIdeal.Chunks.opsC11, List.cons_append, List.nil_append, List.append_assoc, List.drop_succ_cons, List.drop_zero, List.take_succ_cons, List.take_zero]
  all_goals eval_both
  all_goals try simp only [h_v235, h_v238]
  all_goals try rw [h_v235]
  all_goals try rw [h_v238]
  all_goals try rfl

set_option maxHeartbeats 1000000000 in
theorem g3p4 (X : Valuation Cert.KernelIdeal.τ Cert.KernelIdeal.sig (Elt F)) (Y : Valuation Cert.ReferenceIdeal.τ Cert.ReferenceIdeal.sig (Elt F))
    (h_v271 : X (Proc.devRef .tc Cert.KernelIdeal.main_v271) = Y (Proc.devRef .tc Cert.ReferenceIdeal.main_v373))
    (h_v272 : X (Proc.devRef .tc Cert.KernelIdeal.main_v272) = Y (Proc.devRef .tc Cert.ReferenceIdeal.main_v374))
    (h_v226 : X (Proc.devRef .tc Cert.KernelIdeal.main_v226) = Y (Proc.devRef .tc Cert.ReferenceIdeal.main_v328)) :
    after gK3p4 X (Proc.devRef .tc Cert.KernelIdeal.main_v274) = after gR3p4 Y (Proc.devRef .tc Cert.ReferenceIdeal.main_v376) := by
  simp only [gK3p4, gK3q1, gK3q2, gK3q3, gK3q4, gK3, Cert.KernelIdeal.Gen.hostOps0_21, Cert.KernelIdeal.Gen.hostOps0_22, Cert.KernelIdeal.Gen.hostOps0_23, Cert.KernelIdeal.Gen.hostOps0_24, Cert.KernelIdeal.Gen.hostOps0_25, Cert.KernelIdeal.Gen.hostOps0_26, Cert.KernelIdeal.Gen.hostOps0_27, Cert.KernelIdeal.Gen.hostOps0_28, gR3p4, gR3q1, gR3q2, gR3q3, gR3q4, gR3, Cert.ReferenceIdeal.Chunks.opsC9, Cert.ReferenceIdeal.Chunks.opsC10, Cert.ReferenceIdeal.Chunks.opsC11, List.cons_append, List.nil_append, List.append_assoc, List.drop_succ_cons, List.drop_zero, List.take_succ_cons, List.take_zero]
  eval_both
  all_goals try simp only [h_v271, h_v272, h_v226]
  all_goals try rw [h_v271]
  all_goals try rw [h_v272]
  all_goals try rw [h_v226]
  all_goals try rfl

set_option maxHeartbeats 1000000000 in
theorem g3p5 (X : Valuation Cert.KernelIdeal.τ Cert.KernelIdeal.sig (Elt F)) (Y : Valuation Cert.ReferenceIdeal.τ Cert.ReferenceIdeal.sig (Elt F))
    (h_v238 : X (Proc.devRef .tc Cert.KernelIdeal.main_v238) = Y (Proc.devRef .tc Cert.ReferenceIdeal.main_v340))
    (h_v235 : X (Proc.devRef .tc Cert.KernelIdeal.main_v235) = Y (Proc.devRef .tc Cert.ReferenceIdeal.main_v337)) :
    after gK3p5 X (Proc.devRef .tc Cert.KernelIdeal.main_v287) = after gR3p5 Y (Proc.devRef .tc Cert.ReferenceIdeal.main_v389)
    ∧ after gK3p5 X (Proc.devRef .tc Cert.KernelIdeal.main_v288) = after gR3p5 Y (Proc.devRef .tc Cert.ReferenceIdeal.main_v390) := by
  refine ⟨?_, ?_⟩
  all_goals simp only [gK3p5, gK3q1, gK3q2, gK3q3, gK3q4, gK3q5, gK3, Cert.KernelIdeal.Gen.hostOps0_21, Cert.KernelIdeal.Gen.hostOps0_22, Cert.KernelIdeal.Gen.hostOps0_23, Cert.KernelIdeal.Gen.hostOps0_24, Cert.KernelIdeal.Gen.hostOps0_25, Cert.KernelIdeal.Gen.hostOps0_26, Cert.KernelIdeal.Gen.hostOps0_27, Cert.KernelIdeal.Gen.hostOps0_28, gR3p5, gR3q1, gR3q2, gR3q3, gR3q4, gR3q5, gR3, Cert.ReferenceIdeal.Chunks.opsC9, Cert.ReferenceIdeal.Chunks.opsC10, Cert.ReferenceIdeal.Chunks.opsC11, List.cons_append, List.nil_append, List.append_assoc, List.drop_succ_cons, List.drop_zero, List.take_succ_cons, List.take_zero]
  all_goals eval_both
  all_goals try simp only [h_v238, h_v235]
  all_goals try rw [h_v238]
  all_goals try rw [h_v235]
  all_goals try rfl

set_option maxHeartbeats 1000000000 in
theorem g3p6 (X : Valuation Cert.KernelIdeal.τ Cert.KernelIdeal.sig (Elt F)) (Y : Valuation Cert.ReferenceIdeal.τ Cert.ReferenceIdeal.sig (Elt F))
    (h_v287 : X (Proc.devRef .tc Cert.KernelIdeal.main_v287) = Y (Proc.devRef .tc Cert.ReferenceIdeal.main_v389))
    (h_v288 : X (Proc.devRef .tc Cert.KernelIdeal.main_v288) = Y (Proc.devRef .tc Cert.ReferenceIdeal.main_v390))
    (h_v226 : X (Proc.devRef .tc Cert.KernelIdeal.main_v226) = Y (Proc.devRef .tc Cert.ReferenceIdeal.main_v328)) :
    after gK3p6 X (Proc.devRef .tc Cert.KernelIdeal.main_v290) = after gR3p6 Y (Proc.devRef .tc Cert.ReferenceIdeal.main_v392) := by
  simp only [gK3p6, gK3q1, gK3q2, gK3q3, gK3q4, gK3q5, gK3q6, gK3, Cert.KernelIdeal.Gen.hostOps0_21, Cert.KernelIdeal.Gen.hostOps0_22, Cert.KernelIdeal.Gen.hostOps0_23, Cert.KernelIdeal.Gen.hostOps0_24, Cert.KernelIdeal.Gen.hostOps0_25, Cert.KernelIdeal.Gen.hostOps0_26, Cert.KernelIdeal.Gen.hostOps0_27, Cert.KernelIdeal.Gen.hostOps0_28, gR3p6, gR3q1, gR3q2, gR3q3, gR3q4, gR3q5, gR3q6, gR3, Cert.ReferenceIdeal.Chunks.opsC9, Cert.ReferenceIdeal.Chunks.opsC10, Cert.ReferenceIdeal.Chunks.opsC11, List.cons_append, List.nil_append, List.append_assoc, List.drop_succ_cons, List.drop_zero, List.take_succ_cons, List.take_zero]
  eval_both
  all_goals try simp only [h_v287, h_v288, h_v226]
  all_goals try rw [h_v287]
  all_goals try rw [h_v288]
  all_goals try rw [h_v226]
  all_goals try rfl

set_option maxHeartbeats 1000000000 in
theorem g3p7 (X : Valuation Cert.KernelIdeal.τ Cert.KernelIdeal.sig (Elt F)) (Y : Valuation Cert.ReferenceIdeal.τ Cert.ReferenceIdeal.sig (Elt F))
    (h_v238 : X (Proc.devRef .tc Cert.KernelIdeal.main_v238) = Y (Proc.devRef .tc Cert.ReferenceIdeal.main_v340))
    (h_v235 : X (Proc.devRef .tc Cert.KernelIdeal.main_v235) = Y (Proc.devRef .tc Cert.ReferenceIdeal.main_v337)) :
    after gK3p7 X (Proc.devRef .tc Cert.KernelIdeal.main_v305) = after gR3p7 Y (Proc.devRef .tc Cert.ReferenceIdeal.main_v407)
    ∧ after gK3p7 X (Proc.devRef .tc Cert.KernelIdeal.main_v306) = after gR3p7 Y (Proc.devRef .tc Cert.ReferenceIdeal.main_v408) := by
  refine ⟨?_, ?_⟩
  all_goals simp only [gK3p7, gK3q1, gK3q2, gK3q3, gK3q4, gK3q5, gK3q6, gK3q7, gK3, Cert.KernelIdeal.Gen.hostOps0_21, Cert.KernelIdeal.Gen.hostOps0_22, Cert.KernelIdeal.Gen.hostOps0_23, Cert.KernelIdeal.Gen.hostOps0_24, Cert.KernelIdeal.Gen.hostOps0_25, Cert.KernelIdeal.Gen.hostOps0_26, Cert.KernelIdeal.Gen.hostOps0_27, Cert.KernelIdeal.Gen.hostOps0_28, gR3p7, gR3q1, gR3q2, gR3q3, gR3q4, gR3q5, gR3q6, gR3q7, gR3, Cert.ReferenceIdeal.Chunks.opsC9, Cert.ReferenceIdeal.Chunks.opsC10, Cert.ReferenceIdeal.Chunks.opsC11, List.cons_append, List.nil_append, List.append_assoc, List.drop_succ_cons, List.drop_zero, List.take_succ_cons, List.take_zero]
  all_goals eval_both
  all_goals try simp only [h_v238, h_v235]
  all_goals try rw [h_v238]
  all_goals try rw [h_v235]
  all_goals try rfl

set_option maxHeartbeats 1000000000 in
theorem g3p8 (X : Valuation Cert.KernelIdeal.τ Cert.KernelIdeal.sig (Elt F)) (Y : Valuation Cert.ReferenceIdeal.τ Cert.ReferenceIdeal.sig (Elt F))
    (h_v305 : X (Proc.devRef .tc Cert.KernelIdeal.main_v305) = Y (Proc.devRef .tc Cert.ReferenceIdeal.main_v407))
    (h_v306 : X (Proc.devRef .tc Cert.KernelIdeal.main_v306) = Y (Proc.devRef .tc Cert.ReferenceIdeal.main_v408))
    (h_v226 : X (Proc.devRef .tc Cert.KernelIdeal.main_v226) = Y (Proc.devRef .tc Cert.ReferenceIdeal.main_v328)) :
    after gK3p8 X (Proc.devRef .tc Cert.KernelIdeal.main_v308) = after gR3p8 Y (Proc.devRef .tc Cert.ReferenceIdeal.main_v410) := by
  simp only [gK3p8, gK3q1, gK3q2, gK3q3, gK3q4, gK3q5, gK3q6, gK3q7, gK3q8, gK3, Cert.KernelIdeal.Gen.hostOps0_21, Cert.KernelIdeal.Gen.hostOps0_22, Cert.KernelIdeal.Gen.hostOps0_23, Cert.KernelIdeal.Gen.hostOps0_24, Cert.KernelIdeal.Gen.hostOps0_25, Cert.KernelIdeal.Gen.hostOps0_26, Cert.KernelIdeal.Gen.hostOps0_27, Cert.KernelIdeal.Gen.hostOps0_28, gR3p8, gR3q1, gR3q2, gR3q3, gR3q4, gR3q5, gR3q6, gR3q7, gR3q8, gR3, Cert.ReferenceIdeal.Chunks.opsC9, Cert.ReferenceIdeal.Chunks.opsC10, Cert.ReferenceIdeal.Chunks.opsC11, List.cons_append, List.nil_append, List.append_assoc, List.drop_succ_cons, List.drop_zero, List.take_succ_cons, List.take_zero]
  eval_both
  all_goals try simp only [h_v305, h_v306, h_v226]
  all_goals try rw [h_v305]
  all_goals try rw [h_v306]
  all_goals try rw [h_v226]
  all_goals try rfl

set_option maxHeartbeats 1000000000 in
theorem g3p9 (X : Valuation Cert.KernelIdeal.τ Cert.KernelIdeal.sig (Elt F)) (Y : Valuation Cert.ReferenceIdeal.τ Cert.ReferenceIdeal.sig (Elt F))
    (h_v241 : X (Proc.devRef .tc Cert.KernelIdeal.main_v241) = Y (Proc.devRef .tc Cert.ReferenceIdeal.main_v343))
    (h_v258 : X (Proc.devRef .tc Cert.KernelIdeal.main_v258) = Y (Proc.devRef .tc Cert.ReferenceIdeal.main_v360))
    (h_v274 : X (Proc.devRef .tc Cert.KernelIdeal.main_v274) = Y (Proc.devRef .tc Cert.ReferenceIdeal.main_v376))
    (h_v244 : X (Proc.devRef .tc Cert.KernelIdeal.main_v244) = Y (Proc.devRef .tc Cert.ReferenceIdeal.main_v346))
    (h_v290 : X (Proc.devRef .tc Cert.KernelIdeal.main_v290) = Y (Proc.devRef .tc Cert.ReferenceIdeal.main_v392))
    (h_v308 : X (Proc.devRef .tc Cert.KernelIdeal.main_v308) = Y (Proc.devRef .tc Cert.ReferenceIdeal.main_v410)) :
    after gK3p9 X (Proc.devRef .tc Cert.KernelIdeal.main_v329) = after gR3p9 Y (Proc.devRef .tc Cert.ReferenceIdeal.main_v431) := by
  simp only [gK3p9, gK3q1, gK3q2, gK3q3, gK3q4, gK3q5, gK3q6, gK3q7, gK3q8, gK3q9, gK3, Cert.KernelIdeal.Gen.hostOps0_21, Cert.KernelIdeal.Gen.hostOps0_22, Cert.KernelIdeal.Gen.hostOps0_23, Cert.KernelIdeal.Gen.hostOps0_24, Cert.KernelIdeal.Gen.hostOps0_25, Cert.KernelIdeal.Gen.hostOps0_26, Cert.KernelIdeal.Gen.hostOps0_27, Cert.KernelIdeal.Gen.hostOps0_28, gR3p9, gR3q1, gR3q2, gR3q3, gR3q4, gR3q5, gR3q6, gR3q7, gR3q8, gR3q9, gR3, Cert.ReferenceIdeal.Chunks.opsC9, Cert.ReferenceIdeal.Chunks.opsC10, Cert.ReferenceIdeal.Chunks.opsC11, List.cons_append, List.nil_append, List.append_assoc, List.drop_succ_cons, List.drop_zero, List.take_succ_cons, List.take_zero]
  eval_both
  all_goals try simp only [h_v241, h_v258, h_v274, h_v244, h_v290, h_v308]
  all_goals try rw [h_v241]
  all_goals try rw [h_v258]
  all_goals try rw [h_v274]
  all_goals try rw [h_v244]
  all_goals try rw [h_v290]
  all_goals try rw [h_v308]
  all_goals try rfl

set_option maxHeartbeats 1000000000 in
theorem g3p10 (X : Valuation Cert.KernelIdeal.τ Cert.KernelIdeal.sig (Elt F)) (Y : Valuation Cert.ReferenceIdeal.τ Cert.ReferenceIdeal.sig (Elt F))
    (h_arg8 : X (Proc.devRef .tc Cert.KernelIdeal.main_arg8) = Y (Proc.devRef .tc Cert.ReferenceIdeal.main_arg8)) :
    after gK3p10 X (Proc.devRef .tc Cert.KernelIdeal.main_v331) = after gR3p10 Y (Proc.devRef .tc Cert.ReferenceIdeal.main_v434)
    ∧ after gK3p10 X (Proc.devRef .tc Cert.KernelIdeal.main_cst_104) = after gR3p10 Y (Proc.devRef .tc Cert.ReferenceIdeal.main_cst_116)
    ∧ after gK3p10 X (Proc.devRef .tc Cert.KernelIdeal.main_cst_105) = after gR3p10 Y (Proc.devRef .tc Cert.ReferenceIdeal.main_cst_117) := by
  refine ⟨?_, ?_, ?_⟩
  all_goals simp only [gK3p10, gK3q1, gK3q2, gK3q3, gK3q4, gK3q5, gK3q6, gK3q7, gK3q8, gK3q9, gK3q10, gK3, Cert.KernelIdeal.Gen.hostOps0_21, Cert.KernelIdeal.Gen.hostOps0_22, Cert.KernelIdeal.Gen.hostOps0_23, Cert.KernelIdeal.Gen.hostOps0_24, Cert.KernelIdeal.Gen.hostOps0_25, Cert.KernelIdeal.Gen.hostOps0_26, Cert.KernelIdeal.Gen.hostOps0_27, Cert.KernelIdeal.Gen.hostOps0_28, gR3p10, gR3q1, gR3q2, gR3q3, gR3q4, gR3q5, gR3q6, gR3q7, gR3q8, gR3q9, gR3q10, gR3, Cert.ReferenceIdeal.Chunks.opsC9, Cert.ReferenceIdeal.Chunks.opsC10, Cert.ReferenceIdeal.Chunks.opsC11, List.cons_append, List.nil_append, List.append_assoc, List.drop_succ_cons, List.drop_zero, List.take_succ_cons, List.take_zero]
  all_goals eval_both
  all_goals try simp only [h_arg8]
  all_goals try rw [h_arg8]
  all_goals try rfl

set_option maxHeartbeats 400000000 in
theorem g3_all (X : Valuation Cert.KernelIdeal.τ Cert.KernelIdeal.sig (Elt F)) (Y : Valuation Cert.ReferenceIdeal.τ Cert.ReferenceIdeal.sig (Elt F))
    (h_cst_71 : X (Proc.devRef .tc Cert.KernelIdeal.main_cst_71) = Y (Proc.devRef .tc Cert.ReferenceIdeal.main_cst_83))
    (h_v10 : X (Proc.devRef .tc Cert.KernelIdeal.main_v10) = Y (Proc.devRef .tc Cert.ReferenceIdeal.main_v111))
    (h_cst_72 : X (Proc.devRef .tc Cert.KernelIdeal.main_cst_72) = Y (Proc.devRef .tc Cert.ReferenceIdeal.main_cst_84))
    (h_v12 : X (Proc.devRef .tc Cert.KernelIdeal.main_v12) = Y (Proc.devRef .tc Cert.ReferenceIdeal.main_v113))
    (h_v226 : X (Proc.devRef .tc Cert.KernelIdeal.main_v226) = Y (Proc.devRef .tc Cert.ReferenceIdeal.main_v328))
    (h_arg8 : X (Proc.devRef .tc Cert.KernelIdeal.main_arg8) = Y (Proc.devRef .tc Cert.ReferenceIdeal.main_arg8)) :
    after gK3 X (Proc.devRef .tc Cert.KernelIdeal.main_cst_104) = after gR3 Y (Proc.devRef .tc Cert.ReferenceIdeal.main_cst_116)
    ∧ after gK3 X (Proc.devRef .tc Cert.KernelIdeal.main_cst_105) = after gR3 Y (Proc.devRef .tc Cert.ReferenceIdeal.main_cst_117)
    ∧ after gK3 X (Proc.devRef .tc Cert.KernelIdeal.main_v331) = after gR3 Y (Proc.devRef .tc Cert.ReferenceIdeal.main_v434)
    ∧ after gK3 X (Proc.devRef .tc Cert.KernelIdeal.main_v329) = after gR3 Y (Proc.devRef .tc Cert.ReferenceIdeal.main_v431) := by
  rw [gK3_split, gR3_split]
  simp only [StableHlo.after_append]
  have c1 := g3p0 _ _ h_cst_71 h_v10 h_cst_72 h_v12
  have a1_v229 := c1.1
  have a1_v232 := c1.2.1
  have a1_v235 := c1.2.2.1
  have a1_v237 := c1.2.2.2
  have a1_v226 := (keep_of_wr gK3p0_wr (by decide) _).trans (h_v226.trans (keep_of_wr gR3p0_wr (by decide) _).symm)
  have a1_arg8 := (keep_of_wr gK3p0_wr (by decide) _).trans (h_arg8.trans (keep_of_wr gR3p0_wr (by decide) _).symm)
  have c2 := g3p1 _ _ a1_v237 a1_v235 a1_v229 a1_v232
  have a2_v238 := c2.1
  have a2_v241 := c2.2.1
  have a2_v244 := c2.2.2.1
  have a2_v255 := c2.2.2.2.1
  have a2_v256 := c2.2.2.2.2
  have a2_v226 := (keep_of_wr gK3p1_wr (by decide) _).trans (a1_v226.trans (keep_of_wr gR3p1_wr (by decide) _).symm)
  have a2_arg8 := (keep_of_wr gK3p1_wr (by decide) _).trans (a1_arg8.trans (keep_of_wr gR3p1_wr (by decide) _).symm)
  have a2_v235 := (keep_of_wr gK3p1_wr (by decide) _).trans (a1_v235.trans (keep_of_wr gR3p1_wr (by decide) _).symm)
  have a3_v258 := g3p2 _ _ a2_v255 a2_v256 a2_v226
  have a3_v226 := (keep_of_wr gK3p2_wr (by decide) _).trans (a2_v226.trans (keep_of_wr gR3p2_wr (by decide) _).symm)
  have a3_arg8 := (keep_of_wr gK3p2_wr (by decide) _).trans (a2_arg8.trans (keep_of_wr gR3p2_wr (by decide) _).symm)
  have a3_v235 := (keep_of_wr gK3p2_wr (by decide) _).trans (a2_v235.trans (keep_of_wr gR3p2_wr (by decide) _).symm)
  have a3_v238 := (keep_of_wr gK3p2_wr (by decide) _).trans (a2_v238.trans (keep_of_wr gR3p2_wr (by decide) _).symm)
  have a3_v241 := (keep_of_wr gK3p2_wr (by decide) _).trans (a2_v241.trans (keep_of_wr gR3p2_wr (by decide) _).symm)
  have a3_v244 := (keep_of_wr gK3p2_wr (by decide) _).trans (a2_v244.trans (keep_of_wr gR3p2_wr (by decide) _).symm)
  have c4 := g3p3 _ _ a3_v235 a3_v238
  have a4_v271 := c4.1
  have a4_v272 := c4.2
  have a4_v226 := (keep_of_wr gK3p3_wr (by decide) _).trans (a3_v226.trans (keep_of_wr gR3p3_wr (by decide) _).symm)
  have a4_arg8 := (keep_of_wr gK3p3_wr (by decide) _).trans (a3_arg8.trans (keep_of_wr gR3p3_wr (by decide) _).symm)
  have a4_v235 := (keep_of_wr gK3p3_wr (by decide) _).trans (a3_v235.trans (keep_of_wr gR3p3_wr (by decide) _).symm)
  have a4_v238 := (keep_of_wr gK3p3_wr (by decide) _).trans (a3_v238.trans (keep_of_wr gR3p3_wr (by decide) _).symm)
  have a4_v241 := (keep_of_wr gK3p3_wr (by decide) _).trans (a3_v241.trans (keep_of_wr gR3p3_wr (by decide) _).symm)
  have a4_v244 := (keep_of_wr gK3p3_wr (by decide) _).trans (a3_v244.trans (keep_of_wr gR3p3_wr (by decide) _).symm)
  have a4_v258 := (keep_of_wr gK3p3_wr (by decide) _).trans (a3_v258.trans (keep_of_wr gR3p3_wr (by decide) _).symm)
  have a5_v274 := g3p4 _ _ a4_v271 a4_v272 a4_v226
  have a5_v226 := (keep_of_wr gK3p4_wr (by decide) _).trans (a4_v226.trans (keep_of_wr gR3p4_wr (by decide) _).symm)
  have a5_arg8 := (keep_of_wr gK3p4_wr (by decide) _).trans (a4_arg8.trans (keep_of_wr gR3p4_wr (by decide) _).symm)
  have a5_v235 := (keep_of_wr gK3p4_wr (by decide) _).trans (a4_v235.trans (keep_of_wr gR3p4_wr (by decide) _).symm)
  have a5_v238 := (keep_of_wr gK3p4_wr (by decide) _).trans (a4_v238.trans (keep_of_wr gR3p4_wr (by decide) _).symm)
  have a5_v241 := (keep_of_wr gK3p4_wr (by decide) _).trans (a4_v241.trans (keep_of_wr gR3p4_wr (by decide) _).symm)
  have a5_v244 := (keep_of_wr gK3p4_wr (by decide) _).trans (a4_v244.trans (keep_of_wr gR3p4_wr (by decide) _).symm)
  have a5_v258 := (keep_of_wr gK3p4_wr (by decide) _).trans (a4_v258.trans (keep_of_wr gR3p4_wr (by decide) _).symm)
  have c6 := g3p5 _ _ a5_v238 a5_v235
  have a6_v287 := c6.1
  have a6_v288 := c6.2
  have a6_v226 := (keep_of_wr gK3p5_wr (by decide) _).trans (a5_v226.trans (keep_of_wr gR3p5_wr (by decide) _).symm)
  have a6_arg8 := (keep_of_wr gK3p5_wr (by decide) _).trans (a5_arg8.trans (keep_of_wr gR3p5_wr (by decide) _).symm)
  have a6_v235 := (keep_of_wr gK3p5_wr (by decide) _).trans (a5_v235.trans (keep_of_wr gR3p5_wr (by decide) _).symm)
  have a6_v238 := (keep_of_wr gK3p5_wr (by decide) _).trans (a5_v238.trans (keep_of_wr gR3p5_wr (by decide) _).symm)
  have a6_v241 := (keep_of_wr gK3p5_wr (by decide) _).trans (a5_v241.trans (keep_of_wr gR3p5_wr (by decide) _).symm)
  have a6_v244 := (keep_of_wr gK3p5_wr (by decide) _).trans (a5_v244.trans (keep_of_wr gR3p5_wr (by decide) _).symm)
  have a6_v258 := (keep_of_wr gK3p5_wr (by decide) _).trans (a5_v258.trans (keep_of_wr gR3p5_wr (by decide) _).symm)
  have a6_v274 := (keep_of_wr gK3p5_wr (by decide) _).trans (a5_v274.trans (keep_of_wr gR3p5_wr (by decide) _).symm)
  have a7_v290 := g3p6 _ _ a6_v287 a6_v288 a6_v226
  have a7_v226 := (keep_of_wr gK3p6_wr (by decide) _).trans (a6_v226.trans (keep_of_wr gR3p6_wr (by decide) _).symm)
  have a7_arg8 := (keep_of_wr gK3p6_wr (by decide) _).trans (a6_arg8.trans (keep_of_wr gR3p6_wr (by decide) _).symm)
  have a7_v235 := (keep_of_wr gK3p6_wr (by decide) _).trans (a6_v235.trans (keep_of_wr gR3p6_wr (by decide) _).symm)
  have a7_v238 := (keep_of_wr gK3p6_wr (by decide) _).trans (a6_v238.trans (keep_of_wr gR3p6_wr (by decide) _).symm)
  have a7_v241 := (keep_of_wr gK3p6_wr (by decide) _).trans (a6_v241.trans (keep_of_wr gR3p6_wr (by decide) _).symm)
  have a7_v244 := (keep_of_wr gK3p6_wr (by decide) _).trans (a6_v244.trans (keep_of_wr gR3p6_wr (by decide) _).symm)
  have a7_v258 := (keep_of_wr gK3p6_wr (by decide) _).trans (a6_v258.trans (keep_of_wr gR3p6_wr (by decide) _).symm)
  have a7_v274 := (keep_of_wr gK3p6_wr (by decide) _).trans (a6_v274.trans (keep_of_wr gR3p6_wr (by decide) _).symm)
  have c8 := g3p7 _ _ a7_v238 a7_v235
  have a8_v305 := c8.1
  have a8_v306 := c8.2
  have a8_v226 := (keep_of_wr gK3p7_wr (by decide) _).trans (a7_v226.trans (keep_of_wr gR3p7_wr (by decide) _).symm)
  have a8_arg8 := (keep_of_wr gK3p7_wr (by decide) _).trans (a7_arg8.trans (keep_of_wr gR3p7_wr (by decide) _).symm)
  have a8_v241 := (keep_of_wr gK3p7_wr (by decide) _).trans (a7_v241.trans (keep_of_wr gR3p7_wr (by decide) _).symm)
  have a8_v244 := (keep_of_wr gK3p7_wr (by decide) _).trans (a7_v244.trans (keep_of_wr gR3p7_wr (by decide) _).symm)
  have a8_v258 := (keep_of_wr gK3p7_wr (by decide) _).trans (a7_v258.trans (keep_of_wr gR3p7_wr (by decide) _).symm)
  have a8_v274 := (keep_of_wr gK3p7_wr (by decide) _).trans (a7_v274.trans (keep_of_wr gR3p7_wr (by decide) _).symm)
  have a8_v290 := (keep_of_wr gK3p7_wr (by decide) _).trans (a7_v290.trans (keep_of_wr gR3p7_wr (by decide) _).symm)
  have a9_v308 := g3p8 _ _ a8_v305 a8_v306 a8_v226
  have a9_arg8 := (keep_of_wr gK3p8_wr (by decide) _).trans (a8_arg8.trans (keep_of_wr gR3p8_wr (by decide) _).symm)
  have a9_v241 := (keep_of_wr gK3p8_wr (by decide) _).trans (a8_v241.trans (keep_of_wr gR3p8_wr (by decide) _).symm)
  have a9_v244 := (keep_of_wr gK3p8_wr (by decide) _).trans (a8_v244.trans (keep_of_wr gR3p8_wr (by decide) _).symm)
  have a9_v258 := (keep_of_wr gK3p8_wr (by decide) _).trans (a8_v258.trans (keep_of_wr gR3p8_wr (by decide) _).symm)
  have a9_v274 := (keep_of_wr gK3p8_wr (by decide) _).trans (a8_v274.trans (keep_of_wr gR3p8_wr (by decide) _).symm)
  have a9_v290 := (keep_of_wr gK3p8_wr (by decide) _).trans (a8_v290.trans (keep_of_wr gR3p8_wr (by decide) _).symm)
  have a10_v329 := g3p9 _ _ a9_v241 a9_v258 a9_v274 a9_v244 a9_v290 a9_v308
  have a10_arg8 := (keep_of_wr gK3p9_wr (by decide) _).trans (a9_arg8.trans (keep_of_wr gR3p9_wr (by decide) _).symm)
  have c11 := g3p10 _ _ a10_arg8
  have a11_v331 := c11.1
  have a11_cst_104 := c11.2.1
  have a11_cst_105 := c11.2.2
  have a11_v329 := (keep_of_wr gK3p10_wr (by decide) _).trans (a10_v329.trans (keep_of_wr gR3p10_wr (by decide) _).symm)
  exact ⟨a11_cst_104, a11_cst_105, a11_v331, a11_v329⟩

end Cert.Corr

end
-- ==== Proof.CorrG4.lean ====
/-
  One bilinear plane lookup (group 4 of the host operations) computes the same on both sides. Both lines are cut at the same
  places; a piece applies the same operations on both sides, so buffers that agree going in agree coming out, and a buffer
  a piece does not write is carried through it.
-/
import proofs.«414985_j5068061409687_4_alg».proof.Proof.CorrDefs

set_option maxRecDepth 65536

noncomputable section

namespace Cert.Corr

open Idealize.ShloMosaic Idealize.ShloMosaic.TcCoe Idealize.SL.Sem Idealize.ShloMosaic.StableHlo Cert.LibAfter

variable {F : FTy → Type} [FloatOps F]

local macro "eval_both" : tactic =>
  `(tactic| simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne'])

abbrev gK4q1 : List (HloOp Cert.KernelIdeal.τ Cert.KernelIdeal.sig (Elt F)) := List.drop 39 gK4
abbrev gK4q2 : List (HloOp Cert.KernelIdeal.τ Cert.KernelIdeal.sig (Elt F)) := List.drop 23 gK4q1
abbrev gK4q3 : List (HloOp Cert.KernelIdeal.τ Cert.KernelIdeal.sig (Elt F)) := List.drop 2 gK4q2
abbrev gK4q4 : List (HloOp Cert.KernelIdeal.τ Cert.KernelIdeal.sig (Elt F)) := List.drop 19 gK4q3
abbrev gK4q5 : List (HloOp Cert.KernelIdeal.τ Cert.KernelIdeal.sig (Elt F)) := List.drop 2 gK4q4
abbrev gK4q6 : List (HloOp Cert.KernelIdeal.τ Cert.KernelIdeal.sig (Elt F)) := List.drop 19 gK4q5
abbrev gK4q7 : List (HloOp Cert.KernelIdeal.τ Cert.KernelIdeal.sig (Elt F)) := List.drop 2 gK4q6
abbrev gK4q8 : List (HloOp Cert.KernelIdeal.τ Cert.KernelIdeal.sig (Elt F)) := List.drop 22 gK4q7
abbrev gK4q9 : List (HloOp Cert.KernelIdeal.τ Cert.KernelIdeal.sig (Elt F)) := List.drop 2 gK4q8
abbrev gK4q10 : List (HloOp Cert.KernelIdeal.τ Cert.KernelIdeal.sig (Elt F)) := List.drop 24 gK4q9
abbrev gK4p0 : List (HloOp Cert.KernelIdeal.τ Cert.KernelIdeal.sig (Elt F)) := List.take 39 gK4
abbrev gK4p1 : List (HloOp Cert.KernelIdeal.τ Cert.KernelIdeal.sig (Elt F)) := List.take 23 gK4q1
abbrev gK4p2 : List (HloOp Cert.KernelIdeal.τ Cert.KernelIdeal.sig (Elt F)) := List.take 2 gK4q2
abbrev gK4p3 : List (HloOp Cert.KernelIdeal.τ Cert.KernelIdeal.sig (Elt F)) := List.take 19 gK4q3
abbrev gK4p4 : List (HloOp Cert.KernelIdeal.τ Cert.KernelIdeal.sig (Elt F)) := List.take 2 gK4q4
abbrev gK4p5 : List (HloOp Cert.KernelIdeal.τ Cert.KernelIdeal.sig (Elt F)) := List.take 19 gK4q5
abbrev gK4p6 : List (HloOp Cert.KernelIdeal.τ Cert.KernelIdeal.sig (Elt F)) := List.take 2 gK4q6
abbrev gK4p7 : List (HloOp Cert.KernelIdeal.τ Cert.KernelIdeal.sig (Elt F)) := List.take 22 gK4q7
abbrev gK4p8 : List (HloOp Cert.KernelIdeal.τ Cert.KernelIdeal.sig (Elt F)) := List.take 2 gK4q8
abbrev gK4p9 : List (HloOp Cert.KernelIdeal.τ Cert.KernelIdeal.sig (Elt F)) := List.take 24 gK4q9
abbrev gK4p10 : List (HloOp Cert.KernelIdeal.τ Cert.KernelIdeal.sig (Elt F)) := gK4q10
theorem gK4_split : (gK4 (F := F)) = gK4p0 ++ (gK4p1 ++ (gK4p2 ++ (gK4p3 ++ (gK4p4 ++ (gK4p5 ++ (gK4p6 ++ (gK4p7 ++ (gK4p8 ++ (gK4p9 ++ (gK4p10)))))))))) := by
  simp only [gK4p0, gK4p1, gK4p2, gK4p3, gK4p4, gK4p5, gK4p6, gK4p7, gK4p8, gK4p9, gK4p10, gK4q1, gK4q2, gK4q3, gK4q4, gK4q5, gK4q6, gK4q7, gK4q8, gK4q9, gK4q10, List.take_append_drop]
abbrev gR4q1 : List (HloOp Cert.ReferenceIdeal.τ Cert.ReferenceIdeal.sig (Elt F)) := List.drop 39 gR4
abbrev gR4q2 : List (HloOp Cert.ReferenceIdeal.τ Cert.ReferenceIdeal.sig (Elt F)) := List.drop 23 gR4q1
abbrev gR4q3 : List (HloOp Cert.ReferenceIdeal.τ Cert.ReferenceIdeal.sig (Elt F)) := List.drop 2 gR4q2
abbrev gR4q4 : List (HloOp Cert.ReferenceIdeal.τ Cert.ReferenceIdeal.sig (Elt F)) := List.drop 19 gR4q3
abbrev gR4q5 : List (HloOp Cert.ReferenceIdeal.τ Cert.ReferenceIdeal.sig (Elt F)) := List.drop 2 gR4q4
abbrev gR4q6 : List (HloOp Cert.ReferenceIdeal.τ Cert.ReferenceIdeal.sig (Elt F)) := List.drop 19 gR4q5
abbrev gR4q7 : List (HloOp Cert.ReferenceIdeal.τ Cert.ReferenceIdeal.sig (Elt F)) := List.drop 2 gR4q6
abbrev gR4q8 : List (HloOp Cert.ReferenceIdeal.τ Cert.ReferenceIdeal.sig (Elt F)) := List.drop 22 gR4q7
abbrev gR4q9 : List (HloOp Cert.ReferenceIdeal.τ Cert.ReferenceIdeal.sig (Elt F)) := List.drop 2 gR4q8
abbrev gR4q10 : List (HloOp Cert.ReferenceIdeal.τ Cert.ReferenceIdeal.sig (Elt F)) := List.drop 24 gR4q9
abbrev gR4p0 : List (HloOp Cert.ReferenceIdeal.τ Cert.ReferenceIdeal.sig (Elt F)) := List.take 39 gR4
abbrev gR4p1 : List (HloOp Cert.ReferenceIdeal.τ Cert.ReferenceIdeal.sig (Elt F)) := List.take 23 gR4q1
abbrev gR4p2 : List (HloOp Cert.ReferenceIdeal.τ Cert.ReferenceIdeal.sig (Elt F)) := List.take 2 gR4q2
abbrev gR4p3 : List (HloOp Cert.ReferenceIdeal.τ Cert.ReferenceIdeal.sig (Elt F)) := List.take 19 gR4q3
abbrev gR4p4 : List (HloOp Cert.ReferenceIdeal.τ Cert.ReferenceIdeal.sig (Elt F)) := List.take 2 gR4q4
abbrev gR4p5 : List (HloOp Cert.ReferenceIdeal.τ Cert.ReferenceIdeal.sig (Elt F)) := List.take 19 gR4q5
abbrev gR4p6 : List (HloOp Cert.ReferenceIdeal.τ Cert.ReferenceIdeal.sig (Elt F)) := List.take 2 gR4q6
abbrev gR4p7 : List (HloOp Cert.ReferenceIdeal.τ Cert.ReferenceIdeal.sig (Elt F)) := List.take 22 gR4q7
abbrev gR4p8 : List (HloOp Cert.ReferenceIdeal.τ Cert.ReferenceIdeal.sig (Elt F)) := List.take 2 gR4q8
abbrev gR4p9 : List (HloOp Cert.ReferenceIdeal.τ Cert.ReferenceIdeal.sig (Elt F)) := List.take 24 gR4q9
abbrev gR4p10 : List (HloOp Cert.ReferenceIdeal.τ Cert.ReferenceIdeal.sig (Elt F)) := gR4q10
theorem gR4_split : (gR4 (F := F)) = gR4p0 ++ (gR4p1 ++ (gR4p2 ++ (gR4p3 ++ (gR4p4 ++ (gR4p5 ++ (gR4p6 ++ (gR4p7 ++ (gR4p8 ++ (gR4p9 ++ (gR4p10)))))))))) := by
  simp only [gR4p0, gR4p1, gR4p2, gR4p3, gR4p4, gR4p5, gR4p6, gR4p7, gR4p8, gR4p9, gR4p10, gR4q1, gR4q2, gR4q3, gR4q4, gR4q5, gR4q6, gR4q7, gR4q8, gR4q9, gR4q10, List.take_append_drop]

theorem gK4p0_wr : WritesIn (gK4p0 (F := F)) (gK4_W.take 39) := (gK4_we.take 39).writesIn
theorem gK4p1_wr : WritesIn (gK4p1 (F := F)) (gK4_W.drop 39 |>.take 23) := (gK4_we.drop 39 |>.take 23).writesIn
theorem gK4p2_wr : WritesIn (gK4p2 (F := F)) (gK4_W.drop 39 |>.drop 23 |>.take 2) := (gK4_we.drop 39 |>.drop 23 |>.take 2).writesIn
theorem gK4p3_wr : WritesIn (gK4p3 (F := F)) (gK4_W.drop 39 |>.drop 23 |>.drop 2 |>.take 19) := (gK4_we.drop 39 |>.drop 23 |>.drop 2 |>.take 19).writesIn
theorem gK4p4_wr : WritesIn (gK4p4 (F := F)) (gK4_W.drop 39 |>.drop 23 |>.drop 2 |>.drop 19 |>.take 2) := (gK4_we.drop 39 |>.drop 23 |>.drop 2 |>.drop 19 |>.take 2).writesIn
theorem gK4p5_wr : WritesIn (gK4p5 (F := F)) (gK4_W.drop 39 |>.drop 23 |>.drop 2 |>.drop 19 |>.drop 2 |>.take 19) := (gK4_we.drop 39 |>.drop 23 |>.drop 2 |>.drop 19 |>.drop 2 |>.take 19).writesIn
theorem gK4p6_wr : WritesIn (gK4p6 (F := F)) (gK4_W.drop 39 |>.drop 23 |>.drop 2 |>.drop 19 |>.drop 2 |>.drop 19 |>.take 2) := (gK4_we.drop 39 |>.drop 23 |>.drop 2 |>.drop 19 |>.drop 2 |>.drop 19 |>.take 2).writesIn
theorem gK4p7_wr : WritesIn (gK4p7 (F := F)) (gK4_W.drop 39 |>.drop 23 |>.drop 2 |>.drop 19 |>.drop 2 |>.drop 19 |>.drop 2 |>.take 22) := (gK4_we.drop 39 |>.drop 23 |>.drop 2 |>.drop 19 |>.drop 2 |>.drop 19 |>.drop 2 |>.take 22).writesIn
theorem gK4p8_wr : WritesIn (gK4p8 (F := F)) (gK4_W.drop 39 |>.drop 23 |>.drop 2 |>.drop 19 |>.drop 2 |>.drop 19 |>.drop 2 |>.drop 22 |>.take 2) := (gK4_we.drop 39 |>.drop 23 |>.drop 2 |>.drop 19 |>.drop 2 |>.drop 19 |>.drop 2 |>.drop 22 |>.take 2).writesIn
theorem gK4p9_wr : WritesIn (gK4p9 (F := F)) (gK4_W.drop 39 |>.drop 23 |>.drop 2 |>.drop 19 |>.drop 2 |>.drop 19 |>.drop 2 |>.drop 22 |>.drop 2 |>.take 24) := (gK4_we.drop 39 |>.drop 23 |>.drop 2 |>.drop 19 |>.drop 2 |>.drop 19 |>.drop 2 |>.drop 22 |>.drop 2 |>.take 24).writesIn
theorem gK4p10_wr : WritesIn (gK4p10 (F := F)) (gK4_W.drop 39 |>.drop 23 |>.drop 2 |>.drop 19 |>.drop 2 |>.drop 19 |>.drop 2 |>.drop 22 |>.drop 2 |>.drop 24) := (gK4_we.drop 39 |>.drop 23 |>.drop 2 |>.drop 19 |>.drop 2 |>.drop 19 |>.drop 2 |>.drop 22 |>.drop 2 |>.drop 24).writesIn
theorem gR4p0_wr : WritesIn (gR4p0 (F := F)) (gR4_W.take 39) := (gR4_we.take 39).writesIn
theorem gR4p1_wr : WritesIn (gR4p1 (F := F)) (gR4_W.drop 39 |>.take 23) := (gR4_we.drop 39 |>.take 23).writesIn
theorem gR4p2_wr : WritesIn (gR4p2 (F := F)) (gR4_W.drop 39 |>.drop 23 |>.take 2) := (gR4_we.drop 39 |>.drop 23 |>.take 2).writesIn
theorem gR4p3_wr : WritesIn (gR4p3 (F := F)) (gR4_W.drop 39 |>.drop 23 |>.drop 2 |>.take 19) := (gR4_we.drop 39 |>.drop 23 |>.drop 2 |>.take 19).writesIn
theorem gR4p4_wr : WritesIn (gR4p4 (F := F)) (gR4_W.drop 39 |>.drop 23 |>.drop 2 |>.drop 19 |>.take 2) := (gR4_we.drop 39 |>.drop 23 |>.drop 2 |>.drop 19 |>.take 2).writesIn
theorem gR4p5_wr : WritesIn (gR4p5 (F := F)) (gR4_W.drop 39 |>.drop 23 |>.drop 2 |>.drop 19 |>.drop 2 |>.take 19) := (gR4_we.drop 39 |>.drop 23 |>.drop 2 |>.drop 19 |>.drop 2 |>.take 19).writesIn
theorem gR4p6_wr : WritesIn (gR4p6 (F := F)) (gR4_W.drop 39 |>.drop 23 |>.drop 2 |>.drop 19 |>.drop 2 |>.drop 19 |>.take 2) := (gR4_we.drop 39 |>.drop 23 |>.drop 2 |>.drop 19 |>.drop 2 |>.drop 19 |>.take 2).writesIn
theorem gR4p7_wr : WritesIn (gR4p7 (F := F)) (gR4_W.drop 39 |>.drop 23 |>.drop 2 |>.drop 19 |>.drop 2 |>.drop 19 |>.drop 2 |>.take 22) := (gR4_we.drop 39 |>.drop 23 |>.drop 2 |>.drop 19 |>.drop 2 |>.drop 19 |>.drop 2 |>.take 22).writesIn
theorem gR4p8_wr : WritesIn (gR4p8 (F := F)) (gR4_W.drop 39 |>.drop 23 |>.drop 2 |>.drop 19 |>.drop 2 |>.drop 19 |>.drop 2 |>.drop 22 |>.take 2) := (gR4_we.drop 39 |>.drop 23 |>.drop 2 |>.drop 19 |>.drop 2 |>.drop 19 |>.drop 2 |>.drop 22 |>.take 2).writesIn
theorem gR4p9_wr : WritesIn (gR4p9 (F := F)) (gR4_W.drop 39 |>.drop 23 |>.drop 2 |>.drop 19 |>.drop 2 |>.drop 19 |>.drop 2 |>.drop 22 |>.drop 2 |>.take 24) := (gR4_we.drop 39 |>.drop 23 |>.drop 2 |>.drop 19 |>.drop 2 |>.drop 19 |>.drop 2 |>.drop 22 |>.drop 2 |>.take 24).writesIn
theorem gR4p10_wr : WritesIn (gR4p10 (F := F)) (gR4_W.drop 39 |>.drop 23 |>.drop 2 |>.drop 19 |>.drop 2 |>.drop 19 |>.drop 2 |>.drop 22 |>.drop 2 |>.drop 24) := (gR4_we.drop 39 |>.drop 23 |>.drop 2 |>.drop 19 |>.drop 2 |>.drop 19 |>.drop 2 |>.drop 22 |>.drop 2 |>.drop 24).writesIn

set_option maxHeartbeats 1000000000 in
theorem g4p0 (X : Valuation Cert.KernelIdeal.τ Cert.KernelIdeal.sig (Elt F)) (Y : Valuation Cert.ReferenceIdeal.τ Cert.ReferenceIdeal.sig (Elt F))
    (h_cst_104 : X (Proc.devRef .tc Cert.KernelIdeal.main_cst_104) = Y (Proc.devRef .tc Cert.ReferenceIdeal.main_cst_116))
    (h_v8 : X (Proc.devRef .tc Cert.KernelIdeal.main_v8) = Y (Proc.devRef .tc Cert.ReferenceIdeal.main_v109))
    (h_cst_105 : X (Proc.devRef .tc Cert.KernelIdeal.main_cst_105) = Y (Proc.devRef .tc Cert.ReferenceIdeal.main_cst_117))
    (h_v14 : X (Proc.devRef .tc Cert.KernelIdeal.main_v14) = Y (Proc.devRef .tc Cert.ReferenceIdeal.main_v115)) :
    after gK4p0 X (Proc.devRef .tc Cert.KernelIdeal.main_v334) = after gR4p0 Y (Proc.devRef .tc Cert.ReferenceIdeal.main_v437)
    ∧ after gK4p0 X (Proc.devRef .tc Cert.KernelIdeal.main_v337) = after gR4p0 Y (Proc.devRef .tc Cert.ReferenceIdeal.main_v440)
    ∧ after gK4p0 X (Proc.devRef .tc Cert.KernelIdeal.main_v340) = after gR4p0 Y (Proc.devRef .tc Cert.ReferenceIdeal.main_v443)
    ∧ after gK4p0 X (Proc.devRef .tc Cert.KernelIdeal.main_v342) = after gR4p0 Y (Proc.devRef .tc Cert.ReferenceIdeal.main_v445) := by
  refine ⟨?_, ?_, ?_, ?_⟩
  all_goals simp only [gK4p0, gK4, Cert.KernelIdeal.Gen.hostOps0_29, Cert.KernelIdeal.Gen.hostOps0_30, Cert.KernelIdeal.Gen.hostOps0_31, Cert.KernelIdeal.Gen.hostOps0_32, Cert.KernelIdeal.Gen.hostOps0_33, Cert.KernelIdeal.Gen.hostOps0_34, Cert.KernelIdeal.Gen.hostOps0_35, Cert.KernelIdeal.Gen.hostOps0_36, gR4p0, gR4, Cert.ReferenceIdeal.Chunks.opsC12, Cert.ReferenceIdeal.Chunks.opsC13, Cert.ReferenceIdeal.Chunks.opsC14, List.cons_append, List.nil_append, List.append_assoc, List.drop_succ_cons, List.drop_zero, List.take_succ_cons, List.take_zero]
  all_goals eval_both
  all_goals try simp only [h_cst_104, h_v8, h_cst_105, h_v14]
  all_goals try rw [h_cst_104]
  all_goals try rw [h_v8]
  all_goals try rw [h_cst_105]
  all_goals try rw [h_v14]
  all_goals try rfl

set_option maxHeartbeats 1000000000 in
theorem g4p1 (X : Valuation Cert.KernelIdeal.τ Cert.KernelIdeal.sig (Elt F)) (Y : Valuation Cert.ReferenceIdeal.τ Cert.ReferenceIdeal.sig (Elt F))
    (h_v342 : X (Proc.devRef .tc Cert.KernelIdeal.main_v342) = Y (Proc.devRef .tc Cert.ReferenceIdeal.main_v445))
    (h_v340 : X (Proc.devRef .tc Cert.KernelIdeal.main_v340) = Y (Proc.devRef .tc Cert.ReferenceIdeal.main_v443))
    (h_v334 : X (Proc.devRef .tc Cert.KernelIdeal.main_v334) = Y (Proc.devRef .tc Cert.ReferenceIdeal.main_v437))
    (h_v337 : X (Proc.devRef .tc Cert.KernelIdeal.main_v337) = Y (Proc.devRef .tc Cert.ReferenceIdeal.main_v440)) :
    after gK4p1 X (Proc.devRef .tc Cert.KernelIdeal.main_v343) = after gR4p1 Y (Proc.devRef .tc Cert.ReferenceIdeal.main_v446)
    ∧ after gK4p1 X (Proc.devRef .tc Cert.KernelIdeal.main_v346) = after gR4p1 Y (Proc.devRef .tc Cert.ReferenceIdeal.main_v449)
    ∧ after gK4p1 X (Proc.devRef .tc Cert.KernelIdeal.main_v349) = after gR4p1 Y (Proc.devRef .tc Cert.ReferenceIdeal.main_v452)
    ∧ after gK4p1 X (Proc.devRef .tc Cert.KernelIdeal.main_v360) = after gR4p1 Y (Proc.devRef .tc Cert.ReferenceIdeal.main_v463)
    ∧ after gK4p1 X (Proc.devRef .tc Cert.KernelIdeal.main_v361) = after gR4p1 Y (Proc.devRef .tc Cert.ReferenceIdeal.main_v464) := by
  refine ⟨?_, ?_, ?_, ?_, ?_⟩
  all_goals simp only [gK4p1, gK4q1, gK4, Cert.KernelIdeal.Gen.hostOps0_29, Cert.KernelIdeal.Gen.hostOps0_30, Cert.KernelIdeal.Gen.hostOps0_31, Cert.KernelIdeal.Gen.hostOps0_32, Cert.KernelIdeal.Gen.hostOps0_33, Cert.KernelIdeal.Gen.hostOps0_34, Cert.KernelIdeal.Gen.hostOps0_35, Cert.KernelIdeal.Gen.hostOps0_36, gR4p1, gR4q1, gR4, Cert.ReferenceIdeal.Chunks.opsC12, Cert.ReferenceIdeal.Chunks.opsC13, Cert.ReferenceIdeal.Chunks.opsC14, List.cons_append, List.nil_append, List.append_assoc, List.drop_succ_cons, List.drop_zero, List.take_succ_cons, List.take_zero]
  all_goals eval_both
  all_goals try simp only [h_v342, h_v340, h_v334, h_v337]
  all_goals try rw [h_v342]
  all_goals try rw [h_v340]
  all_goals try rw [h_v334]
  all_goals try rw [h_v337]
  all_goals try rfl

set_option maxHeartbeats 1000000000 in
theorem g4p2 (X : Valuation Cert.KernelIdeal.τ Cert.KernelIdeal.sig (Elt F)) (Y : Valuation Cert.ReferenceIdeal.τ Cert.ReferenceIdeal.sig (Elt F))
    (h_v360 : X (Proc.devRef .tc Cert.KernelIdeal.main_v360) = Y (Proc.devRef .tc Cert.ReferenceIdeal.main_v463))
    (h_v361 : X (Proc.devRef .tc Cert.KernelIdeal.main_v361) = Y (Proc.devRef .tc Cert.ReferenceIdeal.main_v464))
    (h_v331 : X (Proc.devRef .tc Cert.KernelIdeal.main_v331) = Y (Proc.devRef .tc Cert.ReferenceIdeal.main_v434)) :
    after gK4p2 X (Proc.devRef .tc Cert.KernelIdeal.main_v363) = after gR4p2 Y (Proc.devRef .tc Cert.ReferenceIdeal.main_v466) := by
  simp only [gK4p2, gK4q1, gK4q2, gK4, Cert.KernelIdeal.Gen.hostOps0_29, Cert.KernelIdeal.Gen.hostOps0_30, Cert.KernelIdeal.Gen.hostOps0_31, Cert.KernelIdeal.Gen.hostOps0_32, Cert.KernelIdeal.Gen.hostOps0_33, Cert.KernelIdeal.Gen.hostOps0_34, Cert.KernelIdeal.Gen.hostOps0_35, Cert.KernelIdeal.Gen.hostOps0_36, gR4p2, gR4q1, gR4q2, gR4, Cert.ReferenceIdeal.Chunks.opsC12, Cert.ReferenceIdeal.Chunks.opsC13, Cert.ReferenceIdeal.Chunks.opsC14, List.cons_append, List.nil_append, List.append_assoc, List.drop_succ_cons, List.drop_zero, List.take_succ_cons, List.take_zero]
  eval_both
  all_goals try simp only [h_v360, h_v361, h_v331]
  all_goals try rw [h_v360]
  all_goals try rw [h_v361]
  all_goals try rw [h_v331]
  all_goals try rfl

set_option maxHeartbeats 1000000000 in
theorem g4p3 (X : Valuation Cert.KernelIdeal.τ Cert.KernelIdeal.sig (Elt F)) (Y : Valuation Cert.ReferenceIdeal.τ Cert.ReferenceIdeal.sig (Elt F))
    (h_v340 : X (Proc.devRef .tc Cert.KernelIdeal.main_v340) = Y (Proc.devRef .tc Cert.ReferenceIdeal.main_v443))
    (h_v343 : X (Proc.devRef .tc Cert.KernelIdeal.main_v343) = Y (Proc.devRef .tc Cert.ReferenceIdeal.main_v446)) :
    after gK4p3 X (Proc.devRef .tc Cert.KernelIdeal.main_v376) = after gR4p3 Y (Proc.devRef .tc Cert.ReferenceIdeal.main_v479)
    ∧ after gK4p3 X (Proc.devRef .tc Cert.KernelIdeal.main_v377) = after gR4p3 Y (Proc.devRef .tc Cert.ReferenceIdeal.main_v480) := by
  refine ⟨?_, ?_⟩
  all_goals simp only [gK4p3, gK4q1, gK4q2, gK4q3, gK4, Cert.KernelIdeal.Gen.hostOps0_29, Cert.KernelIdeal.Gen.hostOps0_30, Cert.KernelIdeal.Gen.hostOps0_31, Cert.KernelIdeal.Gen.hostOps0_32, Cert.KernelIdeal.Gen.hostOps0_33, Cert.KernelIdeal.Gen.hostOps0_34, Cert.KernelIdeal.Gen.hostOps0_35, Cert.KernelIdeal.Gen.hostOps0_36, gR4p3, gR4q1, gR4q2, gR4q3, gR4, Cert.ReferenceIdeal.Chunks.opsC12, Cert.ReferenceIdeal.Chunks.opsC13, Cert.ReferenceIdeal.Chunks.opsC14, List.cons_append, List.nil_append, List.append_assoc, List.drop_succ_cons, List.drop_zero, List.take_succ_cons, List.take_zero]
  all_goals eval_both
  all_goals try simp only [h_v340, h_v343]
  all_goals try rw [h_v340]
  all_goals try rw [h_v343]
  all_goals try rfl

set_option maxHeartbeats 1000000000 in
theorem g4p4 (X : Valuation Cert.KernelIdeal.τ Cert.KernelIdeal.sig (Elt F)) (Y : Valuation Cert.ReferenceIdeal.τ Cert.ReferenceIdeal.sig (Elt F))
    (h_v376 : X (Proc.devRef .tc Cert.KernelIdeal.main_v376) = Y (Proc.devRef .tc Cert.ReferenceIdeal.main_v479))
    (h_v377 : X (Proc.devRef .tc Cert.KernelIdeal.main_v377) = Y (Proc.devRef .tc Cert.ReferenceIdeal.main_v480))
    (h_v331 : X (Proc.devRef .tc Cert.KernelIdeal.main_v331) = Y (Proc.devRef .tc Cert.ReferenceIdeal.main_v434)) :
    after gK4p4 X (Proc.devRef .tc Cert.KernelIdeal.main_v379) = after gR4p4 Y (Proc.devRef .tc Cert.ReferenceIdeal.main_v482) := by
  simp only [gK4p4, gK4q1, gK4q2, gK4q3, gK4q4, gK4, Cert.KernelIdeal.Gen.hostOps0_29, Cert.KernelIdeal.Gen.hostOps0_30, Cert.KernelIdeal.Gen.hostOps0_31, Cert.KernelIdeal.Gen.hostOps0_32, Cert.KernelIdeal.Gen.hostOps0_33, Cert.KernelIdeal.Gen.hostOps0_34, Cert.KernelIdeal.Gen.hostOps0_35, Cert.KernelIdeal.Gen.hostOps0_36, gR4p4, gR4q1, gR4q2, gR4q3, gR4q4, gR4, Cert.ReferenceIdeal.Chunks.opsC12, Cert.ReferenceIdeal.Chunks.opsC13, Cert.ReferenceIdeal.Chunks.opsC14, List.cons_append, List.nil_append, List.append_assoc, List.drop_succ_cons, List.drop_zero, List.take_succ_cons, List.take_zero]
  eval_both
  all_goals try simp only [h_v376, h_v377, h_v331]
  all_goals try rw [h_v376]
  all_goals try rw [h_v377]
  all_goals try rw [h_v331]
  all_goals try rfl

set_option maxHeartbeats 1000000000 in
theorem g4p5 (X : Valuation Cert.KernelIdeal.τ Cert.KernelIdeal.sig (Elt F)) (Y : Valuation Cert.ReferenceIdeal.τ Cert.ReferenceIdeal.sig (Elt F))
    (h_v343 : X (Proc.devRef .tc Cert.KernelIdeal.main_v343) = Y (Proc.devRef .tc Cert.ReferenceIdeal.main_v446))
    (h_v340 : X (Proc.devRef .tc Cert.KernelIdeal.main_v340) = Y (Proc.devRef .tc Cert.ReferenceIdeal.main_v443)) :
    after gK4p5 X (Proc.devRef .tc Cert.KernelIdeal.main_v392) = after gR4p5 Y (Proc.devRef .tc Cert.ReferenceIdeal.main_v495)
    ∧ after gK4p5 X (Proc.devRef .tc Cert.KernelIdeal.main_v393) = after gR4p5 Y (Proc.devRef .tc Cert.ReferenceIdeal.main_v496) := by
  refine ⟨?_, ?_⟩
  all_goals simp only [gK4p5, gK4q1, gK4q2, gK4q3, gK4q4, gK4q5, gK4, Cert.KernelIdeal.Gen.hostOps0_29, Cert.KernelIdeal.Gen.hostOps0_30, Cert.KernelIdeal.Gen.hostOps0_31, Cert.KernelIdeal.Gen.hostOps0_32, Cert.KernelIdeal.Gen.hostOps0_33, Cert.KernelIdeal.Gen.hostOps0_34, Cert.KernelIdeal.Gen.hostOps0_35, Cert.KernelIdeal.Gen.hostOps0_36, gR4p5, gR4q1, gR4q2, gR4q3, gR4q4, gR4q5, gR4, Cert.ReferenceIdeal.Chunks.opsC12, Cert.ReferenceIdeal.Chunks.opsC13, Cert.ReferenceIdeal.Chunks.opsC14, List.cons_append, List.nil_append, List.append_assoc, List.drop_succ_cons, List.drop_zero, List.take_succ_cons, List.take_zero]
  all_goals eval_both
  all_goals try simp only [h_v343, h_v340]
  all_goals try rw [h_v343]
  all_goals try rw [h_v340]
  all_goals try rfl

set_option maxHeartbeats 1000000000 in
theorem g4p6 (X : Valuation Cert.KernelIdeal.τ Cert.KernelIdeal.sig (Elt F)) (Y : Valuation Cert.ReferenceIdeal.τ Cert.ReferenceIdeal.sig (Elt F))
    (h_v392 : X (Proc.devRef .tc Cert.KernelIdeal.main_v392) = Y (Proc.devRef .tc Cert.ReferenceIdeal.main_v495))
    (h_v393 : X (Proc.devRef .tc Cert.KernelIdeal.main_v393) = Y (Proc.devRef .tc Cert.ReferenceIdeal.main_v496))
    (h_v331 : X (Proc.devRef .tc Cert.KernelIdeal.main_v331) = Y (Proc.devRef .tc Cert.ReferenceIdeal.main_v434)) :
    after gK4p6 X (Proc.devRef .tc Cert.KernelIdeal.main_v395) = after gR4p6 Y (Proc.devRef .tc Cert.ReferenceIdeal.main_v498) := by
  simp only [gK4p6, gK4q1, gK4q2, gK4q3, gK4q4, gK4q5, gK4q6, gK4, Cert.KernelIdeal.Gen.hostOps0_29, Cert.KernelIdeal.Gen.hostOps0_30, Cert.KernelIdeal.Gen.hostOps0_31, Cert.KernelIdeal.Gen.hostOps0_32, Cert.KernelIdeal.Gen.hostOps0_33, Cert.KernelIdeal.Gen.hostOps0_34, Cert.KernelIdeal.Gen.hostOps0_35, Cert.KernelIdeal.Gen.hostOps0_36, gR4p6, gR4q1, gR4q2, gR4q3, gR4q4, gR4q5, gR4q6, gR4, Cert.ReferenceIdeal.Chunks.opsC12, Cert.ReferenceIdeal.Chunks.opsC13, Cert.ReferenceIdeal.Chunks.opsC14, List.cons_append, List.nil_append, List.append_assoc, List.drop_succ_cons, List.drop_zero, List.take_succ_cons, List.take_zero]
  eval_both
  all_goals try simp only [h_v392, h_v393, h_v331]
  all_goals try rw [h_v392]
  all_goals try rw [h_v393]
  all_goals try rw [h_v331]
  all_goals try rfl

set_option maxHeartbeats 1000000000 in
theorem g4p7 (X : Valuation Cert.KernelIdeal.τ Cert.KernelIdeal.sig (Elt F)) (Y : Valuation Cert.ReferenceIdeal.τ Cert.ReferenceIdeal.sig (Elt F))
    (h_v343 : X (Proc.devRef .tc Cert.KernelIdeal.main_v343) = Y (Proc.devRef .tc Cert.ReferenceIdeal.main_v446))
    (h_v340 : X (Proc.devRef .tc Cert.KernelIdeal.main_v340) = Y (Proc.devRef .tc Cert.ReferenceIdeal.main_v443)) :
    after gK4p7 X (Proc.devRef .tc Cert.KernelIdeal.main_v410) = after gR4p7 Y (Proc.devRef .tc Cert.ReferenceIdeal.main_v513)
    ∧ after gK4p7 X (Proc.devRef .tc Cert.KernelIdeal.main_v411) = after gR4p7 Y (Proc.devRef .tc Cert.ReferenceIdeal.main_v514) := by
  refine ⟨?_, ?_⟩
  all_goals simp only [gK4p7, gK4q1, gK4q2, gK4q3, gK4q4, gK4q5, gK4q6, gK4q7, gK4, Cert.KernelIdeal.Gen.hostOps0_29, Cert.KernelIdeal.Gen.hostOps0_30, Cert.KernelIdeal.Gen.hostOps0_31, Cert.KernelIdeal.Gen.hostOps0_32, Cert.KernelIdeal.Gen.hostOps0_33, Cert.KernelIdeal.Gen.hostOps0_34, Cert.KernelIdeal.Gen.hostOps0_35, Cert.KernelIdeal.Gen.hostOps0_36, gR4p7, gR4q1, gR4q2, gR4q3, gR4q4, gR4q5, gR4q6, gR4q7, gR4, Cert.ReferenceIdeal.Chunks.opsC12, Cert.ReferenceIdeal.Chunks.opsC13, Cert.ReferenceIdeal.Chunks.opsC14, List.cons_append, List.nil_append, List.append_assoc, List.drop_succ_cons, List.drop_zero, List.take_succ_cons, List.take_zero]
  all_goals eval_both
  all_goals try simp only [h_v343, h_v340]
  all_goals try rw [h_v343]
  all_goals try rw [h_v340]
  all_goals try rfl

set_option maxHeartbeats 1000000000 in
theorem g4p8 (X : Valuation Cert.KernelIdeal.τ Cert.KernelIdeal.sig (Elt F)) (Y : Valuation Cert.ReferenceIdeal.τ Cert.ReferenceIdeal.sig (Elt F))
    (h_v410 : X (Proc.devRef .tc Cert.KernelIdeal.main_v410) = Y (Proc.devRef .tc Cert.ReferenceIdeal.main_v513))
    (h_v411 : X (Proc.devRef .tc Cert.KernelIdeal.main_v411) = Y (Proc.devRef .tc Cert.ReferenceIdeal.main_v514))
    (h_v331 : X (Proc.devRef .tc Cert.KernelIdeal.main_v331) = Y (Proc.devRef .tc Cert.ReferenceIdeal.main_v434)) :
    after gK4p8 X (Proc.devRef .tc Cert.KernelIdeal.main_v413) = after gR4p8 Y (Proc.devRef .tc Cert.ReferenceIdeal.main_v516) := by
  simp only [gK4p8, gK4q1, gK4q2, gK4q3, gK4q4, gK4q5, gK4q6, gK4q7, gK4q8, gK4, Cert.KernelIdeal.Gen.hostOps0_29, Cert.KernelIdeal.Gen.hostOps0_30, Cert.KernelIdeal.Gen.hostOps0_31, Cert.KernelIdeal.Gen.hostOps0_32, Cert.KernelIdeal.Gen.hostOps0_33, Cert.KernelIdeal.Gen.hostOps0_34, Cert.KernelIdeal.Gen.hostOps0_35, Cert.KernelIdeal.Gen.hostOps0_36, gR4p8, gR4q1, gR4q2, gR4q3, gR4q4, gR4q5, gR4q6, gR4q7, gR4q8, gR4, Cert.ReferenceIdeal.Chunks.opsC12, Cert.ReferenceIdeal.Chunks.opsC13, Cert.ReferenceIdeal.Chunks.opsC14, List.cons_append, List.nil_append, List.append_assoc, List.drop_succ_cons, List.drop_zero, List.take_succ_cons, List.take_zero]
  eval_both
  all_goals try simp only [h_v410, h_v411, h_v331]
  all_goals try rw [h_v410]
  all_goals try rw [h_v411]
  all_goals try rw [h_v331]
  all_goals try rfl

set_option maxHeartbeats 1000000000 in
theorem g4p9 (X : Valuation Cert.KernelIdeal.τ Cert.KernelIdeal.sig (Elt F)) (Y : Valuation Cert.ReferenceIdeal.τ Cert.ReferenceIdeal.sig (Elt F))
    (h_v346 : X (Proc.devRef .tc Cert.KernelIdeal.main_v346) = Y (Proc.devRef .tc Cert.ReferenceIdeal.main_v449))
    (h_v363 : X (Proc.devRef .tc Cert.KernelIdeal.main_v363) = Y (Proc.devRef .tc Cert.ReferenceIdeal.main_v466))
    (h_v379 : X (Proc.devRef .tc Cert.KernelIdeal.main_v379) = Y (Proc.devRef .tc Cert.ReferenceIdeal.main_v482))
    (h_v349 : X (Proc.devRef .tc Cert.KernelIdeal.main_v349) = Y (Proc.devRef .tc Cert.ReferenceIdeal.main_v452))
    (h_v395 : X (Proc.devRef .tc Cert.KernelIdeal.main_v395) = Y (Proc.devRef .tc Cert.ReferenceIdeal.main_v498))
    (h_v413 : X (Proc.devRef .tc Cert.KernelIdeal.main_v413) = Y (Proc.devRef .tc Cert.ReferenceIdeal.main_v516)) :
    after gK4p9 X (Proc.devRef .tc Cert.KernelIdeal.main_v434) = after gR4p9 Y (Proc.devRef .tc Cert.ReferenceIdeal.main_v537) := by
  simp only [gK4p9, gK4q1, gK4q2, gK4q3, gK4q4, gK4q5, gK4q6, gK4q7, gK4q8, gK4q9, gK4, Cert.KernelIdeal.Gen.hostOps0_29, Cert.KernelIdeal.Gen.hostOps0_30, Cert.KernelIdeal.Gen.hostOps0_31, Cert.KernelIdeal.Gen.hostOps0_32, Cert.KernelIdeal.Gen.hostOps0_33, Cert.KernelIdeal.Gen.hostOps0_34, Cert.KernelIdeal.Gen.hostOps0_35, Cert.KernelIdeal.Gen.hostOps0_36, gR4p9, gR4q1, gR4q2, gR4q3, gR4q4, gR4q5, gR4q6, gR4q7, gR4q8, gR4q9, gR4, Cert.ReferenceIdeal.Chunks.opsC12, Cert.ReferenceIdeal.Chunks.opsC13, Cert.ReferenceIdeal.Chunks.opsC14, List.cons_append, List.nil_append, List.append_assoc, List.drop_succ_cons, List.drop_zero, List.take_succ_cons, List.take_zero]
  eval_both
  all_goals try simp only [h_v346, h_v363, h_v379, h_v349, h_v395, h_v413]
  all_goals try rw [h_v346]
  all_goals try rw [h_v363]
  all_goals try rw [h_v379]
  all_goals try rw [h_v349]
  all_goals try rw [h_v395]
  all_goals try rw [h_v413]
  all_goals try rfl

set_option maxHeartbeats 1000000000 in
theorem g4p10 (X : Valuation Cert.KernelIdeal.τ Cert.KernelIdeal.sig (Elt F)) (Y : Valuation Cert.ReferenceIdeal.τ Cert.ReferenceIdeal.sig (Elt F))
    (h_arg8 : X (Proc.devRef .tc Cert.KernelIdeal.main_arg8) = Y (Proc.devRef .tc Cert.ReferenceIdeal.main_arg8)) :
    after gK4p10 X (Proc.devRef .tc Cert.KernelIdeal.main_v436) = after gR4p10 Y (Proc.devRef .tc Cert.ReferenceIdeal.main_v539)
    ∧ after gK4p10 X (Proc.devRef .tc Cert.KernelIdeal.main_cst_137) = after gR4p10 Y (Proc.devRef .tc Cert.ReferenceIdeal.main_cst_149)
    ∧ after gK4p10 X (Proc.devRef .tc Cert.KernelIdeal.main_cst_138) = after gR4p10 Y (Proc.devRef .tc Cert.ReferenceIdeal.main_cst_150) := by
  refine ⟨?_, ?_, ?_⟩
  all_goals simp only [gK4p10, gK4q1, gK4q2, gK4q3, gK4q4, gK4q5, gK4q6, gK4q7, gK4q8, gK4q9, gK4q10, gK4, Cert.KernelIdeal.Gen.hostOps0_29, Cert.KernelIdeal.Gen.hostOps0_30, Cert.KernelIdeal.Gen.hostOps0_31, Cert.KernelIdeal.Gen.hostOps0_32, Cert.KernelIdeal.Gen.hostOps0_33, Cert.KernelIdeal.Gen.hostOps0_34, Cert.KernelIdeal.Gen.hostOps0_35, Cert.KernelIdeal.Gen.hostOps0_36, gR4p10, gR4q1, gR4q2, gR4q3, gR4q4, gR4q5, gR4q6, gR4q7, gR4q8, gR4q9, gR4q10, gR4, Cert.ReferenceIdeal.Chunks.opsC12, Cert.ReferenceIdeal.Chunks.opsC13, Cert.ReferenceIdeal.Chunks.opsC14, List.cons_append, List.nil_append, List.append_assoc, List.drop_succ_cons, List.drop_zero, List.take_succ_cons, List.take_zero]
  all_goals eval_both
  all_goals try simp only [h_arg8]
  all_goals try rw [h_arg8]
  all_goals try rfl

set_option maxHeartbeats 400000000 in
theorem g4_all (X : Valuation Cert.KernelIdeal.τ Cert.KernelIdeal.sig (Elt F)) (Y : Valuation Cert.ReferenceIdeal.τ Cert.ReferenceIdeal.sig (Elt F))
    (h_cst_104 : X (Proc.devRef .tc Cert.KernelIdeal.main_cst_104) = Y (Proc.devRef .tc Cert.ReferenceIdeal.main_cst_116))
    (h_v8 : X (Proc.devRef .tc Cert.KernelIdeal.main_v8) = Y (Proc.devRef .tc Cert.ReferenceIdeal.main_v109))
    (h_cst_105 : X (Proc.devRef .tc Cert.KernelIdeal.main_cst_105) = Y (Proc.devRef .tc Cert.ReferenceIdeal.main_cst_117))
    (h_v14 : X (Proc.devRef .tc Cert.KernelIdeal.main_v14) = Y (Proc.devRef .tc Cert.ReferenceIdeal.main_v115))
    (h_v331 : X (Proc.devRef .tc Cert.KernelIdeal.main_v331) = Y (Proc.devRef .tc Cert.ReferenceIdeal.main_v434))
    (h_arg8 : X (Proc.devRef .tc Cert.KernelIdeal.main_arg8) = Y (Proc.devRef .tc Cert.ReferenceIdeal.main_arg8)) :
    after gK4 X (Proc.devRef .tc Cert.KernelIdeal.main_cst_137) = after gR4 Y (Proc.devRef .tc Cert.ReferenceIdeal.main_cst_149)
    ∧ after gK4 X (Proc.devRef .tc Cert.KernelIdeal.main_cst_138) = after gR4 Y (Proc.devRef .tc Cert.ReferenceIdeal.main_cst_150)
    ∧ after gK4 X (Proc.devRef .tc Cert.KernelIdeal.main_v436) = after gR4 Y (Proc.devRef .tc Cert.ReferenceIdeal.main_v539)
    ∧ after gK4 X (Proc.devRef .tc Cert.KernelIdeal.main_v434) = after gR4 Y (Proc.devRef .tc Cert.ReferenceIdeal.main_v537) := by
  rw [gK4_split, gR4_split]
  simp only [StableHlo.after_append]
  have c1 := g4p0 _ _ h_cst_104 h_v8 h_cst_105 h_v14
  have a1_v334 := c1.1
  have a1_v337 := c1.2.1
  have a1_v340 := c1.2.2.1
  have a1_v342 := c1.2.2.2
  have a1_v331 := (keep_of_wr gK4p0_wr (by decide) _).trans (h_v331.trans (keep_of_wr gR4p0_wr (by decide) _).symm)
  have a1_arg8 := (keep_of_wr gK4p0_wr (by decide) _).trans (h_arg8.trans (keep_of_wr gR4p0_wr (by decide) _).symm)
  have c2 := g4p1 _ _ a1_v342 a1_v340 a1_v334 a1_v337
  have a2_v343 := c2.1
  have a2_v346 := c2.2.1
  have a2_v349 := c2.2.2.1
  have a2_v360 := c2.2.2.2.1
  have a2_v361 := c2.2.2.2.2
  have a2_v331 := (keep_of_wr gK4p1_wr (by decide) _).trans (a1_v331.trans (keep_of_wr gR4p1_wr (by decide) _).symm)
  have a2_arg8 := (keep_of_wr gK4p1_wr (by decide) _).trans (a1_arg8.trans (keep_of_wr gR4p1_wr (by decide) _).symm)
  have a2_v340 := (keep_of_wr gK4p1_wr (by decide) _).trans (a1_v340.trans (keep_of_wr gR4p1_wr (by decide) _).symm)
  have a3_v363 := g4p2 _ _ a2_v360 a2_v361 a2_v331
  have a3_v331 := (keep_of_wr gK4p2_wr (by decide) _).trans (a2_v331.trans (keep_of_wr gR4p2_wr (by decide) _).symm)
  have a3_arg8 := (keep_of_wr gK4p2_wr (by decide) _).trans (a2_arg8.trans (keep_of_wr gR4p2_wr (by decide) _).symm)
  have a3_v340 := (keep_of_wr gK4p2_wr (by decide) _).trans (a2_v340.trans (keep_of_wr gR4p2_wr (by decide) _).symm)
  have a3_v343 := (keep_of_wr gK4p2_wr (by decide) _).trans (a2_v343.trans (keep_of_wr gR4p2_wr (by decide) _).symm)
  have a3_v346 := (keep_of_wr gK4p2_wr (by decide) _).trans (a2_v346.trans (keep_of_wr gR4p2_wr (by decide) _).symm)
  have a3_v349 := (keep_of_wr gK4p2_wr (by decide) _).trans (a2_v349.trans (keep_of_wr gR4p2_wr (by decide) _).symm)
  have c4 := g4p3 _ _ a3_v340 a3_v343
  have a4_v376 := c4.1
  have a4_v377 := c4.2
  have a4_v331 := (keep_of_wr gK4p3_wr (by decide) _).trans (a3_v331.trans (keep_of_wr gR4p3_wr (by decide) _).symm)
  have a4_arg8 := (keep_of_wr gK4p3_wr (by decide) _).trans (a3_arg8.trans (keep_of_wr gR4p3_wr (by decide) _).symm)
  have a4_v340 := (keep_of_wr gK4p3_wr (by decide) _).trans (a3_v340.trans (keep_of_wr gR4p3_wr (by decide) _).symm)
  have a4_v343 := (keep_of_wr gK4p3_wr (by decide) _).trans (a3_v343.trans (keep_of_wr gR4p3_wr (by decide) _).symm)
  have a4_v346 := (keep_of_wr gK4p3_wr (by decide) _).trans (a3_v346.trans (keep_of_wr gR4p3_wr (by decide) _).symm)
  have a4_v349 := (keep_of_wr gK4p3_wr (by decide) _).trans (a3_v349.trans (keep_of_wr gR4p3_wr (by decide) _).symm)
  have a4_v363 := (keep_of_wr gK4p3_wr (by decide) _).trans (a3_v363.trans (keep_of_wr gR4p3_wr (by decide) _).symm)
  have a5_v379 := g4p4 _ _ a4_v376 a4_v377 a4_v331
  have a5_v331 := (keep_of_wr gK4p4_wr (by decide) _).trans (a4_v331.trans (keep_of_wr gR4p4_wr (by decide) _).symm)
  have a5_arg8 := (keep_of_wr gK4p4_wr (by decide) _).trans (a4_arg8.trans (keep_of_wr gR4p4_wr (by decide) _).symm)
  have a5_v340 := (keep_of_wr gK4p4_wr (by decide) _).trans (a4_v340.trans (keep_of_wr gR4p4_wr (by decide) _).symm)
  have a5_v343 := (keep_of_wr gK4p4_wr (by decide) _).trans (a4_v343.trans (keep_of_wr gR4p4_wr (by decide) _).symm)
  have a5_v346 := (keep_of_wr gK4p4_wr (by decide) _).trans (a4_v346.trans (keep_of_wr gR4p4_wr (by decide) _).symm)
  have a5_v349 := (keep_of_wr gK4p4_wr (by decide) _).trans (a4_v349.trans (keep_of_wr gR4p4_wr (by decide) _).symm)
  have a5_v363 := (keep_of_wr gK4p4_wr (by decide) _).trans (a4_v363.trans (keep_of_wr gR4p4_wr (by decide) _).symm)
  have c6 := g4p5 _ _ a5_v343 a5_v340
  have a6_v392 := c6.1
  have a6_v393 := c6.2
  have a6_v331 := (keep_of_wr gK4p5_wr (by decide) _).trans (a5_v331.trans (keep_of_wr gR4p5_wr (by decide) _).symm)
  have a6_arg8 := (keep_of_wr gK4p5_wr (by decide) _).trans (a5_arg8.trans (keep_of_wr gR4p5_wr (by decide) _).symm)
  have a6_v340 := (keep_of_wr gK4p5_wr (by decide) _).trans (a5_v340.trans (keep_of_wr gR4p5_wr (by decide) _).symm)
  have a6_v343 := (keep_of_wr gK4p5_wr (by decide) _).trans (a5_v343.trans (keep_of_wr gR4p5_wr (by decide) _).symm)
  have a6_v346 := (keep_of_wr gK4p5_wr (by decide) _).trans (a5_v346.trans (keep_of_wr gR4p5_wr (by decide) _).symm)
  have a6_v349 := (keep_of_wr gK4p5_wr (by decide) _).trans (a5_v349.trans (keep_of_wr gR4p5_wr (by decide) _).symm)
  have a6_v363 := (keep_of_wr gK4p5_wr (by decide) _).trans (a5_v363.trans (keep_of_wr gR4p5_wr (by decide) _).symm)
  have a6_v379 := (keep_of_wr gK4p5_wr (by decide) _).trans (a5_v379.trans (keep_of_wr gR4p5_wr (by decide) _).symm)
  have a7_v395 := g4p6 _ _ a6_v392 a6_v393 a6_v331
  have a7_v331 := (keep_of_wr gK4p6_wr (by decide) _).trans (a6_v331.trans (keep_of_wr gR4p6_wr (by decide) _).symm)
  have a7_arg8 := (keep_of_wr gK4p6_wr (by decide) _).trans (a6_arg8.trans (keep_of_wr gR4p6_wr (by decide) _).symm)
  have a7_v340 := (keep_of_wr gK4p6_wr (by decide) _).trans (a6_v340.trans (keep_of_wr gR4p6_wr (by decide) _).symm)
  have a7_v343 := (keep_of_wr gK4p6_wr (by decide) _).trans (a6_v343.trans (keep_of_wr gR4p6_wr (by decide) _).symm)
  have a7_v346 := (keep_of_wr gK4p6_wr (by decide) _).trans (a6_v346.trans (keep_of_wr gR4p6_wr (by decide) _).symm)
  have a7_v349 := (keep_of_wr gK4p6_wr (by decide) _).trans (a6_v349.trans (keep_of_wr gR4p6_wr (by decide) _).symm)
  have a7_v363 := (keep_of_wr gK4p6_wr (by decide) _).trans (a6_v363.trans (keep_of_wr gR4p6_wr (by decide) _).symm)
  have a7_v379 := (keep_of_wr gK4p6_wr (by decide) _).trans (a6_v379.trans (keep_of_wr gR4p6_wr (by decide) _).symm)
  have c8 := g4p7 _ _ a7_v343 a7_v340
  have a8_v410 := c8.1
  have a8_v411 := c8.2
  have a8_v331 := (keep_of_wr gK4p7_wr (by decide) _).trans (a7_v331.trans (keep_of_wr gR4p7_wr (by decide) _).symm)
  have a8_arg8 := (keep_of_wr gK4p7_wr (by decide) _).trans (a7_arg8.trans (keep_of_wr gR4p7_wr (by decide) _).symm)
  have a8_v346 := (keep_of_wr gK4p7_wr (by decide) _).trans (a7_v346.trans (keep_of_wr gR4p7_wr (by decide) _).symm)
  have a8_v349 := (keep_of_wr gK4p7_wr (by decide) _).trans (a7_v349.trans (keep_of_wr gR4p7_wr (by decide) _).symm)
  have a8_v363 := (keep_of_wr gK4p7_wr (by decide) _).trans (a7_v363.trans (keep_of_wr gR4p7_wr (by decide) _).symm)
  have a8_v379 := (keep_of_wr gK4p7_wr (by decide) _).trans (a7_v379.trans (keep_of_wr gR4p7_wr (by decide) _).symm)
  have a8_v395 := (keep_of_wr gK4p7_wr (by decide) _).trans (a7_v395.trans (keep_of_wr gR4p7_wr (by decide) _).symm)
  have a9_v413 := g4p8 _ _ a8_v410 a8_v411 a8_v331
  have a9_arg8 := (keep_of_wr gK4p8_wr (by decide) _).trans (a8_arg8.trans (keep_of_wr gR4p8_wr (by decide) _).symm)
  have a9_v346 := (keep_of_wr gK4p8_wr (by decide) _).trans (a8_v346.trans (keep_of_wr gR4p8_wr (by decide) _).symm)
  have a9_v349 := (keep_of_wr gK4p8_wr (by decide) _).trans (a8_v349.trans (keep_of_wr gR4p8_wr (by decide) _).symm)
  have a9_v363 := (keep_of_wr gK4p8_wr (by decide) _).trans (a8_v363.trans (keep_of_wr gR4p8_wr (by decide) _).symm)
  have a9_v379 := (keep_of_wr gK4p8_wr (by decide) _).trans (a8_v379.trans (keep_of_wr gR4p8_wr (by decide) _).symm)
  have a9_v395 := (keep_of_wr gK4p8_wr (by decide) _).trans (a8_v395.trans (keep_of_wr gR4p8_wr (by decide) _).symm)
  have a10_v434 := g4p9 _ _ a9_v346 a9_v363 a9_v379 a9_v349 a9_v395 a9_v413
  have a10_arg8 := (keep_of_wr gK4p9_wr (by decide) _).trans (a9_arg8.trans (keep_of_wr gR4p9_wr (by decide) _).symm)
  have c11 := g4p10 _ _ a10_arg8
  have a11_v436 := c11.1
  have a11_cst_137 := c11.2.1
  have a11_cst_138 := c11.2.2
  have a11_v434 := (keep_of_wr gK4p10_wr (by decide) _).trans (a10_v434.trans (keep_of_wr gR4p10_wr (by decide) _).symm)
  exact ⟨a11_cst_137, a11_cst_138, a11_v436, a11_v434⟩

end Cert.Corr

end
-- ==== Proof.CorrG5.lean ====
/-
  One bilinear plane lookup (group 5 of the host operations) computes the same on both sides. Both lines are cut at the same
  places; a piece applies the same operations on both sides, so buffers that agree going in agree coming out, and a buffer
  a piece does not write is carried through it.
-/
import proofs.«414985_j5068061409687_4_alg».proof.Proof.CorrDefs

set_option maxRecDepth 65536

noncomputable section

namespace Cert.Corr

open Idealize.ShloMosaic Idealize.ShloMosaic.TcCoe Idealize.SL.Sem Idealize.ShloMosaic.StableHlo Cert.LibAfter

variable {F : FTy → Type} [FloatOps F]

local macro "eval_both" : tactic =>
  `(tactic| simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne'])

abbrev gK5q1 : List (HloOp Cert.KernelIdeal.τ Cert.KernelIdeal.sig (Elt F)) := List.drop 39 gK5
abbrev gK5q2 : List (HloOp Cert.KernelIdeal.τ Cert.KernelIdeal.sig (Elt F)) := List.drop 23 gK5q1
abbrev gK5q3 : List (HloOp Cert.KernelIdeal.τ Cert.KernelIdeal.sig (Elt F)) := List.drop 2 gK5q2
abbrev gK5q4 : List (HloOp Cert.KernelIdeal.τ Cert.KernelIdeal.sig (Elt F)) := List.drop 19 gK5q3
abbrev gK5q5 : List (HloOp Cert.KernelIdeal.τ Cert.KernelIdeal.sig (Elt F)) := List.drop 2 gK5q4
abbrev gK5q6 : List (HloOp Cert.KernelIdeal.τ Cert.KernelIdeal.sig (Elt F)) := List.drop 19 gK5q5
abbrev gK5q7 : List (HloOp Cert.KernelIdeal.τ Cert.KernelIdeal.sig (Elt F)) := List.drop 2 gK5q6
abbrev gK5q8 : List (HloOp Cert.KernelIdeal.τ Cert.KernelIdeal.sig (Elt F)) := List.drop 22 gK5q7
abbrev gK5q9 : List (HloOp Cert.KernelIdeal.τ Cert.KernelIdeal.sig (Elt F)) := List.drop 2 gK5q8
abbrev gK5q10 : List (HloOp Cert.KernelIdeal.τ Cert.KernelIdeal.sig (Elt F)) := List.drop 24 gK5q9
abbrev gK5p0 : List (HloOp Cert.KernelIdeal.τ Cert.KernelIdeal.sig (Elt F)) := List.take 39 gK5
abbrev gK5p1 : List (HloOp Cert.KernelIdeal.τ Cert.KernelIdeal.sig (Elt F)) := List.take 23 gK5q1
abbrev gK5p2 : List (HloOp Cert.KernelIdeal.τ Cert.KernelIdeal.sig (Elt F)) := List.take 2 gK5q2
abbrev gK5p3 : List (HloOp Cert.KernelIdeal.τ Cert.KernelIdeal.sig (Elt F)) := List.take 19 gK5q3
abbrev gK5p4 : List (HloOp Cert.KernelIdeal.τ Cert.KernelIdeal.sig (Elt F)) := List.take 2 gK5q4
abbrev gK5p5 : List (HloOp Cert.KernelIdeal.τ Cert.KernelIdeal.sig (Elt F)) := List.take 19 gK5q5
abbrev gK5p6 : List (HloOp Cert.KernelIdeal.τ Cert.KernelIdeal.sig (Elt F)) := List.take 2 gK5q6
abbrev gK5p7 : List (HloOp Cert.KernelIdeal.τ Cert.KernelIdeal.sig (Elt F)) := List.take 22 gK5q7
abbrev gK5p8 : List (HloOp Cert.KernelIdeal.τ Cert.KernelIdeal.sig (Elt F)) := List.take 2 gK5q8
abbrev gK5p9 : List (HloOp Cert.KernelIdeal.τ Cert.KernelIdeal.sig (Elt F)) := List.take 24 gK5q9
abbrev gK5p10 : List (HloOp Cert.KernelIdeal.τ Cert.KernelIdeal.sig (Elt F)) := gK5q10
theorem gK5_split : (gK5 (F := F)) = gK5p0 ++ (gK5p1 ++ (gK5p2 ++ (gK5p3 ++ (gK5p4 ++ (gK5p5 ++ (gK5p6 ++ (gK5p7 ++ (gK5p8 ++ (gK5p9 ++ (gK5p10)))))))))) := by
  simp only [gK5p0, gK5p1, gK5p2, gK5p3, gK5p4, gK5p5, gK5p6, gK5p7, gK5p8, gK5p9, gK5p10, gK5q1, gK5q2, gK5q3, gK5q4, gK5q5, gK5q6, gK5q7, gK5q8, gK5q9, gK5q10, List.take_append_drop]
abbrev gR5q1 : List (HloOp Cert.ReferenceIdeal.τ Cert.ReferenceIdeal.sig (Elt F)) := List.drop 39 gR5
abbrev gR5q2 : List (HloOp Cert.ReferenceIdeal.τ Cert.ReferenceIdeal.sig (Elt F)) := List.drop 23 gR5q1
abbrev gR5q3 : List (HloOp Cert.ReferenceIdeal.τ Cert.ReferenceIdeal.sig (Elt F)) := List.drop 2 gR5q2
abbrev gR5q4 : List (HloOp Cert.ReferenceIdeal.τ Cert.ReferenceIdeal.sig (Elt F)) := List.drop 19 gR5q3
abbrev gR5q5 : List (HloOp Cert.ReferenceIdeal.τ Cert.ReferenceIdeal.sig (Elt F)) := List.drop 2 gR5q4
abbrev gR5q6 : List (HloOp Cert.ReferenceIdeal.τ Cert.ReferenceIdeal.sig (Elt F)) := List.drop 19 gR5q5
abbrev gR5q7 : List (HloOp Cert.ReferenceIdeal.τ Cert.ReferenceIdeal.sig (Elt F)) := List.drop 2 gR5q6
abbrev gR5q8 : List (HloOp Cert.ReferenceIdeal.τ Cert.ReferenceIdeal.sig (Elt F)) := List.drop 22 gR5q7
abbrev gR5q9 : List (HloOp Cert.ReferenceIdeal.τ Cert.ReferenceIdeal.sig (Elt F)) := List.drop 2 gR5q8
abbrev gR5q10 : List (HloOp Cert.ReferenceIdeal.τ Cert.ReferenceIdeal.sig (Elt F)) := List.drop 24 gR5q9
abbrev gR5p0 : List (HloOp Cert.ReferenceIdeal.τ Cert.ReferenceIdeal.sig (Elt F)) := List.take 39 gR5
abbrev gR5p1 : List (HloOp Cert.ReferenceIdeal.τ Cert.ReferenceIdeal.sig (Elt F)) := List.take 23 gR5q1
abbrev gR5p2 : List (HloOp Cert.ReferenceIdeal.τ Cert.ReferenceIdeal.sig (Elt F)) := List.take 2 gR5q2
abbrev gR5p3 : List (HloOp Cert.ReferenceIdeal.τ Cert.ReferenceIdeal.sig (Elt F)) := List.take 19 gR5q3
abbrev gR5p4 : List (HloOp Cert.ReferenceIdeal.τ Cert.ReferenceIdeal.sig (Elt F)) := List.take 2 gR5q4
abbrev gR5p5 : List (HloOp Cert.ReferenceIdeal.τ Cert.ReferenceIdeal.sig (Elt F)) := List.take 19 gR5q5
abbrev gR5p6 : List (HloOp Cert.ReferenceIdeal.τ Cert.ReferenceIdeal.sig (Elt F)) := List.take 2 gR5q6
abbrev gR5p7 : List (HloOp Cert.ReferenceIdeal.τ Cert.ReferenceIdeal.sig (Elt F)) := List.take 22 gR5q7
abbrev gR5p8 : List (HloOp Cert.ReferenceIdeal.τ Cert.ReferenceIdeal.sig (Elt F)) := List.take 2 gR5q8
abbrev gR5p9 : List (HloOp Cert.ReferenceIdeal.τ Cert.ReferenceIdeal.sig (Elt F)) := List.take 24 gR5q9
abbrev gR5p10 : List (HloOp Cert.ReferenceIdeal.τ Cert.ReferenceIdeal.sig (Elt F)) := gR5q10
theorem gR5_split : (gR5 (F := F)) = gR5p0 ++ (gR5p1 ++ (gR5p2 ++ (gR5p3 ++ (gR5p4 ++ (gR5p5 ++ (gR5p6 ++ (gR5p7 ++ (gR5p8 ++ (gR5p9 ++ (gR5p10)))))))))) := by
  simp only [gR5p0, gR5p1, gR5p2, gR5p3, gR5p4, gR5p5, gR5p6, gR5p7, gR5p8, gR5p9, gR5p10, gR5q1, gR5q2, gR5q3, gR5q4, gR5q5, gR5q6, gR5q7, gR5q8, gR5q9, gR5q10, List.take_append_drop]

theorem gK5p0_wr : WritesIn (gK5p0 (F := F)) (gK5_W.take 39) := (gK5_we.take 39).writesIn
theorem gK5p1_wr : WritesIn (gK5p1 (F := F)) (gK5_W.drop 39 |>.take 23) := (gK5_we.drop 39 |>.take 23).writesIn
theorem gK5p2_wr : WritesIn (gK5p2 (F := F)) (gK5_W.drop 39 |>.drop 23 |>.take 2) := (gK5_we.drop 39 |>.drop 23 |>.take 2).writesIn
theorem gK5p3_wr : WritesIn (gK5p3 (F := F)) (gK5_W.drop 39 |>.drop 23 |>.drop 2 |>.take 19) := (gK5_we.drop 39 |>.drop 23 |>.drop 2 |>.take 19).writesIn
theorem gK5p4_wr : WritesIn (gK5p4 (F := F)) (gK5_W.drop 39 |>.drop 23 |>.drop 2 |>.drop 19 |>.take 2) := (gK5_we.drop 39 |>.drop 23 |>.drop 2 |>.drop 19 |>.take 2).writesIn
theorem gK5p5_wr : WritesIn (gK5p5 (F := F)) (gK5_W.drop 39 |>.drop 23 |>.drop 2 |>.drop 19 |>.drop 2 |>.take 19) := (gK5_we.drop 39 |>.drop 23 |>.drop 2 |>.drop 19 |>.drop 2 |>.take 19).writesIn
theorem gK5p6_wr : WritesIn (gK5p6 (F := F)) (gK5_W.drop 39 |>.drop 23 |>.drop 2 |>.drop 19 |>.drop 2 |>.drop 19 |>.take 2) := (gK5_we.drop 39 |>.drop 23 |>.drop 2 |>.drop 19 |>.drop 2 |>.drop 19 |>.take 2).writesIn
theorem gK5p7_wr : WritesIn (gK5p7 (F := F)) (gK5_W.drop 39 |>.drop 23 |>.drop 2 |>.drop 19 |>.drop 2 |>.drop 19 |>.drop 2 |>.take 22) := (gK5_we.drop 39 |>.drop 23 |>.drop 2 |>.drop 19 |>.drop 2 |>.drop 19 |>.drop 2 |>.take 22).writesIn
theorem gK5p8_wr : WritesIn (gK5p8 (F := F)) (gK5_W.drop 39 |>.drop 23 |>.drop 2 |>.drop 19 |>.drop 2 |>.drop 19 |>.drop 2 |>.drop 22 |>.take 2) := (gK5_we.drop 39 |>.drop 23 |>.drop 2 |>.drop 19 |>.drop 2 |>.drop 19 |>.drop 2 |>.drop 22 |>.take 2).writesIn
theorem gK5p9_wr : WritesIn (gK5p9 (F := F)) (gK5_W.drop 39 |>.drop 23 |>.drop 2 |>.drop 19 |>.drop 2 |>.drop 19 |>.drop 2 |>.drop 22 |>.drop 2 |>.take 24) := (gK5_we.drop 39 |>.drop 23 |>.drop 2 |>.drop 19 |>.drop 2 |>.drop 19 |>.drop 2 |>.drop 22 |>.drop 2 |>.take 24).writesIn
theorem gK5p10_wr : WritesIn (gK5p10 (F := F)) (gK5_W.drop 39 |>.drop 23 |>.drop 2 |>.drop 19 |>.drop 2 |>.drop 19 |>.drop 2 |>.drop 22 |>.drop 2 |>.drop 24) := (gK5_we.drop 39 |>.drop 23 |>.drop 2 |>.drop 19 |>.drop 2 |>.drop 19 |>.drop 2 |>.drop 22 |>.drop 2 |>.drop 24).writesIn
theorem gR5p0_wr : WritesIn (gR5p0 (F := F)) (gR5_W.take 39) := (gR5_we.take 39).writesIn
theorem gR5p1_wr : WritesIn (gR5p1 (F := F)) (gR5_W.drop 39 |>.take 23) := (gR5_we.drop 39 |>.take 23).writesIn
theorem gR5p2_wr : WritesIn (gR5p2 (F := F)) (gR5_W.drop 39 |>.drop 23 |>.take 2) := (gR5_we.drop 39 |>.drop 23 |>.take 2).writesIn
theorem gR5p3_wr : WritesIn (gR5p3 (F := F)) (gR5_W.drop 39 |>.drop 23 |>.drop 2 |>.take 19) := (gR5_we.drop 39 |>.drop 23 |>.drop 2 |>.take 19).writesIn
theorem gR5p4_wr : WritesIn (gR5p4 (F := F)) (gR5_W.drop 39 |>.drop 23 |>.drop 2 |>.drop 19 |>.take 2) := (gR5_we.drop 39 |>.drop 23 |>.drop 2 |>.drop 19 |>.take 2).writesIn
theorem gR5p5_wr : WritesIn (gR5p5 (F := F)) (gR5_W.drop 39 |>.drop 23 |>.drop 2 |>.drop 19 |>.drop 2 |>.take 19) := (gR5_we.drop 39 |>.drop 23 |>.drop 2 |>.drop 19 |>.drop 2 |>.take 19).writesIn
theorem gR5p6_wr : WritesIn (gR5p6 (F := F)) (gR5_W.drop 39 |>.drop 23 |>.drop 2 |>.drop 19 |>.drop 2 |>.drop 19 |>.take 2) := (gR5_we.drop 39 |>.drop 23 |>.drop 2 |>.drop 19 |>.drop 2 |>.drop 19 |>.take 2).writesIn
theorem gR5p7_wr : WritesIn (gR5p7 (F := F)) (gR5_W.drop 39 |>.drop 23 |>.drop 2 |>.drop 19 |>.drop 2 |>.drop 19 |>.drop 2 |>.take 22) := (gR5_we.drop 39 |>.drop 23 |>.drop 2 |>.drop 19 |>.drop 2 |>.drop 19 |>.drop 2 |>.take 22).writesIn
theorem gR5p8_wr : WritesIn (gR5p8 (F := F)) (gR5_W.drop 39 |>.drop 23 |>.drop 2 |>.drop 19 |>.drop 2 |>.drop 19 |>.drop 2 |>.drop 22 |>.take 2) := (gR5_we.drop 39 |>.drop 23 |>.drop 2 |>.drop 19 |>.drop 2 |>.drop 19 |>.drop 2 |>.drop 22 |>.take 2).writesIn
theorem gR5p9_wr : WritesIn (gR5p9 (F := F)) (gR5_W.drop 39 |>.drop 23 |>.drop 2 |>.drop 19 |>.drop 2 |>.drop 19 |>.drop 2 |>.drop 22 |>.drop 2 |>.take 24) := (gR5_we.drop 39 |>.drop 23 |>.drop 2 |>.drop 19 |>.drop 2 |>.drop 19 |>.drop 2 |>.drop 22 |>.drop 2 |>.take 24).writesIn
theorem gR5p10_wr : WritesIn (gR5p10 (F := F)) (gR5_W.drop 39 |>.drop 23 |>.drop 2 |>.drop 19 |>.drop 2 |>.drop 19 |>.drop 2 |>.drop 22 |>.drop 2 |>.drop 24) := (gR5_we.drop 39 |>.drop 23 |>.drop 2 |>.drop 19 |>.drop 2 |>.drop 19 |>.drop 2 |>.drop 22 |>.drop 2 |>.drop 24).writesIn

set_option maxHeartbeats 1000000000 in
theorem g5p0 (X : Valuation Cert.KernelIdeal.τ Cert.KernelIdeal.sig (Elt F)) (Y : Valuation Cert.ReferenceIdeal.τ Cert.ReferenceIdeal.sig (Elt F))
    (h_cst_137 : X (Proc.devRef .tc Cert.KernelIdeal.main_cst_137) = Y (Proc.devRef .tc Cert.ReferenceIdeal.main_cst_149))
    (h_v10 : X (Proc.devRef .tc Cert.KernelIdeal.main_v10) = Y (Proc.devRef .tc Cert.ReferenceIdeal.main_v111))
    (h_cst_138 : X (Proc.devRef .tc Cert.KernelIdeal.main_cst_138) = Y (Proc.devRef .tc Cert.ReferenceIdeal.main_cst_150))
    (h_v14 : X (Proc.devRef .tc Cert.KernelIdeal.main_v14) = Y (Proc.devRef .tc Cert.ReferenceIdeal.main_v115)) :
    after gK5p0 X (Proc.devRef .tc Cert.KernelIdeal.main_v439) = after gR5p0 Y (Proc.devRef .tc Cert.ReferenceIdeal.main_v542)
    ∧ after gK5p0 X (Proc.devRef .tc Cert.KernelIdeal.main_v442) = after gR5p0 Y (Proc.devRef .tc Cert.ReferenceIdeal.main_v545)
    ∧ after gK5p0 X (Proc.devRef .tc Cert.KernelIdeal.main_v445) = after gR5p0 Y (Proc.devRef .tc Cert.ReferenceIdeal.main_v548)
    ∧ after gK5p0 X (Proc.devRef .tc Cert.KernelIdeal.main_v447) = after gR5p0 Y (Proc.devRef .tc Cert.ReferenceIdeal.main_v550) := by
  refine ⟨?_, ?_, ?_, ?_⟩
  all_goals simp only [gK5p0, gK5, Cert.KernelIdeal.Gen.hostOps0_37, Cert.KernelIdeal.Gen.hostOps0_38, Cert.KernelIdeal.Gen.hostOps0_39, Cert.KernelIdeal.Gen.hostOps0_40, Cert.KernelIdeal.Gen.hostOps0_41, Cert.KernelIdeal.Gen.hostOps0_42, Cert.KernelIdeal.Gen.hostOps0_43, Cert.KernelIdeal.Gen.hostOps0_44, gR5p0, gR5, Cert.ReferenceIdeal.Chunks.opsC15, Cert.ReferenceIdeal.Chunks.opsC16, Cert.ReferenceIdeal.Chunks.opsC17, List.cons_append, List.nil_append, List.append_assoc, List.drop_succ_cons, List.drop_zero, List.take_succ_cons, List.take_zero]
  all_goals eval_both
  all_goals try simp only [h_cst_137, h_v10, h_cst_138, h_v14]
  all_goals try rw [h_cst_137]
  all_goals try rw [h_v10]
  all_goals try rw [h_cst_138]
  all_goals try rw [h_v14]
  all_goals try rfl

set_option maxHeartbeats 1000000000 in
theorem g5p1 (X : Valuation Cert.KernelIdeal.τ Cert.KernelIdeal.sig (Elt F)) (Y : Valuation Cert.ReferenceIdeal.τ Cert.ReferenceIdeal.sig (Elt F))
    (h_v447 : X (Proc.devRef .tc Cert.KernelIdeal.main_v447) = Y (Proc.devRef .tc Cert.ReferenceIdeal.main_v550))
    (h_v445 : X (Proc.devRef .tc Cert.KernelIdeal.main_v445) = Y (Proc.devRef .tc Cert.ReferenceIdeal.main_v548))
    (h_v439 : X (Proc.devRef .tc Cert.KernelIdeal.main_v439) = Y (Proc.devRef .tc Cert.ReferenceIdeal.main_v542))
    (h_v442 : X (Proc.devRef .tc Cert.KernelIdeal.main_v442) = Y (Proc.devRef .tc Cert.ReferenceIdeal.main_v545)) :
    after gK5p1 X (Proc.devRef .tc Cert.KernelIdeal.main_v448) = after gR5p1 Y (Proc.devRef .tc Cert.ReferenceIdeal.main_v551)
    ∧ after gK5p1 X (Proc.devRef .tc Cert.KernelIdeal.main_v451) = after gR5p1 Y (Proc.devRef .tc Cert.ReferenceIdeal.main_v554)
    ∧ after gK5p1 X (Proc.devRef .tc Cert.KernelIdeal.main_v454) = after gR5p1 Y (Proc.devRef .tc Cert.ReferenceIdeal.main_v557)
    ∧ after gK5p1 X (Proc.devRef .tc Cert.KernelIdeal.main_v465) = after gR5p1 Y (Proc.devRef .tc Cert.ReferenceIdeal.main_v568)
    ∧ after gK5p1 X (Proc.devRef .tc Cert.KernelIdeal.main_v466) = after gR5p1 Y (Proc.devRef .tc Cert.ReferenceIdeal.main_v569) := by
  refine ⟨?_, ?_, ?_, ?_, ?_⟩
  all_goals simp only [gK5p1, gK5q1, gK5, Cert.KernelIdeal.Gen.hostOps0_37, Cert.KernelIdeal.Gen.hostOps0_38, Cert.KernelIdeal.Gen.hostOps0_39, Cert.KernelIdeal.Gen.hostOps0_40, Cert.KernelIdeal.Gen.hostOps0_41, Cert.KernelIdeal.Gen.hostOps0_42, Cert.KernelIdeal.Gen.hostOps0_43, Cert.KernelIdeal.Gen.hostOps0_44, gR5p1, gR5q1, gR5, Cert.ReferenceIdeal.Chunks.opsC15, Cert.ReferenceIdeal.Chunks.opsC16, Cert.ReferenceIdeal.Chunks.opsC17, List.cons_append, List.nil_append, List.append_assoc, List.drop_succ_cons, List.drop_zero, List.take_succ_cons, List.take_zero]
  all_goals eval_both
  all_goals try simp only [h_v447, h_v445, h_v439, h_v442]
  all_goals try rw [h_v447]
  all_goals try rw [h_v445]
  all_goals try rw [h_v439]
  all_goals try rw [h_v442]
  all_goals try rfl

set_option maxHeartbeats 1000000000 in
theorem g5p2 (X : Valuation Cert.KernelIdeal.τ Cert.KernelIdeal.sig (Elt F)) (Y : Valuation Cert.ReferenceIdeal.τ Cert.ReferenceIdeal.sig (Elt F))
    (h_v465 : X (Proc.devRef .tc Cert.KernelIdeal.main_v465) = Y (Proc.devRef .tc Cert.ReferenceIdeal.main_v568))
    (h_v466 : X (Proc.devRef .tc Cert.KernelIdeal.main_v466) = Y (Proc.devRef .tc Cert.ReferenceIdeal.main_v569))
    (h_v436 : X (Proc.devRef .tc Cert.KernelIdeal.main_v436) = Y (Proc.devRef .tc Cert.ReferenceIdeal.main_v539)) :
    after gK5p2 X (Proc.devRef .tc Cert.KernelIdeal.main_v468) = after gR5p2 Y (Proc.devRef .tc Cert.ReferenceIdeal.main_v571) := by
  simp only [gK5p2, gK5q1, gK5q2, gK5, Cert.KernelIdeal.Gen.hostOps0_37, Cert.KernelIdeal.Gen.hostOps0_38, Cert.KernelIdeal.Gen.hostOps0_39, Cert.KernelIdeal.Gen.hostOps0_40, Cert.KernelIdeal.Gen.hostOps0_41, Cert.KernelIdeal.Gen.hostOps0_42, Cert.KernelIdeal.Gen.hostOps0_43, Cert.KernelIdeal.Gen.hostOps0_44, gR5p2, gR5q1, gR5q2, gR5, Cert.ReferenceIdeal.Chunks.opsC15, Cert.ReferenceIdeal.Chunks.opsC16, Cert.ReferenceIdeal.Chunks.opsC17, List.cons_append, List.nil_append, List.append_assoc, List.drop_succ_cons, List.drop_zero, List.take_succ_cons, List.take_zero]
  eval_both
  all_goals try simp only [h_v465, h_v466, h_v436]
  all_goals try rw [h_v465]
  all_goals try rw [h_v466]
  all_goals try rw [h_v436]
  all_goals try rfl

set_option maxHeartbeats 1000000000 in
theorem g5p3 (X : Valuation Cert.KernelIdeal.τ Cert.KernelIdeal.sig (Elt F)) (Y : Valuation Cert.ReferenceIdeal.τ Cert.ReferenceIdeal.sig (Elt F))
    (h_v445 : X (Proc.devRef .tc Cert.KernelIdeal.main_v445) = Y (Proc.devRef .tc Cert.ReferenceIdeal.main_v548))
    (h_v448 : X (Proc.devRef .tc Cert.KernelIdeal.main_v448) = Y (Proc.devRef .tc Cert.ReferenceIdeal.main_v551)) :
    after gK5p3 X (Proc.devRef .tc Cert.KernelIdeal.main_v481) = after gR5p3 Y (Proc.devRef .tc Cert.ReferenceIdeal.main_v584)
    ∧ after gK5p3 X (Proc.devRef .tc Cert.KernelIdeal.main_v482) = after gR5p3 Y (Proc.devRef .tc Cert.ReferenceIdeal.main_v585) := by
  refine ⟨?_, ?_⟩
  all_goals simp only [gK5p3, gK5q1, gK5q2, gK5q3, gK5, Cert.KernelIdeal.Gen.hostOps0_37, Cert.KernelIdeal.Gen.hostOps0_38, Cert.KernelIdeal.Gen.hostOps0_39, Cert.KernelIdeal.Gen.hostOps0_40, Cert.KernelIdeal.Gen.hostOps0_41, Cert.KernelIdeal.Gen.hostOps0_42, Cert.KernelIdeal.Gen.hostOps0_43, Cert.KernelIdeal.Gen.hostOps0_44, gR5p3, gR5q1, gR5q2, gR5q3, gR5, Cert.ReferenceIdeal.Chunks.opsC15, Cert.ReferenceIdeal.Chunks.opsC16, Cert.ReferenceIdeal.Chunks.opsC17, List.cons_append, List.nil_append, List.append_assoc, List.drop_succ_cons, List.drop_zero, List.take_succ_cons, List.take_zero]
  all_goals eval_both
  all_goals try simp only [h_v445, h_v448]
  all_goals try rw [h_v445]
  all_goals try rw [h_v448]
  all_goals try rfl

set_option maxHeartbeats 1000000000 in
theorem g5p4 (X : Valuation Cert.KernelIdeal.τ Cert.KernelIdeal.sig (Elt F)) (Y : Valuation Cert.ReferenceIdeal.τ Cert.ReferenceIdeal.sig (Elt F))
    (h_v481 : X (Proc.devRef .tc Cert.KernelIdeal.main_v481) = Y (Proc.devRef .tc Cert.ReferenceIdeal.main_v584))
    (h_v482 : X (Proc.devRef .tc Cert.KernelIdeal.main_v482) = Y (Proc.devRef .tc Cert.ReferenceIdeal.main_v585))
    (h_v436 : X (Proc.devRef .tc Cert.KernelIdeal.main_v436) = Y (Proc.devRef .tc Cert.ReferenceIdeal.main_v539)) :
    after gK5p4 X (Proc.devRef .tc Cert.KernelIdeal.main_v484) = after gR5p4 Y (Proc.devRef .tc Cert.ReferenceIdeal.main_v587) := by
  simp only [gK5p4, gK5q1, gK5q2, gK5q3, gK5q4, gK5, Cert.KernelIdeal.Gen.hostOps0_37, Cert.KernelIdeal.Gen.hostOps0_38, Cert.KernelIdeal.Gen.hostOps0_39, Cert.KernelIdeal.Gen.hostOps0_40, Cert.KernelIdeal.Gen.hostOps0_41, Cert.KernelIdeal.Gen.hostOps0_42, Cert.KernelIdeal.Gen.hostOps0_43, Cert.KernelIdeal.Gen.hostOps0_44, gR5p4, gR5q1, gR5q2, gR5q3, gR5q4, gR5, Cert.ReferenceIdeal.Chunks.opsC15, Cert.ReferenceIdeal.Chunks.opsC16, Cert.ReferenceIdeal.Chunks.opsC17, List.cons_append, List.nil_append, List.append_assoc, List.drop_succ_cons, List.drop_zero, List.take_succ_cons, List.take_zero]
  eval_both
  all_goals try simp only [h_v481, h_v482, h_v436]
  all_goals try rw [h_v481]
  all_goals try rw [h_v482]
  all_goals try rw [h_v436]
  all_goals try rfl

set_option maxHeartbeats 1000000000 in
theorem g5p5 (X : Valuation Cert.KernelIdeal.τ Cert.KernelIdeal.sig (Elt F)) (Y : Valuation Cert.ReferenceIdeal.τ Cert.ReferenceIdeal.sig (Elt F))
    (h_v448 : X (Proc.devRef .tc Cert.KernelIdeal.main_v448) = Y (Proc.devRef .tc Cert.ReferenceIdeal.main_v551))
    (h_v445 : X (Proc.devRef .tc Cert.KernelIdeal.main_v445) = Y (Proc.devRef .tc Cert.ReferenceIdeal.main_v548)) :
    after gK5p5 X (Proc.devRef .tc Cert.KernelIdeal.main_v497) = after gR5p5 Y (Proc.devRef .tc Cert.ReferenceIdeal.main_v600)
    ∧ after gK5p5 X (Proc.devRef .tc Cert.KernelIdeal.main_v498) = after gR5p5 Y (Proc.devRef .tc Cert.ReferenceIdeal.main_v601) := by
  refine ⟨?_, ?_⟩
  all_goals simp only [gK5p5, gK5q1, gK5q2, gK5q3, gK5q4, gK5q5, gK5, Cert.KernelIdeal.Gen.hostOps0_37, Cert.KernelIdeal.Gen.hostOps0_38, Cert.KernelIdeal.Gen.hostOps0_39, Cert.KernelIdeal.Gen.hostOps0_40, Cert.KernelIdeal.Gen.hostOps0_41, Cert.KernelIdeal.Gen.hostOps0_42, Cert.KernelIdeal.Gen.hostOps0_43, Cert.KernelIdeal.Gen.hostOps0_44, gR5p5, gR5q1, gR5q2, gR5q3, gR5q4, gR5q5, gR5, Cert.ReferenceIdeal.Chunks.opsC15, Cert.ReferenceIdeal.Chunks.opsC16, Cert.ReferenceIdeal.Chunks.opsC17, List.cons_append, List.nil_append, List.append_assoc, List.drop_succ_cons, List.drop_zero, List.take_succ_cons, List.take_zero]
  all_goals eval_both
  all_goals try simp only [h_v448, h_v445]
  all_goals try rw [h_v448]
  all_goals try rw [h_v445]
  all_goals try rfl

set_option maxHeartbeats 1000000000 in
theorem g5p6 (X : Valuation Cert.KernelIdeal.τ Cert.KernelIdeal.sig (Elt F)) (Y : Valuation Cert.ReferenceIdeal.τ Cert.ReferenceIdeal.sig (Elt F))
    (h_v497 : X (Proc.devRef .tc Cert.KernelIdeal.main_v497) = Y (Proc.devRef .tc Cert.ReferenceIdeal.main_v600))
    (h_v498 : X (Proc.devRef .tc Cert.KernelIdeal.main_v498) = Y (Proc.devRef .tc Cert.ReferenceIdeal.main_v601))
    (h_v436 : X (Proc.devRef .tc Cert.KernelIdeal.main_v436) = Y (Proc.devRef .tc Cert.ReferenceIdeal.main_v539)) :
    after gK5p6 X (Proc.devRef .tc Cert.KernelIdeal.main_v500) = after gR5p6 Y (Proc.devRef .tc Cert.ReferenceIdeal.main_v603) := by
  simp only [gK5p6, gK5q1, gK5q2, gK5q3, gK5q4, gK5q5, gK5q6, gK5, Cert.KernelIdeal.Gen.hostOps0_37, Cert.KernelIdeal.Gen.hostOps0_38, Cert.KernelIdeal.Gen.hostOps0_39, Cert.KernelIdeal.Gen.hostOps0_40, Cert.KernelIdeal.Gen.hostOps0_41, Cert.KernelIdeal.Gen.hostOps0_42, Cert.KernelIdeal.Gen.hostOps0_43, Cert.KernelIdeal.Gen.hostOps0_44, gR5p6, gR5q1, gR5q2, gR5q3, gR5q4, gR5q5, gR5q6, gR5, Cert.ReferenceIdeal.Chunks.opsC15, Cert.ReferenceIdeal.Chunks.opsC16, Cert.ReferenceIdeal.Chunks.opsC17, List.cons_append, List.nil_append, List.append_assoc, List.drop_succ_cons, List.drop_zero, List.take_succ_cons, List.take_zero]
  eval_both
  all_goals try simp only [h_v497, h_v498, h_v436]
  all_goals try rw [h_v497]
  all_goals try rw [h_v498]
  all_goals try rw [h_v436]
  all_goals try rfl

set_option maxHeartbeats 1000000000 in
theorem g5p7 (X : Valuation Cert.KernelIdeal.τ Cert.KernelIdeal.sig (Elt F)) (Y : Valuation Cert.ReferenceIdeal.τ Cert.ReferenceIdeal.sig (Elt F))
    (h_v448 : X (Proc.devRef .tc Cert.KernelIdeal.main_v448) = Y (Proc.devRef .tc Cert.ReferenceIdeal.main_v551))
    (h_v445 : X (Proc.devRef .tc Cert.KernelIdeal.main_v445) = Y (Proc.devRef .tc Cert.ReferenceIdeal.main_v548)) :
    after gK5p7 X (Proc.devRef .tc Cert.KernelIdeal.main_v515) = after gR5p7 Y (Proc.devRef .tc Cert.ReferenceIdeal.main_v618)
    ∧ after gK5p7 X (Proc.devRef .tc Cert.KernelIdeal.main_v516) = after gR5p7 Y (Proc.devRef .tc Cert.ReferenceIdeal.main_v619) := by
  refine ⟨?_, ?_⟩
  all_goals simp only [gK5p7, gK5q1, gK5q2, gK5q3, gK5q4, gK5q5, gK5q6, gK5q7, gK5, Cert.KernelIdeal.Gen.hostOps0_37, Cert.KernelIdeal.Gen.hostOps0_38, Cert.KernelIdeal.Gen.hostOps0_39, Cert.KernelIdeal.Gen.hostOps0_40, Cert.KernelIdeal.Gen.hostOps0_41, Cert.KernelIdeal.Gen.hostOps0_42, Cert.KernelIdeal.Gen.hostOps0_43, Cert.KernelIdeal.Gen.hostOps0_44, gR5p7, gR5q1, gR5q2, gR5q3, gR5q4, gR5q5, gR5q6, gR5q7, gR5, Cert.ReferenceIdeal.Chunks.opsC15, Cert.ReferenceIdeal.Chunks.opsC16, Cert.ReferenceIdeal.Chunks.opsC17, List.cons_append, List.nil_append, List.append_assoc, List.drop_succ_cons, List.drop_zero, List.take_succ_cons, List.take_zero]
  all_goals eval_both
  all_goals try simp only [h_v448, h_v445]
  all_goals try rw [h_v448]
  all_goals try rw [h_v445]
  all_goals try rfl

set_option maxHeartbeats 1000000000 in
theorem g5p8 (X : Valuation Cert.KernelIdeal.τ Cert.KernelIdeal.sig (Elt F)) (Y : Valuation Cert.ReferenceIdeal.τ Cert.ReferenceIdeal.sig (Elt F))
    (h_v515 : X (Proc.devRef .tc Cert.KernelIdeal.main_v515) = Y (Proc.devRef .tc Cert.ReferenceIdeal.main_v618))
    (h_v516 : X (Proc.devRef .tc Cert.KernelIdeal.main_v516) = Y (Proc.devRef .tc Cert.ReferenceIdeal.main_v619))
    (h_v436 : X (Proc.devRef .tc Cert.KernelIdeal.main_v436) = Y (Proc.devRef .tc Cert.ReferenceIdeal.main_v539)) :
    after gK5p8 X (Proc.devRef .tc Cert.KernelIdeal.main_v518) = after gR5p8 Y (Proc.devRef .tc Cert.ReferenceIdeal.main_v621) := by
  simp only [gK5p8, gK5q1, gK5q2, gK5q3, gK5q4, gK5q5, gK5q6, gK5q7, gK5q8, gK5, Cert.KernelIdeal.Gen.hostOps0_37, Cert.KernelIdeal.Gen.hostOps0_38, Cert.KernelIdeal.Gen.hostOps0_39, Cert.KernelIdeal.Gen.hostOps0_40, Cert.KernelIdeal.Gen.hostOps0_41, Cert.KernelIdeal.Gen.hostOps0_42, Cert.KernelIdeal.Gen.hostOps0_43, Cert.KernelIdeal.Gen.hostOps0_44, gR5p8, gR5q1, gR5q2, gR5q3, gR5q4, gR5q5, gR5q6, gR5q7, gR5q8, gR5, Cert.ReferenceIdeal.Chunks.opsC15, Cert.ReferenceIdeal.Chunks.opsC16, Cert.ReferenceIdeal.Chunks.opsC17, List.cons_append, List.nil_append, List.append_assoc, List.drop_succ_cons, List.drop_zero, List.take_succ_cons, List.take_zero]
  eval_both
  all_goals try simp only [h_v515, h_v516, h_v436]
  all_goals try rw [h_v515]
  all_goals try rw [h_v516]
  all_goals try rw [h_v436]
  all_goals try rfl

set_option maxHeartbeats 1000000000 in
theorem g5p9 (X : Valuation Cert.KernelIdeal.τ Cert.KernelIdeal.sig (Elt F)) (Y : Valuation Cert.ReferenceIdeal.τ Cert.ReferenceIdeal.sig (Elt F))
    (h_v451 : X (Proc.devRef .tc Cert.KernelIdeal.main_v451) = Y (Proc.devRef .tc Cert.ReferenceIdeal.main_v554))
    (h_v468 : X (Proc.devRef .tc Cert.KernelIdeal.main_v468) = Y (Proc.devRef .tc Cert.ReferenceIdeal.main_v571))
    (h_v484 : X (Proc.devRef .tc Cert.KernelIdeal.main_v484) = Y (Proc.devRef .tc Cert.ReferenceIdeal.main_v587))
    (h_v454 : X (Proc.devRef .tc Cert.KernelIdeal.main_v454) = Y (Proc.devRef .tc Cert.ReferenceIdeal.main_v557))
    (h_v500 : X (Proc.devRef .tc Cert.KernelIdeal.main_v500) = Y (Proc.devRef .tc Cert.ReferenceIdeal.main_v603))
    (h_v518 : X (Proc.devRef .tc Cert.KernelIdeal.main_v518) = Y (Proc.devRef .tc Cert.ReferenceIdeal.main_v621)) :
    after gK5p9 X (Proc.devRef .tc Cert.KernelIdeal.main_v539) = after gR5p9 Y (Proc.devRef .tc Cert.ReferenceIdeal.main_v642) := by
  simp only [gK5p9, gK5q1, gK5q2, gK5q3, gK5q4, gK5q5, gK5q6, gK5q7, gK5q8, gK5q9, gK5, Cert.KernelIdeal.Gen.hostOps0_37, Cert.KernelIdeal.Gen.hostOps0_38, Cert.KernelIdeal.Gen.hostOps0_39, Cert.KernelIdeal.Gen.hostOps0_40, Cert.KernelIdeal.Gen.hostOps0_41, Cert.KernelIdeal.Gen.hostOps0_42, Cert.KernelIdeal.Gen.hostOps0_43, Cert.KernelIdeal.Gen.hostOps0_44, gR5p9, gR5q1, gR5q2, gR5q3, gR5q4, gR5q5, gR5q6, gR5q7, gR5q8, gR5q9, gR5, Cert.ReferenceIdeal.Chunks.opsC15, Cert.ReferenceIdeal.Chunks.opsC16, Cert.ReferenceIdeal.Chunks.opsC17, List.cons_append, List.nil_append, List.append_assoc, List.drop_succ_cons, List.drop_zero, List.take_succ_cons, List.take_zero]
  eval_both
  all_goals try simp only [h_v451, h_v468, h_v484, h_v454, h_v500, h_v518]
  all_goals try rw [h_v451]
  all_goals try rw [h_v468]
  all_goals try rw [h_v484]
  all_goals try rw [h_v454]
  all_goals try rw [h_v500]
  all_goals try rw [h_v518]
  all_goals try rfl

set_option maxHeartbeats 1000000000 in
theorem g5p10 (X : Valuation Cert.KernelIdeal.τ Cert.KernelIdeal.sig (Elt F)) (Y : Valuation Cert.ReferenceIdeal.τ Cert.ReferenceIdeal.sig (Elt F))
    (h_arg8 : X (Proc.devRef .tc Cert.KernelIdeal.main_arg8) = Y (Proc.devRef .tc Cert.ReferenceIdeal.main_arg8)) :
    after gK5p10 X (Proc.devRef .tc Cert.KernelIdeal.main_v541) = after gR5p10 Y (Proc.devRef .tc Cert.ReferenceIdeal.main_v645)
    ∧ after gK5p10 X (Proc.devRef .tc Cert.KernelIdeal.main_cst_170) = after gR5p10 Y (Proc.devRef .tc Cert.ReferenceIdeal.main_cst_182)
    ∧ after gK5p10 X (Proc.devRef .tc Cert.KernelIdeal.main_cst_171) = after gR5p10 Y (Proc.devRef .tc Cert.ReferenceIdeal.main_cst_183) := by
  refine ⟨?_, ?_, ?_⟩
  all_goals simp only [gK5p10, gK5q1, gK5q2, gK5q3, gK5q4, gK5q5, gK5q6, gK5q7, gK5q8, gK5q9, gK5q10, gK5, Cert.KernelIdeal.Gen.hostOps0_37, Cert.KernelIdeal.Gen.hostOps0_38, Cert.KernelIdeal.Gen.hostOps0_39, Cert.KernelIdeal.Gen.hostOps0_40, Cert.KernelIdeal.Gen.hostOps0_41, Cert.KernelIdeal.Gen.hostOps0_42, Cert.KernelIdeal.Gen.hostOps0_43, Cert.KernelIdeal.Gen.hostOps0_44, gR5p10, gR5q1, gR5q2, gR5q3, gR5q4, gR5q5, gR5q6, gR5q7, gR5q8, gR5q9, gR5q10, gR5, Cert.ReferenceIdeal.Chunks.opsC15, Cert.ReferenceIdeal.Chunks.opsC16, Cert.ReferenceIdeal.Chunks.opsC17, List.cons_append, List.nil_append, List.append_assoc, List.drop_succ_cons, List.drop_zero, List.take_succ_cons, List.take_zero]
  all_goals eval_both
  all_goals try simp only [h_arg8]
  all_goals try rw [h_arg8]
  all_goals try rfl

set_option maxHeartbeats 400000000 in
theorem g5_all (X : Valuation Cert.KernelIdeal.τ Cert.KernelIdeal.sig (Elt F)) (Y : Valuation Cert.ReferenceIdeal.τ Cert.ReferenceIdeal.sig (Elt F))
    (h_cst_137 : X (Proc.devRef .tc Cert.KernelIdeal.main_cst_137) = Y (Proc.devRef .tc Cert.ReferenceIdeal.main_cst_149))
    (h_v10 : X (Proc.devRef .tc Cert.KernelIdeal.main_v10) = Y (Proc.devRef .tc Cert.ReferenceIdeal.main_v111))
    (h_cst_138 : X (Proc.devRef .tc Cert.KernelIdeal.main_cst_138) = Y (Proc.devRef .tc Cert.ReferenceIdeal.main_cst_150))
    (h_v14 : X (Proc.devRef .tc Cert.KernelIdeal.main_v14) = Y (Proc.devRef .tc Cert.ReferenceIdeal.main_v115))
    (h_v436 : X (Proc.devRef .tc Cert.KernelIdeal.main_v436) = Y (Proc.devRef .tc Cert.ReferenceIdeal.main_v539))
    (h_arg8 : X (Proc.devRef .tc Cert.KernelIdeal.main_arg8) = Y (Proc.devRef .tc Cert.ReferenceIdeal.main_arg8)) :
    after gK5 X (Proc.devRef .tc Cert.KernelIdeal.main_cst_170) = after gR5 Y (Proc.devRef .tc Cert.ReferenceIdeal.main_cst_182)
    ∧ after gK5 X (Proc.devRef .tc Cert.KernelIdeal.main_cst_171) = after gR5 Y (Proc.devRef .tc Cert.ReferenceIdeal.main_cst_183)
    ∧ after gK5 X (Proc.devRef .tc Cert.KernelIdeal.main_v541) = after gR5 Y (Proc.devRef .tc Cert.ReferenceIdeal.main_v645)
    ∧ after gK5 X (Proc.devRef .tc Cert.KernelIdeal.main_v539) = after gR5 Y (Proc.devRef .tc Cert.ReferenceIdeal.main_v642) := by
  rw [gK5_split, gR5_split]
  simp only [StableHlo.after_append]
  have c1 := g5p0 _ _ h_cst_137 h_v10 h_cst_138 h_v14
  have a1_v439 := c1.1
  have a1_v442 := c1.2.1
  have a1_v445 := c1.2.2.1
  have a1_v447 := c1.2.2.2
  have a1_v436 := (keep_of_wr gK5p0_wr (by decide) _).trans (h_v436.trans (keep_of_wr gR5p0_wr (by decide) _).symm)
  have a1_arg8 := (keep_of_wr gK5p0_wr (by decide) _).trans (h_arg8.trans (keep_of_wr gR5p0_wr (by decide) _).symm)
  have c2 := g5p1 _ _ a1_v447 a1_v445 a1_v439 a1_v442
  have a2_v448 := c2.1
  have a2_v451 := c2.2.1
  have a2_v454 := c2.2.2.1
  have a2_v465 := c2.2.2.2.1
  have a2_v466 := c2.2.2.2.2
  have a2_v436 := (keep_of_wr gK5p1_wr (by decide) _).trans (a1_v436.trans (keep_of_wr gR5p1_wr (by decide) _).symm)
  have a2_arg8 := (keep_of_wr gK5p1_wr (by decide) _).trans (a1_arg8.trans (keep_of_wr gR5p1_wr (by decide) _).symm)
  have a2_v445 := (keep_of_wr gK5p1_wr (by decide) _).trans (a1_v445.trans (keep_of_wr gR5p1_wr (by decide) _).symm)
  have a3_v468 := g5p2 _ _ a2_v465 a2_v466 a2_v436
  have a3_v436 := (keep_of_wr gK5p2_wr (by decide) _).trans (a2_v436.trans (keep_of_wr gR5p2_wr (by decide) _).symm)
  have a3_arg8 := (keep_of_wr gK5p2_wr (by decide) _).trans (a2_arg8.trans (keep_of_wr gR5p2_wr (by decide) _).symm)
  have a3_v445 := (keep_of_wr gK5p2_wr (by decide) _).trans (a2_v445.trans (keep_of_wr gR5p2_wr (by decide) _).symm)
  have a3_v448 := (keep_of_wr gK5p2_wr (by decide) _).trans (a2_v448.trans (keep_of_wr gR5p2_wr (by decide) _).symm)
  have a3_v451 := (keep_of_wr gK5p2_wr (by decide) _).trans (a2_v451.trans (keep_of_wr gR5p2_wr (by decide) _).symm)
  have a3_v454 := (keep_of_wr gK5p2_wr (by decide) _).trans (a2_v454.trans (keep_of_wr gR5p2_wr (by decide) _).symm)
  have c4 := g5p3 _ _ a3_v445 a3_v448
  have a4_v481 := c4.1
  have a4_v482 := c4.2
  have a4_v436 := (keep_of_wr gK5p3_wr (by decide) _).trans (a3_v436.trans (keep_of_wr gR5p3_wr (by decide) _).symm)
  have a4_arg8 := (keep_of_wr gK5p3_wr (by decide) _).trans (a3_arg8.trans (keep_of_wr gR5p3_wr (by decide) _).symm)
  have a4_v445 := (keep_of_wr gK5p3_wr (by decide) _).trans (a3_v445.trans (keep_of_wr gR5p3_wr (by decide) _).symm)
  have a4_v448 := (keep_of_wr gK5p3_wr (by decide) _).trans (a3_v448.trans (keep_of_wr gR5p3_wr (by decide) _).symm)
  have a4_v451 := (keep_of_wr gK5p3_wr (by decide) _).trans (a3_v451.trans (keep_of_wr gR5p3_wr (by decide) _).symm)
  have a4_v454 := (keep_of_wr gK5p3_wr (by decide) _).trans (a3_v454.trans (keep_of_wr gR5p3_wr (by decide) _).symm)
  have a4_v468 := (keep_of_wr gK5p3_wr (by decide) _).trans (a3_v468.trans (keep_of_wr gR5p3_wr (by decide) _).symm)
  have a5_v484 := g5p4 _ _ a4_v481 a4_v482 a4_v436
  have a5_v436 := (keep_of_wr gK5p4_wr (by decide) _).trans (a4_v436.trans (keep_of_wr gR5p4_wr (by decide) _).symm)
  have a5_arg8 := (keep_of_wr gK5p4_wr (by decide) _).trans (a4_arg8.trans (keep_of_wr gR5p4_wr (by decide) _).symm)
  have a5_v445 := (keep_of_wr gK5p4_wr (by decide) _).trans (a4_v445.trans (keep_of_wr gR5p4_wr (by decide) _).symm)
  have a5_v448 := (keep_of_wr gK5p4_wr (by decide) _).trans (a4_v448.trans (keep_of_wr gR5p4_wr (by decide) _).symm)
  have a5_v451 := (keep_of_wr gK5p4_wr (by decide) _).trans (a4_v451.trans (keep_of_wr gR5p4_wr (by decide) _).symm)
  have a5_v454 := (keep_of_wr gK5p4_wr (by decide) _).trans (a4_v454.trans (keep_of_wr gR5p4_wr (by decide) _).symm)
  have a5_v468 := (keep_of_wr gK5p4_wr (by decide) _).trans (a4_v468.trans (keep_of_wr gR5p4_wr (by decide) _).symm)
  have c6 := g5p5 _ _ a5_v448 a5_v445
  have a6_v497 := c6.1
  have a6_v498 := c6.2
  have a6_v436 := (keep_of_wr gK5p5_wr (by decide) _).trans (a5_v436.trans (keep_of_wr gR5p5_wr (by decide) _).symm)
  have a6_arg8 := (keep_of_wr gK5p5_wr (by decide) _).trans (a5_arg8.trans (keep_of_wr gR5p5_wr (by decide) _).symm)
  have a6_v445 := (keep_of_wr gK5p5_wr (by decide) _).trans (a5_v445.trans (keep_of_wr gR5p5_wr (by decide) _).symm)
  have a6_v448 := (keep_of_wr gK5p5_wr (by decide) _).trans (a5_v448.trans (keep_of_wr gR5p5_wr (by decide) _).symm)
  have a6_v451 := (keep_of_wr gK5p5_wr (by decide) _).trans (a5_v451.trans (keep_of_wr gR5p5_wr (by decide) _).symm)
  have a6_v454 := (keep_of_wr gK5p5_wr (by decide) _).trans (a5_v454.trans (keep_of_wr gR5p5_wr (by decide) _).symm)
  have a6_v468 := (keep_of_wr gK5p5_wr (by decide) _).trans (a5_v468.trans (keep_of_wr gR5p5_wr (by decide) _).symm)
  have a6_v484 := (keep_of_wr gK5p5_wr (by decide) _).trans (a5_v484.trans (keep_of_wr gR5p5_wr (by decide) _).symm)
  have a7_v500 := g5p6 _ _ a6_v497 a6_v498 a6_v436
  have a7_v436 := (keep_of_wr gK5p6_wr (by decide) _).trans (a6_v436.trans (keep_of_wr gR5p6_wr (by decide) _).symm)
  have a7_arg8 := (keep_of_wr gK5p6_wr (by decide) _).trans (a6_arg8.trans (keep_of_wr gR5p6_wr (by decide) _).symm)
  have a7_v445 := (keep_of_wr gK5p6_wr (by decide) _).trans (a6_v445.trans (keep_of_wr gR5p6_wr (by decide) _).symm)
  have a7_v448 := (keep_of_wr gK5p6_wr (by decide) _).trans (a6_v448.trans (keep_of_wr gR5p6_wr (by decide) _).symm)
  have a7_v451 := (keep_of_wr gK5p6_wr (by decide) _).trans (a6_v451.trans (keep_of_wr gR5p6_wr (by decide) _).symm)
  have a7_v454 := (keep_of_wr gK5p6_wr (by decide) _).trans (a6_v454.trans (keep_of_wr gR5p6_wr (by decide) _).symm)
  have a7_v468 := (keep_of_wr gK5p6_wr (by decide) _).trans (a6_v468.trans (keep_of_wr gR5p6_wr (by decide) _).symm)
  have a7_v484 := (keep_of_wr gK5p6_wr (by decide) _).trans (a6_v484.trans (keep_of_wr gR5p6_wr (by decide) _).symm)
  have c8 := g5p7 _ _ a7_v448 a7_v445
  have a8_v515 := c8.1
  have a8_v516 := c8.2
  have a8_v436 := (keep_of_wr gK5p7_wr (by decide) _).trans (a7_v436.trans (keep_of_wr gR5p7_wr (by decide) _).symm)
  have a8_arg8 := (keep_of_wr gK5p7_wr (by decide) _).trans (a7_arg8.trans (keep_of_wr gR5p7_wr (by decide) _).symm)
  have a8_v451 := (keep_of_wr gK5p7_wr (by decide) _).trans (a7_v451.trans (keep_of_wr gR5p7_wr (by decide) _).symm)
  have a8_v454 := (keep_of_wr gK5p7_wr (by decide) _).trans (a7_v454.trans (keep_of_wr gR5p7_wr (by decide) _).symm)
  have a8_v468 := (keep_of_wr gK5p7_wr (by decide) _).trans (a7_v468.trans (keep_of_wr gR5p7_wr (by decide) _).symm)
  have a8_v484 := (keep_of_wr gK5p7_wr (by decide) _).trans (a7_v484.trans (keep_of_wr gR5p7_wr (by decide) _).symm)
  have a8_v500 := (keep_of_wr gK5p7_wr (by decide) _).trans (a7_v500.trans (keep_of_wr gR5p7_wr (by decide) _).symm)
  have a9_v518 := g5p8 _ _ a8_v515 a8_v516 a8_v436
  have a9_arg8 := (keep_of_wr gK5p8_wr (by decide) _).trans (a8_arg8.trans (keep_of_wr gR5p8_wr (by decide) _).symm)
  have a9_v451 := (keep_of_wr gK5p8_wr (by decide) _).trans (a8_v451.trans (keep_of_wr gR5p8_wr (by decide) _).symm)
  have a9_v454 := (keep_of_wr gK5p8_wr (by decide) _).trans (a8_v454.trans (keep_of_wr gR5p8_wr (by decide) _).symm)
  have a9_v468 := (keep_of_wr gK5p8_wr (by decide) _).trans (a8_v468.trans (keep_of_wr gR5p8_wr (by decide) _).symm)
  have a9_v484 := (keep_of_wr gK5p8_wr (by decide) _).trans (a8_v484.trans (keep_of_wr gR5p8_wr (by decide) _).symm)
  have a9_v500 := (keep_of_wr gK5p8_wr (by decide) _).trans (a8_v500.trans (keep_of_wr gR5p8_wr (by decide) _).symm)
  have a10_v539 := g5p9 _ _ a9_v451 a9_v468 a9_v484 a9_v454 a9_v500 a9_v518
  have a10_arg8 := (keep_of_wr gK5p9_wr (by decide) _).trans (a9_arg8.trans (keep_of_wr gR5p9_wr (by decide) _).symm)
  have c11 := g5p10 _ _ a10_arg8
  have a11_v541 := c11.1
  have a11_cst_170 := c11.2.1
  have a11_cst_171 := c11.2.2
  have a11_v539 := (keep_of_wr gK5p10_wr (by decide) _).trans (a10_v539.trans (keep_of_wr gR5p10_wr (by decide) _).symm)
  exact ⟨a11_cst_170, a11_cst_171, a11_v541, a11_v539⟩

end Cert.Corr

end
-- ==== Proof.CorrG6.lean ====
/-
  One bilinear plane lookup (group 6 of the host operations) computes the same on both sides. Both lines are cut at the same
  places; a piece applies the same operations on both sides, so buffers that agree going in agree coming out, and a buffer
  a piece does not write is carried through it.
-/
import proofs.«414985_j5068061409687_4_alg».proof.Proof.CorrDefs

set_option maxRecDepth 65536

noncomputable section

namespace Cert.Corr

open Idealize.ShloMosaic Idealize.ShloMosaic.TcCoe Idealize.SL.Sem Idealize.ShloMosaic.StableHlo Cert.LibAfter

variable {F : FTy → Type} [FloatOps F]

local macro "eval_both" : tactic =>
  `(tactic| simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne'])

abbrev gK6q1 : List (HloOp Cert.KernelIdeal.τ Cert.KernelIdeal.sig (Elt F)) := List.drop 39 gK6
abbrev gK6q2 : List (HloOp Cert.KernelIdeal.τ Cert.KernelIdeal.sig (Elt F)) := List.drop 23 gK6q1
abbrev gK6q3 : List (HloOp Cert.KernelIdeal.τ Cert.KernelIdeal.sig (Elt F)) := List.drop 2 gK6q2
abbrev gK6q4 : List (HloOp Cert.KernelIdeal.τ Cert.KernelIdeal.sig (Elt F)) := List.drop 19 gK6q3
abbrev gK6q5 : List (HloOp Cert.KernelIdeal.τ Cert.KernelIdeal.sig (Elt F)) := List.drop 2 gK6q4
abbrev gK6q6 : List (HloOp Cert.KernelIdeal.τ Cert.KernelIdeal.sig (Elt F)) := List.drop 19 gK6q5
abbrev gK6q7 : List (HloOp Cert.KernelIdeal.τ Cert.KernelIdeal.sig (Elt F)) := List.drop 2 gK6q6
abbrev gK6q8 : List (HloOp Cert.KernelIdeal.τ Cert.KernelIdeal.sig (Elt F)) := List.drop 22 gK6q7
abbrev gK6q9 : List (HloOp Cert.KernelIdeal.τ Cert.KernelIdeal.sig (Elt F)) := List.drop 2 gK6q8
abbrev gK6q10 : List (HloOp Cert.KernelIdeal.τ Cert.KernelIdeal.sig (Elt F)) := List.drop 24 gK6q9
abbrev gK6p0 : List (HloOp Cert.KernelIdeal.τ Cert.KernelIdeal.sig (Elt F)) := List.take 39 gK6
abbrev gK6p1 : List (HloOp Cert.KernelIdeal.τ Cert.KernelIdeal.sig (Elt F)) := List.take 23 gK6q1
abbrev gK6p2 : List (HloOp Cert.KernelIdeal.τ Cert.KernelIdeal.sig (Elt F)) := List.take 2 gK6q2
abbrev gK6p3 : List (HloOp Cert.KernelIdeal.τ Cert.KernelIdeal.sig (Elt F)) := List.take 19 gK6q3
abbrev gK6p4 : List (HloOp Cert.KernelIdeal.τ Cert.KernelIdeal.sig (Elt F)) := List.take 2 gK6q4
abbrev gK6p5 : List (HloOp Cert.KernelIdeal.τ Cert.KernelIdeal.sig (Elt F)) := List.take 19 gK6q5
abbrev gK6p6 : List (HloOp Cert.KernelIdeal.τ Cert.KernelIdeal.sig (Elt F)) := List.take 2 gK6q6
abbrev gK6p7 : List (HloOp Cert.KernelIdeal.τ Cert.KernelIdeal.sig (Elt F)) := List.take 22 gK6q7
abbrev gK6p8 : List (HloOp Cert.KernelIdeal.τ Cert.KernelIdeal.sig (Elt F)) := List.take 2 gK6q8
abbrev gK6p9 : List (HloOp Cert.KernelIdeal.τ Cert.KernelIdeal.sig (Elt F)) := List.take 24 gK6q9
abbrev gK6p10 : List (HloOp Cert.KernelIdeal.τ Cert.KernelIdeal.sig (Elt F)) := gK6q10
theorem gK6_split : (gK6 (F := F)) = gK6p0 ++ (gK6p1 ++ (gK6p2 ++ (gK6p3 ++ (gK6p4 ++ (gK6p5 ++ (gK6p6 ++ (gK6p7 ++ (gK6p8 ++ (gK6p9 ++ (gK6p10)))))))))) := by
  simp only [gK6p0, gK6p1, gK6p2, gK6p3, gK6p4, gK6p5, gK6p6, gK6p7, gK6p8, gK6p9, gK6p10, gK6q1, gK6q2, gK6q3, gK6q4, gK6q5, gK6q6, gK6q7, gK6q8, gK6q9, gK6q10, List.take_append_drop]
abbrev gR6q1 : List (HloOp Cert.ReferenceIdeal.τ Cert.ReferenceIdeal.sig (Elt F)) := List.drop 39 gR6
abbrev gR6q2 : List (HloOp Cert.ReferenceIdeal.τ Cert.ReferenceIdeal.sig (Elt F)) := List.drop 23 gR6q1
abbrev gR6q3 : List (HloOp Cert.ReferenceIdeal.τ Cert.ReferenceIdeal.sig (Elt F)) := List.drop 2 gR6q2
abbrev gR6q4 : List (HloOp Cert.ReferenceIdeal.τ Cert.ReferenceIdeal.sig (Elt F)) := List.drop 19 gR6q3
abbrev gR6q5 : List (HloOp Cert.ReferenceIdeal.τ Cert.ReferenceIdeal.sig (Elt F)) := List.drop 2 gR6q4
abbrev gR6q6 : List (HloOp Cert.ReferenceIdeal.τ Cert.ReferenceIdeal.sig (Elt F)) := List.drop 19 gR6q5
abbrev gR6q7 : List (HloOp Cert.ReferenceIdeal.τ Cert.ReferenceIdeal.sig (Elt F)) := List.drop 2 gR6q6
abbrev gR6q8 : List (HloOp Cert.ReferenceIdeal.τ Cert.ReferenceIdeal.sig (Elt F)) := List.drop 22 gR6q7
abbrev gR6q9 : List (HloOp Cert.ReferenceIdeal.τ Cert.ReferenceIdeal.sig (Elt F)) := List.drop 2 gR6q8
abbrev gR6q10 : List (HloOp Cert.ReferenceIdeal.τ Cert.ReferenceIdeal.sig (Elt F)) := List.drop 24 gR6q9
abbrev gR6p0 : List (HloOp Cert.ReferenceIdeal.τ Cert.ReferenceIdeal.sig (Elt F)) := List.take 39 gR6
abbrev gR6p1 : List (HloOp Cert.ReferenceIdeal.τ Cert.ReferenceIdeal.sig (Elt F)) := List.take 23 gR6q1
abbrev gR6p2 : List (HloOp Cert.ReferenceIdeal.τ Cert.ReferenceIdeal.sig (Elt F)) := List.take 2 gR6q2
abbrev gR6p3 : List (HloOp Cert.ReferenceIdeal.τ Cert.ReferenceIdeal.sig (Elt F)) := List.take 19 gR6q3
abbrev gR6p4 : List (HloOp Cert.ReferenceIdeal.τ Cert.ReferenceIdeal.sig (Elt F)) := List.take 2 gR6q4
abbrev gR6p5 : List (HloOp Cert.ReferenceIdeal.τ Cert.ReferenceIdeal.sig (Elt F)) := List.take 19 gR6q5
abbrev gR6p6 : List (HloOp Cert.ReferenceIdeal.τ Cert.ReferenceIdeal.sig (Elt F)) := List.take 2 gR6q6
abbrev gR6p7 : List (HloOp Cert.ReferenceIdeal.τ Cert.ReferenceIdeal.sig (Elt F)) := List.take 22 gR6q7
abbrev gR6p8 : List (HloOp Cert.ReferenceIdeal.τ Cert.ReferenceIdeal.sig (Elt F)) := List.take 2 gR6q8
abbrev gR6p9 : List (HloOp Cert.ReferenceIdeal.τ Cert.ReferenceIdeal.sig (Elt F)) := List.take 24 gR6q9
abbrev gR6p10 : List (HloOp Cert.ReferenceIdeal.τ Cert.ReferenceIdeal.sig (Elt F)) := gR6q10
theorem gR6_split : (gR6 (F := F)) = gR6p0 ++ (gR6p1 ++ (gR6p2 ++ (gR6p3 ++ (gR6p4 ++ (gR6p5 ++ (gR6p6 ++ (gR6p7 ++ (gR6p8 ++ (gR6p9 ++ (gR6p10)))))))))) := by
  simp only [gR6p0, gR6p1, gR6p2, gR6p3, gR6p4, gR6p5, gR6p6, gR6p7, gR6p8, gR6p9, gR6p10, gR6q1, gR6q2, gR6q3, gR6q4, gR6q5, gR6q6, gR6q7, gR6q8, gR6q9, gR6q10, List.take_append_drop]

theorem gK6p0_wr : WritesIn (gK6p0 (F := F)) (gK6_W.take 39) := (gK6_we.take 39).writesIn
theorem gK6p1_wr : WritesIn (gK6p1 (F := F)) (gK6_W.drop 39 |>.take 23) := (gK6_we.drop 39 |>.take 23).writesIn
theorem gK6p2_wr : WritesIn (gK6p2 (F := F)) (gK6_W.drop 39 |>.drop 23 |>.take 2) := (gK6_we.drop 39 |>.drop 23 |>.take 2).writesIn
theorem gK6p3_wr : WritesIn (gK6p3 (F := F)) (gK6_W.drop 39 |>.drop 23 |>.drop 2 |>.take 19) := (gK6_we.drop 39 |>.drop 23 |>.drop 2 |>.take 19).writesIn
theorem gK6p4_wr : WritesIn (gK6p4 (F := F)) (gK6_W.drop 39 |>.drop 23 |>.drop 2 |>.drop 19 |>.take 2) := (gK6_we.drop 39 |>.drop 23 |>.drop 2 |>.drop 19 |>.take 2).writesIn
theorem gK6p5_wr : WritesIn (gK6p5 (F := F)) (gK6_W.drop 39 |>.drop 23 |>.drop 2 |>.drop 19 |>.drop 2 |>.take 19) := (gK6_we.drop 39 |>.drop 23 |>.drop 2 |>.drop 19 |>.drop 2 |>.take 19).writesIn
theorem gK6p6_wr : WritesIn (gK6p6 (F := F)) (gK6_W.drop 39 |>.drop 23 |>.drop 2 |>.drop 19 |>.drop 2 |>.drop 19 |>.take 2) := (gK6_we.drop 39 |>.drop 23 |>.drop 2 |>.drop 19 |>.drop 2 |>.drop 19 |>.take 2).writesIn
theorem gK6p7_wr : WritesIn (gK6p7 (F := F)) (gK6_W.drop 39 |>.drop 23 |>.drop 2 |>.drop 19 |>.drop 2 |>.drop 19 |>.drop 2 |>.take 22) := (gK6_we.drop 39 |>.drop 23 |>.drop 2 |>.drop 19 |>.drop 2 |>.drop 19 |>.drop 2 |>.take 22).writesIn
theorem gK6p8_wr : WritesIn (gK6p8 (F := F)) (gK6_W.drop 39 |>.drop 23 |>.drop 2 |>.drop 19 |>.drop 2 |>.drop 19 |>.drop 2 |>.drop 22 |>.take 2) := (gK6_we.drop 39 |>.drop 23 |>.drop 2 |>.drop 19 |>.drop 2 |>.drop 19 |>.drop 2 |>.drop 22 |>.take 2).writesIn
theorem gK6p9_wr : WritesIn (gK6p9 (F := F)) (gK6_W.drop 39 |>.drop 23 |>.drop 2 |>.drop 19 |>.drop 2 |>.drop 19 |>.drop 2 |>.drop 22 |>.drop 2 |>.take 24) := (gK6_we.drop 39 |>.drop 23 |>.drop 2 |>.drop 19 |>.drop 2 |>.drop 19 |>.drop 2 |>.drop 22 |>.drop 2 |>.take 24).writesIn
theorem gK6p10_wr : WritesIn (gK6p10 (F := F)) (gK6_W.drop 39 |>.drop 23 |>.drop 2 |>.drop 19 |>.drop 2 |>.drop 19 |>.drop 2 |>.drop 22 |>.drop 2 |>.drop 24) := (gK6_we.drop 39 |>.drop 23 |>.drop 2 |>.drop 19 |>.drop 2 |>.drop 19 |>.drop 2 |>.drop 22 |>.drop 2 |>.drop 24).writesIn
theorem gR6p0_wr : WritesIn (gR6p0 (F := F)) (gR6_W.take 39) := (gR6_we.take 39).writesIn
theorem gR6p1_wr : WritesIn (gR6p1 (F := F)) (gR6_W.drop 39 |>.take 23) := (gR6_we.drop 39 |>.take 23).writesIn
theorem gR6p2_wr : WritesIn (gR6p2 (F := F)) (gR6_W.drop 39 |>.drop 23 |>.take 2) := (gR6_we.drop 39 |>.drop 23 |>.take 2).writesIn
theorem gR6p3_wr : WritesIn (gR6p3 (F := F)) (gR6_W.drop 39 |>.drop 23 |>.drop 2 |>.take 19) := (gR6_we.drop 39 |>.drop 23 |>.drop 2 |>.take 19).writesIn
theorem gR6p4_wr : WritesIn (gR6p4 (F := F)) (gR6_W.drop 39 |>.drop 23 |>.drop 2 |>.drop 19 |>.take 2) := (gR6_we.drop 39 |>.drop 23 |>.drop 2 |>.drop 19 |>.take 2).writesIn
theorem gR6p5_wr : WritesIn (gR6p5 (F := F)) (gR6_W.drop 39 |>.drop 23 |>.drop 2 |>.drop 19 |>.drop 2 |>.take 19) := (gR6_we.drop 39 |>.drop 23 |>.drop 2 |>.drop 19 |>.drop 2 |>.take 19).writesIn
theorem gR6p6_wr : WritesIn (gR6p6 (F := F)) (gR6_W.drop 39 |>.drop 23 |>.drop 2 |>.drop 19 |>.drop 2 |>.drop 19 |>.take 2) := (gR6_we.drop 39 |>.drop 23 |>.drop 2 |>.drop 19 |>.drop 2 |>.drop 19 |>.take 2).writesIn
theorem gR6p7_wr : WritesIn (gR6p7 (F := F)) (gR6_W.drop 39 |>.drop 23 |>.drop 2 |>.drop 19 |>.drop 2 |>.drop 19 |>.drop 2 |>.take 22) := (gR6_we.drop 39 |>.drop 23 |>.drop 2 |>.drop 19 |>.drop 2 |>.drop 19 |>.drop 2 |>.take 22).writesIn
theorem gR6p8_wr : WritesIn (gR6p8 (F := F)) (gR6_W.drop 39 |>.drop 23 |>.drop 2 |>.drop 19 |>.drop 2 |>.drop 19 |>.drop 2 |>.drop 22 |>.take 2) := (gR6_we.drop 39 |>.drop 23 |>.drop 2 |>.drop 19 |>.drop 2 |>.drop 19 |>.drop 2 |>.drop 22 |>.take 2).writesIn
theorem gR6p9_wr : WritesIn (gR6p9 (F := F)) (gR6_W.drop 39 |>.drop 23 |>.drop 2 |>.drop 19 |>.drop 2 |>.drop 19 |>.drop 2 |>.drop 22 |>.drop 2 |>.take 24) := (gR6_we.drop 39 |>.drop 23 |>.drop 2 |>.drop 19 |>.drop 2 |>.drop 19 |>.drop 2 |>.drop 22 |>.drop 2 |>.take 24).writesIn
theorem gR6p10_wr : WritesIn (gR6p10 (F := F)) (gR6_W.drop 39 |>.drop 23 |>.drop 2 |>.drop 19 |>.drop 2 |>.drop 19 |>.drop 2 |>.drop 22 |>.drop 2 |>.drop 24) := (gR6_we.drop 39 |>.drop 23 |>.drop 2 |>.drop 19 |>.drop 2 |>.drop 19 |>.drop 2 |>.drop 22 |>.drop 2 |>.drop 24).writesIn

set_option maxHeartbeats 1000000000 in
theorem g6p0 (X : Valuation Cert.KernelIdeal.τ Cert.KernelIdeal.sig (Elt F)) (Y : Valuation Cert.ReferenceIdeal.τ Cert.ReferenceIdeal.sig (Elt F))
    (h_cst_170 : X (Proc.devRef .tc Cert.KernelIdeal.main_cst_170) = Y (Proc.devRef .tc Cert.ReferenceIdeal.main_cst_182))
    (h_v12 : X (Proc.devRef .tc Cert.KernelIdeal.main_v12) = Y (Proc.devRef .tc Cert.ReferenceIdeal.main_v113))
    (h_cst_171 : X (Proc.devRef .tc Cert.KernelIdeal.main_cst_171) = Y (Proc.devRef .tc Cert.ReferenceIdeal.main_cst_183))
    (h_v14 : X (Proc.devRef .tc Cert.KernelIdeal.main_v14) = Y (Proc.devRef .tc Cert.ReferenceIdeal.main_v115)) :
    after gK6p0 X (Proc.devRef .tc Cert.KernelIdeal.main_v544) = after gR6p0 Y (Proc.devRef .tc Cert.ReferenceIdeal.main_v648)
    ∧ after gK6p0 X (Proc.devRef .tc Cert.KernelIdeal.main_v547) = after gR6p0 Y (Proc.devRef .tc Cert.ReferenceIdeal.main_v651)
    ∧ after gK6p0 X (Proc.devRef .tc Cert.KernelIdeal.main_v550) = after gR6p0 Y (Proc.devRef .tc Cert.ReferenceIdeal.main_v654)
    ∧ after gK6p0 X (Proc.devRef .tc Cert.KernelIdeal.main_v552) = after gR6p0 Y (Proc.devRef .tc Cert.ReferenceIdeal.main_v656) := by
  refine ⟨?_, ?_, ?_, ?_⟩
  all_goals simp only [gK6p0, gK6, Cert.KernelIdeal.Gen.hostOps0_45, Cert.KernelIdeal.Gen.hostOps0_46, Cert.KernelIdeal.Gen.hostOps0_47, Cert.KernelIdeal.Gen.hostOps0_48, Cert.KernelIdeal.Gen.hostOps0_49, Cert.KernelIdeal.Gen.hostOps0_50, Cert.KernelIdeal.Gen.hostOps0_51, Cert.KernelIdeal.Gen.hostOps0_52, gR6p0, gR6, Cert.ReferenceIdeal.Chunks.opsC18, Cert.ReferenceIdeal.Chunks.opsC19, Cert.ReferenceIdeal.Chunks.opsC20, List.cons_append, List.nil_append, List.append_assoc, List.drop_succ_cons, List.drop_zero, List.take_succ_cons, List.take_zero]
  all_goals eval_both
  all_goals try simp only [h_cst_170, h_v12, h_cst_171, h_v14]
  all_goals try rw [h_cst_170]
  all_goals try rw [h_v12]
  all_goals try rw [h_cst_171]
  all_goals try rw [h_v14]
  all_goals try rfl

set_option maxHeartbeats 1000000000 in
theorem g6p1 (X : Valuation Cert.KernelIdeal.τ Cert.KernelIdeal.sig (Elt F)) (Y : Valuation Cert.ReferenceIdeal.τ Cert.ReferenceIdeal.sig (Elt F))
    (h_v552 : X (Proc.devRef .tc Cert.KernelIdeal.main_v552) = Y (Proc.devRef .tc Cert.ReferenceIdeal.main_v656))
    (h_v550 : X (Proc.devRef .tc Cert.KernelIdeal.main_v550) = Y (Proc.devRef .tc Cert.ReferenceIdeal.main_v654))
    (h_v544 : X (Proc.devRef .tc Cert.KernelIdeal.main_v544) = Y (Proc.devRef .tc Cert.ReferenceIdeal.main_v648))
    (h_v547 : X (Proc.devRef .tc Cert.KernelIdeal.main_v547) = Y (Proc.devRef .tc Cert.ReferenceIdeal.main_v651)) :
    after gK6p1 X (Proc.devRef .tc Cert.KernelIdeal.main_v553) = after gR6p1 Y (Proc.devRef .tc Cert.ReferenceIdeal.main_v657)
    ∧ after gK6p1 X (Proc.devRef .tc Cert.KernelIdeal.main_v556) = after gR6p1 Y (Proc.devRef .tc Cert.ReferenceIdeal.main_v660)
    ∧ after gK6p1 X (Proc.devRef .tc Cert.KernelIdeal.main_v559) = after gR6p1 Y (Proc.devRef .tc Cert.ReferenceIdeal.main_v663)
    ∧ after gK6p1 X (Proc.devRef .tc Cert.KernelIdeal.main_v570) = after gR6p1 Y (Proc.devRef .tc Cert.ReferenceIdeal.main_v674)
    ∧ after gK6p1 X (Proc.devRef .tc Cert.KernelIdeal.main_v571) = after gR6p1 Y (Proc.devRef .tc Cert.ReferenceIdeal.main_v675) := by
  refine ⟨?_, ?_, ?_, ?_, ?_⟩
  all_goals simp only [gK6p1, gK6q1, gK6, Cert.KernelIdeal.Gen.hostOps0_45, Cert.KernelIdeal.Gen.hostOps0_46, Cert.KernelIdeal.Gen.hostOps0_47, Cert.KernelIdeal.Gen.hostOps0_48, Cert.KernelIdeal.Gen.hostOps0_49, Cert.KernelIdeal.Gen.hostOps0_50, Cert.KernelIdeal.Gen.hostOps0_51, Cert.KernelIdeal.Gen.hostOps0_52, gR6p1, gR6q1, gR6, Cert.ReferenceIdeal.Chunks.opsC18, Cert.ReferenceIdeal.Chunks.opsC19, Cert.ReferenceIdeal.Chunks.opsC20, List.cons_append, List.nil_append, List.append_assoc, List.drop_succ_cons, List.drop_zero, List.take_succ_cons, List.take_zero]
  all_goals eval_both
  all_goals try simp only [h_v552, h_v550, h_v544, h_v547]
  all_goals try rw [h_v552]
  all_goals try rw [h_v550]
  all_goals try rw [h_v544]
  all_goals try rw [h_v547]
  all_goals try rfl

set_option maxHeartbeats 1000000000 in
theorem g6p2 (X : Valuation Cert.KernelIdeal.τ Cert.KernelIdeal.sig (Elt F)) (Y : Valuation Cert.ReferenceIdeal.τ Cert.ReferenceIdeal.sig (Elt F))
    (h_v570 : X (Proc.devRef .tc Cert.KernelIdeal.main_v570) = Y (Proc.devRef .tc Cert.ReferenceIdeal.main_v674))
    (h_v571 : X (Proc.devRef .tc Cert.KernelIdeal.main_v571) = Y (Proc.devRef .tc Cert.ReferenceIdeal.main_v675))
    (h_v541 : X (Proc.devRef .tc Cert.KernelIdeal.main_v541) = Y (Proc.devRef .tc Cert.ReferenceIdeal.main_v645)) :
    after gK6p2 X (Proc.devRef .tc Cert.KernelIdeal.main_v573) = after gR6p2 Y (Proc.devRef .tc Cert.ReferenceIdeal.main_v677) := by
  simp only [gK6p2, gK6q1, gK6q2, gK6, Cert.KernelIdeal.Gen.hostOps0_45, Cert.KernelIdeal.Gen.hostOps0_46, Cert.KernelIdeal.Gen.hostOps0_47, Cert.KernelIdeal.Gen.hostOps0_48, Cert.KernelIdeal.Gen.hostOps0_49, Cert.KernelIdeal.Gen.hostOps0_50, Cert.KernelIdeal.Gen.hostOps0_51, Cert.KernelIdeal.Gen.hostOps0_52, gR6p2, gR6q1, gR6q2, gR6, Cert.ReferenceIdeal.Chunks.opsC18, Cert.ReferenceIdeal.Chunks.opsC19, Cert.ReferenceIdeal.Chunks.opsC20, List.cons_append, List.nil_append, List.append_assoc, List.drop_succ_cons, List.drop_zero, List.take_succ_cons, List.take_zero]
  eval_both
  all_goals try simp only [h_v570, h_v571, h_v541]
  all_goals try rw [h_v570]
  all_goals try rw [h_v571]
  all_goals try rw [h_v541]
  all_goals try rfl

set_option maxHeartbeats 1000000000 in
theorem g6p3 (X : Valuation Cert.KernelIdeal.τ Cert.KernelIdeal.sig (Elt F)) (Y : Valuation Cert.ReferenceIdeal.τ Cert.ReferenceIdeal.sig (Elt F))
    (h_v550 : X (Proc.devRef .tc Cert.KernelIdeal.main_v550) = Y (Proc.devRef .tc Cert.ReferenceIdeal.main_v654))
    (h_v553 : X (Proc.devRef .tc Cert.KernelIdeal.main_v553) = Y (Proc.devRef .tc Cert.ReferenceIdeal.main_v657)) :
    after gK6p3 X (Proc.devRef .tc Cert.KernelIdeal.main_v586) = after gR6p3 Y (Proc.devRef .tc Cert.ReferenceIdeal.main_v690)
    ∧ after gK6p3 X (Proc.devRef .tc Cert.KernelIdeal.main_v587) = after gR6p3 Y (Proc.devRef .tc Cert.ReferenceIdeal.main_v691) := by
  refine ⟨?_, ?_⟩
  all_goals simp only [gK6p3, gK6q1, gK6q2, gK6q3, gK6, Cert.KernelIdeal.Gen.hostOps0_45, Cert.KernelIdeal.Gen.hostOps0_46, Cert.KernelIdeal.Gen.hostOps0_47, Cert.KernelIdeal.Gen.hostOps0_48, Cert.KernelIdeal.Gen.hostOps0_49, Cert.KernelIdeal.Gen.hostOps0_50, Cert.KernelIdeal.Gen.hostOps0_51, Cert.KernelIdeal.Gen.hostOps0_52, gR6p3, gR6q1, gR6q2, gR6q3, gR6, Cert.ReferenceIdeal.Chunks.opsC18, Cert.ReferenceIdeal.Chunks.opsC19, Cert.ReferenceIdeal.Chunks.opsC20, List.cons_append, List.nil_append, List.append_assoc, List.drop_succ_cons, List.drop_zero, List.take_succ_cons, List.take_zero]
  all_goals eval_both
  all_goals try simp only [h_v550, h_v553]
  all_goals try rw [h_v550]
  all_goals try rw [h_v553]
  all_goals try rfl

set_option maxHeartbeats 1000000000 in
theorem g6p4 (X : Valuation Cert.KernelIdeal.τ Cert.KernelIdeal.sig (Elt F)) (Y : Valuation Cert.ReferenceIdeal.τ Cert.ReferenceIdeal.sig (Elt F))
    (h_v586 : X (Proc.devRef .tc Cert.KernelIdeal.main_v586) = Y (Proc.devRef .tc Cert.ReferenceIdeal.main_v690))
    (h_v587 : X (Proc.devRef .tc Cert.KernelIdeal.main_v587) = Y (Proc.devRef .tc Cert.ReferenceIdeal.main_v691))
    (h_v541 : X (Proc.devRef .tc Cert.KernelIdeal.main_v541) = Y (Proc.devRef .tc Cert.ReferenceIdeal.main_v645)) :
    after gK6p4 X (Proc.devRef .tc Cert.KernelIdeal.main_v589) = after gR6p4 Y (Proc.devRef .tc Cert.ReferenceIdeal.main_v693) := by
  simp only [gK6p4, gK6q1, gK6q2, gK6q3, gK6q4, gK6, Cert.KernelIdeal.Gen.hostOps0_45, Cert.KernelIdeal.Gen.hostOps0_46, Cert.KernelIdeal.Gen.hostOps0_47, Cert.KernelIdeal.Gen.hostOps0_48, Cert.KernelIdeal.Gen.hostOps0_49, Cert.KernelIdeal.Gen.hostOps0_50, Cert.KernelIdeal.Gen.hostOps0_51, Cert.KernelIdeal.Gen.hostOps0_52, gR6p4, gR6q1, gR6q2, gR6q3, gR6q4, gR6, Cert.ReferenceIdeal.Chunks.opsC18, Cert.ReferenceIdeal.Chunks.opsC19, Cert.ReferenceIdeal.Chunks.opsC20, List.cons_append, List.nil_append, List.append_assoc, List.drop_succ_cons, List.drop_zero, List.take_succ_cons, List.take_zero]
  eval_both
  all_goals try simp only [h_v586, h_v587, h_v541]
  all_goals try rw [h_v586]
  all_goals try rw [h_v587]
  all_goals try rw [h_v541]
  all_goals try rfl

set_option maxHeartbeats 1000000000 in
theorem g6p5 (X : Valuation Cert.KernelIdeal.τ Cert.KernelIdeal.sig (Elt F)) (Y : Valuation Cert.ReferenceIdeal.τ Cert.ReferenceIdeal.sig (Elt F))
    (h_v553 : X (Proc.devRef .tc Cert.KernelIdeal.main_v553) = Y (Proc.devRef .tc Cert.ReferenceIdeal.main_v657))
    (h_v550 : X (Proc.devRef .tc Cert.KernelIdeal.main_v550) = Y (Proc.devRef .tc Cert.ReferenceIdeal.main_v654)) :
    after gK6p5 X (Proc.devRef .tc Cert.KernelIdeal.main_v602) = after gR6p5 Y (Proc.devRef .tc Cert.ReferenceIdeal.main_v706)
    ∧ after gK6p5 X (Proc.devRef .tc Cert.KernelIdeal.main_v603) = after gR6p5 Y (Proc.devRef .tc Cert.ReferenceIdeal.main_v707) := by
  refine ⟨?_, ?_⟩
  all_goals simp only [gK6p5, gK6q1, gK6q2, gK6q3, gK6q4, gK6q5, gK6, Cert.KernelIdeal.Gen.hostOps0_45, Cert.KernelIdeal.Gen.hostOps0_46, Cert.KernelIdeal.Gen.hostOps0_47, Cert.KernelIdeal.Gen.hostOps0_48, Cert.KernelIdeal.Gen.hostOps0_49, Cert.KernelIdeal.Gen.hostOps0_50, Cert.KernelIdeal.Gen.hostOps0_51, Cert.KernelIdeal.Gen.hostOps0_52, gR6p5, gR6q1, gR6q2, gR6q3, gR6q4, gR6q5, gR6, Cert.ReferenceIdeal.Chunks.opsC18, Cert.ReferenceIdeal.Chunks.opsC19, Cert.ReferenceIdeal.Chunks.opsC20, List.cons_append, List.nil_append, List.append_assoc, List.drop_succ_cons, List.drop_zero, List.take_succ_cons, List.take_zero]
  all_goals eval_both
  all_goals try simp only [h_v553, h_v550]
  all_goals try rw [h_v553]
  all_goals try rw [h_v550]
  all_goals try rfl

set_option maxHeartbeats 1000000000 in
theorem g6p6 (X : Valuation Cert.KernelIdeal.τ Cert.KernelIdeal.sig (Elt F)) (Y : Valuation Cert.ReferenceIdeal.τ Cert.ReferenceIdeal.sig (Elt F))
    (h_v602 : X (Proc.devRef .tc Cert.KernelIdeal.main_v602) = Y (Proc.devRef .tc Cert.ReferenceIdeal.main_v706))
    (h_v603 : X (Proc.devRef .tc Cert.KernelIdeal.main_v603) = Y (Proc.devRef .tc Cert.ReferenceIdeal.main_v707))
    (h_v541 : X (Proc.devRef .tc Cert.KernelIdeal.main_v541) = Y (Proc.devRef .tc Cert.ReferenceIdeal.main_v645)) :
    after gK6p6 X (Proc.devRef .tc Cert.KernelIdeal.main_v605) = after gR6p6 Y (Proc.devRef .tc Cert.ReferenceIdeal.main_v709) := by
  simp only [gK6p6, gK6q1, gK6q2, gK6q3, gK6q4, gK6q5, gK6q6, gK6, Cert.KernelIdeal.Gen.hostOps0_45, Cert.KernelIdeal.Gen.hostOps0_46, Cert.KernelIdeal.Gen.hostOps0_47, Cert.KernelIdeal.Gen.hostOps0_48, Cert.KernelIdeal.Gen.hostOps0_49, Cert.KernelIdeal.Gen.hostOps0_50, Cert.KernelIdeal.Gen.hostOps0_51, Cert.KernelIdeal.Gen.hostOps0_52, gR6p6, gR6q1, gR6q2, gR6q3, gR6q4, gR6q5, gR6q6, gR6, Cert.ReferenceIdeal.Chunks.opsC18, Cert.ReferenceIdeal.Chunks.opsC19, Cert.ReferenceIdeal.Chunks.opsC20, List.cons_append, List.nil_append, List.append_assoc, List.drop_succ_cons, List.drop_zero, List.take_succ_cons, List.take_zero]
  eval_both
  all_goals try simp only [h_v602, h_v603, h_v541]
  all_goals try rw [h_v602]
  all_goals try rw [h_v603]
  all_goals try rw [h_v541]
  all_goals try rfl

set_option maxHeartbeats 1000000000 in
theorem g6p7 (X : Valuation Cert.KernelIdeal.τ Cert.KernelIdeal.sig (Elt F)) (Y : Valuation Cert.ReferenceIdeal.τ Cert.ReferenceIdeal.sig (Elt F))
    (h_v553 : X (Proc.devRef .tc Cert.KernelIdeal.main_v553) = Y (Proc.devRef .tc Cert.ReferenceIdeal.main_v657))
    (h_v550 : X (Proc.devRef .tc Cert.KernelIdeal.main_v550) = Y (Proc.devRef .tc Cert.ReferenceIdeal.main_v654)) :
    after gK6p7 X (Proc.devRef .tc Cert.KernelIdeal.main_v620) = after gR6p7 Y (Proc.devRef .tc Cert.ReferenceIdeal.main_v724)
    ∧ after gK6p7 X (Proc.devRef .tc Cert.KernelIdeal.main_v621) = after gR6p7 Y (Proc.devRef .tc Cert.ReferenceIdeal.main_v725) := by
  refine ⟨?_, ?_⟩
  all_goals simp only [gK6p7, gK6q1, gK6q2, gK6q3, gK6q4, gK6q5, gK6q6, gK6q7, gK6, Cert.KernelIdeal.Gen.hostOps0_45, Cert.KernelIdeal.Gen.hostOps0_46, Cert.KernelIdeal.Gen.hostOps0_47, Cert.KernelIdeal.Gen.hostOps0_48, Cert.KernelIdeal.Gen.hostOps0_49, Cert.KernelIdeal.Gen.hostOps0_50, Cert.KernelIdeal.Gen.hostOps0_51, Cert.KernelIdeal.Gen.hostOps0_52, gR6p7, gR6q1, gR6q2, gR6q3, gR6q4, gR6q5, gR6q6, gR6q7, gR6, Cert.ReferenceIdeal.Chunks.opsC18, Cert.ReferenceIdeal.Chunks.opsC19, Cert.ReferenceIdeal.Chunks.opsC20, List.cons_append, List.nil_append, List.append_assoc, List.drop_succ_cons, List.drop_zero, List.take_succ_cons, List.take_zero]
  all_goals eval_both
  all_goals try simp only [h_v553, h_v550]
  all_goals try rw [h_v553]
  all_goals try rw [h_v550]
  all_goals try rfl

set_option maxHeartbeats 1000000000 in
theorem g6p8 (X : Valuation Cert.KernelIdeal.τ Cert.KernelIdeal.sig (Elt F)) (Y : Valuation Cert.ReferenceIdeal.τ Cert.ReferenceIdeal.sig (Elt F))
    (h_v620 : X (Proc.devRef .tc Cert.KernelIdeal.main_v620) = Y (Proc.devRef .tc Cert.ReferenceIdeal.main_v724))
    (h_v621 : X (Proc.devRef .tc Cert.KernelIdeal.main_v621) = Y (Proc.devRef .tc Cert.ReferenceIdeal.main_v725))
    (h_v541 : X (Proc.devRef .tc Cert.KernelIdeal.main_v541) = Y (Proc.devRef .tc Cert.ReferenceIdeal.main_v645)) :
    after gK6p8 X (Proc.devRef .tc Cert.KernelIdeal.main_v623) = after gR6p8 Y (Proc.devRef .tc Cert.ReferenceIdeal.main_v727) := by
  simp only [gK6p8, gK6q1, gK6q2, gK6q3, gK6q4, gK6q5, gK6q6, gK6q7, gK6q8, gK6, Cert.KernelIdeal.Gen.hostOps0_45, Cert.KernelIdeal.Gen.hostOps0_46, Cert.KernelIdeal.Gen.hostOps0_47, Cert.KernelIdeal.Gen.hostOps0_48, Cert.KernelIdeal.Gen.hostOps0_49, Cert.KernelIdeal.Gen.hostOps0_50, Cert.KernelIdeal.Gen.hostOps0_51, Cert.KernelIdeal.Gen.hostOps0_52, gR6p8, gR6q1, gR6q2, gR6q3, gR6q4, gR6q5, gR6q6, gR6q7, gR6q8, gR6, Cert.ReferenceIdeal.Chunks.opsC18, Cert.ReferenceIdeal.Chunks.opsC19, Cert.ReferenceIdeal.Chunks.opsC20, List.cons_append, List.nil_append, List.append_assoc, List.drop_succ_cons, List.drop_zero, List.take_succ_cons, List.take_zero]
  eval_both
  all_goals try simp only [h_v620, h_v621, h_v541]
  all_goals try rw [h_v620]
  all_goals try rw [h_v621]
  all_goals try rw [h_v541]
  all_goals try rfl

set_option maxHeartbeats 1000000000 in
theorem g6p9 (X : Valuation Cert.KernelIdeal.τ Cert.KernelIdeal.sig (Elt F)) (Y : Valuation Cert.ReferenceIdeal.τ Cert.ReferenceIdeal.sig (Elt F))
    (h_v556 : X (Proc.devRef .tc Cert.KernelIdeal.main_v556) = Y (Proc.devRef .tc Cert.ReferenceIdeal.main_v660))
    (h_v573 : X (Proc.devRef .tc Cert.KernelIdeal.main_v573) = Y (Proc.devRef .tc Cert.ReferenceIdeal.main_v677))
    (h_v589 : X (Proc.devRef .tc Cert.KernelIdeal.main_v589) = Y (Proc.devRef .tc Cert.ReferenceIdeal.main_v693))
    (h_v559 : X (Proc.devRef .tc Cert.KernelIdeal.main_v559) = Y (Proc.devRef .tc Cert.ReferenceIdeal.main_v663))
    (h_v605 : X (Proc.devRef .tc Cert.KernelIdeal.main_v605) = Y (Proc.devRef .tc Cert.ReferenceIdeal.main_v709))
    (h_v623 : X (Proc.devRef .tc Cert.KernelIdeal.main_v623) = Y (Proc.devRef .tc Cert.ReferenceIdeal.main_v727)) :
    after gK6p9 X (Proc.devRef .tc Cert.KernelIdeal.main_v644) = after gR6p9 Y (Proc.devRef .tc Cert.ReferenceIdeal.main_v748) := by
  simp only [gK6p9, gK6q1, gK6q2, gK6q3, gK6q4, gK6q5, gK6q6, gK6q7, gK6q8, gK6q9, gK6, Cert.KernelIdeal.Gen.hostOps0_45, Cert.KernelIdeal.Gen.hostOps0_46, Cert.KernelIdeal.Gen.hostOps0_47, Cert.KernelIdeal.Gen.hostOps0_48, Cert.KernelIdeal.Gen.hostOps0_49, Cert.KernelIdeal.Gen.hostOps0_50, Cert.KernelIdeal.Gen.hostOps0_51, Cert.KernelIdeal.Gen.hostOps0_52, gR6p9, gR6q1, gR6q2, gR6q3, gR6q4, gR6q5, gR6q6, gR6q7, gR6q8, gR6q9, gR6, Cert.ReferenceIdeal.Chunks.opsC18, Cert.ReferenceIdeal.Chunks.opsC19, Cert.ReferenceIdeal.Chunks.opsC20, List.cons_append, List.nil_append, List.append_assoc, List.drop_succ_cons, List.drop_zero, List.take_succ_cons, List.take_zero]
  eval_both
  all_goals try simp only [h_v556, h_v573, h_v589, h_v559, h_v605, h_v623]
  all_goals try rw [h_v556]
  all_goals try rw [h_v573]
  all_goals try rw [h_v589]
  all_goals try rw [h_v559]
  all_goals try rw [h_v605]
  all_goals try rw [h_v623]
  all_goals try rfl

set_option maxHeartbeats 400000000 in
theorem g6_all (X : Valuation Cert.KernelIdeal.τ Cert.KernelIdeal.sig (Elt F)) (Y : Valuation Cert.ReferenceIdeal.τ Cert.ReferenceIdeal.sig (Elt F))
    (h_cst_170 : X (Proc.devRef .tc Cert.KernelIdeal.main_cst_170) = Y (Proc.devRef .tc Cert.ReferenceIdeal.main_cst_182))
    (h_v12 : X (Proc.devRef .tc Cert.KernelIdeal.main_v12) = Y (Proc.devRef .tc Cert.ReferenceIdeal.main_v113))
    (h_cst_171 : X (Proc.devRef .tc Cert.KernelIdeal.main_cst_171) = Y (Proc.devRef .tc Cert.ReferenceIdeal.main_cst_183))
    (h_v14 : X (Proc.devRef .tc Cert.KernelIdeal.main_v14) = Y (Proc.devRef .tc Cert.ReferenceIdeal.main_v115))
    (h_v541 : X (Proc.devRef .tc Cert.KernelIdeal.main_v541) = Y (Proc.devRef .tc Cert.ReferenceIdeal.main_v645)) :
    after gK6 X (Proc.devRef .tc Cert.KernelIdeal.main_v644) = after gR6 Y (Proc.devRef .tc Cert.ReferenceIdeal.main_v748) := by
  rw [gK6_split, gR6_split]
  simp only [StableHlo.after_append]
  have c1 := g6p0 _ _ h_cst_170 h_v12 h_cst_171 h_v14
  have a1_v544 := c1.1
  have a1_v547 := c1.2.1
  have a1_v550 := c1.2.2.1
  have a1_v552 := c1.2.2.2
  have a1_v541 := (keep_of_wr gK6p0_wr (by decide) _).trans (h_v541.trans (keep_of_wr gR6p0_wr (by decide) _).symm)
  have c2 := g6p1 _ _ a1_v552 a1_v550 a1_v544 a1_v547
  have a2_v553 := c2.1
  have a2_v556 := c2.2.1
  have a2_v559 := c2.2.2.1
  have a2_v570 := c2.2.2.2.1
  have a2_v571 := c2.2.2.2.2
  have a2_v541 := (keep_of_wr gK6p1_wr (by decide) _).trans (a1_v541.trans (keep_of_wr gR6p1_wr (by decide) _).symm)
  have a2_v550 := (keep_of_wr gK6p1_wr (by decide) _).trans (a1_v550.trans (keep_of_wr gR6p1_wr (by decide) _).symm)
  have a3_v573 := g6p2 _ _ a2_v570 a2_v571 a2_v541
  have a3_v541 := (keep_of_wr gK6p2_wr (by decide) _).trans (a2_v541.trans (keep_of_wr gR6p2_wr (by decide) _).symm)
  have a3_v550 := (keep_of_wr gK6p2_wr (by decide) _).trans (a2_v550.trans (keep_of_wr gR6p2_wr (by decide) _).symm)
  have a3_v553 := (keep_of_wr gK6p2_wr (by decide) _).trans (a2_v553.trans (keep_of_wr gR6p2_wr (by decide) _).symm)
  have a3_v556 := (keep_of_wr gK6p2_wr (by decide) _).trans (a2_v556.trans (keep_of_wr gR6p2_wr (by decide) _).symm)
  have a3_v559 := (keep_of_wr gK6p2_wr (by decide) _).trans (a2_v559.trans (keep_of_wr gR6p2_wr (by decide) _).symm)
  have c4 := g6p3 _ _ a3_v550 a3_v553
  have a4_v586 := c4.1
  have a4_v587 := c4.2
  have a4_v541 := (keep_of_wr gK6p3_wr (by decide) _).trans (a3_v541.trans (keep_of_wr gR6p3_wr (by decide) _).symm)
  have a4_v550 := (keep_of_wr gK6p3_wr (by decide) _).trans (a3_v550.trans (keep_of_wr gR6p3_wr (by decide) _).symm)
  have a4_v553 := (keep_of_wr gK6p3_wr (by decide) _).trans (a3_v553.trans (keep_of_wr gR6p3_wr (by decide) _).symm)
  have a4_v556 := (keep_of_wr gK6p3_wr (by decide) _).trans (a3_v556.trans (keep_of_wr gR6p3_wr (by decide) _).symm)
  have a4_v559 := (keep_of_wr gK6p3_wr (by decide) _).trans (a3_v559.trans (keep_of_wr gR6p3_wr (by decide) _).symm)
  have a4_v573 := (keep_of_wr gK6p3_wr (by decide) _).trans (a3_v573.trans (keep_of_wr gR6p3_wr (by decide) _).symm)
  have a5_v589 := g6p4 _ _ a4_v586 a4_v587 a4_v541
  have a5_v541 := (keep_of_wr gK6p4_wr (by decide) _).trans (a4_v541.trans (keep_of_wr gR6p4_wr (by decide) _).symm)
  have a5_v550 := (keep_of_wr gK6p4_wr (by decide) _).trans (a4_v550.trans (keep_of_wr gR6p4_wr (by decide) _).symm)
  have a5_v553 := (keep_of_wr gK6p4_wr (by decide) _).trans (a4_v553.trans (keep_of_wr gR6p4_wr (by decide) _).symm)
  have a5_v556 := (keep_of_wr gK6p4_wr (by decide) _).trans (a4_v556.trans (keep_of_wr gR6p4_wr (by decide) _).symm)
  have a5_v559 := (keep_of_wr gK6p4_wr (by decide) _).trans (a4_v559.trans (keep_of_wr gR6p4_wr (by decide) _).symm)
  have a5_v573 := (keep_of_wr gK6p4_wr (by decide) _).trans (a4_v573.trans (keep_of_wr gR6p4_wr (by decide) _).symm)
  have c6 := g6p5 _ _ a5_v553 a5_v550
  have a6_v602 := c6.1
  have a6_v603 := c6.2
  have a6_v541 := (keep_of_wr gK6p5_wr (by decide) _).trans (a5_v541.trans (keep_of_wr gR6p5_wr (by decide) _).symm)
  have a6_v550 := (keep_of_wr gK6p5_wr (by decide) _).trans (a5_v550.trans (keep_of_wr gR6p5_wr (by decide) _).symm)
  have a6_v553 := (keep_of_wr gK6p5_wr (by decide) _).trans (a5_v553.trans (keep_of_wr gR6p5_wr (by decide) _).symm)
  have a6_v556 := (keep_of_wr gK6p5_wr (by decide) _).trans (a5_v556.trans (keep_of_wr gR6p5_wr (by decide) _).symm)
  have a6_v559 := (keep_of_wr gK6p5_wr (by decide) _).trans (a5_v559.trans (keep_of_wr gR6p5_wr (by decide) _).symm)
  have a6_v573 := (keep_of_wr gK6p5_wr (by decide) _).trans (a5_v573.trans (keep_of_wr gR6p5_wr (by decide) _).symm)
  have a6_v589 := (keep_of_wr gK6p5_wr (by decide) _).trans (a5_v589.trans (keep_of_wr gR6p5_wr (by decide) _).symm)
  have a7_v605 := g6p6 _ _ a6_v602 a6_v603 a6_v541
  have a7_v541 := (keep_of_wr gK6p6_wr (by decide) _).trans (a6_v541.trans (keep_of_wr gR6p6_wr (by decide) _).symm)
  have a7_v550 := (keep_of_wr gK6p6_wr (by decide) _).trans (a6_v550.trans (keep_of_wr gR6p6_wr (by decide) _).symm)
  have a7_v553 := (keep_of_wr gK6p6_wr (by decide) _).trans (a6_v553.trans (keep_of_wr gR6p6_wr (by decide) _).symm)
  have a7_v556 := (keep_of_wr gK6p6_wr (by decide) _).trans (a6_v556.trans (keep_of_wr gR6p6_wr (by decide) _).symm)
  have a7_v559 := (keep_of_wr gK6p6_wr (by decide) _).trans (a6_v559.trans (keep_of_wr gR6p6_wr (by decide) _).symm)
  have a7_v573 := (keep_of_wr gK6p6_wr (by decide) _).trans (a6_v573.trans (keep_of_wr gR6p6_wr (by decide) _).symm)
  have a7_v589 := (keep_of_wr gK6p6_wr (by decide) _).trans (a6_v589.trans (keep_of_wr gR6p6_wr (by decide) _).symm)
  have c8 := g6p7 _ _ a7_v553 a7_v550
  have a8_v620 := c8.1
  have a8_v621 := c8.2
  have a8_v541 := (keep_of_wr gK6p7_wr (by decide) _).trans (a7_v541.trans (keep_of_wr gR6p7_wr (by decide) _).symm)
  have a8_v556 := (keep_of_wr gK6p7_wr (by decide) _).trans (a7_v556.trans (keep_of_wr gR6p7_wr (by decide) _).symm)
  have a8_v559 := (keep_of_wr gK6p7_wr (by decide) _).trans (a7_v559.trans (keep_of_wr gR6p7_wr (by decide) _).symm)
  have a8_v573 := (keep_of_wr gK6p7_wr (by decide) _).trans (a7_v573.trans (keep_of_wr gR6p7_wr (by decide) _).symm)
  have a8_v589 := (keep_of_wr gK6p7_wr (by decide) _).trans (a7_v589.trans (keep_of_wr gR6p7_wr (by decide) _).symm)
  have a8_v605 := (keep_of_wr gK6p7_wr (by decide) _).trans (a7_v605.trans (keep_of_wr gR6p7_wr (by decide) _).symm)
  have a9_v623 := g6p8 _ _ a8_v620 a8_v621 a8_v541
  have a9_v556 := (keep_of_wr gK6p8_wr (by decide) _).trans (a8_v556.trans (keep_of_wr gR6p8_wr (by decide) _).symm)
  have a9_v559 := (keep_of_wr gK6p8_wr (by decide) _).trans (a8_v559.trans (keep_of_wr gR6p8_wr (by decide) _).symm)
  have a9_v573 := (keep_of_wr gK6p8_wr (by decide) _).trans (a8_v573.trans (keep_of_wr gR6p8_wr (by decide) _).symm)
  have a9_v589 := (keep_of_wr gK6p8_wr (by decide) _).trans (a8_v589.trans (keep_of_wr gR6p8_wr (by decide) _).symm)
  have a9_v605 := (keep_of_wr gK6p8_wr (by decide) _).trans (a8_v605.trans (keep_of_wr gR6p8_wr (by decide) _).symm)
  have a10_v644 := g6p9 _ _ a9_v556 a9_v573 a9_v589 a9_v559 a9_v605 a9_v623
  have a11_v644 := (keep_of_wr gK6p10_wr (by decide) _).trans (a10_v644.trans (keep_of_wr gR6p10_wr (by decide) _).symm)
  exact a11_v644

end Cert.Corr

end
-- ==== Proof.CorrAll.lean ====
/-
  The six interpolated feature arrays are the same on both sides. Level by level: a group's results agree because what it
  reads agrees, and a buffer a group does not write is carried through it.
-/
import proofs.«414985_j5068061409687_4_alg».proof.Proof.CorrDefs
import proofs.«414985_j5068061409687_4_alg».proof.Proof.CorrG0
import proofs.«414985_j5068061409687_4_alg».proof.Proof.CorrG1
import proofs.«414985_j5068061409687_4_alg».proof.Proof.CorrG2
import proofs.«414985_j5068061409687_4_alg».proof.Proof.CorrG3
import proofs.«414985_j5068061409687_4_alg».proof.Proof.CorrG4
import proofs.«414985_j5068061409687_4_alg».proof.Proof.CorrG5
import proofs.«414985_j5068061409687_4_alg».proof.Proof.CorrG6

set_option maxRecDepth 65536

noncomputable section

namespace Cert.Corr

open Idealize.ShloMosaic Idealize.ShloMosaic.TcCoe Idealize.SL.Sem Idealize.ShloMosaic.StableHlo Cert.LibAfter

variable {F : FTy → Type} [FloatOps F]

set_option maxHeartbeats 40000000 in
/-- Launch contents that agree on the point, time and plane arguments give the same six feature arrays after the last group. -/
theorem feats_agree (M : Valuation Cert.KernelIdeal.τ Cert.KernelIdeal.sig (Elt F)) (M' : Valuation Cert.ReferenceIdeal.τ Cert.ReferenceIdeal.sig (Elt F))
    (h_arg0 : M (Proc.devRef .tc Cert.KernelIdeal.main_arg0) = M' (Proc.devRef .tc Cert.ReferenceIdeal.main_arg0))
    (h_arg5 : M (Proc.devRef .tc Cert.KernelIdeal.main_arg5) = M' (Proc.devRef .tc Cert.ReferenceIdeal.main_arg5))
    (h_arg7 : M (Proc.devRef .tc Cert.KernelIdeal.main_arg7) = M' (Proc.devRef .tc Cert.ReferenceIdeal.main_arg7))
    (h_arg8 : M (Proc.devRef .tc Cert.KernelIdeal.main_arg8) = M' (Proc.devRef .tc Cert.ReferenceIdeal.main_arg8)) :
    lvK7 M (Proc.devRef .tc Cert.KernelIdeal.main_v119) = lvR7 M' (Proc.devRef .tc Cert.ReferenceIdeal.main_v220)
    ∧ lvK7 M (Proc.devRef .tc Cert.KernelIdeal.main_v224) = lvR7 M' (Proc.devRef .tc Cert.ReferenceIdeal.main_v325)
    ∧ lvK7 M (Proc.devRef .tc Cert.KernelIdeal.main_v329) = lvR7 M' (Proc.devRef .tc Cert.ReferenceIdeal.main_v431)
    ∧ lvK7 M (Proc.devRef .tc Cert.KernelIdeal.main_v434) = lvR7 M' (Proc.devRef .tc Cert.ReferenceIdeal.main_v537)
    ∧ lvK7 M (Proc.devRef .tc Cert.KernelIdeal.main_v539) = lvR7 M' (Proc.devRef .tc Cert.ReferenceIdeal.main_v642)
    ∧ lvK7 M (Proc.devRef .tc Cert.KernelIdeal.main_v644) = lvR7 M' (Proc.devRef .tc Cert.ReferenceIdeal.main_v748) := by
  have a0_arg0 := h_arg0.trans (kRc (by decide) M').symm
  have a0_arg5 := h_arg5.trans (kRc (by decide) M').symm
  have a0_arg7 := h_arg7.trans (kRc (by decide) M').symm
  have a0_arg8 := h_arg8.trans (kRc (by decide) M').symm
  have a1_v8 := g0_v8 M (lvR0 M') a0_arg0 a0_arg5
  have a1_v10 := g0_v10 M (lvR0 M') a0_arg0 a0_arg5
  have a1_v12 := g0_v12 M (lvR0 M') a0_arg0 a0_arg5
  have a1_v14 := g0_v14 M (lvR0 M') a0_arg0 a0_arg5
  have a1_arg7 := (kK0 (by decide) M).trans (a0_arg7.trans (kR0 (by decide) (lvR0 M')).symm)
  have a1_arg8 := (kK0 (by decide) M).trans (a0_arg8.trans (kR0 (by decide) (lvR0 M')).symm)
  have c1 := g1_all (lvK1 M) (lvR1 M') a1_arg7 a1_v8 a1_v10
  have a2_cst_38 := c1.1
  have a2_cst_39 := c1.2.1
  have a2_v121 := c1.2.2.1
  have a2_v119 := c1.2.2.2
  have a2_arg7 := (kK1 (by decide) (lvK1 M)).trans (a1_arg7.trans (kR1 (by decide) (lvR1 M')).symm)
  have a2_arg8 := (kK1 (by decide) (lvK1 M)).trans (a1_arg8.trans (kR1 (by decide) (lvR1 M')).symm)
  have a2_v8 := (kK1 (by decide) (lvK1 M)).trans (a1_v8.trans (kR1 (by decide) (lvR1 M')).symm)
  have a2_v10 := (kK1 (by decide) (lvK1 M)).trans (a1_v10.trans (kR1 (by decide) (lvR1 M')).symm)
  have a2_v12 := (kK1 (by decide) (lvK1 M)).trans (a1_v12.trans (kR1 (by decide) (lvR1 M')).symm)
  have a2_v14 := (kK1 (by decide) (lvK1 M)).trans (a1_v14.trans (kR1 (by decide) (lvR1 M')).symm)
  have c2 := g2_all (lvK2 M) (lvR2 M') a2_cst_38 a2_v8 a2_cst_39 a2_v12 a2_v121 a2_arg7
  have a3_cst_71 := c2.1
  have a3_cst_72 := c2.2.1
  have a3_v226 := c2.2.2.1
  have a3_v224 := c2.2.2.2
  have a3_arg8 := (kK2 (by decide) (lvK2 M)).trans (a2_arg8.trans (kR2 (by decide) (lvR2 M')).symm)
  have a3_v8 := (kK2 (by decide) (lvK2 M)).trans (a2_v8.trans (kR2 (by decide) (lvR2 M')).symm)
  have a3_v10 := (kK2 (by decide) (lvK2 M)).trans (a2_v10.trans (kR2 (by decide) (lvR2 M')).symm)
  have a3_v12 := (kK2 (by decide) (lvK2 M)).trans (a2_v12.trans (kR2 (by decide) (lvR2 M')).symm)
  have a3_v14 := (kK2 (by decide) (lvK2 M)).trans (a2_v14.trans (kR2 (by decide) (lvR2 M')).symm)
  have a3_v119 := (kK2 (by decide) (lvK2 M)).trans (a2_v119.trans (kR2 (by decide) (lvR2 M')).symm)
  have c3 := g3_all (lvK3 M) (lvR3 M') a3_cst_71 a3_v10 a3_cst_72 a3_v12 a3_v226 a3_arg8
  have a4_cst_104 := c3.1
  have a4_cst_105 := c3.2.1
  have a4_v331 := c3.2.2.1
  have a4_v329 := c3.2.2.2
  have a4_arg8 := (kK3 (by decide) (lvK3 M)).trans (a3_arg8.trans (kR3 (by decide) (lvR3 M')).symm)
  have a4_v8 := (kK3 (by decide) (lvK3 M)).trans (a3_v8.trans (kR3 (by decide) (lvR3 M')).symm)
  have a4_v10 := (kK3 (by decide) (lvK3 M)).trans (a3_v10.trans (kR3 (by decide) (lvR3 M')).symm)
  have a4_v12 := (kK3 (by decide) (lvK3 M)).trans (a3_v12.trans (kR3 (by decide) (lvR3 M')).symm)
  have a4_v14 := (kK3 (by decide) (lvK3 M)).trans (a3_v14.trans (kR3 (by decide) (lvR3 M')).symm)
  have a4_v119 := (kK3 (by decide) (lvK3 M)).trans (a3_v119.trans (kR3 (by decide) (lvR3 M')).symm)
  have a4_v224 := (kK3 (by decide) (lvK3 M)).trans (a3_v224.trans (kR3 (by decide) (lvR3 M')).symm)
  have c4 := g4_all (lvK4 M) (lvR4 M') a4_cst_104 a4_v8 a4_cst_105 a4_v14 a4_v331 a4_arg8
  have a5_cst_137 := c4.1
  have a5_cst_138 := c4.2.1
  have a5_v436 := c4.2.2.1
  have a5_v434 := c4.2.2.2
  have a5_arg8 := (kK4 (by decide) (lvK4 M)).trans (a4_arg8.trans (kR4 (by decide) (lvR4 M')).symm)
  have a5_v10 := (kK4 (by decide) (lvK4 M)).trans (a4_v10.trans (kR4 (by decide) (lvR4 M')).symm)
  have a5_v12 := (kK4 (by decide) (lvK4 M)).trans (a4_v12.trans (kR4 (by decide) (lvR4 M')).symm)
  have a5_v14 := (kK4 (by decide) (lvK4 M)).trans (a4_v14.trans (kR4 (by decide) (lvR4 M')).symm)
  have a5_v119 := (kK4 (by decide) (lvK4 M)).trans (a4_v119.trans (kR4 (by decide) (lvR4 M')).symm)
  have a5_v224 := (kK4 (by decide) (lvK4 M)).trans (a4_v224.trans (kR4 (by decide) (lvR4 M')).symm)
  have a5_v329 := (kK4 (by decide) (lvK4 M)).trans (a4_v329.trans (kR4 (by decide) (lvR4 M')).symm)
  have c5 := g5_all (lvK5 M) (lvR5 M') a5_cst_137 a5_v10 a5_cst_138 a5_v14 a5_v436 a5_arg8
  have a6_cst_170 := c5.1
  have a6_cst_171 := c5.2.1
  have a6_v541 := c5.2.2.1
  have a6_v539 := c5.2.2.2
  have a6_v12 := (kK5 (by decide) (lvK5 M)).trans (a5_v12.trans (kR5 (by decide) (lvR5 M')).symm)
  have a6_v14 := (kK5 (by decide) (lvK5 M)).trans (a5_v14.trans (kR5 (by decide) (lvR5 M')).symm)
  have a6_v119 := (kK5 (by decide) (lvK5 M)).trans (a5_v119.trans (kR5 (by decide) (lvR5 M')).symm)
  have a6_v224 := (kK5 (by decide) (lvK5 M)).trans (a5_v224.trans (kR5 (by decide) (lvR5 M')).symm)
  have a6_v329 := (kK5 (by decide) (lvK5 M)).trans (a5_v329.trans (kR5 (by decide) (lvR5 M')).symm)
  have a6_v434 := (kK5 (by decide) (lvK5 M)).trans (a5_v434.trans (kR5 (by decide) (lvR5 M')).symm)
  have a7_v644 := g6_all (lvK6 M) (lvR6 M') a6_cst_170 a6_v12 a6_cst_171 a6_v14 a6_v541
  have a7_v119 := (kK6 (by decide) (lvK6 M)).trans (a6_v119.trans (kR6 (by decide) (lvR6 M')).symm)
  have a7_v224 := (kK6 (by decide) (lvK6 M)).trans (a6_v224.trans (kR6 (by decide) (lvR6 M')).symm)
  have a7_v329 := (kK6 (by decide) (lvK6 M)).trans (a6_v329.trans (kR6 (by decide) (lvR6 M')).symm)
  have a7_v434 := (kK6 (by decide) (lvK6 M)).trans (a6_v434.trans (kR6 (by decide) (lvR6 M')).symm)
  have a7_v539 := (kK6 (by decide) (lvK6 M)).trans (a6_v539.trans (kR6 (by decide) (lvR6 M')).symm)
  exact ⟨a7_v119, a7_v224, a7_v329, a7_v434, a7_v539, a7_v644⟩

end Cert.Corr

end
-- ==== Proof.CorrExtra.lean ====
/-
  What the group-by-group comparison leaves over: the reference's running products of feature arrays, the kernel's joined
  feature array and regrouped residual, and the arguments, which no group writes.
-/
import proofs.«414985_j5068061409687_4_alg».proof.Proof.CorrDefs

set_option maxRecDepth 16384

noncomputable section

namespace Cert.Corr

open Idealize.ShloMosaic Idealize.ShloMosaic.TcCoe Idealize.SL.Sem Idealize.ShloMosaic.StableHlo Cert.LibAfter

variable {F : FTy → Type} [FloatOps F]

/-- A line's tail from position `n`, run after its first `n` operations, is the line. -/
theorem after_drop {τ : Topo} {sig : RefSig} {Val : EltTy → Type} (pre ops tl : List (HloOp τ sig Val)) (n : Nat)
    (h : List.drop n ops = tl) (Y : Valuation τ sig Val) :
    after (pre ++ ops) Y = after tl (after (pre ++ List.take n ops) Y) := by
  rw [← h, ← StableHlo.after_append, List.append_assoc, List.take_append_drop]

section RefSide
open Cert.ReferenceIdeal Cert.ReferenceIdeal.Gen Cert.ReferenceIdeal.Chunks

/-- The last five operations of a lookup's last chunk. -/
theorem dropC8 : List.drop 48 (opsC8 : List (HloOp τ sig (Elt F))) =
    [ binary main_v220 main_v325 main_v326 (mulf : (⟨S500000x32, .f32⟩ : BufTy).Contents (Elt F) → (⟨S500000x32, .f32⟩ : BufTy).Contents (Elt F) → (⟨S500000x32, .f32⟩ : BufTy).Contents (Elt F)),
      unary main_arg7 main_v327 ((extractStridedSlice S1x128x128x32 ![2, 0, 0, 0] · slices_S3x128x128x32_S1x128x128x32_2_0_0_0) : (⟨S3x128x128x32, .f32⟩ : BufTy).Contents (Elt F) → (⟨S1x128x128x32, .f32⟩ : BufTy).Contents (Elt F)),
      reshape main_v327 main_v328 rfl shapeCasts_S1x128x128x32_S128x128x32,
      nullary main_cst_83 (constant S_ .f32 0x00000000#32),
      nullary main_cst_84 (constant S_ .f32 0x3F800000#32) ] := rfl

theorem dropC11 : List.drop 48 (opsC11 : List (HloOp τ sig (Elt F))) =
    [ binary main_v326 main_v431 main_v432 (mulf : (⟨S500000x32, .f32⟩ : BufTy).Contents (Elt F) → (⟨S500000x32, .f32⟩ : BufTy).Contents (Elt F) → (⟨S500000x32, .f32⟩ : BufTy).Contents (Elt F)),
      unary main_arg8 main_v433 ((extractStridedSlice S1x128x128x32 ![0, 0, 0, 0] · slices_S3x128x128x32_S1x128x128x32_0_0_0_0) : (⟨S3x128x128x32, .f32⟩ : BufTy).Contents (Elt F) → (⟨S1x128x128x32, .f32⟩ : BufTy).Contents (Elt F)),
      reshape main_v433 main_v434 rfl shapeCasts_S1x128x128x32_S128x128x32,
      nullary main_cst_116 (constant S_ .f32 0x00000000#32),
      nullary main_cst_117 (constant S_ .f32 0x3F800000#32) ] := rfl

theorem dropC17 : List.drop 48 (opsC17 : List (HloOp τ sig (Elt F))) =
    [ binary main_v537 main_v642 main_v643 (mulf : (⟨S500000x32, .f32⟩ : BufTy).Contents (Elt F) → (⟨S500000x32, .f32⟩ : BufTy).Contents (Elt F) → (⟨S500000x32, .f32⟩ : BufTy).Contents (Elt F)),
      unary main_arg8 main_v644 ((extractStridedSlice S1x128x128x32 ![2, 0, 0, 0] · slices_S3x128x128x32_S1x128x128x32_2_0_0_0) : (⟨S3x128x128x32, .f32⟩ : BufTy).Contents (Elt F) → (⟨S1x128x128x32, .f32⟩ : BufTy).Contents (Elt F)),
      reshape main_v644 main_v645 rfl shapeCasts_S1x128x128x32_S128x128x32,
      nullary main_cst_182 (constant S_ .f32 0x00000000#32),
      nullary main_cst_183 (constant S_ .f32 0x3F800000#32) ] := rfl

end RefSide

/-- The running product of feature arrays, as the group that extends it leaves it. -/
theorem mulR2 (Y : Valuation Cert.ReferenceIdeal.τ Cert.ReferenceIdeal.sig (Elt F)) :
    after gR2 Y (Proc.devRef .tc Cert.ReferenceIdeal.main_v326)
      = mulf (after gR2 Y (Proc.devRef .tc Cert.ReferenceIdeal.main_v220)) (after gR2 Y (Proc.devRef .tc Cert.ReferenceIdeal.main_v325)) := by
  rw [after_drop (Cert.ReferenceIdeal.Chunks.opsC6 ++ Cert.ReferenceIdeal.Chunks.opsC7) Cert.ReferenceIdeal.Chunks.opsC8 _ 48 dropC8 Y]
  generalize after (Cert.ReferenceIdeal.Chunks.opsC6 ++ Cert.ReferenceIdeal.Chunks.opsC7 ++ List.take 48 Cert.ReferenceIdeal.Chunks.opsC8) Y = Z
  after_results_simp

theorem mulR3 (Y : Valuation Cert.ReferenceIdeal.τ Cert.ReferenceIdeal.sig (Elt F)) :
    after gR3 Y (Proc.devRef .tc Cert.ReferenceIdeal.main_v432)
      = mulf (after gR3 Y (Proc.devRef .tc Cert.ReferenceIdeal.main_v326)) (after gR3 Y (Proc.devRef .tc Cert.ReferenceIdeal.main_v431)) := by
  rw [after_drop (Cert.ReferenceIdeal.Chunks.opsC9 ++ Cert.ReferenceIdeal.Chunks.opsC10) Cert.ReferenceIdeal.Chunks.opsC11 _ 48 dropC11 Y]
  generalize after (Cert.ReferenceIdeal.Chunks.opsC9 ++ Cert.ReferenceIdeal.Chunks.opsC10 ++ List.take 48 Cert.ReferenceIdeal.Chunks.opsC11) Y = Z
  after_results_simp

theorem mulR5 (Y : Valuation Cert.ReferenceIdeal.τ Cert.ReferenceIdeal.sig (Elt F)) :
    after gR5 Y (Proc.devRef .tc Cert.ReferenceIdeal.main_v643)
      = mulf (after gR5 Y (Proc.devRef .tc Cert.ReferenceIdeal.main_v537)) (after gR5 Y (Proc.devRef .tc Cert.ReferenceIdeal.main_v642)) := by
  rw [after_drop (Cert.ReferenceIdeal.Chunks.opsC15 ++ Cert.ReferenceIdeal.Chunks.opsC16) Cert.ReferenceIdeal.Chunks.opsC17 _ 48 dropC17 Y]
  generalize after (Cert.ReferenceIdeal.Chunks.opsC15 ++ Cert.ReferenceIdeal.Chunks.opsC16 ++ List.take 48 Cert.ReferenceIdeal.Chunks.opsC17) Y = Z
  after_results_simp

section KerSide
open Cert.KernelIdeal Cert.KernelIdeal.Gen

theorem dropK52 : List.drop 115 (hostOps0_52 : List (HloOp τ sig (Elt F))) =
    [ StableHlo.nary ![main_v119, main_v224, main_v329, main_v434, main_v539, main_v644] main_v645 (fun u => concatenate S500000x192 1 [⟨S500000x32, u 0⟩, ⟨S500000x32, u 1⟩, ⟨S500000x32, u 2⟩, ⟨S500000x32, u 3⟩, ⟨S500000x32, u 4⟩, ⟨S500000x32, u 5⟩] concatenates_S500000x32_S500000x32_S500000x32_S500000x32_S500000x32_S500000x32_S500000x192_d1),
      StableHlo.reshape main_arg3 main_v646 rfl shapeCasts_S500000x16x3_S500000x48 ] := rfl

end KerSide

theorem gK6_tailcut (X : Valuation Cert.KernelIdeal.τ Cert.KernelIdeal.sig (Elt F)) :
    after gK6 X = after (List.drop 115 Cert.KernelIdeal.Gen.hostOps0_52) (after (Cert.KernelIdeal.Gen.hostOps0_45 ++ Cert.KernelIdeal.Gen.hostOps0_46 ++ Cert.KernelIdeal.Gen.hostOps0_47 ++ Cert.KernelIdeal.Gen.hostOps0_48 ++ Cert.KernelIdeal.Gen.hostOps0_49 ++ Cert.KernelIdeal.Gen.hostOps0_50 ++ Cert.KernelIdeal.Gen.hostOps0_51 ++ List.take 115 Cert.KernelIdeal.Gen.hostOps0_52) X) :=
  after_drop (Cert.KernelIdeal.Gen.hostOps0_45 ++ Cert.KernelIdeal.Gen.hostOps0_46 ++ Cert.KernelIdeal.Gen.hostOps0_47 ++ Cert.KernelIdeal.Gen.hostOps0_48 ++ Cert.KernelIdeal.Gen.hostOps0_49 ++ Cert.KernelIdeal.Gen.hostOps0_50 ++ Cert.KernelIdeal.Gen.hostOps0_51) Cert.KernelIdeal.Gen.hostOps0_52 _ 115 rfl X

/-- The feature array the region reads is the six interpolated arrays side by side. -/
theorem featsK (X : Valuation Cert.KernelIdeal.τ Cert.KernelIdeal.sig (Elt F)) :
    after gK6 X (Proc.devRef .tc Cert.KernelIdeal.main_v645)
      = concatenate Cert.KernelIdeal.S500000x192 1 [⟨Cert.KernelIdeal.S500000x32, after gK6 X (Proc.devRef .tc Cert.KernelIdeal.main_v119)⟩, ⟨Cert.KernelIdeal.S500000x32, after gK6 X (Proc.devRef .tc Cert.KernelIdeal.main_v224)⟩, ⟨Cert.KernelIdeal.S500000x32, after gK6 X (Proc.devRef .tc Cert.KernelIdeal.main_v329)⟩, ⟨Cert.KernelIdeal.S500000x32, after gK6 X (Proc.devRef .tc Cert.KernelIdeal.main_v434)⟩, ⟨Cert.KernelIdeal.S500000x32, after gK6 X (Proc.devRef .tc Cert.KernelIdeal.main_v539)⟩, ⟨Cert.KernelIdeal.S500000x32, after gK6 X (Proc.devRef .tc Cert.KernelIdeal.main_v644)⟩]
          Cert.KernelIdeal.Gen.concatenates_S500000x32_S500000x32_S500000x32_S500000x32_S500000x32_S500000x32_S500000x192_d1 := by
  rw [gK6_tailcut X, dropK52]
  generalize after (Cert.KernelIdeal.Gen.hostOps0_45 ++ Cert.KernelIdeal.Gen.hostOps0_46 ++ Cert.KernelIdeal.Gen.hostOps0_47 ++ Cert.KernelIdeal.Gen.hostOps0_48 ++ Cert.KernelIdeal.Gen.hostOps0_49 ++ Cert.KernelIdeal.Gen.hostOps0_50 ++ Cert.KernelIdeal.Gen.hostOps0_51 ++ List.take 115 Cert.KernelIdeal.Gen.hostOps0_52) X = Z
  after_results_simp
  rfl

/-- The residual the region reads is the argument regrouped from 16 x 3 to 48 columns. -/
theorem resK (X : Valuation Cert.KernelIdeal.τ Cert.KernelIdeal.sig (Elt F)) :
    after gK6 X (Proc.devRef .tc Cert.KernelIdeal.main_v646)
      = shapeCast Cert.KernelIdeal.S500000x48 (X (Proc.devRef .tc Cert.KernelIdeal.main_arg3)) Cert.KernelIdeal.Gen.shapeCasts_S500000x16x3_S500000x48 := by
  have h : after gK6 X (Proc.devRef .tc Cert.KernelIdeal.main_v646)
      = shapeCast Cert.KernelIdeal.S500000x48 (after gK6 X (Proc.devRef .tc Cert.KernelIdeal.main_arg3)) Cert.KernelIdeal.Gen.shapeCasts_S500000x16x3_S500000x48 := by
    rw [gK6_tailcut X, dropK52]
    generalize after (Cert.KernelIdeal.Gen.hostOps0_45 ++ Cert.KernelIdeal.Gen.hostOps0_46 ++ Cert.KernelIdeal.Gen.hostOps0_47 ++ Cert.KernelIdeal.Gen.hostOps0_48 ++ Cert.KernelIdeal.Gen.hostOps0_49 ++ Cert.KernelIdeal.Gen.hostOps0_50 ++ Cert.KernelIdeal.Gen.hostOps0_51 ++ List.take 115 Cert.KernelIdeal.Gen.hostOps0_52) X = Z
    after_results_simp
    rfl
  rw [h, kK6 (by decide)]

/-- A buffer no group writes holds its launch contents at the last level. -/
theorem keptR {r : Ref Cert.ReferenceIdeal.sig .tc} (hc : r ∉ gRc_W) (h0 : r ∉ gR0_W) (h1 : r ∉ gR1_W) (h2 : r ∉ gR2_W)
    (h3 : r ∉ gR3_W) (h4 : r ∉ gR4_W) (h5 : r ∉ gR5_W) (h6 : r ∉ gR6_W)
    (M' : Valuation Cert.ReferenceIdeal.τ Cert.ReferenceIdeal.sig (Elt F)) :
    lvR7 M' (Proc.devRef .tc r) = M' (Proc.devRef .tc r) := by
  dsimp only [lvR7, lvR6, lvR5, lvR4, lvR3, lvR2, lvR1, lvR0]
  rw [kR6 h6, kR5 h5, kR4 h4, kR3 h3, kR2 h2, kR1 h1, kR0 h0, kRc hc]

theorem keptR_arg3 (M' : Valuation Cert.ReferenceIdeal.τ Cert.ReferenceIdeal.sig (Elt F)) :
    lvR7 M' (Proc.devRef .tc Cert.ReferenceIdeal.main_arg3) = M' (Proc.devRef .tc Cert.ReferenceIdeal.main_arg3) :=
  keptR (by decide) (by decide) (by decide) (by decide) (by decide) (by decide) (by decide) (by decide) M'

theorem keptR_arg6 (M' : Valuation Cert.ReferenceIdeal.τ Cert.ReferenceIdeal.sig (Elt F)) :
    lvR7 M' (Proc.devRef .tc Cert.ReferenceIdeal.main_arg6) = M' (Proc.devRef .tc Cert.ReferenceIdeal.main_arg6) :=
  keptR (by decide) (by decide) (by decide) (by decide) (by decide) (by decide) (by decide) (by decide) M'

theorem keptR_arg9 (M' : Valuation Cert.ReferenceIdeal.τ Cert.ReferenceIdeal.sig (Elt F)) :
    lvR7 M' (Proc.devRef .tc Cert.ReferenceIdeal.main_arg9) = M' (Proc.devRef .tc Cert.ReferenceIdeal.main_arg9) :=
  keptR (by decide) (by decide) (by decide) (by decide) (by decide) (by decide) (by decide) (by decide) M'

theorem keptR_arg10 (M' : Valuation Cert.ReferenceIdeal.τ Cert.ReferenceIdeal.sig (Elt F)) :
    lvR7 M' (Proc.devRef .tc Cert.ReferenceIdeal.main_arg10) = M' (Proc.devRef .tc Cert.ReferenceIdeal.main_arg10) :=
  keptR (by decide) (by decide) (by decide) (by decide) (by decide) (by decide) (by decide) (by decide) M'

theorem keptR_arg11 (M' : Valuation Cert.ReferenceIdeal.τ Cert.ReferenceIdeal.sig (Elt F)) :
    lvR7 M' (Proc.devRef .tc Cert.ReferenceIdeal.main_arg11) = M' (Proc.devRef .tc Cert.ReferenceIdeal.main_arg11) :=
  keptR (by decide) (by decide) (by decide) (by decide) (by decide) (by decide) (by decide) (by decide) M'

theorem keptR_arg12 (M' : Valuation Cert.ReferenceIdeal.τ Cert.ReferenceIdeal.sig (Elt F)) :
    lvR7 M' (Proc.devRef .tc Cert.ReferenceIdeal.main_arg12) = M' (Proc.devRef .tc Cert.ReferenceIdeal.main_arg12) :=
  keptR (by decide) (by decide) (by decide) (by decide) (by decide) (by decide) (by decide) (by decide) M'

theorem keptR_arg13 (M' : Valuation Cert.ReferenceIdeal.τ Cert.ReferenceIdeal.sig (Elt F)) :
    lvR7 M' (Proc.devRef .tc Cert.ReferenceIdeal.main_arg13) = M' (Proc.devRef .tc Cert.ReferenceIdeal.main_arg13) :=
  keptR (by decide) (by decide) (by decide) (by decide) (by decide) (by decide) (by decide) (by decide) M'

theorem keptR_arg14 (M' : Valuation Cert.ReferenceIdeal.τ Cert.ReferenceIdeal.sig (Elt F)) :
    lvR7 M' (Proc.devRef .tc Cert.ReferenceIdeal.main_arg14) = M' (Proc.devRef .tc Cert.ReferenceIdeal.main_arg14) :=
  keptR (by decide) (by decide) (by decide) (by decide) (by decide) (by decide) (by decide) (by decide) M'

theorem keptK_arg3 (M : Valuation Cert.KernelIdeal.τ Cert.KernelIdeal.sig (Elt F)) :
    lvK6 M (Proc.devRef .tc Cert.KernelIdeal.main_arg3) = M (Proc.devRef .tc Cert.KernelIdeal.main_arg3) := by
  dsimp only [lvK6, lvK5, lvK4, lvK3, lvK2, lvK1]
  rw [kK5 (by decide), kK4 (by decide), kK3 (by decide), kK2 (by decide), kK1 (by decide), kK0 (by decide)]

/-- The spatial product at the last level. -/
theorem prodR_space (M' : Valuation Cert.ReferenceIdeal.τ Cert.ReferenceIdeal.sig (Elt F)) :
    lvR7 M' (Proc.devRef .tc Cert.ReferenceIdeal.main_v432)
      = mulf (mulf (lvR7 M' (Proc.devRef .tc Cert.ReferenceIdeal.main_v220)) (lvR7 M' (Proc.devRef .tc Cert.ReferenceIdeal.main_v325))) (lvR7 M' (Proc.devRef .tc Cert.ReferenceIdeal.main_v431)) := by
  have e432 : lvR7 M' (Proc.devRef .tc Cert.ReferenceIdeal.main_v432) = after gR3 (lvR3 M') (Proc.devRef .tc Cert.ReferenceIdeal.main_v432) := by
    dsimp only [lvR7, lvR6, lvR5, lvR4]
    rw [kR6 (by decide), kR5 (by decide), kR4 (by decide)]
  have e431 : lvR7 M' (Proc.devRef .tc Cert.ReferenceIdeal.main_v431) = after gR3 (lvR3 M') (Proc.devRef .tc Cert.ReferenceIdeal.main_v431) := by
    dsimp only [lvR7, lvR6, lvR5, lvR4]
    rw [kR6 (by decide), kR5 (by decide), kR4 (by decide)]
  have e326 : after gR3 (lvR3 M') (Proc.devRef .tc Cert.ReferenceIdeal.main_v326) = after gR2 (lvR2 M') (Proc.devRef .tc Cert.ReferenceIdeal.main_v326) := by
    rw [kR3 (by decide)]
  have e220 : lvR7 M' (Proc.devRef .tc Cert.ReferenceIdeal.main_v220) = after gR2 (lvR2 M') (Proc.devRef .tc Cert.ReferenceIdeal.main_v220) := by
    dsimp only [lvR7, lvR6, lvR5, lvR4, lvR3]
    rw [kR6 (by decide), kR5 (by decide), kR4 (by decide), kR3 (by decide)]
  have e325 : lvR7 M' (Proc.devRef .tc Cert.ReferenceIdeal.main_v325) = after gR2 (lvR2 M') (Proc.devRef .tc Cert.ReferenceIdeal.main_v325) := by
    dsimp only [lvR7, lvR6, lvR5, lvR4, lvR3]
    rw [kR6 (by decide), kR5 (by decide), kR4 (by decide), kR3 (by decide)]
  rw [e432, e431, e220, e325, mulR3, e326, mulR2]

/-- The temporal pair's product at the last level. -/
theorem prodR_time (M' : Valuation Cert.ReferenceIdeal.τ Cert.ReferenceIdeal.sig (Elt F)) :
    lvR7 M' (Proc.devRef .tc Cert.ReferenceIdeal.main_v643) = mulf (lvR7 M' (Proc.devRef .tc Cert.ReferenceIdeal.main_v537)) (lvR7 M' (Proc.devRef .tc Cert.ReferenceIdeal.main_v642)) := by
  have e643 : lvR7 M' (Proc.devRef .tc Cert.ReferenceIdeal.main_v643) = after gR5 (lvR5 M') (Proc.devRef .tc Cert.ReferenceIdeal.main_v643) := by
    dsimp only [lvR7, lvR6]
    rw [kR6 (by decide)]
  have e537 : lvR7 M' (Proc.devRef .tc Cert.ReferenceIdeal.main_v537) = after gR5 (lvR5 M') (Proc.devRef .tc Cert.ReferenceIdeal.main_v537) := by
    dsimp only [lvR7, lvR6]
    rw [kR6 (by decide)]
  have e642 : lvR7 M' (Proc.devRef .tc Cert.ReferenceIdeal.main_v642) = after gR5 (lvR5 M') (Proc.devRef .tc Cert.ReferenceIdeal.main_v642) := by
    dsimp only [lvR7, lvR6]
    rw [kR6 (by decide)]
  rw [e643, e537, e642, mulR5]

end Cert.Corr

end
-- ==== Proof.Bridge.lean ====
/-
  The two programs' last results are one function of the arguments: the kernel reads the six interpolated feature arrays as
  the six 32-column slices of their side-by-side join, the reference multiplies the arrays themselves, in the same grouping.
-/
import proofs.«414985_j5068061409687_4_alg».proof.Proof.KG
import proofs.«414985_j5068061409687_4_alg».proof.Proof.RefTail
import proofs.«414985_j5068061409687_4_alg».proof.Proof.Spec
import Idealize.ShloMosaic.Lib.ValueIdx
import Idealize.ShloMosaic.Lib.Pipeline.Value

noncomputable section

namespace Cert.Bridge

open Cert.Spec
open Idealize.ShloMosaic Idealize.ShloMosaic.TcCoe Idealize.SL.Sem Idealize.ShloMosaic.ValueIdx Idealize.ShloMosaic.StableHlo

/-- Six 32-column arrays side by side, at column `32 k + f`: column `f` of the `k`-th. -/
theorem concat6_apply (J : Fin 6 → (Cert.KernelIdeal.S500000x32.Idx → EReal))
    (h : Shape.Concatenates (([⟨Cert.KernelIdeal.S500000x32, J 0⟩, ⟨Cert.KernelIdeal.S500000x32, J 1⟩, ⟨Cert.KernelIdeal.S500000x32, J 2⟩, ⟨Cert.KernelIdeal.S500000x32, J 3⟩, ⟨Cert.KernelIdeal.S500000x32, J 4⟩, ⟨Cert.KernelIdeal.S500000x32, J 5⟩] : List ((s : Shape) × (s.Idx → EReal))).map (·.1)) Cert.KernelIdeal.S500000x192 1)
    (n : Fin 500000) (k : Fin 6) (f : Fin 32) :
    concatenate Cert.KernelIdeal.S500000x192 1 [⟨Cert.KernelIdeal.S500000x32, J 0⟩, ⟨Cert.KernelIdeal.S500000x32, J 1⟩, ⟨Cert.KernelIdeal.S500000x32, J 2⟩, ⟨Cert.KernelIdeal.S500000x32, J 3⟩, ⟨Cert.KernelIdeal.S500000x32, J 4⟩, ⟨Cert.KernelIdeal.S500000x32, J 5⟩] h (ix2 n (col k f))
      = J k (ix2 n f) := by
  have key : ∀ (kk : Nat) (hk : kk < 6), k.val = kk →
      concatenate Cert.KernelIdeal.S500000x192 1 [⟨Cert.KernelIdeal.S500000x32, J 0⟩, ⟨Cert.KernelIdeal.S500000x32, J 1⟩, ⟨Cert.KernelIdeal.S500000x32, J 2⟩, ⟨Cert.KernelIdeal.S500000x32, J 3⟩, ⟨Cert.KernelIdeal.S500000x32, J 4⟩, ⟨Cert.KernelIdeal.S500000x32, J 5⟩] h (ix2 n (col k f))
        = J ⟨kk, hk⟩ (ix2 n f) := by
    intro kk hk hkk
    refine concatenate_apply_piece (1 : Fin 2) _ h (ix2 n (col k f)) kk (by simpa using hk) Cert.KernelIdeal.S500000x32 (J ⟨kk, hk⟩) ?_ rfl (32 * kk) ?_ (ix2 n f) ?_ ?_
    · interval_cases kk <;> rfl
    · interval_cases kk <;> rfl
    · intro b hb
      match b with
      | ⟨0, _⟩ => rfl
      | ⟨1, _⟩ => exact absurd rfl hb
    · show 32 * kk + f.val = 32 * k.val + f.val
      rw [hkk]
  have := key k.val k.isLt rfl
  simpa using this

/-- An `a x b` block of each row laid out row-major as one row: entry `b * p + q` of the row is entry `(p, q)` of the block. -/
theorem flatten_ix2 {α : Type} {N a b : Nat} (x : (⟨3, ![N, a, b]⟩ : Shape).Idx → α)
    (h : (⟨3, ![N, a, b]⟩ : Shape).ShapeCasts ⟨2, ![N, a * b]⟩) (n : Fin N) (p : Fin a) (q : Fin b)
    (c : Fin (a * b)) (hc : c.val = b * p.val + q.val) :
    shapeCast ⟨2, ![N, a * b]⟩ x h (ix2 n c) = x (ix3 n p q) :=
  shapeCast_apply x h _ _ (by
    rw [Shape.rowMajor_val_two, Shape.rowMajor_val_three]
    show (n.val * a + p.val) * b + q.val = n.val * (a * b) + c.val
    rw [hc, Nat.add_mul, Nat.mul_assoc, Nat.mul_comm b p.val, Nat.add_assoc])

/-- At `(n, a, b)` both sides are the residual entry plus output `3 a + b` of the perceptron of row `n`'s six-fold product. -/
theorem bridge_ix (J : Fin 6 → (Cert.KernelIdeal.S500000x32.Idx → EReal))
    (hcat : Shape.Concatenates (([⟨Cert.KernelIdeal.S500000x32, J 0⟩, ⟨Cert.KernelIdeal.S500000x32, J 1⟩, ⟨Cert.KernelIdeal.S500000x32, J 2⟩, ⟨Cert.KernelIdeal.S500000x32, J 3⟩, ⟨Cert.KernelIdeal.S500000x32, J 4⟩, ⟨Cert.KernelIdeal.S500000x32, J 5⟩] : List ((s : Shape) × (s.Idx → EReal))).map (·.1)) Cert.KernelIdeal.S500000x192 1)
    (shs : Cert.KernelIdeal.S500000x16x3.Idx → EReal) (hres : Cert.KernelIdeal.S500000x16x3.ShapeCasts Cert.KernelIdeal.S500000x48) (hout : Cert.KernelIdeal.S500000x48.ShapeCasts Cert.KernelIdeal.S500000x16x3)
    (we : Vec Ideal Cert.KernelIdeal.S32x256 .f32) (be : Vec Ideal Cert.KernelIdeal.S256 .f32) (w1 : Vec Ideal Cert.KernelIdeal.S256x256 .f32) (b1 : Vec Ideal Cert.KernelIdeal.S256 .f32) (w2 : Vec Ideal Cert.KernelIdeal.S256x48 .f32) (b2 : Vec Ideal Cert.KernelIdeal.S48 .f32) :
    (fun i => shapeCast Cert.KernelIdeal.S500000x16x3 (Cert.KernelIdeal.Val.G (concatenate Cert.KernelIdeal.S500000x192 1 [⟨Cert.KernelIdeal.S500000x32, J 0⟩, ⟨Cert.KernelIdeal.S500000x32, J 1⟩, ⟨Cert.KernelIdeal.S500000x32, J 2⟩, ⟨Cert.KernelIdeal.S500000x32, J 3⟩, ⟨Cert.KernelIdeal.S500000x32, J 4⟩, ⟨Cert.KernelIdeal.S500000x32, J 5⟩] hcat) (shapeCast Cert.KernelIdeal.S500000x48 shs hres) we be w1 b1 w2 b2) hout i)
      = Cert.ReferenceIdeal.Tail.RTerm (F := Ideal) (mulf (mulf (J 0) (J 1)) (J 2)) (mulf (J 3) (J 4)) (J 5) shs we be w1 b1 w2 b2 := by
  funext i
  obtain ⟨n, a, b, rfl⟩ : ∃ (n : Fin 500000) (a : Fin 16) (b : Fin 3), i = ix3 n a b := ⟨i 0, i 1, i 2, eq_ix3 i⟩
  rw [Cert.ReferenceIdeal.Tail.RTerm_apply]
  rw [Cert.ReferenceIdeal.Tail.regroup_ix3 (a := 16) (b := 3) _ hout n a b ⟨3 * a.val + b.val, by omega⟩ rfl]
  show Cert.KernelIdeal.Val.Grow _ _ we be w1 b1 w2 b2 n ⟨3 * a.val + b.val, by omega⟩ = _
  have hres' : shapeCast Cert.KernelIdeal.S500000x48 shs hres (ix2 n ⟨3 * a.val + b.val, by omega⟩) = shs (ix3 n a b) :=
    flatten_ix2 (a := 16) (b := 3) shs hres n a b ⟨3 * a.val + b.val, by omega⟩ rfl
  simp only [Cert.KernelIdeal.Val.Grow, concat6_apply, mulf_apply, prod6, hres']

end Cert.Bridge

end
-- ==== Proof.Final.lean ====
/-
  The two programs' fourth results are one function of the arguments, once the six interpolated feature arrays agree.
-/
import proofs.«414985_j5068061409687_4_alg».proof.Proof.KTail
import proofs.«414985_j5068061409687_4_alg».proof.Proof.CorrDefs
import proofs.«414985_j5068061409687_4_alg».proof.Proof.CorrExtra
import proofs.«414985_j5068061409687_4_alg».proof.Proof.RefTail
import proofs.«414985_j5068061409687_4_alg».proof.Proof.RefRun
import proofs.«414985_j5068061409687_4_alg».proof.Proof.Bridge

noncomputable section

namespace Cert.Final

open Cert.Corr
open Idealize.ShloMosaic Idealize.ShloMosaic.TcCoe Idealize.SL.Sem Idealize.ShloMosaic.ValueIdx Idealize.ShloMosaic.StableHlo

/-- The run's operation list and the level-by-level one are the same list. -/
theorem opsAll_eq {F : FTy → Type} [FloatOps F] :
    (Cert.ReferenceIdeal.RunC.opsAll : List (HloOp Cert.ReferenceIdeal.τ Cert.ReferenceIdeal.sig (Elt F))) = Cert.Corr.opsR := rfl

/-- The reference's fourth result: `RTerm` of the spatial product, the first two temporal arrays' product, the third, and the arguments. -/
theorem ref_v766 (M' : Valuation Cert.ReferenceIdeal.τ Cert.ReferenceIdeal.sig (Elt Ideal)) :
    after Cert.ReferenceIdeal.RunC.opsAll M' (Proc.devRef .tc Cert.ReferenceIdeal.main_v766)
      = Cert.ReferenceIdeal.Tail.RTerm (F := Ideal)
          (mulf (mulf (lvR7 M' (Proc.devRef .tc Cert.ReferenceIdeal.main_v220)) (lvR7 M' (Proc.devRef .tc Cert.ReferenceIdeal.main_v325))) (lvR7 M' (Proc.devRef .tc Cert.ReferenceIdeal.main_v431)))
          (mulf (lvR7 M' (Proc.devRef .tc Cert.ReferenceIdeal.main_v537)) (lvR7 M' (Proc.devRef .tc Cert.ReferenceIdeal.main_v642)))
          (lvR7 M' (Proc.devRef .tc Cert.ReferenceIdeal.main_v748))
          (M' (Proc.devRef .tc Cert.ReferenceIdeal.main_arg3)) (M' (Proc.devRef .tc Cert.ReferenceIdeal.main_arg9))
          (M' (Proc.devRef .tc Cert.ReferenceIdeal.main_arg10)) (M' (Proc.devRef .tc Cert.ReferenceIdeal.main_arg11))
          (M' (Proc.devRef .tc Cert.ReferenceIdeal.main_arg12)) (M' (Proc.devRef .tc Cert.ReferenceIdeal.main_arg13))
          (M' (Proc.devRef .tc Cert.ReferenceIdeal.main_arg14)) := by
  rw [opsAll_eq, afterR_eq, Cert.ReferenceIdeal.Tail.tail_v766, prodR_space, prodR_time, keptR_arg3, keptR_arg9, keptR_arg10,
    keptR_arg11, keptR_arg12, keptR_arg13, keptR_arg14]

/-- The kernel's feature array is the six interpolated arrays side by side. -/
theorem feats_lv (M : Valuation Cert.KernelIdeal.τ Cert.KernelIdeal.sig (Elt Ideal)) :
    lvK7 M (Proc.devRef .tc Cert.KernelIdeal.main_v645)
      = concatenate Cert.KernelIdeal.S500000x192 1 [⟨Cert.KernelIdeal.S500000x32, lvK7 M (Proc.devRef .tc Cert.KernelIdeal.main_v119)⟩, ⟨Cert.KernelIdeal.S500000x32, lvK7 M (Proc.devRef .tc Cert.KernelIdeal.main_v224)⟩, ⟨Cert.KernelIdeal.S500000x32, lvK7 M (Proc.devRef .tc Cert.KernelIdeal.main_v329)⟩, ⟨Cert.KernelIdeal.S500000x32, lvK7 M (Proc.devRef .tc Cert.KernelIdeal.main_v434)⟩, ⟨Cert.KernelIdeal.S500000x32, lvK7 M (Proc.devRef .tc Cert.KernelIdeal.main_v539)⟩, ⟨Cert.KernelIdeal.S500000x32, lvK7 M (Proc.devRef .tc Cert.KernelIdeal.main_v644)⟩] Cert.KernelIdeal.Gen.concatenates_S500000x32_S500000x32_S500000x32_S500000x32_S500000x32_S500000x32_S500000x192_d1 :=
  featsK (lvK6 M)

/-- Its residual array is the residual argument regrouped to 48 columns. -/
theorem res_lv (M : Valuation Cert.KernelIdeal.τ Cert.KernelIdeal.sig (Elt Ideal)) :
    lvK7 M (Proc.devRef .tc Cert.KernelIdeal.main_v646)
      = shapeCast Cert.KernelIdeal.S500000x48 (M (Proc.devRef .tc Cert.KernelIdeal.main_arg3)) Cert.KernelIdeal.Gen.shapeCasts_S500000x16x3_S500000x48 :=
  (resK (lvK6 M)).trans (by rw [keptK_arg3 M])

/-- What the region reads in a buffer is the last level's contents of it. -/
theorem V_eq (m : (ℓ : Loc Cert.KernelIdeal.nD Cert.KernelIdeal.τ Cert.KernelIdeal.sig) → Buf (Elt Ideal) ℓ) (c : Dev Cert.KernelIdeal.nD) (b : Ref Cert.KernelIdeal.sig .tc) :
    Cert.KernelIdeal.Fr.V m c b = lvK7 (fun b => m (c, b)) (Proc.devRef .tc b) :=
  congrFun (V0_eq m c) _

theorem bridge6 (J0 J1 J2 J3 J4 J5 : Cert.KernelIdeal.S500000x32.Idx → EReal)
    (hcat : Shape.Concatenates (([⟨Cert.KernelIdeal.S500000x32, J0⟩, ⟨Cert.KernelIdeal.S500000x32, J1⟩, ⟨Cert.KernelIdeal.S500000x32, J2⟩, ⟨Cert.KernelIdeal.S500000x32, J3⟩, ⟨Cert.KernelIdeal.S500000x32, J4⟩, ⟨Cert.KernelIdeal.S500000x32, J5⟩] : List ((s : Shape) × (s.Idx → EReal))).map (·.1)) Cert.KernelIdeal.S500000x192 1)
    (shs : Cert.KernelIdeal.S500000x16x3.Idx → EReal) (hres : Cert.KernelIdeal.S500000x16x3.ShapeCasts Cert.KernelIdeal.S500000x48) (hout : Cert.KernelIdeal.S500000x48.ShapeCasts Cert.KernelIdeal.S500000x16x3)
    (we : Vec Ideal Cert.KernelIdeal.S32x256 .f32) (be : Vec Ideal Cert.KernelIdeal.S256 .f32) (w1 : Vec Ideal Cert.KernelIdeal.S256x256 .f32) (b1 : Vec Ideal Cert.KernelIdeal.S256 .f32) (w2 : Vec Ideal Cert.KernelIdeal.S256x48 .f32) (b2 : Vec Ideal Cert.KernelIdeal.S48 .f32) :
    (fun i => shapeCast Cert.KernelIdeal.S500000x16x3 (Cert.KernelIdeal.Val.G (concatenate Cert.KernelIdeal.S500000x192 1 [⟨Cert.KernelIdeal.S500000x32, J0⟩, ⟨Cert.KernelIdeal.S500000x32, J1⟩, ⟨Cert.KernelIdeal.S500000x32, J2⟩, ⟨Cert.KernelIdeal.S500000x32, J3⟩, ⟨Cert.KernelIdeal.S500000x32, J4⟩, ⟨Cert.KernelIdeal.S500000x32, J5⟩] hcat) (shapeCast Cert.KernelIdeal.S500000x48 shs hres) we be w1 b1 w2 b2) hout i)
      = Cert.ReferenceIdeal.Tail.RTerm (F := Ideal) (mulf (mulf J0 J1) J2) (mulf J3 J4) J5 shs we be w1 b1 w2 b2 :=
  Cert.Bridge.bridge_ix ![J0, J1, J2, J3, J4, J5] hcat shs hres hout we be w1 b1 w2 b2

/-- With equal arguments and equal feature arrays, the kernel's regrouped output is the reference's fourth result. -/
theorem result_eq (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (hfeats : lvK7 (fun b => m (c, b)) (Proc.devRef .tc Cert.KernelIdeal.main_v119) = lvR7 (launchContents m' c) (Proc.devRef .tc Cert.ReferenceIdeal.main_v220)
      ∧ lvK7 (fun b => m (c, b)) (Proc.devRef .tc Cert.KernelIdeal.main_v224) = lvR7 (launchContents m' c) (Proc.devRef .tc Cert.ReferenceIdeal.main_v325)
      ∧ lvK7 (fun b => m (c, b)) (Proc.devRef .tc Cert.KernelIdeal.main_v329) = lvR7 (launchContents m' c) (Proc.devRef .tc Cert.ReferenceIdeal.main_v431)
      ∧ lvK7 (fun b => m (c, b)) (Proc.devRef .tc Cert.KernelIdeal.main_v434) = lvR7 (launchContents m' c) (Proc.devRef .tc Cert.ReferenceIdeal.main_v537)
      ∧ lvK7 (fun b => m (c, b)) (Proc.devRef .tc Cert.KernelIdeal.main_v539) = lvR7 (launchContents m' c) (Proc.devRef .tc Cert.ReferenceIdeal.main_v642)
      ∧ lvK7 (fun b => m (c, b)) (Proc.devRef .tc Cert.KernelIdeal.main_v644) = lvR7 (launchContents m' c) (Proc.devRef .tc Cert.ReferenceIdeal.main_v748)) :
    (fun i => shapeCast Cert.KernelIdeal.S500000x16x3 (Cert.KernelIdeal.Val.Gm m c) Cert.KernelIdeal.Gen.shapeCasts_S500000x48_S500000x16x3 i)
      = after Cert.ReferenceIdeal.RunC.opsAll (launchContents m' c) (Proc.devRef .tc Cert.ReferenceIdeal.main_v766) := by
  obtain ⟨-, -, -, h3, -, -, -, -, -, h9, h10, h11, h12, h13, h14⟩ := hagree
  obtain ⟨f0, f1, f2, f3, f4, f5⟩ := hfeats

  have h3' : launchContents m' c (Proc.devRef .tc Cert.ReferenceIdeal.main_arg3) = m ((c.tc : Thread Cert.KernelIdeal.nD Cert.KernelIdeal.τ).loc Cert.KernelIdeal.main_arg3) := h3
  have h9' : launchContents m' c (Proc.devRef .tc Cert.ReferenceIdeal.main_arg9) = m ((c.tc : Thread Cert.KernelIdeal.nD Cert.KernelIdeal.τ).loc Cert.KernelIdeal.main_arg9) := h9
  have h10' : launchContents m' c (Proc.devRef .tc Cert.ReferenceIdeal.main_arg10) = m ((c.tc : Thread Cert.KernelIdeal.nD Cert.KernelIdeal.τ).loc Cert.KernelIdeal.main_arg10) := h10
  have h11' : launchContents m' c (Proc.devRef .tc Cert.ReferenceIdeal.main_arg11) = m ((c.tc : Thread Cert.KernelIdeal.nD Cert.KernelIdeal.τ).loc Cert.KernelIdeal.main_arg11) := h11
  have h12' : launchContents m' c (Proc.devRef .tc Cert.ReferenceIdeal.main_arg12) = m ((c.tc : Thread Cert.KernelIdeal.nD Cert.KernelIdeal.τ).loc Cert.KernelIdeal.main_arg12) := h12
  have h13' : launchContents m' c (Proc.devRef .tc Cert.ReferenceIdeal.main_arg13) = m ((c.tc : Thread Cert.KernelIdeal.nD Cert.KernelIdeal.τ).loc Cert.KernelIdeal.main_arg13) := h13
  have h14' : launchContents m' c (Proc.devRef .tc Cert.ReferenceIdeal.main_arg14) = m ((c.tc : Thread Cert.KernelIdeal.nD Cert.KernelIdeal.τ).loc Cert.KernelIdeal.main_arg14) := h14
  rw [ref_v766, ← f0, ← f1, ← f2, ← f3, ← f4, ← f5, h3', h9', h10', h11', h12', h13', h14']

  have e0 : Cert.KernelIdeal.Fr.V m c (Pipeline.arrRef Cert.KernelIdeal.spec0 0) = lvK7 (fun b => m (c, b)) (Proc.devRef .tc Cert.KernelIdeal.main_v645) := V_eq m c _
  have e1 : Cert.KernelIdeal.Fr.V m c (Pipeline.arrRef Cert.KernelIdeal.spec0 1) = lvK7 (fun b => m (c, b)) (Proc.devRef .tc Cert.KernelIdeal.main_v646) := V_eq m c _
  have e2 : Cert.KernelIdeal.Fr.V m c (Pipeline.arrRef Cert.KernelIdeal.spec0 2) = m ((c.tc : Thread Cert.KernelIdeal.nD Cert.KernelIdeal.τ).loc Cert.KernelIdeal.main_arg9) := Cert.KernelIdeal.Fr.V_main_arg9 m c
  have e3 : Cert.KernelIdeal.Fr.V m c (Pipeline.arrRef Cert.KernelIdeal.spec0 3) = m ((c.tc : Thread Cert.KernelIdeal.nD Cert.KernelIdeal.τ).loc Cert.KernelIdeal.main_arg10) := Cert.KernelIdeal.Fr.V_main_arg10 m c
  have e4 : Cert.KernelIdeal.Fr.V m c (Pipeline.arrRef Cert.KernelIdeal.spec0 4) = m ((c.tc : Thread Cert.KernelIdeal.nD Cert.KernelIdeal.τ).loc Cert.KernelIdeal.main_arg11) := Cert.KernelIdeal.Fr.V_main_arg11 m c
  have e5 : Cert.KernelIdeal.Fr.V m c (Pipeline.arrRef Cert.KernelIdeal.spec0 5) = m ((c.tc : Thread Cert.KernelIdeal.nD Cert.KernelIdeal.τ).loc Cert.KernelIdeal.main_arg12) := Cert.KernelIdeal.Fr.V_main_arg12 m c
  have e6 : Cert.KernelIdeal.Fr.V m c (Pipeline.arrRef Cert.KernelIdeal.spec0 6) = m ((c.tc : Thread Cert.KernelIdeal.nD Cert.KernelIdeal.τ).loc Cert.KernelIdeal.main_arg13) := Cert.KernelIdeal.Fr.V_main_arg13 m c
  have e7 : Cert.KernelIdeal.Fr.V m c (Pipeline.arrRef Cert.KernelIdeal.spec0 7) = m ((c.tc : Thread Cert.KernelIdeal.nD Cert.KernelIdeal.τ).loc Cert.KernelIdeal.main_arg14) := Cert.KernelIdeal.Fr.V_main_arg14 m c
  unfold Cert.KernelIdeal.Val.Gm
  rw [e0, e1, e2, e3, e4, e5, e6, e7, feats_lv, res_lv]

  generalize lvK7 (fun b => m (c, b)) (Proc.devRef .tc Cert.KernelIdeal.main_v119) = J0
  generalize lvK7 (fun b => m (c, b)) (Proc.devRef .tc Cert.KernelIdeal.main_v224) = J1
  generalize lvK7 (fun b => m (c, b)) (Proc.devRef .tc Cert.KernelIdeal.main_v329) = J2
  generalize lvK7 (fun b => m (c, b)) (Proc.devRef .tc Cert.KernelIdeal.main_v434) = J3
  generalize lvK7 (fun b => m (c, b)) (Proc.devRef .tc Cert.KernelIdeal.main_v539) = J4
  generalize lvK7 (fun b => m (c, b)) (Proc.devRef .tc Cert.KernelIdeal.main_v644) = J5
  exact bridge6 J0 J1 J2 J3 J4 J5 _ _ _ _ _ _ _ _ _ _

end Cert.Final

end
-- ==== Proof.lean ====
/-
  The certificate's claim. The kernel's program, the same program read over the extended reals, and the reference each run
  to the end and leave their fifteen argument arrays as launched; and the last two, started from memories that agree on the
  arguments, end with the same four results.

  For each of 500000 points six bilinear lookups into feature planes give six 32-vectors; their entrywise product passes
  through a three-layer perceptron, 32 → 256 → 256 → 48 with a rectifier after the first two layers; the 48 outputs are
  regrouped as 16 x 3 and added to a residual array. Two arguments are handed back unchanged, and one more result is the
  first column of the seventh argument.

  The two programs agree because the operations that interpolate the six features are the same on both sides, on buffers
  with other names; the kernel multiplies the six 32-column slices of their side-by-side join where the reference multiplies
  the arrays, in the same grouping; each perceptron layer is the same finite sum of the same products read at one row and
  one output; and the blocks of 2000 rows tile the 500000 rows. Nothing is reordered, so no entry needs to be finite.
-/
import proofs.«414985_j5068061409687_4_alg».proof.Defs
import proofs.«414985_j5068061409687_4_alg».proof.Proof.Gen.Kernel
import proofs.«414985_j5068061409687_4_alg».proof.Proof.Gen.Kernel.Skeleton
import proofs.«414985_j5068061409687_4_alg».proof.Proof.Gen.Kernel.Launch
import proofs.«414985_j5068061409687_4_alg».proof.Proof.Gen.Kernel.Points
import proofs.«414985_j5068061409687_4_alg».proof.Proof.Gen.KernelIdeal
import proofs.«414985_j5068061409687_4_alg».proof.Proof.Gen.KernelIdeal.Skeleton
import proofs.«414985_j5068061409687_4_alg».proof.Proof.Gen.KernelIdeal.Launch
import proofs.«414985_j5068061409687_4_alg».proof.Proof.Gen.KernelIdeal.Points
import proofs.«414985_j5068061409687_4_alg».proof.Proof.Gen.ReferenceIdeal
import proofs.«414985_j5068061409687_4_alg».proof.Proof.Gen.Pre_finite_inputs
import proofs.«414985_j5068061409687_4_alg».proof.Proof.FrRunK
import proofs.«414985_j5068061409687_4_alg».proof.Proof.FrRunKI
import proofs.«414985_j5068061409687_4_alg».proof.Proof.KTail
import proofs.«414985_j5068061409687_4_alg».proof.Proof.RefRun
import proofs.«414985_j5068061409687_4_alg».proof.Proof.RefTail
import proofs.«414985_j5068061409687_4_alg».proof.Proof.CorrAll
import proofs.«414985_j5068061409687_4_alg».proof.Proof.CorrExtra
import proofs.«414985_j5068061409687_4_alg».proof.Proof.Final
import Idealize.ShloMosaic.Adequacy
import Idealize.ShloMosaic.Init

set_option maxRecDepth 16384

noncomputable section

namespace Cert.Proof

open Idealize.ShloMosaic Idealize.SL.Sem Idealize.ShloMosaic.TcCoe Idealize.ShloMosaic.StableHlo

/-- The kernel's program runs and leaves its arguments as launched. -/
theorem frameK : Cert.frame_Kernel (hKernel := Cert.Kernel.Gen.facts) (hPre_finite_inputs := Cert.Pre_finite_inputs.Gen.facts) :=
  fun m ρ _ => Cert.Kernel.Fr.frame m ρ

/-- So does the same program read over the extended reals. -/
theorem frameKI : Cert.frame_KernelIdeal (hKernelIdeal := Cert.KernelIdeal.Gen.facts) (hPre_finite_inputs := Cert.Pre_finite_inputs.Gen.facts) :=
  fun m ρ _ => Cert.KernelIdeal.Fr.frame m ρ

/-- So does the reference: no operation of it writes an argument. -/
theorem frameR : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun r h c =>
    ⟨(h c Cert.ReferenceIdeal.main_arg0).trans (Cert.ReferenceIdeal.RunC.kept_arg0 _),
      (h c Cert.ReferenceIdeal.main_arg1).trans (Cert.ReferenceIdeal.RunC.kept_arg1 _),
      (h c Cert.ReferenceIdeal.main_arg2).trans (Cert.ReferenceIdeal.RunC.kept_arg2 _),
      (h c Cert.ReferenceIdeal.main_arg3).trans (Cert.ReferenceIdeal.RunC.kept_arg3 _),
      (h c Cert.ReferenceIdeal.main_arg4).trans (Cert.ReferenceIdeal.RunC.kept_arg4 _),
      (h c Cert.ReferenceIdeal.main_arg5).trans (Cert.ReferenceIdeal.RunC.kept_arg5 _),
      (h c Cert.ReferenceIdeal.main_arg6).trans (Cert.ReferenceIdeal.RunC.kept_arg6 _),
      (h c Cert.ReferenceIdeal.main_arg7).trans (Cert.ReferenceIdeal.RunC.kept_arg7 _),
      (h c Cert.ReferenceIdeal.main_arg8).trans (Cert.ReferenceIdeal.RunC.kept_arg8 _),
      (h c Cert.ReferenceIdeal.main_arg9).trans (Cert.ReferenceIdeal.RunC.kept_arg9 _),
      (h c Cert.ReferenceIdeal.main_arg10).trans (Cert.ReferenceIdeal.RunC.kept_arg10 _),
      (h c Cert.ReferenceIdeal.main_arg11).trans (Cert.ReferenceIdeal.RunC.kept_arg11 _),
      (h c Cert.ReferenceIdeal.main_arg12).trans (Cert.ReferenceIdeal.RunC.kept_arg12 _),
      (h c Cert.ReferenceIdeal.main_arg13).trans (Cert.ReferenceIdeal.RunC.kept_arg13 _),
      (h c Cert.ReferenceIdeal.main_arg14).trans (Cert.ReferenceIdeal.RunC.kept_arg14 _)⟩) (Cert.ReferenceIdeal.RunC.run_after (F := Ideal) m ρ)

/-- The reference's run with its four results named. -/
theorem refRun (m' : (ℓ : Loc Cert.ReferenceIdeal.nD Cert.ReferenceIdeal.τ Cert.ReferenceIdeal.sig) → Buf (Elt Ideal) ℓ) (ρ' : Dev Cert.ReferenceIdeal.nD → PrngReg)
    (v0 : (c : Dev Cert.ReferenceIdeal.nD) → Buf (Elt Ideal) ((c.tc : Thread Cert.ReferenceIdeal.nD Cert.ReferenceIdeal.τ).loc Cert.ReferenceIdeal.main_arg0))
    (v1 : (c : Dev Cert.ReferenceIdeal.nD) → Buf (Elt Ideal) ((c.tc : Thread Cert.ReferenceIdeal.nD Cert.ReferenceIdeal.τ).loc Cert.ReferenceIdeal.main_arg1))
    (v2 : (c : Dev Cert.ReferenceIdeal.nD) → Buf (Elt Ideal) ((c.tc : Thread Cert.ReferenceIdeal.nD Cert.ReferenceIdeal.τ).loc Cert.ReferenceIdeal.main_v767))
    (v3 : (c : Dev Cert.ReferenceIdeal.nD) → Buf (Elt Ideal) ((c.tc : Thread Cert.ReferenceIdeal.nD Cert.ReferenceIdeal.τ).loc Cert.ReferenceIdeal.main_v766))
    (h0 : ∀ c : Dev Cert.ReferenceIdeal.nD, m' ((c.tc : Thread Cert.ReferenceIdeal.nD Cert.ReferenceIdeal.τ).loc Cert.ReferenceIdeal.main_arg0) = v0 c)
    (h1 : ∀ c : Dev Cert.ReferenceIdeal.nD, m' ((c.tc : Thread Cert.ReferenceIdeal.nD Cert.ReferenceIdeal.τ).loc Cert.ReferenceIdeal.main_arg1) = v1 c)
    (h2 : ∀ c : Dev Cert.ReferenceIdeal.nD, extractStridedSlice Cert.ReferenceIdeal.S500000x1 ![0, 0] (m' ((c.tc : Thread Cert.ReferenceIdeal.nD Cert.ReferenceIdeal.τ).loc Cert.ReferenceIdeal.main_arg6)) Cert.ReferenceIdeal.Gen.slices_S500000x2_S500000x1_0_0 = v2 c)
    (h3 : ∀ c : Dev Cert.ReferenceIdeal.nD, after Cert.ReferenceIdeal.RunC.opsAll (launchContents m' c) (Proc.devRef .tc Cert.ReferenceIdeal.main_v766) = v3 c) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_arg0) = v0 c
      ∧ r.2.mem ((c.tc : Thread Cert.ReferenceIdeal.nD Cert.ReferenceIdeal.τ).loc Cert.ReferenceIdeal.main_arg1) = v1 c
      ∧ r.2.mem ((c.tc : Thread Cert.ReferenceIdeal.nD Cert.ReferenceIdeal.τ).loc Cert.ReferenceIdeal.main_v767) = v2 c
      ∧ r.2.mem ((c.tc : Thread Cert.ReferenceIdeal.nD Cert.ReferenceIdeal.τ).loc Cert.ReferenceIdeal.main_v766) = v3 c
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)) :=
  (θ_run Cert.ReferenceIdeal.defs _ _).mono (fun r h c =>
    ⟨(h c Cert.ReferenceIdeal.main_arg0).trans ((Cert.ReferenceIdeal.RunC.kept_arg0 _).trans (h0 c)),
      (h c Cert.ReferenceIdeal.main_arg1).trans ((Cert.ReferenceIdeal.RunC.kept_arg1 _).trans (h1 c)),
      (h c Cert.ReferenceIdeal.main_v767).trans
        ((congrFun (Cert.Corr.afterR_eq (launchContents m' c)) (Proc.devRef .tc Cert.ReferenceIdeal.main_v767)).trans
          ((Cert.ReferenceIdeal.Tail.tail_v767 (Cert.Corr.lvR7 (launchContents m' c))).trans
            ((congrArg (fun x => extractStridedSlice Cert.ReferenceIdeal.S500000x1 ![0, 0] x Cert.ReferenceIdeal.Gen.slices_S500000x2_S500000x1_0_0)
              (Cert.Corr.keptR_arg6 (launchContents m' c))).trans (h2 c)))),
      (h c Cert.ReferenceIdeal.main_v766).trans (h3 c),
      (h c Cert.ReferenceIdeal.main_arg0).trans (Cert.ReferenceIdeal.RunC.kept_arg0 _),
      (h c Cert.ReferenceIdeal.main_arg1).trans (Cert.ReferenceIdeal.RunC.kept_arg1 _),
      (h c Cert.ReferenceIdeal.main_arg2).trans (Cert.ReferenceIdeal.RunC.kept_arg2 _),
      (h c Cert.ReferenceIdeal.main_arg3).trans (Cert.ReferenceIdeal.RunC.kept_arg3 _),
      (h c Cert.ReferenceIdeal.main_arg4).trans (Cert.ReferenceIdeal.RunC.kept_arg4 _),
      (h c Cert.ReferenceIdeal.main_arg5).trans (Cert.ReferenceIdeal.RunC.kept_arg5 _),
      (h c Cert.ReferenceIdeal.main_arg6).trans (Cert.ReferenceIdeal.RunC.kept_arg6 _),
      (h c Cert.ReferenceIdeal.main_arg7).trans (Cert.ReferenceIdeal.RunC.kept_arg7 _),
      (h c Cert.ReferenceIdeal.main_arg8).trans (Cert.ReferenceIdeal.RunC.kept_arg8 _),
      (h c Cert.ReferenceIdeal.main_arg9).trans (Cert.ReferenceIdeal.RunC.kept_arg9 _),
      (h c Cert.ReferenceIdeal.main_arg10).trans (Cert.ReferenceIdeal.RunC.kept_arg10 _),
      (h c Cert.ReferenceIdeal.main_arg11).trans (Cert.ReferenceIdeal.RunC.kept_arg11 _),
      (h c Cert.ReferenceIdeal.main_arg12).trans (Cert.ReferenceIdeal.RunC.kept_arg12 _),
      (h c Cert.ReferenceIdeal.main_arg13).trans (Cert.ReferenceIdeal.RunC.kept_arg13 _),
      (h c Cert.ReferenceIdeal.main_arg14).trans (Cert.ReferenceIdeal.RunC.kept_arg14 _)⟩)
    (Cert.ReferenceIdeal.RunC.run_after (F := Ideal) m' ρ')

/-- From memories that agree on the arguments both programs end with the same four results. -/
theorem alg : Cert.algebraic_KernelIdeal_ReferenceIdeal (hKernelIdeal := Cert.KernelIdeal.Gen.facts) (hReferenceIdeal := Cert.ReferenceIdeal.Gen.facts) (hPre_finite_inputs := Cert.Pre_finite_inputs.Gen.facts) :=
  fun m ρ m' ρ' _ hagree =>
    ⟨fun c => m ((c.tc : Thread Cert.KernelIdeal.nD Cert.KernelIdeal.τ).loc Cert.KernelIdeal.main_arg0),
      fun c => m ((c.tc : Thread Cert.KernelIdeal.nD Cert.KernelIdeal.τ).loc Cert.KernelIdeal.main_arg1),
      fun c => extractStridedSlice Cert.KernelIdeal.S500000x1 ![0, 0] (m ((c.tc : Thread Cert.KernelIdeal.nD Cert.KernelIdeal.τ).loc Cert.KernelIdeal.main_arg6)) Cert.KernelIdeal.Gen.slices_S500000x2_S500000x1_0_0,
      fun c => (fun i => shapeCast Cert.KernelIdeal.S500000x16x3 (Cert.KernelIdeal.Val.Gm m c) Cert.KernelIdeal.Gen.shapeCasts_S500000x48_S500000x16x3 i),
      Cert.KernelIdeal.Val.run_all m ρ,
      refRun m' ρ'
        (fun c => m ((c.tc : Thread Cert.KernelIdeal.nD Cert.KernelIdeal.τ).loc Cert.KernelIdeal.main_arg0))
        (fun c => m ((c.tc : Thread Cert.KernelIdeal.nD Cert.KernelIdeal.τ).loc Cert.KernelIdeal.main_arg1))
        (fun c => extractStridedSlice Cert.KernelIdeal.S500000x1 ![0, 0] (m ((c.tc : Thread Cert.KernelIdeal.nD Cert.KernelIdeal.τ).loc Cert.KernelIdeal.main_arg6)) Cert.KernelIdeal.Gen.slices_S500000x2_S500000x1_0_0)
        (fun c => (fun i => shapeCast Cert.KernelIdeal.S500000x16x3 (Cert.KernelIdeal.Val.Gm m c) Cert.KernelIdeal.Gen.shapeCasts_S500000x48_S500000x16x3 i))
        (fun c => (hagree c).1)
        (fun c => (hagree c).2.1)
        (fun c => congrArg (fun x => extractStridedSlice Cert.ReferenceIdeal.S500000x1 ![0, 0] x Cert.ReferenceIdeal.Gen.slices_S500000x2_S500000x1_0_0) (hagree c).2.2.2.2.2.2.1)
        (fun c => (Cert.Final.result_eq m m' c (hagree c)
          (Cert.Corr.feats_agree (fun b => m (c, b)) (launchContents m' c) (hagree c).1.symm (hagree c).2.2.2.2.2.1.symm
            (hagree c).2.2.2.2.2.2.2.1.symm (hagree c).2.2.2.2.2.2.2.2.1.symm)).symm)⟩

/-- All five claims. -/
theorem claim : Cert.Claim :=
  ⟨Cert.Kernel.Gen.facts, Cert.KernelIdeal.Gen.facts, Cert.ReferenceIdeal.Gen.facts, Cert.Pre_finite_inputs.Gen.facts,
    frameK, frameKI, frameR, trivial, alg⟩

end Cert.Proof

end
